-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v76)) (v1 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_v74) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8x1024 : Shape := ⟨3, ![64, 8, 1024]⟩
abbrev S64x8 : Shape := ⟨2, ![64, 8]⟩
abbrev S3x1024 : Shape := ⟨2, ![3, 1024]⟩
abbrev S3 : Shape := ⟨1, ![3]⟩
abbrev S20000x1024 : Shape := ⟨2, ![20000, 1024]⟩
abbrev S20000 : Shape := ⟨1, ![20000]⟩
abbrev S1024x1024 : Shape := ⟨2, ![1024, 1024]⟩
abbrev S20000x256 : Shape := ⟨2, ![20000, 256]⟩
abbrev S256x1024 : Shape := ⟨2, ![256, 1024]⟩
abbrev S160000x64 : Shape := ⟨2, ![160000, 64]⟩
abbrev S160000 : Shape := ⟨1, ![160000]⟩
abbrev S64x1024 : Shape := ⟨2, ![64, 1024]⟩
abbrev S67735x16 : Shape := ⟨2, ![67735, 16]⟩
abbrev S67735 : Shape := ⟨1, ![67735]⟩
abbrev S16x1024 : Shape := ⟨2, ![16, 1024]⟩
abbrev S_ : Shape := ⟨0, ![]⟩

class Facts : Prop where
  bcast_S_S64x8x1024 : S_.BroadcastsInDim S64x8x1024 (![] : Fin 0 → Fin S64x8x1024.rank)
  reducesTo_S64x8x1024_S_d0_1_2 : S64x8x1024.ReducesTo [0, 1, 2] S_
  h_S_ : 0 < S_.numel
  bcast_S_S3x1024 : S_.BroadcastsInDim S3x1024 (![] : Fin 0 → Fin S3x1024.rank)
  reducesTo_S3x1024_S_d0_1 : S3x1024.ReducesTo [0, 1] S_
  bcast_S_S3 : S_.BroadcastsInDim S3 (![] : Fin 0 → Fin S3.rank)
  reducesTo_S3_S_d0 : S3.ReducesTo [0] S_
  bcast_S_S20000x1024 : S_.BroadcastsInDim S20000x1024 (![] : Fin 0 → Fin S20000x1024.rank)
  reducesTo_S20000x1024_S_d0_1 : S20000x1024.ReducesTo [0, 1] S_
  bcast_S_S20000 : S_.BroadcastsInDim S20000 (![] : Fin 0 → Fin S20000.rank)
  reducesTo_S20000_S_d0 : S20000.ReducesTo [0] S_
  bcast_S_S1024x1024 : S_.BroadcastsInDim S1024x1024 (![] : Fin 0 → Fin S1024x1024.rank)
  reducesTo_S1024x1024_S_d0_1 : S1024x1024.ReducesTo [0, 1] S_
  bcast_S_S20000x256 : S_.BroadcastsInDim S20000x256 (![] : Fin 0 → Fin S20000x256.rank)
  reducesTo_S20000x256_S_d0_1 : S20000x256.ReducesTo [0, 1] S_
  bcast_S_S256x1024 : S_.BroadcastsInDim S256x1024 (![] : Fin 0 → Fin S256x1024.rank)
  reducesTo_S256x1024_S_d0_1 : S256x1024.ReducesTo [0, 1] S_
  bcast_S_S160000x64 : S_.BroadcastsInDim S160000x64 (![] : Fin 0 → Fin S160000x64.rank)
  reducesTo_S160000x64_S_d0_1 : S160000x64.ReducesTo [0, 1] S_
  bcast_S_S160000 : S_.BroadcastsInDim S160000 (![] : Fin 0 → Fin S160000.rank)
  reducesTo_S160000_S_d0 : S160000.ReducesTo [0] S_
  bcast_S_S64x1024 : S_.BroadcastsInDim S64x1024 (![] : Fin 0 → Fin S64x1024.rank)
  reducesTo_S64x1024_S_d0_1 : S64x1024.ReducesTo [0, 1] S_
  bcast_S_S67735x16 : S_.BroadcastsInDim S67735x16 (![] : Fin 0 → Fin S67735x16.rank)
  reducesTo_S67735x16_S_d0_1 : S67735x16.ReducesTo [0, 1] S_
  bcast_S_S67735 : S_.BroadcastsInDim S67735 (![] : Fin 0 → Fin S67735.rank)
  reducesTo_S67735_S_d0 : S67735.ReducesTo [0] S_
  bcast_S_S16x1024 : S_.BroadcastsInDim S16x1024 (![] : Fin 0 → Fin S16x1024.rank)
  reducesTo_S16x1024_S_d0_1 : S16x1024.ReducesTo [0, 1] S_

variable [Facts]

def fn_part4 {F : FTy → Type} [FloatOps F] (main_arg15 : FVec F S16x1024 .f32) (main_v63 : IVec S_ 1) (main_v67 : IVec S_ 1) : IVec S_ 1 :=
  let main_v68 : IVec S_ 1 := andi main_v63 main_v67
  let main_v69 : FVec F S16x1024 .f32 := Host.absf main_arg15
  let main_cst_26 : FVec F S_ .f32 := constant S_ .f32 0x7F800000#32
  let main_v70 : FVec F S16x1024 .f32 := broadcastInDim S16x1024 ![] bcast_S_S16x1024 main_cst_26
  let main_v71 : IVec S16x1024 1 := cmpf .olt main_v69 main_v70
  let main_c_27 : IVec S_ 1 := constantI S_ 1 1#1
  let main_v72 : IVec S_ 1 := (fun x v => Host.reduce IntOp.andi x v reducesTo_S16x1024_S_d0_1 h_S_) main_v71 main_c_27
  let main_v73 : IVec S_ 1 := andi main_v68 main_v72
  main_v73

def fn_part3 {F : FTy → Type} [FloatOps F] (main_arg12 : FVec F S64x1024 .f32) (main_arg13 : FVec F S67735x16 .f32) (main_arg14 : FVec F S67735 .f32) (main_arg15 : FVec F S16x1024 .f32) (main_v48 : IVec S_ 1) (main_v49 : FVec F S160000 .f32) (main_v50 : FVec F S160000 .f32) : IVec S_ 1 :=
  let main_v51 : IVec S160000 1 := cmpf .olt main_v49 main_v50
  let main_c_19 : IVec S_ 1 := constantI S_ 1 1#1
  let main_v52 : IVec S_ 1 := (fun x v => Host.reduce IntOp.andi x v reducesTo_S160000_S_d0 h_S_) main_v51 main_c_19
  let main_v53 : IVec S_ 1 := andi main_v48 main_v52
  let main_v54 : FVec F S64x1024 .f32 := Host.absf main_arg12
  let main_cst_20 : FVec F S_ .f32 := constant S_ .f32 0x7F800000#32
  let main_v55 : FVec F S64x1024 .f32 := broadcastInDim S64x1024 ![] bcast_S_S64x1024 main_cst_20
  let main_v56 : IVec S64x1024 1 := cmpf .olt main_v54 main_v55
  let main_c_21 : IVec S_ 1 := constantI S_ 1 1#1
  let main_v57 : IVec S_ 1 := (fun x v => Host.reduce IntOp.andi x v reducesTo_S64x1024_S_d0_1 h_S_) main_v56 main_c_21
  let main_v58 : IVec S_ 1 := andi main_v53 main_v57
  let main_v59 : FVec F S67735x16 .f32 := Host.absf main_arg13
  let main_cst_22 : FVec F S_ .f32 := constant S_ .f32 0x7F800000#32
  let main_v60 : FVec F S67735x16 .f32 := broadcastInDim S67735x16 ![] bcast_S_S67735x16 main_cst_22
  let main_v61 : IVec S67735x16 1 := cmpf .olt main_v59 main_v60
  let main_c_23 : IVec S_ 1 := constantI S_ 1 1#1
  let main_v62 : IVec S_ 1 := (fun x v => Host.reduce IntOp.andi x v reducesTo_S67735x16_S_d0_1 h_S_) main_v61 main_c_23
  let main_v63 : IVec S_ 1 := andi main_v58 main_v62
  let main_v64 : FVec F S67735 .f32 := Host.absf main_arg14
  let main_cst_24 : FVec F S_ .f32 := constant S_ .f32 0x7F800000#32
  let main_v65 : FVec F S67735 .f32 := broadcastInDim S67735 ![] bcast_S_S67735 main_cst_24
  let main_v66 : IVec S67735 1 := cmpf .olt main_v64 main_v65
  let main_c_25 : IVec S_ 1 := constantI S_ 1 1#1
  let main_v67 : IVec S_ 1 := (fun x v => Host.reduce IntOp.andi x v reducesTo_S67735_S_d0 h_S_) main_v66 main_c_25
  fn_part4 (F := F) main_arg15 main_v63 main_v67

def fn_part2 {F : FTy → Type} [FloatOps F] (main_arg8 : FVec F S20000 .f32) (main_arg9 : FVec F S256x1024 .f32) (main_arg10 : FVec F S160000x64 .f32) (main_arg11 : FVec F S160000 .f32) (main_arg12 : FVec F S64x1024 .f32) (main_arg13 : FVec F S67735x16 .f32) (main_arg14 : FVec F S67735 .f32) (main_arg15 : FVec F S16x1024 .f32) (main_v33 : IVec S_ 1) : IVec S_ 1 :=
  let main_v34 : FVec F S20000 .f32 := Host.absf main_arg8
  let main_cst_12 : FVec F S_ .f32 := constant S_ .f32 0x7F800000#32
  let main_v35 : FVec F S20000 .f32 := broadcastInDim S20000 ![] bcast_S_S20000 main_cst_12
  let main_v36 : IVec S20000 1 := cmpf .olt main_v34 main_v35
  let main_c_13 : IVec S_ 1 := constantI S_ 1 1#1
  let main_v37 : IVec S_ 1 := (fun x v => Host.reduce IntOp.andi x v reducesTo_S20000_S_d0 h_S_) main_v36 main_c_13
  let main_v38 : IVec S_ 1 := andi main_v33 main_v37
  let main_v39 : FVec F S256x1024 .f32 := Host.absf main_arg9
  let main_cst_14 : FVec F S_ .f32 := constant S_ .f32 0x7F800000#32
  let main_v40 : FVec F S256x1024 .f32 := broadcastInDim S256x1024 ![] bcast_S_S256x1024 main_cst_14
  let main_v41 : IVec S256x1024 1 := cmpf .olt main_v39 main_v40
  let main_c_15 : IVec S_ 1 := constantI S_ 1 1#1
  let main_v42 : IVec S_ 1 := (fun x v => Host.reduce IntOp.andi x v reducesTo_S256x1024_S_d0_1 h_S_) main_v41 main_c_15
  let main_v43 : IVec S_ 1 := andi main_v38 main_v42
  let main_v44 : FVec F S160000x64 .f32 := Host.absf main_arg10
  let main_cst_16 : FVec F S_ .f32 := constant S_ .f32 0x7F800000#32
  let main_v45 : FVec F S160000x64 .f32 := broadcastInDim S160000x64 ![] bcast_S_S160000x64 main_cst_16
  let main_v46 : IVec S160000x64 1 := cmpf .olt main_v44 main_v45
  let main_c_17 : IVec S_ 1 := constantI S_ 1 1#1
  let main_v47 : IVec S_ 1 := (fun x v => Host.reduce IntOp.andi x v reducesTo_S160000x64_S_d0_1 h_S_) main_v46 main_c_17
  let main_v48 : IVec S_ 1 := andi main_v43 main_v47
  let main_v49 : FVec F S160000 .f32 := Host.absf main_arg11
  let main_cst_18 : FVec F S_ .f32 := constant S_ .f32 0x7F800000#32
  let main_v50 : FVec F S160000 .f32 := broadcastInDim S160000 ![] bcast_S_S160000 main_cst_18
  fn_part3 (F := F) main_arg12 main_arg13 main_arg14 main_arg15 main_v48 main_v49 main_v50

def fn_part1 {F : FTy → Type} [FloatOps F] (main_arg5 : FVec F S20000 .f32) (main_arg6 : FVec F S1024x1024 .f32) (main_arg7 : FVec F S20000x256 .f32) (main_arg8 : FVec F S20000 .f32) (main_arg9 : FVec F S256x1024 .f32) (main_arg10 : FVec F S160000x64 .f32) (main_arg11 : FVec F S160000 .f32) (main_arg12 : FVec F S64x1024 .f32) (main_arg13 : FVec F S67735x16 .f32) (main_arg14 : FVec F S67735 .f32) (main_arg15 : FVec F S16x1024 .f32) (main_v13 : IVec S_ 1) (main_v16 : IVec S20000x1024 1) : IVec S_ 1 :=
  let main_c_5 : IVec S_ 1 := constantI S_ 1 1#1
  let main_v17 : IVec S_ 1 := (fun x v => Host.reduce IntOp.andi x v reducesTo_S20000x1024_S_d0_1 h_S_) main_v16 main_c_5
  let main_v18 : IVec S_ 1 := andi main_v13 main_v17
  let main_v19 : FVec F S20000 .f32 := Host.absf main_arg5
  let main_cst_6 : FVec F S_ .f32 := constant S_ .f32 0x7F800000#32
  let main_v20 : FVec F S20000 .f32 := broadcastInDim S20000 ![] bcast_S_S20000 main_cst_6
  let main_v21 : IVec S20000 1 := cmpf .olt main_v19 main_v20
  let main_c_7 : IVec S_ 1 := constantI S_ 1 1#1
  let main_v22 : IVec S_ 1 := (fun x v => Host.reduce IntOp.andi x v reducesTo_S20000_S_d0 h_S_) main_v21 main_c_7
  let main_v23 : IVec S_ 1 := andi main_v18 main_v22
  let main_v24 : FVec F S1024x1024 .f32 := Host.absf main_arg6
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S20000x256 .f32 := Host.absf main_arg7
  let main_cst_10 : FVec F S_ .f32 := constant S_ .f32 0x7F800000#32
  let main_v30 : FVec F S20000x256 .f32 := broadcastInDim S20000x256 ![] bcast_S_S20000x256 main_cst_10
  let main_v31 : IVec S20000x256 1 := cmpf .olt main_v29 main_v30
  let main_c_11 : IVec S_ 1 := constantI S_ 1 1#1
  let main_v32 : IVec S_ 1 := (fun x v => Host.reduce IntOp.andi x v reducesTo_S20000x256_S_d0_1 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S64x8x1024 .f32) (main_arg1 : IVec S64x8 32) (main_arg2 : FVec F S3x1024 .f32) (main_arg3 : FVec F S3 .f32) (main_arg4 : FVec F S20000x1024 .f32) (main_arg5 : FVec F S20000 .f32) (main_arg6 : FVec F S1024x1024 .f32) (main_arg7 : FVec F S20000x256 .f32) (main_arg8 : FVec F S20000 .f32) (main_arg9 : FVec F S256x1024 .f32) (main_arg10 : FVec F S160000x64 .f32) (main_arg11 : FVec F S160000 .f32) (main_arg12 : FVec F S64x1024 .f32) (main_arg13 : FVec F S67735x16 .f32) (main_arg14 : FVec F S67735 .f32) (main_arg15 : FVec F S16x1024 .f32) : IVec S_ 1 :=
  let main_v0 : FVec F S64x8x1024 .f32 := Host.absf main_arg0
  let main_cst : FVec F S_ .f32 := constant S_ .f32 0x7F800000#32
  let main_v1 : FVec F S64x8x1024 .f32 := broadcastInDim S64x8x1024 ![] bcast_S_S64x8x1024 main_cst
  let main_v2 : IVec S64x8x1024 1 := cmpf .olt main_v0 main_v1
  let main_c : IVec S_ 1 := constantI S_ 1 1#1
  let main_v3 : IVec S_ 1 := (fun x v => Host.reduce IntOp.andi x v reducesTo_S64x8x1024_S_d0_1_2 h_S_) main_v2 main_c
  let main_v4 : FVec F S3x1024 .f32 := Host.absf main_arg2
  let main_cst_0 : FVec F S_ .f32 := constant S_ .f32 0x7F800000#32
  let main_v5 : FVec F S3x1024 .f32 := broadcastInDim S3x1024 ![] bcast_S_S3x1024 main_cst_0
  let main_v6 : IVec S3x1024 1 := cmpf .olt main_v4 main_v5
  let main_c_1 : IVec S_ 1 := constantI S_ 1 1#1
  let main_v7 : IVec S_ 1 := (fun x v => Host.reduce IntOp.andi x v reducesTo_S3x1024_S_d0_1 h_S_) main_v6 main_c_1
  let main_v8 : IVec S_ 1 := andi main_v3 main_v7
  let main_v9 : FVec F S3 .f32 := Host.absf main_arg3
  let main_cst_2 : FVec F S_ .f32 := constant S_ .f32 0x7F800000#32
  let main_v10 : FVec F S3 .f32 := broadcastInDim S3 ![] bcast_S_S3 main_cst_2
  let main_v11 : IVec S3 1 := cmpf .olt main_v9 main_v10
  let main_c_3 : IVec S_ 1 := constantI S_ 1 1#1
  let main_v12 : IVec S_ 1 := (fun x v => Host.reduce IntOp.andi x v reducesTo_S3_S_d0 h_S_) main_v11 main_c_3
  let main_v13 : IVec S_ 1 := andi main_v8 main_v12
  let main_v14 : FVec F S20000x1024 .f32 := Host.absf main_arg4
  let main_cst_4 : FVec F S_ .f32 := constant S_ .f32 0x7F800000#32
  let main_v15 : FVec F S20000x1024 .f32 := broadcastInDim S20000x1024 ![] bcast_S_S20000x1024 main_cst_4
  let main_v16 : IVec S20000x1024 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S64x8x1024 : Shape := ⟨3, ![64, 8, 1024]⟩
abbrev S64x8 : Shape := ⟨2, ![64, 8]⟩
abbrev S3x1024 : Shape := ⟨2, ![3, 1024]⟩
abbrev S3 : Shape := ⟨1, ![3]⟩
abbrev S20000x1024 : Shape := ⟨2, ![20000, 1024]⟩
abbrev S20000 : Shape := ⟨1, ![20000]⟩
abbrev S1024x1024 : Shape := ⟨2, ![1024, 1024]⟩
abbrev S20000x256 : Shape := ⟨2, ![20000, 256]⟩
abbrev S256x1024 : Shape := ⟨2, ![256, 1024]⟩
abbrev S160000x64 : Shape := ⟨2, ![160000, 64]⟩
abbrev S160000 : Shape := ⟨1, ![160000]⟩
abbrev S64x1024 : Shape := ⟨2, ![64, 1024]⟩
abbrev S67735x16 : Shape := ⟨2, ![67735, 16]⟩
abbrev S67735 : Shape := ⟨1, ![67735]⟩
abbrev S16x1024 : Shape := ⟨2, ![16, 1024]⟩
abbrev S512x1024 : Shape := ⟨2, ![512, 1024]⟩
abbrev S512 : Shape := ⟨1, ![512]⟩
abbrev S20003x1024 : Shape := ⟨2, ![20003, 1024]⟩
abbrev S20003 : Shape := ⟨1, ![20003]⟩
abbrev S1024x256 : Shape := ⟨2, ![1024, 256]⟩
abbrev S512x256 : Shape := ⟨2, ![512, 256]⟩
abbrev S1024x64 : Shape := ⟨2, ![1024, 64]⟩
abbrev S512x64 : Shape := ⟨2, ![512, 64]⟩
abbrev S1024x16 : Shape := ⟨2, ![1024, 16]⟩
abbrev S512x16 : Shape := ⟨2, ![512, 16]⟩
abbrev S512x1 : Shape := ⟨2, ![512, 1]⟩
abbrev S2048x1024 : Shape := ⟨2, ![2048, 1024]⟩
abbrev S2048 : Shape := ⟨1, ![2048]⟩
abbrev S512x2048 : Shape := ⟨2, ![512, 2048]⟩
abbrev S1x2048 : Shape := ⟨2, ![1, 2048]⟩
abbrev S512x20003 : Shape := ⟨2, ![512, 20003]⟩
abbrev S512x20000 : Shape := ⟨2, ![512, 20000]⟩
abbrev S512x3 : Shape := ⟨2, ![512, 3]⟩
abbrev S2048x256 : Shape := ⟨2, ![2048, 256]⟩
abbrev S4096x64 : Shape := ⟨2, ![4096, 64]⟩
abbrev S4096 : Shape := ⟨1, ![4096]⟩
abbrev S512x4096 : Shape := ⟨2, ![512, 4096]⟩
abbrev S1x4096 : Shape := ⟨2, ![1, 4096]⟩
abbrev S512x160000 : Shape := ⟨2, ![512, 160000]⟩
abbrev S4096x16 : Shape := ⟨2, ![4096, 16]⟩
abbrev S512x67735 : Shape := ⟨2, ![512, 67735]⟩
abbrev S_ : Shape := ⟨0, ![]⟩
abbrev S512x1x1 : Shape := ⟨3, ![512, 1, 1]⟩
abbrev S1 : Shape := ⟨1, ![1]⟩
abbrev S1x1x1 : Shape := ⟨3, ![1, 1, 1]⟩
abbrev S512x267735 : Shape := ⟨2, ![512, 267735]⟩
abbrev S64x8x267735 : Shape := ⟨3, ![64, 8, 267735]⟩

abbrev nBuf : Space → Nat
  | .hbm => 219
  | .vmem => 67
  | .smem => 0
  | _ => 0

abbrev hbmTy0_0 (i : Nat) : BufTy := match i % 128 with
  | 0 => ⟨S64x8x1024, .f32⟩
  | 1 => ⟨S64x8, .i32⟩
  | 2 => ⟨S3x1024, .f32⟩
  | 3 => ⟨S3, .f32⟩
  | 4 => ⟨S20000x1024, .f32⟩
  | 5 => ⟨S20000, .f32⟩
  | 6 => ⟨S1024x1024, .f32⟩
  | 7 => ⟨S20000x256, .f32⟩
  | 8 => ⟨S20000, .f32⟩
  | 9 => ⟨S256x1024, .f32⟩
  | 10 => ⟨S160000x64, .f32⟩
  | 11 => ⟨S160000, .f32⟩
  | 12 => ⟨S64x1024, .f32⟩
  | 13 => ⟨S67735x16, .f32⟩
  | 14 => ⟨S67735, .f32⟩
  | 15 => ⟨S16x1024, .f32⟩
  | 16 => ⟨S512x1024, .f32⟩
  | 17 => ⟨S512, .i32⟩
  | 18 => ⟨S20003x1024, .f32⟩
  | 19 => ⟨S20003, .f32⟩
  | 20 => ⟨S1024x1024, .f32⟩
  | 21 => ⟨S512x1024, .f32⟩
  | 22 => ⟨S1024x256, .f32⟩
  | 23 => ⟨S512x256, .f32⟩
  | 24 => ⟨S1024x64, .f32⟩
  | 25 => ⟨S512x64, .f32⟩
  | 26 => ⟨S1024x16, .f32⟩
  | 27 => ⟨S512x16, .f32⟩
  | 28 => ⟨S512x1, .f32⟩
  | 29 => ⟨S512x20003, .f32⟩
  | 30 => ⟨S512x20000, .f32⟩
  | 31 => ⟨S512x3, .f32⟩
  | 32 => ⟨S512x1, .f32⟩
  | 33 => ⟨S512x1, .f32⟩
  | 34 => ⟨S512x20000, .f32⟩
  | 35 => ⟨S512x1, .f32⟩
  | 36 => ⟨S512x1, .f32⟩
  | 37 => ⟨S512x160000, .f32⟩
  | 38 => ⟨S512x1, .f32⟩
  | 39 => ⟨S512x1, .f32⟩
  | 40 => ⟨S512x67735, .f32⟩
  | 41 => ⟨S_, .f32⟩
  | 42 => ⟨S512, .f32⟩
  | 43 => ⟨S_, .i32⟩
  | 44 => ⟨S512, .i32⟩
  | 45 => ⟨S512, .i1⟩
  | 46 => ⟨S_, .i32⟩
  | 47 => ⟨S512, .i32⟩
  | 48 => ⟨S512, .i1⟩
  | 49 => ⟨S512, .i1⟩
  | 50 => ⟨S_, .i32⟩
  | 51 => ⟨S_, .i32⟩
  | 52 => ⟨S_, .i32⟩
  | 53 => ⟨S512, .i32⟩
  | 54 => ⟨S512, .i32⟩
  | 55 => ⟨S_, .i32⟩
  | 56 => ⟨S512, .i32⟩
  | 57 => ⟨S512, .i32⟩
  | 58 => ⟨S512x1, .i32⟩
  | 59 => ⟨S_, .i32⟩
  | 60 => ⟨S512x1, .i32⟩
  | 61 => ⟨S512x1, .i1⟩
  | 62 => ⟨S_, .i32⟩
  | 63 => ⟨S512x1, .i32⟩
  | 64 => ⟨S512x1, .i32⟩
  | 65 => ⟨S512x1, .i32⟩
  | 66 => ⟨S512x1x1, .i32⟩
  | 67 => ⟨S1, .i32⟩
  | 68 => ⟨S_, .i32⟩
  | 69 => ⟨S512x1x1, .i32⟩
  | 70 => ⟨S512x1x1, .i1⟩
  | 71 => ⟨S1x1x1, .i32⟩
  | 72 => ⟨S512x1x1, .i32⟩
  | 73 => ⟨S512x1x1, .i1⟩
  | 74 => ⟨S512x1x1, .i1⟩
  | 75 => ⟨S_, .i1⟩
  | 76 => ⟨S512x1, .i1⟩
  | 77 => ⟨S512x1, .f32⟩
  | 78 => ⟨S_, .f32⟩
  | 79 => ⟨S512x1, .f32⟩
  | 80 => ⟨S512x1, .f32⟩
  | 81 => ⟨S512, .f32⟩
  | 82 => ⟨S512, .f32⟩
  | 83 => ⟨S_, .i32⟩
  | 84 => ⟨S512, .i32⟩
  | 85 => ⟨S512, .i1⟩
  | 86 => ⟨S_, .i32⟩
  | 87 => ⟨S512, .i32⟩
  | 88 => ⟨S512, .i1⟩
  | 89 => ⟨S512, .i1⟩
  | 90 => ⟨S_, .i32⟩
  | 91 => ⟨S512, .i32⟩
  | 92 => ⟨S512, .i32⟩
  | 93 => ⟨S_, .i32⟩
  | 94 => ⟨S_, .i32⟩
  | 95 => ⟨S_, .i32⟩
  | 96 => ⟨S512, .i32⟩
  | 97 => ⟨S512, .i32⟩
  | 98 => ⟨S_, .i32⟩
  | 99 => ⟨S512, .i32⟩
  | 100 => ⟨S512, .i32⟩
  | 101 => ⟨S512x1, .i32⟩
  | 102 => ⟨S_, .i32⟩
  | 103 => ⟨S512x1, .i32⟩
  | 104 => ⟨S512x1, .i1⟩
  | 105 => ⟨S_, .i32⟩
  | 106 => ⟨S512x1, .i32⟩
  | 107 => ⟨S512x1, .i32⟩
  | 108 => ⟨S512x1, .i32⟩
  | 109 => ⟨S512x1x1, .i32⟩
  | 110 => ⟨S1, .i32⟩
  | 111 => ⟨S_, .i32⟩
  | 112 => ⟨S512x1x1, .i32⟩
  | 113 => ⟨S512x1x1, .i1⟩
  | 114 => ⟨S1x1x1, .i32⟩
  | 115 => ⟨S512x1x1, .i32⟩
  | 116 => ⟨S512x1x1, .i1⟩
  | 117 => ⟨S512x1x1, .i1⟩
  | 118 => ⟨S_, .i1⟩
  | 119 => ⟨S512x1, .i1⟩
  | 120 => ⟨S512x1, .f32⟩
  | 121 => ⟨S_, .f32⟩
  | 122 => ⟨S512x1, .f32⟩
  | 123 => ⟨S512x1, .f32⟩
  | 124 => ⟨S512, .f32⟩
  | 125 => ⟨S512, .f32⟩
  | 126 => ⟨S_, .i32⟩
  | 127 => ⟨S512, .i32⟩
  | _ => ⟨S64x8x1024, .f32⟩

abbrev hbmTy0_1 (i : Nat) : BufTy := match i % 128 with
  | 0 => ⟨S512, .i1⟩
  | 1 => ⟨S_, .i32⟩
  | 2 => ⟨S512, .i32⟩
  | 3 => ⟨S512, .i1⟩
  | 4 => ⟨S512, .i1⟩
  | 5 => ⟨S_, .i32⟩
  | 6 => ⟨S512, .i32⟩
  | 7 => ⟨S512, .i32⟩
  | 8 => ⟨S_, .i32⟩
  | 9 => ⟨S_, .i32⟩
  | 10 => ⟨S_, .i32⟩
  | 11 => ⟨S512, .i32⟩
  | 12 => ⟨S512, .i32⟩
  | 13 => ⟨S_, .i32⟩
  | 14 => ⟨S512, .i32⟩
  | 15 => ⟨S512, .i32⟩
  | 16 => ⟨S512x1, .i32⟩
  | 17 => ⟨S_, .i32⟩
  | 18 => ⟨S512x1, .i32⟩
  | 19 => ⟨S512x1, .i1⟩
  | 20 => ⟨S_, .i32⟩
  | 21 => ⟨S512x1, .i32⟩
  | 22 => ⟨S512x1, .i32⟩
  | 23 => ⟨S512x1, .i32⟩
  | 24 => ⟨S512x1x1, .i32⟩
  | 25 => ⟨S1, .i32⟩
  | 26 => ⟨S_, .i32⟩
  | 27 => ⟨S512x1x1, .i32⟩
  | 28 => ⟨S512x1x1, .i1⟩
  | 29 => ⟨S1x1x1, .i32⟩
  | 30 => ⟨S512x1x1, .i32⟩
  | 31 => ⟨S512x1x1, .i1⟩
  | 32 => ⟨S512x1x1, .i1⟩
  | 33 => ⟨S_, .i1⟩
  | 34 => ⟨S512x1, .i1⟩
  | 35 => ⟨S512x1, .f32⟩
  | 36 => ⟨S_, .f32⟩
  | 37 => ⟨S512x1, .f32⟩
  | 38 => ⟨S512x1, .f32⟩
  | 39 => ⟨S512, .f32⟩
  | 40 => ⟨S512, .f32⟩
  | 41 => ⟨S_, .i32⟩
  | 42 => ⟨S512, .i32⟩
  | 43 => ⟨S512, .i1⟩
  | 44 => ⟨S_, .i32⟩
  | 45 => ⟨S512, .i32⟩
  | 46 => ⟨S512, .i1⟩
  | 47 => ⟨S512, .i1⟩
  | 48 => ⟨S_, .i32⟩
  | 49 => ⟨S512, .i32⟩
  | 50 => ⟨S512, .i32⟩
  | 51 => ⟨S_, .i32⟩
  | 52 => ⟨S_, .i32⟩
  | 53 => ⟨S_, .i32⟩
  | 54 => ⟨S512, .i32⟩
  | 55 => ⟨S512, .i32⟩
  | 56 => ⟨S_, .i32⟩
  | 57 => ⟨S512, .i32⟩
  | 58 => ⟨S512, .i32⟩
  | 59 => ⟨S512x1, .i32⟩
  | 60 => ⟨S_, .i32⟩
  | 61 => ⟨S512x1, .i32⟩
  | 62 => ⟨S512x1, .i1⟩
  | 63 => ⟨S_, .i32⟩
  | 64 => ⟨S512x1, .i32⟩
  | 65 => ⟨S512x1, .i32⟩
  | 66 => ⟨S512x1, .i32⟩
  | 67 => ⟨S512x1x1, .i32⟩
  | 68 => ⟨S1, .i32⟩
  | 69 => ⟨S_, .i32⟩
  | 70 => ⟨S512x1x1, .i32⟩
  | 71 => ⟨S512x1x1, .i1⟩
  | 72 => ⟨S1x1x1, .i32⟩
  | 73 => ⟨S512x1x1, .i32⟩
  | 74 => ⟨S512x1x1, .i1⟩
  | 75 => ⟨S512x1x1, .i1⟩
  | 76 => ⟨S_, .i1⟩
  | 77 => ⟨S512x1, .i1⟩
  | 78 => ⟨S512x1, .f32⟩
  | 79 => ⟨S_, .f32⟩
  | 80 => ⟨S512x1, .f32⟩
  | 81 => ⟨S512x1, .f32⟩
  | 82 => ⟨S512, .f32⟩
  | 83 => ⟨S512, .f32⟩
  | 84 => ⟨S512, .f32⟩
  | 85 => ⟨S_, .f32⟩
  | 86 => ⟨S_, .f32⟩
  | 87 => ⟨S_, .f32⟩
  | 88 => ⟨S_, .f32⟩
  | 89 => ⟨S512x267735, .f32⟩
  | 90 => ⟨S64x8x267735, .f32⟩
  | _ => ⟨S64x8x1024, .f32⟩

abbrev hbmTy (i : Nat) : BufTy := match i / 128 with
  | 0 => hbmTy0_0 i
  | 1 => hbmTy0_1 i
  | _ => ⟨S64x8x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S2048x1024, .f32⟩
  | .local _ .vmem, ⟨2, _⟩ => ⟨S2048x1024, .f32⟩
  | .local _ .vmem, ⟨3, _⟩ => ⟨S2048, .f32⟩
  | .local _ .vmem, ⟨4, _⟩ => ⟨S2048, .f32⟩
  | .local _ .vmem, ⟨5, _⟩ => ⟨S512x1, .f32⟩
  | .local _ .vmem, ⟨6, _⟩ => ⟨S512x1, .f32⟩
  | .local _ .vmem, ⟨7, _⟩ => ⟨S512x1, .f32⟩
  | .local _ .vmem, ⟨8, _⟩ => ⟨S512x1024, .f32⟩
  | .local _ .vmem, ⟨9, _⟩ => ⟨S2048x1024, .f32⟩
  | .local _ .vmem, ⟨10, _⟩ => ⟨S2048x1024, .f32⟩
  | .local _ .vmem, ⟨11, _⟩ => ⟨S2048, .f32⟩
  | .local _ .vmem, ⟨12, _⟩ => ⟨S2048, .f32⟩
  | .local _ .vmem, ⟨13, _⟩ => ⟨S512x1, .f32⟩
  | .local _ .vmem, ⟨14, _⟩ => ⟨S512x2048, .f32⟩
  | .local _ .vmem, ⟨15, _⟩ => ⟨S512x2048, .f32⟩
  | .local _ .vmem, ⟨16, _⟩ => ⟨S512x256, .f32⟩
  | .local _ .vmem, ⟨17, _⟩ => ⟨S2048x256, .f32⟩
  | .local _ .vmem, ⟨18, _⟩ => ⟨S2048x256, .f32⟩
  | .local _ .vmem, ⟨19, _⟩ => ⟨S2048, .f32⟩
  | .local _ .vmem, ⟨20, _⟩ => ⟨S2048, .f32⟩
  | .local _ .vmem, ⟨21, _⟩ => ⟨S512x1, .f32⟩
  | .local _ .vmem, ⟨22, _⟩ => ⟨S512x1, .f32⟩
  | .local _ .vmem, ⟨23, _⟩ => ⟨S512x1, .f32⟩
  | .local _ .vmem, ⟨24, _⟩ => ⟨S512x256, .f32⟩
  | .local _ .vmem, ⟨25, _⟩ => ⟨S2048x256, .f32⟩
  | .local _ .vmem, ⟨26, _⟩ => ⟨S2048x256, .f32⟩
  | .local _ .vmem, ⟨27, _⟩ => ⟨S2048, .f32⟩
  | .local _ .vmem, ⟨28, _⟩ => ⟨S2048, .f32⟩
  | .local _ .vmem, ⟨29, _⟩ => ⟨S512x1, .f32⟩
  | .local _ .vmem, ⟨30, _⟩ => ⟨S512x1, .f32⟩
  | .local _ .vmem, ⟨31, _⟩ => ⟨S512x2048, .f32⟩
  | .local _ .vmem, ⟨32, _⟩ => ⟨S512x2048, .f32⟩
  | .local _ .vmem, ⟨33, _⟩ => ⟨S512x64, .f32⟩
  | .local _ .vmem, ⟨34, _⟩ => ⟨S4096x64, .f32⟩
  | .local _ .vmem, ⟨35, _⟩ => ⟨S4096x64, .f32⟩
  | .local _ .vmem, ⟨36, _⟩ => ⟨S4096, .f32⟩
  | .local _ .vmem, ⟨37, _⟩ => ⟨S4096, .f32⟩
  | .local _ .vmem, ⟨38, _⟩ => ⟨S512x1, .f32⟩
  | .local _ .vmem, ⟨39, _⟩ => ⟨S512x1, .f32⟩
  | .local _ .vmem, ⟨40, _⟩ => ⟨S512x1, .f32⟩
  | .local _ .vmem, ⟨41, _⟩ => ⟨S512x64, .f32⟩
  | .local _ .vmem, ⟨42, _⟩ => ⟨S4096x64, .f32⟩
  | .local _ .vmem, ⟨43, _⟩ => ⟨S4096x64, .f32⟩
  | .local _ .vmem, ⟨44, _⟩ => ⟨S4096, .f32⟩
  | .local _ .vmem, ⟨45, _⟩ => ⟨S4096, .f32⟩
  | .local _ .vmem, ⟨46, _⟩ => ⟨S512x1, .f32⟩
  | .local _ .vmem, ⟨47, _⟩ => ⟨S512x1, .f32⟩
  | .local _ .vmem, ⟨48, _⟩ => ⟨S512x4096, .f32⟩
  | .local _ .vmem, ⟨49, _⟩ => ⟨S512x4096, .f32⟩
  | .local _ .vmem, ⟨50, _⟩ => ⟨S512x16, .f32⟩
  | .local _ .vmem, ⟨51, _⟩ => ⟨S4096x16, .f32⟩
  | .local _ .vmem, ⟨52, _⟩ => ⟨S4096x16, .f32⟩
  | .local _ .vmem, ⟨53, _⟩ => ⟨S4096, .f32⟩
  | .local _ .vmem, ⟨54, _⟩ => ⟨S4096, .f32⟩
  | .local _ .vmem, ⟨55, _⟩ => ⟨S512x1, .f32⟩
  | .local _ .vmem, ⟨56, _⟩ => ⟨S512x1, .f32⟩
  | .local _ .vmem, ⟨57, _⟩ => ⟨S512x1, .f32⟩
  | .local _ .vmem, ⟨58, _⟩ => ⟨S512x16, .f32⟩
  | .local _ .vmem, ⟨59, _⟩ => ⟨S4096x16, .f32⟩
  | .local _ .vmem, ⟨60, _⟩ => ⟨S4096x16, .f32⟩
  | .local _ .vmem, ⟨61, _⟩ => ⟨S4096, .f32⟩
  | .local _ .vmem, ⟨62, _⟩ => ⟨S4096, .f32⟩
  | .local _ .vmem, ⟨63, _⟩ => ⟨S512x1, .f32⟩
  | .local _ .vmem, ⟨64, _⟩ => ⟨S512x1, .f32⟩
  | .local _ .vmem, ⟨65, _⟩ => ⟨S512x4096, .f32⟩
  | .local _ .vmem, ⟨66, _⟩ => ⟨S512x4096, .f32⟩
  | _, _ => ⟨S64x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | _, _ => false

abbrev semScoped : Fin 0 → Bool
  | ⟨_, h⟩ => absurd h (Nat.not_lt_zero _)

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTc nBuf bufTy 0 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst : Ref sig .tc := ⟨.hbm, 41, rfl⟩
abbrev main_v25 : Ref sig .tc := ⟨.hbm, 42, rfl⟩
abbrev main_c : Ref sig .tc := ⟨.hbm, 43, rfl⟩
abbrev main_v26 : Ref sig .tc := ⟨.hbm, 44, rfl⟩
abbrev main_v27 : Ref sig .tc := ⟨.hbm, 45, rfl⟩
abbrev main_c_0 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_1 : Ref sig .tc := ⟨.hbm, 50, rfl⟩
abbrev main_c_2 : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_v31 : Ref sig .tc := ⟨.hbm, 57, rfl⟩
abbrev main_v32 : Ref sig .tc := ⟨.hbm, 58, rfl⟩
abbrev main_call1_c : Ref sig .tc := ⟨.hbm, 59, rfl⟩
abbrev main_call1_v0 : Ref sig .tc := ⟨.hbm, 60, rfl⟩
abbrev main_call1_v1 : Ref sig .tc := ⟨.hbm, 61, rfl⟩
abbrev main_call1_c_0 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_v5 : Ref sig .tc := ⟨.hbm, 66, rfl⟩
abbrev main_call1_c_1 : Ref sig .tc := ⟨.hbm, 67, rfl⟩
abbrev main_call1_c_2 : Ref sig .tc := ⟨.hbm, 68, rfl⟩
abbrev main_call1_v6 : Ref sig .tc := ⟨.hbm, 69, rfl⟩
abbrev main_call1_v7 : Ref sig .tc := ⟨.hbm, 70, rfl⟩
abbrev main_call1_v8 : Ref sig .tc := ⟨.hbm, 71, rfl⟩
abbrev main_call1_v9 : Ref sig .tc := ⟨.hbm, 72, rfl⟩
abbrev main_call1_v10 : Ref sig .tc := ⟨.hbm, 73, rfl⟩
abbrev main_call1_v11 : Ref sig .tc := ⟨.hbm, 74, rfl⟩
abbrev main_call1_c_3 : Ref sig .tc := ⟨.hbm, 75, rfl⟩
abbrev main_call1_v12 : Ref sig .tc := ⟨.hbm, 76, rfl⟩
abbrev main_call1_v13 : Ref sig .tc := ⟨.hbm, 77, rfl⟩
abbrev main_call1_cst : Ref sig .tc := ⟨.hbm, 78, rfl⟩
abbrev main_call1_v14 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_c_3 : Ref sig .tc := ⟨.hbm, 83, rfl⟩
abbrev main_v36 : Ref sig .tc := ⟨.hbm, 84, rfl⟩
abbrev main_v37 : Ref sig .tc := ⟨.hbm, 85, rfl⟩
abbrev main_c_4 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_c_5 : Ref sig .tc := ⟨.hbm, 90, rfl⟩
abbrev main_v41 : Ref sig .tc := ⟨.hbm, 91, rfl⟩
abbrev main_v42 : Ref sig .tc := ⟨.hbm, 92, rfl⟩
abbrev main_c_6 : Ref sig .tc := ⟨.hbm, 93, rfl⟩
abbrev main_c_7 : Ref sig .tc := ⟨.hbm, 94, rfl⟩
abbrev main_call3_v0 : Ref sig .tc := ⟨.hbm, 95, rfl⟩
abbrev main_call3_v1 : Ref sig .tc := ⟨.hbm, 96, rfl⟩
abbrev main_call3_v2 : Ref sig .tc := ⟨.hbm, 97, rfl⟩
abbrev main_call3_v3 : Ref sig .tc := ⟨.hbm, 98, rfl⟩
abbrev main_call3_v4 : Ref sig .tc := ⟨.hbm, 99, rfl⟩
abbrev main_v43 : Ref sig .tc := ⟨.hbm, 100, rfl⟩
abbrev main_v44 : Ref sig .tc := ⟨.hbm, 101, rfl⟩
abbrev main_call4_c : Ref sig .tc := ⟨.hbm, 102, rfl⟩
abbrev main_call4_v0 : Ref sig .tc := ⟨.hbm, 103, rfl⟩
abbrev main_call4_v1 : Ref sig .tc := ⟨.hbm, 104, rfl⟩
abbrev main_call4_c_0 : Ref sig .tc := ⟨.hbm, 105, rfl⟩
abbrev main_call4_v2 : Ref sig .tc := ⟨.hbm, 106, rfl⟩
abbrev main_call4_v3 : Ref sig .tc := ⟨.hbm, 107, rfl⟩
abbrev main_call4_v4 : Ref sig .tc := ⟨.hbm, 108, rfl⟩
abbrev main_call4_v5 : Ref sig .tc := ⟨.hbm, 109, rfl⟩
abbrev main_call4_c_1 : Ref sig .tc := ⟨.hbm, 110, rfl⟩
abbrev main_call4_c_2 : Ref sig .tc := ⟨.hbm, 111, rfl⟩
abbrev main_call4_v6 : Ref sig .tc := ⟨.hbm, 112, rfl⟩
abbrev main_call4_v7 : Ref sig .tc := ⟨.hbm, 113, rfl⟩
abbrev main_call4_v8 : Ref sig .tc := ⟨.hbm, 114, rfl⟩
abbrev main_call4_v9 : Ref sig .tc := ⟨.hbm, 115, rfl⟩
abbrev main_call4_v10 : Ref sig .tc := ⟨.hbm, 116, rfl⟩
abbrev main_call4_v11 : Ref sig .tc := ⟨.hbm, 117, rfl⟩
abbrev main_call4_c_3 : Ref sig .tc := ⟨.hbm, 118, rfl⟩
abbrev main_call4_v12 : Ref sig .tc := ⟨.hbm, 119, rfl⟩
abbrev main_call4_v13 : Ref sig .tc := ⟨.hbm, 120, rfl⟩
abbrev main_call4_cst : Ref sig .tc := ⟨.hbm, 121, rfl⟩
abbrev main_call4_v14 : Ref sig .tc := ⟨.hbm, 122, rfl⟩
abbrev main_v45 : Ref sig .tc := ⟨.hbm, 123, rfl⟩
abbrev main_v46 : Ref sig .tc := ⟨.hbm, 124, rfl⟩
abbrev main_v47 : Ref sig .tc := ⟨.hbm, 125, rfl⟩
abbrev main_c_8 : Ref sig .tc := ⟨.hbm, 126, rfl⟩
abbrev main_v48 : Ref sig .tc := ⟨.hbm, 127, rfl⟩
abbrev main_v49 : Ref sig .tc := ⟨.hbm, 128, rfl⟩
abbrev main_c_9 : Ref sig .tc := ⟨.hbm, 129, rfl⟩
abbrev main_v50 : Ref sig .tc := ⟨.hbm, 130, rfl⟩
abbrev main_v51 : Ref sig .tc := ⟨.hbm, 131, rfl⟩
abbrev main_v52 : Ref sig .tc := ⟨.hbm, 132, rfl⟩
abbrev main_c_10 : Ref sig .tc := ⟨.hbm, 133, rfl⟩
abbrev main_v53 : Ref sig .tc := ⟨.hbm, 134, rfl⟩
abbrev main_v54 : Ref sig .tc := ⟨.hbm, 135, rfl⟩
abbrev main_c_11 : Ref sig .tc := ⟨.hbm, 136, rfl⟩
abbrev main_c_12 : Ref sig .tc := ⟨.hbm, 137, rfl⟩
abbrev main_call6_v0 : Ref sig .tc := ⟨.hbm, 138, rfl⟩
abbrev main_call6_v1 : Ref sig .tc := ⟨.hbm, 139, rfl⟩
abbrev main_call6_v2 : Ref sig .tc := ⟨.hbm, 140, rfl⟩
abbrev main_call6_v3 : Ref sig .tc := ⟨.hbm, 141, rfl⟩
abbrev main_call6_v4 : Ref sig .tc := ⟨.hbm, 142, rfl⟩
abbrev main_v55 : Ref sig .tc := ⟨.hbm, 143, rfl⟩
abbrev main_v56 : Ref sig .tc := ⟨.hbm, 144, rfl⟩
abbrev main_call7_c : Ref sig .tc := ⟨.hbm, 145, rfl⟩
abbrev main_call7_v0 : Ref sig .tc := ⟨.hbm, 146, rfl⟩
abbrev main_call7_v1 : Ref sig .tc := ⟨.hbm, 147, rfl⟩
abbrev main_call7_c_0 : Ref sig .tc := ⟨.hbm, 148, rfl⟩
abbrev main_call7_v2 : Ref sig .tc := ⟨.hbm, 149, rfl⟩
abbrev main_call7_v3 : Ref sig .tc := ⟨.hbm, 150, rfl⟩
abbrev main_call7_v4 : Ref sig .tc := ⟨.hbm, 151, rfl⟩
abbrev main_call7_v5 : Ref sig .tc := ⟨.hbm, 152, rfl⟩
abbrev main_call7_c_1 : Ref sig .tc := ⟨.hbm, 153, rfl⟩
abbrev main_call7_c_2 : Ref sig .tc := ⟨.hbm, 154, rfl⟩
abbrev main_call7_v6 : Ref sig .tc := ⟨.hbm, 155, rfl⟩
abbrev main_call7_v7 : Ref sig .tc := ⟨.hbm, 156, rfl⟩
abbrev main_call7_v8 : Ref sig .tc := ⟨.hbm, 157, rfl⟩
abbrev main_call7_v9 : Ref sig .tc := ⟨.hbm, 158, rfl⟩
abbrev main_call7_v10 : Ref sig .tc := ⟨.hbm, 159, rfl⟩
abbrev main_call7_v11 : Ref sig .tc := ⟨.hbm, 160, rfl⟩
abbrev main_call7_c_3 : Ref sig .tc := ⟨.hbm, 161, rfl⟩
abbrev main_call7_v12 : Ref sig .tc := ⟨.hbm, 162, rfl⟩
abbrev main_call7_v13 : Ref sig .tc := ⟨.hbm, 163, rfl⟩
abbrev main_call7_cst : Ref sig .tc := ⟨.hbm, 164, rfl⟩
abbrev main_call7_v14 : Ref sig .tc := ⟨.hbm, 165, rfl⟩
abbrev main_v57 : Ref sig .tc := ⟨.hbm, 166, rfl⟩
abbrev main_v58 : Ref sig .tc := ⟨.hbm, 167, rfl⟩
abbrev main_v59 : Ref sig .tc := ⟨.hbm, 168, rfl⟩
abbrev main_c_13 : Ref sig .tc := ⟨.hbm, 169, rfl⟩
abbrev main_v60 : Ref sig .tc := ⟨.hbm, 170, rfl⟩
abbrev main_v61 : Ref sig .tc := ⟨.hbm, 171, rfl⟩
abbrev main_c_14 : Ref sig .tc := ⟨.hbm, 172, rfl⟩
abbrev main_v62 : Ref sig .tc := ⟨.hbm, 173, rfl⟩
abbrev main_v63 : Ref sig .tc := ⟨.hbm, 174, rfl⟩
abbrev main_v64 : Ref sig .tc := ⟨.hbm, 175, rfl⟩
abbrev main_c_15 : Ref sig .tc := ⟨.hbm, 176, rfl⟩
abbrev main_v65 : Ref sig .tc := ⟨.hbm, 177, rfl⟩
abbrev main_v66 : Ref sig .tc := ⟨.hbm, 178, rfl⟩
abbrev main_c_16 : Ref sig .tc := ⟨.hbm, 179, rfl⟩
abbrev main_c_17 : Ref sig .tc := ⟨.hbm, 180, rfl⟩
abbrev main_call9_v0 : Ref sig .tc := ⟨.hbm, 181, rfl⟩
abbrev main_call9_v1 : Ref sig .tc := ⟨.hbm, 182, rfl⟩
abbrev main_call9_v2 : Ref sig .tc := ⟨.hbm, 183, rfl⟩
abbrev main_call9_v3 : Ref sig .tc := ⟨.hbm, 184, rfl⟩
abbrev main_call9_v4 : Ref sig .tc := ⟨.hbm, 185, rfl⟩
abbrev main_v67 : Ref sig .tc := ⟨.hbm, 186, rfl⟩
abbrev main_v68 : Ref sig .tc := ⟨.hbm, 187, rfl⟩
abbrev main_call10_c : Ref sig .tc := ⟨.hbm, 188, rfl⟩
abbrev main_call10_v0 : Ref sig .tc := ⟨.hbm, 189, rfl⟩
abbrev main_call10_v1 : Ref sig .tc := ⟨.hbm, 190, rfl⟩
abbrev main_call10_c_0 : Ref sig .tc := ⟨.hbm, 191, rfl⟩
abbrev main_call10_v2 : Ref sig .tc := ⟨.hbm, 192, rfl⟩
abbrev main_call10_v3 : Ref sig .tc := ⟨.hbm, 193, rfl⟩
abbrev main_call10_v4 : Ref sig .tc := ⟨.hbm, 194, rfl⟩
abbrev main_call10_v5 : Ref sig .tc := ⟨.hbm, 195, rfl⟩
abbrev main_call10_c_1 : Ref sig .tc := ⟨.hbm, 196, rfl⟩
abbrev main_call10_c_2 : Ref sig .tc := ⟨.hbm, 197, rfl⟩
abbrev main_call10_v6 : Ref sig .tc := ⟨.hbm, 198, rfl⟩
abbrev main_call10_v7 : Ref sig .tc := ⟨.hbm, 199, rfl⟩
abbrev main_call10_v8 : Ref sig .tc := ⟨.hbm, 200, rfl⟩
abbrev main_call10_v9 : Ref sig .tc := ⟨.hbm, 201, rfl⟩
abbrev main_call10_v10 : Ref sig .tc := ⟨.hbm, 202, rfl⟩
abbrev main_call10_v11 : Ref sig .tc := ⟨.hbm, 203, rfl⟩
abbrev main_call10_c_3 : Ref sig .tc := ⟨.hbm, 204, rfl⟩
abbrev main_call10_v12 : Ref sig .tc := ⟨.hbm, 205, rfl⟩
abbrev main_call10_v13 : Ref sig .tc := ⟨.hbm, 206, rfl⟩
abbrev main_call10_cst : Ref sig .tc := ⟨.hbm, 207, rfl⟩
abbrev main_call10_v14 : Ref sig .tc := ⟨.hbm, 208, rfl⟩
abbrev main_v69 : Ref sig .tc := ⟨.hbm, 209, rfl⟩
abbrev main_v70 : Ref sig .tc := ⟨.hbm, 210, rfl⟩
abbrev main_v71 : Ref sig .tc := ⟨.hbm, 211, rfl⟩
abbrev main_v72 : Ref sig .tc := ⟨.hbm, 212, rfl⟩
abbrev main_cst_18 : Ref sig .tc := ⟨.hbm, 213, rfl⟩
abbrev main_v73 : Ref sig .tc := ⟨.hbm, 214, rfl⟩
abbrev main_cst_19 : Ref sig .tc := ⟨.hbm, 215, rfl⟩
abbrev main_v74 : Ref sig .tc := ⟨.hbm, 216, rfl⟩
abbrev main_v75 : Ref sig .tc := ⟨.hbm, 217, rfl⟩
abbrev main_v76 : Ref sig .tc := ⟨.hbm, 218, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_scratch0 : Ref sig .tc := ⟨.vmem, 22, rfl⟩
abbrev cc2_scratch1 : Ref sig .tc := ⟨.vmem, 23, rfl⟩
abbrev cc3_stg0_0 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg5_1 : Ref sig .tc := ⟨.vmem, 32, rfl⟩
abbrev cc4_stg0_0 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc4_stg3_0 : Ref sig .tc := ⟨.vmem, 38, rfl⟩
abbrev cc4_scratch0 : Ref sig .tc := ⟨.vmem, 39, rfl⟩
abbrev cc4_scratch1 : Ref sig .tc := ⟨.vmem, 40, rfl⟩
abbrev cc5_stg0_0 : Ref sig .tc := ⟨.vmem, 41, rfl⟩
abbrev cc5_stg1_0 : Ref sig .tc := ⟨.vmem, 42, rfl⟩
abbrev cc5_stg1_1 : Ref sig .tc := ⟨.vmem, 43, rfl⟩
abbrev cc5_stg2_0 : Ref sig .tc := ⟨.vmem, 44, rfl⟩
abbrev cc5_stg2_1 : Ref sig .tc := ⟨.vmem, 45, rfl⟩
abbrev cc5_stg3_0 : Ref sig .tc := ⟨.vmem, 46, rfl⟩
abbrev cc5_stg4_0 : Ref sig .tc := ⟨.vmem, 47, rfl⟩
abbrev cc5_stg5_0 : Ref sig .tc := ⟨.vmem, 48, rfl⟩
abbrev cc5_stg5_1 : Ref sig .tc := ⟨.vmem, 49, rfl⟩
abbrev cc6_stg0_0 : Ref sig .tc := ⟨.vmem, 50, rfl⟩
abbrev cc6_stg1_0 : Ref sig .tc := ⟨.vmem, 51, rfl⟩
abbrev cc6_stg1_1 : Ref sig .tc := ⟨.vmem, 52, rfl⟩
abbrev cc6_stg2_0 : Ref sig .tc := ⟨.vmem, 53, rfl⟩
abbrev cc6_stg2_1 : Ref sig .tc := ⟨.vmem, 54, rfl⟩
abbrev cc6_stg3_0 : Ref sig .tc := ⟨.vmem, 55, rfl⟩
abbrev cc6_scratch0 : Ref sig .tc := ⟨.vmem, 56, rfl⟩
abbrev cc6_scratch1 : Ref sig .tc := ⟨.vmem, 57, rfl⟩
abbrev cc7_stg0_0 : Ref sig .tc := ⟨.vmem, 58, rfl⟩
abbrev cc7_stg1_0 : Ref sig .tc := ⟨.vmem, 59, rfl⟩
abbrev cc7_stg1_1 : Ref sig .tc := ⟨.vmem, 60, rfl⟩
abbrev cc7_stg2_0 : Ref sig .tc := ⟨.vmem, 61, rfl⟩
abbrev cc7_stg2_1 : Ref sig .tc := ⟨.vmem, 62, rfl⟩
abbrev cc7_stg3_0 : Ref sig .tc := ⟨.vmem, 63, rfl⟩
abbrev cc7_stg4_0 : Ref sig .tc := ⟨.vmem, 64, rfl⟩
abbrev cc7_stg5_0 : Ref sig .tc := ⟨.vmem, 65, rfl⟩
abbrev cc7_stg5_1 : Ref sig .tc := ⟨.vmem, 66, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc3_sem0_0 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem5_0 : DmaSem sig := 27
abbrev cc3_sem5_1 : DmaSem sig := 28
abbrev cc4_sem0_0 : DmaSem sig := 29
abbrev cc4_sem1_0 : DmaSem sig := 30
abbrev cc4_sem1_1 : DmaSem sig := 31
abbrev cc4_sem2_0 : DmaSem sig := 32
abbrev cc4_sem2_1 : DmaSem sig := 33
abbrev cc4_sem3_0 : DmaSem sig := 34
abbrev cc5_sem0_0 : DmaSem sig := 35
abbrev cc5_sem1_0 : DmaSem sig := 36
abbrev cc5_sem1_1 : DmaSem sig := 37
abbrev cc5_sem2_0 : DmaSem sig := 38
abbrev cc5_sem2_1 : DmaSem sig := 39
abbrev cc5_sem3_0 : DmaSem sig := 40
abbrev cc5_sem4_0 : DmaSem sig := 41
abbrev cc5_sem5_0 : DmaSem sig := 42
abbrev cc5_sem5_1 : DmaSem sig := 43
abbrev cc6_sem0_0 : DmaSem sig := 44
abbrev cc6_sem1_0 : DmaSem sig := 45
abbrev cc6_sem1_1 : DmaSem sig := 46
abbrev cc6_sem2_0 : DmaSem sig := 47
abbrev cc6_sem2_1 : DmaSem sig := 48
abbrev cc6_sem3_0 : DmaSem sig := 49
abbrev cc7_sem0_0 : DmaSem sig := 50
abbrev cc7_sem1_0 : DmaSem sig := 51
abbrev cc7_sem1_1 : DmaSem sig := 52
abbrev cc7_sem2_0 : DmaSem sig := 53
abbrev cc7_sem2_1 : DmaSem sig := 54
abbrev cc7_sem3_0 : DmaSem sig := 55
abbrev cc7_sem4_0 : DmaSem sig := 56
abbrev cc7_sem5_0 : DmaSem sig := 57
abbrev cc7_sem5_1 : DmaSem sig := 58

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v46 : BitVec 1 := Scalar.cmpi .eq arg0 c9_i32
  let v47 : BitVec 32 := Scalar.extui v46
  let c0_i32_16 : BitVec 32 := 0#32
  let v48 : BitVec 1 := Scalar.cmpi .ne v47 c0_i32_16
  v48

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  ![arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S512x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S2048x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S512x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def k2_cond2 (i : grid2.Coords) : BitVec 1 :=
  let arg0 : BitVec 32 := BitVec.ofNat 32 (i 0).val
  let c9_i32 : BitVec 32 := 9#32
  let v44 : BitVec 1 := Scalar.cmpi .eq arg0 c9_i32
  let v45 : BitVec 32 := Scalar.extui v44
  let c0_i32_16 : BitVec 32 := 0#32
  let v46 : BitVec 1 := Scalar.cmpi .ne v45 c0_i32_16
  v46

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  ![arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S512x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S2048x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S512x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 1 → Nat :=
  let arg0 : BitVec 32 := BitVec.ofNat 32 (i 0).val
  let c0_i32 : BitVec 32 := 0#32
  ![arg0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 1 → Memref sig .tc .vmem S512x256 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S2048x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S512x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S512x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S512x2048 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![40], ![false]⟩

def k4_cond2 (i : grid4.Coords) : BitVec 1 :=
  let arg0 : BitVec 32 := BitVec.ofNat 32 (i 0).val
  let c39_i32 : BitVec 32 := 39#32
  let v44 : BitVec 1 := Scalar.cmpi .eq arg0 c39_i32
  let v45 : BitVec 32 := Scalar.extui v44
  let c0_i32_16 : BitVec 32 := 0#32
  let v46 : BitVec 1 := Scalar.cmpi .ne v45 c0_i32_16
  v46

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 1 → Nat :=
  let arg0 : BitVec 32 := BitVec.ofNat 32 (i 0).val
  let c0_i32 : BitVec 32 := 0#32
  ![arg0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S512x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 2 → Memref sig .tc .vmem S4096x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4096 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S512x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev grid5 : Pipeline.Grid := ⟨1, ![40], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 1 → Nat :=
  let arg0 : BitVec 32 := BitVec.ofNat 32 (i 0).val
  let c0_i32 : BitVec 32 := 0#32
  ![arg0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage5_0 : Fin 1 → Memref sig .tc .vmem S512x64 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 2 → Memref sig .tc .vmem S4096x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S4096 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S512x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S512x1 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S512x4096 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![17], ![false]⟩

def k6_cond2 (i : grid6.Coords) : BitVec 1 :=
  let arg0 : BitVec 32 := BitVec.ofNat 32 (i 0).val
  let c16_i32 : BitVec 32 := 16#32
  let v44 : BitVec 1 := Scalar.cmpi .eq arg0 c16_i32
  let v45 : BitVec 32 := Scalar.extui v44
  let c0_i32_16 : BitVec 32 := 0#32
  let v46 : BitVec 1 := Scalar.cmpi .ne v45 c0_i32_16
  v46

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 1 → Nat :=
  let arg0 : BitVec 32 := BitVec.ofNat 32 (i 0).val
  let c0_i32 : BitVec 32 := 0#32
  ![arg0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S512x16 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 2 → Memref sig .tc .vmem S4096x16 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S4096 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S512x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev grid7 : Pipeline.Grid := ⟨1, ![17], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 1 → Nat :=
  let arg0 : BitVec 32 := BitVec.ofNat 32 (i 0).val
  let c0_i32 : BitVec 32 := 0#32
  ![arg0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage7_0 : Fin 1 → Memref sig .tc .vmem S512x16 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 2 → Memref sig .tc .vmem S4096x16 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S4096 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S512x1 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S512x1 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S512x4096 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

class Facts₀ : Prop where
  shapeCasts_S64x8x1024_S512x1024 : S64x8x1024.ShapeCasts S512x1024
  shapeCasts_S64x8_S512 : S64x8.ShapeCasts S512
  concatenates_S20000x1024_S3x1024_S20003x1024_d0 : Shape.Concatenates [S20000x1024, S3x1024] S20003x1024 0
  concatenates_S20000_S3_S20003_d0 : Shape.Concatenates [S20000, S3] S20003 0
  transposes_S1024x1024_S1024x1024_1_0 : S1024x1024.Transposes [1, 0] S1024x1024
  transposes_S256x1024_S1024x256_1_0 : S256x1024.Transposes [1, 0] S1024x256
  transposes_S64x1024_S1024x64_1_0 : S64x1024.Transposes [1, 0] S1024x64
  transposes_S16x1024_S1024x16_1_0 : S16x1024.Transposes [1, 0] S1024x16
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048_S2048_0 : ∀ a, (![0] : Fin 1 → Nat) a + S2048.size a ≤ S2048.size a
  h_S2048 : 0 < S2048.numel
  shapeCasts_S2048_S2048 : S2048.ShapeCasts S2048
  shapeCasts_S2048_S1x2048 : S2048.ShapeCasts S1x2048
  broadcasts_S1x2048_S512x2048 : S1x2048.Broadcasts S512x2048
  iota_S512x2048_d1_w32 : S512x2048.Iotas .tc 32 [1]
  reduces_S512x2048_S512 : S512x2048.Reduces [1] S512
  shapeCasts_S512_S512x1 : S512.ShapeCasts S512x1
  broadcasts_S512x1_S512x2048 : S512x1.Broadcasts S512x2048
  inb_S512x2048_S512x2048_0_0 : ∀ a, (![0, 0] : Fin 2 → Nat) a + S512x2048.size a ≤ S512x2048.size a
  h_S512x2048 : 0 < S512x2048.numel
  slices_S512x20003_S512x20000_0_0 : S512x20003.Slices ![0, 0] S512x20000
  slices_S512x20003_S512x3_0_20000 : S512x20003.Slices ![0, 20000] S512x3
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S2048x256_S2048x256_0_0 : ∀ a, (![0, 0] : Fin 2 → Nat) a + S2048x256.size a ≤ S2048x256.size a
  h_S2048x256 : 0 < S2048x256.numel
  slices_S512x3_S512x1_0_0 : S512x3.Slices ![0, 0] S512x1
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S4096x64_S4096x64_0_0 : ∀ a, (![0, 0] : Fin 2 → Nat) a + S4096x64.size a ≤ S4096x64.size a
  h_S4096x64 : 0 < S4096x64.numel
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S512x4096 : S1x4096.Broadcasts S512x4096
  iota_S512x4096_d1_w32 : S512x4096.Iotas .tc 32 [1]
  reduces_S512x4096_S512 : S512x4096.Reduces [1] S512
  broadcasts_S512x1_S512x4096 : S512x1.Broadcasts S512x4096
  slices_S512x3_S512x1_0_1 : S512x3.Slices ![0, 1] S512x1
  inb_S512x4096_S512x4096_0_0 : ∀ a, (![0, 0] : Fin 2 → Nat) a + S512x4096.size a ≤ S512x4096.size a
  h_S512x4096 : 0 < S512x4096.numel
  inb_S512x16_S512x16_0_0 : ∀ a, (![0, 0] : Fin 2 → Nat) a + S512x16.size a ≤ S512x16.size a
  h_S512x16 : 0 < S512x16.numel
  shapeCasts_S512x16_S512x16 : S512x16.ShapeCasts S512x16
  inb_S4096x16_S4096x16_0_0 : ∀ a, (![0, 0] : Fin 2 → Nat) a + S4096x16.size a ≤ S4096x16.size a
  h_S4096x16 : 0 < S4096x16.numel
  slices_S512x3_S512x1_0_2 : S512x3.Slices ![0, 2] S512x1
  bcast_S_S512 : S_.BroadcastsInDim S512 (![] : Fin 0 → Fin S512.rank)
  bcast_S512_S512x1_0 : S512.BroadcastsInDim S512x1 (![0] : Fin 1 → Fin S512x1.rank)
  bcast_S_S512x1 : S_.BroadcastsInDim S512x1 (![] : Fin 0 → Fin S512x1.rank)
  shapeCasts_S512x1_S512x1x1 : S512x1.ShapeCasts S512x1x1
  bcast_S_S512x1x1 : S_.BroadcastsInDim S512x1x1 (![] : Fin 0 → Fin S512x1x1.rank)
  bcast_S1_S1x1x1_2 : S1.BroadcastsInDim S1x1x1 (![2] : Fin 1 → Fin S1x1x1.rank)
  bcast_S1x1x1_S512x1x1_0_1_2 : S1x1x1.BroadcastsInDim S512x1x1 (![0, 1, 2] : Fin 3 → Fin S512x1x1.rank)
  reducesTo_S512x1x1_S512x1_d2 : S512x1x1.ReducesTo [2] S512x1
  h_S_ : 0 < S_.numel
  shapeCasts_S512x1_S512 : S512x1.ShapeCasts S512
  reducesTo_S512_S_d0 : S512.ReducesTo [0] S_
  concatenates_S512x20000_S512x20000_S512x160000_S512x67735_S512x267735_d1 : Shape.Concatenates [S512x20000, S512x20000, S512x160000, S512x67735] S512x267735 1
  shapeCasts_S512x267735_S64x8x267735 : S512x267735.ShapeCasts S64x8x267735
  dot_S512x1024_S1024x1024_S512x1024_1_0_0_1_n_n_wf : DotDims.WF S512x1024 S1024x1024 S512x1024 [1] [0] [0] [1] [] []
  dot_S512x1024_S1024x256_S512x256_1_0_0_1_n_n_wf : DotDims.WF S512x1024 S1024x256 S512x256 [1] [0] [0] [1] [] []
  dot_S512x1024_S1024x64_S512x64_1_0_0_1_n_n_wf : DotDims.WF S512x1024 S1024x64 S512x64 [1] [0] [0] [1] [] []
  dot_S512x1024_S1024x16_S512x16_1_0_0_1_n_n_wf : DotDims.WF S512x1024 S1024x16 S512x16 [1] [0] [0] [1] [] []
  dot_S512x1024_S2048x1024_S512x2048_1_1_0_0_n_n_wf : DotDims.WF S512x1024 S2048x1024 S512x2048 [1] [1] [0] [0] [] []
  dot_S512x256_S2048x256_S512x2048_1_1_0_0_n_n_wf : DotDims.WF S512x256 S2048x256 S512x2048 [1] [1] [0] [0] [] []
  dot_S512x64_S4096x64_S512x4096_1_1_0_0_n_n_wf : DotDims.WF S512x64 S4096x64 S512x4096 [1] [1] [0] [0] [] []
  dot_S512x16_S4096x16_S512x4096_1_1_0_0_n_n_wf : DotDims.WF S512x16 S4096x16 S512x4096 [1] [1] [0] [0] [] []
  gather_S512x20000_S512x1x1_S512x1_n_1_0_0_1_2_11_wf : GatherDims.WF S512x20000 S512x1x1 S512x1 [] [1] [0] [1] [0] 2 ![1, 1]
  gather_S512x160000_S512x1x1_S512x1_n_1_0_0_1_2_11_wf : GatherDims.WF S512x160000 S512x1x1 S512x1 [] [1] [0] [1] [0] 2 ![1, 1]
  gather_S512x67735_S512x1x1_S512x1_n_1_0_0_1_2_11_wf : GatherDims.WF S512x67735 S512x1x1 S512x1 [] [1] [0] [1] [0] 2 ![1, 1]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S512x1024.size a
  hwx0_0 : ∀ i : grid0.Coords, EltTy.bits .f32 = 32 ∨ (Rect.block (s := S512x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2048x1024.size a < S20003x1024.size a
  hwx0_1 : ∀ i : grid0.Coords, EltTy.bits .f32 = 32 ∨ (Rect.unit (s := S20003x1024) (fun a => cc0_transform_1 i a * S2048x1024.size a) (fun a => (Pipeline.Clip.of (cc0_transform_1 i a) (S2048x1024.size a) (S20003x1024.size a)).extent (S2048x1024.size a)) fun a => Pipeline.Clip.inb (Pipeline.Clip.ok_of (hstart0_1 i a))).WholeWords (EltTy.packing .f32)
  hwxs0_1 : ∀ i : grid0.Coords, EltTy.bits .f32 = 32 ∨ (Rect.unit (s := S2048x1024) (fun _ => 0) (fun a => (Pipeline.Clip.of (cc0_transform_1 i a) (S2048x1024.size a) (S20003x1024.size a)).extent (S2048x1024.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S2048.size a < S20003.size a
  hwx0_2 : ∀ i : grid0.Coords, EltTy.bits .f32 = 32 ∨ (Rect.unit (s := S20003) (fun a => cc0_transform_2 i a * S2048.size a) (fun a => (Pipeline.Clip.of (cc0_transform_2 i a) (S2048.size a) (S20003.size a)).extent (S2048.size a)) fun a => Pipeline.Clip.inb (Pipeline.Clip.ok_of (hstart0_2 i a))).WholeWords (EltTy.packing .f32)
  hwxs0_2 : ∀ i : grid0.Coords, EltTy.bits .f32 = 32 ∨ (Rect.unit (s := S2048) (fun _ => 0) (fun a => (Pipeline.Clip.of (cc0_transform_2 i a) (S2048.size a) (S20003.size a)).extent (S2048.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S512x1.size a
  hwx0_3 : ∀ i : grid0.Coords, EltTy.bits .f32 = 32 ∨ (Rect.block (s := S512x1) S512x1.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S512x1024.size a
  hwx1_0 : ∀ i : grid1.Coords, EltTy.bits .f32 = 32 ∨ (Rect.block (s := S512x1024) S512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S2048x1024.size a < S20003x1024.size a
  hwx1_1 : ∀ i : grid1.Coords, EltTy.bits .f32 = 32 ∨ (Rect.unit (s := S20003x1024) (fun a => cc1_transform_1 i a * S2048x1024.size a) (fun a => (Pipeline.Clip.of (cc1_transform_1 i a) (S2048x1024.size a) (S20003x1024.size a)).extent (S2048x1024.size a)) fun a => Pipeline.Clip.inb (Pipeline.Clip.ok_of (hstart1_1 i a))).WholeWords (EltTy.packing .f32)
  hwxs1_1 : ∀ i : grid1.Coords, EltTy.bits .f32 = 32 ∨ (Rect.unit (s := S2048x1024) (fun _ => 0) (fun a => (Pipeline.Clip.of (cc1_transform_1 i a) (S2048x1024.size a) (S20003x1024.size a)).extent (S2048x1024.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S2048.size a < S20003.size a
  hwx1_2 : ∀ i : grid1.Coords, EltTy.bits .f32 = 32 ∨ (Rect.unit (s := S20003) (fun a => cc1_transform_2 i a * S2048.size a) (fun a => (Pipeline.Clip.of (cc1_transform_2 i a) (S2048.size a) (S20003.size a)).extent (S2048.size a)) fun a => Pipeline.Clip.inb (Pipeline.Clip.ok_of (hstart1_2 i a))).WholeWords (EltTy.packing .f32)
  hwxs1_2 : ∀ i : grid1.Coords, EltTy.bits .f32 = 32 ∨ (Rect.unit (s := S2048) (fun _ => 0) (fun a => (Pipeline.Clip.of (cc1_transform_2 i a) (S2048.size a) (S20003.size a)).extent (S2048.size a)) fun a => (Nat.zero_add _).trans_le (Pipeline.Clip.extent_le (Pipeline.Clip.ok_of (hstart1_2 i a)))).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x1.size a ≤ S512x1.size a
  hwx1_3 : ∀ i : grid1.Coords, EltTy.bits .f32 = 32 ∨ (Rect.block (s := S512x1) S512x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hstart1_4 : ∀ (i : grid1.Coords) a, cc1_transform_4 i a * S512x2048.size a < S512x20003.size a
  hwx1_4 : ∀ i : grid1.Coords, EltTy.bits .f32 = 32 ∨ (Rect.unit (s := S512x20003) (fun a => cc1_transform_4 i a * S512x2048.size a) (fun a => (Pipeline.Clip.of (cc1_transform_4 i a) (S512x2048.size a) (S512x20003.size a)).extent (S512x2048.size a)) fun a => Pipeline.Clip.inb (Pipeline.Clip.ok_of (hstart1_4 i a))).WholeWords (EltTy.packing .f32)
  hwxs1_4 : ∀ i : grid1.Coords, EltTy.bits .f32 = 32 ∨ (Rect.unit (s := S512x2048) (fun _ => 0) (fun a => (Pipeline.Clip.of (cc1_transform_4 i a) (S512x2048.size a) (S512x20003.size a)).extent (S512x2048.size a)) fun a => (Nat.zero_add _).trans_le (Pipeline.Clip.extent_le (Pipeline.Clip.ok_of (hstart1_4 i a)))).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S512x256.size a ≤ S512x256.size a
  hwx2_0 : ∀ i : grid2.Coords, EltTy.bits .f32 = 32 ∨ (Rect.block (s := S512x256) S512x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hstart2_1 : ∀ (i : grid2.Coords) a, cc2_transform_1 i a * S2048x256.size a < S20000x256.size a
  hwx2_1 : ∀ i : grid2.Coords, EltTy.bits .f32 = 32 ∨ (Rect.unit (s := S20000x256) (fun a => cc2_transform_1 i a * S2048x256.size a) (fun a => (Pipeline.Clip.of (cc2_transform_1 i a) (S2048x256.size a) (S20000x256.size a)).extent (S2048x256.size a)) fun a => Pipeline.Clip.inb (Pipeline.Clip.ok_of (hstart2_1 i a))).WholeWords (EltTy.packing .f32)
  hwxs2_1 : ∀ i : grid2.Coords, EltTy.bits .f32 = 32 ∨ (Rect.unit (s := S2048x256) (fun _ => 0) (fun a => (Pipeline.Clip.of (cc2_transform_1 i a) (S2048x256.size a) (S20000x256.size a)).extent (S2048x256.size a)) fun a => (Nat.zero_add _).trans_le (Pipeline.Clip.extent_le (Pipeline.Clip.ok_of (hstart2_1 i a)))).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hstart2_2 : ∀ (i : grid2.Coords) a, cc2_transform_2 i a * S2048.size a < S20000.size a
  hwx2_2 : ∀ i : grid2.Coords, EltTy.bits .f32 = 32 ∨ (Rect.unit (s := S20000) (fun a => cc2_transform_2 i a * S2048.size a) (fun a => (Pipeline.Clip.of (cc2_transform_2 i a) (S2048.size a) (S20000.size a)).extent (S2048.size a)) fun a => Pipeline.Clip.inb (Pipeline.Clip.ok_of (hstart2_2 i a))).WholeWords (EltTy.packing .f32)
  hwxs2_2 : ∀ i : grid2.Coords, EltTy.bits .f32 = 32 ∨ (Rect.unit (s := S2048) (fun _ => 0) (fun a => (Pipeline.Clip.of (cc2_transform_2 i a) (S2048.size a) (S20000.size a)).extent (S2048.size a)) fun a => (Nat.zero_add _).trans_le (Pipeline.Clip.extent_le (Pipeline.Clip.ok_of (hstart2_2 i a)))).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x1.size a ≤ S512x1.size a
  hwx2_3 : ∀ i : grid2.Coords, EltTy.bits .f32 = 32 ∨ (Rect.block (s := S512x1) S512x1.size (cc2_transform_3 i) (hinb2_3 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S512x256.size a ≤ S512x256.size a
  hwx3_0 : ∀ i : grid3.Coords, EltTy.bits .f32 = 32 ∨ (Rect.block (s := S512x256) S512x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hstart3_1 : ∀ (i : grid3.Coords) a, cc3_transform_1 i a * S2048x256.size a < S20000x256.size a
  hwx3_1 : ∀ i : grid3.Coords, EltTy.bits .f32 = 32 ∨ (Rect.unit (s := S20000x256) (fun a => cc3_transform_1 i a * S2048x256.size a) (fun a => (Pipeline.Clip.of (cc3_transform_1 i a) (S2048x256.size a) (S20000x256.size a)).extent (S2048x256.size a)) fun a => Pipeline.Clip.inb (Pipeline.Clip.ok_of (hstart3_1 i a))).WholeWords (EltTy.packing .f32)
  hwxs3_1 : ∀ i : grid3.Coords, EltTy.bits .f32 = 32 ∨ (Rect.unit (s := S2048x256) (fun _ => 0) (fun a => (Pipeline.Clip.of (cc3_transform_1 i a) (S2048x256.size a) (S20000x256.size a)).extent (S2048x256.size a)) fun a => (Nat.zero_add _).trans_le (Pipeline.Clip.extent_le (Pipeline.Clip.ok_of (hstart3_1 i a)))).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hstart3_2 : ∀ (i : grid3.Coords) a, cc3_transform_2 i a * S2048.size a < S20000.size a
  hwx3_2 : ∀ i : grid3.Coords, EltTy.bits .f32 = 32 ∨ (Rect.unit (s := S20000) (fun a => cc3_transform_2 i a * S2048.size a) (fun a => (Pipeline.Clip.of (cc3_transform_2 i a) (S2048.size a) (S20000.size a)).extent (S2048.size a)) fun a => Pipeline.Clip.inb (Pipeline.Clip.ok_of (hstart3_2 i a))).WholeWords (EltTy.packing .f32)
  hwxs3_2 : ∀ i : grid3.Coords, EltTy.bits .f32 = 32 ∨ (Rect.unit (s := S2048) (fun _ => 0) (fun a => (Pipeline.Clip.of (cc3_transform_2 i a) (S2048.size a) (S20000.size a)).extent (S2048.size a)) fun a => (Nat.zero_add _).trans_le (Pipeline.Clip.extent_le (Pipeline.Clip.ok_of (hstart3_2 i a)))).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S512x1.size a ≤ S512x1.size a
  hwx3_3 : ∀ i : grid3.Coords, EltTy.bits .f32 = 32 ∨ (Rect.block (s := S512x1) S512x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S512x1.size a ≤ S512x1.size a
  hwx3_4 : ∀ i : grid3.Coords, EltTy.bits .f32 = 32 ∨ (Rect.block (s := S512x1) S512x1.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hstart3_5 : ∀ (i : grid3.Coords) a, cc3_transform_5 i a * S512x2048.size a < S512x20000.size a
  hwx3_5 : ∀ i : grid3.Coords, EltTy.bits .f32 = 32 ∨ (Rect.unit (s := S512x20000) (fun a => cc3_transform_5 i a * S512x2048.size a) (fun a => (Pipeline.Clip.of (cc3_transform_5 i a) (S512x2048.size a) (S512x20000.size a)).extent (S512x2048.size a)) fun a => Pipeline.Clip.inb (Pipeline.Clip.ok_of (hstart3_5 i a))).WholeWords (EltTy.packing .f32)
  hwxs3_5 : ∀ i : grid3.Coords, EltTy.bits .f32 = 32 ∨ (Rect.unit (s := S512x2048) (fun _ => 0) (fun a => (Pipeline.Clip.of (cc3_transform_5 i a) (S512x2048.size a) (S512x20000.size a)).extent (S512x2048.size a)) fun a => (Nat.zero_add _).trans_le (Pipeline.Clip.extent_le (Pipeline.Clip.ok_of (hstart3_5 i a)))).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S512x64.size a ≤ S512x64.size a
  hwx4_0 : ∀ i : grid4.Coords, EltTy.bits .f32 = 32 ∨ (Rect.block (s := S512x64) S512x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hstart4_1 : ∀ (i : grid4.Coords) a, cc4_transform_1 i a * S4096x64.size a < S160000x64.size a
  hwx4_1 : ∀ i : grid4.Coords, EltTy.bits .f32 = 32 ∨ (Rect.unit (s := S160000x64) (fun a => cc4_transform_1 i a * S4096x64.size a) (fun a => (Pipeline.Clip.of (cc4_transform_1 i a) (S4096x64.size a) (S160000x64.size a)).extent (S4096x64.size a)) fun a => Pipeline.Clip.inb (Pipeline.Clip.ok_of (hstart4_1 i a))).WholeWords (EltTy.packing .f32)
  hwxs4_1 : ∀ i : grid4.Coords, EltTy.bits .f32 = 32 ∨ (Rect.unit (s := S4096x64) (fun _ => 0) (fun a => (Pipeline.Clip.of (cc4_transform_1 i a) (S4096x64.size a) (S160000x64.size a)).extent (S4096x64.size a)) fun a => (Nat.zero_add _).trans_le (Pipeline.Clip.extent_le (Pipeline.Clip.ok_of (hstart4_1 i a)))).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hstart4_2 : ∀ (i : grid4.Coords) a, cc4_transform_2 i a * S4096.size a < S160000.size a
  hwx4_2 : ∀ i : grid4.Coords, EltTy.bits .f32 = 32 ∨ (Rect.unit (s := S160000) (fun a => cc4_transform_2 i a * S4096.size a) (fun a => (Pipeline.Clip.of (cc4_transform_2 i a) (S4096.size a) (S160000.size a)).extent (S4096.size a)) fun a => Pipeline.Clip.inb (Pipeline.Clip.ok_of (hstart4_2 i a))).WholeWords (EltTy.packing .f32)
  hwxs4_2 : ∀ i : grid4.Coords, EltTy.bits .f32 = 32 ∨ (Rect.unit (s := S4096) (fun _ => 0) (fun a => (Pipeline.Clip.of (cc4_transform_2 i a) (S4096.size a) (S160000.size a)).extent (S4096.size a)) fun a => (Nat.zero_add _).trans_le (Pipeline.Clip.extent_le (Pipeline.Clip.ok_of (hstart4_2 i a)))).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S512x1.size a ≤ S512x1.size a
  hwx4_3 : ∀ i : grid4.Coords, EltTy.bits .f32 = 32 ∨ (Rect.block (s := S512x1) S512x1.size (cc4_transform_3 i) (hinb4_3 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S512x64.size a ≤ S512x64.size a
  hwx5_0 : ∀ i : grid5.Coords, EltTy.bits .f32 = 32 ∨ (Rect.block (s := S512x64) S512x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hstart5_1 : ∀ (i : grid5.Coords) a, cc5_transform_1 i a * S4096x64.size a < S160000x64.size a
  hwx5_1 : ∀ i : grid5.Coords, EltTy.bits .f32 = 32 ∨ (Rect.unit (s := S160000x64) (fun a => cc5_transform_1 i a * S4096x64.size a) (fun a => (Pipeline.Clip.of (cc5_transform_1 i a) (S4096x64.size a) (S160000x64.size a)).extent (S4096x64.size a)) fun a => Pipeline.Clip.inb (Pipeline.Clip.ok_of (hstart5_1 i a))).WholeWords (EltTy.packing .f32)
  hwxs5_1 : ∀ i : grid5.Coords, EltTy.bits .f32 = 32 ∨ (Rect.unit (s := S4096x64) (fun _ => 0) (fun a => (Pipeline.Clip.of (cc5_transform_1 i a) (S4096x64.size a) (S160000x64.size a)).extent (S4096x64.size a)) fun a => (Nat.zero_add _).trans_le (Pipeline.Clip.extent_le (Pipeline.Clip.ok_of (hstart5_1 i a)))).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hstart5_2 : ∀ (i : grid5.Coords) a, cc5_transform_2 i a * S4096.size a < S160000.size a
  hwx5_2 : ∀ i : grid5.Coords, EltTy.bits .f32 = 32 ∨ (Rect.unit (s := S160000) (fun a => cc5_transform_2 i a * S4096.size a) (fun a => (Pipeline.Clip.of (cc5_transform_2 i a) (S4096.size a) (S160000.size a)).extent (S4096.size a)) fun a => Pipeline.Clip.inb (Pipeline.Clip.ok_of (hstart5_2 i a))).WholeWords (EltTy.packing .f32)
  hwxs5_2 : ∀ i : grid5.Coords, EltTy.bits .f32 = 32 ∨ (Rect.unit (s := S4096) (fun _ => 0) (fun a => (Pipeline.Clip.of (cc5_transform_2 i a) (S4096.size a) (S160000.size a)).extent (S4096.size a)) fun a => (Nat.zero_add _).trans_le (Pipeline.Clip.extent_le (Pipeline.Clip.ok_of (hstart5_2 i a)))).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S512x1.size a ≤ S512x1.size a
  hwx5_3 : ∀ i : grid5.Coords, EltTy.bits .f32 = 32 ∨ (Rect.block (s := S512x1) S512x1.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S512x1.size a ≤ S512x1.size a
  hwx5_4 : ∀ i : grid5.Coords, EltTy.bits .f32 = 32 ∨ (Rect.block (s := S512x1) S512x1.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hstart5_5 : ∀ (i : grid5.Coords) a, cc5_transform_5 i a * S512x4096.size a < S512x160000.size a
  hwx5_5 : ∀ i : grid5.Coords, EltTy.bits .f32 = 32 ∨ (Rect.unit (s := S512x160000) (fun a => cc5_transform_5 i a * S512x4096.size a) (fun a => (Pipeline.Clip.of (cc5_transform_5 i a) (S512x4096.size a) (S512x160000.size a)).extent (S512x4096.size a)) fun a => Pipeline.Clip.inb (Pipeline.Clip.ok_of (hstart5_5 i a))).WholeWords (EltTy.packing .f32)
  hwxs5_5 : ∀ i : grid5.Coords, EltTy.bits .f32 = 32 ∨ (Rect.unit (s := S512x4096) (fun _ => 0) (fun a => (Pipeline.Clip.of (cc5_transform_5 i a) (S512x4096.size a) (S512x160000.size a)).extent (S512x4096.size a)) fun a => (Nat.zero_add _).trans_le (Pipeline.Clip.extent_le (Pipeline.Clip.ok_of (hstart5_5 i a)))).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S512x16.size a ≤ S512x16.size a
  hwx6_0 : ∀ i : grid6.Coords, EltTy.bits .f32 = 32 ∨ (Rect.block (s := S512x16) S512x16.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hstart6_1 : ∀ (i : grid6.Coords) a, cc6_transform_1 i a * S4096x16.size a < S67735x16.size a
  hwx6_1 : ∀ i : grid6.Coords, EltTy.bits .f32 = 32 ∨ (Rect.unit (s := S67735x16) (fun a => cc6_transform_1 i a * S4096x16.size a) (fun a => (Pipeline.Clip.of (cc6_transform_1 i a) (S4096x16.size a) (S67735x16.size a)).extent (S4096x16.size a)) fun a => Pipeline.Clip.inb (Pipeline.Clip.ok_of (hstart6_1 i a))).WholeWords (EltTy.packing .f32)
  hwxs6_1 : ∀ i : grid6.Coords, EltTy.bits .f32 = 32 ∨ (Rect.unit (s := S4096x16) (fun _ => 0) (fun a => (Pipeline.Clip.of (cc6_transform_1 i a) (S4096x16.size a) (S67735x16.size a)).extent (S4096x16.size a)) fun a => (Nat.zero_add _).trans_le (Pipeline.Clip.extent_le (Pipeline.Clip.ok_of (hstart6_1 i a)))).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hstart6_2 : ∀ (i : grid6.Coords) a, cc6_transform_2 i a * S4096.size a < S67735.size a
  hwx6_2 : ∀ i : grid6.Coords, EltTy.bits .f32 = 32 ∨ (Rect.unit (s := S67735) (fun a => cc6_transform_2 i a * S4096.size a) (fun a => (Pipeline.Clip.of (cc6_transform_2 i a) (S4096.size a) (S67735.size a)).extent (S4096.size a)) fun a => Pipeline.Clip.inb (Pipeline.Clip.ok_of (hstart6_2 i a))).WholeWords (EltTy.packing .f32)
  hwxs6_2 : ∀ i : grid6.Coords, EltTy.bits .f32 = 32 ∨ (Rect.unit (s := S4096) (fun _ => 0) (fun a => (Pipeline.Clip.of (cc6_transform_2 i a) (S4096.size a) (S67735.size a)).extent (S4096.size a)) fun a => (Nat.zero_add _).trans_le (Pipeline.Clip.extent_le (Pipeline.Clip.ok_of (hstart6_2 i a)))).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S512x1.size a ≤ S512x1.size a
  hwx6_3 : ∀ i : grid6.Coords, EltTy.bits .f32 = 32 ∨ (Rect.block (s := S512x1) S512x1.size (cc6_transform_3 i) (hinb6_3 i)).WholeWords (EltTy.packing .f32)
  hrank7 : 0 < grid7.rank
  hstage7_0 : ∀ j, (stage7_0 j).IsWhole
  nbuf7_0 : grid7.bufCount reads7_0 true = 1
  hreads7_0 : ∀ i i' : grid7.Coords, (∀ a, reads7_0 a = true → i a = i' a) → cc7_transform_0 i = cc7_transform_0 i'
  hinb7_0 : ∀ (i : grid7.Coords) a, (cc7_transform_0 i a + 1) * S512x16.size a ≤ S512x16.size a
  hwx7_0 : ∀ i : grid7.Coords, EltTy.bits .f32 = 32 ∨ (Rect.block (s := S512x16) S512x16.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hstart7_1 : ∀ (i : grid7.Coords) a, cc7_transform_1 i a * S4096x16.size a < S67735x16.size a
  hwx7_1 : ∀ i : grid7.Coords, EltTy.bits .f32 = 32 ∨ (Rect.unit (s := S67735x16) (fun a => cc7_transform_1 i a * S4096x16.size a) (fun a => (Pipeline.Clip.of (cc7_transform_1 i a) (S4096x16.size a) (S67735x16.size a)).extent (S4096x16.size a)) fun a => Pipeline.Clip.inb (Pipeline.Clip.ok_of (hstart7_1 i a))).WholeWords (EltTy.packing .f32)
  hwxs7_1 : ∀ i : grid7.Coords, EltTy.bits .f32 = 32 ∨ (Rect.unit (s := S4096x16) (fun _ => 0) (fun a => (Pipeline.Clip.of (cc7_transform_1 i a) (S4096x16.size a) (S67735x16.size a)).extent (S4096x16.size a)) fun a => (Nat.zero_add _).trans_le (Pipeline.Clip.extent_le (Pipeline.Clip.ok_of (hstart7_1 i a)))).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hstart7_2 : ∀ (i : grid7.Coords) a, cc7_transform_2 i a * S4096.size a < S67735.size a
  hwx7_2 : ∀ i : grid7.Coords, EltTy.bits .f32 = 32 ∨ (Rect.unit (s := S67735) (fun a => cc7_transform_2 i a * S4096.size a) (fun a => (Pipeline.Clip.of (cc7_transform_2 i a) (S4096.size a) (S67735.size a)).extent (S4096.size a)) fun a => Pipeline.Clip.inb (Pipeline.Clip.ok_of (hstart7_2 i a))).WholeWords (EltTy.packing .f32)
  hwxs7_2 : ∀ i : grid7.Coords, EltTy.bits .f32 = 32 ∨ (Rect.unit (s := S4096) (fun _ => 0) (fun a => (Pipeline.Clip.of (cc7_transform_2 i a) (S4096.size a) (S67735.size a)).extent (S4096.size a)) fun a => (Nat.zero_add _).trans_le (Pipeline.Clip.extent_le (Pipeline.Clip.ok_of (hstart7_2 i a)))).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S512x1.size a ≤ S512x1.size a
  hwx7_3 : ∀ i : grid7.Coords, EltTy.bits .f32 = 32 ∨ (Rect.block (s := S512x1) S512x1.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S512x1.size a ≤ S512x1.size a
  hwx7_4 : ∀ i : grid7.Coords, EltTy.bits .f32 = 32 ∨ (Rect.block (s := S512x1) S512x1.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hstart7_5 : ∀ (i : grid7.Coords) a, cc7_transform_5 i a * S512x4096.size a < S512x67735.size a
  hwx7_5 : ∀ i : grid7.Coords, EltTy.bits .f32 = 32 ∨ (Rect.unit (s := S512x67735) (fun a => cc7_transform_5 i a * S512x4096.size a) (fun a => (Pipeline.Clip.of (cc7_transform_5 i a) (S512x4096.size a) (S512x67735.size a)).extent (S512x4096.size a)) fun a => Pipeline.Clip.inb (Pipeline.Clip.ok_of (hstart7_5 i a))).WholeWords (EltTy.packing .f32)
  hwxs7_5 : ∀ i : grid7.Coords, EltTy.bits .f32 = 32 ∨ (Rect.unit (s := S512x4096) (fun _ => 0) (fun a => (Pipeline.Clip.of (cc7_transform_5 i a) (S512x4096.size a) (S512x67735.size a)).extent (S512x4096.size a)) fun a => (Nat.zero_add _).trans_le (Pipeline.Clip.extent_le (Pipeline.Clip.ok_of (hstart7_5 i a)))).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf
def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf
def dot_S512x1024_S1024x16_S512x16_1_0_0_1_n_n : DotDims S512x1024 S1024x16 S512x16 where
  lhsContracting := [1]
  rhsContracting := [0]
  lhsNonContracting := [0]
  rhsNonContracting := [1]
  lhsBatch := []
  rhsBatch := []
  wf := dot_S512x1024_S1024x16_S512x16_1_0_0_1_n_n_wf
def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf
def dot_S512x256_S2048x256_S512x2048_1_1_0_0_n_n : DotDims S512x256 S2048x256 S512x2048 where
  lhsContracting := [1]
  rhsContracting := [1]
  lhsNonContracting := [0]
  rhsNonContracting := [0]
  lhsBatch := []
  rhsBatch := []
  wf := dot_S512x256_S2048x256_S512x2048_1_1_0_0_n_n_wf
def dot_S512x64_S4096x64_S512x4096_1_1_0_0_n_n : DotDims S512x64 S4096x64 S512x4096 where
  lhsContracting := [1]
  rhsContracting := [1]
  lhsNonContracting := [0]
  rhsNonContracting := [0]
  lhsBatch := []
  rhsBatch := []
  wf := dot_S512x64_S4096x64_S512x4096_1_1_0_0_n_n_wf
def dot_S512x16_S4096x16_S512x4096_1_1_0_0_n_n : DotDims S512x16 S4096x16 S512x4096 where
  lhsContracting := [1]
  rhsContracting := [1]
  lhsNonContracting := [0]
  rhsNonContracting := [0]
  lhsBatch := []
  rhsBatch := []
  wf := dot_S512x16_S4096x16_S512x4096_1_1_0_0_n_n_wf
def gather_S512x20000_S512x1x1_S512x1_n_1_0_0_1_2_11 : GatherDims S512x20000 S512x1x1 S512x1 where
  offsetDims := []
  collapsedSliceDims := [1]
  operandBatchingDims := [0]
  startIndicesBatchingDims := [0]
  startIndexMap := [1]
  indexVectorDim := 2
  sliceSizes := ![1, 1]
  wf := gather_S512x20000_S512x1x1_S512x1_n_1_0_0_1_2_11_wf
def gather_S512x160000_S512x1x1_S512x1_n_1_0_0_1_2_11 : GatherDims S512x160000 S512x1x1 S512x1 where
  offsetDims := []
  collapsedSliceDims := [1]
  operandBatchingDims := [0]
  startIndicesBatchingDims := [0]
  startIndexMap := [1]
  indexVectorDim := 2
  sliceSizes := ![1, 1]
  wf := gather_S512x160000_S512x1x1_S512x1_n_1_0_0_1_2_11_wf
def gather_S512x67735_S512x1x1_S512x1_n_1_0_0_1_2_11 : GatherDims S512x67735 S512x1x1 S512x1 where
  offsetDims := []
  collapsedSliceDims := [1]
  operandBatchingDims := [0]
  startIndicesBatchingDims := [0]
  startIndexMap := [1]
  indexVectorDim := 2
  sliceSizes := ![1, 1]
  wf := gather_S512x67735_S512x1x1_S512x1_n_1_0_0_1_2_11_wf

abbrev win0_0 : Pipeline.Window sig grid0 :=
  Pipeline.Window.ofSpec (Memref.whole main_v5) S512x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_v2) S2048x1024.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v3) S2048.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpec (Memref.whole main_v12) S512x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v5) S512x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpecClip (Memref.whole main_v2) S2048x1024.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v3) S2048.size cc1_transform_2 reads1_2 false false 2 stage1_2 sem1_2
    hrank1 hreads1_2 hstart1_2 nbuf1_2 (Memref.isWhole_whole _) hwx1_2 hwxs1_2 hstage1_2

abbrev win1_3 : Pipeline.Window sig grid1 :=
  Pipeline.Window.ofSpec (Memref.whole main_v12) S512x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpecClip (Memref.whole main_v13) S512x2048.size cc1_transform_4 reads1_4 true false 2 stage1_4 sem1_4
    hrank1 hreads1_4 hstart1_4 nbuf1_4 (Memref.isWhole_whole _) hwx1_4 hwxs1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v7) S512x256.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpecClip (Memref.whole main_arg7) S2048x256.size cc2_transform_1 reads2_1 false false 2 stage2_1 sem2_1
    hrank2 hreads2_1 hstart2_1 nbuf2_1 (Memref.isWhole_whole _) hwx2_1 hwxs2_1 hstage2_1

abbrev win2_2 : Pipeline.Window sig grid2 :=
  Pipeline.Window.ofSpecClip (Memref.whole main_arg8) S2048.size cc2_transform_2 reads2_2 false false 2 stage2_2 sem2_2
    hrank2 hreads2_2 hstart2_2 nbuf2_2 (Memref.isWhole_whole _) hwx2_2 hwxs2_2 hstage2_2

abbrev win2_3 : Pipeline.Window sig grid2 :=
  Pipeline.Window.ofSpec (Memref.whole main_v16) S512x1.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v7) S512x256.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpecClip (Memref.whole main_arg7) S2048x256.size cc3_transform_1 reads3_1 false false 2 stage3_1 sem3_1
    hrank3 hreads3_1 hstart3_1 nbuf3_1 (Memref.isWhole_whole _) hwx3_1 hwxs3_1 hstage3_1

abbrev win3_2 : Pipeline.Window sig grid3 :=
  Pipeline.Window.ofSpecClip (Memref.whole main_arg8) S2048.size cc3_transform_2 reads3_2 false false 2 stage3_2 sem3_2
    hrank3 hreads3_2 hstart3_2 nbuf3_2 (Memref.isWhole_whole _) hwx3_2 hwxs3_2 hstage3_2

abbrev win3_3 : Pipeline.Window sig grid3 :=
  Pipeline.Window.ofSpec (Memref.whole main_v16) S512x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v17) S512x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpecClip (Memref.whole main_v18) S512x2048.size cc3_transform_5 reads3_5 true false 2 stage3_5 sem3_5
    hrank3 hreads3_5 hstart3_5 nbuf3_5 (Memref.isWhole_whole _) hwx3_5 hwxs3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v9) S512x64.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpecClip (Memref.whole main_arg10) S4096x64.size cc4_transform_1 reads4_1 false false 2 stage4_1 sem4_1
    hrank4 hreads4_1 hstart4_1 nbuf4_1 (Memref.isWhole_whole _) hwx4_1 hwxs4_1 hstage4_1

abbrev win4_2 : Pipeline.Window sig grid4 :=
  Pipeline.Window.ofSpecClip (Memref.whole main_arg11) S4096.size cc4_transform_2 reads4_2 false false 2 stage4_2 sem4_2
    hrank4 hreads4_2 hstart4_2 nbuf4_2 (Memref.isWhole_whole _) hwx4_2 hwxs4_2 hstage4_2

abbrev win4_3 : Pipeline.Window sig grid4 :=
  Pipeline.Window.ofSpec (Memref.whole main_v19) S512x1.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v9) S512x64.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpecClip (Memref.whole main_arg10) S4096x64.size cc5_transform_1 reads5_1 false false 2 stage5_1 sem5_1
    hrank5 hreads5_1 hstart5_1 nbuf5_1 (Memref.isWhole_whole _) hwx5_1 hwxs5_1 hstage5_1

abbrev win5_2 : Pipeline.Window sig grid5 :=
  Pipeline.Window.ofSpecClip (Memref.whole main_arg11) S4096.size cc5_transform_2 reads5_2 false false 2 stage5_2 sem5_2
    hrank5 hreads5_2 hstart5_2 nbuf5_2 (Memref.isWhole_whole _) hwx5_2 hwxs5_2 hstage5_2

abbrev win5_3 : Pipeline.Window sig grid5 :=
  Pipeline.Window.ofSpec (Memref.whole main_v19) S512x1.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v20) S512x1.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpecClip (Memref.whole main_v21) S512x4096.size cc5_transform_5 reads5_5 true false 2 stage5_5 sem5_5
    hrank5 hreads5_5 hstart5_5 nbuf5_5 (Memref.isWhole_whole _) hwx5_5 hwxs5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v11) S512x16.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpecClip (Memref.whole main_arg13) S4096x16.size cc6_transform_1 reads6_1 false false 2 stage6_1 sem6_1
    hrank6 hreads6_1 hstart6_1 nbuf6_1 (Memref.isWhole_whole _) hwx6_1 hwxs6_1 hstage6_1

abbrev win6_2 : Pipeline.Window sig grid6 :=
  Pipeline.Window.ofSpecClip (Memref.whole main_arg14) S4096.size cc6_transform_2 reads6_2 false false 2 stage6_2 sem6_2
    hrank6 hreads6_2 hstart6_2 nbuf6_2 (Memref.isWhole_whole _) hwx6_2 hwxs6_2 hstage6_2

abbrev win6_3 : Pipeline.Window sig grid6 :=
  Pipeline.Window.ofSpec (Memref.whole main_v22) S512x1.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev idle6 : Fin 4 → grid6.Coords → Bool := fun | 0 => fun _ => false | 1 => fun _ => false | 2 => fun _ => false | 3 => fun i => !(k6_cond2 i == 1#1) | ⟨_ + 4, h⟩ => absurd h (Nat.not_lt.2 (Nat.le_add_left _ _))

abbrev win7_0 : Pipeline.Window sig grid7 :=
  Pipeline.Window.ofSpec (Memref.whole main_v11) S512x16.size cc7_transform_0 reads7_0 false true 1 stage7_0 sem7_0
    hrank7 hreads7_0 hinb7_0 nbuf7_0 (Memref.isWhole_whole _) hwx7_0 hstage7_0

abbrev win7_1 : Pipeline.Window sig grid7 :=
  Pipeline.Window.ofSpecClip (Memref.whole main_arg13) S4096x16.size cc7_transform_1 reads7_1 false false 2 stage7_1 sem7_1
    hrank7 hreads7_1 hstart7_1 nbuf7_1 (Memref.isWhole_whole _) hwx7_1 hwxs7_1 hstage7_1

abbrev win7_2 : Pipeline.Window sig grid7 :=
  Pipeline.Window.ofSpecClip (Memref.whole main_arg14) S4096.size cc7_transform_2 reads7_2 false false 2 stage7_2 sem7_2
    hrank7 hreads7_2 hstart7_2 nbuf7_2 (Memref.isWhole_whole _) hwx7_2 hwxs7_2 hstage7_2

abbrev win7_3 : Pipeline.Window sig grid7 :=
  Pipeline.Window.ofSpec (Memref.whole main_v22) S512x1.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v23) S512x1.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpecClip (Memref.whole main_v24) S512x4096.size cc7_transform_5 reads7_5 true false 2 stage7_5 sem7_5
    hrank7 hreads7_5 hstart7_5 nbuf7_5 (Memref.isWhole_whole _) hwx7_5 hwxs7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S64x8x1024 : Shape := ⟨3, ![64, 8, 1024]⟩
abbrev S64x8 : Shape := ⟨2, ![64, 8]⟩
abbrev S3x1024 : Shape := ⟨2, ![3, 1024]⟩
abbrev S3 : Shape := ⟨1, ![3]⟩
abbrev S20000x1024 : Shape := ⟨2, ![20000, 1024]⟩
abbrev S20000 : Shape := ⟨1, ![20000]⟩
abbrev S1024x1024 : Shape := ⟨2, ![1024, 1024]⟩
abbrev S20000x256 : Shape := ⟨2, ![20000, 256]⟩
abbrev S256x1024 : Shape := ⟨2, ![256, 1024]⟩
abbrev S160000x64 : Shape := ⟨2, ![160000, 64]⟩
abbrev S160000 : Shape := ⟨1, ![160000]⟩
abbrev S64x1024 : Shape := ⟨2, ![64, 1024]⟩
abbrev S67735x16 : Shape := ⟨2, ![67735, 16]⟩
abbrev S67735 : Shape := ⟨1, ![67735]⟩
abbrev S16x1024 : Shape := ⟨2, ![16, 1024]⟩
abbrev S20003x1024 : Shape := ⟨2, ![20003, 1024]⟩
abbrev S20003 : Shape := ⟨1, ![20003]⟩
abbrev S64x8x20003 : Shape := ⟨3, ![64, 8, 20003]⟩
abbrev S1x1x20003 : Shape := ⟨3, ![1, 1, 20003]⟩
abbrev S_ : Shape := ⟨0, ![]⟩
abbrev S64x8x1 : Shape := ⟨3, ![64, 8, 1]⟩
abbrev S64x8x20000 : Shape := ⟨3, ![64, 8, 20000]⟩
abbrev S64x8x1x1 : Shape := ⟨4, ![64, 8, 1, 1]⟩
abbrev S1 : Shape := ⟨1, ![1]⟩
abbrev S1x1x1x1 : Shape := ⟨4, ![1, 1, 1, 1]⟩
abbrev S64x8x256 : Shape := ⟨3, ![64, 8, 256]⟩
abbrev S1x1x20000 : Shape := ⟨3, ![1, 1, 20000]⟩
abbrev S64x8x64 : Shape := ⟨3, ![64, 8, 64]⟩
abbrev S64x8x160000 : Shape := ⟨3, ![64, 8, 160000]⟩
abbrev S1x1x160000 : Shape := ⟨3, ![1, 1, 160000]⟩
abbrev S64x8x16 : Shape := ⟨3, ![64, 8, 16]⟩
abbrev S64x8x67735 : Shape := ⟨3, ![64, 8, 67735]⟩
abbrev S1x1x67735 : Shape := ⟨3, ![1, 1, 67735]⟩
abbrev S64x8x267735 : Shape := ⟨3, ![64, 8, 267735]⟩

abbrev nBuf : Space → Nat
  | .hbm => 291
  | .vmem => 0
  | .smem => 0
  | _ => 0

abbrev hbmTy0_0 (i : Nat) : BufTy := match i % 128 with
  | 0 => ⟨S64x8x1024, .f32⟩
  | 1 => ⟨S64x8, .i32⟩
  | 2 => ⟨S3x1024, .f32⟩
  | 3 => ⟨S3, .f32⟩
  | 4 => ⟨S20000x1024, .f32⟩
  | 5 => ⟨S20000, .f32⟩
  | 6 => ⟨S1024x1024, .f32⟩
  | 7 => ⟨S20000x256, .f32⟩
  | 8 => ⟨S20000, .f32⟩
  | 9 => ⟨S256x1024, .f32⟩
  | 10 => ⟨S160000x64, .f32⟩
  | 11 => ⟨S160000, .f32⟩
  | 12 => ⟨S64x1024, .f32⟩
  | 13 => ⟨S67735x16, .f32⟩
  | 14 => ⟨S67735, .f32⟩
  | 15 => ⟨S16x1024, .f32⟩
  | 16 => ⟨S20003x1024, .f32⟩
  | 17 => ⟨S20003, .f32⟩
  | 18 => ⟨S64x8x1024, .f32⟩
  | 19 => ⟨S64x8x20003, .f32⟩
  | 20 => ⟨S1x1x20003, .f32⟩
  | 21 => ⟨S64x8x20003, .f32⟩
  | 22 => ⟨S64x8x20003, .f32⟩
  | 23 => ⟨S_, .f32⟩
  | 24 => ⟨S64x8, .f32⟩
  | 25 => ⟨S_, .f32⟩
  | 26 => ⟨S64x8, .f32⟩
  | 27 => ⟨S64x8, .f32⟩
  | 28 => ⟨S64x8x1, .f32⟩
  | 29 => ⟨S64x8x20003, .f32⟩
  | 30 => ⟨S64x8x20003, .f32⟩
  | 31 => ⟨S64x8x20003, .f32⟩
  | 32 => ⟨S_, .f32⟩
  | 33 => ⟨S64x8, .f32⟩
  | 34 => ⟨S64x8x1, .f32⟩
  | 35 => ⟨S64x8x1, .f32⟩
  | 36 => ⟨S64x8x20003, .f32⟩
  | 37 => ⟨S64x8x20003, .f32⟩
  | 38 => ⟨S64x8x20000, .f32⟩
  | 39 => ⟨S_, .f32⟩
  | 40 => ⟨S64x8, .f32⟩
  | 41 => ⟨S_, .i32⟩
  | 42 => ⟨S64x8, .i32⟩
  | 43 => ⟨S64x8, .i1⟩
  | 44 => ⟨S_, .i32⟩
  | 45 => ⟨S64x8, .i32⟩
  | 46 => ⟨S64x8, .i1⟩
  | 47 => ⟨S64x8, .i1⟩
  | 48 => ⟨S_, .i32⟩
  | 49 => ⟨S_, .i32⟩
  | 50 => ⟨S_, .i32⟩
  | 51 => ⟨S64x8, .i32⟩
  | 52 => ⟨S64x8, .i32⟩
  | 53 => ⟨S_, .i32⟩
  | 54 => ⟨S64x8, .i32⟩
  | 55 => ⟨S64x8, .i32⟩
  | 56 => ⟨S64x8x1, .i32⟩
  | 57 => ⟨S_, .i32⟩
  | 58 => ⟨S64x8x1, .i32⟩
  | 59 => ⟨S64x8x1, .i1⟩
  | 60 => ⟨S_, .i32⟩
  | 61 => ⟨S64x8x1, .i32⟩
  | 62 => ⟨S64x8x1, .i32⟩
  | 63 => ⟨S64x8x1, .i32⟩
  | 64 => ⟨S64x8x1x1, .i32⟩
  | 65 => ⟨S1, .i32⟩
  | 66 => ⟨S_, .i32⟩
  | 67 => ⟨S64x8x1x1, .i32⟩
  | 68 => ⟨S64x8x1x1, .i1⟩
  | 69 => ⟨S1x1x1x1, .i32⟩
  | 70 => ⟨S64x8x1x1, .i32⟩
  | 71 => ⟨S64x8x1x1, .i1⟩
  | 72 => ⟨S64x8x1x1, .i1⟩
  | 73 => ⟨S_, .i1⟩
  | 74 => ⟨S64x8x1, .i1⟩
  | 75 => ⟨S64x8x1, .f32⟩
  | 76 => ⟨S_, .f32⟩
  | 77 => ⟨S64x8x1, .f32⟩
  | 78 => ⟨S64x8x1, .f32⟩
  | 79 => ⟨S64x8, .f32⟩
  | 80 => ⟨S64x8, .f32⟩
  | 81 => ⟨S64x8x256, .f32⟩
  | 82 => ⟨S64x8x20000, .f32⟩
  | 83 => ⟨S1x1x20000, .f32⟩
  | 84 => ⟨S64x8x20000, .f32⟩
  | 85 => ⟨S64x8x20000, .f32⟩
  | 86 => ⟨S_, .f32⟩
  | 87 => ⟨S64x8, .f32⟩
  | 88 => ⟨S_, .f32⟩
  | 89 => ⟨S64x8, .f32⟩
  | 90 => ⟨S64x8, .f32⟩
  | 91 => ⟨S64x8x1, .f32⟩
  | 92 => ⟨S64x8x20000, .f32⟩
  | 93 => ⟨S64x8x20000, .f32⟩
  | 94 => ⟨S64x8x20000, .f32⟩
  | 95 => ⟨S_, .f32⟩
  | 96 => ⟨S64x8, .f32⟩
  | 97 => ⟨S64x8x1, .f32⟩
  | 98 => ⟨S64x8x1, .f32⟩
  | 99 => ⟨S64x8x20000, .f32⟩
  | 100 => ⟨S64x8x20000, .f32⟩
  | 101 => ⟨S64x8x1, .f32⟩
  | 102 => ⟨S64x8, .f32⟩
  | 103 => ⟨S64x8x1, .f32⟩
  | 104 => ⟨S64x8x20000, .f32⟩
  | 105 => ⟨S64x8x20000, .f32⟩
  | 106 => ⟨S_, .i32⟩
  | 107 => ⟨S64x8, .i32⟩
  | 108 => ⟨S64x8, .i1⟩
  | 109 => ⟨S_, .i32⟩
  | 110 => ⟨S64x8, .i32⟩
  | 111 => ⟨S64x8, .i1⟩
  | 112 => ⟨S64x8, .i1⟩
  | 113 => ⟨S_, .i32⟩
  | 114 => ⟨S64x8, .i32⟩
  | 115 => ⟨S64x8, .i32⟩
  | 116 => ⟨S_, .i32⟩
  | 117 => ⟨S_, .i32⟩
  | 118 => ⟨S_, .i32⟩
  | 119 => ⟨S64x8, .i32⟩
  | 120 => ⟨S64x8, .i32⟩
  | 121 => ⟨S_, .i32⟩
  | 122 => ⟨S64x8, .i32⟩
  | 123 => ⟨S64x8, .i32⟩
  | 124 => ⟨S64x8x1, .i32⟩
  | 125 => ⟨S_, .i32⟩
  | 126 => ⟨S64x8x1, .i32⟩
  | 127 => ⟨S64x8x1, .i1⟩
  | _ => ⟨S64x8x1024, .f32⟩

abbrev hbmTy0_1 (i : Nat) : BufTy := match i % 128 with
  | 0 => ⟨S_, .i32⟩
  | 1 => ⟨S64x8x1, .i32⟩
  | 2 => ⟨S64x8x1, .i32⟩
  | 3 => ⟨S64x8x1, .i32⟩
  | 4 => ⟨S64x8x1x1, .i32⟩
  | 5 => ⟨S1, .i32⟩
  | 6 => ⟨S_, .i32⟩
  | 7 => ⟨S64x8x1x1, .i32⟩
  | 8 => ⟨S64x8x1x1, .i1⟩
  | 9 => ⟨S1x1x1x1, .i32⟩
  | 10 => ⟨S64x8x1x1, .i32⟩
  | 11 => ⟨S64x8x1x1, .i1⟩
  | 12 => ⟨S64x8x1x1, .i1⟩
  | 13 => ⟨S_, .i1⟩
  | 14 => ⟨S64x8x1, .i1⟩
  | 15 => ⟨S64x8x1, .f32⟩
  | 16 => ⟨S_, .f32⟩
  | 17 => ⟨S64x8x1, .f32⟩
  | 18 => ⟨S64x8x1, .f32⟩
  | 19 => ⟨S64x8, .f32⟩
  | 20 => ⟨S64x8, .f32⟩
  | 21 => ⟨S64x8x64, .f32⟩
  | 22 => ⟨S64x8x160000, .f32⟩
  | 23 => ⟨S1x1x160000, .f32⟩
  | 24 => ⟨S64x8x160000, .f32⟩
  | 25 => ⟨S64x8x160000, .f32⟩
  | 26 => ⟨S_, .f32⟩
  | 27 => ⟨S64x8, .f32⟩
  | 28 => ⟨S_, .f32⟩
  | 29 => ⟨S64x8, .f32⟩
  | 30 => ⟨S64x8, .f32⟩
  | 31 => ⟨S64x8x1, .f32⟩
  | 32 => ⟨S64x8x160000, .f32⟩
  | 33 => ⟨S64x8x160000, .f32⟩
  | 34 => ⟨S64x8x160000, .f32⟩
  | 35 => ⟨S_, .f32⟩
  | 36 => ⟨S64x8, .f32⟩
  | 37 => ⟨S64x8x1, .f32⟩
  | 38 => ⟨S64x8x1, .f32⟩
  | 39 => ⟨S64x8x160000, .f32⟩
  | 40 => ⟨S64x8x160000, .f32⟩
  | 41 => ⟨S64x8x1, .f32⟩
  | 42 => ⟨S64x8, .f32⟩
  | 43 => ⟨S64x8x1, .f32⟩
  | 44 => ⟨S64x8x160000, .f32⟩
  | 45 => ⟨S64x8x160000, .f32⟩
  | 46 => ⟨S_, .i32⟩
  | 47 => ⟨S64x8, .i32⟩
  | 48 => ⟨S64x8, .i1⟩
  | 49 => ⟨S_, .i32⟩
  | 50 => ⟨S64x8, .i32⟩
  | 51 => ⟨S64x8, .i1⟩
  | 52 => ⟨S64x8, .i1⟩
  | 53 => ⟨S_, .i32⟩
  | 54 => ⟨S64x8, .i32⟩
  | 55 => ⟨S64x8, .i32⟩
  | 56 => ⟨S_, .i32⟩
  | 57 => ⟨S_, .i32⟩
  | 58 => ⟨S_, .i32⟩
  | 59 => ⟨S64x8, .i32⟩
  | 60 => ⟨S64x8, .i32⟩
  | 61 => ⟨S_, .i32⟩
  | 62 => ⟨S64x8, .i32⟩
  | 63 => ⟨S64x8, .i32⟩
  | 64 => ⟨S64x8x1, .i32⟩
  | 65 => ⟨S_, .i32⟩
  | 66 => ⟨S64x8x1, .i32⟩
  | 67 => ⟨S64x8x1, .i1⟩
  | 68 => ⟨S_, .i32⟩
  | 69 => ⟨S64x8x1, .i32⟩
  | 70 => ⟨S64x8x1, .i32⟩
  | 71 => ⟨S64x8x1, .i32⟩
  | 72 => ⟨S64x8x1x1, .i32⟩
  | 73 => ⟨S1, .i32⟩
  | 74 => ⟨S_, .i32⟩
  | 75 => ⟨S64x8x1x1, .i32⟩
  | 76 => ⟨S64x8x1x1, .i1⟩
  | 77 => ⟨S1x1x1x1, .i32⟩
  | 78 => ⟨S64x8x1x1, .i32⟩
  | 79 => ⟨S64x8x1x1, .i1⟩
  | 80 => ⟨S64x8x1x1, .i1⟩
  | 81 => ⟨S_, .i1⟩
  | 82 => ⟨S64x8x1, .i1⟩
  | 83 => ⟨S64x8x1, .f32⟩
  | 84 => ⟨S_, .f32⟩
  | 85 => ⟨S64x8x1, .f32⟩
  | 86 => ⟨S64x8x1, .f32⟩
  | 87 => ⟨S64x8, .f32⟩
  | 88 => ⟨S64x8, .f32⟩
  | 89 => ⟨S64x8x16, .f32⟩
  | 90 => ⟨S64x8x67735, .f32⟩
  | 91 => ⟨S1x1x67735, .f32⟩
  | 92 => ⟨S64x8x67735, .f32⟩
  | 93 => ⟨S64x8x67735, .f32⟩
  | 94 => ⟨S_, .f32⟩
  | 95 => ⟨S64x8, .f32⟩
  | 96 => ⟨S_, .f32⟩
  | 97 => ⟨S64x8, .f32⟩
  | 98 => ⟨S64x8, .f32⟩
  | 99 => ⟨S64x8x1, .f32⟩
  | 100 => ⟨S64x8x67735, .f32⟩
  | 101 => ⟨S64x8x67735, .f32⟩
  | 102 => ⟨S64x8x67735, .f32⟩
  | 103 => ⟨S_, .f32⟩
  | 104 => ⟨S64x8, .f32⟩
  | 105 => ⟨S64x8x1, .f32⟩
  | 106 => ⟨S64x8x1, .f32⟩
  | 107 => ⟨S64x8x67735, .f32⟩
  | 108 => ⟨S64x8x67735, .f32⟩
  | 109 => ⟨S64x8x1, .f32⟩
  | 110 => ⟨S64x8, .f32⟩
  | 111 => ⟨S64x8x1, .f32⟩
  | 112 => ⟨S64x8x67735, .f32⟩
  | 113 => ⟨S64x8x67735, .f32⟩
  | 114 => ⟨S_, .i32⟩
  | 115 => ⟨S64x8, .i32⟩
  | 116 => ⟨S64x8, .i1⟩
  | 117 => ⟨S_, .i32⟩
  | 118 => ⟨S64x8, .i32⟩
  | 119 => ⟨S64x8, .i1⟩
  | 120 => ⟨S64x8, .i1⟩
  | 121 => ⟨S_, .i32⟩
  | 122 => ⟨S64x8, .i32⟩
  | 123 => ⟨S64x8, .i32⟩
  | 124 => ⟨S_, .i32⟩
  | 125 => ⟨S_, .i32⟩
  | 126 => ⟨S_, .i32⟩
  | 127 => ⟨S64x8, .i32⟩
  | _ => ⟨S64x8x1024, .f32⟩

abbrev hbmTy0_2 (i : Nat) : BufTy := match i % 128 with
  | 0 => ⟨S64x8, .i32⟩
  | 1 => ⟨S_, .i32⟩
  | 2 => ⟨S64x8, .i32⟩
  | 3 => ⟨S64x8, .i32⟩
  | 4 => ⟨S64x8x1, .i32⟩
  | 5 => ⟨S_, .i32⟩
  | 6 => ⟨S64x8x1, .i32⟩
  | 7 => ⟨S64x8x1, .i1⟩
  | 8 => ⟨S_, .i32⟩
  | 9 => ⟨S64x8x1, .i32⟩
  | 10 => ⟨S64x8x1, .i32⟩
  | 11 => ⟨S64x8x1, .i32⟩
  | 12 => ⟨S64x8x1x1, .i32⟩
  | 13 => ⟨S1, .i32⟩
  | 14 => ⟨S_, .i32⟩
  | 15 => ⟨S64x8x1x1, .i32⟩
  | 16 => ⟨S64x8x1x1, .i1⟩
  | 17 => ⟨S1x1x1x1, .i32⟩
  | 18 => ⟨S64x8x1x1, .i32⟩
  | 19 => ⟨S64x8x1x1, .i1⟩
  | 20 => ⟨S64x8x1x1, .i1⟩
  | 21 => ⟨S_, .i1⟩
  | 22 => ⟨S64x8x1, .i1⟩
  | 23 => ⟨S64x8x1, .f32⟩
  | 24 => ⟨S_, .f32⟩
  | 25 => ⟨S64x8x1, .f32⟩
  | 26 => ⟨S64x8x1, .f32⟩
  | 27 => ⟨S64x8, .f32⟩
  | 28 => ⟨S64x8, .f32⟩
  | 29 => ⟨S64x8x267735, .f32⟩
  | 30 => ⟨S64x8, .f32⟩
  | 31 => ⟨S_, .f32⟩
  | 32 => ⟨S_, .f32⟩
  | 33 => ⟨S_, .f32⟩
  | 34 => ⟨S_, .f32⟩
  | _ => ⟨S64x8x1024, .f32⟩

abbrev hbmTy (i : Nat) : BufTy := match i / 128 with
  | 0 => hbmTy0_0 i
  | 1 => hbmTy0_1 i
  | 2 => hbmTy0_2 i
  | _ => ⟨S64x8x1024, .f32⟩

abbrev bufTy : (tb : Table) → Fin (tcTables nBuf tb) → BufTy
  | .hbm, ⟨i, _⟩ => hbmTy i
  | _, _ => ⟨S64x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_call0_cst : Ref sig .tc := ⟨.hbm, 23, rfl⟩
abbrev main_call0_v0 : Ref sig .tc := ⟨.hbm, 24, rfl⟩
abbrev main_call0_cst_0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_cst_1 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_v7 : Ref sig .tc := ⟨.hbm, 37, rfl⟩
abbrev main_v8 : Ref sig .tc := ⟨.hbm, 38, rfl⟩
abbrev main_cst : Ref sig .tc := ⟨.hbm, 39, rfl⟩
abbrev main_v9 : Ref sig .tc := ⟨.hbm, 40, rfl⟩
abbrev main_c : Ref sig .tc := ⟨.hbm, 41, rfl⟩
abbrev main_v10 : Ref sig .tc := ⟨.hbm, 42, rfl⟩
abbrev main_v11 : Ref sig .tc := ⟨.hbm, 43, rfl⟩
abbrev main_c_0 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_c_1 : Ref sig .tc := ⟨.hbm, 48, rfl⟩
abbrev main_c_2 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_v15 : Ref sig .tc := ⟨.hbm, 55, rfl⟩
abbrev main_v16 : Ref sig .tc := ⟨.hbm, 56, rfl⟩
abbrev main_call2_c : Ref sig .tc := ⟨.hbm, 57, rfl⟩
abbrev main_call2_v0 : Ref sig .tc := ⟨.hbm, 58, rfl⟩
abbrev main_call2_v1 : Ref sig .tc := ⟨.hbm, 59, rfl⟩
abbrev main_call2_c_0 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_v5 : Ref sig .tc := ⟨.hbm, 64, rfl⟩
abbrev main_call2_c_1 : Ref sig .tc := ⟨.hbm, 65, rfl⟩
abbrev main_call2_c_2 : Ref sig .tc := ⟨.hbm, 66, rfl⟩
abbrev main_call2_v6 : Ref sig .tc := ⟨.hbm, 67, rfl⟩
abbrev main_call2_v7 : Ref sig .tc := ⟨.hbm, 68, rfl⟩
abbrev main_call2_v8 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_c_3 : Ref sig .tc := ⟨.hbm, 73, rfl⟩
abbrev main_call2_v12 : Ref sig .tc := ⟨.hbm, 74, rfl⟩
abbrev main_call2_v13 : Ref sig .tc := ⟨.hbm, 75, rfl⟩
abbrev main_call2_cst : Ref sig .tc := ⟨.hbm, 76, rfl⟩
abbrev main_call2_v14 : Ref sig .tc := ⟨.hbm, 77, rfl⟩
abbrev main_v17 : Ref sig .tc := ⟨.hbm, 78, rfl⟩
abbrev main_v18 : Ref sig .tc := ⟨.hbm, 79, rfl⟩
abbrev main_v19 : Ref sig .tc := ⟨.hbm, 80, rfl⟩
abbrev main_v20 : Ref sig .tc := ⟨.hbm, 81, rfl⟩
abbrev main_v21 : Ref sig .tc := ⟨.hbm, 82, rfl⟩
abbrev main_v22 : Ref sig .tc := ⟨.hbm, 83, rfl⟩
abbrev main_v23 : Ref sig .tc := ⟨.hbm, 84, rfl⟩
abbrev main_v24 : Ref sig .tc := ⟨.hbm, 85, rfl⟩
abbrev main_call4_cst : Ref sig .tc := ⟨.hbm, 86, rfl⟩
abbrev main_call4_v0 : Ref sig .tc := ⟨.hbm, 87, rfl⟩
abbrev main_call4_cst_0 : Ref sig .tc := ⟨.hbm, 88, rfl⟩
abbrev main_call4_v1 : Ref sig .tc := ⟨.hbm, 89, rfl⟩
abbrev main_call4_v2 : Ref sig .tc := ⟨.hbm, 90, rfl⟩
abbrev main_call4_v3 : Ref sig .tc := ⟨.hbm, 91, rfl⟩
abbrev main_call4_v4 : Ref sig .tc := ⟨.hbm, 92, rfl⟩
abbrev main_call4_v5 : Ref sig .tc := ⟨.hbm, 93, rfl⟩
abbrev main_call4_v6 : Ref sig .tc := ⟨.hbm, 94, rfl⟩
abbrev main_call4_cst_1 : Ref sig .tc := ⟨.hbm, 95, rfl⟩
abbrev main_call4_v7 : Ref sig .tc := ⟨.hbm, 96, rfl⟩
abbrev main_call4_v8 : Ref sig .tc := ⟨.hbm, 97, rfl⟩
abbrev main_call4_v9 : Ref sig .tc := ⟨.hbm, 98, rfl⟩
abbrev main_call4_v10 : Ref sig .tc := ⟨.hbm, 99, rfl⟩
abbrev main_v25 : Ref sig .tc := ⟨.hbm, 100, rfl⟩
abbrev main_v26 : Ref sig .tc := ⟨.hbm, 101, rfl⟩
abbrev main_v27 : Ref sig .tc := ⟨.hbm, 102, rfl⟩
abbrev main_v28 : Ref sig .tc := ⟨.hbm, 103, rfl⟩
abbrev main_v29 : Ref sig .tc := ⟨.hbm, 104, rfl⟩
abbrev main_v30 : Ref sig .tc := ⟨.hbm, 105, rfl⟩
abbrev main_c_3 : Ref sig .tc := ⟨.hbm, 106, rfl⟩
abbrev main_v31 : Ref sig .tc := ⟨.hbm, 107, rfl⟩
abbrev main_v32 : Ref sig .tc := ⟨.hbm, 108, rfl⟩
abbrev main_c_4 : Ref sig .tc := ⟨.hbm, 109, rfl⟩
abbrev main_v33 : Ref sig .tc := ⟨.hbm, 110, rfl⟩
abbrev main_v34 : Ref sig .tc := ⟨.hbm, 111, rfl⟩
abbrev main_v35 : Ref sig .tc := ⟨.hbm, 112, rfl⟩
abbrev main_c_5 : Ref sig .tc := ⟨.hbm, 113, rfl⟩
abbrev main_v36 : Ref sig .tc := ⟨.hbm, 114, rfl⟩
abbrev main_v37 : Ref sig .tc := ⟨.hbm, 115, rfl⟩
abbrev main_c_6 : Ref sig .tc := ⟨.hbm, 116, rfl⟩
abbrev main_c_7 : Ref sig .tc := ⟨.hbm, 117, rfl⟩
abbrev main_call5_v0 : Ref sig .tc := ⟨.hbm, 118, rfl⟩
abbrev main_call5_v1 : Ref sig .tc := ⟨.hbm, 119, rfl⟩
abbrev main_call5_v2 : Ref sig .tc := ⟨.hbm, 120, rfl⟩
abbrev main_call5_v3 : Ref sig .tc := ⟨.hbm, 121, rfl⟩
abbrev main_call5_v4 : Ref sig .tc := ⟨.hbm, 122, rfl⟩
abbrev main_v38 : Ref sig .tc := ⟨.hbm, 123, rfl⟩
abbrev main_v39 : Ref sig .tc := ⟨.hbm, 124, rfl⟩
abbrev main_call6_c : Ref sig .tc := ⟨.hbm, 125, rfl⟩
abbrev main_call6_v0 : Ref sig .tc := ⟨.hbm, 126, rfl⟩
abbrev main_call6_v1 : Ref sig .tc := ⟨.hbm, 127, rfl⟩
abbrev main_call6_c_0 : Ref sig .tc := ⟨.hbm, 128, rfl⟩
abbrev main_call6_v2 : Ref sig .tc := ⟨.hbm, 129, rfl⟩
abbrev main_call6_v3 : Ref sig .tc := ⟨.hbm, 130, rfl⟩
abbrev main_call6_v4 : Ref sig .tc := ⟨.hbm, 131, rfl⟩
abbrev main_call6_v5 : Ref sig .tc := ⟨.hbm, 132, rfl⟩
abbrev main_call6_c_1 : Ref sig .tc := ⟨.hbm, 133, rfl⟩
abbrev main_call6_c_2 : Ref sig .tc := ⟨.hbm, 134, rfl⟩
abbrev main_call6_v6 : Ref sig .tc := ⟨.hbm, 135, rfl⟩
abbrev main_call6_v7 : Ref sig .tc := ⟨.hbm, 136, rfl⟩
abbrev main_call6_v8 : Ref sig .tc := ⟨.hbm, 137, rfl⟩
abbrev main_call6_v9 : Ref sig .tc := ⟨.hbm, 138, rfl⟩
abbrev main_call6_v10 : Ref sig .tc := ⟨.hbm, 139, rfl⟩
abbrev main_call6_v11 : Ref sig .tc := ⟨.hbm, 140, rfl⟩
abbrev main_call6_c_3 : Ref sig .tc := ⟨.hbm, 141, rfl⟩
abbrev main_call6_v12 : Ref sig .tc := ⟨.hbm, 142, rfl⟩
abbrev main_call6_v13 : Ref sig .tc := ⟨.hbm, 143, rfl⟩
abbrev main_call6_cst : Ref sig .tc := ⟨.hbm, 144, rfl⟩
abbrev main_call6_v14 : Ref sig .tc := ⟨.hbm, 145, rfl⟩
abbrev main_v40 : Ref sig .tc := ⟨.hbm, 146, rfl⟩
abbrev main_v41 : Ref sig .tc := ⟨.hbm, 147, rfl⟩
abbrev main_v42 : Ref sig .tc := ⟨.hbm, 148, rfl⟩
abbrev main_v43 : Ref sig .tc := ⟨.hbm, 149, rfl⟩
abbrev main_v44 : Ref sig .tc := ⟨.hbm, 150, rfl⟩
abbrev main_v45 : Ref sig .tc := ⟨.hbm, 151, rfl⟩
abbrev main_v46 : Ref sig .tc := ⟨.hbm, 152, rfl⟩
abbrev main_v47 : Ref sig .tc := ⟨.hbm, 153, rfl⟩
abbrev main_call8_cst : Ref sig .tc := ⟨.hbm, 154, rfl⟩
abbrev main_call8_v0 : Ref sig .tc := ⟨.hbm, 155, rfl⟩
abbrev main_call8_cst_0 : Ref sig .tc := ⟨.hbm, 156, rfl⟩
abbrev main_call8_v1 : Ref sig .tc := ⟨.hbm, 157, rfl⟩
abbrev main_call8_v2 : Ref sig .tc := ⟨.hbm, 158, rfl⟩
abbrev main_call8_v3 : Ref sig .tc := ⟨.hbm, 159, rfl⟩
abbrev main_call8_v4 : Ref sig .tc := ⟨.hbm, 160, rfl⟩
abbrev main_call8_v5 : Ref sig .tc := ⟨.hbm, 161, rfl⟩
abbrev main_call8_v6 : Ref sig .tc := ⟨.hbm, 162, rfl⟩
abbrev main_call8_cst_1 : Ref sig .tc := ⟨.hbm, 163, rfl⟩
abbrev main_call8_v7 : Ref sig .tc := ⟨.hbm, 164, rfl⟩
abbrev main_call8_v8 : Ref sig .tc := ⟨.hbm, 165, rfl⟩
abbrev main_call8_v9 : Ref sig .tc := ⟨.hbm, 166, rfl⟩
abbrev main_call8_v10 : Ref sig .tc := ⟨.hbm, 167, rfl⟩
abbrev main_v48 : Ref sig .tc := ⟨.hbm, 168, rfl⟩
abbrev main_v49 : Ref sig .tc := ⟨.hbm, 169, rfl⟩
abbrev main_v50 : Ref sig .tc := ⟨.hbm, 170, rfl⟩
abbrev main_v51 : Ref sig .tc := ⟨.hbm, 171, rfl⟩
abbrev main_v52 : Ref sig .tc := ⟨.hbm, 172, rfl⟩
abbrev main_v53 : Ref sig .tc := ⟨.hbm, 173, rfl⟩
abbrev main_c_8 : Ref sig .tc := ⟨.hbm, 174, rfl⟩
abbrev main_v54 : Ref sig .tc := ⟨.hbm, 175, rfl⟩
abbrev main_v55 : Ref sig .tc := ⟨.hbm, 176, rfl⟩
abbrev main_c_9 : Ref sig .tc := ⟨.hbm, 177, rfl⟩
abbrev main_v56 : Ref sig .tc := ⟨.hbm, 178, rfl⟩
abbrev main_v57 : Ref sig .tc := ⟨.hbm, 179, rfl⟩
abbrev main_v58 : Ref sig .tc := ⟨.hbm, 180, rfl⟩
abbrev main_c_10 : Ref sig .tc := ⟨.hbm, 181, rfl⟩
abbrev main_v59 : Ref sig .tc := ⟨.hbm, 182, rfl⟩
abbrev main_v60 : Ref sig .tc := ⟨.hbm, 183, rfl⟩
abbrev main_c_11 : Ref sig .tc := ⟨.hbm, 184, rfl⟩
abbrev main_c_12 : Ref sig .tc := ⟨.hbm, 185, rfl⟩
abbrev main_call9_v0 : Ref sig .tc := ⟨.hbm, 186, rfl⟩
abbrev main_call9_v1 : Ref sig .tc := ⟨.hbm, 187, rfl⟩
abbrev main_call9_v2 : Ref sig .tc := ⟨.hbm, 188, rfl⟩
abbrev main_call9_v3 : Ref sig .tc := ⟨.hbm, 189, rfl⟩
abbrev main_call9_v4 : Ref sig .tc := ⟨.hbm, 190, rfl⟩
abbrev main_v61 : Ref sig .tc := ⟨.hbm, 191, rfl⟩
abbrev main_v62 : Ref sig .tc := ⟨.hbm, 192, rfl⟩
abbrev main_call10_c : Ref sig .tc := ⟨.hbm, 193, rfl⟩
abbrev main_call10_v0 : Ref sig .tc := ⟨.hbm, 194, rfl⟩
abbrev main_call10_v1 : Ref sig .tc := ⟨.hbm, 195, rfl⟩
abbrev main_call10_c_0 : Ref sig .tc := ⟨.hbm, 196, rfl⟩
abbrev main_call10_v2 : Ref sig .tc := ⟨.hbm, 197, rfl⟩
abbrev main_call10_v3 : Ref sig .tc := ⟨.hbm, 198, rfl⟩
abbrev main_call10_v4 : Ref sig .tc := ⟨.hbm, 199, rfl⟩
abbrev main_call10_v5 : Ref sig .tc := ⟨.hbm, 200, rfl⟩
abbrev main_call10_c_1 : Ref sig .tc := ⟨.hbm, 201, rfl⟩
abbrev main_call10_c_2 : Ref sig .tc := ⟨.hbm, 202, rfl⟩
abbrev main_call10_v6 : Ref sig .tc := ⟨.hbm, 203, rfl⟩
abbrev main_call10_v7 : Ref sig .tc := ⟨.hbm, 204, rfl⟩
abbrev main_call10_v8 : Ref sig .tc := ⟨.hbm, 205, rfl⟩
abbrev main_call10_v9 : Ref sig .tc := ⟨.hbm, 206, rfl⟩
abbrev main_call10_v10 : Ref sig .tc := ⟨.hbm, 207, rfl⟩
abbrev main_call10_v11 : Ref sig .tc := ⟨.hbm, 208, rfl⟩
abbrev main_call10_c_3 : Ref sig .tc := ⟨.hbm, 209, rfl⟩
abbrev main_call10_v12 : Ref sig .tc := ⟨.hbm, 210, rfl⟩
abbrev main_call10_v13 : Ref sig .tc := ⟨.hbm, 211, rfl⟩
abbrev main_call10_cst : Ref sig .tc := ⟨.hbm, 212, rfl⟩
abbrev main_call10_v14 : Ref sig .tc := ⟨.hbm, 213, rfl⟩
abbrev main_v63 : Ref sig .tc := ⟨.hbm, 214, rfl⟩
abbrev main_v64 : Ref sig .tc := ⟨.hbm, 215, rfl⟩
abbrev main_v65 : Ref sig .tc := ⟨.hbm, 216, rfl⟩
abbrev main_v66 : Ref sig .tc := ⟨.hbm, 217, rfl⟩
abbrev main_v67 : Ref sig .tc := ⟨.hbm, 218, rfl⟩
abbrev main_v68 : Ref sig .tc := ⟨.hbm, 219, rfl⟩
abbrev main_v69 : Ref sig .tc := ⟨.hbm, 220, rfl⟩
abbrev main_v70 : Ref sig .tc := ⟨.hbm, 221, rfl⟩
abbrev main_call12_cst : Ref sig .tc := ⟨.hbm, 222, rfl⟩
abbrev main_call12_v0 : Ref sig .tc := ⟨.hbm, 223, rfl⟩
abbrev main_call12_cst_0 : Ref sig .tc := ⟨.hbm, 224, rfl⟩
abbrev main_call12_v1 : Ref sig .tc := ⟨.hbm, 225, rfl⟩
abbrev main_call12_v2 : Ref sig .tc := ⟨.hbm, 226, rfl⟩
abbrev main_call12_v3 : Ref sig .tc := ⟨.hbm, 227, rfl⟩
abbrev main_call12_v4 : Ref sig .tc := ⟨.hbm, 228, rfl⟩
abbrev main_call12_v5 : Ref sig .tc := ⟨.hbm, 229, rfl⟩
abbrev main_call12_v6 : Ref sig .tc := ⟨.hbm, 230, rfl⟩
abbrev main_call12_cst_1 : Ref sig .tc := ⟨.hbm, 231, rfl⟩
abbrev main_call12_v7 : Ref sig .tc := ⟨.hbm, 232, rfl⟩
abbrev main_call12_v8 : Ref sig .tc := ⟨.hbm, 233, rfl⟩
abbrev main_call12_v9 : Ref sig .tc := ⟨.hbm, 234, rfl⟩
abbrev main_call12_v10 : Ref sig .tc := ⟨.hbm, 235, rfl⟩
abbrev main_v71 : Ref sig .tc := ⟨.hbm, 236, rfl⟩
abbrev main_v72 : Ref sig .tc := ⟨.hbm, 237, rfl⟩
abbrev main_v73 : Ref sig .tc := ⟨.hbm, 238, rfl⟩
abbrev main_v74 : Ref sig .tc := ⟨.hbm, 239, rfl⟩
abbrev main_v75 : Ref sig .tc := ⟨.hbm, 240, rfl⟩
abbrev main_v76 : Ref sig .tc := ⟨.hbm, 241, rfl⟩
abbrev main_c_13 : Ref sig .tc := ⟨.hbm, 242, rfl⟩
abbrev main_v77 : Ref sig .tc := ⟨.hbm, 243, rfl⟩
abbrev main_v78 : Ref sig .tc := ⟨.hbm, 244, rfl⟩
abbrev main_c_14 : Ref sig .tc := ⟨.hbm, 245, rfl⟩
abbrev main_v79 : Ref sig .tc := ⟨.hbm, 246, rfl⟩
abbrev main_v80 : Ref sig .tc := ⟨.hbm, 247, rfl⟩
abbrev main_v81 : Ref sig .tc := ⟨.hbm, 248, rfl⟩
abbrev main_c_15 : Ref sig .tc := ⟨.hbm, 249, rfl⟩
abbrev main_v82 : Ref sig .tc := ⟨.hbm, 250, rfl⟩
abbrev main_v83 : Ref sig .tc := ⟨.hbm, 251, rfl⟩
abbrev main_c_16 : Ref sig .tc := ⟨.hbm, 252, rfl⟩
abbrev main_c_17 : Ref sig .tc := ⟨.hbm, 253, rfl⟩
abbrev main_call13_v0 : Ref sig .tc := ⟨.hbm, 254, rfl⟩
abbrev main_call13_v1 : Ref sig .tc := ⟨.hbm, 255, rfl⟩
abbrev main_call13_v2 : Ref sig .tc := ⟨.hbm, 256, rfl⟩
abbrev main_call13_v3 : Ref sig .tc := ⟨.hbm, 257, rfl⟩
abbrev main_call13_v4 : Ref sig .tc := ⟨.hbm, 258, rfl⟩
abbrev main_v84 : Ref sig .tc := ⟨.hbm, 259, rfl⟩
abbrev main_v85 : Ref sig .tc := ⟨.hbm, 260, rfl⟩
abbrev main_call14_c : Ref sig .tc := ⟨.hbm, 261, rfl⟩
abbrev main_call14_v0 : Ref sig .tc := ⟨.hbm, 262, rfl⟩
abbrev main_call14_v1 : Ref sig .tc := ⟨.hbm, 263, rfl⟩
abbrev main_call14_c_0 : Ref sig .tc := ⟨.hbm, 264, rfl⟩
abbrev main_call14_v2 : Ref sig .tc := ⟨.hbm, 265, rfl⟩
abbrev main_call14_v3 : Ref sig .tc := ⟨.hbm, 266, rfl⟩
abbrev main_call14_v4 : Ref sig .tc := ⟨.hbm, 267, rfl⟩
abbrev main_call14_v5 : Ref sig .tc := ⟨.hbm, 268, rfl⟩
abbrev main_call14_c_1 : Ref sig .tc := ⟨.hbm, 269, rfl⟩
abbrev main_call14_c_2 : Ref sig .tc := ⟨.hbm, 270, rfl⟩
abbrev main_call14_v6 : Ref sig .tc := ⟨.hbm, 271, rfl⟩
abbrev main_call14_v7 : Ref sig .tc := ⟨.hbm, 272, rfl⟩
abbrev main_call14_v8 : Ref sig .tc := ⟨.hbm, 273, rfl⟩
abbrev main_call14_v9 : Ref sig .tc := ⟨.hbm, 274, rfl⟩
abbrev main_call14_v10 : Ref sig .tc := ⟨.hbm, 275, rfl⟩
abbrev main_call14_v11 : Ref sig .tc := ⟨.hbm, 276, rfl⟩
abbrev main_call14_c_3 : Ref sig .tc := ⟨.hbm, 277, rfl⟩
abbrev main_call14_v12 : Ref sig .tc := ⟨.hbm, 278, rfl⟩
abbrev main_call14_v13 : Ref sig .tc := ⟨.hbm, 279, rfl⟩
abbrev main_call14_cst : Ref sig .tc := ⟨.hbm, 280, rfl⟩
abbrev main_call14_v14 : Ref sig .tc := ⟨.hbm, 281, rfl⟩
abbrev main_v86 : Ref sig .tc := ⟨.hbm, 282, rfl⟩
abbrev main_v87 : Ref sig .tc := ⟨.hbm, 283, rfl⟩
abbrev main_v88 : Ref sig .tc := ⟨.hbm, 284, rfl⟩
abbrev main_v89 : Ref sig .tc := ⟨.hbm, 285, rfl⟩
abbrev main_v90 : Ref sig .tc := ⟨.hbm, 286, rfl⟩
abbrev main_cst_18 : Ref sig .tc := ⟨.hbm, 287, rfl⟩
abbrev main_v91 : Ref sig .tc := ⟨.hbm, 288, rfl⟩
abbrev main_cst_19 : Ref sig .tc := ⟨.hbm, 289, rfl⟩
abbrev main_v92 : Ref sig .tc := ⟨.hbm, 290, rfl⟩

abbrev nD : Nat := 1
abbrev τ : Topo := Topo.v7x

variable {F : FTy → Type} [FloatOps F]

class Facts₀ : Prop where
  concatenates_S20000x1024_S3x1024_S20003x1024_d0 : Shape.Concatenates [S20000x1024, S3x1024] S20003x1024 0
  concatenates_S20000_S3_S20003_d0 : Shape.Concatenates [S20000, S3] S20003 0
  bcast_S20003_S1x1x20003_2 : S20003.BroadcastsInDim S1x1x20003 (![2] : Fin 1 → Fin S1x1x20003.rank)
  bcast_S1x1x20003_S64x8x20003_0_1_2 : S1x1x20003.BroadcastsInDim S64x8x20003 (![0, 1, 2] : Fin 3 → Fin S64x8x20003.rank)
  reducesTo_S64x8x20003_S64x8_d2 : S64x8x20003.ReducesTo [2] S64x8
  h_S_ : 0 < S_.numel
  bcast_S_S64x8 : S_.BroadcastsInDim S64x8 (![] : Fin 0 → Fin S64x8.rank)
  bcast_S64x8_S64x8x1_0_1 : S64x8.BroadcastsInDim S64x8x1 (![0, 1] : Fin 2 → Fin S64x8x1.rank)
  bcast_S64x8x1_S64x8x20003_0_1_2 : S64x8x1.BroadcastsInDim S64x8x20003 (![0, 1, 2] : Fin 3 → Fin S64x8x20003.rank)
  slices_S64x8x20003_S64x8x20000_0_0_0 : S64x8x20003.Slices ![0, 0, 0] S64x8x20000
  bcast_S_S64x8x1 : S_.BroadcastsInDim S64x8x1 (![] : Fin 0 → Fin S64x8x1.rank)
  shapeCasts_S64x8x1_S64x8x1x1 : S64x8x1.ShapeCasts S64x8x1x1
  bcast_S_S64x8x1x1 : S_.BroadcastsInDim S64x8x1x1 (![] : Fin 0 → Fin S64x8x1x1.rank)
  bcast_S1_S1x1x1x1_3 : S1.BroadcastsInDim S1x1x1x1 (![3] : Fin 1 → Fin S1x1x1x1.rank)
  bcast_S1x1x1x1_S64x8x1x1_0_1_2_3 : S1x1x1x1.BroadcastsInDim S64x8x1x1 (![0, 1, 2, 3] : Fin 4 → Fin S64x8x1x1.rank)
  reducesTo_S64x8x1x1_S64x8x1_d3 : S64x8x1x1.ReducesTo [3] S64x8x1
  shapeCasts_S64x8x1_S64x8 : S64x8x1.ShapeCasts S64x8
  bcast_S20000_S1x1x20000_2 : S20000.BroadcastsInDim S1x1x20000 (![2] : Fin 1 → Fin S1x1x20000.rank)
  bcast_S1x1x20000_S64x8x20000_0_1_2 : S1x1x20000.BroadcastsInDim S64x8x20000 (![0, 1, 2] : Fin 3 → Fin S64x8x20000.rank)
  reducesTo_S64x8x20000_S64x8_d2 : S64x8x20000.ReducesTo [2] S64x8
  bcast_S64x8x1_S64x8x20000_0_1_2 : S64x8x1.BroadcastsInDim S64x8x20000 (![0, 1, 2] : Fin 3 → Fin S64x8x20000.rank)
  slices_S64x8x20003_S64x8x1_0_0_20000 : S64x8x20003.Slices ![0, 0, 20000] S64x8x1
  bcast_S160000_S1x1x160000_2 : S160000.BroadcastsInDim S1x1x160000 (![2] : Fin 1 → Fin S1x1x160000.rank)
  bcast_S1x1x160000_S64x8x160000_0_1_2 : S1x1x160000.BroadcastsInDim S64x8x160000 (![0, 1, 2] : Fin 3 → Fin S64x8x160000.rank)
  reducesTo_S64x8x160000_S64x8_d2 : S64x8x160000.ReducesTo [2] S64x8
  bcast_S64x8x1_S64x8x160000_0_1_2 : S64x8x1.BroadcastsInDim S64x8x160000 (![0, 1, 2] : Fin 3 → Fin S64x8x160000.rank)
  slices_S64x8x20003_S64x8x1_0_0_20001 : S64x8x20003.Slices ![0, 0, 20001] S64x8x1
  bcast_S67735_S1x1x67735_2 : S67735.BroadcastsInDim S1x1x67735 (![2] : Fin 1 → Fin S1x1x67735.rank)
  bcast_S1x1x67735_S64x8x67735_0_1_2 : S1x1x67735.BroadcastsInDim S64x8x67735 (![0, 1, 2] : Fin 3 → Fin S64x8x67735.rank)
  reducesTo_S64x8x67735_S64x8_d2 : S64x8x67735.ReducesTo [2] S64x8
  bcast_S64x8x1_S64x8x67735_0_1_2 : S64x8x1.BroadcastsInDim S64x8x67735 (![0, 1, 2] : Fin 3 → Fin S64x8x67735.rank)
  slices_S64x8x20003_S64x8x1_0_0_20002 : S64x8x20003.Slices ![0, 0, 20002] S64x8x1
  concatenates_S64x8x20000_S64x8x20000_S64x8x160000_S64x8x67735_S64x8x267735_d2 : Shape.Concatenates [S64x8x20000, S64x8x20000, S64x8x160000, S64x8x67735] S64x8x267735 2
  reducesTo_S64x8_S_d0_1 : S64x8.ReducesTo [0, 1] S_
  dot_S64x8x1024_S1024x1024_S64x8x1024_2_1_01_0_n_n_wf : DotDims.WF S64x8x1024 S1024x1024 S64x8x1024 [2] [1] [0, 1] [0] [] []
  dot_S64x8x1024_S20003x1024_S64x8x20003_2_1_01_0_n_n_wf : DotDims.WF S64x8x1024 S20003x1024 S64x8x20003 [2] [1] [0, 1] [0] [] []
  gather_S64x8x20003_S64x8x1x1_S64x8x1_n_2_01_01_2_3_111_wf : GatherDims.WF S64x8x20003 S64x8x1x1 S64x8x1 [] [2] [0, 1] [2] [0, 1] 3 ![1, 1, 1]
  dot_S64x8x1024_S256x1024_S64x8x256_2_1_01_0_n_n_wf : DotDims.WF S64x8x1024 S256x1024 S64x8x256 [2] [1] [0, 1] [0] [] []
  dot_S64x8x256_S20000x256_S64x8x20000_2_1_01_0_n_n_wf : DotDims.WF S64x8x256 S20000x256 S64x8x20000 [2] [1] [0, 1] [0] [] []
  gather_S64x8x20000_S64x8x1x1_S64x8x1_n_2_01_01_2_3_111_wf : GatherDims.WF S64x8x20000 S64x8x1x1 S64x8x1 [] [2] [0, 1] [2] [0, 1] 3 ![1, 1, 1]
  dot_S64x8x1024_S64x1024_S64x8x64_2_1_01_0_n_n_wf : DotDims.WF S64x8x1024 S64x1024 S64x8x64 [2] [1] [0, 1] [0] [] []
  dot_S64x8x64_S160000x64_S64x8x160000_2_1_01_0_n_n_wf : DotDims.WF S64x8x64 S160000x64 S64x8x160000 [2] [1] [0, 1] [0] [] []
  gather_S64x8x160000_S64x8x1x1_S64x8x1_n_2_01_01_2_3_111_wf : GatherDims.WF S64x8x160000 S64x8x1x1 S64x8x1 [] [2] [0, 1] [2] [0, 1] 3 ![1, 1, 1]
  dot_S64x8x1024_S16x1024_S64x8x16_2_1_01_0_n_n_wf : DotDims.WF S64x8x1024 S16x1024 S64x8x16 [2] [1] [0, 1] [0] [] []
  dot_S64x8x16_S67735x16_S64x8x67735_2_1_01_0_n_n_wf : DotDims.WF S64x8x16 S67735x16 S64x8x67735 [2] [1] [0, 1] [0] [] []
  gather_S64x8x67735_S64x8x1x1_S64x8x1_n_2_01_01_2_3_111_wf : GatherDims.WF S64x8x67735 S64x8x1x1 S64x8x1 [] [2] [0, 1] [2] [0, 1] 3 ![1, 1, 1]

variable [Facts₀]

def dot_S64x8x1024_S1024x1024_S64x8x1024_2_1_01_0_n_n : DotDims S64x8x1024 S1024x1024 S64x8x1024 where
  lhsContracting := [2]
  rhsContracting := [1]
  lhsNonContracting := [0, 1]
  rhsNonContracting := [0]
  lhsBatch := []
  rhsBatch := []
  wf := dot_S64x8x1024_S1024x1024_S64x8x1024_2_1_01_0_n_n_wf
def dot_S64x8x1024_S20003x1024_S64x8x20003_2_1_01_0_n_n : DotDims S64x8x1024 S20003x1024 S64x8x20003 where
  lhsContracting := [2]
  rhsContracting := [1]
  lhsNonContracting := [0, 1]
  rhsNonContracting := [0]
  lhsBatch := []
  rhsBatch := []
  wf := dot_S64x8x1024_S20003x1024_S64x8x20003_2_1_01_0_n_n_wf
def gather_S64x8x20003_S64x8x1x1_S64x8x1_n_2_01_01_2_3_111 : GatherDims S64x8x20003 S64x8x1x1 S64x8x1 where
  offsetDims := []
  collapsedSliceDims := [2]
  operandBatchingDims := [0, 1]
  startIndicesBatchingDims := [0, 1]
  startIndexMap := [2]
  indexVectorDim := 3
  sliceSizes := ![1, 1, 1]
  wf := gather_S64x8x20003_S64x8x1x1_S64x8x1_n_2_01_01_2_3_111_wf
def dot_S64x8x1024_S256x1024_S64x8x256_2_1_01_0_n_n : DotDims S64x8x1024 S256x1024 S64x8x256 where
  lhsContracting := [2]
  rhsContracting := [1]
  lhsNonContracting := [0, 1]
  rhsNonContracting := [0]
  lhsBatch := []
  rhsBatch := []
  wf := dot_S64x8x1024_S256x1024_S64x8x256_2_1_01_0_n_n_wf
def dot_S64x8x256_S20000x256_S64x8x20000_2_1_01_0_n_n : DotDims S64x8x256 S20000x256 S64x8x20000 where
  lhsContracting := [2]
  rhsContracting := [1]
  lhsNonContracting := [0, 1]
  rhsNonContracting := [0]
  lhsBatch := []
  rhsBatch := []
  wf := dot_S64x8x256_S20000x256_S64x8x20000_2_1_01_0_n_n_wf
def gather_S64x8x20000_S64x8x1x1_S64x8x1_n_2_01_01_2_3_111 : GatherDims S64x8x20000 S64x8x1x1 S64x8x1 where
  offsetDims := []
  collapsedSliceDims := [2]
  operandBatchingDims := [0, 1]
  startIndicesBatchingDims := [0, 1]
  startIndexMap := [2]
  indexVectorDim := 3
  sliceSizes := ![1, 1, 1]
  wf := gather_S64x8x20000_S64x8x1x1_S64x8x1_n_2_01_01_2_3_111_wf
def dot_S64x8x1024_S64x1024_S64x8x64_2_1_01_0_n_n : DotDims S64x8x1024 S64x1024 S64x8x64 where
  lhsContracting := [2]
  rhsContracting := [1]
  lhsNonContracting := [0, 1]
  rhsNonContracting := [0]
  lhsBatch := []
  rhsBatch := []
  wf := dot_S64x8x1024_S64x1024_S64x8x64_2_1_01_0_n_n_wf
def dot_S64x8x64_S160000x64_S64x8x160000_2_1_01_0_n_n : DotDims S64x8x64 S160000x64 S64x8x160000 where
  lhsContracting := [2]
  rhsContracting := [1]
  lhsNonContracting := [0, 1]
  rhsNonContracting := [0]
  lhsBatch := []
  rhsBatch := []
  wf := dot_S64x8x64_S160000x64_S64x8x160000_2_1_01_0_n_n_wf
def gather_S64x8x160000_S64x8x1x1_S64x8x1_n_2_01_01_2_3_111 : GatherDims S64x8x160000 S64x8x1x1 S64x8x1 where
  offsetDims := []
  collapsedSliceDims := [2]
  operandBatchingDims := [0, 1]
  startIndicesBatchingDims := [0, 1]
  startIndexMap := [2]
  indexVectorDim := 3
  sliceSizes := ![1, 1, 1]
  wf := gather_S64x8x160000_S64x8x1x1_S64x8x1_n_2_01_01_2_3_111_wf
def dot_S64x8x1024_S16x1024_S64x8x16_2_1_01_0_n_n : DotDims S64x8x1024 S16x1024 S64x8x16 where
  lhsContracting := [2]
  rhsContracting := [1]
  lhsNonContracting := [0, 1]
  rhsNonContracting := [0]
  lhsBatch := []
  rhsBatch := []
  wf := dot_S64x8x1024_S16x1024_S64x8x16_2_1_01_0_n_n_wf
def dot_S64x8x16_S67735x16_S64x8x67735_2_1_01_0_n_n : DotDims S64x8x16 S67735x16 S64x8x67735 where
  lhsContracting := [2]
  rhsContracting := [1]
  lhsNonContracting := [0, 1]
  rhsNonContracting := [0]
  lhsBatch := []
  rhsBatch := []
  wf := dot_S64x8x16_S67735x16_S64x8x67735_2_1_01_0_n_n_wf
def gather_S64x8x67735_S64x8x1x1_S64x8x1_n_2_01_01_2_3_111 : GatherDims S64x8x67735 S64x8x1x1 S64x8x1 where
  offsetDims := []
  collapsedSliceDims := [2]
  operandBatchingDims := [0, 1]
  startIndicesBatchingDims := [0, 1]
  startIndexMap := [2]
  indexVectorDim := 3
  sliceSizes := ![1, 1, 1]
  wf := gather_S64x8x67735_S64x8x1x1_S64x8x1_n_2_01_01_2_3_111_wf

class Facts : Prop extends Facts₀ where

variable [Facts]
-- ==== Proof.Preserves.lean ====
import proofs.«138250_j73134703116926_1_alg».proof.Defs

noncomputable section

open Idealize.ShloMosaic

namespace Cert.Proof

theorem neg_big_site : IdealRules.named_const.Statement Cert.KernelIdeal.κ "neg_big" .f32 0xF149F2CA#32 ⊥ :=
  IdealRules.named_const.statement Cert.KernelIdeal.κ "neg_big" .f32 0xF149F2CA#32 ⊥ rfl

theorem preserves : Cert.preserves_Kernel_KernelIdeal :=
  ⟨neg_big_site, neg_big_site, neg_big_site, neg_big_site⟩

end Cert.Proof

end
-- ==== Proof.KernelFrameKit.lean ====
import Idealize.ShloMosaic.Lib.Pipeline.Regions
import Idealize.ShloMosaic.Lib.Pipeline.Kit
import Idealize.ShloMosaic.Lib.Pipeline.Frame
import Idealize.ShloMosaic.Lib.Pipeline.FrameSuffix

noncomputable section

namespace Cert.Proof.FrameKit

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

set_option Elab.async false

variable {nD : Nat} {τ : Topo} {sig : RefSig} {Val : EltTy → Type}
variable {Ix : Type} [DecidableEq Ix] {Name : Type} [DecidableEq Name] {U : Type} [URA U] {Lvl : Type} [Preorder Lvl]
variable {Λ₀ : Idealize.SL.Sem.Labels} {P : Type} [Fintype P]

local notation "𝕄" => MT nD τ sig Ix Val Name U Lvl

section Kit

variable (pcs : P → PCfg sig Λ₀ Val) (a : (p : P) → (pcs p).Adm)
  (defs₀ : Defs nD τ sig Val Λ₀) (𝒱₀ : Variants)
  (L : GSem nD τ sig → Finset Ix) (lv : GSem nD τ sig → Ix → Lvl)

def HostSeg.ex {O : Type} (prog : Prog (TpuEff nD τ sig Val (Sig Λ₀ P fun p => (pcs p).Adm) .tc) PUnit)
    (H : O → HostSeg (Name := Name) (U := U) pcs defs₀ 𝒱₀ L lv) (hprog : ∀ o, (H o).prog = prog) :
    HostSeg (Name := Name) (U := U) pcs defs₀ 𝒱₀ L lv where
  prog := prog
  pre c := iprop(∃ o, (H o).pre c)
  post c := iprop(∃ o, (H o).post c)
  run c {β} k K := by
    iintro ⟨Hk, Hbd, ⟨%o, Hpre⟩, Hla⟩
    rw [← hprog o]
    iapply ((H o).run c k K)
    isplitl [Hk]
    · iintro ⟨Hbd, Hpost⟩
      iapply Hk
      isplitl [Hbd]; · iexact Hbd
      iexists o; iexact Hpost
    isplitl [Hbd]; · iexact Hbd
    isplitl [Hpre]; · iexact Hpre
    iexact Hla

def HostSeg.conseq (H : HostSeg (Name := Name) (U := U) pcs defs₀ 𝒱₀ L lv) (pre post : Dev nD → sProp 𝕄)
    (hpre : ∀ c, pre c ⊢ H.pre c) (hpost : ∀ c, H.post c ⊢ post c) :
    HostSeg (Name := Name) (U := U) pcs defs₀ 𝒱₀ L lv where
  prog := H.prog
  pre := pre
  post := post
  run c {β} k K := by
    iintro ⟨Hk, Hbd, Hpre, Hla⟩
    iapply (H.run c k K)
    isplitl [Hk]
    · iintro ⟨Hbd, Hpost⟩
      iapply Hk
      isplitl [Hbd]; · iexact Hbd
      iapply (hpost c); iexact Hpost
    isplitl [Hbd]; · iexact Hbd
    isplitl [Hpre]; · iapply (hpre c); iexact Hpre
    iexact Hla

variable (rdats : (p : P) → (c : Dev nD) → RDat τ Val Ix Name U Lvl (pin pcs a p) c) (ι : Ix)
  (phinj : Function.Injective (cellOf (nD := nD) (pin pcs a)))
  (EP : Emb (URounds (GSem nD τ sig) Unit) (MT nD τ sig Ix Val Name U Lvl))

include phinj in

def HostSeg.ofRegion [∀ e, Nonempty (Val e)] [Infinite Name] [EP.LandsIn (upEmb : UEmb _ 𝕄)]
    {p : P} (R : RDat.RegionSeg pcs a rdats ι defs₀ 𝒱₀ L lv p) :
    HostSeg (Name := Name) (U := U) pcs defs₀ 𝒱₀ L lv where
  prog := Prog.lift (.customCall (entry p) ())
  pre c := iprop(R.pre c ∗ cellsGhost (pin pcs a) EP p c ∗ toksInit (pin pcs a) EP p c)
  post c := R.post c
  run c {β} k K := by
    have hwp := RDat.RegionSeg.wp pcs a rdats ι phinj EP defs₀ 𝒱₀ L lv R c none (fun u h => nomatch h) k K
    rw [show (Prog.lift (.customCall (entry p) ()) >>= k : Prog (TpuEff nD τ sig Val (Sig Λ₀ P fun p => (pcs p).Adm) .tc) β)
        = .op (.customCall (entry p) ()) k from rfl]
    refine BIBase.Entails.trans ?_ hwp
    iintro ⟨Hk, Hbd, ⟨Hpre, Hg, Ht⟩, Hla⟩
    isplitl [Hk]; · iexact Hk
    isplitl [Hbd]; · iexact Hbd
    isplitl [Hpre]; · iexact Hpre
    isplitl [Hla]; · iexact Hla
    isplitl [Hg] <;> iassumption

end Kit

section FrameData

variable (pcs : P → PCfg sig Λ₀ Val) (a : (p : P) → (pcs p).Adm)

def frameRD (V : Valuation τ sig Val) (p : P) (c : Dev nD) : RDat τ Val Ix Name U Lvl (pin pcs a p) c where
  A w := (fun b : Ref sig .tc => (V b : Buf Val ((c.tc : Thread nD τ).loc b))) (arrRef (pin pcs a p).spec w)
  after _ _ _ _ := True
  Φ _ := scopedRest (pin pcs a p).spec c
  q _ := fullShare
  owed _ := 0

variable {pcs a}

omit [Fintype P] [Preorder Lvl] in
theorem frameRD_Φ (V : Valuation τ sig Val) (p : P) (c : Dev nD) (t : Fin ((pin pcs a p).N + 1)) :
    (frameRD (Ix := Ix) (Name := Name) (U := U) (Lvl := Lvl) pcs a V p c).Φ t = scopedRest (pin pcs a p).spec c := rfl

end FrameData

section Exit

variable {Λ₀' : Idealize.SL.Sem.Labels}

omit [Preorder Lvl] in

theorem arraysAt_open [∀ e, Nonempty (Val e)] {cfg : Cfg sig Λ₀'} {c : Dev nD} (rd : RDat τ Val Ix Name U Lvl cfg c)
    (harr : ∀ w, (cfg.spec w).arr.IsWhole) (hshare : ∀ w, rd.share w = fullShare) (n : ℕ) :
    (rd.arraysAt n : sProp 𝕄)
      ⊢ iprop(∃ A' : (w : Fin cfg.W) → Buf Val ((cfg.win w).arr.view.loc (c.tc : Thread nD τ)),
          ⌜∀ w, rd.ArrAt w n (A' w)⌝ ∗ arrPts cfg.spec c A') := by
  classical
  unfold RDat.arraysAt
  iintro Ha
  ihave Ha' := (BI.bigSep_exists_pi Finset.univ (fun w F => iprop(⌜rd.ArrAt w n F⌝
      ∗ (cfg.win w).arr.view.loc (c.tc : Thread nD τ) ↦[(cfg.win w).arr.view.set]{rd.share w} F))) $$ Ha
  icases Ha' with ⟨%A', Ha⟩
  ihave Ha2 := (BI.bigSep_pure_sep Finset.univ (fun w => rd.ArrAt w n (A' w))
      (fun w => (cfg.win w).arr.view.loc (c.tc : Thread nD τ) ↦[(cfg.win w).arr.view.set]{rd.share w} A' w)) $$ Ha
  icases Ha2 with ⟨%hA', Ha⟩
  iexists A'; isplitr; · ipureintro; exact fun w => hA' w (Finset.mem_univ w)
  unfold arrPts
  iapply (BIBase.Entails.of_eq (bigSep_congr (fun w _ => by rw [(harr w).set_eq_univ, hshare w]) :
      (bigSep Finset.univ fun w => ((cfg.win w).arr.view.loc (c.tc : Thread nD τ) ↦[(cfg.win w).arr.view.set]{rd.share w} A' w : sProp 𝕄))
        = bigSep Finset.univ fun w => (((c.tc : Thread nD τ).loc (arrRef cfg.spec w)) ↦{fullShare} A' w : sProp 𝕄)))
  iexact Ha

omit [Preorder Lvl] in

theorem held_withArrays {gr : Nat} {W : Nat} (win : Fin W → WinSpec sig gr) (hw : WinFacts win) (c : Dev nD)
    (V : Valuation τ sig Val) (A' : (w : Fin W) → Buf Val ((win w).arr.view.loc (c.tc : Thread nD τ))) :
    iprop(arrPts win c A' ∗ unscopedRest win c (fun b => V b))
      ⊢ (StableHlo.held (c.tc : Thread nD τ) (ucRefs τ sig) (withArrays win c V A') : sProp 𝕄) := by
  classical
  rw [← tailRefs_none win hw.arr_unscoped, held_tailRefs Prefetch.none win hw.arr_inj c, unscopedRestP_none]
  refine sep_mono (BIBase.Entails.of_eq ?_) (BIBase.Entails.of_eq ?_)
  · unfold arrPts
    exact bigSep_congr fun w _ => by dsimp only; rw [withArrays_arr win hw.arr_inj c V A' w]
  · unfold unscopedRest
    exact bigSep_congr fun b hb => by
      dsimp only
      rw [withArrays_of_ne win c V A' b fun w h => (Finset.mem_sdiff.mp hb).2 (Finset.mem_image.mpr ⟨w, Finset.mem_univ w, h⟩)]

end Exit

section Frame

variable (pcs : P → PCfg sig Λ₀ Val) (a : (p : P) → (pcs p).Adm)
  (defs₀ : Defs nD τ sig Val Λ₀) (𝒱₀ : Variants)
  (L : GSem nD τ sig → Finset Ix) (lv : GSem nD τ sig → Ix → Lvl) (ι : Ix)

omit [Fintype P] [Preorder Lvl] in

theorem withArrays_keeps {p : P} (hw : WinFacts (pin pcs a p).spec) (V : Valuation τ sig Val) (c : Dev nD)
    (A' : (w : Fin (pin pcs a p).W) → Buf Val (((pin pcs a p).win w).arr.view.loc (c.tc : Thread nD τ)))
    (hA' : ∀ w, (frameRD (Ix := Ix) (Name := Name) (U := U) (Lvl := Lvl) pcs a V p c).ArrAt w (pin pcs a p).N (A' w))
    (b : Ref sig .tc) (hb : ∀ w, arrRef (pin pcs a p).spec w = b → ((pin pcs a p).win w).isOut = false) :
    withArrays (pin pcs a p).spec c V A' (Proc.devRef .tc b) = V (Proc.devRef .tc b) := by
  classical
  by_cases h : ∃ w, arrRef (pin pcs a p).spec w = b
  · obtain ⟨w, rfl⟩ := h
    rw [withArrays_arr (pin pcs a p).spec hw.arr_inj c V A' w]
    have := hA' w
    rw [(frameRD (Ix := Ix) (Name := Name) (U := U) (Lvl := Lvl) pcs a V p c).ArrAt_in w (hb w rfl)] at this
    exact this
  · exact withArrays_of_ne (pin pcs a p).spec c V A' b fun w hw' => h ⟨w, hw'⟩

set_option backward.isDefEq.respectTransparency.types false in

def frameRegion [∀ e, Nonempty (Val e)] {p : P}
    (hw : WinFacts (pin pcs a p).spec)
    (hpos : ∀ w : Fin (pin pcs a p).W, 0 < ((pin pcs a p).spec w).block.numel)
    (harr : ∀ w, ((pin pcs a p).spec w).arr.IsWhole)
    (hstage : ∀ (w : Fin (pin pcs a p).W) (s : Fin ((pin pcs a p).spec w).nbuf), (((pin pcs a p).spec w).stage s).IsWhole)
    (hnopre : ∀ (c : Dev nD) q t, (BI.emp : sProp 𝕄) ⊢ prefHeld (pcs p).pre c q t)
    (V : Valuation τ sig Val)
    (hbody : ∀ c, (frameRD (Ix := Ix) (Name := Name) (U := U) (Lvl := Lvl) pcs a V p c).BodyObligation defs₀ 𝒱₀ ι Set.univ)
    (Rd : Dev nD → sProp 𝕄) :
    RDat.RegionSeg pcs a (frameRD (Ix := Ix) (Name := Name) (U := U) (Lvl := Lvl) pcs a V) ι defs₀ 𝒱₀ L lv p where
  win := hw.to₀
  block_pos := hpos
  stage_whole := hstage
  K := PEmpty
  osem k := k.elim
  ho := OwnSemFacts.none _
  hbody := hbody
  hwaits := RDat.hwaits_of_owed_zero pcs a (frameRD (Ix := Ix) (Name := Name) (U := U) (Lvl := Lvl) pcs a V) ι L lv p (fun _ _ => rfl)
  pre c := iprop(StableHlo.held (c.tc : Thread nD τ) (ucRefs τ sig) V
    ∗ (∃ W, owes (c.tc : Thread nD τ) (0 : CellTallies nD τ sig Ix) W) ∗ Rd c)
  post c := iprop(∃ V' : Valuation τ sig Val,
    ⌜∀ b : Ref sig .tc, (∀ w, arrRef (pin pcs a p).spec w = b → ((pin pcs a p).win w).isOut = false) → V' (Proc.devRef .tc b) = V (Proc.devRef .tc b)⌝
      ∗ StableHlo.held (c.tc : Thread nD τ) (ucRefs τ sig) V'
      ∗ (∃ W, owes (c.tc : Thread nD τ) (0 : CellTallies nD τ sig Ix) W) ∗ Rd c)
  X _ := iprop(emp)
  Y _ := iprop(emp)
  Z c := iprop(unscopedRest (pin pcs a p).spec c (fun b => V b) ∗ Rd c)
  hentry c := by
    rw [ownSems0_none]
    have hsplit := RDat.arrays_of_unscopedBufs (p := p) pcs a (frameRD (Ix := Ix) (Name := Name) (U := U) (Lvl := Lvl) pcs a V) hw harr c
      ((frameRD (Ix := Ix) (Name := Name) (U := U) (Lvl := Lvl) pcs a V p c).share_full fun _ => rfl) (fun b => V b) fun _ => rfl
    rw [unscopedBufs_held] at hsplit
    iintro ⟨⟨Hub, HO, HR⟩, -, -⟩
    ihave H := hsplit $$ Hub
    icases H with ⟨Ha, Hrest⟩
    imodintro
    isplitl [Ha]; · iexact Ha
    isplitr; · iapply (hnopre c _ _); iempintro
    isplitl [HO]
    · unfold RDat.owesAt owesWithin
      icases HO with ⟨%W, HO⟩; iexists W; isplitr; · ipureintro; exact fun _ _ => Or.inl trivial
      iexact HO
    isplitr; · iempintro
    isplitl [Hrest]; · iexact Hrest
    iexact HR
  hin c := by
    rw [frameRD_Φ]
    iintro ⟨-, -, H⟩; iexact H
  hout c := by
    rw [ownSems0_none, frameRD_Φ]
    iintro H
    isplitr; · iempintro
    isplitr; · iempintro
    iexact H
  hexit c := by
    iintro ⟨Ha, HO, -, ⟨Hrest, HR⟩⟩
    ihave Ha' := (arraysAt_open (frameRD (Ix := Ix) (Name := Name) (U := U) (Lvl := Lvl) pcs a V p c) harr
      ((frameRD (Ix := Ix) (Name := Name) (U := U) (Lvl := Lvl) pcs a V p c).share_full fun _ => rfl) (pin pcs a p).N) $$ Ha
    icases Ha' with ⟨%A', %hA', Ha⟩
    imodintro
    iexists (withArrays (pin pcs a p).spec c V A')
    isplitr
    · ipureintro; exact fun b hb => withArrays_keeps pcs a hw V c A' hA' b hb
    isplitl [Ha Hrest]
    · iapply (held_withArrays (pin pcs a p).spec hw c V A')
      isplitl [Ha] <;> iassumption
    isplitl [HO]
    · unfold RDat.owesAt owesWithin
      icases HO with ⟨%W, -, HO⟩; iexists W; iexact HO
    iexact HR

end Frame

section Items

variable (pcs : P → PCfg sig Λ₀ Val) (a : (p : P) → (pcs p).Adm)
  (defs₀ : Defs nD τ sig Val Λ₀) (𝒱₀ : Variants)
  (L : GSem nD τ sig → Finset Ix) (lv : GSem nD τ sig → Ix → Lvl) (ι : Ix)
  (phinj : Function.Injective (cellOf (nD := nD) (pin pcs a)))
  (EP : Emb (URounds (GSem nD τ sig) Unit) (MT nD τ sig Ix Val Name U Lvl))
  (m : (ℓ : Loc nD τ sig) → Buf Val ℓ) (args : List (Ref sig .tc))

def Keeps (c : Dev nD) (V : Valuation τ sig Val) : Prop :=
  ∀ r ∈ args, V (Proc.devRef .tc r) = m ((c.tc : Thread nD τ).loc r)

def TS (S : Finset P) (c : Dev nD) : sProp 𝕄 :=
  iprop(∃ V : Valuation τ sig Val, ⌜Keeps m args c V⌝ ∗ StableHlo.held (c.tc : Thread nD τ) (ucRefs τ sig) V
    ∗ (∃ W, owes (c.tc : Thread nD τ) (0 : CellTallies nD τ sig Ix) W) ∗ ghostOn pcs a EP S c)

set_option backward.isDefEq.respectTransparency.types false in

def hostItem (S : Finset P) (ops : List (HloOp τ sig Val)) (hsub : ∀ op ∈ ops, op.bufs ⊆ ucRefs τ sig)
    (hfresh : ∀ op ∈ ops, op.fresh = ∅) (Wl : List (Ref sig .tc))
    (hW : ops.Forall fun op => op.writes ⊆ (Wl.map (Proc.devRef (τ := τ) .tc)).toFinset)
    (hargs : ∀ r ∈ args, r ∉ Wl) :
    HostSeg (Name := Name) (U := U) pcs defs₀ 𝒱₀ L lv :=
  HostSeg.conseq pcs defs₀ 𝒱₀ L lv
    (HostSeg.ex pcs defs₀ 𝒱₀ L lv (StableHlo.seq ops)
      (fun V : Valuation τ sig Val => HostSeg.ofOps pcs defs₀ 𝒱₀ L lv (ucRefs τ sig) ops hsub hfresh (fun _ => V)
        (fun c => iprop(⌜Keeps m args c V⌝ ∗ (∃ W, owes (c.tc : Thread nD τ) (0 : CellTallies nD τ sig Ix) W) ∗ ghostOn pcs a EP S c)))
      (fun _ => rfl))
    (TS pcs a EP m args S) (TS pcs a EP m args S)
    (fun c => by
      unfold TS HostSeg.ex HostSeg.ofOps
      iintro ⟨%V, %hV, Hh, HO, Hg⟩
      iexists V
      isplitl [Hh]; · iexact Hh
      isplitr; · ipureintro; exact hV
      isplitl [HO] <;> iassumption)
    (fun c => by
      unfold TS HostSeg.ex HostSeg.ofOps
      iintro ⟨%V, Hh, %hV, HO, Hg⟩
      iexists (StableHlo.after ops V)
      isplitr
      · ipureintro
        exact fun r hr => (StableHlo.after_of_writes_sub ops V hW (hargs r hr)).trans (hV r hr)
      isplitl [Hh]; · iexact Hh
      isplitl [HO] <;> iassumption)

include phinj in
set_option backward.isDefEq.respectTransparency.types false in

def regionItem [DecidableEq P] [∀ e, Nonempty (Val e)] [Infinite Name] [EP.LandsIn (upEmb : UEmb _ 𝕄)]
    (S : Finset P) {p : P} (hp : p ∈ S)
    (hw : WinFacts (pin pcs a p).spec)
    (hpos : ∀ w : Fin (pin pcs a p).W, 0 < ((pin pcs a p).spec w).block.numel)
    (harr : ∀ w, ((pin pcs a p).spec w).arr.IsWhole)
    (hstage : ∀ (w : Fin (pin pcs a p).W) (s : Fin ((pin pcs a p).spec w).nbuf), (((pin pcs a p).spec w).stage s).IsWhole)
    (hnopre : ∀ (c : Dev nD) q t, (BI.emp : sProp 𝕄) ⊢ prefHeld (pcs p).pre c q t)
    (hbody : ∀ (V : Valuation τ sig Val) c, (frameRD (Ix := Ix) (Name := Name) (U := U) (Lvl := Lvl) pcs a V p c).BodyObligation defs₀ 𝒱₀ ι Set.univ)
    (hargs : ∀ r ∈ args, ∀ w, arrRef (pin pcs a p).spec w = r → ((pin pcs a p).win w).isOut = false) :
    HostSeg (Name := Name) (U := U) pcs defs₀ 𝒱₀ L lv :=
  HostSeg.conseq pcs defs₀ 𝒱₀ L lv
    (HostSeg.ex pcs defs₀ 𝒱₀ L lv (Prog.lift (.customCall (entry p) ()))
      (fun V : Valuation τ sig Val => HostSeg.ofRegion pcs a defs₀ 𝒱₀ L lv (frameRD (Ix := Ix) (Name := Name) (U := U) (Lvl := Lvl) pcs a V) ι phinj EP
        (frameRegion pcs a defs₀ 𝒱₀ L lv ι hw hpos harr hstage hnopre V (hbody V)
          (fun c => iprop(⌜Keeps m args c V⌝ ∗ ghostOn pcs a EP (S.erase p) c))))
      (fun _ => rfl))
    (TS pcs a EP m args S) (TS pcs a EP m args (S.erase p))
    (fun c => by
      unfold TS HostSeg.ex HostSeg.ofRegion frameRegion
      rw [show (ghostOn pcs a EP S c : sProp 𝕄) = iprop((cellsGhost (pin pcs a) EP p c ∗ toksInit (pin pcs a) EP p c) ∗ ghostOn pcs a EP (S.erase p) c)
        from PerCore.ghostOn_erase pcs (fun _ => a) EP hp c]
      iintro ⟨%V, %hV, Hh, HO, ⟨Hg, Ht⟩, Hrest⟩
      iexists V
      isplitl [Hh HO Hrest]
      · isplitl [Hh]; · iexact Hh
        isplitl [HO]; · iexact HO
        isplitr; · ipureintro; exact hV
        iexact Hrest
      isplitl [Hg] <;> iassumption)
    (fun c => by
      unfold TS HostSeg.ex HostSeg.ofRegion frameRegion
      iintro ⟨%V, %V', %hV', Hh, HO, %hV, Hrest⟩
      iexists V'
      isplitr
      · ipureintro
        exact fun r hr => (hV' r (hargs r hr)).trans (hV r hr)
      isplitl [Hh]; · iexact Hh
      isplitl [HO] <;> iassumption)

end Items

end Cert.Proof.FrameKit

end
-- ==== Proof.KernelTripleStats0.lean ====
import proofs.«138250_j73134703116926_1_alg».proof.Proof.Gen.Kernel.Skeleton
import proofs.«138250_j73134703116926_1_alg».proof.Proof.Gen.Kernel.Points
import Idealize.ShloMosaic.Lib.Tactic
import Idealize.ShloMosaic.Lib.Pipeline.Value

noncomputable section

namespace Cert.Kernel.Triples

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

section
variable (i : grid0.Coords) (X0 : Vec F S512x1024 .f32) (X1 : Vec F S2048x1024 .f32) (X2 : Vec F S2048 .f32)
  (X3 f0 f1 : Vec F S512x1 .f32)

def k0_cond1 : BitVec 1 :=
  Scalar.cmpi .ne (Scalar.extui (Scalar.cmpi .eq (BitVec.ofNat 32 (i 0).val) 0#32) : BitVec 32) 0#32

def stats0_mIn : Vec F S512x1 .f32 := if k0_cond1 i = 1#1 then k0_pay4 else f0

def stats0_lIn : Vec F S512x1 .f32 := if k0_cond1 i = 1#1 then k0_pay5 else f1

def stats0_m : FVec F S512x1 .f32 := k0_pay8 i X0 X1 X2 (stats0_mIn i f0)

def stats0_l : FVec F S512x1 .f32 := k0_pay9 i X0 X1 X2 (stats0_mIn i f0) (stats0_lIn i f1)

def stats0_scr0 : Vec F S512x1 .f32 := k0_pay1 (stats0_m i X0 X1 X2 f0)

def stats0_scr1 : Vec F S512x1 .f32 := k0_pay2 (stats0_l i X0 X1 X2 f0 f1)

def stats0_out : Vec F S512x1 .f32 :=
  if k0_cond2 i = 1#1 then k0_pay3 (stats0_m i X0 X1 X2 f0) (stats0_l i X0 X1 X2 f0 f1) else X3

end

theorem k0_cond1_iff : ∀ t : Fin grid0.N, k0_cond1 (grid0.coords t) = 1#1 ↔ t.val = 0 := by decide +kernel
theorem k0_cond2_iff : ∀ t : Fin grid0.N, k0_cond2 (grid0.coords t) = 1#1 ↔ t.val = 9 := by decide +kernel

theorem stats_off2 : (![0, 0] : Fin 2 → ℕ) = fun _ => 0 := funext fun a => by fin_cases a <;> rfl
theorem stats_off1 : (![0] : Fin 1 → ℕ) = fun _ => 0 := funext fun a => by fin_cases a; rfl

-- A load through the whole-shape rectangle reads the view's contents.
theorem stats_readAt {Val : EltTy → Type} {sig' : RefSig} {κ : Kind} {sp : Space} {S : Shape} {e : EltTy}
    (v : View sig' κ sp S e) (f : v.ty.Contents Val) {off : Fin S.rank → ℕ} (h : off = fun _ => 0)
    (inb : ∀ a, off a + S.size a ≤ S.size a) :
    v.readAt Val (Rect.unit off S.size inb).toLoadRect f = v.read Val f := by
  rw [View.readAt_eq_ld, View.ld_unit_zero h]

-- After a last store through the whole-shape rectangle the view reads that store's payload.
theorem stats_read_writes {Val : EltTy → Type} [∀ e, Nonempty (Val e)] {sig' : RefSig} {κ : Kind} {sp : Space} {S : Shape} {e : EltTy}
    (v : View sig' κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

-- A buffer stored whole under a condition reads the payload where the condition holds, what it held otherwise.
theorem stats_read_guarded {Val : EltTy → Type} [∀ e, Nonempty (Val e)] {sig' : RefSig} {κ : Kind} {sp : Space} {S : Shape} {e : EltTy}
    (v : View sig' κ sp S e) (f : v.ty.Contents Val) {off : Fin S.rank → ℕ} (h : off = fun _ => 0)
    (inb : ∀ a, off a + S.size a ≤ S.size a) (w : S.Idx → Val e) (p : Prop) [Decidable p] :
    v.read Val (if _ : p then v.writes Val f [(⟨Rect.unit off S.size inb, w⟩ : View.Piece Val S e)] else f)
      = if p then w else v.read Val f := by
  split
  · exact stats_read_writes v f h inb w []
  · rfl

variable {Ix : Type} [DecidableEq Ix] {U : Type} [URA U] {Lvl : Type} [Preorder Lvl]

local notation "𝕄" => MT nD τ sig Ix (Elt F) ℕ U Lvl

theorem triple_stats0 (𝒱₀ : Variants) (c : Dev nD) (E : Set ℕ) (i : grid0.Coords)
    (arg1 : Memref sig .tc .vmem S512x1024 .f32) (harg1 : arg1.IsWhole) (arg2 : Memref sig .tc .vmem S2048x1024 .f32) (harg2 : arg2.IsWhole)
    (arg3 : Memref sig .tc .vmem S2048 .f32) (harg3 : arg3.IsWhole) (arg4 : Memref sig .tc .vmem S512x1 .f32) (harg4 : arg4.IsWhole)
    (arg5 : Memref sig .tc .vmem S512x1 .f32) (harg5 : arg5.IsWhole) (arg6 : Memref sig .tc .vmem S512x1 .f32) (harg6 : arg6.IsWhole)
    (X0 : Vec F S512x1024 .f32) (X1 : Vec F S2048x1024 .f32) (X2 : Vec F S2048 .f32) (X3 f0 f1 : Vec F S512x1 .f32)
    (K : PUnit → sProp 𝕄) :
    iprop((owns (c : Thread nD τ) arg1 fullShare X0 ∗ owns (c : Thread nD τ) arg2 fullShare X1 ∗ owns (c : Thread nD τ) arg3 fullShare X2
            ∗ owns (c : Thread nD τ) arg4 fullShare X3 ∗ owns (c : Thread nD τ) arg5 fullShare f0 ∗ owns (c : Thread nD τ) arg6 fullShare f1)
          ∗ (iprop(owns (c : Thread nD τ) arg1 fullShare X0 ∗ owns (c : Thread nD τ) arg2 fullShare X1 ∗ owns (c : Thread nD τ) arg3 fullShare X2
                  ∗ owns (c : Thread nD τ) arg4 fullShare (stats0_out i X0 X1 X2 X3 f0 f1)
                  ∗ owns (c : Thread nD τ) arg5 fullShare (stats0_scr0 i X0 X1 X2 f0)
                  ∗ owns (c : Thread nD τ) arg6 fullShare (stats0_scr1 i X0 X1 X2 f0 f1)) -∗ K ⟨⟩))
      ⊢ wp frame (wpE (defs₀ (F := F)) 𝒱₀ c none) E
          (cc0__stats_kernel i arg1 harg1 arg2 harg2 arg3 harg3 arg4 harg4 arg5 harg5 arg6 harg6) K := by
  sl_unfold [cc0__stats_kernel]
  unfold owns
  iintro ⟨⟨⟨%g1, %hg1, H1⟩, ⟨%g2, %hg2, H2⟩, ⟨%g3, %hg3, H3⟩, ⟨%g4, %hg4, H4⟩, ⟨%g5, %hg5, H5⟩, ⟨%g6, %hg6, H6⟩⟩, Hk⟩
  subst hg1 hg2 hg3 hg4 hg5 hg6
  sl_exec
  sl_step
  have hm : triple_stats0.sl.r c i arg1 arg2 arg3 arg5 g1 g2 g3 g5
      = stats0_m i (arg1.view.read (Elt F) g1) (arg2.view.read (Elt F) g2) (arg3.view.read (Elt F) g3) (arg5.view.read (Elt F) g5) := by
    unfold triple_stats0.sl.r triple_stats0.sl.v30 stats0_m stats0_mIn
    rw [stats_readAt _ _ stats_off2, stats_readAt _ _ stats_off2, stats_readAt _ _ stats_off1, stats_readAt _ _ stats_off2, stats_read_guarded _ _ stats_off2]
    rfl
  have hl : triple_stats0.sl.r_1 c i arg1 arg2 arg3 arg5 arg6 g1 g2 g3 g5 g6
      = stats0_l i (arg1.view.read (Elt F) g1) (arg2.view.read (Elt F) g2) (arg3.view.read (Elt F) g3) (arg5.view.read (Elt F) g5)
          (arg6.view.read (Elt F) g6) := by
    unfold triple_stats0.sl.r_1 triple_stats0.sl.v30 triple_stats0.sl.v31 stats0_l stats0_mIn stats0_lIn
    rw [stats_readAt _ _ stats_off2, stats_readAt _ _ stats_off2, stats_readAt _ _ stats_off1, stats_readAt _ _ stats_off2, stats_readAt _ _ stats_off2,
      stats_read_guarded _ _ stats_off2, stats_read_guarded _ _ stats_off2]
    rfl
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro
    refine (stats_read_guarded _ _ stats_off2 _ _ _).trans ?_
    rw [hm, hl, stats0_out]
  isplitl [H5]
  · iexists _; isplitr; swap; · iexact H5
    ipureintro; exact (stats_read_writes _ _ stats_off2 _ _ _).trans (congrArg k0_pay1 hm)
  · iexists _; isplitr; swap; · iexact H6
    ipureintro; exact (stats_read_writes _ _ stats_off2 _ _ _).trans (congrArg k0_pay2 hl)

end Cert.Kernel.Triples
-- ==== Proof.KernelFrameBody0.lean ====
import proofs.«138250_j73134703116926_1_alg».proof.Proof.KernelFrameKit
import proofs.«138250_j73134703116926_1_alg».proof.Proof.KernelRegions
import proofs.«138250_j73134703116926_1_alg».proof.Proof.KernelTripleStats0
import Idealize.ShloMosaic.Lib.Tactic

noncomputable section

namespace Cert.Kernel.FrameBodies

open Cert.Kernel Cert.Kernel.Gen Cert.Kernel.GenP Cert.Proof.FrameKit
open Idealize.ShloMosaic Idealize.SL.RA

variable {F : FTy → Type} [FloatOps F]
variable {Ix : Type} [DecidableEq Ix] {U : Type} [URA U] {Lvl : Type} [Preorder Lvl]

-- The statistics function's triple with what the buffers hold afterwards forgotten: the relations ask nothing of it.
theorem rbody0 (𝒱₀ : Variants) (ι : Ix) (V : Valuation τ sig (Elt F)) (c : Dev nD) :
    (frameRD (Ix := Ix) (Name := ℕ) (U := U) (Lvl := Lvl) (pcfgs (F := F)) adm V 0 c).BodyObligation
      (defs₀ (F := F)) 𝒱₀ ι Set.univ := by
  intro t Y _
  rw [frameRD_Φ, frameRD_Φ, bigSep_W0, bigSep_W0,
    show (Pipeline.pin (pcfgs (F := F)) adm 0).spec = spec0 from rfl, scopedRest0_split]
  simp only [← owns_whole]
  iintro ⟨⟨⟨⟨%g0, Hs0⟩, ⟨%g1, Hs1⟩⟩, Hrest⟩, Ho, H0, H1, H2, H3⟩
  sl_whnfR [defs₀, Defs.onTc]
  iapply (Triples.triple_stats0 𝒱₀ c Set.univ (grid0.coords t) _ _ _ _ _ _ _ _ _ _ _ _ (Y 0) (Y 1) (Y 2) (Y 3) g0 g1 _)
  iframe H0 H1 H2 H3 Hs0 Hs1
  iintro ⟨H0, H1, H2, H3, Hs0, Hs1⟩
  isplitl [Hs0 Hs1 Hrest]
  · iframe Hrest
    isplitl [Hs0]; · iexists _; iexact Hs0
    iexists _; iexact Hs1
  isplitl [Ho]; · iexact Ho
  isplitl [H0]; · iexists _; isplitr; swap; (· iexact H0); ipureintro; trivial
  isplitl [H1]; · iexists _; isplitr; swap; (· iexact H1); ipureintro; trivial
  isplitl [H2]; · iexists _; isplitr; swap; (· iexact H2); ipureintro; trivial
  iexists _; isplitr; swap; (· iexact H3); ipureintro; trivial

end Cert.Kernel.FrameBodies
-- ==== Proof.KernelFrameBody1.lean ====
import proofs.«138250_j73134703116926_1_alg».proof.Proof.KernelFrameKit
import proofs.«138250_j73134703116926_1_alg».proof.Proof.KernelRegions
import Idealize.ShloMosaic.Lib.Tactic

noncomputable section

namespace Cert.Kernel.FrameBodies

open Cert.Kernel Cert.Kernel.Gen Cert.Kernel.GenP Cert.Proof.FrameKit
open Idealize.ShloMosaic Idealize.SL.RA

variable {F : FTy → Type} [FloatOps F]
variable {Ix : Type} [DecidableEq Ix] {U : Type} [URA U] {Lvl : Type} [Preorder Lvl]

-- The body only loads its inputs' buffers whole and stores its output's whole; the relations ask nothing of what the buffers then hold.
theorem rbody1 (𝒱₀ : Variants) (ι : Ix) (V : Valuation τ sig (Elt F)) (c : Dev nD) :
    (frameRD (Ix := Ix) (Name := ℕ) (U := U) (Lvl := Lvl) (pcfgs (F := F)) adm V 1 c).BodyObligation
      (defs₀ (F := F)) 𝒱₀ ι Set.univ := by
  intro t Y _
  rw [frameRD_Φ, frameRD_Φ, bigSep_W1, bigSep_W1]
  conv_lhs => unfold owns
  iintro ⟨HΦ, Ho, ⟨%f0, -, H0⟩, ⟨%f1, -, H1⟩, ⟨%f2, -, H2⟩, ⟨%f3, -, H3⟩, ⟨%f4, -, H4⟩⟩
  sl_whnfR [defs₀, Defs.onTc]
  sl_unfold [cc1__finalize_kernel]
  sl_exec
  sl_step
  iframe HΦ
  isplitl [Ho]; · iexact Ho
  isplitl [H0]; · iexists _; isplitr; swap; (· iapply (owns_intro _ _ _ _) $$ H0); ipureintro; trivial
  isplitl [H1]; · iexists _; isplitr; swap; (· iapply (owns_intro _ _ _ _) $$ H1); ipureintro; trivial
  isplitl [H2]; · iexists _; isplitr; swap; (· iapply (owns_intro _ _ _ _) $$ H2); ipureintro; trivial
  isplitl [H3]; · iexists _; isplitr; swap; (· iapply (owns_intro _ _ _ _) $$ H3); ipureintro; trivial
  iexists _; isplitr; swap; (· iapply (owns_intro _ _ _ _) $$ H4); ipureintro; trivial

end Cert.Kernel.FrameBodies
-- ==== Proof.KernelTripleStats2.lean ====
import proofs.«138250_j73134703116926_1_alg».proof.Proof.KernelTripleStats0

noncomputable section

namespace Cert.Kernel.Triples

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

section
variable (i : grid2.Coords) (X0 : Vec F S512x256 .f32) (X1 : Vec F S2048x256 .f32) (X2 : Vec F S2048 .f32)
  (X3 f0 f1 : Vec F S512x1 .f32)

def k2_cond1 : BitVec 1 :=
  Scalar.cmpi .ne (Scalar.extui (Scalar.cmpi .eq (BitVec.ofNat 32 (i 0).val) 0#32) : BitVec 32) 0#32

def stats2_mIn : Vec F S512x1 .f32 := if k2_cond1 i = 1#1 then k2_pay4 else f0

def stats2_lIn : Vec F S512x1 .f32 := if k2_cond1 i = 1#1 then k2_pay5 else f1

def stats2_m : FVec F S512x1 .f32 := k2_pay8 i X0 X1 X2 (stats2_mIn i f0)

def stats2_l : FVec F S512x1 .f32 := k2_pay9 i X0 X1 X2 (stats2_mIn i f0) (stats2_lIn i f1)

def stats2_scr0 : Vec F S512x1 .f32 := k2_pay1 (stats2_m i X0 X1 X2 f0)

def stats2_scr1 : Vec F S512x1 .f32 := k2_pay2 (stats2_l i X0 X1 X2 f0 f1)

def stats2_out : Vec F S512x1 .f32 :=
  if k2_cond2 i = 1#1 then k2_pay3 (stats2_m i X0 X1 X2 f0) (stats2_l i X0 X1 X2 f0 f1) else X3

end

theorem k2_cond1_iff : ∀ t : Fin grid2.N, k2_cond1 (grid2.coords t) = 1#1 ↔ t.val = 0 := by decide +kernel
theorem k2_cond2_iff : ∀ t : Fin grid2.N, k2_cond2 (grid2.coords t) = 1#1 ↔ t.val = 9 := by decide +kernel

variable {Ix : Type} [DecidableEq Ix] {U : Type} [URA U] {Lvl : Type} [Preorder Lvl]

local notation "𝕄" => MT nD τ sig Ix (Elt F) ℕ U Lvl

theorem triple_stats2 (𝒱₀ : Variants) (c : Dev nD) (E : Set ℕ) (i : grid2.Coords)
    (arg1 : Memref sig .tc .vmem S512x256 .f32) (harg1 : arg1.IsWhole) (arg2 : Memref sig .tc .vmem S2048x256 .f32) (harg2 : arg2.IsWhole)
    (arg3 : Memref sig .tc .vmem S2048 .f32) (harg3 : arg3.IsWhole) (arg4 : Memref sig .tc .vmem S512x1 .f32) (harg4 : arg4.IsWhole)
    (arg5 : Memref sig .tc .vmem S512x1 .f32) (harg5 : arg5.IsWhole) (arg6 : Memref sig .tc .vmem S512x1 .f32) (harg6 : arg6.IsWhole)
    (X0 : Vec F S512x256 .f32) (X1 : Vec F S2048x256 .f32) (X2 : Vec F S2048 .f32) (X3 f0 f1 : Vec F S512x1 .f32)
    (K : PUnit → sProp 𝕄) :
    iprop((owns (c : Thread nD τ) arg1 fullShare X0 ∗ owns (c : Thread nD τ) arg2 fullShare X1 ∗ owns (c : Thread nD τ) arg3 fullShare X2
            ∗ owns (c : Thread nD τ) arg4 fullShare X3 ∗ owns (c : Thread nD τ) arg5 fullShare f0 ∗ owns (c : Thread nD τ) arg6 fullShare f1)
          ∗ (iprop(owns (c : Thread nD τ) arg1 fullShare X0 ∗ owns (c : Thread nD τ) arg2 fullShare X1 ∗ owns (c : Thread nD τ) arg3 fullShare X2
                  ∗ owns (c : Thread nD τ) arg4 fullShare (stats2_out i X0 X1 X2 X3 f0 f1)
                  ∗ owns (c : Thread nD τ) arg5 fullShare (stats2_scr0 i X0 X1 X2 f0)
                  ∗ owns (c : Thread nD τ) arg6 fullShare (stats2_scr1 i X0 X1 X2 f0 f1)) -∗ K ⟨⟩))
      ⊢ wp frame (wpE (defs₀ (F := F)) 𝒱₀ c none) E
          (cc2__stats_kernel i arg1 harg1 arg2 harg2 arg3 harg3 arg4 harg4 arg5 harg5 arg6 harg6) K := by
  sl_unfold [cc2__stats_kernel]
  unfold owns
  iintro ⟨⟨⟨%g1, %hg1, H1⟩, ⟨%g2, %hg2, H2⟩, ⟨%g3, %hg3, H3⟩, ⟨%g4, %hg4, H4⟩, ⟨%g5, %hg5, H5⟩, ⟨%g6, %hg6, H6⟩⟩, Hk⟩
  subst hg1 hg2 hg3 hg4 hg5 hg6
  sl_exec
  sl_step
  have hm : triple_stats2.sl.r c i arg1 arg2 arg3 arg5 g1 g2 g3 g5
      = stats2_m i (arg1.view.read (Elt F) g1) (arg2.view.read (Elt F) g2) (arg3.view.read (Elt F) g3) (arg5.view.read (Elt F) g5) := by
    unfold triple_stats2.sl.r triple_stats2.sl.v28 stats2_m stats2_mIn
    rw [stats_readAt _ _ stats_off2, stats_readAt _ _ stats_off2, stats_readAt _ _ stats_off1, stats_readAt _ _ stats_off2, stats_read_guarded _ _ stats_off2]
    rfl
  have hl : triple_stats2.sl.r_1 c i arg1 arg2 arg3 arg5 arg6 g1 g2 g3 g5 g6
      = stats2_l i (arg1.view.read (Elt F) g1) (arg2.view.read (Elt F) g2) (arg3.view.read (Elt F) g3) (arg5.view.read (Elt F) g5)
          (arg6.view.read (Elt F) g6) := by
    unfold triple_stats2.sl.r_1 triple_stats2.sl.v28 triple_stats2.sl.v29 stats2_l stats2_mIn stats2_lIn
    rw [stats_readAt _ _ stats_off2, stats_readAt _ _ stats_off2, stats_readAt _ _ stats_off1, stats_readAt _ _ stats_off2, stats_readAt _ _ stats_off2,
      stats_read_guarded _ _ stats_off2, stats_read_guarded _ _ stats_off2]
    rfl
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro
    refine (stats_read_guarded _ _ stats_off2 _ _ _).trans ?_
    rw [hm, hl, stats2_out]
  isplitl [H5]
  · iexists _; isplitr; swap; · iexact H5
    ipureintro; exact (stats_read_writes _ _ stats_off2 _ _ _).trans (congrArg k2_pay1 hm)
  · iexists _; isplitr; swap; · iexact H6
    ipureintro; exact (stats_read_writes _ _ stats_off2 _ _ _).trans (congrArg k2_pay2 hl)

end Cert.Kernel.Triples
-- ==== Proof.KernelFrameBody2.lean ====
import proofs.«138250_j73134703116926_1_alg».proof.Proof.KernelFrameKit
import proofs.«138250_j73134703116926_1_alg».proof.Proof.KernelRegions
import proofs.«138250_j73134703116926_1_alg».proof.Proof.KernelTripleStats2
import Idealize.ShloMosaic.Lib.Tactic

noncomputable section

namespace Cert.Kernel.FrameBodies

open Cert.Kernel Cert.Kernel.Gen Cert.Kernel.GenP Cert.Proof.FrameKit
open Idealize.ShloMosaic Idealize.SL.RA

variable {F : FTy → Type} [FloatOps F]
variable {Ix : Type} [DecidableEq Ix] {U : Type} [URA U] {Lvl : Type} [Preorder Lvl]

-- The statistics function's triple with what the buffers hold afterwards forgotten: the relations ask nothing of it.
theorem rbody2 (𝒱₀ : Variants) (ι : Ix) (V : Valuation τ sig (Elt F)) (c : Dev nD) :
    (frameRD (Ix := Ix) (Name := ℕ) (U := U) (Lvl := Lvl) (pcfgs (F := F)) adm V 2 c).BodyObligation
      (defs₀ (F := F)) 𝒱₀ ι Set.univ := by
  intro t Y _
  rw [frameRD_Φ, frameRD_Φ, bigSep_W2, bigSep_W2,
    show (Pipeline.pin (pcfgs (F := F)) adm 2).spec = spec2 from rfl, scopedRest2_split]
  simp only [← owns_whole]
  iintro ⟨⟨⟨⟨%g0, Hs0⟩, ⟨%g1, Hs1⟩⟩, Hrest⟩, Ho, H0, H1, H2, H3⟩
  sl_whnfR [defs₀, Defs.onTc]
  iapply (Triples.triple_stats2 𝒱₀ c Set.univ (grid2.coords t) _ _ _ _ _ _ _ _ _ _ _ _ (Y 0) (Y 1) (Y 2) (Y 3) g0 g1 _)
  iframe H0 H1 H2 H3 Hs0 Hs1
  iintro ⟨H0, H1, H2, H3, Hs0, Hs1⟩
  isplitl [Hs0 Hs1 Hrest]
  · iframe Hrest
    isplitl [Hs0]; · iexists _; iexact Hs0
    iexists _; iexact Hs1
  isplitl [Ho]; · iexact Ho
  isplitl [H0]; · iexists _; isplitr; swap; (· iexact H0); ipureintro; trivial
  isplitl [H1]; · iexists _; isplitr; swap; (· iexact H1); ipureintro; trivial
  isplitl [H2]; · iexists _; isplitr; swap; (· iexact H2); ipureintro; trivial
  iexists _; isplitr; swap; (· iexact H3); ipureintro; trivial

end Cert.Kernel.FrameBodies
-- ==== Proof.KernelFrameBody3.lean ====
import proofs.«138250_j73134703116926_1_alg».proof.Proof.KernelFrameKit
import proofs.«138250_j73134703116926_1_alg».proof.Proof.KernelRegions
import Idealize.ShloMosaic.Lib.Tactic

noncomputable section

namespace Cert.Kernel.FrameBodies

open Cert.Kernel Cert.Kernel.Gen Cert.Kernel.GenP Cert.Proof.FrameKit
open Idealize.ShloMosaic Idealize.SL.RA

variable {F : FTy → Type} [FloatOps F]
variable {Ix : Type} [DecidableEq Ix] {U : Type} [URA U] {Lvl : Type} [Preorder Lvl]

-- The body only loads its inputs' buffers whole and stores its output's whole; the relations ask nothing of what the buffers then hold.
theorem rbody3 (𝒱₀ : Variants) (ι : Ix) (V : Valuation τ sig (Elt F)) (c : Dev nD) :
    (frameRD (Ix := Ix) (Name := ℕ) (U := U) (Lvl := Lvl) (pcfgs (F := F)) adm V 3 c).BodyObligation
      (defs₀ (F := F)) 𝒱₀ ι Set.univ := by
  intro t Y _
  rw [frameRD_Φ, frameRD_Φ, bigSep_W3, bigSep_W3]
  conv_lhs => unfold owns
  iintro ⟨HΦ, Ho, ⟨%f0, -, H0⟩, ⟨%f1, -, H1⟩, ⟨%f2, -, H2⟩, ⟨%f3, -, H3⟩, ⟨%f4, -, H4⟩, ⟨%f5, -, H5⟩⟩
  sl_whnfR [defs₀, Defs.onTc]
  sl_unfold [cc3__finalize_kernel_meta]
  sl_exec
  sl_step
  iframe HΦ
  isplitl [Ho]; · iexact Ho
  isplitl [H0]; · iexists _; isplitr; swap; (· iapply (owns_intro _ _ _ _) $$ H0); ipureintro; trivial
  isplitl [H1]; · iexists _; isplitr; swap; (· iapply (owns_intro _ _ _ _) $$ H1); ipureintro; trivial
  isplitl [H2]; · iexists _; isplitr; swap; (· iapply (owns_intro _ _ _ _) $$ H2); ipureintro; trivial
  isplitl [H3]; · iexists _; isplitr; swap; (· iapply (owns_intro _ _ _ _) $$ H3); ipureintro; trivial
  isplitl [H4]; · iexists _; isplitr; swap; (· iapply (owns_intro _ _ _ _) $$ H4); ipureintro; trivial
  iexists _; isplitr; swap; (· iapply (owns_intro _ _ _ _) $$ H5); ipureintro; trivial

end Cert.Kernel.FrameBodies
-- ==== Proof.KernelTripleStats4.lean ====
import proofs.«138250_j73134703116926_1_alg».proof.Proof.KernelTripleStats0

noncomputable section

namespace Cert.Kernel.Triples

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

section
variable (i : grid4.Coords) (X0 : Vec F S512x64 .f32) (X1 : Vec F S4096x64 .f32) (X2 : Vec F S4096 .f32)
  (X3 f0 f1 : Vec F S512x1 .f32)

def k4_cond1 : BitVec 1 :=
  Scalar.cmpi .ne (Scalar.extui (Scalar.cmpi .eq (BitVec.ofNat 32 (i 0).val) 0#32) : BitVec 32) 0#32

def stats4_mIn : Vec F S512x1 .f32 := if k4_cond1 i = 1#1 then k4_pay4 else f0

def stats4_lIn : Vec F S512x1 .f32 := if k4_cond1 i = 1#1 then k4_pay5 else f1

def stats4_m : FVec F S512x1 .f32 := k4_pay8 i X0 X1 X2 (stats4_mIn i f0)

def stats4_l : FVec F S512x1 .f32 := k4_pay9 i X0 X1 X2 (stats4_mIn i f0) (stats4_lIn i f1)

def stats4_scr0 : Vec F S512x1 .f32 := k4_pay1 (stats4_m i X0 X1 X2 f0)

def stats4_scr1 : Vec F S512x1 .f32 := k4_pay2 (stats4_l i X0 X1 X2 f0 f1)

def stats4_out : Vec F S512x1 .f32 :=
  if k4_cond2 i = 1#1 then k4_pay3 (stats4_m i X0 X1 X2 f0) (stats4_l i X0 X1 X2 f0 f1) else X3

end

theorem k4_cond1_iff : ∀ t : Fin grid4.N, k4_cond1 (grid4.coords t) = 1#1 ↔ t.val = 0 := by decide +kernel
theorem k4_cond2_iff : ∀ t : Fin grid4.N, k4_cond2 (grid4.coords t) = 1#1 ↔ t.val = 39 := by decide +kernel

variable {Ix : Type} [DecidableEq Ix] {U : Type} [URA U] {Lvl : Type} [Preorder Lvl]

local notation "𝕄" => MT nD τ sig Ix (Elt F) ℕ U Lvl

theorem triple_stats4 (𝒱₀ : Variants) (c : Dev nD) (E : Set ℕ) (i : grid4.Coords)
    (arg1 : Memref sig .tc .vmem S512x64 .f32) (harg1 : arg1.IsWhole) (arg2 : Memref sig .tc .vmem S4096x64 .f32) (harg2 : arg2.IsWhole)
    (arg3 : Memref sig .tc .vmem S4096 .f32) (harg3 : arg3.IsWhole) (arg4 : Memref sig .tc .vmem S512x1 .f32) (harg4 : arg4.IsWhole)
    (arg5 : Memref sig .tc .vmem S512x1 .f32) (harg5 : arg5.IsWhole) (arg6 : Memref sig .tc .vmem S512x1 .f32) (harg6 : arg6.IsWhole)
    (X0 : Vec F S512x64 .f32) (X1 : Vec F S4096x64 .f32) (X2 : Vec F S4096 .f32) (X3 f0 f1 : Vec F S512x1 .f32)
    (K : PUnit → sProp 𝕄) :
    iprop((owns (c : Thread nD τ) arg1 fullShare X0 ∗ owns (c : Thread nD τ) arg2 fullShare X1 ∗ owns (c : Thread nD τ) arg3 fullShare X2
            ∗ owns (c : Thread nD τ) arg4 fullShare X3 ∗ owns (c : Thread nD τ) arg5 fullShare f0 ∗ owns (c : Thread nD τ) arg6 fullShare f1)
          ∗ (iprop(owns (c : Thread nD τ) arg1 fullShare X0 ∗ owns (c : Thread nD τ) arg2 fullShare X1 ∗ owns (c : Thread nD τ) arg3 fullShare X2
                  ∗ owns (c : Thread nD τ) arg4 fullShare (stats4_out i X0 X1 X2 X3 f0 f1)
                  ∗ owns (c : Thread nD τ) arg5 fullShare (stats4_scr0 i X0 X1 X2 f0)
                  ∗ owns (c : Thread nD τ) arg6 fullShare (stats4_scr1 i X0 X1 X2 f0 f1)) -∗ K ⟨⟩))
      ⊢ wp frame (wpE (defs₀ (F := F)) 𝒱₀ c none) E
          (cc4__stats_kernel i arg1 harg1 arg2 harg2 arg3 harg3 arg4 harg4 arg5 harg5 arg6 harg6) K := by
  sl_unfold [cc4__stats_kernel]
  unfold owns
  iintro ⟨⟨⟨%g1, %hg1, H1⟩, ⟨%g2, %hg2, H2⟩, ⟨%g3, %hg3, H3⟩, ⟨%g4, %hg4, H4⟩, ⟨%g5, %hg5, H5⟩, ⟨%g6, %hg6, H6⟩⟩, Hk⟩
  subst hg1 hg2 hg3 hg4 hg5 hg6
  sl_exec
  sl_step
  have hm : triple_stats4.sl.r c i arg1 arg2 arg3 arg5 g1 g2 g3 g5
      = stats4_m i (arg1.view.read (Elt F) g1) (arg2.view.read (Elt F) g2) (arg3.view.read (Elt F) g3) (arg5.view.read (Elt F) g5) := by
    unfold triple_stats4.sl.r triple_stats4.sl.v28 stats4_m stats4_mIn
    rw [stats_readAt _ _ stats_off2, stats_readAt _ _ stats_off2, stats_readAt _ _ stats_off1, stats_readAt _ _ stats_off2, stats_read_guarded _ _ stats_off2]
    rfl
  have hl : triple_stats4.sl.r_1 c i arg1 arg2 arg3 arg5 arg6 g1 g2 g3 g5 g6
      = stats4_l i (arg1.view.read (Elt F) g1) (arg2.view.read (Elt F) g2) (arg3.view.read (Elt F) g3) (arg5.view.read (Elt F) g5)
          (arg6.view.read (Elt F) g6) := by
    unfold triple_stats4.sl.r_1 triple_stats4.sl.v28 triple_stats4.sl.v29 stats4_l stats4_mIn stats4_lIn
    rw [stats_readAt _ _ stats_off2, stats_readAt _ _ stats_off2, stats_readAt _ _ stats_off1, stats_readAt _ _ stats_off2, stats_readAt _ _ stats_off2,
      stats_read_guarded _ _ stats_off2, stats_read_guarded _ _ stats_off2]
    rfl
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro
    refine (stats_read_guarded _ _ stats_off2 _ _ _).trans ?_
    rw [hm, hl, stats4_out]
  isplitl [H5]
  · iexists _; isplitr; swap; · iexact H5
    ipureintro; exact (stats_read_writes _ _ stats_off2 _ _ _).trans (congrArg k4_pay1 hm)
  · iexists _; isplitr; swap; · iexact H6
    ipureintro; exact (stats_read_writes _ _ stats_off2 _ _ _).trans (congrArg k4_pay2 hl)

end Cert.Kernel.Triples
-- ==== Proof.KernelFrameBody4.lean ====
import proofs.«138250_j73134703116926_1_alg».proof.Proof.KernelFrameKit
import proofs.«138250_j73134703116926_1_alg».proof.Proof.KernelRegions
import proofs.«138250_j73134703116926_1_alg».proof.Proof.KernelTripleStats4
import Idealize.ShloMosaic.Lib.Tactic

noncomputable section

namespace Cert.Kernel.FrameBodies

open Cert.Kernel Cert.Kernel.Gen Cert.Kernel.GenP Cert.Proof.FrameKit
open Idealize.ShloMosaic Idealize.SL.RA

variable {F : FTy → Type} [FloatOps F]
variable {Ix : Type} [DecidableEq Ix] {U : Type} [URA U] {Lvl : Type} [Preorder Lvl]

-- The statistics function's triple with what the buffers hold afterwards forgotten: the relations ask nothing of it.
theorem rbody4 (𝒱₀ : Variants) (ι : Ix) (V : Valuation τ sig (Elt F)) (c : Dev nD) :
    (frameRD (Ix := Ix) (Name := ℕ) (U := U) (Lvl := Lvl) (pcfgs (F := F)) adm V 4 c).BodyObligation
      (defs₀ (F := F)) 𝒱₀ ι Set.univ := by
  intro t Y _
  rw [frameRD_Φ, frameRD_Φ, bigSep_W4, bigSep_W4,
    show (Pipeline.pin (pcfgs (F := F)) adm 4).spec = spec4 from rfl, scopedRest4_split]
  simp only [← owns_whole]
  iintro ⟨⟨⟨⟨%g0, Hs0⟩, ⟨%g1, Hs1⟩⟩, Hrest⟩, Ho, H0, H1, H2, H3⟩
  sl_whnfR [defs₀, Defs.onTc]
  iapply (Triples.triple_stats4 𝒱₀ c Set.univ (grid4.coords t) _ _ _ _ _ _ _ _ _ _ _ _ (Y 0) (Y 1) (Y 2) (Y 3) g0 g1 _)
  iframe H0 H1 H2 H3 Hs0 Hs1
  iintro ⟨H0, H1, H2, H3, Hs0, Hs1⟩
  isplitl [Hs0 Hs1 Hrest]
  · iframe Hrest
    isplitl [Hs0]; · iexists _; iexact Hs0
    iexists _; iexact Hs1
  isplitl [Ho]; · iexact Ho
  isplitl [H0]; · iexists _; isplitr; swap; (· iexact H0); ipureintro; trivial
  isplitl [H1]; · iexists _; isplitr; swap; (· iexact H1); ipureintro; trivial
  isplitl [H2]; · iexists _; isplitr; swap; (· iexact H2); ipureintro; trivial
  iexists _; isplitr; swap; (· iexact H3); ipureintro; trivial

end Cert.Kernel.FrameBodies
-- ==== Proof.KernelFrameBody5.lean ====
import proofs.«138250_j73134703116926_1_alg».proof.Proof.KernelFrameKit
import proofs.«138250_j73134703116926_1_alg».proof.Proof.KernelRegions
import Idealize.ShloMosaic.Lib.Tactic

noncomputable section

namespace Cert.Kernel.FrameBodies

open Cert.Kernel Cert.Kernel.Gen Cert.Kernel.GenP Cert.Proof.FrameKit
open Idealize.ShloMosaic Idealize.SL.RA

variable {F : FTy → Type} [FloatOps F]
variable {Ix : Type} [DecidableEq Ix] {U : Type} [URA U] {Lvl : Type} [Preorder Lvl]

-- The body only loads its inputs' buffers whole and stores its output's whole; the relations ask nothing of what the buffers then hold.
theorem rbody5 (𝒱₀ : Variants) (ι : Ix) (V : Valuation τ sig (Elt F)) (c : Dev nD) :
    (frameRD (Ix := Ix) (Name := ℕ) (U := U) (Lvl := Lvl) (pcfgs (F := F)) adm V 5 c).BodyObligation
      (defs₀ (F := F)) 𝒱₀ ι Set.univ := by
  intro t Y _
  rw [frameRD_Φ, frameRD_Φ, bigSep_W5, bigSep_W5]
  conv_lhs => unfold owns
  iintro ⟨HΦ, Ho, ⟨%f0, -, H0⟩, ⟨%f1, -, H1⟩, ⟨%f2, -, H2⟩, ⟨%f3, -, H3⟩, ⟨%f4, -, H4⟩, ⟨%f5, -, H5⟩⟩
  sl_whnfR [defs₀, Defs.onTc]
  sl_unfold [cc5__finalize_kernel_meta]
  sl_exec
  sl_step
  iframe HΦ
  isplitl [Ho]; · iexact Ho
  isplitl [H0]; · iexists _; isplitr; swap; (· iapply (owns_intro _ _ _ _) $$ H0); ipureintro; trivial
  isplitl [H1]; · iexists _; isplitr; swap; (· iapply (owns_intro _ _ _ _) $$ H1); ipureintro; trivial
  isplitl [H2]; · iexists _; isplitr; swap; (· iapply (owns_intro _ _ _ _) $$ H2); ipureintro; trivial
  isplitl [H3]; · iexists _; isplitr; swap; (· iapply (owns_intro _ _ _ _) $$ H3); ipureintro; trivial
  isplitl [H4]; · iexists _; isplitr; swap; (· iapply (owns_intro _ _ _ _) $$ H4); ipureintro; trivial
  iexists _; isplitr; swap; (· iapply (owns_intro _ _ _ _) $$ H5); ipureintro; trivial

end Cert.Kernel.FrameBodies
-- ==== Proof.KernelTripleStats6.lean ====
import proofs.«138250_j73134703116926_1_alg».proof.Proof.KernelTripleStats0

noncomputable section

namespace Cert.Kernel.Triples

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

section
variable (i : grid6.Coords) (X0 : Vec F S512x16 .f32) (X1 : Vec F S4096x16 .f32) (X2 : Vec F S4096 .f32)
  (X3 f0 f1 : Vec F S512x1 .f32)

def k6_cond1 : BitVec 1 :=
  Scalar.cmpi .ne (Scalar.extui (Scalar.cmpi .eq (BitVec.ofNat 32 (i 0).val) 0#32) : BitVec 32) 0#32

def stats6_mIn : Vec F S512x1 .f32 := if k6_cond1 i = 1#1 then k6_pay4 else f0

def stats6_lIn : Vec F S512x1 .f32 := if k6_cond1 i = 1#1 then k6_pay5 else f1

def stats6_m : FVec F S512x1 .f32 := k6_pay8 i X0 X1 X2 (stats6_mIn i f0)

def stats6_l : FVec F S512x1 .f32 := k6_pay9 i X0 X1 X2 (stats6_mIn i f0) (stats6_lIn i f1)

def stats6_scr0 : Vec F S512x1 .f32 := k6_pay1 (stats6_m i X0 X1 X2 f0)

def stats6_scr1 : Vec F S512x1 .f32 := k6_pay2 (stats6_l i X0 X1 X2 f0 f1)

def stats6_out : Vec F S512x1 .f32 :=
  if k6_cond2 i = 1#1 then k6_pay3 (stats6_m i X0 X1 X2 f0) (stats6_l i X0 X1 X2 f0 f1) else X3

end

theorem k6_cond1_iff : ∀ t : Fin grid6.N, k6_cond1 (grid6.coords t) = 1#1 ↔ t.val = 0 := by decide +kernel
theorem k6_cond2_iff : ∀ t : Fin grid6.N, k6_cond2 (grid6.coords t) = 1#1 ↔ t.val = 16 := by decide +kernel

variable {Ix : Type} [DecidableEq Ix] {U : Type} [URA U] {Lvl : Type} [Preorder Lvl]

local notation "𝕄" => MT nD τ sig Ix (Elt F) ℕ U Lvl

theorem triple_stats6 (𝒱₀ : Variants) (c : Dev nD) (E : Set ℕ) (i : grid6.Coords)
    (arg1 : Memref sig .tc .vmem S512x16 .f32) (harg1 : arg1.IsWhole) (arg2 : Memref sig .tc .vmem S4096x16 .f32) (harg2 : arg2.IsWhole)
    (arg3 : Memref sig .tc .vmem S4096 .f32) (harg3 : arg3.IsWhole) (arg4 : Memref sig .tc .vmem S512x1 .f32) (harg4 : arg4.IsWhole)
    (arg5 : Memref sig .tc .vmem S512x1 .f32) (harg5 : arg5.IsWhole) (arg6 : Memref sig .tc .vmem S512x1 .f32) (harg6 : arg6.IsWhole)
    (X0 : Vec F S512x16 .f32) (X1 : Vec F S4096x16 .f32) (X2 : Vec F S4096 .f32) (X3 f0 f1 : Vec F S512x1 .f32)
    (K : PUnit → sProp 𝕄) :
    iprop((owns (c : Thread nD τ) arg1 fullShare X0 ∗ owns (c : Thread nD τ) arg2 fullShare X1 ∗ owns (c : Thread nD τ) arg3 fullShare X2
            ∗ owns (c : Thread nD τ) arg4 fullShare X3 ∗ owns (c : Thread nD τ) arg5 fullShare f0 ∗ owns (c : Thread nD τ) arg6 fullShare f1)
          ∗ (iprop(owns (c : Thread nD τ) arg1 fullShare X0 ∗ owns (c : Thread nD τ) arg2 fullShare X1 ∗ owns (c : Thread nD τ) arg3 fullShare X2
                  ∗ owns (c : Thread nD τ) arg4 fullShare (stats6_out i X0 X1 X2 X3 f0 f1)
                  ∗ owns (c : Thread nD τ) arg5 fullShare (stats6_scr0 i X0 X1 X2 f0)
                  ∗ owns (c : Thread nD τ) arg6 fullShare (stats6_scr1 i X0 X1 X2 f0 f1)) -∗ K ⟨⟩))
      ⊢ wp frame (wpE (defs₀ (F := F)) 𝒱₀ c none) E
          (cc6__stats_kernel i arg1 harg1 arg2 harg2 arg3 harg3 arg4 harg4 arg5 harg5 arg6 harg6) K := by
  sl_unfold [cc6__stats_kernel]
  unfold owns
  iintro ⟨⟨⟨%g1, %hg1, H1⟩, ⟨%g2, %hg2, H2⟩, ⟨%g3, %hg3, H3⟩, ⟨%g4, %hg4, H4⟩, ⟨%g5, %hg5, H5⟩, ⟨%g6, %hg6, H6⟩⟩, Hk⟩
  subst hg1 hg2 hg3 hg4 hg5 hg6
  sl_exec
  sl_step
  have hm : triple_stats6.sl.r c i arg1 arg2 arg3 arg5 g1 g2 g3 g5
      = stats6_m i (arg1.view.read (Elt F) g1) (arg2.view.read (Elt F) g2) (arg3.view.read (Elt F) g3) (arg5.view.read (Elt F) g5) := by
    unfold triple_stats6.sl.r triple_stats6.sl.v28 stats6_m stats6_mIn
    rw [stats_readAt _ _ stats_off2, stats_readAt _ _ stats_off2, stats_readAt _ _ stats_off1, stats_readAt _ _ stats_off2, stats_read_guarded _ _ stats_off2]
    rfl
  have hl : triple_stats6.sl.r_1 c i arg1 arg2 arg3 arg5 arg6 g1 g2 g3 g5 g6
      = stats6_l i (arg1.view.read (Elt F) g1) (arg2.view.read (Elt F) g2) (arg3.view.read (Elt F) g3) (arg5.view.read (Elt F) g5)
          (arg6.view.read (Elt F) g6) := by
    unfold triple_stats6.sl.r_1 triple_stats6.sl.v28 triple_stats6.sl.v29 stats6_l stats6_mIn stats6_lIn
    rw [stats_readAt _ _ stats_off2, stats_readAt _ _ stats_off2, stats_readAt _ _ stats_off1, stats_readAt _ _ stats_off2, stats_readAt _ _ stats_off2,
      stats_read_guarded _ _ stats_off2, stats_read_guarded _ _ stats_off2]
    rfl
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro
    refine (stats_read_guarded _ _ stats_off2 _ _ _).trans ?_
    rw [hm, hl, stats6_out]
  isplitl [H5]
  · iexists _; isplitr; swap; · iexact H5
    ipureintro; exact (stats_read_writes _ _ stats_off2 _ _ _).trans (congrArg k6_pay1 hm)
  · iexists _; isplitr; swap; · iexact H6
    ipureintro; exact (stats_read_writes _ _ stats_off2 _ _ _).trans (congrArg k6_pay2 hl)

end Cert.Kernel.Triples
-- ==== Proof.KernelFrameBody6.lean ====
import proofs.«138250_j73134703116926_1_alg».proof.Proof.KernelFrameKit
import proofs.«138250_j73134703116926_1_alg».proof.Proof.KernelRegions
import proofs.«138250_j73134703116926_1_alg».proof.Proof.KernelTripleStats6
import Idealize.ShloMosaic.Lib.Tactic

noncomputable section

namespace Cert.Kernel.FrameBodies

open Cert.Kernel Cert.Kernel.Gen Cert.Kernel.GenP Cert.Proof.FrameKit
open Idealize.ShloMosaic Idealize.SL.RA

variable {F : FTy → Type} [FloatOps F]
variable {Ix : Type} [DecidableEq Ix] {U : Type} [URA U] {Lvl : Type} [Preorder Lvl]

-- The statistics function's triple with what the buffers hold afterwards forgotten: the relations ask nothing of it.
theorem rbody6 (𝒱₀ : Variants) (ι : Ix) (V : Valuation τ sig (Elt F)) (c : Dev nD) :
    (frameRD (Ix := Ix) (Name := ℕ) (U := U) (Lvl := Lvl) (pcfgs (F := F)) adm V 6 c).BodyObligation
      (defs₀ (F := F)) 𝒱₀ ι Set.univ := by
  intro t Y _
  rw [frameRD_Φ, frameRD_Φ, bigSep_W6, bigSep_W6,
    show (Pipeline.pin (pcfgs (F := F)) adm 6).spec = spec6 from rfl, scopedRest6_split]
  simp only [← owns_whole]
  iintro ⟨⟨⟨⟨%g0, Hs0⟩, ⟨%g1, Hs1⟩⟩, Hrest⟩, Ho, H0, H1, H2, H3⟩
  sl_whnfR [defs₀, Defs.onTc]
  iapply (Triples.triple_stats6 𝒱₀ c Set.univ (grid6.coords t) _ _ _ _ _ _ _ _ _ _ _ _ (Y 0) (Y 1) (Y 2) (Y 3) g0 g1 _)
  iframe H0 H1 H2 H3 Hs0 Hs1
  iintro ⟨H0, H1, H2, H3, Hs0, Hs1⟩
  isplitl [Hs0 Hs1 Hrest]
  · iframe Hrest
    isplitl [Hs0]; · iexists _; iexact Hs0
    iexists _; iexact Hs1
  isplitl [Ho]; · iexact Ho
  isplitl [H0]; · iexists _; isplitr; swap; (· iexact H0); ipureintro; trivial
  isplitl [H1]; · iexists _; isplitr; swap; (· iexact H1); ipureintro; trivial
  isplitl [H2]; · iexists _; isplitr; swap; (· iexact H2); ipureintro; trivial
  iexists _; isplitr; swap; (· iexact H3); ipureintro; trivial

end Cert.Kernel.FrameBodies
-- ==== Proof.KernelFrameBody7.lean ====
import proofs.«138250_j73134703116926_1_alg».proof.Proof.KernelFrameKit
import proofs.«138250_j73134703116926_1_alg».proof.Proof.KernelRegions
import Idealize.ShloMosaic.Lib.Tactic

noncomputable section

namespace Cert.Kernel.FrameBodies

open Cert.Kernel Cert.Kernel.Gen Cert.Kernel.GenP Cert.Proof.FrameKit
open Idealize.ShloMosaic Idealize.SL.RA

variable {F : FTy → Type} [FloatOps F]
variable {Ix : Type} [DecidableEq Ix] {U : Type} [URA U] {Lvl : Type} [Preorder Lvl]

-- The body only loads its inputs' buffers whole and stores its output's whole; the relations ask nothing of what the buffers then hold.
theorem rbody7 (𝒱₀ : Variants) (ι : Ix) (V : Valuation τ sig (Elt F)) (c : Dev nD) :
    (frameRD (Ix := Ix) (Name := ℕ) (U := U) (Lvl := Lvl) (pcfgs (F := F)) adm V 7 c).BodyObligation
      (defs₀ (F := F)) 𝒱₀ ι Set.univ := by
  intro t Y _
  rw [frameRD_Φ, frameRD_Φ, bigSep_W7, bigSep_W7]
  conv_lhs => unfold owns
  iintro ⟨HΦ, Ho, ⟨%f0, -, H0⟩, ⟨%f1, -, H1⟩, ⟨%f2, -, H2⟩, ⟨%f3, -, H3⟩, ⟨%f4, -, H4⟩, ⟨%f5, -, H5⟩⟩
  sl_whnfR [defs₀, Defs.onTc]
  sl_unfold [cc7__finalize_kernel_meta]
  sl_exec
  sl_step
  iframe HΦ
  isplitl [Ho]; · iexact Ho
  isplitl [H0]; · iexists _; isplitr; swap; (· iapply (owns_intro _ _ _ _) $$ H0); ipureintro; trivial
  isplitl [H1]; · iexists _; isplitr; swap; (· iapply (owns_intro _ _ _ _) $$ H1); ipureintro; trivial
  isplitl [H2]; · iexists _; isplitr; swap; (· iapply (owns_intro _ _ _ _) $$ H2); ipureintro; trivial
  isplitl [H3]; · iexists _; isplitr; swap; (· iapply (owns_intro _ _ _ _) $$ H3); ipureintro; trivial
  isplitl [H4]; · iexists _; isplitr; swap; (· iapply (owns_intro _ _ _ _) $$ H4); ipureintro; trivial
  iexists _; isplitr; swap; (· iapply (owns_intro _ _ _ _) $$ H5); ipureintro; trivial

end Cert.Kernel.FrameBodies
-- ==== Proof.KernelFrame.lean ====
import proofs.«138250_j73134703116926_1_alg».proof.Defs
import proofs.«138250_j73134703116926_1_alg».proof.Proof.Gen.Pre_finite_inputs
import proofs.«138250_j73134703116926_1_alg».proof.Proof.KernelRegions
import proofs.«138250_j73134703116926_1_alg».proof.Proof.KernelFrameKit
import proofs.«138250_j73134703116926_1_alg».proof.Proof.KernelFrameBody0
import proofs.«138250_j73134703116926_1_alg».proof.Proof.KernelFrameBody1
import proofs.«138250_j73134703116926_1_alg».proof.Proof.KernelFrameBody2
import proofs.«138250_j73134703116926_1_alg».proof.Proof.KernelFrameBody3
import proofs.«138250_j73134703116926_1_alg».proof.Proof.KernelFrameBody4
import proofs.«138250_j73134703116926_1_alg».proof.Proof.KernelFrameBody5
import proofs.«138250_j73134703116926_1_alg».proof.Proof.KernelFrameBody6
import proofs.«138250_j73134703116926_1_alg».proof.Proof.KernelFrameBody7

set_option maxRecDepth 4096

noncomputable section

namespace Cert.Kernel.FrameProof

open Cert.Kernel Cert.Kernel.Gen Cert.Kernel.GenP Cert.Kernel.FrameBodies Cert.Proof.FrameKit
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (HostSeg)

set_option Elab.async false

variable {F : FTy → Type} [FloatOps F]

abbrev UU : Type := UR sig nD τ × UR sig nD τ

local notation "𝕄" => MT nD τ sig Unit (Elt F) ℕ UU ℕ

abbrev 𝒱₀ : Variants := Variants.none
abbrev L : GSem nD τ sig → Finset Unit := fun _ => ∅
abbrev lv : GSem nD τ sig → Unit → ℕ := fun _ _ => 0

abbrev EPm : Emb (URounds (GSem nD τ sig) Unit) (MT nD τ sig Unit (Elt F) ℕ UU ℕ) := embR

abbrev EPk : Emb (URounds (GSem nD τ sig) Unit) (MT nD τ sig Unit (Elt F) ℕ UU ℕ) := embL

abbrev argRefs : List (Ref sig .tc) :=
  [main_arg0, main_arg1, main_arg2, main_arg3, main_arg4, main_arg5, main_arg6, main_arg7, main_arg8, main_arg9, main_arg10, main_arg11, main_arg12, main_arg13, main_arg14, main_arg15]

theorem nopre (p : Fin 8) (c : Dev nD) (q) (t) : (BI.emp : sProp 𝕄) ⊢ Pipeline.prefHeld (pcfgs (F := F) p).pre c q t := by
  unfold Pipeline.prefHeld
  rw [show (Finset.univ : Finset (Fin (pcfgs (F := F) p).pre.K)) = ∅ from rfl, BI.bigSep_empty]

theorem outs_not_args0 : ∀ r ∈ argRefs, ∀ w, Pipeline.arrRef (cfgs 0).spec w = r → ((cfgs 0).win w).isOut = false := by
  decide +kernel
theorem outs_not_args1 : ∀ r ∈ argRefs, ∀ w, Pipeline.arrRef (cfgs 1).spec w = r → ((cfgs 1).win w).isOut = false := by
  decide +kernel
theorem outs_not_args2 : ∀ r ∈ argRefs, ∀ w, Pipeline.arrRef (cfgs 2).spec w = r → ((cfgs 2).win w).isOut = false := by
  decide +kernel
theorem outs_not_args3 : ∀ r ∈ argRefs, ∀ w, Pipeline.arrRef (cfgs 3).spec w = r → ((cfgs 3).win w).isOut = false := by
  decide +kernel
theorem outs_not_args4 : ∀ r ∈ argRefs, ∀ w, Pipeline.arrRef (cfgs 4).spec w = r → ((cfgs 4).win w).isOut = false := by
  decide +kernel
theorem outs_not_args5 : ∀ r ∈ argRefs, ∀ w, Pipeline.arrRef (cfgs 5).spec w = r → ((cfgs 5).win w).isOut = false := by
  decide +kernel
theorem outs_not_args6 : ∀ r ∈ argRefs, ∀ w, Pipeline.arrRef (cfgs 6).spec w = r → ((cfgs 6).win w).isOut = false := by
  decide +kernel
theorem outs_not_args7 : ∀ r ∈ argRefs, ∀ w, Pipeline.arrRef (cfgs 7).spec w = r → ((cfgs 7).win w).isOut = false := by
  decide +kernel

section Items

variable (m : (ℓ : Loc nD τ sig) → Buf (Elt F) ℓ)

abbrev hItem (S : Finset (Fin 8)) (ops : List (HloOp τ sig (Elt F))) (hsub : ops.Forall fun op => op.bufs ⊆ StableHlo.tcRefs τ sig)
    (hfresh : ops.Forall fun op => op.fresh = ∅) (Wl : List (Ref sig .tc))
    (hW : ops.Forall fun op => op.writes ⊆ (Wl.map (Proc.devRef (τ := τ) .tc)).toFinset) (hargs : ∀ r ∈ argRefs, r ∉ Wl) :
    HostSeg (Name := ℕ) (U := UU) (pcfgs (F := F)) defs₀ 𝒱₀ L lv :=
  hostItem (pcfgs (F := F)) adm defs₀ 𝒱₀ L lv EPm m argRefs S ops
    (fun op h => Pipeline.sub_ucRefs op ((List.forall_iff_forall_mem.mp hsub) op h))
    (fun op h => (List.forall_iff_forall_mem.mp hfresh) op h) Wl hW hargs

set_option backward.isDefEq.respectTransparency.types false in

abbrev rItem (S : Finset (Fin 8)) (p : Fin 8) (hp : p ∈ S) (lf : Pipeline.LaunchFacts (nD := nD) (τ := τ) cfgs p)
    (hbody : ∀ (V : Valuation τ sig (Elt F)) c, (frameRD (Ix := Unit) (Name := ℕ) (U := UU) (Lvl := ℕ) (pcfgs (F := F)) adm V p c).BodyObligation (defs₀ (F := F)) 𝒱₀ () Set.univ)
    (hargs : ∀ r ∈ argRefs, ∀ w, Pipeline.arrRef (Pipeline.pin (pcfgs (F := F)) adm p).spec w = r → ((Pipeline.pin (pcfgs (F := F)) adm p).win w).isOut = false) :
    HostSeg (Name := ℕ) (U := UU) (pcfgs (F := F)) defs₀ 𝒱₀ L lv :=
  regionItem (pcfgs (F := F)) adm defs₀ 𝒱₀ L lv () cellOf_inj EPm m argRefs S hp lf.win lf.block_pos lf.arr_whole lf.stage_whole
    (nopre p) hbody hargs

abbrev S0 : Finset (Fin 8) := Finset.univ
abbrev S1 : Finset (Fin 8) := S0.erase 0
abbrev S2 : Finset (Fin 8) := S1.erase 1
abbrev S3 : Finset (Fin 8) := S2.erase 2
abbrev S4 : Finset (Fin 8) := S3.erase 3
abbrev S5 : Finset (Fin 8) := S4.erase 4
abbrev S6 : Finset (Fin 8) := S5.erase 5
abbrev S7 : Finset (Fin 8) := S6.erase 6
abbrev S8 : Finset (Fin 8) := S7.erase 7

abbrev item0 : HostSeg (Name := ℕ) (U := UU) (pcfgs (F := F)) defs₀ 𝒱₀ L lv :=
  hItem m S0 hostOps0 hostOps0_sub hostOps0_fresh hostOps0_W hostOps0_writes (by decide +kernel)
set_option backward.isDefEq.respectTransparency.types false in

abbrev item1 : HostSeg (Name := ℕ) (U := UU) (pcfgs (F := F)) defs₀ 𝒱₀ L lv :=
  rItem m S0 0 (by decide) launch0 (rbody0 𝒱₀ ()) outs_not_args0
set_option backward.isDefEq.respectTransparency.types false in

abbrev item2 : HostSeg (Name := ℕ) (U := UU) (pcfgs (F := F)) defs₀ 𝒱₀ L lv :=
  rItem m S1 1 (by decide) launch1 (rbody1 𝒱₀ ()) outs_not_args1

abbrev item3 : HostSeg (Name := ℕ) (U := UU) (pcfgs (F := F)) defs₀ 𝒱₀ L lv :=
  hItem m S2 hostOps2 hostOps2_sub hostOps2_fresh hostOps2_W hostOps2_writes (by decide +kernel)
set_option backward.isDefEq.respectTransparency.types false in

abbrev item4 : HostSeg (Name := ℕ) (U := UU) (pcfgs (F := F)) defs₀ 𝒱₀ L lv :=
  rItem m S2 2 (by decide) launch2 (rbody2 𝒱₀ ()) outs_not_args2

abbrev item5 : HostSeg (Name := ℕ) (U := UU) (pcfgs (F := F)) defs₀ 𝒱₀ L lv :=
  hItem m S3 hostOps3 hostOps3_sub hostOps3_fresh hostOps3_W hostOps3_writes (by decide +kernel)
set_option backward.isDefEq.respectTransparency.types false in

abbrev item6 : HostSeg (Name := ℕ) (U := UU) (pcfgs (F := F)) defs₀ 𝒱₀ L lv :=
  rItem m S3 3 (by decide) launch3 (rbody3 𝒱₀ ()) outs_not_args3
set_option backward.isDefEq.respectTransparency.types false in

abbrev item7 : HostSeg (Name := ℕ) (U := UU) (pcfgs (F := F)) defs₀ 𝒱₀ L lv :=
  rItem m S4 4 (by decide) launch4 (rbody4 𝒱₀ ()) outs_not_args4

abbrev item8 : HostSeg (Name := ℕ) (U := UU) (pcfgs (F := F)) defs₀ 𝒱₀ L lv :=
  hItem m S5 hostOps5 hostOps5_sub hostOps5_fresh hostOps5_W hostOps5_writes (by decide +kernel)
set_option backward.isDefEq.respectTransparency.types false in

abbrev item9 : HostSeg (Name := ℕ) (U := UU) (pcfgs (F := F)) defs₀ 𝒱₀ L lv :=
  rItem m S5 5 (by decide) launch5 (rbody5 𝒱₀ ()) outs_not_args5
set_option backward.isDefEq.respectTransparency.types false in

abbrev item10 : HostSeg (Name := ℕ) (U := UU) (pcfgs (F := F)) defs₀ 𝒱₀ L lv :=
  rItem m S6 6 (by decide) launch6 (rbody6 𝒱₀ ()) outs_not_args6

abbrev item11 : HostSeg (Name := ℕ) (U := UU) (pcfgs (F := F)) defs₀ 𝒱₀ L lv :=
  hItem m S7 hostOps7 hostOps7_sub hostOps7_fresh hostOps7_W hostOps7_writes (by decide +kernel)
set_option backward.isDefEq.respectTransparency.types false in

abbrev item12 : HostSeg (Name := ℕ) (U := UU) (pcfgs (F := F)) defs₀ 𝒱₀ L lv :=
  rItem m S7 7 (by decide) launch7 (rbody7 𝒱₀ ()) outs_not_args7

abbrev item13 : HostSeg (Name := ℕ) (U := UU) (pcfgs (F := F)) defs₀ 𝒱₀ L lv :=
  hItem m S8 hostOps8 hostOps8_sub hostOps8_fresh hostOps8_W hostOps8_writes (by decide +kernel)

abbrev item14 : HostSeg (Name := ℕ) (U := UU) (pcfgs (F := F)) defs₀ 𝒱₀ L lv :=
  hItem m S8 hostOps8_1 hostOps8_1_sub hostOps8_1_fresh hostOps8_1_W hostOps8_1_writes (by decide +kernel)

abbrev item15 : HostSeg (Name := ℕ) (U := UU) (pcfgs (F := F)) defs₀ 𝒱₀ L lv :=
  hItem m S8 hostOps8_2 hostOps8_2_sub hostOps8_2_fresh hostOps8_2_W hostOps8_2_writes (by decide +kernel)

abbrev item16 : HostSeg (Name := ℕ) (U := UU) (pcfgs (F := F)) defs₀ 𝒱₀ L lv :=
  hItem m S8 hostOps8_3 hostOps8_3_sub hostOps8_3_fresh hostOps8_3_W hostOps8_3_writes (by decide +kernel)

abbrev item17 : HostSeg (Name := ℕ) (U := UU) (pcfgs (F := F)) defs₀ 𝒱₀ L lv :=
  hItem m S8 hostOps8_4 hostOps8_4_sub hostOps8_4_fresh hostOps8_4_W hostOps8_4_writes (by decide +kernel)

abbrev item18 : HostSeg (Name := ℕ) (U := UU) (pcfgs (F := F)) defs₀ 𝒱₀ L lv :=
  hItem m S8 hostOps8_5 hostOps8_5_sub hostOps8_5_fresh hostOps8_5_W hostOps8_5_writes (by decide +kernel)

abbrev item19 : HostSeg (Name := ℕ) (U := UU) (pcfgs (F := F)) defs₀ 𝒱₀ L lv :=
  hItem m S8 hostOps8_6 hostOps8_6_sub hostOps8_6_fresh hostOps8_6_W hostOps8_6_writes (by decide +kernel)

abbrev item20 : HostSeg (Name := ℕ) (U := UU) (pcfgs (F := F)) defs₀ 𝒱₀ L lv :=
  hItem m S8 hostOps8_7 hostOps8_7_sub hostOps8_7_fresh hostOps8_7_W hostOps8_7_writes (by decide +kernel)

abbrev item21 : HostSeg (Name := ℕ) (U := UU) (pcfgs (F := F)) defs₀ 𝒱₀ L lv :=
  hItem m S8 hostOps8_8 hostOps8_8_sub hostOps8_8_fresh hostOps8_8_W hostOps8_8_writes (by decide +kernel)

abbrev item22 : HostSeg (Name := ℕ) (U := UU) (pcfgs (F := F)) defs₀ 𝒱₀ L lv :=
  hItem m S8 hostOps8_9 hostOps8_9_sub hostOps8_9_fresh hostOps8_9_W hostOps8_9_writes (by decide +kernel)

abbrev item23 : HostSeg (Name := ℕ) (U := UU) (pcfgs (F := F)) defs₀ 𝒱₀ L lv :=
  hItem m S8 hostOps8_10 hostOps8_10_sub hostOps8_10_fresh hostOps8_10_W hostOps8_10_writes (by decide +kernel)

abbrev item24 : HostSeg (Name := ℕ) (U := UU) (pcfgs (F := F)) defs₀ 𝒱₀ L lv :=
  hItem m S8 hostOps8_11 hostOps8_11_sub hostOps8_11_fresh hostOps8_11_W hostOps8_11_writes (by decide +kernel)

abbrev item25 : HostSeg (Name := ℕ) (U := UU) (pcfgs (F := F)) defs₀ 𝒱₀ L lv :=
  hItem m S8 hostOps8_12 hostOps8_12_sub hostOps8_12_fresh hostOps8_12_W hostOps8_12_writes (by decide +kernel)

abbrev item26 : HostSeg (Name := ℕ) (U := UU) (pcfgs (F := F)) defs₀ 𝒱₀ L lv :=
  hItem m S8 hostOps8_13 hostOps8_13_sub hostOps8_13_fresh hostOps8_13_W hostOps8_13_writes (by decide +kernel)

abbrev item27 : HostSeg (Name := ℕ) (U := UU) (pcfgs (F := F)) defs₀ 𝒱₀ L lv :=
  hItem m S8 hostOps8_14 hostOps8_14_sub hostOps8_14_fresh hostOps8_14_W hostOps8_14_writes (by decide +kernel)

abbrev item28 : HostSeg (Name := ℕ) (U := UU) (pcfgs (F := F)) defs₀ 𝒱₀ L lv :=
  hItem m S8 hostOps8_15 hostOps8_15_sub hostOps8_15_fresh hostOps8_15_W hostOps8_15_writes (by decide +kernel)

abbrev item29 : HostSeg (Name := ℕ) (U := UU) (pcfgs (F := F)) defs₀ 𝒱₀ L lv :=
  hItem m S8 hostOps8_16 hostOps8_16_sub hostOps8_16_fresh hostOps8_16_W hostOps8_16_writes (by decide +kernel)

abbrev item30 : HostSeg (Name := ℕ) (U := UU) (pcfgs (F := F)) defs₀ 𝒱₀ L lv :=
  hItem m S8 hostOps8_17 hostOps8_17_sub hostOps8_17_fresh hostOps8_17_W hostOps8_17_writes (by decide +kernel)

abbrev item31 : HostSeg (Name := ℕ) (U := UU) (pcfgs (F := F)) defs₀ 𝒱₀ L lv :=
  hItem m S8 hostOps8_18 hostOps8_18_sub hostOps8_18_fresh hostOps8_18_W hostOps8_18_writes (by decide +kernel)

abbrev item32 : HostSeg (Name := ℕ) (U := UU) (pcfgs (F := F)) defs₀ 𝒱₀ L lv :=
  hItem m S8 hostOps8_19 hostOps8_19_sub hostOps8_19_fresh hostOps8_19_W hostOps8_19_writes (by decide +kernel)

abbrev item33 : HostSeg (Name := ℕ) (U := UU) (pcfgs (F := F)) defs₀ 𝒱₀ L lv :=
  hItem m S8 hostOps8_20 hostOps8_20_sub hostOps8_20_fresh hostOps8_20_W hostOps8_20_writes (by decide +kernel)

abbrev item34 : HostSeg (Name := ℕ) (U := UU) (pcfgs (F := F)) defs₀ 𝒱₀ L lv :=
  hItem m S8 hostOps8_21 hostOps8_21_sub hostOps8_21_fresh hostOps8_21_W hostOps8_21_writes (by decide +kernel)

abbrev item35 : HostSeg (Name := ℕ) (U := UU) (pcfgs (F := F)) defs₀ 𝒱₀ L lv :=
  hItem m S8 hostOps8_22 hostOps8_22_sub hostOps8_22_fresh hostOps8_22_W hostOps8_22_writes (by decide +kernel)

abbrev item36 : HostSeg (Name := ℕ) (U := UU) (pcfgs (F := F)) defs₀ 𝒱₀ L lv :=
  hItem m S8 hostOps8_23 hostOps8_23_sub hostOps8_23_fresh hostOps8_23_W hostOps8_23_writes (by decide +kernel)

abbrev item37 : HostSeg (Name := ℕ) (U := UU) (pcfgs (F := F)) defs₀ 𝒱₀ L lv :=
  hItem m S8 hostOps8_24 hostOps8_24_sub hostOps8_24_fresh hostOps8_24_W hostOps8_24_writes (by decide +kernel)

abbrev rdats0 : (p : Fin 8) → (c : Dev nD) → Pipeline.RDat τ (Elt F) Unit ℕ UU ℕ (cfgs p) c :=
  fun p c => frameRD (pcfgs (F := F)) adm (V0 m c) p c

abbrev segs : List (Pipeline.RDat.Seg (pcfgs (F := F)) adm (rdats0 m) () defs₀ 𝒱₀ L lv) :=
  [ .host (item0 m),
    .host (item1 m),
    .host (item2 m),
    .host (item3 m),
    .host (item4 m),
    .host (item5 m),
    .host (item6 m),
    .host (item7 m),
    .host (item8 m),
    .host (item9 m),
    .host (item10 m),
    .host (item11 m),
    .host (item12 m),
    .host (item13 m),
    .host (item14 m),
    .host (item15 m),
    .host (item16 m),
    .host (item17 m),
    .host (item18 m),
    .host (item19 m),
    .host (item20 m),
    .host (item21 m),
    .host (item22 m),
    .host (item23 m),
    .host (item24 m),
    .host (item25 m),
    .host (item26 m),
    .host (item27 m),
    .host (item28 m),
    .host (item29 m),
    .host (item30 m),
    .host (item31 m),
    .host (item32 m),
    .host (item33 m),
    .host (item34 m),
    .host (item35 m),
    .host (item36 m),
    .host (item37 m) ]

end Items

section Launch

variable (m : (ℓ : Loc nD τ sig) → Buf (Elt F) ℓ) (ρ : Dev nD → PrngReg)

abbrev i₀ : UR sig nD τ := initOf (Pipeline.cells cfgs cellOf_inj) (Pipeline.launchToks cfgs cellOf_inj)

abbrev Tₙ (c : Dev nD) : sProp 𝕄 :=
  iprop(∃ V : Valuation τ sig (Elt F), ⌜Keeps m argRefs c V⌝ ∗ StableHlo.held (c : Thread nD τ) (Pipeline.ucRefs τ sig) V)

set_option backward.isDefEq.respectTransparency.types false in

theorem fund_second :
    (BI.own (EPm (F := F) (i₀)) : sProp 𝕄) ⊢ |==> bigSep Finset.univ fun c : Dev nD => Pipeline.ghostOn (pcfgs (F := F)) adm (EPm (F := F)) Finset.univ c := by
  iintro H
  imod (Pipeline.fund_ghost (Ix := Unit) (Val := Elt F) (Name := ℕ) (U := UU) (Lvl := ℕ) cfgs (EPm (F := F)) cellOf_inj) $$ H with ⟨Hg, Ht⟩
  imodintro
  iapply (show iprop((bigSep Finset.univ fun c : Dev nD => bigSep Finset.univ fun p => Pipeline.cellsGhost cfgs (EPm (F := F)) p c)
        ∗ (bigSep Finset.univ fun c : Dev nD => bigSep Finset.univ fun p => (Pipeline.toksInit cfgs (EPm (F := F)) p c : sProp 𝕄)))
      ⊢ bigSep Finset.univ fun c : Dev nD => Pipeline.ghostOn (pcfgs (F := F)) adm (EPm (F := F)) Finset.univ c from by
    rw [← bigSep_sep']
    exact bigSep_mono fun c _ => show iprop((bigSep Finset.univ fun p => Pipeline.cellsGhost cfgs (EPm (F := F)) p c)
          ∗ bigSep Finset.univ fun p => (Pipeline.toksInit cfgs (EPm (F := F)) p c : sProp 𝕄))
        ⊢ Pipeline.PerCore.ghostOn (pcfgs (F := F)) (fun _ => adm) (EPm (F := F)) Finset.univ c
      from BIBase.Entails.of_eq (by unfold Pipeline.PerCore.ghostOn; rw [bigSep_sep']))
  isplitl [Hg] <;> iassumption

set_option backward.isDefEq.respectTransparency.types false in

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) := by
  refine Pipeline.RDat.θ_run_regions_kit_dev (pcfgs (F := F)) adm (rdats0 m) () cellOf_inj (EPk (F := F)) defs₀ 𝒱₀ L lv m ρ main
    (fun _ => segs m)
    (fun c Q => by
      rewrite [main_chain c, Pipeline.RDat.Seg.run_eq_chain,
        show (segs m).map Pipeline.RDat.Seg.prog = [
          StableHlo.seq hostOps0,
          Prog.lift (.customCall (Pipeline.entry 0) ()),
          Prog.lift (.customCall (Pipeline.entry 1) ()),
          StableHlo.seq hostOps2,
          Prog.lift (.customCall (Pipeline.entry 2) ()),
          StableHlo.seq hostOps3,
          Prog.lift (.customCall (Pipeline.entry 3) ()),
          Prog.lift (.customCall (Pipeline.entry 4) ()),
          StableHlo.seq hostOps5,
          Prog.lift (.customCall (Pipeline.entry 5) ()),
          Prog.lift (.customCall (Pipeline.entry 6) ()),
          StableHlo.seq hostOps7,
          Prog.lift (.customCall (Pipeline.entry 7) ()),
          StableHlo.seq hostOps8,
          StableHlo.seq hostOps8_1,
          StableHlo.seq hostOps8_2,
          StableHlo.seq hostOps8_3,
          StableHlo.seq hostOps8_4,
          StableHlo.seq hostOps8_5,
          StableHlo.seq hostOps8_6,
          StableHlo.seq hostOps8_7,
          StableHlo.seq hostOps8_8,
          StableHlo.seq hostOps8_9,
          StableHlo.seq hostOps8_10,
          StableHlo.seq hostOps8_11,
          StableHlo.seq hostOps8_12,
          StableHlo.seq hostOps8_13,
          StableHlo.seq hostOps8_14,
          StableHlo.seq hostOps8_15,
          StableHlo.seq hostOps8_16,
          StableHlo.seq hostOps8_17,
          StableHlo.seq hostOps8_18,
          StableHlo.seq hostOps8_19,
          StableHlo.seq hostOps8_20,
          StableHlo.seq hostOps8_21,
          StableHlo.seq hostOps8_22,
          StableHlo.seq hostOps8_23,
          StableHlo.seq hostOps8_24 ] from rfl]
      with_reducible exact .rfl)
    (fun c => (show Pipeline.RDat.Seg.pipes (segs m) = [] from rfl) ▸ List.nodup_nil)
    (O₀ := 0) (hL := fun _ _ => rfl)
    (G := fun c => Pipeline.ghostOn (pcfgs (F := F)) adm (EPm (F := F)) Finset.univ c)
    (u₀ := (i₀, i₀))
    (hu₀ := ?_)
    (T₀ := TS (pcfgs (F := F)) adm (EPm (F := F)) m argRefs S0)
    (Tₙ := Tₙ m)
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, ?_⟩)
    (hinit := ?_)
    (QY := fun c s => s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12)
      ∧ s.mem ((c.tc : Thread nD τ).loc main_arg13) = m ((c.tc : Thread nD τ).loc main_arg13)
      ∧ s.mem ((c.tc : Thread nD τ).loc main_arg14) = m ((c.tc : Thread nD τ).loc main_arg14)
      ∧ s.mem ((c.tc : Thread nD τ).loc main_arg15) = m ((c.tc : Thread nD τ).loc main_arg15))
    (hfin := fun c s' => ?_) (hQ := fun _ h => h)
  ·
    iintro Hu
    ihave H := (ownU_pair (nD := nD) (τ := τ) (sig := sig) (Ix := Unit) (Val := Elt F) (Name := ℕ) (Lvl := ℕ) (i₀) (i₀)) $$ Hu
    icases H with ⟨H1, H2⟩
    imod (fund_second (F := F)) $$ H2 with HG
    imodintro
    isplitl [H1]; · iexact H1
    iexact HG
  ·
    show TS (pcfgs (F := F)) adm (EPm (F := F)) m argRefs S8 c ⊢ iprop(Tₙ m c ∗ ∃ W, owes (c.tc : Thread nD τ) (0 : CellTallies nD τ sig Unit) W)
    unfold TS
    iintro ⟨%V, %hV, Hh, HO, -⟩
    isplitl [Hh]
    · iexists V; isplitr; · ipureintro; exact hV
      iexact Hh
    iexact HO
  ·
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, -, HG⟩, -⟩
    imodintro
    unfold TS
    iexists (V0 m c)
    isplitr; · ipureintro; exact fun _ _ => rfl
    isplitl [Hh]; · iexact Hh
    isplitl [HO]; · iexists ∅; iexact HO
    iexact HG
  ·
    iintro ⟨⟨%V, %hV, Hh⟩, HSI⟩
    unfold StableHlo.held
    ihave Hr := (pointsTo_read_all (Pipeline.ucRefs τ sig) (fun b => ((c : Thread nD τ).1, b)) V s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (hV main_arg0 (by decide)),
          (h (Proc.devRef .tc main_arg1) (Finset.mem_filter.mpr ⟨StableHlo.devRef_mem_tcRefs main_arg1, by decide⟩)).trans (hV main_arg1 (by decide)),
          (h (Proc.devRef .tc main_arg2) (Finset.mem_filter.mpr ⟨StableHlo.devRef_mem_tcRefs main_arg2, by decide⟩)).trans (hV main_arg2 (by decide)),
          (h (Proc.devRef .tc main_arg3) (Finset.mem_filter.mpr ⟨StableHlo.devRef_mem_tcRefs main_arg3, by decide⟩)).trans (hV main_arg3 (by decide)),
          (h (Proc.devRef .tc main_arg4) (Finset.mem_filter.mpr ⟨StableHlo.devRef_mem_tcRefs main_arg4, by decide⟩)).trans (hV main_arg4 (by decide)),
          (h (Proc.devRef .tc main_arg5) (Finset.mem_filter.mpr ⟨StableHlo.devRef_mem_tcRefs main_arg5, by decide⟩)).trans (hV main_arg5 (by decide)),
          (h (Proc.devRef .tc main_arg6) (Finset.mem_filter.mpr ⟨StableHlo.devRef_mem_tcRefs main_arg6, by decide⟩)).trans (hV main_arg6 (by decide)),
          (h (Proc.devRef .tc main_arg7) (Finset.mem_filter.mpr ⟨StableHlo.devRef_mem_tcRefs main_arg7, by decide⟩)).trans (hV main_arg7 (by decide)),
          (h (Proc.devRef .tc main_arg8) (Finset.mem_filter.mpr ⟨StableHlo.devRef_mem_tcRefs main_arg8, by decide⟩)).trans (hV main_arg8 (by decide)),
          (h (Proc.devRef .tc main_arg9) (Finset.mem_filter.mpr ⟨StableHlo.devRef_mem_tcRefs main_arg9, by decide⟩)).trans (hV main_arg9 (by decide)),
          (h (Proc.devRef .tc main_arg10) (Finset.mem_filter.mpr ⟨StableHlo.devRef_mem_tcRefs main_arg10, by decide⟩)).trans (hV main_arg10 (by decide)),
          (h (Proc.devRef .tc main_arg11) (Finset.mem_filter.mpr ⟨StableHlo.devRef_mem_tcRefs main_arg11, by decide⟩)).trans (hV main_arg11 (by decide)),
          (h (Proc.devRef .tc main_arg12) (Finset.mem_filter.mpr ⟨StableHlo.devRef_mem_tcRefs main_arg12, by decide⟩)).trans (hV main_arg12 (by decide)),
          (h (Proc.devRef .tc main_arg13) (Finset.mem_filter.mpr ⟨StableHlo.devRef_mem_tcRefs main_arg13, by decide⟩)).trans (hV main_arg13 (by decide)),
          (h (Proc.devRef .tc main_arg14) (Finset.mem_filter.mpr ⟨StableHlo.devRef_mem_tcRefs main_arg14, by decide⟩)).trans (hV main_arg14 (by decide)),
          (h (Proc.devRef .tc main_arg15) (Finset.mem_filter.mpr ⟨StableHlo.devRef_mem_tcRefs main_arg15, by decide⟩)).trans (hV main_arg15 (by decide))⟩
    · iexact HSI

end Launch

end Cert.Kernel.FrameProof

open Idealize.ShloMosaic in

theorem Cert.Proof.frame_Kernel' : @Cert.frame_Kernel Cert.Kernel.Gen.facts Cert.Pre_finite_inputs.Gen.facts :=
  fun m g _ => Cert.Kernel.FrameProof.frame (F := Bits) m g

end
-- ==== Proof.FiniteInputs.lean ====
import proofs.«138250_j73134703116926_1_alg».proof.Pre_finite_inputs
import proofs.«138250_j73134703116926_1_alg».proof.Defs
import Idealize.ShloMosaic.Lib.ReduceAll
import Idealize.ShloMosaic.Lib.ValueIdx

noncomputable section

namespace Cert.FiniteInputs

open Idealize.ShloMosaic Idealize.SL.Sem
open Cert.Pre_finite_inputs

def AllReal {ι : Type} (x : ι → EReal) : Prop := ∀ i, ∃ r : ℝ, x i = (r : EReal)

namespace AllReal

variable {ι : Type} {x : ι → EReal}

theorem ne_top (h : AllReal x) (i : ι) : x i ≠ ⊤ := by
  obtain ⟨r, hr⟩ := h i; rw [hr]; exact EReal.coe_ne_top r

theorem ne_bot (h : AllReal x) (i : ι) : x i ≠ ⊥ := by
  obtain ⟨r, hr⟩ := h i; rw [hr]; exact EReal.coe_ne_bot r

theorem exists_fun (h : AllReal x) : ∃ f : ι → ℝ, x = fun i => (f i : EReal) :=
  ⟨fun i => (h i).choose, funext fun i => (h i).choose_spec⟩

end AllReal

theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

instance : Subsingleton S_.Idx := ⟨fun a b => funext fun d => d.elim0⟩

theorem allReal_of_all {s : Shape} {axes : List (Fin s.rank)} (x : FVec Ideal s .f32)
    (hb : S_.BroadcastsInDim s (![] : Fin 0 → Fin s.rank)) (hr : s.ReducesTo axes S_) (hu : 0 < S_.numel) (j : S_.Idx)
    (e : Host.reduce IntOp.andi
          (cmpf .olt (Host.absf x) (broadcastInDim s ![] hb (constant (F := Ideal) S_ .f32 0x7F800000#32)))
          (constantI S_ 1 1#1) hr hu j = 1#1) : AllReal x := by
  intro i
  exact real_of_abs_lt_inf (x i) (Host.reduce_andi_all _ _ hr hu j e i)

section Split

variable [Cert.Pre_finite_inputs.Facts]

theorem allReal_of_fn (a0 : FVec Ideal S64x8x1024 .f32) (a1 : IVec S64x8 32) (a2 : FVec Ideal S3x1024 .f32)
    (a3 : FVec Ideal S3 .f32) (a4 : FVec Ideal S20000x1024 .f32) (a5 : FVec Ideal S20000 .f32)
    (a6 : FVec Ideal S1024x1024 .f32) (a7 : FVec Ideal S20000x256 .f32) (a8 : FVec Ideal S20000 .f32)
    (a9 : FVec Ideal S256x1024 .f32) (a10 : FVec Ideal S160000x64 .f32) (a11 : FVec Ideal S160000 .f32)
    (a12 : FVec Ideal S64x1024 .f32) (a13 : FVec Ideal S67735x16 .f32) (a14 : FVec Ideal S67735 .f32)
    (a15 : FVec Ideal S16x1024 .f32)
    (h : fn (F := Ideal) a0 a1 a2 a3 a4 a5 a6 a7 a8 a9 a10 a11 a12 a13 a14 a15 = fun _ => 1#1) :
    AllReal a0 ∧ AllReal a2 ∧ AllReal a3 ∧ AllReal a4 ∧ AllReal a5 ∧ AllReal a6 ∧ AllReal a7 ∧ AllReal a8 ∧ AllReal a9
      ∧ AllReal a10 ∧ AllReal a11 ∧ AllReal a12 ∧ AllReal a13 ∧ AllReal a14 ∧ AllReal a15 := by
  have h0 := congrFun h ValueIdx.ix0
  dsimp only [fn, fn_part1, fn_part2, fn_part3, fn_part4, andi] at h0
  obtain ⟨h0, e15⟩ := IntOp.andi_eq_one.1 h0
  obtain ⟨h0, e14⟩ := IntOp.andi_eq_one.1 h0
  obtain ⟨h0, e13⟩ := IntOp.andi_eq_one.1 h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨allReal_of_all a0 _ _ _ _ e0, allReal_of_all a2 _ _ _ _ e2, allReal_of_all a3 _ _ _ _ e3,
    allReal_of_all a4 _ _ _ _ e4, allReal_of_all a5 _ _ _ _ e5, allReal_of_all a6 _ _ _ _ e6,
    allReal_of_all a7 _ _ _ _ e7, allReal_of_all a8 _ _ _ _ e8, allReal_of_all a9 _ _ _ _ e9,
    allReal_of_all a10 _ _ _ _ e10, allReal_of_all a11 _ _ _ _ e11, allReal_of_all a12 _ _ _ _ e12,
    allReal_of_all a13 _ _ _ _ e13, allReal_of_all a14 _ _ _ _ e14, allReal_of_all a15 _ _ _ _ e15⟩

end Split

abbrev Mem : Type := (ℓ : Loc Cert.KernelIdeal.nD Cert.KernelIdeal.τ Cert.KernelIdeal.sig) → Buf (Elt Ideal) ℓ

abbrev hidden (m : Mem) (c : Dev Cert.KernelIdeal.nD) : S64x8x1024.Idx → EReal :=
  m ((c.tc : Thread Cert.KernelIdeal.nD Cert.KernelIdeal.τ).loc Cert.KernelIdeal.main_arg0)

abbrev clusterW (m : Mem) (c : Dev Cert.KernelIdeal.nD) : S3x1024.Idx → EReal :=
  m ((c.tc : Thread Cert.KernelIdeal.nD Cert.KernelIdeal.τ).loc Cert.KernelIdeal.main_arg2)

abbrev clusterB (m : Mem) (c : Dev Cert.KernelIdeal.nD) : S3.Idx → EReal :=
  m ((c.tc : Thread Cert.KernelIdeal.nD Cert.KernelIdeal.τ).loc Cert.KernelIdeal.main_arg3)

abbrev W0 (m : Mem) (c : Dev Cert.KernelIdeal.nD) : S20000x1024.Idx → EReal :=
  m ((c.tc : Thread Cert.KernelIdeal.nD Cert.KernelIdeal.τ).loc Cert.KernelIdeal.main_arg4)

abbrev b0 (m : Mem) (c : Dev Cert.KernelIdeal.nD) : S20000.Idx → EReal :=
  m ((c.tc : Thread Cert.KernelIdeal.nD Cert.KernelIdeal.τ).loc Cert.KernelIdeal.main_arg5)

abbrev P0 (m : Mem) (c : Dev Cert.KernelIdeal.nD) : S1024x1024.Idx → EReal :=
  m ((c.tc : Thread Cert.KernelIdeal.nD Cert.KernelIdeal.τ).loc Cert.KernelIdeal.main_arg6)

abbrev W1 (m : Mem) (c : Dev Cert.KernelIdeal.nD) : S20000x256.Idx → EReal :=
  m ((c.tc : Thread Cert.KernelIdeal.nD Cert.KernelIdeal.τ).loc Cert.KernelIdeal.main_arg7)

abbrev b1 (m : Mem) (c : Dev Cert.KernelIdeal.nD) : S20000.Idx → EReal :=
  m ((c.tc : Thread Cert.KernelIdeal.nD Cert.KernelIdeal.τ).loc Cert.KernelIdeal.main_arg8)

abbrev P1 (m : Mem) (c : Dev Cert.KernelIdeal.nD) : S256x1024.Idx → EReal :=
  m ((c.tc : Thread Cert.KernelIdeal.nD Cert.KernelIdeal.τ).loc Cert.KernelIdeal.main_arg9)

abbrev W2 (m : Mem) (c : Dev Cert.KernelIdeal.nD) : S160000x64.Idx → EReal :=
  m ((c.tc : Thread Cert.KernelIdeal.nD Cert.KernelIdeal.τ).loc Cert.KernelIdeal.main_arg10)

abbrev b2 (m : Mem) (c : Dev Cert.KernelIdeal.nD) : S160000.Idx → EReal :=
  m ((c.tc : Thread Cert.KernelIdeal.nD Cert.KernelIdeal.τ).loc Cert.KernelIdeal.main_arg11)

abbrev P2 (m : Mem) (c : Dev Cert.KernelIdeal.nD) : S64x1024.Idx → EReal :=
  m ((c.tc : Thread Cert.KernelIdeal.nD Cert.KernelIdeal.τ).loc Cert.KernelIdeal.main_arg12)

abbrev W3 (m : Mem) (c : Dev Cert.KernelIdeal.nD) : S67735x16.Idx → EReal :=
  m ((c.tc : Thread Cert.KernelIdeal.nD Cert.KernelIdeal.τ).loc Cert.KernelIdeal.main_arg13)

abbrev b3 (m : Mem) (c : Dev Cert.KernelIdeal.nD) : S67735.Idx → EReal :=
  m ((c.tc : Thread Cert.KernelIdeal.nD Cert.KernelIdeal.τ).loc Cert.KernelIdeal.main_arg14)

abbrev P3 (m : Mem) (c : Dev Cert.KernelIdeal.nD) : S16x1024.Idx → EReal :=
  m ((c.tc : Thread Cert.KernelIdeal.nD Cert.KernelIdeal.τ).loc Cert.KernelIdeal.main_arg15)

abbrev target (m : Mem) (c : Dev Cert.KernelIdeal.nD) : S64x8.Idx → BitVec 32 :=
  m ((c.tc : Thread Cert.KernelIdeal.nD Cert.KernelIdeal.τ).loc Cert.KernelIdeal.main_arg1)

structure RealArgs (m : Mem) : Prop where
  hidden : ∀ c, AllReal (hidden m c)
  clusterW : ∀ c, AllReal (clusterW m c)
  clusterB : ∀ c, AllReal (clusterB m c)
  W0 : ∀ c, AllReal (W0 m c)
  b0 : ∀ c, AllReal (b0 m c)
  P0 : ∀ c, AllReal (P0 m c)
  W1 : ∀ c, AllReal (W1 m c)
  b1 : ∀ c, AllReal (b1 m c)
  P1 : ∀ c, AllReal (P1 m c)
  W2 : ∀ c, AllReal (W2 m c)
  b2 : ∀ c, AllReal (b2 m c)
  P2 : ∀ c, AllReal (P2 m c)
  W3 : ∀ c, AllReal (W3 m c)
  b3 : ∀ c, AllReal (b3 m c)
  P3 : ∀ c, AllReal (P3 m c)

section Pre

variable [Cert.Pre_finite_inputs.Facts]

theorem allReal_of_pre (m : Mem) (h : Pre_KernelIdeal m) (c : Dev Cert.KernelIdeal.nD) :
    AllReal (hidden m c) ∧ AllReal (clusterW m c) ∧ AllReal (clusterB m c) ∧ AllReal (W0 m c) ∧ AllReal (b0 m c)
      ∧ AllReal (P0 m c) ∧ AllReal (W1 m c) ∧ AllReal (b1 m c) ∧ AllReal (P1 m c) ∧ AllReal (W2 m c) ∧ AllReal (b2 m c)
      ∧ AllReal (P2 m c) ∧ AllReal (W3 m c) ∧ AllReal (b3 m c) ∧ AllReal (P3 m c) :=
  allReal_of_fn (hidden m c) (target m c) (clusterW m c) (clusterB m c) (W0 m c) (b0 m c) (P0 m c) (W1 m c) (b1 m c)
    (P1 m c) (W2 m c) (b2 m c) (P2 m c) (W3 m c) (b3 m c) (P3 m c) (h c)

theorem reals_of_pre (m : Mem) (h : Pre_KernelIdeal m) : RealArgs m where
  hidden c := (allReal_of_pre m h c).1
  clusterW c := (allReal_of_pre m h c).2.1
  clusterB c := (allReal_of_pre m h c).2.2.1
  W0 c := (allReal_of_pre m h c).2.2.2.1
  b0 c := (allReal_of_pre m h c).2.2.2.2.1
  P0 c := (allReal_of_pre m h c).2.2.2.2.2.1
  W1 c := (allReal_of_pre m h c).2.2.2.2.2.2.1
  b1 c := (allReal_of_pre m h c).2.2.2.2.2.2.2.1
  P1 c := (allReal_of_pre m h c).2.2.2.2.2.2.2.2.1
  W2 c := (allReal_of_pre m h c).2.2.2.2.2.2.2.2.2.1
  b2 c := (allReal_of_pre m h c).2.2.2.2.2.2.2.2.2.2.1
  P2 c := (allReal_of_pre m h c).2.2.2.2.2.2.2.2.2.2.2.1
  W3 c := (allReal_of_pre m h c).2.2.2.2.2.2.2.2.2.2.2.2.1
  b3 c := (allReal_of_pre m h c).2.2.2.2.2.2.2.2.2.2.2.2.2.1
  P3 c := (allReal_of_pre m h c).2.2.2.2.2.2.2.2.2.2.2.2.2.2

end Pre

end Cert.FiniteInputs

end
-- ==== Proof.IdealBase.lean ====
import proofs.«138250_j73134703116926_1_alg».proof.Proof.KernelIdealRegions
import Idealize.ShloMosaic.Lib.Pipeline.Kit
noncomputable section
namespace Cert.KernelIdeal.IdealData
open Cert.KernelIdeal Cert.KernelIdeal.Gen
open Idealize.ShloMosaic Idealize.ShloMosaic.TcCoe
abbrev VT : Type := (c : Dev nD) → (b : Ref sig .tc) → Buf (Elt Idealize.ShloMosaic.Ideal) ((c : Thread nD τ).loc b)
def pad : Elt Idealize.ShloMosaic.Ideal .f32 := (0 : EReal)
end Cert.KernelIdeal.IdealData
end
-- ==== Proof.LibOnlineLse.lean ====
import Idealize.ShloMosaic.PureOps.Ideal
import Mathlib.Data.List.Fold

namespace LibOnlineLse

open Idealize.ShloMosaic
open scoped BigOperators

noncomputable def ew (e : EReal) : ℝ := (Ideal.exp e).toReal

@[simp] theorem ew_bot : ew ⊥ = 0 := by simp [ew]
@[simp] theorem ew_coe (r : ℝ) : ew (r : EReal) = Real.exp r := by simp [ew]

theorem ew_nonneg (e : EReal) : 0 ≤ ew e := by
  induction e using EReal.rec with
  | bot => simp
  | coe r => simpa using Real.exp_nonneg r
  | top => simp [ew]

theorem ew_pos {e : EReal} (ht : e ≠ ⊤) (hb : e ≠ ⊥) : 0 < ew e := by
  induction e using EReal.rec with
  | bot => exact absurd rfl hb
  | coe r => simpa using Real.exp_pos r
  | top => exact absurd rfl ht

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem exp_sub_coe {e : EReal} (ht : e ≠ ⊤) (M : ℝ) :
    Ideal.exp (e - (M : EReal)) = ((ew e * Real.exp (-M) : ℝ) : EReal) := by
  induction e using EReal.rec with
  | bot => simp [EReal.bot_sub]
  | coe r =>
    rw [← EReal.coe_sub, Ideal.exp_coe, ew_coe, sub_eq_add_neg, Real.exp_add]
  | top => exact absurd rfl ht

noncomputable def tmax {C : ℕ} (v : Fin C → EReal) : EReal := Finset.univ.sup v

noncomputable def tsum {C : ℕ} (v : Fin C → EReal) : EReal := ∑ j, Ideal.exp (v j - tmax v)

theorem tmax_coe {C : ℕ} (v : Fin C → EReal) (ht : ∀ j, v j ≠ ⊤) (hb : ∃ j, v j ≠ ⊥) :
    tmax v = (((tmax v).toReal : ℝ) : EReal) := by
  refine (EReal.coe_toReal ?_ ?_).symm
  · exact ((Finset.sup_lt_iff bot_lt_top).2 fun j _ => lt_top_iff_ne_top.2 (ht j)).ne
  · obtain ⟨j, hj⟩ := hb
    exact (lt_of_lt_of_le (bot_lt_iff_ne_bot.2 hj) (Finset.le_sup (f := v) (Finset.mem_univ j))).ne'

theorem tsum_eq {C : ℕ} (v : Fin C → EReal) (ht : ∀ j, v j ≠ ⊤) (M : ℝ) (hM : tmax v = (M : EReal)) :
    tsum v = (((∑ j, ew (v j)) * Real.exp (-M) : ℝ) : EReal) := by
  unfold tsum
  rw [hM, Finset.sum_mul, coe_sum]
  exact Finset.sum_congr rfl fun j _ => exp_sub_coe (ht j) M

theorem tile_weight_pos {C : ℕ} (v : Fin C → EReal) (ht : ∀ j, v j ≠ ⊤) (hb : ∃ j, v j ≠ ⊥) :
    0 < ∑ j, ew (v j) := by
  obtain ⟨j, hj⟩ := hb
  exact Finset.sum_pos' (fun i _ => ew_nonneg _) ⟨j, Finset.mem_univ j, ew_pos (ht j) hj⟩

theorem exp_self_sub (M : ℝ) : Ideal.exp ((M : EReal) - (M : EReal)) = 1 := by
  rw [← EReal.coe_sub, sub_self, Ideal.exp_coe, Real.exp_zero, EReal.coe_one]

theorem coe_max (a b : ℝ) : max (a : EReal) (b : EReal) = ((max a b : ℝ) : EReal) :=
  (EReal.coe_strictMono.monotone.map_max).symm

noncomputable def step {C : ℕ} (p : EReal × EReal) (v : Fin C → EReal) : EReal × EReal :=
  (max p.1 (tmax v),
   p.2 * Ideal.exp (p.1 - max p.1 (tmax v)) + tsum v * Ideal.exp (tmax v - max p.1 (tmax v)))

noncomputable def run {C : ℕ} (x : ℕ → Fin C → EReal) : ℕ → EReal × EReal
  | 0 => (⊥, 0)
  | t + 1 => step (run x t) (x t)

def Inv (S : ℝ) (p : EReal × EReal) : Prop :=
  ∃ M : ℝ, p.1 = (M : EReal) ∧ p.2 = ((S * Real.exp (-M) : ℝ) : EReal)

theorem step_init {C : ℕ} (v : Fin C → EReal) (ht : ∀ j, v j ≠ ⊤) (hb : ∃ j, v j ≠ ⊥) :
    Inv (∑ j, ew (v j)) (step (⊥, 0) v) := by
  have hM := tmax_coe v ht hb
  refine ⟨(tmax v).toReal, ?_, ?_⟩
  · show max ⊥ (tmax v) = _
    rw [max_eq_right bot_le]; exact hM
  · show (0 : EReal) * Ideal.exp (⊥ - max ⊥ (tmax v)) + tsum v * Ideal.exp (tmax v - max ⊥ (tmax v)) = _
    rw [max_eq_right bot_le, zero_mul, zero_add, tsum_eq v ht _ hM, hM, exp_self_sub, mul_one]

theorem step_inv {C : ℕ} {S : ℝ} {p : EReal × EReal} (hp : Inv S p) (v : Fin C → EReal)
    (ht : ∀ j, v j ≠ ⊤) (hb : ∃ j, v j ≠ ⊥) : Inv (S + ∑ j, ew (v j)) (step p v) := by
  obtain ⟨M, hm, hl⟩ := hp
  have hM := tmax_coe v ht hb
  refine ⟨max M (tmax v).toReal, ?_, ?_⟩
  · show max p.1 (tmax v) = _
    rw [hm, hM, coe_max, EReal.toReal_coe]
  · show p.2 * Ideal.exp (p.1 - max p.1 (tmax v)) + tsum v * Ideal.exp (tmax v - max p.1 (tmax v)) = _
    rw [tsum_eq v ht _ hM, hm, hl]
    generalize (tmax v).toReal = Mt at hM ⊢
    rw [hM, coe_max, ← EReal.coe_sub, ← EReal.coe_sub, Ideal.exp_coe, Ideal.exp_coe, ← EReal.coe_mul,
      ← EReal.coe_mul, ← EReal.coe_add]
    congr 1
    have e1 : -M + (M - max M Mt) = -max M Mt := by ring
    have e2 : -Mt + (Mt - max M Mt) = -max M Mt := by ring
    rw [mul_assoc, ← Real.exp_add, mul_assoc, ← Real.exp_add, e1, e2]
    ring

theorem lse_of_inv {S : ℝ} {p : EReal × EReal} (hp : Inv S p) (hS : 0 < S) :
    p.1 + Ideal.log p.2 = ((Real.log S : ℝ) : EReal) := by
  obtain ⟨M, hm, hl⟩ := hp
  have hpos : 0 < S * Real.exp (-M) := mul_pos hS (Real.exp_pos _)
  rw [hm, hl, Ideal.log_coe, if_neg (not_le.2 hpos), Real.log_mul hS.ne' (Real.exp_pos _).ne', Real.log_exp,
    ← EReal.coe_add]
  congr 1
  ring

theorem run_inv {C : ℕ} (x : ℕ → Fin C → EReal) (T : ℕ) (ht : ∀ t, t < T → ∀ j, x t j ≠ ⊤)
    (hb : ∀ t, t < T → ∃ j, x t j ≠ ⊥) (t : ℕ) (h0 : 0 < t) (htT : t ≤ T) :
    Inv (∑ s ∈ Finset.range t, ∑ j, ew (x s j)) (run x t) := by
  induction t with
  | zero => exact absurd h0 (lt_irrefl 0)
  | succ t ih =>
    rcases Nat.eq_zero_or_pos t with h | h
    · subst h
      rw [Finset.sum_range_one]
      exact step_init (x 0) (ht 0 htT) (hb 0 htT)
    · rw [Finset.sum_range_succ]
      exact step_inv (ih h (Nat.le_of_succ_le htT)) (x t) (ht t htT) (hb t htT)

theorem online_lse {C : ℕ} (x : ℕ → Fin C → EReal) (T : ℕ) (hT : 0 < T) (ht : ∀ t, t < T → ∀ j, x t j ≠ ⊤)
    (hb : ∀ t, t < T → ∃ j, x t j ≠ ⊥) :
    (run x T).1 + Ideal.log (run x T).2
      = ((Real.log (∑ s ∈ Finset.range T, ∑ j, ew (x s j)) : ℝ) : EReal) := by
  refine lse_of_inv (run_inv x T ht hb T hT le_rfl) ?_
  exact Finset.sum_pos (fun t h => tile_weight_pos (x t) (ht t (Finset.mem_range.1 h)) (hb t (Finset.mem_range.1 h)))
    ⟨0, Finset.mem_range.2 hT⟩

def Layout {n C : ℕ} (T : ℕ) (y : Fin n → ℝ) (x : ℕ → Fin C → EReal) : Prop :=
  ∀ t, t < T → ∀ j : Fin C, x t j = if h : t * C + j.val < n then ((y ⟨t * C + j.val, h⟩ : ℝ) : EReal) else ⊥

theorem sum_blocks (g : ℕ → ℝ) (C T : ℕ) :
    ∑ t ∈ Finset.range T, ∑ j ∈ Finset.range C, g (t * C + j) = ∑ k ∈ Finset.range (T * C), g k := by
  induction T with
  | zero => simp
  | succ T ih => rw [Finset.sum_range_succ, ih, Nat.succ_mul, Finset.sum_range_add]

theorem sum_ew_layout {n C T : ℕ} (hle : n ≤ T * C) (y : Fin n → ℝ) (x : ℕ → Fin C → EReal) (hx : Layout T y x) :
    ∑ s ∈ Finset.range T, ∑ j, ew (x s j) = ∑ i, Real.exp (y i) := by
  set g : ℕ → ℝ := fun k => if h : k < n then Real.exp (y ⟨k, h⟩) else 0 with hg
  have h1 : ∀ t ∈ Finset.range T, ∑ j, ew (x t j) = ∑ j ∈ Finset.range C, g (t * C + j) := by
    intro t htT
    rw [← Fin.sum_univ_eq_sum_range (fun j => g (t * C + j)) C]
    refine Finset.sum_congr rfl fun j _ => ?_
    rw [hx t (Finset.mem_range.1 htT) j, hg]
    by_cases h : t * C + j.val < n
    · simp only [dif_pos h, ew_coe]
    · simp only [dif_neg h, ew_bot]
  rw [Finset.sum_congr rfl h1, sum_blocks]
  obtain ⟨d, hd⟩ := Nat.exists_eq_add_of_le hle
  rw [hd, Finset.sum_range_add, ← Fin.sum_univ_eq_sum_range g n]
  have h2 : ∑ k ∈ Finset.range d, g (n + k) = 0 :=
    Finset.sum_eq_zero fun k _ => by simp only [hg, dif_neg (Nat.not_lt.2 (Nat.le_add_right n k))]
  rw [h2, add_zero]
  exact Finset.sum_congr rfl fun i _ => by simp only [hg, dif_pos i.isLt]

theorem online_lse_layout {n C T : ℕ} (hle : n ≤ T * C) (hlast : (T - 1) * C < n) (y : Fin n → ℝ)
    (x : ℕ → Fin C → EReal) (hx : Layout T y x) :
    (run x T).1 + Ideal.log (run x T).2 = ((Real.log (∑ i, Real.exp (y i)) : ℝ) : EReal) := by
  have hT : 0 < T := by
    rcases Nat.eq_zero_or_pos T with h | h
    · subst h; omega
    · exact h
  have hC : 0 < C := by
    rcases Nat.eq_zero_or_pos C with h | h
    · subst h; simp at hle hlast; omega
    · exact h
  have ht : ∀ t, t < T → ∀ j, x t j ≠ ⊤ := by
    intro t htT j
    rw [hx t htT j]
    by_cases h : t * C + j.val < n
    · rw [dif_pos h]; exact EReal.coe_ne_top _
    · rw [dif_neg h]; exact bot_ne_top
  have hb : ∀ t, t < T → ∃ j, x t j ≠ ⊥ := by
    intro t htT
    refine ⟨⟨0, hC⟩, ?_⟩
    have h : t * C + 0 < n := by
      have : t * C ≤ (T - 1) * C := Nat.mul_le_mul_right C (Nat.le_sub_one_of_lt htT)
      omega
    rw [hx t htT ⟨0, hC⟩, dif_pos h]
    exact EReal.coe_ne_bot _
  rw [online_lse x T hT ht hb, sum_ew_layout hle y x hx]

theorem sum_exp_pos {n : ℕ} (hn : 0 < n) (y : Fin n → ℝ) : 0 < ∑ i, Real.exp (y i) :=
  Finset.sum_pos (fun i _ => Real.exp_pos _) ⟨⟨0, hn⟩, Finset.mem_univ _⟩

theorem real_lse_shift {n : ℕ} (hn : 0 < n) (y : Fin n → ℝ) (M : ℝ) :
    M + Real.log (∑ i, Real.exp (y i - M)) = Real.log (∑ i, Real.exp (y i)) := by
  have hpos := sum_exp_pos hn y
  have h : ∑ i, Real.exp (y i - M) = (∑ i, Real.exp (y i)) * Real.exp (-M) := by
    rw [Finset.sum_mul]
    exact Finset.sum_congr rfl fun i _ => by rw [sub_eq_add_neg, Real.exp_add]
  rw [h, Real.log_mul hpos.ne' (Real.exp_pos _).ne', Real.log_exp]
  ring

theorem sum_exp_sub_coe {n : ℕ} (y : Fin n → ℝ) (M : ℝ) :
    ∑ k, Ideal.exp ((y k : EReal) - (M : EReal)) = ((∑ k, Real.exp (y k - M) : ℝ) : EReal) := by
  rw [coe_sum]
  exact Finset.sum_congr rfl fun k _ => by rw [← EReal.coe_sub, Ideal.exp_coe]

theorem ref_logsoftmax {n : ℕ} (hn : 0 < n) (y : Fin n → ℝ) (M : ℝ) (i : Fin n) :
    ((y i : EReal) - (M : EReal)) - Ideal.log (∑ k, Ideal.exp ((y k : EReal) - (M : EReal)))
      = ((y i - Real.log (∑ k, Real.exp (y k)) : ℝ) : EReal) := by
  have hpos : 0 < ∑ k, Real.exp (y k - M) := sum_exp_pos hn fun k => y k - M
  rw [sum_exp_sub_coe, Ideal.log_coe, if_neg (not_le.2 hpos), ← EReal.coe_sub, ← EReal.coe_sub, ← real_lse_shift hn y M]
  congr 1
  ring

noncomputable def tiles {n : ℕ} (C : ℕ) (z : Fin n → EReal) : ℕ → Fin C → EReal :=
  fun t j => if h : t * C + j.val < n then z ⟨t * C + j.val, h⟩ else ⊥

theorem layout_tiles_of_eq {n : ℕ} (C T : ℕ) (z : Fin n → EReal) (y : Fin n → ℝ) (hz : ∀ i, z i = ((y i : ℝ) : EReal)) :
    Layout T y (tiles C z) := by
  intro t _ j
  unfold tiles
  by_cases h : t * C + j.val < n
  · rw [dif_pos h, dif_pos h, hz]
  · rw [dif_neg h, dif_neg h]

end LibOnlineLse
-- ==== Proof.LibRowReduce.lean ====
import proofs.«138250_j73134703116926_1_alg».proof.Proof.LibOnlineLse
import Idealize.ShloMosaic.Lib.ValueIdx
import Idealize.ShloMosaic.Lib.ValueLayout
import Idealize.ShloMosaic.PureOps.Ideal.Laws

noncomputable section

namespace LibRowReduce

open Idealize.ShloMosaic Idealize.ShloMosaic.ValueIdx
open scoped BigOperators

theorem lift_row {A C : ℕ} (h : (⟨2, ![A, C]⟩ : Shape).Reduces [1] ⟨1, ![A]⟩) (r : Fin A) (k : Fin C) :
    h.lift (ix1 r) k = ix2 r k :=
  funext fun c => Fin.ext (by
    match c with
    | ⟨0, _⟩ => rfl
    | ⟨1, _⟩ => rfl)

theorem ofBits_neg_inf : Ideal.ofBits .f32 0xFF800000#32 = (⊥ : EReal) := by simp [Ideal.ofBits, Ideal.ieee]

theorem rowmax_apply {A C : ℕ} (src : FVec Ideal ⟨2, ![A, C]⟩ .f32)
    (h : (⟨2, ![A, C]⟩ : Shape).Reduces [1] ⟨1, ![A]⟩) (hφ : FKind.Formats .f32)
    (hacc : (0xFF800000#32 : BitVec 32) = 0xFF800000#32) (r : Fin A) :
    multiReduction (F := Ideal) .maximumf [1] ⟨1, ![A]⟩ src 0xFF800000#32 h hφ hacc (ix1 r)
      = LibOnlineLse.tmax fun j : Fin C => src (ix2 r j) := by
  refine (Ideal.multiReduction_maximumf_single src 0xFF800000#32 h hφ hacc (ix1 r)).trans ?_
  show (Finset.univ : Finset (Fin C)).fold max (Ideal.ofBits .f32 0xFF800000#32) (src ∘ h.lift (ix1 r)) = _
  rw [ofBits_neg_inf, show (src ∘ h.lift (ix1 r)) = fun j : Fin C => src (ix2 r j) from
    funext fun j => congrArg src (lift_row h r j)]
  rfl

theorem rowsum_apply {A C : ℕ} (src : FVec Ideal ⟨2, ![A, C]⟩ .f32)
    (h : (⟨2, ![A, C]⟩ : Shape).Reduces [1] ⟨1, ![A]⟩) (hφ : FKind.Formats .f32)
    (hacc : (0x00000000#32 : BitVec 32) = 0x00000000#32) (r : Fin A) :
    multiReduction (F := Ideal) .add [1] ⟨1, ![A]⟩ src 0x00000000#32 h hφ hacc (ix1 r)
      = ∑ j : Fin C, src (ix2 r j) := by
  refine (Ideal.multiReduction_add_single src 0x00000000#32 h hφ hacc (ix1 r)).trans ?_
  show ∑ k : Fin C, src (h.lift (ix1 r) k) = _
  exact Finset.sum_congr rfl fun k _ => congrArg src (lift_row h r k)

-- Row-major position of (i, u) in an [a, 1] array is i.
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

-- A product with the right operand contracted on its last axis, into the zero accumulator: rows against rows.
theorem matmulT_apply {M K N : ℕ} {φ₁ φ₂ : FTy} (a : FVec Ideal ⟨2, ![M, K]⟩ φ₁) (b : FVec Ideal ⟨2, ![N, K]⟩ φ₂)
    (r : Fin M) (j : Fin N) :
    matmul (DotDims.transposedRhs M K N) none a b (constant (F := Ideal) ⟨2, ![M, N]⟩ .f32 0x00000000#32) (ix2 r j)
      = ∑ k : Fin K, a (ix2 r k) * b (ix2 j k) := by
  simp only [matmul]
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 r j) ((contrEquiv1 (DotDims.transposedRhs M K N) K rfl rfl).symm k)
      = ix2 r k := funext fun c => Fin.ext (by
    match c with
    | ⟨0, _⟩ => rfl
    | ⟨1, _⟩ => exact ((DotDims.transposedRhs M K N).lhsIdx_val_of_single rfl _ _).trans hk)
  have er : (DotDims.transposedRhs M K N).rhsIdx (ix2 r j) ((contrEquiv1 (DotDims.transposedRhs M K N) K rfl rfl).symm k)
      = ix2 j k := funext fun c => Fin.ext (by
    match c with
    | ⟨0, _⟩ => rfl
    | ⟨1, _⟩ => exact ((DotDims.transposedRhs M K N).rhsIdx_val_of_single rfl _ _).trans hk)
  rw [el, er]

-- The logit tile: rows against rows plus the bias row read across the rows.
theorem logit_apply {M K N : ℕ} (x : FVec Ideal ⟨2, ![M, K]⟩ .f32) (w : FVec Ideal ⟨2, ![N, K]⟩ .f32)
    (β : FVec Ideal ⟨1, ![N]⟩ .f32) (hx : FTy.bf16.bits < FTy.f32.bits)
    (h1 : (⟨1, ![N]⟩ : Shape).ShapeCasts ⟨2, ![1, N]⟩) (h2 : (⟨2, ![1, N]⟩ : Shape).Broadcasts ⟨2, ![M, N]⟩)
    (r : Fin M) (j : Fin N) :
    addf (matmul (DotDims.transposedRhs M K N) none (truncf .bf16 x hx) (truncf .bf16 w hx)
        (constant (F := Ideal) ⟨2, ![M, N]⟩ .f32 0x00000000#32))
      (broadcastTo ⟨2, ![M, N]⟩ (shapeCast ⟨2, ![1, N]⟩ β h1) h2) (ix2 r j)
      = (∑ k : Fin K, x (ix2 r k) * w (ix2 j k)) + β (ix1 j) :=
  (addf_apply _ _ _).trans (congrArg₂ (· + ·) (matmulT_apply _ _ r j)
    ((broadcastTo_1b_ab_apply _ h2 r j).trans (shapeCast_a_1a_apply β h1 0 j)))

end LibRowReduce

end
-- ==== Proof.IdealStatsValue.lean ====
import proofs.«138250_j73134703116926_1_alg».proof.Proof.Gen.KernelIdeal.Skeleton
import proofs.«138250_j73134703116926_1_alg».proof.Proof.LibOnlineLse
import proofs.«138250_j73134703116926_1_alg».proof.Proof.LibRowReduce
import Idealize.ShloMosaic.Lib.ValueIdx
import Idealize.ShloMosaic.Lib.ValueLayout
import Idealize.ShloMosaic.Lib.StableHlo.Predicate
import Idealize.ShloMosaic.PureOps.Ideal.Laws

noncomputable section

namespace Cert.KernelIdeal.StatsValue

open Idealize.ShloMosaic Idealize.ShloMosaic.ValueIdx Cert.KernelIdeal Cert.KernelIdeal.Gen LibRowReduce
open scoped BigOperators

-- Below 2 ^ 31 nothing wraps, so the signed 32-bit column test is the test on the naturals.
theorem mask_bit (t j C n : ℕ) (hn : n < 2 ^ 31) (h : t * C + j < 2 ^ 31) :
    IntOp.cmpi .slt (IntOp.addi (Scalar.muli (BitVec.ofNat 32 t) (BitVec.ofNat 32 C)) (BitVec.ofNat 32 j)) (BitVec.ofNat 32 n)
      = if t * C + j < n then 1#1 else 0#1 := by
  rw [show IntOp.addi (Scalar.muli (BitVec.ofNat 32 t) (BitVec.ofNat 32 C)) (BitVec.ofNat 32 j) = BitVec.ofNat 32 (t * C + j) from by
    show BitVec.ofNat 32 t * BitVec.ofNat 32 C + BitVec.ofNat 32 j = _
    rw [← BitVec.ofNat_mul, ← BitVec.ofNat_add]]
  by_cases hlt : t * C + j < n
  · rw [if_pos hlt]
    exact (StableHlo.Predicate.slt_ofNat_iff _ _ h hn).2 hlt
  · rw [if_neg hlt]
    exact eq_zero_of_ne_one fun h1 => hlt ((StableHlo.Predicate.slt_ofNat_iff _ _ h hn).1 h1)

theorem neg_big_eq : Named.named (F := Ideal) Cert.KernelIdeal.κ "neg_big" (φ := .f32) 0xF149F2CA#32 = (⊥ : EReal) :=
  IdealRules.named_const.ideal_named_scalar _ _ _ _ rfl

theorem reset_max {s : Shape} (h : s.ShapeCasts s) :
    shapeCast s (broadcast s (Ideal.ofBits .f32 0xFF800000#32)) h = fun _ => (⊥ : EReal) := by
  rw [shapeCast_self, ofBits_neg_inf]
  rfl

theorem reset_sum {s : Shape} (h : s.ShapeCasts s) :
    shapeCast s (broadcast s (Ideal.ofBits .f32 0x00000000#32)) h = fun _ => (0 : EReal) := by
  rw [shapeCast_self, Ideal.ofBits_zero_f32]
  rfl

section Tile

variable {A C K : ℕ} (n : ℕ)

-- Row r, column j of tile t of an n-column logit matrix cut into tiles of C columns; ⊥ past the last column.
def mlogit (t : ℕ) (x : FVec Ideal ⟨2, ![A, K]⟩ .f32) (w : FVec Ideal ⟨2, ![C, K]⟩ .f32) (β : FVec Ideal ⟨1, ![C]⟩ .f32)
    (r : Fin A) (j : Fin C) : EReal :=
  if t * C + j.val < n then (∑ k : Fin K, x (ix2 r k) * w (ix2 j k)) + β (ix1 j) else ⊥

theorem masked_apply (t : ℕ) (h : t * C + C < 2 ^ 31) (hn : n < 2 ^ 31) (hι : (⟨2, ![A, C]⟩ : Shape).Iotas .tc 32 [1])
    (hx : FTy.bf16.bits < FTy.f32.bits) (h1 : (⟨1, ![C]⟩ : Shape).ShapeCasts ⟨2, ![1, C]⟩)
    (h2 : (⟨2, ![1, C]⟩ : Shape).Broadcasts ⟨2, ![A, C]⟩) (x : FVec Ideal ⟨2, ![A, K]⟩ .f32)
    (w : FVec Ideal ⟨2, ![C, K]⟩ .f32) (β : FVec Ideal ⟨1, ![C]⟩ .f32) (r : Fin A) (j : Fin C) :
    select (cmpi .slt (addi (broadcast ⟨2, ![A, C]⟩ (Scalar.muli (BitVec.ofNat 32 t) (BitVec.ofNat 32 C)))
          (iota .tc ⟨2, ![A, C]⟩ 32 [1] hι)) (broadcast ⟨2, ![A, C]⟩ (BitVec.ofNat 32 n)))
        (addf (matmul (DotDims.transposedRhs A K C) none (truncf .bf16 x hx) (truncf .bf16 w hx)
            (constant (F := Ideal) ⟨2, ![A, C]⟩ .f32 0x00000000#32))
          (broadcastTo ⟨2, ![A, C]⟩ (shapeCast ⟨2, ![1, C]⟩ β h1) h2))
        (broadcast ⟨2, ![A, C]⟩ (Named.named (F := Ideal) Cert.KernelIdeal.κ "neg_big" (φ := .f32) 0xF149F2CA#32)) (ix2 r j)
      = mlogit n t x w β r j := by
  have hj := j.isLt
  show Scalar.select (IntOp.cmpi .slt (IntOp.addi (Scalar.muli (BitVec.ofNat 32 t) (BitVec.ofNat 32 C))
      (iota .tc ⟨2, ![A, C]⟩ 32 [1] hι (ix2 r j))) (BitVec.ofNat 32 n)) _
    (Named.named (F := Ideal) Cert.KernelIdeal.κ "neg_big" (φ := .f32) 0xF149F2CA#32) = _
  rw [iota_single_apply, logit_apply, neg_big_eq]
  show Scalar.select (IntOp.cmpi .slt (IntOp.addi (Scalar.muli (BitVec.ofNat 32 t) (BitVec.ofNat 32 C))
      (BitVec.ofNat 32 j.val)) (BitVec.ofNat 32 n)) _ _ = _
  rw [mask_bit t j.val C n hn (by omega)]
  unfold mlogit
  by_cases hlt : t * C + j.val < n
  · rw [if_pos hlt, if_pos hlt, select_one]
  · rw [if_neg hlt, if_neg hlt, select_zero]

theorem mlogit_congr (t : ℕ) (x : FVec Ideal ⟨2, ![A, K]⟩ .f32) {w w' : FVec Ideal ⟨2, ![C, K]⟩ .f32}
    {β β' : FVec Ideal ⟨1, ![C]⟩ .f32}
    (h : ∀ j : Fin C, t * C + j.val < n → (∀ k : Fin K, w (ix2 j k) = w' (ix2 j k)) ∧ β (ix1 j) = β' (ix1 j))
    (r : Fin A) (j : Fin C) : mlogit n t x w β r j = mlogit n t x w' β' r j := by
  unfold mlogit
  by_cases hlt : t * C + j.val < n
  · rw [if_pos hlt, if_pos hlt, (h j hlt).2]
    exact congrArg (· + β' (ix1 j)) (Finset.sum_congr rfl fun k _ => by rw [(h j hlt).1 k])
  · rw [if_neg hlt, if_neg hlt]

end Tile

-- From any tile src: the row maximum, the new running maximum and the new running sum are one online step on every row.
theorem step_apply {A C : ℕ} (src : FVec Ideal ⟨2, ![A, C]⟩ .f32) (hr : (⟨2, ![A, C]⟩ : Shape).Reduces [1] ⟨1, ![A]⟩)
    (hc : (⟨1, ![A]⟩ : Shape).ShapeCasts ⟨2, ![A, 1]⟩) (hb : (⟨2, ![A, 1]⟩ : Shape).Broadcasts ⟨2, ![A, C]⟩)
    (hφ : FKind.Formats .f32) (e1 : (0xFF800000#32 : BitVec 32) = 0xFF800000#32)
    (e0 : (0x00000000#32 : BitVec 32) = 0x00000000#32) (p7 : FVec Ideal ⟨2, ![A, 1]⟩ .f32)
    (hp : p7 = shapeCast ⟨2, ![A, 1]⟩ (multiReduction (F := Ideal) .maximumf [1] ⟨1, ![A]⟩ src 0xFF800000#32 hr hφ e1) hc)
    (m l : FVec Ideal ⟨2, ![A, 1]⟩ .f32) (r : Fin A) (c : Fin 1) :
    (maximumf m p7 (ix2 r c),
      addf (mulf l (exp (subf m (maximumf m p7))))
        (mulf (shapeCast ⟨2, ![A, 1]⟩ (multiReduction (F := Ideal) .add [1] ⟨1, ![A]⟩
            (exp (subf src (broadcastTo ⟨2, ![A, C]⟩ p7 hb))) 0x00000000#32 hr hφ e0) hc)
          (exp (subf p7 (maximumf m p7)))) (ix2 r c))
      = LibOnlineLse.step (m (ix2 r c), l (ix2 r c)) fun j => src (ix2 r j) := by
  have h7 : ∀ c, p7 (ix2 r c) = LibOnlineLse.tmax fun j => src (ix2 r j) := fun c =>
    (congrFun hp _).trans ((shapeCast_a_a1_apply _ hc r c).trans (rowmax_apply src hr hφ e1 r))
  have hs : shapeCast ⟨2, ![A, 1]⟩ (multiReduction (F := Ideal) .add [1] ⟨1, ![A]⟩
      (exp (subf src (broadcastTo ⟨2, ![A, C]⟩ p7 hb))) 0x00000000#32 hr hφ e0) hc (ix2 r c)
      = LibOnlineLse.tsum fun j => src (ix2 r j) := by
    rw [shapeCast_a_a1_apply, rowsum_apply]
    refine Finset.sum_congr rfl fun j _ => ?_
    show Ideal.exp (src (ix2 r j) - broadcastTo ⟨2, ![A, C]⟩ p7 hb (ix2 r j)) = _
    rw [broadcastTo_a1_ab_apply, h7]
  show (max (m (ix2 r c)) (p7 (ix2 r c)), l (ix2 r c) * Ideal.exp (m (ix2 r c) - max (m (ix2 r c)) (p7 (ix2 r c)))
    + _ * Ideal.exp (p7 (ix2 r c) - max (m (ix2 r c)) (p7 (ix2 r c)))) = _
  rw [hs, h7]
  rfl

-- A pair of sequences from (⊥, 0) that advances by the online step is the online recurrence.
theorem run_of_step {C : ℕ} (x : ℕ → Fin C → EReal) (m l : ℕ → EReal) (T : ℕ) (hm0 : m 0 = ⊥) (hl0 : l 0 = 0)
    (hs : ∀ t, t < T → (m (t + 1), l (t + 1)) = LibOnlineLse.step (m t, l t) (x t)) (t : ℕ) (ht : t ≤ T) :
    (m t, l t) = LibOnlineLse.run x t := by
  induction t with
  | zero => rw [hm0, hl0]; rfl
  | succ t ih => rw [hs t (by omega), ih (by omega)]; rfl

-- Rows that start at (⊥, 0) and step through the T tiles of n real logits end at the logarithm of the sum of their exponentials.
theorem lse_rows {A C K : ℕ} (n T : ℕ) (hle : n ≤ T * C) (hlast : (T - 1) * C < n)
    (p : Fin A → Fin K → ℝ) (w : Fin n → Fin K → ℝ) (β : Fin n → ℝ)
    (x : FVec Ideal ⟨2, ![A, K]⟩ .f32) (W : ℕ → FVec Ideal ⟨2, ![C, K]⟩ .f32) (B : ℕ → FVec Ideal ⟨1, ![C]⟩ .f32)
    (h3 : ∀ r k, x (ix2 r k) = ((p r k : ℝ) : EReal))
    (hW : ∀ t (j : Fin C) (k : Fin K) (h : t * C + j.val < n), W t (ix2 j k) = ((w ⟨t * C + j.val, h⟩ k : ℝ) : EReal))
    (hB : ∀ t (j : Fin C) (h : t * C + j.val < n), B t (ix1 j) = ((β ⟨t * C + j.val, h⟩ : ℝ) : EReal))
    (M L : ℕ → FVec Ideal ⟨2, ![A, 1]⟩ .f32) (hM0 : M 0 = fun _ => (⊥ : EReal)) (hL0 : L 0 = fun _ => (0 : EReal))
    (hs : ∀ t, t < T → ∀ r c, (M (t + 1) (ix2 r c), L (t + 1) (ix2 r c))
      = LibOnlineLse.step (M t (ix2 r c), L t (ix2 r c)) fun j => mlogit n t x (W t) (B t) r j)
    (r : Fin A) (c : Fin 1) :
    M T (ix2 r c) + Ideal.log (L T (ix2 r c))
      = ((Real.log (∑ j : Fin n, Real.exp ((∑ k, p r k * w j k) + β j)) : ℝ) : EReal) := by
  have h := run_of_step (fun s j => mlogit n s x (W s) (B s) r j) (fun t => M t (ix2 r c)) (fun t => L t (ix2 r c)) T
    (congrFun hM0 _) (congrFun hL0 _) (fun t ht => hs t ht r c) T le_rfl
  rw [show M T (ix2 r c) = _ from congrArg Prod.fst h, show L T (ix2 r c) = _ from congrArg Prod.snd h]
  refine LibOnlineLse.online_lse_layout hle hlast (fun j => (∑ k, p r k * w j k) + β j)
    (fun s j => mlogit n s x (W s) (B s) r j) fun t _ j => ?_
  dsimp only
  unfold mlogit
  by_cases hlt : t * C + j.val < n
  · rw [if_pos hlt, dif_pos hlt, hB t j hlt, EReal.coe_add, LibOnlineLse.coe_sum]
    refine congrArg (· + _) (Finset.sum_congr rfl fun k _ => ?_)
    rw [h3, hW t j k hlt, EReal.coe_mul]
  · rw [if_neg hlt, dif_neg hlt]

def AgreeOn (t : ℕ) (v6 v6' : Vec Ideal S2048x1024 .f32) (v10 v10' : Vec Ideal S2048 .f32) : Prop :=
  ∀ j : Fin 2048, t * 2048 + j.val < 20003 → (∀ k : Fin 1024, v6 (ix2 j k) = v6' (ix2 j k)) ∧ v10 (ix1 j) = v10' (ix1 j)

def rlogit (p : Fin 512 → Fin 1024 → ℝ) (w : Fin 20003 → Fin 1024 → ℝ) (β : Fin 20003 → ℝ) (r : Fin 512) (j : Fin 20003) : ℝ :=
  (∑ k, p r k * w j k) + β j

theorem pay1_eq (v32 : FVec Ideal S512x1 .f32) : k0_pay1 (F := Ideal) v32 = v32 := shapeCast_self _ _
theorem pay2_eq (v39 : FVec Ideal S512x1 .f32) : k0_pay2 (F := Ideal) v39 = v39 := shapeCast_self _ _

variable (i : grid0.Coords) (v3 : Vec Ideal S512x1024 .f32) (v6 v6' : Vec Ideal S2048x1024 .f32) (v10 v10' : Vec Ideal S2048 .f32)
  (v30 v31 : Vec Ideal S512x1 .f32) (r : Fin 512) (j : Fin 2048) (c : Fin 1)

theorem pay6_apply : k0_pay6 (F := Ideal) i v3 v6 v10 (ix2 r j) = mlogit 20003 (i 0).val v3 v6 v10 r j := by
  have ht : (i 0).val < 10 := (i 0).isLt
  unfold k0_pay6
  rw [shapeCast_self, shapeCast_self, shapeCast_self]
  exact masked_apply 20003 (i 0).val (by omega) (by norm_num) _ _ _ _ v3 v6 v10 r j

theorem pay6_congr (h : AgreeOn (i 0).val v6 v6' v10 v10') :
    k0_pay6 (F := Ideal) i v3 v6 v10 = k0_pay6 (F := Ideal) i v3 v6' v10' := by
  funext x
  obtain ⟨r, j, rfl⟩ : ∃ (r : Fin 512) (j : Fin 2048), x = ix2 r j := ⟨x 0, x 1, eq_ix2 x⟩
  rw [pay6_apply, pay6_apply]
  exact mlogit_congr 20003 _ v3 h r j

theorem pay8_congr (h : AgreeOn (i 0).val v6 v6' v10 v10') :
    k0_pay8 (F := Ideal) i v3 v6 v10 v30 = k0_pay8 (F := Ideal) i v3 v6' v10' v30 := by
  unfold k0_pay8 k0_pay7
  rw [pay6_congr i v3 v6 v6' v10 v10' h]

theorem pay9_congr (h : AgreeOn (i 0).val v6 v6' v10 v10') :
    k0_pay9 (F := Ideal) i v3 v6 v10 v30 v31 = k0_pay9 (F := Ideal) i v3 v6' v10' v30 v31 := by
  unfold k0_pay9 k0_pay8 k0_pay7
  rw [pay6_congr i v3 v6 v6' v10 v10' h]

-- One grid point is one step of the online recurrence on every row.
theorem step_eq :
    (k0_pay8 (F := Ideal) i v3 v6 v10 v30 (ix2 r c), k0_pay9 (F := Ideal) i v3 v6 v10 v30 v31 (ix2 r c))
      = LibOnlineLse.step (v30 (ix2 r c), v31 (ix2 r c)) fun j => mlogit 20003 (i 0).val v3 v6 v10 r j :=
  (step_apply (k0_pay6 (F := Ideal) i v3 v6 v10) _ _ _ _ _ _ _ rfl v30 v31 r c).trans
    (congrArg (LibOnlineLse.step _) (funext fun j => pay6_apply i v3 v6 v10 r j))

theorem stats_lse (p : Fin 512 → Fin 1024 → ℝ) (w : Fin 20003 → Fin 1024 → ℝ) (β : Fin 20003 → ℝ)
    (v3 : Vec Ideal S512x1024 .f32) (W : ℕ → Vec Ideal S2048x1024 .f32) (B : ℕ → Vec Ideal S2048 .f32)
    (h3 : ∀ r k, v3 (ix2 r k) = ((p r k : ℝ) : EReal))
    (hW : ∀ t (j : Fin 2048) (k : Fin 1024) (h : t * 2048 + j.val < 20003), W t (ix2 j k) = ((w ⟨t * 2048 + j.val, h⟩ k : ℝ) : EReal))
    (hB : ∀ t (j : Fin 2048) (h : t * 2048 + j.val < 20003), B t (ix1 j) = ((β ⟨t * 2048 + j.val, h⟩ : ℝ) : EReal))
    (M L : ℕ → Vec Ideal S512x1 .f32) (hM0 : M 0 = k0_pay4 (F := Ideal)) (hL0 : L 0 = k0_pay5 (F := Ideal))
    (hstep : ∀ t, t < 10 → ∃ i : grid0.Coords, (i 0).val = t ∧ M (t + 1) = k0_pay8 (F := Ideal) i v3 (W t) (B t) (M t)
      ∧ L (t + 1) = k0_pay9 (F := Ideal) i v3 (W t) (B t) (M t) (L t))
    (r : Fin 512) (c : Fin 1) :
    k0_pay3 (F := Ideal) (M 10) (L 10) (ix2 r c)
      = ((Real.log (∑ j : Fin 20003, Real.exp (rlogit p w β r j)) : ℝ) : EReal) := by
  show M 10 (ix2 r c) + Ideal.log (L 10 (ix2 r c)) = _
  refine lse_rows 20003 10 (by norm_num) (by norm_num) p w β v3 W B h3 hW hB M L (hM0.trans (reset_max _))
    (hL0.trans (reset_sum _)) (fun t ht r c => ?_) r c
  obtain ⟨i, hi, hM, hL⟩ := hstep t ht
  rw [hM, hL, step_eq, hi]

end Cert.KernelIdeal.StatsValue
-- ==== Proof.TripleStats0.lean ====
import proofs.«138250_j73134703116926_1_alg».proof.Proof.Gen.KernelIdeal.Skeleton
import proofs.«138250_j73134703116926_1_alg».proof.Proof.Gen.KernelIdeal.Points
import Idealize.ShloMosaic.Lib.Tactic
import Idealize.ShloMosaic.Lib.Pipeline.Value

noncomputable section

namespace Cert.KernelIdeal.Triples

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

section
variable (i : grid0.Coords) (X0 : Vec F S512x1024 .f32) (X1 : Vec F S2048x1024 .f32) (X2 : Vec F S2048 .f32)
  (X3 f0 f1 : Vec F S512x1 .f32)

def k0_cond1 : BitVec 1 :=
  Scalar.cmpi .ne (Scalar.extui (Scalar.cmpi .eq (BitVec.ofNat 32 (i 0).val) 0#32) : BitVec 32) 0#32

def stats0_mIn : Vec F S512x1 .f32 := if k0_cond1 i = 1#1 then k0_pay4 else f0

def stats0_lIn : Vec F S512x1 .f32 := if k0_cond1 i = 1#1 then k0_pay5 else f1

def stats0_m : FVec F S512x1 .f32 := k0_pay8 i X0 X1 X2 (stats0_mIn i f0)

def stats0_l : FVec F S512x1 .f32 := k0_pay9 i X0 X1 X2 (stats0_mIn i f0) (stats0_lIn i f1)

def stats0_scr0 : Vec F S512x1 .f32 := k0_pay1 (stats0_m i X0 X1 X2 f0)

def stats0_scr1 : Vec F S512x1 .f32 := k0_pay2 (stats0_l i X0 X1 X2 f0 f1)

def stats0_out : Vec F S512x1 .f32 :=
  if k0_cond2 i = 1#1 then k0_pay3 (stats0_m i X0 X1 X2 f0) (stats0_l i X0 X1 X2 f0 f1) else X3

end

theorem k0_cond1_iff : ∀ t : Fin grid0.N, k0_cond1 (grid0.coords t) = 1#1 ↔ t.val = 0 := by decide +kernel
theorem k0_cond2_iff : ∀ t : Fin grid0.N, k0_cond2 (grid0.coords t) = 1#1 ↔ t.val = 9 := by decide +kernel

theorem stats_off2 : (![0, 0] : Fin 2 → ℕ) = fun _ => 0 := funext fun a => by fin_cases a <;> rfl
theorem stats_off1 : (![0] : Fin 1 → ℕ) = fun _ => 0 := funext fun a => by fin_cases a; rfl

-- A load through the whole-shape rectangle reads the view's contents.
theorem stats_readAt {Val : EltTy → Type} {sig' : RefSig} {κ : Kind} {sp : Space} {S : Shape} {e : EltTy}
    (v : View sig' κ sp S e) (f : v.ty.Contents Val) {off : Fin S.rank → ℕ} (h : off = fun _ => 0)
    (inb : ∀ a, off a + S.size a ≤ S.size a) :
    v.readAt Val (Rect.unit off S.size inb).toLoadRect f = v.read Val f := by
  rw [View.readAt_eq_ld, View.ld_unit_zero h]

-- After a last store through the whole-shape rectangle the view reads that store's payload.
theorem stats_read_writes {Val : EltTy → Type} [∀ e, Nonempty (Val e)] {sig' : RefSig} {κ : Kind} {sp : Space} {S : Shape} {e : EltTy}
    (v : View sig' κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

-- A buffer stored whole under a condition reads the payload where the condition holds, what it held otherwise.
theorem stats_read_guarded {Val : EltTy → Type} [∀ e, Nonempty (Val e)] {sig' : RefSig} {κ : Kind} {sp : Space} {S : Shape} {e : EltTy}
    (v : View sig' κ sp S e) (f : v.ty.Contents Val) {off : Fin S.rank → ℕ} (h : off = fun _ => 0)
    (inb : ∀ a, off a + S.size a ≤ S.size a) (w : S.Idx → Val e) (p : Prop) [Decidable p] :
    v.read Val (if _ : p then v.writes Val f [(⟨Rect.unit off S.size inb, w⟩ : View.Piece Val S e)] else f)
      = if p then w else v.read Val f := by
  split
  · exact stats_read_writes v f h inb w []
  · rfl

variable {Ix : Type} [DecidableEq Ix] {U : Type} [URA U] {Lvl : Type} [Preorder Lvl]

local notation "𝕄" => MT nD τ sig Ix (Elt F) ℕ U Lvl

theorem triple_stats0 (𝒱₀ : Variants) (c : Dev nD) (E : Set ℕ) (i : grid0.Coords)
    (arg1 : Memref sig .tc .vmem S512x1024 .f32) (harg1 : arg1.IsWhole) (arg2 : Memref sig .tc .vmem S2048x1024 .f32) (harg2 : arg2.IsWhole)
    (arg3 : Memref sig .tc .vmem S2048 .f32) (harg3 : arg3.IsWhole) (arg4 : Memref sig .tc .vmem S512x1 .f32) (harg4 : arg4.IsWhole)
    (arg5 : Memref sig .tc .vmem S512x1 .f32) (harg5 : arg5.IsWhole) (arg6 : Memref sig .tc .vmem S512x1 .f32) (harg6 : arg6.IsWhole)
    (X0 : Vec F S512x1024 .f32) (X1 : Vec F S2048x1024 .f32) (X2 : Vec F S2048 .f32) (X3 f0 f1 : Vec F S512x1 .f32)
    (K : PUnit → sProp 𝕄) :
    iprop((owns (c : Thread nD τ) arg1 fullShare X0 ∗ owns (c : Thread nD τ) arg2 fullShare X1 ∗ owns (c : Thread nD τ) arg3 fullShare X2
            ∗ owns (c : Thread nD τ) arg4 fullShare X3 ∗ owns (c : Thread nD τ) arg5 fullShare f0 ∗ owns (c : Thread nD τ) arg6 fullShare f1)
          ∗ (iprop(owns (c : Thread nD τ) arg1 fullShare X0 ∗ owns (c : Thread nD τ) arg2 fullShare X1 ∗ owns (c : Thread nD τ) arg3 fullShare X2
                  ∗ owns (c : Thread nD τ) arg4 fullShare (stats0_out i X0 X1 X2 X3 f0 f1)
                  ∗ owns (c : Thread nD τ) arg5 fullShare (stats0_scr0 i X0 X1 X2 f0)
                  ∗ owns (c : Thread nD τ) arg6 fullShare (stats0_scr1 i X0 X1 X2 f0 f1)) -∗ K ⟨⟩))
      ⊢ wp frame (wpE (defs₀ (F := F)) 𝒱₀ c none) E
          (cc0__stats_kernel i arg1 harg1 arg2 harg2 arg3 harg3 arg4 harg4 arg5 harg5 arg6 harg6) K := by
  sl_unfold [cc0__stats_kernel]
  unfold owns
  iintro ⟨⟨⟨%g1, %hg1, H1⟩, ⟨%g2, %hg2, H2⟩, ⟨%g3, %hg3, H3⟩, ⟨%g4, %hg4, H4⟩, ⟨%g5, %hg5, H5⟩, ⟨%g6, %hg6, H6⟩⟩, Hk⟩
  subst hg1 hg2 hg3 hg4 hg5 hg6
  sl_exec
  sl_step
  have hm : triple_stats0.sl.r c i arg1 arg2 arg3 arg5 g1 g2 g3 g5
      = stats0_m i (arg1.view.read (Elt F) g1) (arg2.view.read (Elt F) g2) (arg3.view.read (Elt F) g3) (arg5.view.read (Elt F) g5) := by
    unfold triple_stats0.sl.r triple_stats0.sl.v30 stats0_m stats0_mIn
    rw [stats_readAt _ _ stats_off2, stats_readAt _ _ stats_off2, stats_readAt _ _ stats_off1, stats_readAt _ _ stats_off2, stats_read_guarded _ _ stats_off2]
    rfl
  have hl : triple_stats0.sl.r_1 c i arg1 arg2 arg3 arg5 arg6 g1 g2 g3 g5 g6
      = stats0_l i (arg1.view.read (Elt F) g1) (arg2.view.read (Elt F) g2) (arg3.view.read (Elt F) g3) (arg5.view.read (Elt F) g5)
          (arg6.view.read (Elt F) g6) := by
    unfold triple_stats0.sl.r_1 triple_stats0.sl.v30 triple_stats0.sl.v31 stats0_l stats0_mIn stats0_lIn
    rw [stats_readAt _ _ stats_off2, stats_readAt _ _ stats_off2, stats_readAt _ _ stats_off1, stats_readAt _ _ stats_off2, stats_readAt _ _ stats_off2,
      stats_read_guarded _ _ stats_off2, stats_read_guarded _ _ stats_off2]
    rfl
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro
    refine (stats_read_guarded _ _ stats_off2 _ _ _).trans ?_
    rw [hm, hl, stats0_out]
  isplitl [H5]
  · iexists _; isplitr; swap; · iexact H5
    ipureintro; exact (stats_read_writes _ _ stats_off2 _ _ _).trans (congrArg k0_pay1 hm)
  · iexists _; isplitr; swap; · iexact H6
    ipureintro; exact (stats_read_writes _ _ stats_off2 _ _ _).trans (congrArg k0_pay2 hl)

end Cert.KernelIdeal.Triples
-- ==== Proof.Spec.lean ====
import Idealize.ShloMosaic.PureOps.Ideal
import Idealize.ShloMosaic.Lib.ValueIdx

noncomputable section

open scoped BigOperators

namespace AdaptiveSpec

open Idealize.ShloMosaic Idealize.ShloMosaic.ValueIdx

section Cluster

variable {n e : Nat}

def proj (hid : Fin 64 → Fin 8 → Fin 1024 → EReal) (P : Fin e → Fin 1024 → EReal) (s : Fin 64) (b : Fin 8) (k : Fin e) :
    EReal :=
  ∑ d : Fin 1024, hid s b d * P k d

def logit (hid : Fin 64 → Fin 8 → Fin 1024 → EReal) (P : Fin e → Fin 1024 → EReal) (W : Fin n → Fin e → EReal)
    (β : Fin n → EReal) (s : Fin 64) (b : Fin 8) (j : Fin n) : EReal :=
  (∑ k : Fin e, proj hid P s b k * W j k) + β j

def rowMax (x : Fin n → EReal) : EReal :=
  max (Ideal.ofBits .f32 0xFF800000#32) ((Finset.univ : Finset (Fin n)).fold max (Ideal.ofBits .f32 0xFF800000#32) x)

def rowSumExp (x : Fin n → EReal) : EReal :=
  Ideal.ofBits .f32 0x00000000#32 + ∑ k : Fin n, Ideal.exp (x k - rowMax x)

def logSoftmax (x : Fin n → EReal) (j : Fin n) : EReal :=
  (x j - rowMax x) - Ideal.log (rowSumExp x)

end Cluster

def headW (W0 : (⟨2, ![20000, 1024]⟩ : Shape).Idx → EReal) (cw : (⟨2, ![3, 1024]⟩ : Shape).Idx → EReal)
    (j : Fin 20003) (k : Fin 1024) : EReal :=
  if h : j.val < 20000 then W0 (ix2 ⟨j.val, h⟩ k) else cw (ix2 ⟨j.val - 20000, by omega⟩ k)

def headB (b0 : (⟨1, ![20000]⟩ : Shape).Idx → EReal) (cb : (⟨1, ![3]⟩ : Shape).Idx → EReal) (j : Fin 20003) : EReal :=
  if h : j.val < 20000 then b0 (ix1 ⟨j.val, h⟩) else cb (ix1 ⟨j.val - 20000, by omega⟩)

def inCluster (lo hi t : BitVec 32) : BitVec 1 :=
  IntOp.andi (IntOp.cmpi .sge t lo) (IntOp.cmpi .slt t hi)

def clip (hi t : BitVec 32) : BitVec 32 :=
  IntOp.minsi hi (IntOp.maxsi 0#32 t)

def wrap (n t : BitVec 32) : BitVec 32 :=
  Scalar.select (IntOp.cmpi .slt t 0#32) (IntOp.addi t n) t

def inBounds (hi t : BitVec 32) : BitVec 1 :=
  IntOp.andi (IntOp.cmpi .sge t 0#32) (IntOp.cmpi .sle t hi)

def take {n : Nat} (hn : 0 < n) (row : Fin n → EReal) (hi t : BitVec 32) : EReal :=
  Scalar.select (inBounds hi t) (row ⟨min t.toInt.toNat (n - 1), by omega⟩) (Ideal.ofBits .f32 0x7FC00000#32)

structure Args where
  hidden : (⟨3, ![64, 8, 1024]⟩ : Shape).Idx → EReal
  target : (⟨2, ![64, 8]⟩ : Shape).Idx → BitVec 32
  clusterW : (⟨2, ![3, 1024]⟩ : Shape).Idx → EReal
  clusterB : (⟨1, ![3]⟩ : Shape).Idx → EReal
  W0 : (⟨2, ![20000, 1024]⟩ : Shape).Idx → EReal
  b0 : (⟨1, ![20000]⟩ : Shape).Idx → EReal
  P0 : (⟨2, ![1024, 1024]⟩ : Shape).Idx → EReal
  W1 : (⟨2, ![20000, 256]⟩ : Shape).Idx → EReal
  b1 : (⟨1, ![20000]⟩ : Shape).Idx → EReal
  P1 : (⟨2, ![256, 1024]⟩ : Shape).Idx → EReal
  W2 : (⟨2, ![160000, 64]⟩ : Shape).Idx → EReal
  b2 : (⟨1, ![160000]⟩ : Shape).Idx → EReal
  P2 : (⟨2, ![64, 1024]⟩ : Shape).Idx → EReal
  W3 : (⟨2, ![67735, 16]⟩ : Shape).Idx → EReal
  b3 : (⟨1, ![67735]⟩ : Shape).Idx → EReal
  P3 : (⟨2, ![16, 1024]⟩ : Shape).Idx → EReal

namespace Args

variable (A : Args)

def hid (s : Fin 64) (b : Fin 8) (d : Fin 1024) : EReal := A.hidden (ix3 s b d)

def logit0 (s : Fin 64) (b : Fin 8) (j : Fin 20003) : EReal :=
  logit A.hid (fun k d => A.P0 (ix2 k d)) (headW A.W0 A.clusterW) (headB A.b0 A.clusterB) s b j

def logit1 (s : Fin 64) (b : Fin 8) (j : Fin 20000) : EReal :=
  logit A.hid (fun k d => A.P1 (ix2 k d)) (fun j k => A.W1 (ix2 j k)) (fun j => A.b1 (ix1 j)) s b j

def logit2 (s : Fin 64) (b : Fin 8) (j : Fin 160000) : EReal :=
  logit A.hid (fun k d => A.P2 (ix2 k d)) (fun j k => A.W2 (ix2 j k)) (fun j => A.b2 (ix1 j)) s b j

def logit3 (s : Fin 64) (b : Fin 8) (j : Fin 67735) : EReal :=
  logit A.hid (fun k d => A.P3 (ix2 k d)) (fun j k => A.W3 (ix2 j k)) (fun j => A.b3 (ix1 j)) s b j

def lp0 (s : Fin 64) (b : Fin 8) (j : Fin 20003) : EReal := logSoftmax (A.logit0 s b) j

def lp1 (s : Fin 64) (b : Fin 8) (j : Fin 20000) : EReal := logSoftmax (A.logit1 s b) j

def lp2 (s : Fin 64) (b : Fin 8) (j : Fin 160000) : EReal := logSoftmax (A.logit2 s b) j

def lp3 (s : Fin 64) (b : Fin 8) (j : Fin 67735) : EReal := logSoftmax (A.logit3 s b) j

def joint1 (s : Fin 64) (b : Fin 8) (j : Fin 20000) : EReal := A.lp0 s b ⟨20000, by decide⟩ + A.lp1 s b j

def joint2 (s : Fin 64) (b : Fin 8) (j : Fin 160000) : EReal := A.lp0 s b ⟨20001, by decide⟩ + A.lp2 s b j

def joint3 (s : Fin 64) (b : Fin 8) (j : Fin 67735) : EReal := A.lp0 s b ⟨20002, by decide⟩ + A.lp3 s b j

def out : (⟨3, ![64, 8, 267735]⟩ : Shape).Idx → EReal := fun i =>
  if h0 : (i 2).val < 20000 then A.lp0 (i 0) (i 1) ⟨(i 2).val, by omega⟩
  else if h1 : (i 2).val < 40000 then A.joint1 (i 0) (i 1) ⟨(i 2).val - 20000, by omega⟩
  else if h2 : (i 2).val < 200000 then A.joint2 (i 0) (i 1) ⟨(i 2).val - 40000, by omega⟩
  else A.joint3 (i 0) (i 1) ⟨(i 2).val - 200000, by have h : (i 2).val < 267735 := (i 2).isLt; omega⟩

def tgt (s : Fin 64) (b : Fin 8) : BitVec 32 := A.target (ix2 s b)

def sel0 (s : Fin 64) (b : Fin 8) : EReal :=
  Scalar.select (inCluster 0#32 20000#32 (A.tgt s b))
    (take (by decide) (A.lp0 s b) 20002#32 (wrap 20003#32 (clip 19999#32 (A.tgt s b))))
    (Ideal.ofBits .f32 0x00000000#32)

def sel1 (s : Fin 64) (b : Fin 8) : EReal :=
  Scalar.select (inCluster 20000#32 40000#32 (A.tgt s b))
    (take (by decide) (A.joint1 s b) 19999#32 (wrap 20000#32 (clip 19999#32 (IntOp.subi (A.tgt s b) 20000#32))))
    (A.sel0 s b)

def sel2 (s : Fin 64) (b : Fin 8) : EReal :=
  Scalar.select (inCluster 40000#32 200000#32 (A.tgt s b))
    (take (by decide) (A.joint2 s b) 159999#32 (wrap 160000#32 (clip 159999#32 (IntOp.subi (A.tgt s b) 40000#32))))
    (A.sel1 s b)

def sel3 (s : Fin 64) (b : Fin 8) : EReal :=
  Scalar.select (inCluster 200000#32 267735#32 (A.tgt s b))
    (take (by decide) (A.joint3 s b) 67734#32 (wrap 67735#32 (clip 67734#32 (IntOp.subi (A.tgt s b) 200000#32))))
    (A.sel2 s b)

def lossVal : EReal :=
  Ideal.div (Ideal.ofBits .f32 0x00000000#32 + ∑ j : (⟨2, ![64, 8]⟩ : Shape).Idx, -(A.sel3 (j 0) (j 1)))
    (Ideal.ofBits .f32 0x44000000#32)

def loss : (⟨0, ![]⟩ : Shape).Idx → EReal := fun _ => A.lossVal

end Args

end AdaptiveSpec

end
-- ==== Proof.SpecReal.lean ====
import proofs.«138250_j73134703116926_1_alg».proof.Proof.Spec
import proofs.«138250_j73134703116926_1_alg».proof.Proof.LibOnlineLse
import Idealize.ShloMosaic.PureOps.Ideal.Laws

noncomputable section

open scoped BigOperators

namespace AdaptiveSpec.Real

open Idealize.ShloMosaic Idealize.ShloMosaic.ValueIdx AdaptiveSpec

section Cluster

variable {n e : Nat}

def projR (hid : Fin 64 → Fin 8 → Fin 1024 → ℝ) (P : Fin e → Fin 1024 → ℝ) (s : Fin 64) (b : Fin 8) (k : Fin e) : ℝ :=
  ∑ d : Fin 1024, hid s b d * P k d

def logitR (hid : Fin 64 → Fin 8 → Fin 1024 → ℝ) (P : Fin e → Fin 1024 → ℝ) (W : Fin n → Fin e → ℝ) (β : Fin n → ℝ)
    (s : Fin 64) (b : Fin 8) (j : Fin n) : ℝ :=
  (∑ k : Fin e, projR hid P s b k * W j k) + β j

def logSoftmaxR (y : Fin n → ℝ) (j : Fin n) : ℝ := y j - Real.log (∑ k, Real.exp (y k))

theorem ofBits_negInf : Ideal.ofBits .f32 0xFF800000#32 = (⊥ : EReal) := by
  simp [Ideal.ofBits, Ideal.ieee]

theorem proj_coe (hid : Fin 64 → Fin 8 → Fin 1024 → ℝ) (P : Fin e → Fin 1024 → ℝ) (s : Fin 64) (b : Fin 8) (k : Fin e) :
    proj (fun s b d => ((hid s b d : ℝ) : EReal)) (fun k d => ((P k d : ℝ) : EReal)) s b k
      = ((projR hid P s b k : ℝ) : EReal) := by
  unfold proj projR
  rw [LibOnlineLse.coe_sum]
  exact Finset.sum_congr rfl fun d _ => (EReal.coe_mul _ _).symm

theorem logit_coe (hid : Fin 64 → Fin 8 → Fin 1024 → ℝ) (P : Fin e → Fin 1024 → ℝ) (W : Fin n → Fin e → ℝ)
    (β : Fin n → ℝ) (s : Fin 64) (b : Fin 8) (j : Fin n) :
    logit (fun s b d => ((hid s b d : ℝ) : EReal)) (fun k d => ((P k d : ℝ) : EReal))
        (fun j k => ((W j k : ℝ) : EReal)) (fun j => ((β j : ℝ) : EReal)) s b j
      = ((logitR hid P W β s b j : ℝ) : EReal) := by
  unfold logit logitR
  rw [EReal.coe_add, LibOnlineLse.coe_sum]
  refine congrArg (· + ((β j : ℝ) : EReal)) (Finset.sum_congr rfl fun k _ => ?_)
  rw [proj_coe, EReal.coe_mul]

theorem rowMax_coe (hn : 0 < n) (y : Fin n → ℝ) :
    rowMax (fun k => ((y k : ℝ) : EReal))
      = (((LibOnlineLse.tmax fun k => ((y k : ℝ) : EReal)).toReal : ℝ) : EReal) := by
  unfold rowMax
  rw [ofBits_negInf, max_eq_right bot_le]
  exact LibOnlineLse.tmax_coe _ (fun j => EReal.coe_ne_top _) ⟨⟨0, hn⟩, EReal.coe_ne_bot _⟩

theorem logSoftmax_coe (hn : 0 < n) (y : Fin n → ℝ) (j : Fin n) :
    logSoftmax (fun k => ((y k : ℝ) : EReal)) j = ((logSoftmaxR y j : ℝ) : EReal) := by
  unfold logSoftmax rowSumExp logSoftmaxR
  rw [rowMax_coe hn y, Ideal.ofBits_zero_f32, zero_add]
  exact LibOnlineLse.ref_logsoftmax hn y _ j

end Cluster

def headWR (W0 : (⟨2, ![20000, 1024]⟩ : Shape).Idx → ℝ) (cw : (⟨2, ![3, 1024]⟩ : Shape).Idx → ℝ)
    (j : Fin 20003) (k : Fin 1024) : ℝ :=
  if h : j.val < 20000 then W0 (ix2 ⟨j.val, h⟩ k) else cw (ix2 ⟨j.val - 20000, by omega⟩ k)

def headBR (b0 : (⟨1, ![20000]⟩ : Shape).Idx → ℝ) (cb : (⟨1, ![3]⟩ : Shape).Idx → ℝ) (j : Fin 20003) : ℝ :=
  if h : j.val < 20000 then b0 (ix1 ⟨j.val, h⟩) else cb (ix1 ⟨j.val - 20000, by omega⟩)

theorem headW_coe (W0 : (⟨2, ![20000, 1024]⟩ : Shape).Idx → ℝ) (cw : (⟨2, ![3, 1024]⟩ : Shape).Idx → ℝ)
    (j : Fin 20003) (k : Fin 1024) :
    headW (fun i => ((W0 i : ℝ) : EReal)) (fun i => ((cw i : ℝ) : EReal)) j k = ((headWR W0 cw j k : ℝ) : EReal) := by
  unfold headW headWR
  by_cases h : j.val < 20000
  · rw [dif_pos h, dif_pos h]
  · rw [dif_neg h, dif_neg h]

theorem headB_coe (b0 : (⟨1, ![20000]⟩ : Shape).Idx → ℝ) (cb : (⟨1, ![3]⟩ : Shape).Idx → ℝ) (j : Fin 20003) :
    headB (fun i => ((b0 i : ℝ) : EReal)) (fun i => ((cb i : ℝ) : EReal)) j = ((headBR b0 cb j : ℝ) : EReal) := by
  unfold headB headBR
  by_cases h : j.val < 20000
  · rw [dif_pos h, dif_pos h]
  · rw [dif_neg h, dif_neg h]

structure RealOf (A : Args) where
  hidden : (⟨3, ![64, 8, 1024]⟩ : Shape).Idx → ℝ
  clusterW : (⟨2, ![3, 1024]⟩ : Shape).Idx → ℝ
  clusterB : (⟨1, ![3]⟩ : Shape).Idx → ℝ
  W0 : (⟨2, ![20000, 1024]⟩ : Shape).Idx → ℝ
  b0 : (⟨1, ![20000]⟩ : Shape).Idx → ℝ
  P0 : (⟨2, ![1024, 1024]⟩ : Shape).Idx → ℝ
  W1 : (⟨2, ![20000, 256]⟩ : Shape).Idx → ℝ
  b1 : (⟨1, ![20000]⟩ : Shape).Idx → ℝ
  P1 : (⟨2, ![256, 1024]⟩ : Shape).Idx → ℝ
  W2 : (⟨2, ![160000, 64]⟩ : Shape).Idx → ℝ
  b2 : (⟨1, ![160000]⟩ : Shape).Idx → ℝ
  P2 : (⟨2, ![64, 1024]⟩ : Shape).Idx → ℝ
  W3 : (⟨2, ![67735, 16]⟩ : Shape).Idx → ℝ
  b3 : (⟨1, ![67735]⟩ : Shape).Idx → ℝ
  P3 : (⟨2, ![16, 1024]⟩ : Shape).Idx → ℝ
  hidden_eq : A.hidden = fun i => ((hidden i : ℝ) : EReal)
  clusterW_eq : A.clusterW = fun i => ((clusterW i : ℝ) : EReal)
  clusterB_eq : A.clusterB = fun i => ((clusterB i : ℝ) : EReal)
  W0_eq : A.W0 = fun i => ((W0 i : ℝ) : EReal)
  b0_eq : A.b0 = fun i => ((b0 i : ℝ) : EReal)
  P0_eq : A.P0 = fun i => ((P0 i : ℝ) : EReal)
  W1_eq : A.W1 = fun i => ((W1 i : ℝ) : EReal)
  b1_eq : A.b1 = fun i => ((b1 i : ℝ) : EReal)
  P1_eq : A.P1 = fun i => ((P1 i : ℝ) : EReal)
  W2_eq : A.W2 = fun i => ((W2 i : ℝ) : EReal)
  b2_eq : A.b2 = fun i => ((b2 i : ℝ) : EReal)
  P2_eq : A.P2 = fun i => ((P2 i : ℝ) : EReal)
  W3_eq : A.W3 = fun i => ((W3 i : ℝ) : EReal)
  b3_eq : A.b3 = fun i => ((b3 i : ℝ) : EReal)
  P3_eq : A.P3 = fun i => ((P3 i : ℝ) : EReal)

theorem RealOf.of_exists (A : Args)
    (h_hidden : ∃ f : (⟨3, ![64, 8, 1024]⟩ : Shape).Idx → ℝ, A.hidden = fun i => ((f i : ℝ) : EReal))
    (h_clusterW : ∃ f : (⟨2, ![3, 1024]⟩ : Shape).Idx → ℝ, A.clusterW = fun i => ((f i : ℝ) : EReal))
    (h_clusterB : ∃ f : (⟨1, ![3]⟩ : Shape).Idx → ℝ, A.clusterB = fun i => ((f i : ℝ) : EReal))
    (h_W0 : ∃ f : (⟨2, ![20000, 1024]⟩ : Shape).Idx → ℝ, A.W0 = fun i => ((f i : ℝ) : EReal))
    (h_b0 : ∃ f : (⟨1, ![20000]⟩ : Shape).Idx → ℝ, A.b0 = fun i => ((f i : ℝ) : EReal))
    (h_P0 : ∃ f : (⟨2, ![1024, 1024]⟩ : Shape).Idx → ℝ, A.P0 = fun i => ((f i : ℝ) : EReal))
    (h_W1 : ∃ f : (⟨2, ![20000, 256]⟩ : Shape).Idx → ℝ, A.W1 = fun i => ((f i : ℝ) : EReal))
    (h_b1 : ∃ f : (⟨1, ![20000]⟩ : Shape).Idx → ℝ, A.b1 = fun i => ((f i : ℝ) : EReal))
    (h_P1 : ∃ f : (⟨2, ![256, 1024]⟩ : Shape).Idx → ℝ, A.P1 = fun i => ((f i : ℝ) : EReal))
    (h_W2 : ∃ f : (⟨2, ![160000, 64]⟩ : Shape).Idx → ℝ, A.W2 = fun i => ((f i : ℝ) : EReal))
    (h_b2 : ∃ f : (⟨1, ![160000]⟩ : Shape).Idx → ℝ, A.b2 = fun i => ((f i : ℝ) : EReal))
    (h_P2 : ∃ f : (⟨2, ![64, 1024]⟩ : Shape).Idx → ℝ, A.P2 = fun i => ((f i : ℝ) : EReal))
    (h_W3 : ∃ f : (⟨2, ![67735, 16]⟩ : Shape).Idx → ℝ, A.W3 = fun i => ((f i : ℝ) : EReal))
    (h_b3 : ∃ f : (⟨1, ![67735]⟩ : Shape).Idx → ℝ, A.b3 = fun i => ((f i : ℝ) : EReal))
    (h_P3 : ∃ f : (⟨2, ![16, 1024]⟩ : Shape).Idx → ℝ, A.P3 = fun i => ((f i : ℝ) : EReal)) :
    Nonempty (RealOf A) := by
  obtain ⟨f1, e1⟩ := h_hidden
  obtain ⟨f2, e2⟩ := h_clusterW
  obtain ⟨f3, e3⟩ := h_clusterB
  obtain ⟨f4, e4⟩ := h_W0
  obtain ⟨f5, e5⟩ := h_b0
  obtain ⟨f6, e6⟩ := h_P0
  obtain ⟨f7, e7⟩ := h_W1
  obtain ⟨f8, e8⟩ := h_b1
  obtain ⟨f9, e9⟩ := h_P1
  obtain ⟨f10, e10⟩ := h_W2
  obtain ⟨f11, e11⟩ := h_b2
  obtain ⟨f12, e12⟩ := h_P2
  obtain ⟨f13, e13⟩ := h_W3
  obtain ⟨f14, e14⟩ := h_b3
  obtain ⟨f15, e15⟩ := h_P3
  exact ⟨⟨f1, f2, f3, f4, f5, f6, f7, f8, f9, f10, f11, f12, f13, f14, f15,
    e1, e2, e3, e4, e5, e6, e7, e8, e9, e10, e11, e12, e13, e14, e15⟩⟩

namespace RealOf

variable {A : Args} (R : RealOf A)

def hid (s : Fin 64) (b : Fin 8) (d : Fin 1024) : ℝ := R.hidden (ix3 s b d)

def y0 (s : Fin 64) (b : Fin 8) (j : Fin 20003) : ℝ :=
  logitR R.hid (fun k d => R.P0 (ix2 k d)) (headWR R.W0 R.clusterW) (headBR R.b0 R.clusterB) s b j

def y1 (s : Fin 64) (b : Fin 8) (j : Fin 20000) : ℝ :=
  logitR R.hid (fun k d => R.P1 (ix2 k d)) (fun j k => R.W1 (ix2 j k)) (fun j => R.b1 (ix1 j)) s b j

def y2 (s : Fin 64) (b : Fin 8) (j : Fin 160000) : ℝ :=
  logitR R.hid (fun k d => R.P2 (ix2 k d)) (fun j k => R.W2 (ix2 j k)) (fun j => R.b2 (ix1 j)) s b j

def y3 (s : Fin 64) (b : Fin 8) (j : Fin 67735) : ℝ :=
  logitR R.hid (fun k d => R.P3 (ix2 k d)) (fun j k => R.W3 (ix2 j k)) (fun j => R.b3 (ix1 j)) s b j

def lp0R (s : Fin 64) (b : Fin 8) (j : Fin 20003) : ℝ := logSoftmaxR (R.y0 s b) j

def lp1R (s : Fin 64) (b : Fin 8) (j : Fin 20000) : ℝ := logSoftmaxR (R.y1 s b) j

def lp2R (s : Fin 64) (b : Fin 8) (j : Fin 160000) : ℝ := logSoftmaxR (R.y2 s b) j

def lp3R (s : Fin 64) (b : Fin 8) (j : Fin 67735) : ℝ := logSoftmaxR (R.y3 s b) j

def joint1R (s : Fin 64) (b : Fin 8) (j : Fin 20000) : ℝ := R.lp0R s b ⟨20000, by decide⟩ + R.lp1R s b j

def joint2R (s : Fin 64) (b : Fin 8) (j : Fin 160000) : ℝ := R.lp0R s b ⟨20001, by decide⟩ + R.lp2R s b j

def joint3R (s : Fin 64) (b : Fin 8) (j : Fin 67735) : ℝ := R.lp0R s b ⟨20002, by decide⟩ + R.lp3R s b j

def outR : (⟨3, ![64, 8, 267735]⟩ : Shape).Idx → ℝ := fun i =>
  if h0 : (i 2).val < 20000 then R.lp0R (i 0) (i 1) ⟨(i 2).val, by omega⟩
  else if h1 : (i 2).val < 40000 then R.joint1R (i 0) (i 1) ⟨(i 2).val - 20000, by omega⟩
  else if h2 : (i 2).val < 200000 then R.joint2R (i 0) (i 1) ⟨(i 2).val - 40000, by omega⟩
  else R.joint3R (i 0) (i 1) ⟨(i 2).val - 200000, by have h : (i 2).val < 267735 := (i 2).isLt; omega⟩

theorem hid_eq : A.hid = fun s b d => ((R.hid s b d : ℝ) : EReal) := by
  funext s b d
  unfold Args.hid hid
  rw [R.hidden_eq]

theorem headW_eq : headW A.W0 A.clusterW = fun j k => ((headWR R.W0 R.clusterW j k : ℝ) : EReal) := by
  funext j k
  rw [R.W0_eq, R.clusterW_eq]
  exact headW_coe _ _ j k

theorem headB_eq : headB A.b0 A.clusterB = fun j => ((headBR R.b0 R.clusterB j : ℝ) : EReal) := by
  funext j
  rw [R.b0_eq, R.clusterB_eq]
  exact headB_coe _ _ j

theorem logit0_eq (s : Fin 64) (b : Fin 8) : A.logit0 s b = fun j => ((R.y0 s b j : ℝ) : EReal) := by
  funext j
  unfold Args.logit0 y0
  rw [R.hid_eq, R.headW_eq, R.headB_eq, R.P0_eq]
  exact logit_coe R.hid (fun k d => R.P0 (ix2 k d)) _ _ s b j
theorem logit1_eq (s : Fin 64) (b : Fin 8) : A.logit1 s b = fun j => ((R.y1 s b j : ℝ) : EReal) := by
  funext j
  unfold Args.logit1 y1
  rw [R.hid_eq, R.P1_eq, R.W1_eq, R.b1_eq]
  exact logit_coe R.hid (fun k d => R.P1 (ix2 k d)) (fun j k => R.W1 (ix2 j k)) (fun j => R.b1 (ix1 j)) s b j
theorem logit2_eq (s : Fin 64) (b : Fin 8) : A.logit2 s b = fun j => ((R.y2 s b j : ℝ) : EReal) := by
  funext j
  unfold Args.logit2 y2
  rw [R.hid_eq, R.P2_eq, R.W2_eq, R.b2_eq]
  exact logit_coe R.hid (fun k d => R.P2 (ix2 k d)) (fun j k => R.W2 (ix2 j k)) (fun j => R.b2 (ix1 j)) s b j
theorem logit3_eq (s : Fin 64) (b : Fin 8) : A.logit3 s b = fun j => ((R.y3 s b j : ℝ) : EReal) := by
  funext j
  unfold Args.logit3 y3
  rw [R.hid_eq, R.P3_eq, R.W3_eq, R.b3_eq]
  exact logit_coe R.hid (fun k d => R.P3 (ix2 k d)) (fun j k => R.W3 (ix2 j k)) (fun j => R.b3 (ix1 j)) s b j

theorem lp0_eq (s : Fin 64) (b : Fin 8) (j : Fin 20003) : A.lp0 s b j = ((R.lp0R s b j : ℝ) : EReal) := by
  unfold Args.lp0 lp0R
  rw [R.logit0_eq]
  exact logSoftmax_coe (by decide) _ j
theorem lp1_eq (s : Fin 64) (b : Fin 8) (j : Fin 20000) : A.lp1 s b j = ((R.lp1R s b j : ℝ) : EReal) := by
  unfold Args.lp1 lp1R
  rw [R.logit1_eq]
  exact logSoftmax_coe (by decide) _ j
theorem lp2_eq (s : Fin 64) (b : Fin 8) (j : Fin 160000) : A.lp2 s b j = ((R.lp2R s b j : ℝ) : EReal) := by
  unfold Args.lp2 lp2R
  rw [R.logit2_eq]
  exact logSoftmax_coe (by decide) _ j
theorem lp3_eq (s : Fin 64) (b : Fin 8) (j : Fin 67735) : A.lp3 s b j = ((R.lp3R s b j : ℝ) : EReal) := by
  unfold Args.lp3 lp3R
  rw [R.logit3_eq]
  exact logSoftmax_coe (by decide) _ j

theorem joint1_eq (s : Fin 64) (b : Fin 8) (j : Fin 20000) : A.joint1 s b j = ((R.joint1R s b j : ℝ) : EReal) := by
  unfold Args.joint1 joint1R
  rw [R.lp0_eq, R.lp1_eq, EReal.coe_add]
theorem joint2_eq (s : Fin 64) (b : Fin 8) (j : Fin 160000) : A.joint2 s b j = ((R.joint2R s b j : ℝ) : EReal) := by
  unfold Args.joint2 joint2R
  rw [R.lp0_eq, R.lp2_eq, EReal.coe_add]
theorem joint3_eq (s : Fin 64) (b : Fin 8) (j : Fin 67735) : A.joint3 s b j = ((R.joint3R s b j : ℝ) : EReal) := by
  unfold Args.joint3 joint3R
  rw [R.lp0_eq, R.lp3_eq, EReal.coe_add]

end RealOf

end AdaptiveSpec.Real

end
-- ==== Proof.IdealStatsData0.lean ====
import proofs.«138250_j73134703116926_1_alg».proof.Proof.IdealStatsValue
import proofs.«138250_j73134703116926_1_alg».proof.Proof.TripleStats0
import proofs.«138250_j73134703116926_1_alg».proof.Proof.SpecReal

noncomputable section

namespace Cert.KernelIdeal.StatsValue

open Idealize.ShloMosaic Idealize.ShloMosaic.ValueIdx Cert.KernelIdeal Cert.KernelIdeal.Gen Cert.KernelIdeal.Triples
open Idealize.ShloMosaic.Pipeline (Window)
open scoped BigOperators

-- Where the transfer moves an entry, a filled-out block reads the block and never the filler.
theorem fill_moved {sg : RefSig} {G : Pipeline.Grid} (w : Window sg G) {α : Type} (i : G.Coords) (d d' : w.block.Idx → α)
    (g : (w.xblock i).Idx → α) {j : w.block.Idx} (h : w.moved i j = true) : w.fill i d g j = w.fill i d' g j := by
  unfold Window.fill; rw [dif_pos h, dif_pos h]

-- A family of tiles over the points of a grid as a sequence (zero past the last point).
def tileSeq {N : ℕ} {S : Shape} (X : Fin N → Vec Ideal S .f32) (t : ℕ) : Vec Ideal S .f32 :=
  if h : t < N then X ⟨t, h⟩ else fun _ => (0 : EReal)

theorem coords0_val : ∀ t : Fin grid0.N, ((grid0.coords t) 0).val = t.val := by decide +kernel

theorem xsize0_1 : ∀ t : Fin grid0.N, win0_1.xsize (grid0.coords t) 0 = min 2048 (20003 - t.val * 2048)
    ∧ win0_1.xsize (grid0.coords t) 1 = 1024 := by decide +kernel

theorem xsize0_2 : ∀ t : Fin grid0.N, win0_2.xsize (grid0.coords t) 0 = min 2048 (20003 - t.val * 2048) := by decide +kernel

-- The buffers are read through the first branch: reset at the first point, as found otherwise.
theorem mIn_eq (t : Fin grid0.N) (f : Vec Ideal S512x1 .f32) :
    stats0_mIn (grid0.coords t) f = if t.val = 0 then k0_pay4 (F := Ideal) else f := if_congr (k0_cond1_iff t) rfl rfl
theorem lIn_eq (t : Fin grid0.N) (f : Vec Ideal S512x1 .f32) :
    stats0_lIn (grid0.coords t) f = if t.val = 0 then k0_pay5 (F := Ideal) else f := if_congr (k0_cond1_iff t) rfl rfl

-- The merged maximum and sum depend neither on the filler (its columns are masked) nor, at the first point, on the buffers found.
theorem stats0_pad (t : Fin grid0.N) (X0 : Vec Ideal S512x1024 .f32)
    (b1 : (win0_1.xblock (grid0.coords t)).Idx → Elt Ideal .f32) (b2 : (win0_2.xblock (grid0.coords t)).Idx → Elt Ideal .f32)
    (d1 d1' : Vec Ideal S2048x1024 .f32) (d2 d2' : Vec Ideal S2048 .f32) (f0 f0' f1 f1' : Vec Ideal S512x1 .f32)
    (hf : t.val ≠ 0 → f0 = f0' ∧ f1 = f1') :
    stats0_m (grid0.coords t) X0 (win0_1.fill (grid0.coords t) d1 b1) (win0_2.fill (grid0.coords t) d2 b2) f0
      = stats0_m (grid0.coords t) X0 (win0_1.fill (grid0.coords t) d1' b1) (win0_2.fill (grid0.coords t) d2' b2) f0'
    ∧ stats0_l (grid0.coords t) X0 (win0_1.fill (grid0.coords t) d1 b1) (win0_2.fill (grid0.coords t) d2 b2) f0 f1
      = stats0_l (grid0.coords t) X0 (win0_1.fill (grid0.coords t) d1' b1) (win0_2.fill (grid0.coords t) d2' b2) f0' f1' := by
  have ha : AgreeOn ((grid0.coords t) 0).val (win0_1.fill (grid0.coords t) d1 b1) (win0_1.fill (grid0.coords t) d1' b1)
      (win0_2.fill (grid0.coords t) d2 b2) (win0_2.fill (grid0.coords t) d2' b2) := by
    intro j hj
    rw [coords0_val t] at hj
    have hj' := j.isLt
    refine ⟨fun k => fill_moved _ _ _ _ _ ((win0_1.moved_iff _ _).mpr fun a => ?_),
      fill_moved _ _ _ _ _ ((win0_2.moved_iff _ _).mpr fun a => ?_)⟩
    · match a with
      | ⟨0, _⟩ => show j.val < win0_1.xsize (grid0.coords t) 0; rw [(xsize0_1 t).1]; omega
      | ⟨1, _⟩ => show k.val < win0_1.xsize (grid0.coords t) 1; rw [(xsize0_1 t).2]; exact k.isLt
    · match a with
      | ⟨0, _⟩ => show j.val < win0_2.xsize (grid0.coords t) 0; rw [xsize0_2 t]; omega
  unfold stats0_m stats0_l
  rw [pay8_congr (grid0.coords t) X0 _ _ _ _ _ ha, pay9_congr (grid0.coords t) X0 _ _ _ _ _ _ ha]
  by_cases h : t.val = 0
  · simp only [mIn_eq, lIn_eq, if_pos h, and_self]
  · rw [(hf h).1, (hf h).2]; exact ⟨rfl, rfl⟩

def foundM (ml : ℕ → Vec Ideal S512x1 .f32 × Vec Ideal S512x1 .f32) (t : ℕ) : Vec Ideal S512x1 .f32 :=
  if t = 0 then k0_pay4 (F := Ideal) else (ml t).1

def foundL (ml : ℕ → Vec Ideal S512x1 .f32 × Vec Ideal S512x1 .f32) (t : ℕ) : Vec Ideal S512x1 .f32 :=
  if t = 0 then k0_pay5 (F := Ideal) else (ml t).2

-- What the points find in the buffers runs through the payloads' own recurrence.
theorem found_succ (X0 : Vec Ideal S512x1024 .f32) (X1 : Fin grid0.N → Vec Ideal S2048x1024 .f32)
    (X2 : Fin grid0.N → Vec Ideal S2048 .f32) (ml : ℕ → Vec Ideal S512x1 .f32 × Vec Ideal S512x1 .f32)
    (t : Fin grid0.N)
    (hml : ml (t.val + 1) = (stats0_scr0 (grid0.coords t) X0 (X1 t) (X2 t) (ml t.val).1,
      stats0_scr1 (grid0.coords t) X0 (X1 t) (X2 t) (ml t.val).1 (ml t.val).2)) :
    foundM ml (t.val + 1) = k0_pay8 (F := Ideal) (grid0.coords t) X0 (X1 t) (X2 t) (foundM ml t.val)
    ∧ foundL ml (t.val + 1) = k0_pay9 (F := Ideal) (grid0.coords t) X0 (X1 t) (X2 t) (foundM ml t.val) (foundL ml t.val) := by
  unfold foundM foundL
  rw [if_neg (Nat.succ_ne_zero _), if_neg (Nat.succ_ne_zero _), hml]
  refine ⟨?_, ?_⟩
  · show k0_pay1 (F := Ideal) (stats0_m (grid0.coords t) X0 (X1 t) (X2 t) (ml t.val).1) = _
    rw [pay1_eq]; unfold stats0_m; rw [mIn_eq]
  · show k0_pay2 (F := Ideal) (stats0_l (grid0.coords t) X0 (X1 t) (X2 t) (ml t.val).1 (ml t.val).2) = _
    rw [pay2_eq]; unfold stats0_l; rw [mIn_eq, lIn_eq]

section Spec
open AdaptiveSpec AdaptiveSpec.Real

variable {A : AdaptiveSpec.Args} (R : AdaptiveSpec.Real.RealOf A)

def rowS (r : Fin 512) : Fin 64 := ⟨r.val / 8, by omega⟩
def rowB (r : Fin 512) : Fin 8 := ⟨r.val % 8, by omega⟩

-- The arrays hold the coercions of the head's real projections, weights and bias: the merges run the online recurrence over the real logits.
theorem stats0_out_spec
    (X0 : Fin grid0.N → Vec Ideal S512x1024 .f32) (X1 : Fin grid0.N → Vec Ideal S2048x1024 .f32)
    (X2 : Fin grid0.N → Vec Ideal S2048 .f32) (X3 : Vec Ideal S512x1 .f32)
    (ml : ℕ → Vec Ideal S512x1 .f32 × Vec Ideal S512x1 .f32)
    (hml : ∀ t : Fin grid0.N, ml (t.val + 1) = (stats0_scr0 (grid0.coords t) (X0 t) (X1 t) (X2 t) (ml t.val).1,
      stats0_scr1 (grid0.coords t) (X0 t) (X1 t) (X2 t) (ml t.val).1 (ml t.val).2))
    (h0 : ∀ (t : Fin grid0.N) (r : Fin 512) (k : Fin 1024),
      X0 t (ix2 r k) = AdaptiveSpec.proj A.hid (fun k d => A.P0 (ix2 k d)) (rowS r) (rowB r) k)
    (h1 : ∀ (t : Fin grid0.N) (j : Fin 2048) (k : Fin 1024) (h : t.val * 2048 + j.val < 20003),
      X1 t (ix2 j k) = headW A.W0 A.clusterW ⟨t.val * 2048 + j.val, h⟩ k)
    (h2 : ∀ (t : Fin grid0.N) (j : Fin 2048) (h : t.val * 2048 + j.val < 20003),
      X2 t (ix1 j) = headB A.b0 A.clusterB ⟨t.val * 2048 + j.val, h⟩)
    (t9 : Fin grid0.N) (h9 : t9.val = 9) (r : Fin 512) (c : Fin 1) :
    stats0_out (grid0.coords t9) (X0 t9) (X1 t9) (X2 t9) X3 (ml 9).1 (ml 9).2 (ix2 r c)
      = ((Real.log (∑ j : Fin 20003, Real.exp (R.y0 (rowS r) (rowB r) j)) : ℝ) : EReal) := by
  have hN : grid0.N = 10 := by decide
  have hlt : ∀ t j, t * 2048 + j < 20003 → t < grid0.N := fun t j h => by rw [hN]; omega
  have hp : ∀ t (r : Fin 512) (k : Fin 1024),
      X0 t (ix2 r k) = ((projR R.hid (fun k d => R.P0 (ix2 k d)) (rowS r) (rowB r) k : ℝ) : EReal) := fun t r k => by
    rw [h0, R.hid_eq, R.P0_eq]; exact proj_coe R.hid (fun k d => R.P0 (ix2 k d)) (rowS r) (rowB r) k
  have hX0 : ∀ t, X0 t = X0 t9 := fun t => funext fun x => by
    obtain ⟨r, k, rfl⟩ : ∃ (r : Fin 512) (k : Fin 1024), x = ix2 r k := ⟨x 0, x 1, eq_ix2 x⟩
    rw [hp t r k, hp t9 r k]
  have hfold := stats_lse _ (headWR R.W0 R.clusterW) (headBR R.b0 R.clusterB) (X0 t9) (tileSeq X1) (tileSeq X2) (hp t9)
    (fun t j k h => by rw [show tileSeq X1 t = X1 ⟨t, hlt t _ h⟩ from dif_pos _, h1 ⟨t, hlt t _ h⟩ j k h, R.headW_eq])
    (fun t j h => by rw [show tileSeq X2 t = X2 ⟨t, hlt t _ h⟩ from dif_pos _, h2 ⟨t, hlt t _ h⟩ j h, R.headB_eq])
    (foundM ml) (foundL ml) rfl rfl (fun t ht => by
      have htN : t < grid0.N := hN ▸ ht
      rw [show tileSeq X1 t = X1 ⟨t, htN⟩ from dif_pos htN, show tileSeq X2 t = X2 ⟨t, htN⟩ from dif_pos htN]
      exact ⟨grid0.coords ⟨t, htN⟩, coords0_val ⟨t, htN⟩,
        found_succ (X0 t9) X1 X2 ml ⟨t, htN⟩ (by rw [← hX0 ⟨t, htN⟩]; exact hml ⟨t, htN⟩)⟩) r c
  have hlast := found_succ (X0 t9) X1 X2 ml t9 (hml t9)
  have hm : stats0_mIn (grid0.coords t9) (ml 9).1 = foundM ml 9 := by rw [mIn_eq, h9]; rfl
  have hl : stats0_lIn (grid0.coords t9) (ml 9).2 = foundL ml 9 := by rw [lIn_eq, h9]; rfl
  rw [h9] at hlast
  unfold stats0_out
  rw [if_pos ((k0_cond2_iff t9).mpr h9)]
  unfold stats0_m stats0_l
  rw [hm, hl, ← hlast.1, ← hlast.2]
  exact hfold

end Spec

end Cert.KernelIdeal.StatsValue
-- ==== Proof.IdealStats0.lean ====
import proofs.«138250_j73134703116926_1_alg».proof.Proof.IdealBase
import proofs.«138250_j73134703116926_1_alg».proof.Proof.IdealStatsData0
import Idealize.ShloMosaic.Lib.Pipeline.RegionsLoop

set_option maxRecDepth 1656

noncomputable section

namespace Cert.KernelIdeal.IdealData
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.ShloMosaic.Pipeline (Dat BodyObligationLoose)
open Cert.KernelIdeal.Triples Cert.KernelIdeal.StatsValue
local notation "𝕀" => Idealize.ShloMosaic.Ideal
local notation "𝕄" => MT nD τ sig Unit (Elt 𝕀) ℕ (UR sig nD τ) ℕ

section R0
variable (V : VT)

def iblk0 (c : Dev nD) (w : Fin cfg0.W) (t : Fin cfg0.N) : ((cfg0.win w).xblock (cfg0.grid.coords t)).Idx → Elt 𝕀 (cfg0.win w).elt :=
  ((cfg0.win w).blk t).view.read (Elt 𝕀) (V c (Pipeline.arrRef spec0 w))

def x0_0 (c : Dev nD) (t : Fin cfg0.N) : Vec 𝕀 S512x1024 .f32 := iblk0 V c 0 t
def x0_1 (c : Dev nD) (t : Fin cfg0.N) : Vec 𝕀 S2048x1024 .f32 := win0_1.fill (grid0.coords t) (fun _ => pad) (iblk0 V c 1 t)
def x0_2 (c : Dev nD) (t : Fin cfg0.N) : Vec 𝕀 S2048 .f32 := win0_2.fill (grid0.coords t) (fun _ => pad) (iblk0 V c 2 t)

-- The running maximum and sum before point n: the recursion through the kernel's own merge (the value at 0 is never read).
def ml0 (c : Dev nD) : ℕ → Vec 𝕀 S512x1 .f32 × Vec 𝕀 S512x1 .f32
  | 0 => (fun _ => pad, fun _ => pad)
  | n + 1 =>
    if h : n < grid0.N then
      (stats0_scr0 (grid0.coords ⟨n, h⟩) (x0_0 V c ⟨n, h⟩) (x0_1 V c ⟨n, h⟩) (x0_2 V c ⟨n, h⟩) (ml0 c n).1,
       stats0_scr1 (grid0.coords ⟨n, h⟩) (x0_0 V c ⟨n, h⟩) (x0_1 V c ⟨n, h⟩) (x0_2 V c ⟨n, h⟩) (ml0 c n).1 (ml0 c n).2)
    else ml0 c n

def lse0 (c : Dev nD) (t : Fin cfg0.N) : Vec 𝕀 S512x1 .f32 :=
  k0_pay3 (stats0_m (grid0.coords t) (x0_0 V c t) (x0_1 V c t) (x0_2 V c t) (ml0 V c t.val).1)
    (stats0_l (grid0.coords t) (x0_0 V c t) (x0_1 V c t) (x0_2 V c t) (ml0 V c t.val).1 (ml0 V c t.val).2)

abbrev scrA0 : Memref sig .tc .vmem S512x1 .f32 := Memref.whole cc0_scratch0
abbrev scrB0 : Memref sig .tc .vmem S512x1 .f32 := Memref.whole cc0_scratch1
abbrev restBut0 (c : Dev nD) : sProp 𝕄 :=
  Pipeline.scopedRestBut (Ix := Unit) (Name := ℕ) (U := UR sig nD τ) (Lvl := ℕ) (Val := Elt 𝕀) spec0 c [cc0_scratch0, cc0_scratch1]

-- Between points the two column buffers hold the recursion's values.
def Φ0 (c : Dev nD) (t : Fin (cfg0.N + 1)) : sProp 𝕄 :=
  if t.val = 0 then Pipeline.ΦA spec0 c
  else iprop((owns (c : Thread nD τ) scrA0 fullShare (ml0 V c t.val).1 ∗ owns (c : Thread nD τ) scrB0 fullShare (ml0 V c t.val).2)
    ∗ restBut0 c ∗ ∃ r, prngReg c r)

def dat0 (c : Dev nD) : Dat τ (Elt 𝕀) Unit ℕ (UR sig nD τ) ℕ cfg0 c where
  A w := V c (Pipeline.arrRef spec0 w)
  after w t := match w with
    | ⟨0, _⟩ => x0_0 V c t
    | ⟨1, _⟩ => x0_1 V c t
    | ⟨2, _⟩ => x0_2 V c t
    | ⟨3, _⟩ => lse0 V c t
  Φ t := Φ0 V c t
  q _ := fullShare
  owed _ := 0

theorem A_eq0 (c : Dev nD) (w : Fin cfg0.W) : (dat0 V c).A w = V c (Pipeline.arrRef spec0 w) := rfl
theorem after0_0 (c : Dev nD) (t : Fin cfg0.N) : (dat0 V c).after 0 t = x0_0 V c t := rfl
theorem after0_1 (c : Dev nD) (t : Fin cfg0.N) : (dat0 V c).after 1 t = x0_1 V c t := rfl
theorem after0_2 (c : Dev nD) (t : Fin cfg0.N) : (dat0 V c).after 2 t = x0_2 V c t := rfl
theorem after0_3 (c : Dev nD) (t : Fin cfg0.N) : (dat0 V c).after 3 t = lse0 V c t := rfl

theorem before0_0 (c : Dev nD) (t : Fin cfg0.N) (d) : (dat0 V c).before 0 t d = x0_0 V c t :=
  ((dat0 V c).before_in_eq_fetched 0 rfl (fun _ => rfl) (fun _ _ _ => rfl)
    (fun t => by rw [after0_0]; unfold Dat.blockOf x0_0 iblk0; rw [A_eq0]; try rfl) t d).trans
    (by unfold Dat.fetched Dat.blockOf x0_0 iblk0; rw [A_eq0]; try rfl)
theorem before0_1 (c : Dev nD) (t : Fin cfg0.N) (d) :
    (dat0 V c).before 1 t d = win0_1.fill (grid0.coords t) d (iblk0 V c 1 t) := by
  unfold Dat.before; rw [if_pos (fetch0_1 t)]; rfl
theorem before0_2 (c : Dev nD) (t : Fin cfg0.N) (d) :
    (dat0 V c).before 2 t d = win0_2.fill (grid0.coords t) d (iblk0 V c 2 t) := by
  unfold Dat.before; rw [if_pos (fetch0_2 t)]; rfl

theorem ml0_succ (c : Dev nD) (t : Fin grid0.N) : ml0 V c (t.val + 1)
    = (stats0_scr0 (grid0.coords t) (x0_0 V c t) (x0_1 V c t) (x0_2 V c t) (ml0 V c t.val).1,
       stats0_scr1 (grid0.coords t) (x0_0 V c t) (x0_1 V c t) (x0_2 V c t) (ml0 V c t.val).1 (ml0 V c t.val).2) := by
  rw [ml0, dif_pos t.isLt]

theorem sched0_3 : ∀ t : Fin grid0.N, (t.val = 9 → idle0 3 (grid0.coords t) = false)
    ∧ (t.val ≠ 9 → idle0 3 (grid0.coords t) = true ∧ (win0 3).flush t = false) := by decide +kernel

-- The invariant before point t, opened: the column buffers at some contents, the recursion's after the first point.
theorem Φ0_open (c : Dev nD) (t : Fin cfg0.N) : (dat0 V c).Φ t.castSucc
    ⊢ (iprop(∃ f0 f1, ⌜t.val ≠ 0 → f0 = (ml0 V c t.val).1 ∧ f1 = (ml0 V c t.val).2⌝
        ∗ owns (c : Thread nD τ) scrA0 fullShare f0 ∗ owns (c : Thread nD τ) scrB0 fullShare f1
        ∗ restBut0 c ∗ ∃ r, prngReg c r) : sProp 𝕄) := by
  show Φ0 V c t.castSucc ⊢ _
  unfold Φ0
  rw [Fin.coe_castSucc]
  by_cases h : t.val = 0
  · rw [if_pos h]
    unfold Pipeline.ΦA; rw [scopedRest0_split]
    iintro ⟨⟨⟨⟨%f0, H0⟩, ⟨%f1, H1⟩⟩, Hr⟩, Hp⟩
    iexists f0; iexists f1
    isplitr; · ipureintro; exact fun h' => absurd h h'
    rw [owns_whole, owns_whole]
    iframe
  · rw [if_neg h]
    iintro ⟨⟨H0, H1⟩, Hr, Hp⟩
    iexists _; iexists _
    isplitr; · ipureintro; exact fun _ => ⟨rfl, rfl⟩
    iframe

theorem Φ0_close (c : Dev nD) (t : Fin cfg0.N) :
    (iprop(owns (c : Thread nD τ) scrA0 fullShare (ml0 V c (t.val + 1)).1 ∗ owns (c : Thread nD τ) scrB0 fullShare (ml0 V c (t.val + 1)).2
        ∗ restBut0 c ∗ ∃ r, prngReg c r) : sProp 𝕄) ⊢ (dat0 V c).Φ t.succ := by
  show _ ⊢ Φ0 V c t.succ
  unfold Φ0
  rw [Fin.val_succ, if_neg (Nat.succ_ne_zero _)]
  iintro ⟨H0, H1, Hr, Hp⟩
  iframe

theorem body_obligation0 (c : Dev nD) : BodyObligationLoose (dat0 V c) (defs₀ (F := 𝕀)) Variants.none () Set.univ := fun t => by
  rw [bigSep_W0, bigSep_W0]
  simp only
  rw [show (dat0 V c).owesAt () t.succ = (dat0 V c).owesAt () t.castSucc from rfl, after0_0, after0_1, after0_2]
  refine (sep_mono (Φ0_open V c t) .rfl).trans ?_
  iintro ⟨⟨%f0, %f1, %hf, Hs0, Hs1, Hr, Hp⟩, Ho, ⟨%d0, H0⟩, ⟨%d1, H1⟩, ⟨%d2, H2⟩, ⟨%d3, H3⟩⟩
  rw [before0_0 V c t d0, before0_1 V c t d1, before0_2 V c t d2]
  iapply (triple_stats0 (F := 𝕀) Variants.none c Set.univ (grid0.coords t) _ _ _ _ _ _ _ _ _ _ _ _
    (x0_0 V c t) (win0_1.fill (grid0.coords t) d1 (iblk0 V c 1 t)) (win0_2.fill (grid0.coords t) d2 (iblk0 V c 2 t))
    ((dat0 V c).before 3 t d3) f0 f1 _)
  isplitl [H0 H1 H2 H3 Hs0 Hs1]
  · iframe
  iintro ⟨H0, H1, H2, H3, Hs0, Hs1⟩
  obtain ⟨hm, hl⟩ := stats0_pad t (x0_0 V c t) (iblk0 V c 1 t) (iblk0 V c 2 t) d1 (fun _ => pad) d2 (fun _ => pad) f0 _ f1 _ hf
  isplitl [Hs0 Hs1 Hr Hp]
  · iapply (Φ0_close V c t)
    rw [ml0_succ V c t]
    unfold stats0_scr0 stats0_scr1 x0_1 x0_2 at *
    rw [hm, hl]
    iframe
  iframe Ho H0
  isplitl [H1]
  · iexists d1; unfold x0_1; rw [(win0 1).cut_fill]; iexact H1
  isplitl [H2]
  · iexists d2; unfold x0_2; rw [(win0 2).cut_fill]; iexact H2
  by_cases h9 : t.val = 9
  · rw [(sched0_3 t).1 h9]
    simp only
    rw [after0_3]; unfold lse0 stats0_out x0_1 x0_2
    rw [if_pos ((k0_cond2_iff t).mpr h9), hm, hl]
    iexact H3
  · rw [((sched0_3 t).2 h9).1, ((sched0_3 t).2 h9).2]
    simp only
    unfold stats0_out
    rw [if_neg (fun h => h9 ((k0_cond2_iff t).mp h))]
    iexists d3; iexact H3
end R0

end Cert.KernelIdeal.IdealData

end
-- ==== Proof.IdealFinValue.lean ====
import proofs.«138250_j73134703116926_1_alg».proof.Proof.Gen.KernelIdeal.Skeleton
import proofs.«138250_j73134703116926_1_alg».proof.Proof.LibOnlineLse
import proofs.«138250_j73134703116926_1_alg».proof.Proof.LibRowReduce
import Idealize.ShloMosaic.Lib.ValueIdx
import Idealize.ShloMosaic.Lib.ValueLayout
import Idealize.ShloMosaic.PureOps.Ideal.Laws

noncomputable section

open scoped BigOperators

namespace Cert.KernelIdeal.FinValue

open Cert.KernelIdeal Cert.KernelIdeal.Gen Idealize.ShloMosaic Idealize.ShloMosaic.ValueIdx LibRowReduce

-- The head cluster's tile: the logit less the row's log-sum-exp.
theorem fin_apply (v0 : Vec Ideal S512x1024 .f32) (v3 : Vec Ideal S2048x1024 .f32) (v7 : Vec Ideal S2048 .f32)
    (v12 : Vec Ideal S512x1 .f32) (r : Fin 512) (j : Fin 2048) :
    k1_pay1 (F := Ideal) v0 v3 v7 v12 (ix2 r j)
      = ((∑ k : Fin 1024, v0 (ix2 r k) * v3 (ix2 j k)) + v7 (ix1 j)) - v12 (ix2 r 0) := by
  unfold k1_pay1
  rw [subf_apply, shapeCast_self, shapeCast_self, shapeCast_self, shapeCast_self]
  exact congrArg₂ (· - ·) (logit_apply v0 v3 v7 _ _ _ r j) (broadcastTo_a1_ab_apply v12 _ r j)

theorem fin_col_local (v0 : Vec Ideal S512x1024 .f32) (v3 v3' : Vec Ideal S2048x1024 .f32) (v7 v7' : Vec Ideal S2048 .f32)
    (v12 : Vec Ideal S512x1 .f32) (j : Fin 2048) (h3 : ∀ k : Fin 1024, v3 (ix2 j k) = v3' (ix2 j k))
    (h7 : v7 (ix1 j) = v7' (ix1 j)) (r : Fin 512) :
    k1_pay1 (F := Ideal) v0 v3 v7 v12 (ix2 r j) = k1_pay1 (F := Ideal) v0 v3' v7' v12 (ix2 r j) := by
  rw [fin_apply, fin_apply, h7]
  exact congrArg (fun s => (s + v7' (ix1 j)) - v12 (ix2 r 0)) (Finset.sum_congr rfl fun k _ => by rw [h3 k])

-- A tail cluster's tile: the same with the row's routing log-probability added after the subtraction.
theorem finmeta2048_apply (v0 : Vec Ideal S512x256 .f32) (v3 : Vec Ideal S2048x256 .f32) (v6 : Vec Ideal S2048 .f32)
    (v10 v14 : Vec Ideal S512x1 .f32) (r : Fin 512) (j : Fin 2048) :
    k3_pay1 (F := Ideal) v0 v3 v6 v10 v14 (ix2 r j)
      = (((∑ k : Fin 256, v0 (ix2 r k) * v3 (ix2 j k)) + v6 (ix1 j)) - v10 (ix2 r 0)) + v14 (ix2 r 0) := by
  unfold k3_pay1
  rw [addf_apply, subf_apply, shapeCast_self, shapeCast_self, shapeCast_self]
  exact congrArg₂ (· + ·) (congrArg₂ (· - ·) (logit_apply v0 v3 v6 _ _ _ r j) (broadcastTo_a1_ab_apply v10 _ r j))
    (broadcastTo_a1_ab_apply v14 _ r j)

theorem finmeta2048_col_local (v0 : Vec Ideal S512x256 .f32) (v3 v3' : Vec Ideal S2048x256 .f32) (v6 v6' : Vec Ideal S2048 .f32)
    (v10 v14 : Vec Ideal S512x1 .f32) (j : Fin 2048) (h3 : ∀ k : Fin 256, v3 (ix2 j k) = v3' (ix2 j k))
    (h6 : v6 (ix1 j) = v6' (ix1 j)) (r : Fin 512) :
    k3_pay1 (F := Ideal) v0 v3 v6 v10 v14 (ix2 r j) = k3_pay1 (F := Ideal) v0 v3' v6' v10 v14 (ix2 r j) := by
  rw [finmeta2048_apply, finmeta2048_apply, h6]
  exact congrArg (fun s => ((s + v6' (ix1 j)) - v10 (ix2 r 0)) + v14 (ix2 r 0)) (Finset.sum_congr rfl fun k _ => by rw [h3 k])

theorem finmeta64_apply (v0 : Vec Ideal S512x64 .f32) (v3 : Vec Ideal S4096x64 .f32) (v6 : Vec Ideal S4096 .f32)
    (v10 v14 : Vec Ideal S512x1 .f32) (r : Fin 512) (j : Fin 4096) :
    k5_pay1 (F := Ideal) v0 v3 v6 v10 v14 (ix2 r j)
      = (((∑ k : Fin 64, v0 (ix2 r k) * v3 (ix2 j k)) + v6 (ix1 j)) - v10 (ix2 r 0)) + v14 (ix2 r 0) := by
  unfold k5_pay1
  rw [addf_apply, subf_apply, shapeCast_self, shapeCast_self, shapeCast_self]
  exact congrArg₂ (· + ·) (congrArg₂ (· - ·) (logit_apply v0 v3 v6 _ _ _ r j) (broadcastTo_a1_ab_apply v10 _ r j))
    (broadcastTo_a1_ab_apply v14 _ r j)

theorem finmeta64_col_local (v0 : Vec Ideal S512x64 .f32) (v3 v3' : Vec Ideal S4096x64 .f32) (v6 v6' : Vec Ideal S4096 .f32)
    (v10 v14 : Vec Ideal S512x1 .f32) (j : Fin 4096) (h3 : ∀ k : Fin 64, v3 (ix2 j k) = v3' (ix2 j k))
    (h6 : v6 (ix1 j) = v6' (ix1 j)) (r : Fin 512) :
    k5_pay1 (F := Ideal) v0 v3 v6 v10 v14 (ix2 r j) = k5_pay1 (F := Ideal) v0 v3' v6' v10 v14 (ix2 r j) := by
  rw [finmeta64_apply, finmeta64_apply, h6]
  exact congrArg (fun s => ((s + v6' (ix1 j)) - v10 (ix2 r 0)) + v14 (ix2 r 0)) (Finset.sum_congr rfl fun k _ => by rw [h3 k])

theorem finmeta16_apply (v0 : Vec Ideal S512x16 .f32) (v3 : Vec Ideal S4096x16 .f32) (v6 : Vec Ideal S4096 .f32)
    (v10 v14 : Vec Ideal S512x1 .f32) (r : Fin 512) (j : Fin 4096) :
    k7_pay1 (F := Ideal) v0 v3 v6 v10 v14 (ix2 r j)
      = (((∑ k : Fin 16, v0 (ix2 r k) * v3 (ix2 j k)) + v6 (ix1 j)) - v10 (ix2 r 0)) + v14 (ix2 r 0) := by
  unfold k7_pay1
  rw [addf_apply, subf_apply, shapeCast_self, shapeCast_self, shapeCast_self]
  exact congrArg₂ (· + ·) (congrArg₂ (· - ·) (logit_apply v0 v3 v6 _ _ _ r j) (broadcastTo_a1_ab_apply v10 _ r j))
    (broadcastTo_a1_ab_apply v14 _ r j)

theorem finmeta16_col_local (v0 : Vec Ideal S512x16 .f32) (v3 v3' : Vec Ideal S4096x16 .f32) (v6 v6' : Vec Ideal S4096 .f32)
    (v10 v14 : Vec Ideal S512x1 .f32) (j : Fin 4096) (h3 : ∀ k : Fin 16, v3 (ix2 j k) = v3' (ix2 j k))
    (h6 : v6 (ix1 j) = v6' (ix1 j)) (r : Fin 512) :
    k7_pay1 (F := Ideal) v0 v3 v6 v10 v14 (ix2 r j) = k7_pay1 (F := Ideal) v0 v3' v6' v10 v14 (ix2 r j) := by
  rw [finmeta16_apply, finmeta16_apply, h6]
  exact congrArg (fun s => ((s + v6' (ix1 j)) - v10 (ix2 r 0)) + v14 (ix2 r 0)) (Finset.sum_congr rfl fun k _ => by rw [h3 k])

end Cert.KernelIdeal.FinValue

end
-- ==== Proof.IdealStatsValue2.lean ====
import proofs.«138250_j73134703116926_1_alg».proof.Proof.Gen.KernelIdeal.Skeleton
import proofs.«138250_j73134703116926_1_alg».proof.Proof.LibOnlineLse
import proofs.«138250_j73134703116926_1_alg».proof.Proof.LibRowReduce
import proofs.«138250_j73134703116926_1_alg».proof.Proof.IdealFinValue
import proofs.«138250_j73134703116926_1_alg».proof.Proof.IdealStatsValue
import Idealize.ShloMosaic.Lib.ValueIdx
import Idealize.ShloMosaic.Lib.ValueLayout
import Idealize.ShloMosaic.PureOps.Ideal.Laws

noncomputable section

namespace Cert.KernelIdeal.StatsValue2

open Idealize.ShloMosaic Idealize.ShloMosaic.ValueIdx Cert.KernelIdeal Cert.KernelIdeal.Gen
open scoped BigOperators

def AgreeOn (t : ℕ) (v6 v6' : Vec Ideal S2048x256 .f32) (v9 v9' : Vec Ideal S2048 .f32) : Prop :=
  ∀ j : Fin 2048, t * 2048 + j.val < 20000 → (∀ k : Fin 256, v6 (ix2 j k) = v6' (ix2 j k)) ∧ v9 (ix1 j) = v9' (ix1 j)

def rlogit (p : Fin 512 → Fin 256 → ℝ) (w : Fin 20000 → Fin 256 → ℝ) (β : Fin 20000 → ℝ) (r : Fin 512) (j : Fin 20000) : ℝ :=
  (∑ k, p r k * w j k) + β j

theorem pay1_eq (v30 : FVec Ideal S512x1 .f32) : k2_pay1 (F := Ideal) v30 = v30 := shapeCast_self _ _
theorem pay2_eq (v37 : FVec Ideal S512x1 .f32) : k2_pay2 (F := Ideal) v37 = v37 := shapeCast_self _ _

variable (i : grid2.Coords) (v3 : Vec Ideal S512x256 .f32) (v6 v6' : Vec Ideal S2048x256 .f32) (v9 v9' : Vec Ideal S2048 .f32)
  (v28 v29 : Vec Ideal S512x1 .f32) (r : Fin 512) (j : Fin 2048) (c : Fin 1)

theorem pay6_apply : k2_pay6 (F := Ideal) i v3 v6 v9 (ix2 r j) = StatsValue.mlogit 20000 (i 0).val v3 v6 v9 r j := by
  have ht : (i 0).val < 10 := (i 0).isLt
  unfold k2_pay6
  rw [shapeCast_self]
  exact StatsValue.masked_apply 20000 (i 0).val (by omega) (by norm_num) _ _ _ _ v3 v6 v9 r j

theorem pay6_congr (h : AgreeOn (i 0).val v6 v6' v9 v9') :
    k2_pay6 (F := Ideal) i v3 v6 v9 = k2_pay6 (F := Ideal) i v3 v6' v9' := by
  funext x
  obtain ⟨r, j, rfl⟩ : ∃ (r : Fin 512) (j : Fin 2048), x = ix2 r j := ⟨x 0, x 1, eq_ix2 x⟩
  rw [pay6_apply, pay6_apply]
  exact StatsValue.mlogit_congr 20000 _ v3 h r j

theorem pay8_congr (h : AgreeOn (i 0).val v6 v6' v9 v9') :
    k2_pay8 (F := Ideal) i v3 v6 v9 v28 = k2_pay8 (F := Ideal) i v3 v6' v9' v28 := by
  unfold k2_pay8 k2_pay7
  rw [pay6_congr i v3 v6 v6' v9 v9' h]

theorem pay9_congr (h : AgreeOn (i 0).val v6 v6' v9 v9') :
    k2_pay9 (F := Ideal) i v3 v6 v9 v28 v29 = k2_pay9 (F := Ideal) i v3 v6' v9' v28 v29 := by
  unfold k2_pay9 k2_pay8 k2_pay7
  rw [pay6_congr i v3 v6 v6' v9 v9' h]

-- One grid point is one step of the online recurrence on every row.
theorem step_eq :
    (k2_pay8 (F := Ideal) i v3 v6 v9 v28 (ix2 r c), k2_pay9 (F := Ideal) i v3 v6 v9 v28 v29 (ix2 r c))
      = LibOnlineLse.step (v28 (ix2 r c), v29 (ix2 r c)) fun j => StatsValue.mlogit 20000 (i 0).val v3 v6 v9 r j :=
  (StatsValue.step_apply (k2_pay6 (F := Ideal) i v3 v6 v9) _ _ _ _ _ _ _ rfl v28 v29 r c).trans
    (congrArg (LibOnlineLse.step _) (funext fun j => pay6_apply i v3 v6 v9 r j))

theorem stats_lse (p : Fin 512 → Fin 256 → ℝ) (w : Fin 20000 → Fin 256 → ℝ) (β : Fin 20000 → ℝ)
    (v3 : Vec Ideal S512x256 .f32) (W : ℕ → Vec Ideal S2048x256 .f32) (B : ℕ → Vec Ideal S2048 .f32)
    (h3 : ∀ r k, v3 (ix2 r k) = ((p r k : ℝ) : EReal))
    (hW : ∀ t (j : Fin 2048) (k : Fin 256) (h : t * 2048 + j.val < 20000), W t (ix2 j k) = ((w ⟨t * 2048 + j.val, h⟩ k : ℝ) : EReal))
    (hB : ∀ t (j : Fin 2048) (h : t * 2048 + j.val < 20000), B t (ix1 j) = ((β ⟨t * 2048 + j.val, h⟩ : ℝ) : EReal))
    (M L : ℕ → Vec Ideal S512x1 .f32) (hM0 : M 0 = k2_pay4 (F := Ideal)) (hL0 : L 0 = k2_pay5 (F := Ideal))
    (hstep : ∀ t, t < 10 → ∃ i : grid2.Coords, (i 0).val = t ∧ M (t + 1) = k2_pay8 (F := Ideal) i v3 (W t) (B t) (M t)
      ∧ L (t + 1) = k2_pay9 (F := Ideal) i v3 (W t) (B t) (M t) (L t))
    (r : Fin 512) (c : Fin 1) :
    k2_pay3 (F := Ideal) (M 10) (L 10) (ix2 r c)
      = ((Real.log (∑ j : Fin 20000, Real.exp (rlogit p w β r j)) : ℝ) : EReal) := by
  show M 10 (ix2 r c) + Ideal.log (L 10 (ix2 r c)) = _
  refine StatsValue.lse_rows 20000 10 (by norm_num) (by norm_num) p w β v3 W B h3 hW hB M L (hM0.trans (StatsValue.reset_max _))
    (hL0.trans (StatsValue.reset_sum _)) (fun t ht r c => ?_) r c
  obtain ⟨i, hi, hM, hL⟩ := hstep t ht
  rw [hM, hL, step_eq, hi]

end Cert.KernelIdeal.StatsValue2

end
-- ==== Proof.TripleStats2.lean ====
import proofs.«138250_j73134703116926_1_alg».proof.Proof.TripleStats0

noncomputable section

namespace Cert.KernelIdeal.Triples

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

section
variable (i : grid2.Coords) (X0 : Vec F S512x256 .f32) (X1 : Vec F S2048x256 .f32) (X2 : Vec F S2048 .f32)
  (X3 f0 f1 : Vec F S512x1 .f32)

def k2_cond1 : BitVec 1 :=
  Scalar.cmpi .ne (Scalar.extui (Scalar.cmpi .eq (BitVec.ofNat 32 (i 0).val) 0#32) : BitVec 32) 0#32

def stats2_mIn : Vec F S512x1 .f32 := if k2_cond1 i = 1#1 then k2_pay4 else f0

def stats2_lIn : Vec F S512x1 .f32 := if k2_cond1 i = 1#1 then k2_pay5 else f1

def stats2_m : FVec F S512x1 .f32 := k2_pay8 i X0 X1 X2 (stats2_mIn i f0)

def stats2_l : FVec F S512x1 .f32 := k2_pay9 i X0 X1 X2 (stats2_mIn i f0) (stats2_lIn i f1)

def stats2_scr0 : Vec F S512x1 .f32 := k2_pay1 (stats2_m i X0 X1 X2 f0)

def stats2_scr1 : Vec F S512x1 .f32 := k2_pay2 (stats2_l i X0 X1 X2 f0 f1)

def stats2_out : Vec F S512x1 .f32 :=
  if k2_cond2 i = 1#1 then k2_pay3 (stats2_m i X0 X1 X2 f0) (stats2_l i X0 X1 X2 f0 f1) else X3

end

theorem k2_cond1_iff : ∀ t : Fin grid2.N, k2_cond1 (grid2.coords t) = 1#1 ↔ t.val = 0 := by decide +kernel
theorem k2_cond2_iff : ∀ t : Fin grid2.N, k2_cond2 (grid2.coords t) = 1#1 ↔ t.val = 9 := by decide +kernel

variable {Ix : Type} [DecidableEq Ix] {U : Type} [URA U] {Lvl : Type} [Preorder Lvl]

local notation "𝕄" => MT nD τ sig Ix (Elt F) ℕ U Lvl

theorem triple_stats2 (𝒱₀ : Variants) (c : Dev nD) (E : Set ℕ) (i : grid2.Coords)
    (arg1 : Memref sig .tc .vmem S512x256 .f32) (harg1 : arg1.IsWhole) (arg2 : Memref sig .tc .vmem S2048x256 .f32) (harg2 : arg2.IsWhole)
    (arg3 : Memref sig .tc .vmem S2048 .f32) (harg3 : arg3.IsWhole) (arg4 : Memref sig .tc .vmem S512x1 .f32) (harg4 : arg4.IsWhole)
    (arg5 : Memref sig .tc .vmem S512x1 .f32) (harg5 : arg5.IsWhole) (arg6 : Memref sig .tc .vmem S512x1 .f32) (harg6 : arg6.IsWhole)
    (X0 : Vec F S512x256 .f32) (X1 : Vec F S2048x256 .f32) (X2 : Vec F S2048 .f32) (X3 f0 f1 : Vec F S512x1 .f32)
    (K : PUnit → sProp 𝕄) :
    iprop((owns (c : Thread nD τ) arg1 fullShare X0 ∗ owns (c : Thread nD τ) arg2 fullShare X1 ∗ owns (c : Thread nD τ) arg3 fullShare X2
            ∗ owns (c : Thread nD τ) arg4 fullShare X3 ∗ owns (c : Thread nD τ) arg5 fullShare f0 ∗ owns (c : Thread nD τ) arg6 fullShare f1)
          ∗ (iprop(owns (c : Thread nD τ) arg1 fullShare X0 ∗ owns (c : Thread nD τ) arg2 fullShare X1 ∗ owns (c : Thread nD τ) arg3 fullShare X2
                  ∗ owns (c : Thread nD τ) arg4 fullShare (stats2_out i X0 X1 X2 X3 f0 f1)
                  ∗ owns (c : Thread nD τ) arg5 fullShare (stats2_scr0 i X0 X1 X2 f0)
                  ∗ owns (c : Thread nD τ) arg6 fullShare (stats2_scr1 i X0 X1 X2 f0 f1)) -∗ K ⟨⟩))
      ⊢ wp frame (wpE (defs₀ (F := F)) 𝒱₀ c none) E
          (cc2__stats_kernel i arg1 harg1 arg2 harg2 arg3 harg3 arg4 harg4 arg5 harg5 arg6 harg6) K := by
  sl_unfold [cc2__stats_kernel]
  unfold owns
  iintro ⟨⟨⟨%g1, %hg1, H1⟩, ⟨%g2, %hg2, H2⟩, ⟨%g3, %hg3, H3⟩, ⟨%g4, %hg4, H4⟩, ⟨%g5, %hg5, H5⟩, ⟨%g6, %hg6, H6⟩⟩, Hk⟩
  subst hg1 hg2 hg3 hg4 hg5 hg6
  sl_exec
  sl_step
  have hm : triple_stats2.sl.r c i arg1 arg2 arg3 arg5 g1 g2 g3 g5
      = stats2_m i (arg1.view.read (Elt F) g1) (arg2.view.read (Elt F) g2) (arg3.view.read (Elt F) g3) (arg5.view.read (Elt F) g5) := by
    unfold triple_stats2.sl.r triple_stats2.sl.v28 stats2_m stats2_mIn
    rw [stats_readAt _ _ stats_off2, stats_readAt _ _ stats_off2, stats_readAt _ _ stats_off1, stats_readAt _ _ stats_off2, stats_read_guarded _ _ stats_off2]
    rfl
  have hl : triple_stats2.sl.r_1 c i arg1 arg2 arg3 arg5 arg6 g1 g2 g3 g5 g6
      = stats2_l i (arg1.view.read (Elt F) g1) (arg2.view.read (Elt F) g2) (arg3.view.read (Elt F) g3) (arg5.view.read (Elt F) g5)
          (arg6.view.read (Elt F) g6) := by
    unfold triple_stats2.sl.r_1 triple_stats2.sl.v28 triple_stats2.sl.v29 stats2_l stats2_mIn stats2_lIn
    rw [stats_readAt _ _ stats_off2, stats_readAt _ _ stats_off2, stats_readAt _ _ stats_off1, stats_readAt _ _ stats_off2, stats_readAt _ _ stats_off2,
      stats_read_guarded _ _ stats_off2, stats_read_guarded _ _ stats_off2]
    rfl
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro
    refine (stats_read_guarded _ _ stats_off2 _ _ _).trans ?_
    rw [hm, hl, stats2_out]
  isplitl [H5]
  · iexists _; isplitr; swap; · iexact H5
    ipureintro; exact (stats_read_writes _ _ stats_off2 _ _ _).trans (congrArg k2_pay1 hm)
  · iexists _; isplitr; swap; · iexact H6
    ipureintro; exact (stats_read_writes _ _ stats_off2 _ _ _).trans (congrArg k2_pay2 hl)

end Cert.KernelIdeal.Triples
-- ==== Proof.IdealStatsData2.lean ====
import proofs.«138250_j73134703116926_1_alg».proof.Proof.IdealStatsValue2
import proofs.«138250_j73134703116926_1_alg».proof.Proof.TripleStats2
import proofs.«138250_j73134703116926_1_alg».proof.Proof.IdealStatsData0

noncomputable section

namespace Cert.KernelIdeal.StatsValue

open Idealize.ShloMosaic Idealize.ShloMosaic.ValueIdx Cert.KernelIdeal Cert.KernelIdeal.Gen Cert.KernelIdeal.Triples
open Idealize.ShloMosaic.Pipeline (Window)
open scoped BigOperators

theorem coords2_val : ∀ t : Fin grid2.N, ((grid2.coords t) 0).val = t.val := by decide +kernel

theorem xsize2_1 : ∀ t : Fin grid2.N, win2_1.xsize (grid2.coords t) 0 = min 2048 (20000 - t.val * 2048)
    ∧ win2_1.xsize (grid2.coords t) 1 = 256 := by decide +kernel

theorem xsize2_2 : ∀ t : Fin grid2.N, win2_2.xsize (grid2.coords t) 0 = min 2048 (20000 - t.val * 2048) := by decide +kernel

-- The buffers are read through the first branch: reset at the first point, as found otherwise.
theorem mIn_eq2 (t : Fin grid2.N) (f : Vec Ideal S512x1 .f32) :
    stats2_mIn (grid2.coords t) f = if t.val = 0 then k2_pay4 (F := Ideal) else f := if_congr (k2_cond1_iff t) rfl rfl
theorem lIn_eq2 (t : Fin grid2.N) (f : Vec Ideal S512x1 .f32) :
    stats2_lIn (grid2.coords t) f = if t.val = 0 then k2_pay5 (F := Ideal) else f := if_congr (k2_cond1_iff t) rfl rfl

-- The merged maximum and sum depend neither on the filler (its columns are masked) nor, at the first point, on the buffers found.
theorem stats2_pad (t : Fin grid2.N) (X0 : Vec Ideal S512x256 .f32)
    (b1 : (win2_1.xblock (grid2.coords t)).Idx → Elt Ideal .f32) (b2 : (win2_2.xblock (grid2.coords t)).Idx → Elt Ideal .f32)
    (d1 d1' : Vec Ideal S2048x256 .f32) (d2 d2' : Vec Ideal S2048 .f32) (f0 f0' f1 f1' : Vec Ideal S512x1 .f32)
    (hf : t.val ≠ 0 → f0 = f0' ∧ f1 = f1') :
    stats2_m (grid2.coords t) X0 (win2_1.fill (grid2.coords t) d1 b1) (win2_2.fill (grid2.coords t) d2 b2) f0
      = stats2_m (grid2.coords t) X0 (win2_1.fill (grid2.coords t) d1' b1) (win2_2.fill (grid2.coords t) d2' b2) f0'
    ∧ stats2_l (grid2.coords t) X0 (win2_1.fill (grid2.coords t) d1 b1) (win2_2.fill (grid2.coords t) d2 b2) f0 f1
      = stats2_l (grid2.coords t) X0 (win2_1.fill (grid2.coords t) d1' b1) (win2_2.fill (grid2.coords t) d2' b2) f0' f1' := by
  have ha : StatsValue2.AgreeOn ((grid2.coords t) 0).val (win2_1.fill (grid2.coords t) d1 b1) (win2_1.fill (grid2.coords t) d1' b1)
      (win2_2.fill (grid2.coords t) d2 b2) (win2_2.fill (grid2.coords t) d2' b2) := by
    intro j hj
    rw [coords2_val t] at hj
    have hj' := j.isLt
    refine ⟨fun k => fill_moved _ _ _ _ _ ((win2_1.moved_iff _ _).mpr fun a => ?_),
      fill_moved _ _ _ _ _ ((win2_2.moved_iff _ _).mpr fun a => ?_)⟩
    · match a with
      | ⟨0, _⟩ => show j.val < win2_1.xsize (grid2.coords t) 0; rw [(xsize2_1 t).1]; omega
      | ⟨1, _⟩ => show k.val < win2_1.xsize (grid2.coords t) 1; rw [(xsize2_1 t).2]; exact k.isLt
    · match a with
      | ⟨0, _⟩ => show j.val < win2_2.xsize (grid2.coords t) 0; rw [xsize2_2 t]; omega
  unfold stats2_m stats2_l
  rw [StatsValue2.pay8_congr (grid2.coords t) X0 _ _ _ _ _ ha, StatsValue2.pay9_congr (grid2.coords t) X0 _ _ _ _ _ _ ha]
  by_cases h : t.val = 0
  · simp only [mIn_eq2, lIn_eq2, if_pos h, and_self]
  · rw [(hf h).1, (hf h).2]; exact ⟨rfl, rfl⟩

def foundM2 (ml : ℕ → Vec Ideal S512x1 .f32 × Vec Ideal S512x1 .f32) (t : ℕ) : Vec Ideal S512x1 .f32 :=
  if t = 0 then k2_pay4 (F := Ideal) else (ml t).1

def foundL2 (ml : ℕ → Vec Ideal S512x1 .f32 × Vec Ideal S512x1 .f32) (t : ℕ) : Vec Ideal S512x1 .f32 :=
  if t = 0 then k2_pay5 (F := Ideal) else (ml t).2

-- What the points find in the buffers runs through the payloads' own recurrence.
theorem found_succ2 (X0 : Vec Ideal S512x256 .f32) (X1 : Fin grid2.N → Vec Ideal S2048x256 .f32)
    (X2 : Fin grid2.N → Vec Ideal S2048 .f32) (ml : ℕ → Vec Ideal S512x1 .f32 × Vec Ideal S512x1 .f32)
    (t : Fin grid2.N)
    (hml : ml (t.val + 1) = (stats2_scr0 (grid2.coords t) X0 (X1 t) (X2 t) (ml t.val).1,
      stats2_scr1 (grid2.coords t) X0 (X1 t) (X2 t) (ml t.val).1 (ml t.val).2)) :
    foundM2 ml (t.val + 1) = k2_pay8 (F := Ideal) (grid2.coords t) X0 (X1 t) (X2 t) (foundM2 ml t.val)
    ∧ foundL2 ml (t.val + 1) = k2_pay9 (F := Ideal) (grid2.coords t) X0 (X1 t) (X2 t) (foundM2 ml t.val) (foundL2 ml t.val) := by
  unfold foundM2 foundL2
  rw [if_neg (Nat.succ_ne_zero _), if_neg (Nat.succ_ne_zero _), hml]
  refine ⟨?_, ?_⟩
  · show k2_pay1 (F := Ideal) (stats2_m (grid2.coords t) X0 (X1 t) (X2 t) (ml t.val).1) = _
    rw [StatsValue2.pay1_eq]; unfold stats2_m; rw [mIn_eq2]
  · show k2_pay2 (F := Ideal) (stats2_l (grid2.coords t) X0 (X1 t) (X2 t) (ml t.val).1 (ml t.val).2) = _
    rw [StatsValue2.pay2_eq]; unfold stats2_l; rw [mIn_eq2, lIn_eq2]

end Cert.KernelIdeal.StatsValue
-- ==== Proof.IdealStats2.lean ====
import proofs.«138250_j73134703116926_1_alg».proof.Proof.IdealBase
import proofs.«138250_j73134703116926_1_alg».proof.Proof.IdealStatsData2
import Idealize.ShloMosaic.Lib.Pipeline.RegionsLoop

set_option maxRecDepth 1656

noncomputable section

namespace Cert.KernelIdeal.IdealData
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.ShloMosaic.Pipeline (Dat BodyObligationLoose)
open Cert.KernelIdeal.Triples Cert.KernelIdeal.StatsValue
local notation "𝕀" => Idealize.ShloMosaic.Ideal
local notation "𝕄" => MT nD τ sig Unit (Elt 𝕀) ℕ (UR sig nD τ) ℕ

section R2
variable (V : VT)

def iblk2 (c : Dev nD) (w : Fin cfg2.W) (t : Fin cfg2.N) : ((cfg2.win w).xblock (cfg2.grid.coords t)).Idx → Elt 𝕀 (cfg2.win w).elt :=
  ((cfg2.win w).blk t).view.read (Elt 𝕀) (V c (Pipeline.arrRef spec2 w))

def x2_0 (c : Dev nD) (t : Fin cfg2.N) : Vec 𝕀 S512x256 .f32 := iblk2 V c 0 t
def x2_1 (c : Dev nD) (t : Fin cfg2.N) : Vec 𝕀 S2048x256 .f32 := win2_1.fill (grid2.coords t) (fun _ => pad) (iblk2 V c 1 t)
def x2_2 (c : Dev nD) (t : Fin cfg2.N) : Vec 𝕀 S2048 .f32 := win2_2.fill (grid2.coords t) (fun _ => pad) (iblk2 V c 2 t)

-- The running maximum and sum before point n: the recursion through the kernel's own merge (the value at 0 is never read).
def ml2 (c : Dev nD) : ℕ → Vec 𝕀 S512x1 .f32 × Vec 𝕀 S512x1 .f32
  | 0 => (fun _ => pad, fun _ => pad)
  | n + 1 =>
    if h : n < grid2.N then
      (stats2_scr0 (grid2.coords ⟨n, h⟩) (x2_0 V c ⟨n, h⟩) (x2_1 V c ⟨n, h⟩) (x2_2 V c ⟨n, h⟩) (ml2 c n).1,
       stats2_scr1 (grid2.coords ⟨n, h⟩) (x2_0 V c ⟨n, h⟩) (x2_1 V c ⟨n, h⟩) (x2_2 V c ⟨n, h⟩) (ml2 c n).1 (ml2 c n).2)
    else ml2 c n

def lse2 (c : Dev nD) (t : Fin cfg2.N) : Vec 𝕀 S512x1 .f32 :=
  k2_pay3 (stats2_m (grid2.coords t) (x2_0 V c t) (x2_1 V c t) (x2_2 V c t) (ml2 V c t.val).1)
    (stats2_l (grid2.coords t) (x2_0 V c t) (x2_1 V c t) (x2_2 V c t) (ml2 V c t.val).1 (ml2 V c t.val).2)

abbrev scrA2 : Memref sig .tc .vmem S512x1 .f32 := Memref.whole cc2_scratch0
abbrev scrB2 : Memref sig .tc .vmem S512x1 .f32 := Memref.whole cc2_scratch1
abbrev restBut2 (c : Dev nD) : sProp 𝕄 :=
  Pipeline.scopedRestBut (Ix := Unit) (Name := ℕ) (U := UR sig nD τ) (Lvl := ℕ) (Val := Elt 𝕀) spec2 c [cc2_scratch0, cc2_scratch1]

-- Between points the two column buffers hold the recursion's values.
def Φ2 (c : Dev nD) (t : Fin (cfg2.N + 1)) : sProp 𝕄 :=
  if t.val = 0 then Pipeline.ΦA spec2 c
  else iprop((owns (c : Thread nD τ) scrA2 fullShare (ml2 V c t.val).1 ∗ owns (c : Thread nD τ) scrB2 fullShare (ml2 V c t.val).2)
    ∗ restBut2 c ∗ ∃ r, prngReg c r)

def dat2 (c : Dev nD) : Dat τ (Elt 𝕀) Unit ℕ (UR sig nD τ) ℕ cfg2 c where
  A w := V c (Pipeline.arrRef spec2 w)
  after w t := match w with
    | ⟨0, _⟩ => x2_0 V c t
    | ⟨1, _⟩ => x2_1 V c t
    | ⟨2, _⟩ => x2_2 V c t
    | ⟨3, _⟩ => lse2 V c t
  Φ t := Φ2 V c t
  q _ := fullShare
  owed _ := 0

theorem A_eq2 (c : Dev nD) (w : Fin cfg2.W) : (dat2 V c).A w = V c (Pipeline.arrRef spec2 w) := rfl
theorem after2_0 (c : Dev nD) (t : Fin cfg2.N) : (dat2 V c).after 0 t = x2_0 V c t := rfl
theorem after2_1 (c : Dev nD) (t : Fin cfg2.N) : (dat2 V c).after 1 t = x2_1 V c t := rfl
theorem after2_2 (c : Dev nD) (t : Fin cfg2.N) : (dat2 V c).after 2 t = x2_2 V c t := rfl
theorem after2_3 (c : Dev nD) (t : Fin cfg2.N) : (dat2 V c).after 3 t = lse2 V c t := rfl

theorem before2_0 (c : Dev nD) (t : Fin cfg2.N) (d) : (dat2 V c).before 0 t d = x2_0 V c t :=
  ((dat2 V c).before_in_eq_fetched 0 rfl (fun _ => rfl) (fun _ _ _ => rfl)
    (fun t => by rw [after2_0]; unfold Dat.blockOf x2_0 iblk2; rw [A_eq2]; try rfl) t d).trans
    (by unfold Dat.fetched Dat.blockOf x2_0 iblk2; rw [A_eq2]; try rfl)
theorem before2_1 (c : Dev nD) (t : Fin cfg2.N) (d) :
    (dat2 V c).before 1 t d = win2_1.fill (grid2.coords t) d (iblk2 V c 1 t) := by
  unfold Dat.before; rw [if_pos (fetch2_1 t)]; rfl
theorem before2_2 (c : Dev nD) (t : Fin cfg2.N) (d) :
    (dat2 V c).before 2 t d = win2_2.fill (grid2.coords t) d (iblk2 V c 2 t) := by
  unfold Dat.before; rw [if_pos (fetch2_2 t)]; rfl

theorem ml2_succ (c : Dev nD) (t : Fin grid2.N) : ml2 V c (t.val + 1)
    = (stats2_scr0 (grid2.coords t) (x2_0 V c t) (x2_1 V c t) (x2_2 V c t) (ml2 V c t.val).1,
       stats2_scr1 (grid2.coords t) (x2_0 V c t) (x2_1 V c t) (x2_2 V c t) (ml2 V c t.val).1 (ml2 V c t.val).2) := by
  rw [ml2, dif_pos t.isLt]

theorem sched2_3 : ∀ t : Fin grid2.N, (t.val = 9 → idle2 3 (grid2.coords t) = false)
    ∧ (t.val ≠ 9 → idle2 3 (grid2.coords t) = true ∧ (win2 3).flush t = false) := by decide +kernel

-- The invariant before point t, opened: the column buffers at some contents, the recursion's after the first point.
theorem Φ2_open (c : Dev nD) (t : Fin cfg2.N) : (dat2 V c).Φ t.castSucc
    ⊢ (iprop(∃ f0 f1, ⌜t.val ≠ 0 → f0 = (ml2 V c t.val).1 ∧ f1 = (ml2 V c t.val).2⌝
        ∗ owns (c : Thread nD τ) scrA2 fullShare f0 ∗ owns (c : Thread nD τ) scrB2 fullShare f1
        ∗ restBut2 c ∗ ∃ r, prngReg c r) : sProp 𝕄) := by
  show Φ2 V c t.castSucc ⊢ _
  unfold Φ2
  rw [Fin.coe_castSucc]
  by_cases h : t.val = 0
  · rw [if_pos h]
    unfold Pipeline.ΦA; rw [scopedRest2_split]
    iintro ⟨⟨⟨⟨%f0, H0⟩, ⟨%f1, H1⟩⟩, Hr⟩, Hp⟩
    iexists f0; iexists f1
    isplitr; · ipureintro; exact fun h' => absurd h h'
    rw [owns_whole, owns_whole]
    iframe
  · rw [if_neg h]
    iintro ⟨⟨H0, H1⟩, Hr, Hp⟩
    iexists _; iexists _
    isplitr; · ipureintro; exact fun _ => ⟨rfl, rfl⟩
    iframe

theorem Φ2_close (c : Dev nD) (t : Fin cfg2.N) :
    (iprop(owns (c : Thread nD τ) scrA2 fullShare (ml2 V c (t.val + 1)).1 ∗ owns (c : Thread nD τ) scrB2 fullShare (ml2 V c (t.val + 1)).2
        ∗ restBut2 c ∗ ∃ r, prngReg c r) : sProp 𝕄) ⊢ (dat2 V c).Φ t.succ := by
  show _ ⊢ Φ2 V c t.succ
  unfold Φ2
  rw [Fin.val_succ, if_neg (Nat.succ_ne_zero _)]
  iintro ⟨H0, H1, Hr, Hp⟩
  iframe

theorem body_obligation2 (c : Dev nD) : BodyObligationLoose (dat2 V c) (defs₀ (F := 𝕀)) Variants.none () Set.univ := fun t => by
  rw [bigSep_W2, bigSep_W2]
  simp only
  rw [show (dat2 V c).owesAt () t.succ = (dat2 V c).owesAt () t.castSucc from rfl, after2_0, after2_1, after2_2]
  refine (sep_mono (Φ2_open V c t) .rfl).trans ?_
  iintro ⟨⟨%f0, %f1, %hf, Hs0, Hs1, Hr, Hp⟩, Ho, ⟨%d0, H0⟩, ⟨%d1, H1⟩, ⟨%d2, H2⟩, ⟨%d3, H3⟩⟩
  rw [before2_0 V c t d0, before2_1 V c t d1, before2_2 V c t d2]
  iapply (triple_stats2 (F := 𝕀) Variants.none c Set.univ (grid2.coords t) _ _ _ _ _ _ _ _ _ _ _ _
    (x2_0 V c t) (win2_1.fill (grid2.coords t) d1 (iblk2 V c 1 t)) (win2_2.fill (grid2.coords t) d2 (iblk2 V c 2 t))
    ((dat2 V c).before 3 t d3) f0 f1 _)
  isplitl [H0 H1 H2 H3 Hs0 Hs1]
  · iframe
  iintro ⟨H0, H1, H2, H3, Hs0, Hs1⟩
  obtain ⟨hm, hl⟩ := stats2_pad t (x2_0 V c t) (iblk2 V c 1 t) (iblk2 V c 2 t) d1 (fun _ => pad) d2 (fun _ => pad) f0 _ f1 _ hf
  isplitl [Hs0 Hs1 Hr Hp]
  · iapply (Φ2_close V c t)
    rw [ml2_succ V c t]
    unfold stats2_scr0 stats2_scr1 x2_1 x2_2 at *
    rw [hm, hl]
    iframe
  iframe Ho H0
  isplitl [H1]
  · iexists d1; unfold x2_1; rw [(win2 1).cut_fill]; iexact H1
  isplitl [H2]
  · iexists d2; unfold x2_2; rw [(win2 2).cut_fill]; iexact H2
  by_cases h9 : t.val = 9
  · rw [(sched2_3 t).1 h9]
    simp only
    rw [after2_3]; unfold lse2 stats2_out x2_1 x2_2
    rw [if_pos ((k2_cond2_iff t).mpr h9), hm, hl]
    iexact H3
  · rw [((sched2_3 t).2 h9).1, ((sched2_3 t).2 h9).2]
    simp only
    unfold stats2_out
    rw [if_neg (fun h => h9 ((k2_cond2_iff t).mp h))]
    iexists d3; iexact H3
end R2

end Cert.KernelIdeal.IdealData

end
-- ==== Proof.IdealStatsValue4.lean ====
import proofs.«138250_j73134703116926_1_alg».proof.Proof.Gen.KernelIdeal.Skeleton
import proofs.«138250_j73134703116926_1_alg».proof.Proof.LibOnlineLse
import proofs.«138250_j73134703116926_1_alg».proof.Proof.LibRowReduce
import proofs.«138250_j73134703116926_1_alg».proof.Proof.IdealFinValue
import proofs.«138250_j73134703116926_1_alg».proof.Proof.IdealStatsValue
import Idealize.ShloMosaic.Lib.ValueIdx
import Idealize.ShloMosaic.Lib.ValueLayout
import Idealize.ShloMosaic.PureOps.Ideal.Laws

noncomputable section

namespace Cert.KernelIdeal.StatsValue4

open Idealize.ShloMosaic Idealize.ShloMosaic.ValueIdx Cert.KernelIdeal Cert.KernelIdeal.Gen
open scoped BigOperators

def AgreeOn (t : ℕ) (v6 v6' : Vec Ideal S4096x64 .f32) (v9 v9' : Vec Ideal S4096 .f32) : Prop :=
  ∀ j : Fin 4096, t * 4096 + j.val < 160000 → (∀ k : Fin 64, v6 (ix2 j k) = v6' (ix2 j k)) ∧ v9 (ix1 j) = v9' (ix1 j)

def rlogit (p : Fin 512 → Fin 64 → ℝ) (w : Fin 160000 → Fin 64 → ℝ) (β : Fin 160000 → ℝ) (r : Fin 512) (j : Fin 160000) : ℝ :=
  (∑ k, p r k * w j k) + β j

theorem pay1_eq (v30 : FVec Ideal S512x1 .f32) : k4_pay1 (F := Ideal) v30 = v30 := shapeCast_self _ _
theorem pay2_eq (v37 : FVec Ideal S512x1 .f32) : k4_pay2 (F := Ideal) v37 = v37 := shapeCast_self _ _

variable (i : grid4.Coords) (v3 : Vec Ideal S512x64 .f32) (v6 v6' : Vec Ideal S4096x64 .f32) (v9 v9' : Vec Ideal S4096 .f32)
  (v28 v29 : Vec Ideal S512x1 .f32) (r : Fin 512) (j : Fin 4096) (c : Fin 1)

theorem pay6_apply : k4_pay6 (F := Ideal) i v3 v6 v9 (ix2 r j) = StatsValue.mlogit 160000 (i 0).val v3 v6 v9 r j := by
  have ht : (i 0).val < 40 := (i 0).isLt
  unfold k4_pay6
  rw [shapeCast_self]
  exact StatsValue.masked_apply 160000 (i 0).val (by omega) (by norm_num) _ _ _ _ v3 v6 v9 r j

theorem pay6_congr (h : AgreeOn (i 0).val v6 v6' v9 v9') :
    k4_pay6 (F := Ideal) i v3 v6 v9 = k4_pay6 (F := Ideal) i v3 v6' v9' := by
  funext x
  obtain ⟨r, j, rfl⟩ : ∃ (r : Fin 512) (j : Fin 4096), x = ix2 r j := ⟨x 0, x 1, eq_ix2 x⟩
  rw [pay6_apply, pay6_apply]
  exact StatsValue.mlogit_congr 160000 _ v3 h r j

theorem pay8_congr (h : AgreeOn (i 0).val v6 v6' v9 v9') :
    k4_pay8 (F := Ideal) i v3 v6 v9 v28 = k4_pay8 (F := Ideal) i v3 v6' v9' v28 := by
  unfold k4_pay8 k4_pay7
  rw [pay6_congr i v3 v6 v6' v9 v9' h]

theorem pay9_congr (h : AgreeOn (i 0).val v6 v6' v9 v9') :
    k4_pay9 (F := Ideal) i v3 v6 v9 v28 v29 = k4_pay9 (F := Ideal) i v3 v6' v9' v28 v29 := by
  unfold k4_pay9 k4_pay8 k4_pay7
  rw [pay6_congr i v3 v6 v6' v9 v9' h]

-- One grid point is one step of the online recurrence on every row.
theorem step_eq :
    (k4_pay8 (F := Ideal) i v3 v6 v9 v28 (ix2 r c), k4_pay9 (F := Ideal) i v3 v6 v9 v28 v29 (ix2 r c))
      = LibOnlineLse.step (v28 (ix2 r c), v29 (ix2 r c)) fun j => StatsValue.mlogit 160000 (i 0).val v3 v6 v9 r j :=
  (StatsValue.step_apply (k4_pay6 (F := Ideal) i v3 v6 v9) _ _ _ _ _ _ _ rfl v28 v29 r c).trans
    (congrArg (LibOnlineLse.step _) (funext fun j => pay6_apply i v3 v6 v9 r j))

theorem stats_lse (p : Fin 512 → Fin 64 → ℝ) (w : Fin 160000 → Fin 64 → ℝ) (β : Fin 160000 → ℝ)
    (v3 : Vec Ideal S512x64 .f32) (W : ℕ → Vec Ideal S4096x64 .f32) (B : ℕ → Vec Ideal S4096 .f32)
    (h3 : ∀ r k, v3 (ix2 r k) = ((p r k : ℝ) : EReal))
    (hW : ∀ t (j : Fin 4096) (k : Fin 64) (h : t * 4096 + j.val < 160000), W t (ix2 j k) = ((w ⟨t * 4096 + j.val, h⟩ k : ℝ) : EReal))
    (hB : ∀ t (j : Fin 4096) (h : t * 4096 + j.val < 160000), B t (ix1 j) = ((β ⟨t * 4096 + j.val, h⟩ : ℝ) : EReal))
    (M L : ℕ → Vec Ideal S512x1 .f32) (hM0 : M 0 = k4_pay4 (F := Ideal)) (hL0 : L 0 = k4_pay5 (F := Ideal))
    (hstep : ∀ t, t < 40 → ∃ i : grid4.Coords, (i 0).val = t ∧ M (t + 1) = k4_pay8 (F := Ideal) i v3 (W t) (B t) (M t)
      ∧ L (t + 1) = k4_pay9 (F := Ideal) i v3 (W t) (B t) (M t) (L t))
    (r : Fin 512) (c : Fin 1) :
    k4_pay3 (F := Ideal) (M 40) (L 40) (ix2 r c)
      = ((Real.log (∑ j : Fin 160000, Real.exp (rlogit p w β r j)) : ℝ) : EReal) := by
  show M 40 (ix2 r c) + Ideal.log (L 40 (ix2 r c)) = _
  refine StatsValue.lse_rows 160000 40 (by norm_num) (by norm_num) p w β v3 W B h3 hW hB M L (hM0.trans (StatsValue.reset_max _))
    (hL0.trans (StatsValue.reset_sum _)) (fun t ht r c => ?_) r c
  obtain ⟨i, hi, hM, hL⟩ := hstep t ht
  rw [hM, hL, step_eq, hi]

end Cert.KernelIdeal.StatsValue4

end
-- ==== Proof.TripleStats4.lean ====
import proofs.«138250_j73134703116926_1_alg».proof.Proof.TripleStats0

noncomputable section

namespace Cert.KernelIdeal.Triples

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

section
variable (i : grid4.Coords) (X0 : Vec F S512x64 .f32) (X1 : Vec F S4096x64 .f32) (X2 : Vec F S4096 .f32)
  (X3 f0 f1 : Vec F S512x1 .f32)

def k4_cond1 : BitVec 1 :=
  Scalar.cmpi .ne (Scalar.extui (Scalar.cmpi .eq (BitVec.ofNat 32 (i 0).val) 0#32) : BitVec 32) 0#32

def stats4_mIn : Vec F S512x1 .f32 := if k4_cond1 i = 1#1 then k4_pay4 else f0

def stats4_lIn : Vec F S512x1 .f32 := if k4_cond1 i = 1#1 then k4_pay5 else f1

def stats4_m : FVec F S512x1 .f32 := k4_pay8 i X0 X1 X2 (stats4_mIn i f0)

def stats4_l : FVec F S512x1 .f32 := k4_pay9 i X0 X1 X2 (stats4_mIn i f0) (stats4_lIn i f1)

def stats4_scr0 : Vec F S512x1 .f32 := k4_pay1 (stats4_m i X0 X1 X2 f0)

def stats4_scr1 : Vec F S512x1 .f32 := k4_pay2 (stats4_l i X0 X1 X2 f0 f1)

def stats4_out : Vec F S512x1 .f32 :=
  if k4_cond2 i = 1#1 then k4_pay3 (stats4_m i X0 X1 X2 f0) (stats4_l i X0 X1 X2 f0 f1) else X3

end

theorem k4_cond1_iff : ∀ t : Fin grid4.N, k4_cond1 (grid4.coords t) = 1#1 ↔ t.val = 0 := by decide +kernel
theorem k4_cond2_iff : ∀ t : Fin grid4.N, k4_cond2 (grid4.coords t) = 1#1 ↔ t.val = 39 := by decide +kernel

variable {Ix : Type} [DecidableEq Ix] {U : Type} [URA U] {Lvl : Type} [Preorder Lvl]

local notation "𝕄" => MT nD τ sig Ix (Elt F) ℕ U Lvl

theorem triple_stats4 (𝒱₀ : Variants) (c : Dev nD) (E : Set ℕ) (i : grid4.Coords)
    (arg1 : Memref sig .tc .vmem S512x64 .f32) (harg1 : arg1.IsWhole) (arg2 : Memref sig .tc .vmem S4096x64 .f32) (harg2 : arg2.IsWhole)
    (arg3 : Memref sig .tc .vmem S4096 .f32) (harg3 : arg3.IsWhole) (arg4 : Memref sig .tc .vmem S512x1 .f32) (harg4 : arg4.IsWhole)
    (arg5 : Memref sig .tc .vmem S512x1 .f32) (harg5 : arg5.IsWhole) (arg6 : Memref sig .tc .vmem S512x1 .f32) (harg6 : arg6.IsWhole)
    (X0 : Vec F S512x64 .f32) (X1 : Vec F S4096x64 .f32) (X2 : Vec F S4096 .f32) (X3 f0 f1 : Vec F S512x1 .f32)
    (K : PUnit → sProp 𝕄) :
    iprop((owns (c : Thread nD τ) arg1 fullShare X0 ∗ owns (c : Thread nD τ) arg2 fullShare X1 ∗ owns (c : Thread nD τ) arg3 fullShare X2
            ∗ owns (c : Thread nD τ) arg4 fullShare X3 ∗ owns (c : Thread nD τ) arg5 fullShare f0 ∗ owns (c : Thread nD τ) arg6 fullShare f1)
          ∗ (iprop(owns (c : Thread nD τ) arg1 fullShare X0 ∗ owns (c : Thread nD τ) arg2 fullShare X1 ∗ owns (c : Thread nD τ) arg3 fullShare X2
                  ∗ owns (c : Thread nD τ) arg4 fullShare (stats4_out i X0 X1 X2 X3 f0 f1)
                  ∗ owns (c : Thread nD τ) arg5 fullShare (stats4_scr0 i X0 X1 X2 f0)
                  ∗ owns (c : Thread nD τ) arg6 fullShare (stats4_scr1 i X0 X1 X2 f0 f1)) -∗ K ⟨⟩))
      ⊢ wp frame (wpE (defs₀ (F := F)) 𝒱₀ c none) E
          (cc4__stats_kernel i arg1 harg1 arg2 harg2 arg3 harg3 arg4 harg4 arg5 harg5 arg6 harg6) K := by
  sl_unfold [cc4__stats_kernel]
  unfold owns
  iintro ⟨⟨⟨%g1, %hg1, H1⟩, ⟨%g2, %hg2, H2⟩, ⟨%g3, %hg3, H3⟩, ⟨%g4, %hg4, H4⟩, ⟨%g5, %hg5, H5⟩, ⟨%g6, %hg6, H6⟩⟩, Hk⟩
  subst hg1 hg2 hg3 hg4 hg5 hg6
  sl_exec
  sl_step
  have hm : triple_stats4.sl.r c i arg1 arg2 arg3 arg5 g1 g2 g3 g5
      = stats4_m i (arg1.view.read (Elt F) g1) (arg2.view.read (Elt F) g2) (arg3.view.read (Elt F) g3) (arg5.view.read (Elt F) g5) := by
    unfold triple_stats4.sl.r triple_stats4.sl.v28 stats4_m stats4_mIn
    rw [stats_readAt _ _ stats_off2, stats_readAt _ _ stats_off2, stats_readAt _ _ stats_off1, stats_readAt _ _ stats_off2, stats_read_guarded _ _ stats_off2]
    rfl
  have hl : triple_stats4.sl.r_1 c i arg1 arg2 arg3 arg5 arg6 g1 g2 g3 g5 g6
      = stats4_l i (arg1.view.read (Elt F) g1) (arg2.view.read (Elt F) g2) (arg3.view.read (Elt F) g3) (arg5.view.read (Elt F) g5)
          (arg6.view.read (Elt F) g6) := by
    unfold triple_stats4.sl.r_1 triple_stats4.sl.v28 triple_stats4.sl.v29 stats4_l stats4_mIn stats4_lIn
    rw [stats_readAt _ _ stats_off2, stats_readAt _ _ stats_off2, stats_readAt _ _ stats_off1, stats_readAt _ _ stats_off2, stats_readAt _ _ stats_off2,
      stats_read_guarded _ _ stats_off2, stats_read_guarded _ _ stats_off2]
    rfl
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro
    refine (stats_read_guarded _ _ stats_off2 _ _ _).trans ?_
    rw [hm, hl, stats4_out]
  isplitl [H5]
  · iexists _; isplitr; swap; · iexact H5
    ipureintro; exact (stats_read_writes _ _ stats_off2 _ _ _).trans (congrArg k4_pay1 hm)
  · iexists _; isplitr; swap; · iexact H6
    ipureintro; exact (stats_read_writes _ _ stats_off2 _ _ _).trans (congrArg k4_pay2 hl)

end Cert.KernelIdeal.Triples
-- ==== Proof.IdealStatsData4.lean ====
import proofs.«138250_j73134703116926_1_alg».proof.Proof.IdealStatsValue4
import proofs.«138250_j73134703116926_1_alg».proof.Proof.TripleStats4
import proofs.«138250_j73134703116926_1_alg».proof.Proof.IdealStatsData0

noncomputable section

namespace Cert.KernelIdeal.StatsValue

open Idealize.ShloMosaic Idealize.ShloMosaic.ValueIdx Cert.KernelIdeal Cert.KernelIdeal.Gen Cert.KernelIdeal.Triples
open Idealize.ShloMosaic.Pipeline (Window)
open scoped BigOperators

theorem coords4_val : ∀ t : Fin grid4.N, ((grid4.coords t) 0).val = t.val := by decide +kernel

theorem xsize4_1 : ∀ t : Fin grid4.N, win4_1.xsize (grid4.coords t) 0 = min 4096 (160000 - t.val * 4096)
    ∧ win4_1.xsize (grid4.coords t) 1 = 64 := by decide +kernel

theorem xsize4_2 : ∀ t : Fin grid4.N, win4_2.xsize (grid4.coords t) 0 = min 4096 (160000 - t.val * 4096) := by decide +kernel

-- The buffers are read through the first branch: reset at the first point, as found otherwise.
theorem mIn_eq4 (t : Fin grid4.N) (f : Vec Ideal S512x1 .f32) :
    stats4_mIn (grid4.coords t) f = if t.val = 0 then k4_pay4 (F := Ideal) else f := if_congr (k4_cond1_iff t) rfl rfl
theorem lIn_eq4 (t : Fin grid4.N) (f : Vec Ideal S512x1 .f32) :
    stats4_lIn (grid4.coords t) f = if t.val = 0 then k4_pay5 (F := Ideal) else f := if_congr (k4_cond1_iff t) rfl rfl

-- The merged maximum and sum depend neither on the filler (its columns are masked) nor, at the first point, on the buffers found.
theorem stats4_pad (t : Fin grid4.N) (X0 : Vec Ideal S512x64 .f32)
    (b1 : (win4_1.xblock (grid4.coords t)).Idx → Elt Ideal .f32) (b2 : (win4_2.xblock (grid4.coords t)).Idx → Elt Ideal .f32)
    (d1 d1' : Vec Ideal S4096x64 .f32) (d2 d2' : Vec Ideal S4096 .f32) (f0 f0' f1 f1' : Vec Ideal S512x1 .f32)
    (hf : t.val ≠ 0 → f0 = f0' ∧ f1 = f1') :
    stats4_m (grid4.coords t) X0 (win4_1.fill (grid4.coords t) d1 b1) (win4_2.fill (grid4.coords t) d2 b2) f0
      = stats4_m (grid4.coords t) X0 (win4_1.fill (grid4.coords t) d1' b1) (win4_2.fill (grid4.coords t) d2' b2) f0'
    ∧ stats4_l (grid4.coords t) X0 (win4_1.fill (grid4.coords t) d1 b1) (win4_2.fill (grid4.coords t) d2 b2) f0 f1
      = stats4_l (grid4.coords t) X0 (win4_1.fill (grid4.coords t) d1' b1) (win4_2.fill (grid4.coords t) d2' b2) f0' f1' := by
  have ha : StatsValue4.AgreeOn ((grid4.coords t) 0).val (win4_1.fill (grid4.coords t) d1 b1) (win4_1.fill (grid4.coords t) d1' b1)
      (win4_2.fill (grid4.coords t) d2 b2) (win4_2.fill (grid4.coords t) d2' b2) := by
    intro j hj
    rw [coords4_val t] at hj
    have hj' := j.isLt
    refine ⟨fun k => fill_moved _ _ _ _ _ ((win4_1.moved_iff _ _).mpr fun a => ?_),
      fill_moved _ _ _ _ _ ((win4_2.moved_iff _ _).mpr fun a => ?_)⟩
    · match a with
      | ⟨0, _⟩ => show j.val < win4_1.xsize (grid4.coords t) 0; rw [(xsize4_1 t).1]; omega
      | ⟨1, _⟩ => show k.val < win4_1.xsize (grid4.coords t) 1; rw [(xsize4_1 t).2]; exact k.isLt
    · match a with
      | ⟨0, _⟩ => show j.val < win4_2.xsize (grid4.coords t) 0; rw [xsize4_2 t]; omega
  unfold stats4_m stats4_l
  rw [StatsValue4.pay8_congr (grid4.coords t) X0 _ _ _ _ _ ha, StatsValue4.pay9_congr (grid4.coords t) X0 _ _ _ _ _ _ ha]
  by_cases h : t.val = 0
  · simp only [mIn_eq4, lIn_eq4, if_pos h, and_self]
  · rw [(hf h).1, (hf h).2]; exact ⟨rfl, rfl⟩

def foundM4 (ml : ℕ → Vec Ideal S512x1 .f32 × Vec Ideal S512x1 .f32) (t : ℕ) : Vec Ideal S512x1 .f32 :=
  if t = 0 then k4_pay4 (F := Ideal) else (ml t).1

def foundL4 (ml : ℕ → Vec Ideal S512x1 .f32 × Vec Ideal S512x1 .f32) (t : ℕ) : Vec Ideal S512x1 .f32 :=
  if t = 0 then k4_pay5 (F := Ideal) else (ml t).2

-- What the points find in the buffers runs through the payloads' own recurrence.
theorem found_succ4 (X0 : Vec Ideal S512x64 .f32) (X1 : Fin grid4.N → Vec Ideal S4096x64 .f32)
    (X2 : Fin grid4.N → Vec Ideal S4096 .f32) (ml : ℕ → Vec Ideal S512x1 .f32 × Vec Ideal S512x1 .f32)
    (t : Fin grid4.N)
    (hml : ml (t.val + 1) = (stats4_scr0 (grid4.coords t) X0 (X1 t) (X2 t) (ml t.val).1,
      stats4_scr1 (grid4.coords t) X0 (X1 t) (X2 t) (ml t.val).1 (ml t.val).2)) :
    foundM4 ml (t.val + 1) = k4_pay8 (F := Ideal) (grid4.coords t) X0 (X1 t) (X2 t) (foundM4 ml t.val)
    ∧ foundL4 ml (t.val + 1) = k4_pay9 (F := Ideal) (grid4.coords t) X0 (X1 t) (X2 t) (foundM4 ml t.val) (foundL4 ml t.val) := by
  unfold foundM4 foundL4
  rw [if_neg (Nat.succ_ne_zero _), if_neg (Nat.succ_ne_zero _), hml]
  refine ⟨?_, ?_⟩
  · show k4_pay1 (F := Ideal) (stats4_m (grid4.coords t) X0 (X1 t) (X2 t) (ml t.val).1) = _
    rw [StatsValue4.pay1_eq]; unfold stats4_m; rw [mIn_eq4]
  · show k4_pay2 (F := Ideal) (stats4_l (grid4.coords t) X0 (X1 t) (X2 t) (ml t.val).1 (ml t.val).2) = _
    rw [StatsValue4.pay2_eq]; unfold stats4_l; rw [mIn_eq4, lIn_eq4]

end Cert.KernelIdeal.StatsValue
-- ==== Proof.IdealStats4.lean ====
import proofs.«138250_j73134703116926_1_alg».proof.Proof.IdealBase
import proofs.«138250_j73134703116926_1_alg».proof.Proof.IdealStatsData4
import Idealize.ShloMosaic.Lib.Pipeline.RegionsLoop

set_option maxRecDepth 1656

noncomputable section

namespace Cert.KernelIdeal.IdealData
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.ShloMosaic.Pipeline (Dat BodyObligationLoose)
open Cert.KernelIdeal.Triples Cert.KernelIdeal.StatsValue
local notation "𝕀" => Idealize.ShloMosaic.Ideal
local notation "𝕄" => MT nD τ sig Unit (Elt 𝕀) ℕ (UR sig nD τ) ℕ

section R4
variable (V : VT)

def iblk4 (c : Dev nD) (w : Fin cfg4.W) (t : Fin cfg4.N) : ((cfg4.win w).xblock (cfg4.grid.coords t)).Idx → Elt 𝕀 (cfg4.win w).elt :=
  ((cfg4.win w).blk t).view.read (Elt 𝕀) (V c (Pipeline.arrRef spec4 w))

def x4_0 (c : Dev nD) (t : Fin cfg4.N) : Vec 𝕀 S512x64 .f32 := iblk4 V c 0 t
def x4_1 (c : Dev nD) (t : Fin cfg4.N) : Vec 𝕀 S4096x64 .f32 := win4_1.fill (grid4.coords t) (fun _ => pad) (iblk4 V c 1 t)
def x4_2 (c : Dev nD) (t : Fin cfg4.N) : Vec 𝕀 S4096 .f32 := win4_2.fill (grid4.coords t) (fun _ => pad) (iblk4 V c 2 t)

-- The running maximum and sum before point n: the recursion through the kernel's own merge (the value at 0 is never read).
def ml4 (c : Dev nD) : ℕ → Vec 𝕀 S512x1 .f32 × Vec 𝕀 S512x1 .f32
  | 0 => (fun _ => pad, fun _ => pad)
  | n + 1 =>
    if h : n < grid4.N then
      (stats4_scr0 (grid4.coords ⟨n, h⟩) (x4_0 V c ⟨n, h⟩) (x4_1 V c ⟨n, h⟩) (x4_2 V c ⟨n, h⟩) (ml4 c n).1,
       stats4_scr1 (grid4.coords ⟨n, h⟩) (x4_0 V c ⟨n, h⟩) (x4_1 V c ⟨n, h⟩) (x4_2 V c ⟨n, h⟩) (ml4 c n).1 (ml4 c n).2)
    else ml4 c n

def lse4 (c : Dev nD) (t : Fin cfg4.N) : Vec 𝕀 S512x1 .f32 :=
  k4_pay3 (stats4_m (grid4.coords t) (x4_0 V c t) (x4_1 V c t) (x4_2 V c t) (ml4 V c t.val).1)
    (stats4_l (grid4.coords t) (x4_0 V c t) (x4_1 V c t) (x4_2 V c t) (ml4 V c t.val).1 (ml4 V c t.val).2)

abbrev scrA4 : Memref sig .tc .vmem S512x1 .f32 := Memref.whole cc4_scratch0
abbrev scrB4 : Memref sig .tc .vmem S512x1 .f32 := Memref.whole cc4_scratch1
abbrev restBut4 (c : Dev nD) : sProp 𝕄 :=
  Pipeline.scopedRestBut (Ix := Unit) (Name := ℕ) (U := UR sig nD τ) (Lvl := ℕ) (Val := Elt 𝕀) spec4 c [cc4_scratch0, cc4_scratch1]

-- Between points the two column buffers hold the recursion's values.
def Φ4 (c : Dev nD) (t : Fin (cfg4.N + 1)) : sProp 𝕄 :=
  if t.val = 0 then Pipeline.ΦA spec4 c
  else iprop((owns (c : Thread nD τ) scrA4 fullShare (ml4 V c t.val).1 ∗ owns (c : Thread nD τ) scrB4 fullShare (ml4 V c t.val).2)
    ∗ restBut4 c ∗ ∃ r, prngReg c r)

def dat4 (c : Dev nD) : Dat τ (Elt 𝕀) Unit ℕ (UR sig nD τ) ℕ cfg4 c where
  A w := V c (Pipeline.arrRef spec4 w)
  after w t := match w with
    | ⟨0, _⟩ => x4_0 V c t
    | ⟨1, _⟩ => x4_1 V c t
    | ⟨2, _⟩ => x4_2 V c t
    | ⟨3, _⟩ => lse4 V c t
  Φ t := Φ4 V c t
  q _ := fullShare
  owed _ := 0

theorem A_eq4 (c : Dev nD) (w : Fin cfg4.W) : (dat4 V c).A w = V c (Pipeline.arrRef spec4 w) := rfl
theorem after4_0 (c : Dev nD) (t : Fin cfg4.N) : (dat4 V c).after 0 t = x4_0 V c t := rfl
theorem after4_1 (c : Dev nD) (t : Fin cfg4.N) : (dat4 V c).after 1 t = x4_1 V c t := rfl
theorem after4_2 (c : Dev nD) (t : Fin cfg4.N) : (dat4 V c).after 2 t = x4_2 V c t := rfl
theorem after4_3 (c : Dev nD) (t : Fin cfg4.N) : (dat4 V c).after 3 t = lse4 V c t := rfl

theorem before4_0 (c : Dev nD) (t : Fin cfg4.N) (d) : (dat4 V c).before 0 t d = x4_0 V c t :=
  ((dat4 V c).before_in_eq_fetched 0 rfl (fun _ => rfl) (fun _ _ _ => rfl)
    (fun t => by rw [after4_0]; unfold Dat.blockOf x4_0 iblk4; rw [A_eq4]; try rfl) t d).trans
    (by unfold Dat.fetched Dat.blockOf x4_0 iblk4; rw [A_eq4]; try rfl)
theorem before4_1 (c : Dev nD) (t : Fin cfg4.N) (d) :
    (dat4 V c).before 1 t d = win4_1.fill (grid4.coords t) d (iblk4 V c 1 t) := by
  unfold Dat.before; rw [if_pos (fetch4_1 t)]; rfl
theorem before4_2 (c : Dev nD) (t : Fin cfg4.N) (d) :
    (dat4 V c).before 2 t d = win4_2.fill (grid4.coords t) d (iblk4 V c 2 t) := by
  unfold Dat.before; rw [if_pos (fetch4_2 t)]; rfl

theorem ml4_succ (c : Dev nD) (t : Fin grid4.N) : ml4 V c (t.val + 1)
    = (stats4_scr0 (grid4.coords t) (x4_0 V c t) (x4_1 V c t) (x4_2 V c t) (ml4 V c t.val).1,
       stats4_scr1 (grid4.coords t) (x4_0 V c t) (x4_1 V c t) (x4_2 V c t) (ml4 V c t.val).1 (ml4 V c t.val).2) := by
  rw [ml4, dif_pos t.isLt]

theorem sched4_3 : ∀ t : Fin grid4.N, (t.val = 39 → idle4 3 (grid4.coords t) = false)
    ∧ (t.val ≠ 39 → idle4 3 (grid4.coords t) = true ∧ (win4 3).flush t = false) := by decide +kernel

-- The invariant before point t, opened: the column buffers at some contents, the recursion's after the first point.
theorem Φ4_open (c : Dev nD) (t : Fin cfg4.N) : (dat4 V c).Φ t.castSucc
    ⊢ (iprop(∃ f0 f1, ⌜t.val ≠ 0 → f0 = (ml4 V c t.val).1 ∧ f1 = (ml4 V c t.val).2⌝
        ∗ owns (c : Thread nD τ) scrA4 fullShare f0 ∗ owns (c : Thread nD τ) scrB4 fullShare f1
        ∗ restBut4 c ∗ ∃ r, prngReg c r) : sProp 𝕄) := by
  show Φ4 V c t.castSucc ⊢ _
  unfold Φ4
  rw [Fin.coe_castSucc]
  by_cases h : t.val = 0
  · rw [if_pos h]
    unfold Pipeline.ΦA; rw [scopedRest4_split]
    iintro ⟨⟨⟨⟨%f0, H0⟩, ⟨%f1, H1⟩⟩, Hr⟩, Hp⟩
    iexists f0; iexists f1
    isplitr; · ipureintro; exact fun h' => absurd h h'
    rw [owns_whole, owns_whole]
    iframe
  · rw [if_neg h]
    iintro ⟨⟨H0, H1⟩, Hr, Hp⟩
    iexists _; iexists _
    isplitr; · ipureintro; exact fun _ => ⟨rfl, rfl⟩
    iframe

theorem Φ4_close (c : Dev nD) (t : Fin cfg4.N) :
    (iprop(owns (c : Thread nD τ) scrA4 fullShare (ml4 V c (t.val + 1)).1 ∗ owns (c : Thread nD τ) scrB4 fullShare (ml4 V c (t.val + 1)).2
        ∗ restBut4 c ∗ ∃ r, prngReg c r) : sProp 𝕄) ⊢ (dat4 V c).Φ t.succ := by
  show _ ⊢ Φ4 V c t.succ
  unfold Φ4
  rw [Fin.val_succ, if_neg (Nat.succ_ne_zero _)]
  iintro ⟨H0, H1, Hr, Hp⟩
  iframe

theorem body_obligation4 (c : Dev nD) : BodyObligationLoose (dat4 V c) (defs₀ (F := 𝕀)) Variants.none () Set.univ := fun t => by
  rw [bigSep_W4, bigSep_W4]
  simp only
  rw [show (dat4 V c).owesAt () t.succ = (dat4 V c).owesAt () t.castSucc from rfl, after4_0, after4_1, after4_2]
  refine (sep_mono (Φ4_open V c t) .rfl).trans ?_
  iintro ⟨⟨%f0, %f1, %hf, Hs0, Hs1, Hr, Hp⟩, Ho, ⟨%d0, H0⟩, ⟨%d1, H1⟩, ⟨%d2, H2⟩, ⟨%d3, H3⟩⟩
  rw [before4_0 V c t d0, before4_1 V c t d1, before4_2 V c t d2]
  iapply (triple_stats4 (F := 𝕀) Variants.none c Set.univ (grid4.coords t) _ _ _ _ _ _ _ _ _ _ _ _
    (x4_0 V c t) (win4_1.fill (grid4.coords t) d1 (iblk4 V c 1 t)) (win4_2.fill (grid4.coords t) d2 (iblk4 V c 2 t))
    ((dat4 V c).before 3 t d3) f0 f1 _)
  isplitl [H0 H1 H2 H3 Hs0 Hs1]
  · iframe
  iintro ⟨H0, H1, H2, H3, Hs0, Hs1⟩
  obtain ⟨hm, hl⟩ := stats4_pad t (x4_0 V c t) (iblk4 V c 1 t) (iblk4 V c 2 t) d1 (fun _ => pad) d2 (fun _ => pad) f0 _ f1 _ hf
  isplitl [Hs0 Hs1 Hr Hp]
  · iapply (Φ4_close V c t)
    rw [ml4_succ V c t]
    unfold stats4_scr0 stats4_scr1 x4_1 x4_2 at *
    rw [hm, hl]
    iframe
  iframe Ho H0
  isplitl [H1]
  · iexists d1; unfold x4_1; rw [(win4 1).cut_fill]; iexact H1
  isplitl [H2]
  · iexists d2; unfold x4_2; rw [(win4 2).cut_fill]; iexact H2
  by_cases h9 : t.val = 39
  · rw [(sched4_3 t).1 h9]
    simp only
    rw [after4_3]; unfold lse4 stats4_out x4_1 x4_2
    rw [if_pos ((k4_cond2_iff t).mpr h9), hm, hl]
    iexact H3
  · rw [((sched4_3 t).2 h9).1, ((sched4_3 t).2 h9).2]
    simp only
    unfold stats4_out
    rw [if_neg (fun h => h9 ((k4_cond2_iff t).mp h))]
    iexists d3; iexact H3
end R4

end Cert.KernelIdeal.IdealData

end
-- ==== Proof.IdealStatsValue6.lean ====
import proofs.«138250_j73134703116926_1_alg».proof.Proof.Gen.KernelIdeal.Skeleton
import proofs.«138250_j73134703116926_1_alg».proof.Proof.LibOnlineLse
import proofs.«138250_j73134703116926_1_alg».proof.Proof.LibRowReduce
import proofs.«138250_j73134703116926_1_alg».proof.Proof.IdealFinValue
import proofs.«138250_j73134703116926_1_alg».proof.Proof.IdealStatsValue
import Idealize.ShloMosaic.Lib.ValueIdx
import Idealize.ShloMosaic.Lib.ValueLayout
import Idealize.ShloMosaic.PureOps.Ideal.Laws

noncomputable section

namespace Cert.KernelIdeal.StatsValue6

open Idealize.ShloMosaic Idealize.ShloMosaic.ValueIdx Cert.KernelIdeal Cert.KernelIdeal.Gen
open scoped BigOperators

def AgreeOn (t : ℕ) (v6 v6' : Vec Ideal S4096x16 .f32) (v9 v9' : Vec Ideal S4096 .f32) : Prop :=
  ∀ j : Fin 4096, t * 4096 + j.val < 67735 → (∀ k : Fin 16, v6 (ix2 j k) = v6' (ix2 j k)) ∧ v9 (ix1 j) = v9' (ix1 j)

def rlogit (p : Fin 512 → Fin 16 → ℝ) (w : Fin 67735 → Fin 16 → ℝ) (β : Fin 67735 → ℝ) (r : Fin 512) (j : Fin 67735) : ℝ :=
  (∑ k, p r k * w j k) + β j

theorem pay1_eq (v30 : FVec Ideal S512x1 .f32) : k6_pay1 (F := Ideal) v30 = v30 := shapeCast_self _ _
theorem pay2_eq (v37 : FVec Ideal S512x1 .f32) : k6_pay2 (F := Ideal) v37 = v37 := shapeCast_self _ _

variable (i : grid6.Coords) (v3 : Vec Ideal S512x16 .f32) (v6 v6' : Vec Ideal S4096x16 .f32) (v9 v9' : Vec Ideal S4096 .f32)
  (v28 v29 : Vec Ideal S512x1 .f32) (r : Fin 512) (j : Fin 4096) (c : Fin 1)

theorem pay6_apply : k6_pay6 (F := Ideal) i v3 v6 v9 (ix2 r j) = StatsValue.mlogit 67735 (i 0).val v3 v6 v9 r j := by
  have ht : (i 0).val < 17 := (i 0).isLt
  unfold k6_pay6
  rw [shapeCast_self]
  exact StatsValue.masked_apply 67735 (i 0).val (by omega) (by norm_num) _ _ _ _ v3 v6 v9 r j

theorem pay6_congr (h : AgreeOn (i 0).val v6 v6' v9 v9') :
    k6_pay6 (F := Ideal) i v3 v6 v9 = k6_pay6 (F := Ideal) i v3 v6' v9' := by
  funext x
  obtain ⟨r, j, rfl⟩ : ∃ (r : Fin 512) (j : Fin 4096), x = ix2 r j := ⟨x 0, x 1, eq_ix2 x⟩
  rw [pay6_apply, pay6_apply]
  exact StatsValue.mlogit_congr 67735 _ v3 h r j

theorem pay8_congr (h : AgreeOn (i 0).val v6 v6' v9 v9') :
    k6_pay8 (F := Ideal) i v3 v6 v9 v28 = k6_pay8 (F := Ideal) i v3 v6' v9' v28 := by
  unfold k6_pay8 k6_pay7
  rw [pay6_congr i v3 v6 v6' v9 v9' h]

theorem pay9_congr (h : AgreeOn (i 0).val v6 v6' v9 v9') :
    k6_pay9 (F := Ideal) i v3 v6 v9 v28 v29 = k6_pay9 (F := Ideal) i v3 v6' v9' v28 v29 := by
  unfold k6_pay9 k6_pay8 k6_pay7
  rw [pay6_congr i v3 v6 v6' v9 v9' h]

-- One grid point is one step of the online recurrence on every row.
theorem step_eq :
    (k6_pay8 (F := Ideal) i v3 v6 v9 v28 (ix2 r c), k6_pay9 (F := Ideal) i v3 v6 v9 v28 v29 (ix2 r c))
      = LibOnlineLse.step (v28 (ix2 r c), v29 (ix2 r c)) fun j => StatsValue.mlogit 67735 (i 0).val v3 v6 v9 r j :=
  (StatsValue.step_apply (k6_pay6 (F := Ideal) i v3 v6 v9) _ _ _ _ _ _ _ rfl v28 v29 r c).trans
    (congrArg (LibOnlineLse.step _) (funext fun j => pay6_apply i v3 v6 v9 r j))

theorem stats_lse (p : Fin 512 → Fin 16 → ℝ) (w : Fin 67735 → Fin 16 → ℝ) (β : Fin 67735 → ℝ)
    (v3 : Vec Ideal S512x16 .f32) (W : ℕ → Vec Ideal S4096x16 .f32) (B : ℕ → Vec Ideal S4096 .f32)
    (h3 : ∀ r k, v3 (ix2 r k) = ((p r k : ℝ) : EReal))
    (hW : ∀ t (j : Fin 4096) (k : Fin 16) (h : t * 4096 + j.val < 67735), W t (ix2 j k) = ((w ⟨t * 4096 + j.val, h⟩ k : ℝ) : EReal))
    (hB : ∀ t (j : Fin 4096) (h : t * 4096 + j.val < 67735), B t (ix1 j) = ((β ⟨t * 4096 + j.val, h⟩ : ℝ) : EReal))
    (M L : ℕ → Vec Ideal S512x1 .f32) (hM0 : M 0 = k6_pay4 (F := Ideal)) (hL0 : L 0 = k6_pay5 (F := Ideal))
    (hstep : ∀ t, t < 17 → ∃ i : grid6.Coords, (i 0).val = t ∧ M (t + 1) = k6_pay8 (F := Ideal) i v3 (W t) (B t) (M t)
      ∧ L (t + 1) = k6_pay9 (F := Ideal) i v3 (W t) (B t) (M t) (L t))
    (r : Fin 512) (c : Fin 1) :
    k6_pay3 (F := Ideal) (M 17) (L 17) (ix2 r c)
      = ((Real.log (∑ j : Fin 67735, Real.exp (rlogit p w β r j)) : ℝ) : EReal) := by
  show M 17 (ix2 r c) + Ideal.log (L 17 (ix2 r c)) = _
  refine StatsValue.lse_rows 67735 17 (by norm_num) (by norm_num) p w β v3 W B h3 hW hB M L (hM0.trans (StatsValue.reset_max _))
    (hL0.trans (StatsValue.reset_sum _)) (fun t ht r c => ?_) r c
  obtain ⟨i, hi, hM, hL⟩ := hstep t ht
  rw [hM, hL, step_eq, hi]

end Cert.KernelIdeal.StatsValue6

end
-- ==== Proof.TripleStats6.lean ====
import proofs.«138250_j73134703116926_1_alg».proof.Proof.TripleStats0

noncomputable section

namespace Cert.KernelIdeal.Triples

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

section
variable (i : grid6.Coords) (X0 : Vec F S512x16 .f32) (X1 : Vec F S4096x16 .f32) (X2 : Vec F S4096 .f32)
  (X3 f0 f1 : Vec F S512x1 .f32)

def k6_cond1 : BitVec 1 :=
  Scalar.cmpi .ne (Scalar.extui (Scalar.cmpi .eq (BitVec.ofNat 32 (i 0).val) 0#32) : BitVec 32) 0#32

def stats6_mIn : Vec F S512x1 .f32 := if k6_cond1 i = 1#1 then k6_pay4 else f0

def stats6_lIn : Vec F S512x1 .f32 := if k6_cond1 i = 1#1 then k6_pay5 else f1

def stats6_m : FVec F S512x1 .f32 := k6_pay8 i X0 X1 X2 (stats6_mIn i f0)

def stats6_l : FVec F S512x1 .f32 := k6_pay9 i X0 X1 X2 (stats6_mIn i f0) (stats6_lIn i f1)

def stats6_scr0 : Vec F S512x1 .f32 := k6_pay1 (stats6_m i X0 X1 X2 f0)

def stats6_scr1 : Vec F S512x1 .f32 := k6_pay2 (stats6_l i X0 X1 X2 f0 f1)

def stats6_out : Vec F S512x1 .f32 :=
  if k6_cond2 i = 1#1 then k6_pay3 (stats6_m i X0 X1 X2 f0) (stats6_l i X0 X1 X2 f0 f1) else X3

end

theorem k6_cond1_iff : ∀ t : Fin grid6.N, k6_cond1 (grid6.coords t) = 1#1 ↔ t.val = 0 := by decide +kernel
theorem k6_cond2_iff : ∀ t : Fin grid6.N, k6_cond2 (grid6.coords t) = 1#1 ↔ t.val = 16 := by decide +kernel

variable {Ix : Type} [DecidableEq Ix] {U : Type} [URA U] {Lvl : Type} [Preorder Lvl]

local notation "𝕄" => MT nD τ sig Ix (Elt F) ℕ U Lvl

theorem triple_stats6 (𝒱₀ : Variants) (c : Dev nD) (E : Set ℕ) (i : grid6.Coords)
    (arg1 : Memref sig .tc .vmem S512x16 .f32) (harg1 : arg1.IsWhole) (arg2 : Memref sig .tc .vmem S4096x16 .f32) (harg2 : arg2.IsWhole)
    (arg3 : Memref sig .tc .vmem S4096 .f32) (harg3 : arg3.IsWhole) (arg4 : Memref sig .tc .vmem S512x1 .f32) (harg4 : arg4.IsWhole)
    (arg5 : Memref sig .tc .vmem S512x1 .f32) (harg5 : arg5.IsWhole) (arg6 : Memref sig .tc .vmem S512x1 .f32) (harg6 : arg6.IsWhole)
    (X0 : Vec F S512x16 .f32) (X1 : Vec F S4096x16 .f32) (X2 : Vec F S4096 .f32) (X3 f0 f1 : Vec F S512x1 .f32)
    (K : PUnit → sProp 𝕄) :
    iprop((owns (c : Thread nD τ) arg1 fullShare X0 ∗ owns (c : Thread nD τ) arg2 fullShare X1 ∗ owns (c : Thread nD τ) arg3 fullShare X2
            ∗ owns (c : Thread nD τ) arg4 fullShare X3 ∗ owns (c : Thread nD τ) arg5 fullShare f0 ∗ owns (c : Thread nD τ) arg6 fullShare f1)
          ∗ (iprop(owns (c : Thread nD τ) arg1 fullShare X0 ∗ owns (c : Thread nD τ) arg2 fullShare X1 ∗ owns (c : Thread nD τ) arg3 fullShare X2
                  ∗ owns (c : Thread nD τ) arg4 fullShare (stats6_out i X0 X1 X2 X3 f0 f1)
                  ∗ owns (c : Thread nD τ) arg5 fullShare (stats6_scr0 i X0 X1 X2 f0)
                  ∗ owns (c : Thread nD τ) arg6 fullShare (stats6_scr1 i X0 X1 X2 f0 f1)) -∗ K ⟨⟩))
      ⊢ wp frame (wpE (defs₀ (F := F)) 𝒱₀ c none) E
          (cc6__stats_kernel i arg1 harg1 arg2 harg2 arg3 harg3 arg4 harg4 arg5 harg5 arg6 harg6) K := by
  sl_unfold [cc6__stats_kernel]
  unfold owns
  iintro ⟨⟨⟨%g1, %hg1, H1⟩, ⟨%g2, %hg2, H2⟩, ⟨%g3, %hg3, H3⟩, ⟨%g4, %hg4, H4⟩, ⟨%g5, %hg5, H5⟩, ⟨%g6, %hg6, H6⟩⟩, Hk⟩
  subst hg1 hg2 hg3 hg4 hg5 hg6
  sl_exec
  sl_step
  have hm : triple_stats6.sl.r c i arg1 arg2 arg3 arg5 g1 g2 g3 g5
      = stats6_m i (arg1.view.read (Elt F) g1) (arg2.view.read (Elt F) g2) (arg3.view.read (Elt F) g3) (arg5.view.read (Elt F) g5) := by
    unfold triple_stats6.sl.r triple_stats6.sl.v28 stats6_m stats6_mIn
    rw [stats_readAt _ _ stats_off2, stats_readAt _ _ stats_off2, stats_readAt _ _ stats_off1, stats_readAt _ _ stats_off2, stats_read_guarded _ _ stats_off2]
    rfl
  have hl : triple_stats6.sl.r_1 c i arg1 arg2 arg3 arg5 arg6 g1 g2 g3 g5 g6
      = stats6_l i (arg1.view.read (Elt F) g1) (arg2.view.read (Elt F) g2) (arg3.view.read (Elt F) g3) (arg5.view.read (Elt F) g5)
          (arg6.view.read (Elt F) g6) := by
    unfold triple_stats6.sl.r_1 triple_stats6.sl.v28 triple_stats6.sl.v29 stats6_l stats6_mIn stats6_lIn
    rw [stats_readAt _ _ stats_off2, stats_readAt _ _ stats_off2, stats_readAt _ _ stats_off1, stats_readAt _ _ stats_off2, stats_readAt _ _ stats_off2,
      stats_read_guarded _ _ stats_off2, stats_read_guarded _ _ stats_off2]
    rfl
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro
    refine (stats_read_guarded _ _ stats_off2 _ _ _).trans ?_
    rw [hm, hl, stats6_out]
  isplitl [H5]
  · iexists _; isplitr; swap; · iexact H5
    ipureintro; exact (stats_read_writes _ _ stats_off2 _ _ _).trans (congrArg k6_pay1 hm)
  · iexists _; isplitr; swap; · iexact H6
    ipureintro; exact (stats_read_writes _ _ stats_off2 _ _ _).trans (congrArg k6_pay2 hl)

end Cert.KernelIdeal.Triples
-- ==== Proof.IdealStatsData6.lean ====
import proofs.«138250_j73134703116926_1_alg».proof.Proof.IdealStatsValue6
import proofs.«138250_j73134703116926_1_alg».proof.Proof.TripleStats6
import proofs.«138250_j73134703116926_1_alg».proof.Proof.IdealStatsData0

noncomputable section

namespace Cert.KernelIdeal.StatsValue

open Idealize.ShloMosaic Idealize.ShloMosaic.ValueIdx Cert.KernelIdeal Cert.KernelIdeal.Gen Cert.KernelIdeal.Triples
open Idealize.ShloMosaic.Pipeline (Window)
open scoped BigOperators

theorem coords6_val : ∀ t : Fin grid6.N, ((grid6.coords t) 0).val = t.val := by decide +kernel

theorem xsize6_1 : ∀ t : Fin grid6.N, win6_1.xsize (grid6.coords t) 0 = min 4096 (67735 - t.val * 4096)
    ∧ win6_1.xsize (grid6.coords t) 1 = 16 := by decide +kernel

theorem xsize6_2 : ∀ t : Fin grid6.N, win6_2.xsize (grid6.coords t) 0 = min 4096 (67735 - t.val * 4096) := by decide +kernel

-- The buffers are read through the first branch: reset at the first point, as found otherwise.
theorem mIn_eq6 (t : Fin grid6.N) (f : Vec Ideal S512x1 .f32) :
    stats6_mIn (grid6.coords t) f = if t.val = 0 then k6_pay4 (F := Ideal) else f := if_congr (k6_cond1_iff t) rfl rfl
theorem lIn_eq6 (t : Fin grid6.N) (f : Vec Ideal S512x1 .f32) :
    stats6_lIn (grid6.coords t) f = if t.val = 0 then k6_pay5 (F := Ideal) else f := if_congr (k6_cond1_iff t) rfl rfl

-- The merged maximum and sum depend neither on the filler (its columns are masked) nor, at the first point, on the buffers found.
theorem stats6_pad (t : Fin grid6.N) (X0 : Vec Ideal S512x16 .f32)
    (b1 : (win6_1.xblock (grid6.coords t)).Idx → Elt Ideal .f32) (b2 : (win6_2.xblock (grid6.coords t)).Idx → Elt Ideal .f32)
    (d1 d1' : Vec Ideal S4096x16 .f32) (d2 d2' : Vec Ideal S4096 .f32) (f0 f0' f1 f1' : Vec Ideal S512x1 .f32)
    (hf : t.val ≠ 0 → f0 = f0' ∧ f1 = f1') :
    stats6_m (grid6.coords t) X0 (win6_1.fill (grid6.coords t) d1 b1) (win6_2.fill (grid6.coords t) d2 b2) f0
      = stats6_m (grid6.coords t) X0 (win6_1.fill (grid6.coords t) d1' b1) (win6_2.fill (grid6.coords t) d2' b2) f0'
    ∧ stats6_l (grid6.coords t) X0 (win6_1.fill (grid6.coords t) d1 b1) (win6_2.fill (grid6.coords t) d2 b2) f0 f1
      = stats6_l (grid6.coords t) X0 (win6_1.fill (grid6.coords t) d1' b1) (win6_2.fill (grid6.coords t) d2' b2) f0' f1' := by
  have ha : StatsValue6.AgreeOn ((grid6.coords t) 0).val (win6_1.fill (grid6.coords t) d1 b1) (win6_1.fill (grid6.coords t) d1' b1)
      (win6_2.fill (grid6.coords t) d2 b2) (win6_2.fill (grid6.coords t) d2' b2) := by
    intro j hj
    rw [coords6_val t] at hj
    have hj' := j.isLt
    refine ⟨fun k => fill_moved _ _ _ _ _ ((win6_1.moved_iff _ _).mpr fun a => ?_),
      fill_moved _ _ _ _ _ ((win6_2.moved_iff _ _).mpr fun a => ?_)⟩
    · match a with
      | ⟨0, _⟩ => show j.val < win6_1.xsize (grid6.coords t) 0; rw [(xsize6_1 t).1]; omega
      | ⟨1, _⟩ => show k.val < win6_1.xsize (grid6.coords t) 1; rw [(xsize6_1 t).2]; exact k.isLt
    · match a with
      | ⟨0, _⟩ => show j.val < win6_2.xsize (grid6.coords t) 0; rw [xsize6_2 t]; omega
  unfold stats6_m stats6_l
  rw [StatsValue6.pay8_congr (grid6.coords t) X0 _ _ _ _ _ ha, StatsValue6.pay9_congr (grid6.coords t) X0 _ _ _ _ _ _ ha]
  by_cases h : t.val = 0
  · simp only [mIn_eq6, lIn_eq6, if_pos h, and_self]
  · rw [(hf h).1, (hf h).2]; exact ⟨rfl, rfl⟩

def foundM6 (ml : ℕ → Vec Ideal S512x1 .f32 × Vec Ideal S512x1 .f32) (t : ℕ) : Vec Ideal S512x1 .f32 :=
  if t = 0 then k6_pay4 (F := Ideal) else (ml t).1

def foundL6 (ml : ℕ → Vec Ideal S512x1 .f32 × Vec Ideal S512x1 .f32) (t : ℕ) : Vec Ideal S512x1 .f32 :=
  if t = 0 then k6_pay5 (F := Ideal) else (ml t).2

-- What the points find in the buffers runs through the payloads' own recurrence.
theorem found_succ6 (X0 : Vec Ideal S512x16 .f32) (X1 : Fin grid6.N → Vec Ideal S4096x16 .f32)
    (X2 : Fin grid6.N → Vec Ideal S4096 .f32) (ml : ℕ → Vec Ideal S512x1 .f32 × Vec Ideal S512x1 .f32)
    (t : Fin grid6.N)
    (hml : ml (t.val + 1) = (stats6_scr0 (grid6.coords t) X0 (X1 t) (X2 t) (ml t.val).1,
      stats6_scr1 (grid6.coords t) X0 (X1 t) (X2 t) (ml t.val).1 (ml t.val).2)) :
    foundM6 ml (t.val + 1) = k6_pay8 (F := Ideal) (grid6.coords t) X0 (X1 t) (X2 t) (foundM6 ml t.val)
    ∧ foundL6 ml (t.val + 1) = k6_pay9 (F := Ideal) (grid6.coords t) X0 (X1 t) (X2 t) (foundM6 ml t.val) (foundL6 ml t.val) := by
  unfold foundM6 foundL6
  rw [if_neg (Nat.succ_ne_zero _), if_neg (Nat.succ_ne_zero _), hml]
  refine ⟨?_, ?_⟩
  · show k6_pay1 (F := Ideal) (stats6_m (grid6.coords t) X0 (X1 t) (X2 t) (ml t.val).1) = _
    rw [StatsValue6.pay1_eq]; unfold stats6_m; rw [mIn_eq6]
  · show k6_pay2 (F := Ideal) (stats6_l (grid6.coords t) X0 (X1 t) (X2 t) (ml t.val).1 (ml t.val).2) = _
    rw [StatsValue6.pay2_eq]; unfold stats6_l; rw [mIn_eq6, lIn_eq6]

end Cert.KernelIdeal.StatsValue
-- ==== Proof.IdealStats6.lean ====
import proofs.«138250_j73134703116926_1_alg».proof.Proof.IdealBase
import proofs.«138250_j73134703116926_1_alg».proof.Proof.IdealStatsData6
import Idealize.ShloMosaic.Lib.Pipeline.RegionsLoop

set_option maxRecDepth 1656

noncomputable section

namespace Cert.KernelIdeal.IdealData
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.ShloMosaic.Pipeline (Dat BodyObligationLoose)
open Cert.KernelIdeal.Triples Cert.KernelIdeal.StatsValue
local notation "𝕀" => Idealize.ShloMosaic.Ideal
local notation "𝕄" => MT nD τ sig Unit (Elt 𝕀) ℕ (UR sig nD τ) ℕ

section R6
variable (V : VT)

def iblk6 (c : Dev nD) (w : Fin cfg6.W) (t : Fin cfg6.N) : ((cfg6.win w).xblock (cfg6.grid.coords t)).Idx → Elt 𝕀 (cfg6.win w).elt :=
  ((cfg6.win w).blk t).view.read (Elt 𝕀) (V c (Pipeline.arrRef spec6 w))

def x6_0 (c : Dev nD) (t : Fin cfg6.N) : Vec 𝕀 S512x16 .f32 := iblk6 V c 0 t
def x6_1 (c : Dev nD) (t : Fin cfg6.N) : Vec 𝕀 S4096x16 .f32 := win6_1.fill (grid6.coords t) (fun _ => pad) (iblk6 V c 1 t)
def x6_2 (c : Dev nD) (t : Fin cfg6.N) : Vec 𝕀 S4096 .f32 := win6_2.fill (grid6.coords t) (fun _ => pad) (iblk6 V c 2 t)

-- The running maximum and sum before point n: the recursion through the kernel's own merge (the value at 0 is never read).
def ml6 (c : Dev nD) : ℕ → Vec 𝕀 S512x1 .f32 × Vec 𝕀 S512x1 .f32
  | 0 => (fun _ => pad, fun _ => pad)
  | n + 1 =>
    if h : n < grid6.N then
      (stats6_scr0 (grid6.coords ⟨n, h⟩) (x6_0 V c ⟨n, h⟩) (x6_1 V c ⟨n, h⟩) (x6_2 V c ⟨n, h⟩) (ml6 c n).1,
       stats6_scr1 (grid6.coords ⟨n, h⟩) (x6_0 V c ⟨n, h⟩) (x6_1 V c ⟨n, h⟩) (x6_2 V c ⟨n, h⟩) (ml6 c n).1 (ml6 c n).2)
    else ml6 c n

def lse6 (c : Dev nD) (t : Fin cfg6.N) : Vec 𝕀 S512x1 .f32 :=
  k6_pay3 (stats6_m (grid6.coords t) (x6_0 V c t) (x6_1 V c t) (x6_2 V c t) (ml6 V c t.val).1)
    (stats6_l (grid6.coords t) (x6_0 V c t) (x6_1 V c t) (x6_2 V c t) (ml6 V c t.val).1 (ml6 V c t.val).2)

abbrev scrA6 : Memref sig .tc .vmem S512x1 .f32 := Memref.whole cc6_scratch0
abbrev scrB6 : Memref sig .tc .vmem S512x1 .f32 := Memref.whole cc6_scratch1
abbrev restBut6 (c : Dev nD) : sProp 𝕄 :=
  Pipeline.scopedRestBut (Ix := Unit) (Name := ℕ) (U := UR sig nD τ) (Lvl := ℕ) (Val := Elt 𝕀) spec6 c [cc6_scratch0, cc6_scratch1]

-- Between points the two column buffers hold the recursion's values.
def Φ6 (c : Dev nD) (t : Fin (cfg6.N + 1)) : sProp 𝕄 :=
  if t.val = 0 then Pipeline.ΦA spec6 c
  else iprop((owns (c : Thread nD τ) scrA6 fullShare (ml6 V c t.val).1 ∗ owns (c : Thread nD τ) scrB6 fullShare (ml6 V c t.val).2)
    ∗ restBut6 c ∗ ∃ r, prngReg c r)

def dat6 (c : Dev nD) : Dat τ (Elt 𝕀) Unit ℕ (UR sig nD τ) ℕ cfg6 c where
  A w := V c (Pipeline.arrRef spec6 w)
  after w t := match w with
    | ⟨0, _⟩ => x6_0 V c t
    | ⟨1, _⟩ => x6_1 V c t
    | ⟨2, _⟩ => x6_2 V c t
    | ⟨3, _⟩ => lse6 V c t
  Φ t := Φ6 V c t
  q _ := fullShare
  owed _ := 0

theorem A_eq6 (c : Dev nD) (w : Fin cfg6.W) : (dat6 V c).A w = V c (Pipeline.arrRef spec6 w) := rfl
theorem after6_0 (c : Dev nD) (t : Fin cfg6.N) : (dat6 V c).after 0 t = x6_0 V c t := rfl
theorem after6_1 (c : Dev nD) (t : Fin cfg6.N) : (dat6 V c).after 1 t = x6_1 V c t := rfl
theorem after6_2 (c : Dev nD) (t : Fin cfg6.N) : (dat6 V c).after 2 t = x6_2 V c t := rfl
theorem after6_3 (c : Dev nD) (t : Fin cfg6.N) : (dat6 V c).after 3 t = lse6 V c t := rfl

theorem before6_0 (c : Dev nD) (t : Fin cfg6.N) (d) : (dat6 V c).before 0 t d = x6_0 V c t :=
  ((dat6 V c).before_in_eq_fetched 0 rfl (fun _ => rfl) (fun _ _ _ => rfl)
    (fun t => by rw [after6_0]; unfold Dat.blockOf x6_0 iblk6; rw [A_eq6]; try rfl) t d).trans
    (by unfold Dat.fetched Dat.blockOf x6_0 iblk6; rw [A_eq6]; try rfl)
theorem before6_1 (c : Dev nD) (t : Fin cfg6.N) (d) :
    (dat6 V c).before 1 t d = win6_1.fill (grid6.coords t) d (iblk6 V c 1 t) := by
  unfold Dat.before; rw [if_pos (fetch6_1 t)]; rfl
theorem before6_2 (c : Dev nD) (t : Fin cfg6.N) (d) :
    (dat6 V c).before 2 t d = win6_2.fill (grid6.coords t) d (iblk6 V c 2 t) := by
  unfold Dat.before; rw [if_pos (fetch6_2 t)]; rfl

theorem ml6_succ (c : Dev nD) (t : Fin grid6.N) : ml6 V c (t.val + 1)
    = (stats6_scr0 (grid6.coords t) (x6_0 V c t) (x6_1 V c t) (x6_2 V c t) (ml6 V c t.val).1,
       stats6_scr1 (grid6.coords t) (x6_0 V c t) (x6_1 V c t) (x6_2 V c t) (ml6 V c t.val).1 (ml6 V c t.val).2) := by
  rw [ml6, dif_pos t.isLt]

theorem sched6_3 : ∀ t : Fin grid6.N, (t.val = 16 → idle6 3 (grid6.coords t) = false)
    ∧ (t.val ≠ 16 → idle6 3 (grid6.coords t) = true ∧ (win6 3).flush t = false) := by decide +kernel

-- The invariant before point t, opened: the column buffers at some contents, the recursion's after the first point.
theorem Φ6_open (c : Dev nD) (t : Fin cfg6.N) : (dat6 V c).Φ t.castSucc
    ⊢ (iprop(∃ f0 f1, ⌜t.val ≠ 0 → f0 = (ml6 V c t.val).1 ∧ f1 = (ml6 V c t.val).2⌝
        ∗ owns (c : Thread nD τ) scrA6 fullShare f0 ∗ owns (c : Thread nD τ) scrB6 fullShare f1
        ∗ restBut6 c ∗ ∃ r, prngReg c r) : sProp 𝕄) := by
  show Φ6 V c t.castSucc ⊢ _
  unfold Φ6
  rw [Fin.coe_castSucc]
  by_cases h : t.val = 0
  · rw [if_pos h]
    unfold Pipeline.ΦA; rw [scopedRest6_split]
    iintro ⟨⟨⟨⟨%f0, H0⟩, ⟨%f1, H1⟩⟩, Hr⟩, Hp⟩
    iexists f0; iexists f1
    isplitr; · ipureintro; exact fun h' => absurd h h'
    rw [owns_whole, owns_whole]
    iframe
  · rw [if_neg h]
    iintro ⟨⟨H0, H1⟩, Hr, Hp⟩
    iexists _; iexists _
    isplitr; · ipureintro; exact fun _ => ⟨rfl, rfl⟩
    iframe

theorem Φ6_close (c : Dev nD) (t : Fin cfg6.N) :
    (iprop(owns (c : Thread nD τ) scrA6 fullShare (ml6 V c (t.val + 1)).1 ∗ owns (c : Thread nD τ) scrB6 fullShare (ml6 V c (t.val + 1)).2
        ∗ restBut6 c ∗ ∃ r, prngReg c r) : sProp 𝕄) ⊢ (dat6 V c).Φ t.succ := by
  show _ ⊢ Φ6 V c t.succ
  unfold Φ6
  rw [Fin.val_succ, if_neg (Nat.succ_ne_zero _)]
  iintro ⟨H0, H1, Hr, Hp⟩
  iframe

theorem body_obligation6 (c : Dev nD) : BodyObligationLoose (dat6 V c) (defs₀ (F := 𝕀)) Variants.none () Set.univ := fun t => by
  rw [bigSep_W6, bigSep_W6]
  simp only
  rw [show (dat6 V c).owesAt () t.succ = (dat6 V c).owesAt () t.castSucc from rfl, after6_0, after6_1, after6_2]
  refine (sep_mono (Φ6_open V c t) .rfl).trans ?_
  iintro ⟨⟨%f0, %f1, %hf, Hs0, Hs1, Hr, Hp⟩, Ho, ⟨%d0, H0⟩, ⟨%d1, H1⟩, ⟨%d2, H2⟩, ⟨%d3, H3⟩⟩
  rw [before6_0 V c t d0, before6_1 V c t d1, before6_2 V c t d2]
  iapply (triple_stats6 (F := 𝕀) Variants.none c Set.univ (grid6.coords t) _ _ _ _ _ _ _ _ _ _ _ _
    (x6_0 V c t) (win6_1.fill (grid6.coords t) d1 (iblk6 V c 1 t)) (win6_2.fill (grid6.coords t) d2 (iblk6 V c 2 t))
    ((dat6 V c).before 3 t d3) f0 f1 _)
  isplitl [H0 H1 H2 H3 Hs0 Hs1]
  · iframe
  iintro ⟨H0, H1, H2, H3, Hs0, Hs1⟩
  obtain ⟨hm, hl⟩ := stats6_pad t (x6_0 V c t) (iblk6 V c 1 t) (iblk6 V c 2 t) d1 (fun _ => pad) d2 (fun _ => pad) f0 _ f1 _ hf
  isplitl [Hs0 Hs1 Hr Hp]
  · iapply (Φ6_close V c t)
    rw [ml6_succ V c t]
    unfold stats6_scr0 stats6_scr1 x6_1 x6_2 at *
    rw [hm, hl]
    iframe
  iframe Ho H0
  isplitl [H1]
  · iexists d1; unfold x6_1; rw [(win6 1).cut_fill]; iexact H1
  isplitl [H2]
  · iexists d2; unfold x6_2; rw [(win6 2).cut_fill]; iexact H2
  by_cases h9 : t.val = 16
  · rw [(sched6_3 t).1 h9]
    simp only
    rw [after6_3]; unfold lse6 stats6_out x6_1 x6_2
    rw [if_pos ((k6_cond2_iff t).mpr h9), hm, hl]
    iexact H3
  · rw [((sched6_3 t).2 h9).1, ((sched6_3 t).2 h9).2]
    simp only
    unfold stats6_out
    rw [if_neg (fun h => h9 ((k6_cond2_iff t).mp h))]
    iexists d3; iexact H3
end R6

end Cert.KernelIdeal.IdealData

end
-- ==== Proof.TripleFin1.lean ====
import proofs.«138250_j73134703116926_1_alg».proof.Proof.Gen.KernelIdeal.Skeleton
import proofs.«138250_j73134703116926_1_alg».proof.Proof.Gen.KernelIdeal.Launch
import proofs.«138250_j73134703116926_1_alg».proof.Proof.Gen.KernelIdeal.Points
import Idealize.ShloMosaic.Lib.Pipeline.Kit
import Idealize.ShloMosaic.Lib.Tactic

noncomputable section

namespace Cert.KernelIdeal.Triples

open Cert.KernelIdeal Cert.KernelIdeal.Gen
open Idealize.ShloMosaic Idealize.ShloMosaic.TcCoe Idealize.SL.RA Idealize.SL.BI Idealize.SL.BI.BIBase Idealize.SL.Sem

variable {F : FTy → Type} [FloatOps F] [Named F]
variable {Ix : Type} [DecidableEq Ix] {U : Type} [URA U] {Lvl : Type} [Preorder Lvl]

local notation "𝕄" => MT nD τ sig Ix (Elt F) ℕ U Lvl

section Whole

variable {sg : RefSig} {κ : Kind} {sp : Space} {s : Shape} {e : EltTy} {Val : EltTy → Type}
  {off : Fin s.rank → ℕ} (h : off = fun _ => 0) (inb : ∀ a, off a + s.size a ≤ s.size a) (v : View sg κ sp s e)
  (f : v.ty.Contents Val)
include h

-- At zero offsets the unit-stride rectangle of the shape's own sizes is the whole shape: a load through it reads what the view reads,
theorem unit_zero_readAt : v.readAt Val (Rect.unit (s := s) off s.size inb).toLoadRect f = v.read Val f := by
  subst h; funext x; show v.read Val f ((LoadRect.whole s).idx x) = _; rw [LoadRect.idx_whole]

-- and after one unmasked store through it the view reads the payload, whatever the buffer held.
theorem unit_zero_read_writes (w : s.Idx → Val e) :
    v.read Val (v.writes Val f [⟨Rect.unit (s := s) off s.size inb, w⟩]) = w := by
  subst h; exact View.read_writes_whole v f w

end Whole

theorem zeros2 : (![0, 0] : Fin 2 → ℕ) = fun _ => 0 := funext fun a => by fin_cases a <;> rfl
theorem zeros1 : (![0] : Fin 1 → ℕ) = fun _ => 0 := funext fun a => by fin_cases a; rfl

def fin1_out (X0 : Vec F S512x1024 .f32) (X1 : Vec F S2048x1024 .f32) (X2 : Vec F S2048 .f32)
    (X3 : Vec F S512x1 .f32) : Vec F S512x2048 .f32 :=
  k1_pay1 X0 X1 X2 X3

-- The body only loads its four inputs whole and stores the output whole once, so the output's buffer reads the stored tile.
theorem fin1_triple (𝒱₀ : Variants) (c : Dev nD) (E : Set ℕ) (i : grid1.Coords)
    (s0 : Fin 1) (s1 : Fin 2) (s2 : Fin 2) (s3 : Fin 1) (s4 : Fin 2)
    (X0 : Vec F S512x1024 .f32) (X1 : Vec F S2048x1024 .f32) (X2 : Vec F S2048 .f32)
    (X3 : Vec F S512x1 .f32) (X4 : Vec F S512x2048 .f32) (K : PUnit → sProp 𝕄) :
    iprop((owns (c : Thread nD τ) (stage1_0 s0) fullShare X0 ∗ owns (c : Thread nD τ) (stage1_1 s1) fullShare X1
            ∗ owns (c : Thread nD τ) (stage1_2 s2) fullShare X2 ∗ owns (c : Thread nD τ) (stage1_3 s3) fullShare X3
            ∗ owns (c : Thread nD τ) (stage1_4 s4) fullShare X4)
          ∗ (iprop(owns (c : Thread nD τ) (stage1_0 s0) fullShare X0 ∗ owns (c : Thread nD τ) (stage1_1 s1) fullShare X1
                  ∗ owns (c : Thread nD τ) (stage1_2 s2) fullShare X2 ∗ owns (c : Thread nD τ) (stage1_3 s3) fullShare X3
                  ∗ owns (c : Thread nD τ) (stage1_4 s4) fullShare (fin1_out X0 X1 X2 X3)) -∗ K ⟨⟩))
      ⊢ wp frame (wpE (defs₀ (F := F)) 𝒱₀ c none) E
          (cc1__finalize_kernel i (stage1_0 s0) (hstage1_0 s0) (stage1_1 s1) (hstage1_1 s1) (stage1_2 s2) (hstage1_2 s2)
            (stage1_3 s3) (hstage1_3 s3) (stage1_4 s4) (hstage1_4 s4)) K := by
  conv_lhs => arg 1; unfold owns
  sl_unfold [cc1__finalize_kernel]
  iintro ⟨⟨⟨%f0, %hf0, H0⟩, ⟨%f1, %hf1, H1⟩, ⟨%f2, %hf2, H2⟩, ⟨%f3, %hf3, H3⟩, ⟨%f4, %hf4, H4⟩⟩, Hk⟩
  subst hf0 hf1 hf2 hf3 hf4
  sl_exec
  sl_step
  iapply Hk
  isplitl [H0]; · iapply (owns_intro _ _ _ _) $$ H0
  isplitl [H1]; · iapply (owns_intro _ _ _ _) $$ H1
  isplitl [H2]; · iapply (owns_intro _ _ _ _) $$ H2
  isplitl [H3]; · iapply (owns_intro _ _ _ _) $$ H3
  unfold owns; iexists _; isplitr; swap; · iexact H4
  ipureintro
  rw [unit_zero_read_writes zeros2]
  sl_unfold_run_names
  rw [unit_zero_readAt zeros2, unit_zero_readAt zeros2, unit_zero_readAt zeros1, unit_zero_readAt zeros2]
  rfl

end Cert.KernelIdeal.Triples
-- ==== Proof.IdealDataFin.lean ====
import proofs.«138250_j73134703116926_1_alg».proof.Proof.KernelIdealRegions
import proofs.«138250_j73134703116926_1_alg».proof.Proof.Gen.KernelIdeal.Skeleton
import proofs.«138250_j73134703116926_1_alg».proof.Proof.Gen.KernelIdeal.Points
import proofs.«138250_j73134703116926_1_alg».proof.Proof.IdealFinValue
import proofs.«138250_j73134703116926_1_alg».proof.Proof.TripleFin1
import Idealize.ShloMosaic.Lib.Pipeline.FrameBody
import Idealize.ShloMosaic.Lib.Pipeline.RegionsLoop
import Idealize.ShloMosaic.Lib.Pipeline.Kit
import Idealize.ShloMosaic.Lib.Tactic
set_option maxRecDepth 1656
noncomputable section
namespace Cert.KernelIdeal.IdealData
open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Triples
local notation "𝕀" => Idealize.ShloMosaic.Ideal
local notation "𝕄" => MT nD τ sig Unit (Elt 𝕀) ℕ (UR sig nD τ) ℕ
def padFin : Elt 𝕀 .f32 := (0 : EReal)

theorem fill_congr_moved {G : Pipeline.Grid} (w : Pipeline.Window sig G) {α : Type} (i : G.Coords) (d d' : w.block.Idx → α)
    (g : (w.xblock i).Idx → α) {j : w.block.Idx} (h : w.moved i j = true) : w.fill i d g j = w.fill i d' g j := by
  unfold Pipeline.Window.fill; rw [dif_pos h, dif_pos h]

theorem owns_leaves_loose {G : Pipeline.Grid} (w : Pipeline.Window sig G) (c : Dev nD) {sp : Space}
    (m : Memref sig (c : Thread nD τ).2.kind sp w.block w.elt) (q : PosShare TreeShare) (i : G.Coords)
    (Y Z : w.block.Idx → Elt 𝕀 w.elt) (h : w.cut i Y = w.cut i Z) :
    owns (c : Thread nD τ) m q Y ⊢ (iprop(∃ d, owns (c : Thread nD τ) m q (w.fill i d (w.cut i Z))) : sProp 𝕄) := by
  iintro H
  iexists Y
  rw [w.fill_congr_cut i h]
  iexact H

theorem xsize1 : ∀ t : Fin grid1.N,
    win1_4.xsize (grid1.coords t) 1 = win1_1.xsize (grid1.coords t) 0
      ∧ win1_1.xsize (grid1.coords t) 1 = 1024
      ∧ win1_2.xsize (grid1.coords t) 0 = win1_1.xsize (grid1.coords t) 0 := by decide +kernel

theorem fin1_out_cut (t : Fin grid1.N) (X0 : Vec 𝕀 S512x1024 .f32) (X3 : Vec 𝕀 S512x1 .f32)
    (b1 : (win1_1.xblock (grid1.coords t)).Idx → Elt 𝕀 .f32) (b2 : (win1_2.xblock (grid1.coords t)).Idx → Elt 𝕀 .f32)
    (d1 d1' : Vec 𝕀 S2048x1024 .f32) (d2 d2' : Vec 𝕀 S2048 .f32) :
    win1_4.cut (grid1.coords t) (fin1_out X0 (win1_1.fill (grid1.coords t) d1 b1) (win1_2.fill (grid1.coords t) d2 b2) X3)
      = win1_4.cut (grid1.coords t) (fin1_out X0 (win1_1.fill (grid1.coords t) d1' b1) (win1_2.fill (grid1.coords t) d2' b2) X3) := by
  funext j
  obtain ⟨h41, h11, h21⟩ := xsize1 t
  have hj : (j 1).val < win1_1.xsize (grid1.coords t) 0 := lt_of_lt_of_eq (j 1).isLt h41
  show fin1_out _ _ _ _ (win1_4.xinj (grid1.coords t) j) = fin1_out _ _ _ _ (win1_4.xinj (grid1.coords t) j)
  rw [eq_ix2 (win1_4.xinj (grid1.coords t) j)]
  unfold fin1_out
  refine Cert.KernelIdeal.FinValue.fin_col_local _ _ _ _ _ _ _ (fun k => ?_) ?_ _
  · refine fill_congr_moved win1_1 _ _ _ _ ((win1_1.moved_iff _ _).mpr fun a => ?_)
    match a with
    | ⟨0, _⟩ => exact hj
    | ⟨1, _⟩ => exact lt_of_lt_of_eq k.isLt h11.symm
  · refine fill_congr_moved win1_2 _ _ _ _ ((win1_2.moved_iff _ _).mpr fun a => ?_)
    match a with
    | ⟨0, _⟩ => exact lt_of_lt_of_eq hj h21.symm
section R1
variable (V : (c : Dev nD) → (b : Ref sig .tc) → Buf (Elt 𝕀) ((c : Thread nD τ).loc b))
def iblk1 (c : Dev nD) (w : Fin cfg1.W) (t : Fin cfg1.N) : ((cfg1.win w).xblock (cfg1.grid.coords t)).Idx → Elt 𝕀 (cfg1.win w).elt :=
  ((cfg1.win w).blk t).view.read (Elt 𝕀) (V c (Pipeline.arrRef spec1 w))
def x1_0 (c : Dev nD) (t : Fin cfg1.N) : Vec 𝕀 S512x1024 .f32 := iblk1 V c 0 t
def x1_1 (c : Dev nD) (t : Fin cfg1.N) : Vec 𝕀 S2048x1024 .f32 := win1_1.fill (grid1.coords t) (fun _ => padFin) (iblk1 V c 1 t)
def x1_2 (c : Dev nD) (t : Fin cfg1.N) : Vec 𝕀 S2048 .f32 := win1_2.fill (grid1.coords t) (fun _ => padFin) (iblk1 V c 2 t)
def x1_3 (c : Dev nD) (t : Fin cfg1.N) : Vec 𝕀 S512x1 .f32 := iblk1 V c 3 t
def out1 (c : Dev nD) (t : Fin cfg1.N) : Vec 𝕀 S512x2048 .f32 := fin1_out (x1_0 V c t) (x1_1 V c t) (x1_2 V c t) (x1_3 V c t)

def dat1 (c : Dev nD) : Dat τ (Elt 𝕀) Unit ℕ (UR sig nD τ) ℕ cfg1 c where
  A w := V c (Pipeline.arrRef spec1 w)
  after w t := match w with
    | ⟨0, _⟩ => x1_0 V c t
    | ⟨1, _⟩ => x1_1 V c t
    | ⟨2, _⟩ => x1_2 V c t
    | ⟨3, _⟩ => x1_3 V c t
    | ⟨4, _⟩ => out1 V c t
  Φ _ := Pipeline.ΦA spec1 c
  q _ := fullShare
  owed _ := 0
theorem A_eq1 (c : Dev nD) (w : Fin cfg1.W) : (dat1 V c).A w = V c (Pipeline.arrRef spec1 w) := by dsimp only [dat1]
theorem after1_0 (c : Dev nD) (t : Fin cfg1.N) : (dat1 V c).after 0 t = x1_0 V c t := rfl
theorem after1_1 (c : Dev nD) (t : Fin cfg1.N) : (dat1 V c).after 1 t = x1_1 V c t := rfl
theorem after1_2 (c : Dev nD) (t : Fin cfg1.N) : (dat1 V c).after 2 t = x1_2 V c t := rfl
theorem after1_3 (c : Dev nD) (t : Fin cfg1.N) : (dat1 V c).after 3 t = x1_3 V c t := rfl
theorem after1_4 (c : Dev nD) (t : Fin cfg1.N) : (dat1 V c).after 4 t = out1 V c t := rfl

theorem before1_whole (c : Dev nD) (t : Fin cfg1.N) : (∀ d, (dat1 V c).before 0 t d = x1_0 V c t)
    ∧ ∀ d, (dat1 V c).before 3 t d = x1_3 V c t := by
  refine ⟨fun d => ?_, fun d => ?_⟩ <;>
  exact ((dat1 V c).before_in_eq_fetched _ rfl (fun _ => rfl) (fun _ _ _ => rfl) (fun _ => rfl) t d).trans rfl

theorem before1_1 (c : Dev nD) (t : Fin cfg1.N) (d) :
    (dat1 V c).before 1 t d = win1_1.fill (grid1.coords t) d (iblk1 V c 1 t) := (if_pos (fetch1_1 t)).trans rfl
theorem before1_2 (c : Dev nD) (t : Fin cfg1.N) (d) :
    (dat1 V c).before 2 t d = win1_2.fill (grid1.coords t) d (iblk1 V c 2 t) := (if_pos (fetch1_2 t)).trans rfl

theorem body_obligation1 (c : Dev nD) : BodyObligationLoose (dat1 V c) (defs₀ (F := 𝕀)) Variants.none () Set.univ := fun t => by
  rw [bigSep_W1, bigSep_W1]
  simp only
  rw [show (dat1 V c).owesAt () t.succ = (dat1 V c).owesAt () t.castSucc from rfl,
    show (dat1 V c).Φ t.succ = (dat1 V c).Φ t.castSucc from rfl, after1_0, after1_1, after1_2, after1_3, after1_4]
  iintro ⟨HΦ, Ho, ⟨%d0, H0⟩, ⟨%d1, H1⟩, ⟨%d2, H2⟩, ⟨%d3, H3⟩, ⟨%d4, H4⟩⟩
  obtain ⟨b0, b3⟩ := before1_whole V c t
  rw [b0 d0, before1_1 V c t d1, before1_2 V c t d2, b3 d3]
  iapply (fin1_triple (F := 𝕀) Variants.none c Set.univ (grid1.coords t)
    ((cfg1.slots t 0).cast nbuf1_0) ((cfg1.slots t 1).cast nbuf1_1) ((cfg1.slots t 2).cast nbuf1_2)
    ((cfg1.slots t 3).cast nbuf1_3) ((cfg1.slots t 4).cast nbuf1_4) _ _ _ _ _ _)
  isplitl [H0 H1 H2 H3 H4]
  · isplitl [H0]; · iexact H0
    isplitl [H1]; · iexact H1
    isplitl [H2]; · iexact H2
    isplitl [H3]; · iexact H3
    iexact H4
  iintro ⟨H0, H1, H2, H3, H4⟩
  isplitl [HΦ]; · iexact HΦ
  isplitl [Ho]; · iexact Ho
  isplitl [H0]; · iexact H0
  isplitl [H1]
  · iexists d1; unfold x1_1; rw [(win1 1).cut_fill]; iexact H1
  isplitl [H2]
  · iexists d2; unfold x1_2; rw [(win1 2).cut_fill]; iexact H2
  isplitl [H3]; · iexact H3
  unfold out1 x1_1 x1_2
  iapply (owns_leaves_loose (win1 4) c _ fullShare (grid1.coords t) _ _
    (fin1_out_cut t _ _ _ _ d1 _ d2 _))
  iexact H4
end R1
end Cert.KernelIdeal.IdealData
-- ==== Proof.TripleFinMeta3.lean ====
import proofs.«138250_j73134703116926_1_alg».proof.Proof.TripleFin1

noncomputable section

namespace Cert.KernelIdeal.Triples

open Cert.KernelIdeal Cert.KernelIdeal.Gen
open Idealize.ShloMosaic Idealize.ShloMosaic.TcCoe Idealize.SL.RA Idealize.SL.BI Idealize.SL.BI.BIBase Idealize.SL.Sem

variable {F : FTy → Type} [FloatOps F] [Named F]
variable {Ix : Type} [DecidableEq Ix] {U : Type} [URA U] {Lvl : Type} [Preorder Lvl]

local notation "𝕄" => MT nD τ sig Ix (Elt F) ℕ U Lvl

def fin3_out (X0 : Vec F S512x256 .f32) (X1 : Vec F S2048x256 .f32) (X2 : Vec F S2048 .f32)
    (X3 : Vec F S512x1 .f32) (X4 : Vec F S512x1 .f32) : Vec F S512x2048 .f32 :=
  k3_pay1 X0 X1 X2 X3 X4

-- The body only loads its five inputs whole and stores the output whole once, so the output's buffer reads the stored tile.
theorem fin3_triple (𝒱₀ : Variants) (c : Dev nD) (E : Set ℕ) (i : grid3.Coords)
    (s0 : Fin 1) (s1 : Fin 2) (s2 : Fin 2) (s3 : Fin 1) (s4 : Fin 1) (s5 : Fin 2)
    (X0 : Vec F S512x256 .f32) (X1 : Vec F S2048x256 .f32) (X2 : Vec F S2048 .f32)
    (X3 : Vec F S512x1 .f32) (X4 : Vec F S512x1 .f32) (X5 : Vec F S512x2048 .f32) (K : PUnit → sProp 𝕄) :
    iprop((owns (c : Thread nD τ) (stage3_0 s0) fullShare X0 ∗ owns (c : Thread nD τ) (stage3_1 s1) fullShare X1
            ∗ owns (c : Thread nD τ) (stage3_2 s2) fullShare X2 ∗ owns (c : Thread nD τ) (stage3_3 s3) fullShare X3
            ∗ owns (c : Thread nD τ) (stage3_4 s4) fullShare X4 ∗ owns (c : Thread nD τ) (stage3_5 s5) fullShare X5)
          ∗ (iprop(owns (c : Thread nD τ) (stage3_0 s0) fullShare X0 ∗ owns (c : Thread nD τ) (stage3_1 s1) fullShare X1
                  ∗ owns (c : Thread nD τ) (stage3_2 s2) fullShare X2 ∗ owns (c : Thread nD τ) (stage3_3 s3) fullShare X3
                  ∗ owns (c : Thread nD τ) (stage3_4 s4) fullShare X4
                  ∗ owns (c : Thread nD τ) (stage3_5 s5) fullShare (fin3_out X0 X1 X2 X3 X4)) -∗ K ⟨⟩))
      ⊢ wp frame (wpE (defs₀ (F := F)) 𝒱₀ c none) E
          (cc3__finalize_kernel_meta i (stage3_0 s0) (hstage3_0 s0) (stage3_1 s1) (hstage3_1 s1) (stage3_2 s2) (hstage3_2 s2)
            (stage3_3 s3) (hstage3_3 s3) (stage3_4 s4) (hstage3_4 s4) (stage3_5 s5) (hstage3_5 s5)) K := by
  conv_lhs => arg 1; unfold owns
  sl_unfold [cc3__finalize_kernel_meta]
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, Hk⟩
  subst hf0 hf1 hf2 hf3 hf4 hf5
  sl_exec
  sl_step
  iapply Hk
  isplitl [H0]; · iapply (owns_intro _ _ _ _) $$ H0
  isplitl [H1]; · iapply (owns_intro _ _ _ _) $$ H1
  isplitl [H2]; · iapply (owns_intro _ _ _ _) $$ H2
  isplitl [H3]; · iapply (owns_intro _ _ _ _) $$ H3
  isplitl [H4]; · iapply (owns_intro _ _ _ _) $$ H4
  unfold owns; iexists _; isplitr; swap; · iexact H5
  ipureintro
  rw [unit_zero_read_writes zeros2]
  sl_unfold_run_names
  rw [unit_zero_readAt zeros2, unit_zero_readAt zeros2, unit_zero_readAt zeros1, unit_zero_readAt zeros2, unit_zero_readAt zeros2]
  rfl

end Cert.KernelIdeal.Triples
-- ==== Proof.IdealDataFin3.lean ====
import proofs.«138250_j73134703116926_1_alg».proof.Proof.IdealDataFin
import proofs.«138250_j73134703116926_1_alg».proof.Proof.TripleFinMeta3
set_option maxRecDepth 1656
noncomputable section
namespace Cert.KernelIdeal.IdealData
open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Triples
local notation "𝕀" => Idealize.ShloMosaic.Ideal
local notation "𝕄" => MT nD τ sig Unit (Elt 𝕀) ℕ (UR sig nD τ) ℕ

theorem xsize3 : ∀ t : Fin grid3.N,
    win3_5.xsize (grid3.coords t) 1 = win3_1.xsize (grid3.coords t) 0
      ∧ win3_1.xsize (grid3.coords t) 1 = 256
      ∧ win3_2.xsize (grid3.coords t) 0 = win3_1.xsize (grid3.coords t) 0 := by decide +kernel

theorem fin3_out_cut (t : Fin grid3.N) (X0 : Vec 𝕀 S512x256 .f32) (X3 X4 : Vec 𝕀 S512x1 .f32)
    (b1 : (win3_1.xblock (grid3.coords t)).Idx → Elt 𝕀 .f32) (b2 : (win3_2.xblock (grid3.coords t)).Idx → Elt 𝕀 .f32)
    (d1 d1' : Vec 𝕀 S2048x256 .f32) (d2 d2' : Vec 𝕀 S2048 .f32) :
    win3_5.cut (grid3.coords t) (fin3_out X0 (win3_1.fill (grid3.coords t) d1 b1) (win3_2.fill (grid3.coords t) d2 b2) X3 X4)
      = win3_5.cut (grid3.coords t) (fin3_out X0 (win3_1.fill (grid3.coords t) d1' b1) (win3_2.fill (grid3.coords t) d2' b2) X3 X4) := by
  funext j
  obtain ⟨h51, h11, h21⟩ := xsize3 t
  have hj : (j 1).val < win3_1.xsize (grid3.coords t) 0 := lt_of_lt_of_eq (j 1).isLt h51
  show fin3_out _ _ _ _ _ (win3_5.xinj (grid3.coords t) j) = fin3_out _ _ _ _ _ (win3_5.xinj (grid3.coords t) j)
  rw [eq_ix2 (win3_5.xinj (grid3.coords t) j)]
  unfold fin3_out
  refine Cert.KernelIdeal.FinValue.finmeta2048_col_local _ _ _ _ _ _ _ _ (fun k => ?_) ?_ _
  · refine fill_congr_moved win3_1 _ _ _ _ ((win3_1.moved_iff _ _).mpr fun a => ?_)
    match a with
    | ⟨0, _⟩ => exact hj
    | ⟨1, _⟩ => exact lt_of_lt_of_eq k.isLt h11.symm
  · refine fill_congr_moved win3_2 _ _ _ _ ((win3_2.moved_iff _ _).mpr fun a => ?_)
    match a with
    | ⟨0, _⟩ => exact lt_of_lt_of_eq hj h21.symm
section R3
variable (V : (c : Dev nD) → (b : Ref sig .tc) → Buf (Elt 𝕀) ((c : Thread nD τ).loc b))
def iblk3 (c : Dev nD) (w : Fin cfg3.W) (t : Fin cfg3.N) : ((cfg3.win w).xblock (cfg3.grid.coords t)).Idx → Elt 𝕀 (cfg3.win w).elt :=
  ((cfg3.win w).blk t).view.read (Elt 𝕀) (V c (Pipeline.arrRef spec3 w))
def x3_0 (c : Dev nD) (t : Fin cfg3.N) : Vec 𝕀 S512x256 .f32 := iblk3 V c 0 t
def x3_1 (c : Dev nD) (t : Fin cfg3.N) : Vec 𝕀 S2048x256 .f32 := win3_1.fill (grid3.coords t) (fun _ => padFin) (iblk3 V c 1 t)
def x3_2 (c : Dev nD) (t : Fin cfg3.N) : Vec 𝕀 S2048 .f32 := win3_2.fill (grid3.coords t) (fun _ => padFin) (iblk3 V c 2 t)
def x3_3 (c : Dev nD) (t : Fin cfg3.N) : Vec 𝕀 S512x1 .f32 := iblk3 V c 3 t
def x3_4 (c : Dev nD) (t : Fin cfg3.N) : Vec 𝕀 S512x1 .f32 := iblk3 V c 4 t
def out3 (c : Dev nD) (t : Fin cfg3.N) : Vec 𝕀 S512x2048 .f32 :=
  fin3_out (x3_0 V c t) (x3_1 V c t) (x3_2 V c t) (x3_3 V c t) (x3_4 V c t)

def dat3 (c : Dev nD) : Dat τ (Elt 𝕀) Unit ℕ (UR sig nD τ) ℕ cfg3 c where
  A w := V c (Pipeline.arrRef spec3 w)
  after w t := match w with
    | ⟨0, _⟩ => x3_0 V c t
    | ⟨1, _⟩ => x3_1 V c t
    | ⟨2, _⟩ => x3_2 V c t
    | ⟨3, _⟩ => x3_3 V c t
    | ⟨4, _⟩ => x3_4 V c t
    | ⟨5, _⟩ => out3 V c t
  Φ _ := Pipeline.ΦA spec3 c
  q _ := fullShare
  owed _ := 0
theorem A_eq3 (c : Dev nD) (w : Fin cfg3.W) : (dat3 V c).A w = V c (Pipeline.arrRef spec3 w) := by dsimp only [dat3]
theorem after3_0 (c : Dev nD) (t : Fin cfg3.N) : (dat3 V c).after 0 t = x3_0 V c t := rfl
theorem after3_1 (c : Dev nD) (t : Fin cfg3.N) : (dat3 V c).after 1 t = x3_1 V c t := rfl
theorem after3_2 (c : Dev nD) (t : Fin cfg3.N) : (dat3 V c).after 2 t = x3_2 V c t := rfl
theorem after3_3 (c : Dev nD) (t : Fin cfg3.N) : (dat3 V c).after 3 t = x3_3 V c t := rfl
theorem after3_4 (c : Dev nD) (t : Fin cfg3.N) : (dat3 V c).after 4 t = x3_4 V c t := rfl
theorem after3_5 (c : Dev nD) (t : Fin cfg3.N) : (dat3 V c).after 5 t = out3 V c t := rfl

theorem before3_whole (c : Dev nD) (t : Fin cfg3.N) : (∀ d, (dat3 V c).before 0 t d = x3_0 V c t) ∧ (∀ d, (dat3 V c).before 3 t d = x3_3 V c t)
    ∧ ∀ d, (dat3 V c).before 4 t d = x3_4 V c t := by
  refine ⟨fun d => ?_, fun d => ?_, fun d => ?_⟩ <;>
  exact ((dat3 V c).before_in_eq_fetched _ rfl (fun _ => rfl) (fun _ _ _ => rfl) (fun _ => rfl) t d).trans rfl

theorem before3_1 (c : Dev nD) (t : Fin cfg3.N) (d) :
    (dat3 V c).before 1 t d = win3_1.fill (grid3.coords t) d (iblk3 V c 1 t) := (if_pos (fetch3_1 t)).trans rfl
theorem before3_2 (c : Dev nD) (t : Fin cfg3.N) (d) :
    (dat3 V c).before 2 t d = win3_2.fill (grid3.coords t) d (iblk3 V c 2 t) := (if_pos (fetch3_2 t)).trans rfl

theorem body_obligation3 (c : Dev nD) : BodyObligationLoose (dat3 V c) (defs₀ (F := 𝕀)) Variants.none () Set.univ := fun t => by
  rw [bigSep_W3, bigSep_W3]
  simp only
  rw [show (dat3 V c).owesAt () t.succ = (dat3 V c).owesAt () t.castSucc from rfl,
    show (dat3 V c).Φ t.succ = (dat3 V c).Φ t.castSucc from rfl, after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  obtain ⟨b0, b3, b4⟩ := before3_whole V c t
  rw [b0 d0, before3_1 V c t d1, before3_2 V c t d2, b3 d3, b4 d4]
  iapply (fin3_triple (F := 𝕀) Variants.none c Set.univ (grid3.coords t)
    ((cfg3.slots t 0).cast nbuf3_0) ((cfg3.slots t 1).cast nbuf3_1) ((cfg3.slots t 2).cast nbuf3_2)
    ((cfg3.slots t 3).cast nbuf3_3) ((cfg3.slots t 4).cast nbuf3_4) ((cfg3.slots t 5).cast nbuf3_5) _ _ _ _ _ _ _)
  isplitl [H0 H1 H2 H3 H4 H5]
  · isplitl [H0]; · iexact H0
    isplitl [H1]; · iexact H1
    isplitl [H2]; · iexact H2
    isplitl [H3]; · iexact H3
    isplitl [H4]; · iexact H4
    iexact H5
  iintro ⟨H0, H1, H2, H3, H4, H5⟩
  isplitl [HΦ]; · iexact HΦ
  isplitl [Ho]; · iexact Ho
  isplitl [H0]; · iexact H0
  isplitl [H1]
  · iexists d1; unfold x3_1; rw [(win3 1).cut_fill]; iexact H1
  isplitl [H2]
  · iexists d2; unfold x3_2; rw [(win3 2).cut_fill]; iexact H2
  isplitl [H3]; · iexact H3
  isplitl [H4]; · iexact H4
  unfold out3 x3_1 x3_2
  iapply (owns_leaves_loose (win3 5) c _ fullShare (grid3.coords t) _ _
    (fin3_out_cut t _ _ _ _ _ d1 _ d2 _))
  iexact H5
end R3
end Cert.KernelIdeal.IdealData
-- ==== Proof.TripleFinMeta5.lean ====
import proofs.«138250_j73134703116926_1_alg».proof.Proof.TripleFin1

noncomputable section

namespace Cert.KernelIdeal.Triples

open Cert.KernelIdeal Cert.KernelIdeal.Gen
open Idealize.ShloMosaic Idealize.ShloMosaic.TcCoe Idealize.SL.RA Idealize.SL.BI Idealize.SL.BI.BIBase Idealize.SL.Sem

variable {F : FTy → Type} [FloatOps F] [Named F]
variable {Ix : Type} [DecidableEq Ix] {U : Type} [URA U] {Lvl : Type} [Preorder Lvl]

local notation "𝕄" => MT nD τ sig Ix (Elt F) ℕ U Lvl

def fin5_out (X0 : Vec F S512x64 .f32) (X1 : Vec F S4096x64 .f32) (X2 : Vec F S4096 .f32)
    (X3 : Vec F S512x1 .f32) (X4 : Vec F S512x1 .f32) : Vec F S512x4096 .f32 :=
  k5_pay1 X0 X1 X2 X3 X4

-- The body only loads its five inputs whole and stores the output whole once, so the output's buffer reads the stored tile.
theorem fin5_triple (𝒱₀ : Variants) (c : Dev nD) (E : Set ℕ) (i : grid5.Coords)
    (s0 : Fin 1) (s1 : Fin 2) (s2 : Fin 2) (s3 : Fin 1) (s4 : Fin 1) (s5 : Fin 2)
    (X0 : Vec F S512x64 .f32) (X1 : Vec F S4096x64 .f32) (X2 : Vec F S4096 .f32)
    (X3 : Vec F S512x1 .f32) (X4 : Vec F S512x1 .f32) (X5 : Vec F S512x4096 .f32) (K : PUnit → sProp 𝕄) :
    iprop((owns (c : Thread nD τ) (stage5_0 s0) fullShare X0 ∗ owns (c : Thread nD τ) (stage5_1 s1) fullShare X1
            ∗ owns (c : Thread nD τ) (stage5_2 s2) fullShare X2 ∗ owns (c : Thread nD τ) (stage5_3 s3) fullShare X3
            ∗ owns (c : Thread nD τ) (stage5_4 s4) fullShare X4 ∗ owns (c : Thread nD τ) (stage5_5 s5) fullShare X5)
          ∗ (iprop(owns (c : Thread nD τ) (stage5_0 s0) fullShare X0 ∗ owns (c : Thread nD τ) (stage5_1 s1) fullShare X1
                  ∗ owns (c : Thread nD τ) (stage5_2 s2) fullShare X2 ∗ owns (c : Thread nD τ) (stage5_3 s3) fullShare X3
                  ∗ owns (c : Thread nD τ) (stage5_4 s4) fullShare X4
                  ∗ owns (c : Thread nD τ) (stage5_5 s5) fullShare (fin5_out X0 X1 X2 X3 X4)) -∗ K ⟨⟩))
      ⊢ wp frame (wpE (defs₀ (F := F)) 𝒱₀ c none) E
          (cc5__finalize_kernel_meta i (stage5_0 s0) (hstage5_0 s0) (stage5_1 s1) (hstage5_1 s1) (stage5_2 s2) (hstage5_2 s2)
            (stage5_3 s3) (hstage5_3 s3) (stage5_4 s4) (hstage5_4 s4) (stage5_5 s5) (hstage5_5 s5)) K := by
  conv_lhs => arg 1; unfold owns
  sl_unfold [cc5__finalize_kernel_meta]
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, Hk⟩
  subst hf0 hf1 hf2 hf3 hf4 hf5
  sl_exec
  sl_step
  iapply Hk
  isplitl [H0]; · iapply (owns_intro _ _ _ _) $$ H0
  isplitl [H1]; · iapply (owns_intro _ _ _ _) $$ H1
  isplitl [H2]; · iapply (owns_intro _ _ _ _) $$ H2
  isplitl [H3]; · iapply (owns_intro _ _ _ _) $$ H3
  isplitl [H4]; · iapply (owns_intro _ _ _ _) $$ H4
  unfold owns; iexists _; isplitr; swap; · iexact H5
  ipureintro
  rw [unit_zero_read_writes zeros2]
  sl_unfold_run_names
  rw [unit_zero_readAt zeros2, unit_zero_readAt zeros2, unit_zero_readAt zeros1, unit_zero_readAt zeros2, unit_zero_readAt zeros2]
  rfl

end Cert.KernelIdeal.Triples
-- ==== Proof.IdealDataFin5.lean ====
import proofs.«138250_j73134703116926_1_alg».proof.Proof.IdealDataFin
import proofs.«138250_j73134703116926_1_alg».proof.Proof.TripleFinMeta5
set_option maxRecDepth 1656
noncomputable section
namespace Cert.KernelIdeal.IdealData
open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Triples
local notation "𝕀" => Idealize.ShloMosaic.Ideal
local notation "𝕄" => MT nD τ sig Unit (Elt 𝕀) ℕ (UR sig nD τ) ℕ

theorem xsize5 : ∀ t : Fin grid5.N,
    win5_5.xsize (grid5.coords t) 1 = win5_1.xsize (grid5.coords t) 0
      ∧ win5_1.xsize (grid5.coords t) 1 = 64
      ∧ win5_2.xsize (grid5.coords t) 0 = win5_1.xsize (grid5.coords t) 0 := by decide +kernel

theorem fin5_out_cut (t : Fin grid5.N) (X0 : Vec 𝕀 S512x64 .f32) (X3 X4 : Vec 𝕀 S512x1 .f32)
    (b1 : (win5_1.xblock (grid5.coords t)).Idx → Elt 𝕀 .f32) (b2 : (win5_2.xblock (grid5.coords t)).Idx → Elt 𝕀 .f32)
    (d1 d1' : Vec 𝕀 S4096x64 .f32) (d2 d2' : Vec 𝕀 S4096 .f32) :
    win5_5.cut (grid5.coords t) (fin5_out X0 (win5_1.fill (grid5.coords t) d1 b1) (win5_2.fill (grid5.coords t) d2 b2) X3 X4)
      = win5_5.cut (grid5.coords t) (fin5_out X0 (win5_1.fill (grid5.coords t) d1' b1) (win5_2.fill (grid5.coords t) d2' b2) X3 X4) := by
  funext j
  obtain ⟨h51, h11, h21⟩ := xsize5 t
  have hj : (j 1).val < win5_1.xsize (grid5.coords t) 0 := lt_of_lt_of_eq (j 1).isLt h51
  show fin5_out _ _ _ _ _ (win5_5.xinj (grid5.coords t) j) = fin5_out _ _ _ _ _ (win5_5.xinj (grid5.coords t) j)
  rw [eq_ix2 (win5_5.xinj (grid5.coords t) j)]
  unfold fin5_out
  refine Cert.KernelIdeal.FinValue.finmeta64_col_local _ _ _ _ _ _ _ _ (fun k => ?_) ?_ _
  · refine fill_congr_moved win5_1 _ _ _ _ ((win5_1.moved_iff _ _).mpr fun a => ?_)
    match a with
    | ⟨0, _⟩ => exact hj
    | ⟨1, _⟩ => exact lt_of_lt_of_eq k.isLt h11.symm
  · refine fill_congr_moved win5_2 _ _ _ _ ((win5_2.moved_iff _ _).mpr fun a => ?_)
    match a with
    | ⟨0, _⟩ => exact lt_of_lt_of_eq hj h21.symm
section R5
variable (V : (c : Dev nD) → (b : Ref sig .tc) → Buf (Elt 𝕀) ((c : Thread nD τ).loc b))
def iblk5 (c : Dev nD) (w : Fin cfg5.W) (t : Fin cfg5.N) : ((cfg5.win w).xblock (cfg5.grid.coords t)).Idx → Elt 𝕀 (cfg5.win w).elt :=
  ((cfg5.win w).blk t).view.read (Elt 𝕀) (V c (Pipeline.arrRef spec5 w))
def x5_0 (c : Dev nD) (t : Fin cfg5.N) : Vec 𝕀 S512x64 .f32 := iblk5 V c 0 t
def x5_1 (c : Dev nD) (t : Fin cfg5.N) : Vec 𝕀 S4096x64 .f32 := win5_1.fill (grid5.coords t) (fun _ => padFin) (iblk5 V c 1 t)
def x5_2 (c : Dev nD) (t : Fin cfg5.N) : Vec 𝕀 S4096 .f32 := win5_2.fill (grid5.coords t) (fun _ => padFin) (iblk5 V c 2 t)
def x5_3 (c : Dev nD) (t : Fin cfg5.N) : Vec 𝕀 S512x1 .f32 := iblk5 V c 3 t
def x5_4 (c : Dev nD) (t : Fin cfg5.N) : Vec 𝕀 S512x1 .f32 := iblk5 V c 4 t
def out5 (c : Dev nD) (t : Fin cfg5.N) : Vec 𝕀 S512x4096 .f32 :=
  fin5_out (x5_0 V c t) (x5_1 V c t) (x5_2 V c t) (x5_3 V c t) (x5_4 V c t)

def dat5 (c : Dev nD) : Dat τ (Elt 𝕀) Unit ℕ (UR sig nD τ) ℕ cfg5 c where
  A w := V c (Pipeline.arrRef spec5 w)
  after w t := match w with
    | ⟨0, _⟩ => x5_0 V c t
    | ⟨1, _⟩ => x5_1 V c t
    | ⟨2, _⟩ => x5_2 V c t
    | ⟨3, _⟩ => x5_3 V c t
    | ⟨4, _⟩ => x5_4 V c t
    | ⟨5, _⟩ => out5 V c t
  Φ _ := Pipeline.ΦA spec5 c
  q _ := fullShare
  owed _ := 0
theorem A_eq5 (c : Dev nD) (w : Fin cfg5.W) : (dat5 V c).A w = V c (Pipeline.arrRef spec5 w) := by dsimp only [dat5]
theorem after5_0 (c : Dev nD) (t : Fin cfg5.N) : (dat5 V c).after 0 t = x5_0 V c t := rfl
theorem after5_1 (c : Dev nD) (t : Fin cfg5.N) : (dat5 V c).after 1 t = x5_1 V c t := rfl
theorem after5_2 (c : Dev nD) (t : Fin cfg5.N) : (dat5 V c).after 2 t = x5_2 V c t := rfl
theorem after5_3 (c : Dev nD) (t : Fin cfg5.N) : (dat5 V c).after 3 t = x5_3 V c t := rfl
theorem after5_4 (c : Dev nD) (t : Fin cfg5.N) : (dat5 V c).after 4 t = x5_4 V c t := rfl
theorem after5_5 (c : Dev nD) (t : Fin cfg5.N) : (dat5 V c).after 5 t = out5 V c t := rfl

theorem before5_whole (c : Dev nD) (t : Fin cfg5.N) : (∀ d, (dat5 V c).before 0 t d = x5_0 V c t) ∧ (∀ d, (dat5 V c).before 3 t d = x5_3 V c t)
    ∧ ∀ d, (dat5 V c).before 4 t d = x5_4 V c t := by
  refine ⟨fun d => ?_, fun d => ?_, fun d => ?_⟩ <;>
  exact ((dat5 V c).before_in_eq_fetched _ rfl (fun _ => rfl) (fun _ _ _ => rfl) (fun _ => rfl) t d).trans rfl

theorem before5_1 (c : Dev nD) (t : Fin cfg5.N) (d) :
    (dat5 V c).before 1 t d = win5_1.fill (grid5.coords t) d (iblk5 V c 1 t) := (if_pos (fetch5_1 t)).trans rfl
theorem before5_2 (c : Dev nD) (t : Fin cfg5.N) (d) :
    (dat5 V c).before 2 t d = win5_2.fill (grid5.coords t) d (iblk5 V c 2 t) := (if_pos (fetch5_2 t)).trans rfl

theorem body_obligation5 (c : Dev nD) : BodyObligationLoose (dat5 V c) (defs₀ (F := 𝕀)) Variants.none () Set.univ := fun t => by
  rw [bigSep_W5, bigSep_W5]
  simp only
  rw [show (dat5 V c).owesAt () t.succ = (dat5 V c).owesAt () t.castSucc from rfl,
    show (dat5 V c).Φ t.succ = (dat5 V c).Φ t.castSucc from rfl, after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  obtain ⟨b0, b3, b4⟩ := before5_whole V c t
  rw [b0 d0, before5_1 V c t d1, before5_2 V c t d2, b3 d3, b4 d4]
  iapply (fin5_triple (F := 𝕀) Variants.none c Set.univ (grid5.coords t)
    ((cfg5.slots t 0).cast nbuf5_0) ((cfg5.slots t 1).cast nbuf5_1) ((cfg5.slots t 2).cast nbuf5_2)
    ((cfg5.slots t 3).cast nbuf5_3) ((cfg5.slots t 4).cast nbuf5_4) ((cfg5.slots t 5).cast nbuf5_5) _ _ _ _ _ _ _)
  isplitl [H0 H1 H2 H3 H4 H5]
  · isplitl [H0]; · iexact H0
    isplitl [H1]; · iexact H1
    isplitl [H2]; · iexact H2
    isplitl [H3]; · iexact H3
    isplitl [H4]; · iexact H4
    iexact H5
  iintro ⟨H0, H1, H2, H3, H4, H5⟩
  isplitl [HΦ]; · iexact HΦ
  isplitl [Ho]; · iexact Ho
  isplitl [H0]; · iexact H0
  isplitl [H1]
  · iexists d1; unfold x5_1; rw [(win5 1).cut_fill]; iexact H1
  isplitl [H2]
  · iexists d2; unfold x5_2; rw [(win5 2).cut_fill]; iexact H2
  isplitl [H3]; · iexact H3
  isplitl [H4]; · iexact H4
  unfold out5 x5_1 x5_2
  iapply (owns_leaves_loose (win5 5) c _ fullShare (grid5.coords t) _ _
    (fin5_out_cut t _ _ _ _ _ d1 _ d2 _))
  iexact H5
end R5
end Cert.KernelIdeal.IdealData
-- ==== Proof.TripleFinMeta7.lean ====
import proofs.«138250_j73134703116926_1_alg».proof.Proof.TripleFin1

noncomputable section

namespace Cert.KernelIdeal.Triples

open Cert.KernelIdeal Cert.KernelIdeal.Gen
open Idealize.ShloMosaic Idealize.ShloMosaic.TcCoe Idealize.SL.RA Idealize.SL.BI Idealize.SL.BI.BIBase Idealize.SL.Sem

variable {F : FTy → Type} [FloatOps F] [Named F]
variable {Ix : Type} [DecidableEq Ix] {U : Type} [URA U] {Lvl : Type} [Preorder Lvl]

local notation "𝕄" => MT nD τ sig Ix (Elt F) ℕ U Lvl

def fin7_out (X0 : Vec F S512x16 .f32) (X1 : Vec F S4096x16 .f32) (X2 : Vec F S4096 .f32)
    (X3 : Vec F S512x1 .f32) (X4 : Vec F S512x1 .f32) : Vec F S512x4096 .f32 :=
  k7_pay1 X0 X1 X2 X3 X4

-- The body only loads its five inputs whole and stores the output whole once, so the output's buffer reads the stored tile.
theorem fin7_triple (𝒱₀ : Variants) (c : Dev nD) (E : Set ℕ) (i : grid7.Coords)
    (s0 : Fin 1) (s1 : Fin 2) (s2 : Fin 2) (s3 : Fin 1) (s4 : Fin 1) (s5 : Fin 2)
    (X0 : Vec F S512x16 .f32) (X1 : Vec F S4096x16 .f32) (X2 : Vec F S4096 .f32)
    (X3 : Vec F S512x1 .f32) (X4 : Vec F S512x1 .f32) (X5 : Vec F S512x4096 .f32) (K : PUnit → sProp 𝕄) :
    iprop((owns (c : Thread nD τ) (stage7_0 s0) fullShare X0 ∗ owns (c : Thread nD τ) (stage7_1 s1) fullShare X1
            ∗ owns (c : Thread nD τ) (stage7_2 s2) fullShare X2 ∗ owns (c : Thread nD τ) (stage7_3 s3) fullShare X3
            ∗ owns (c : Thread nD τ) (stage7_4 s4) fullShare X4 ∗ owns (c : Thread nD τ) (stage7_5 s5) fullShare X5)
          ∗ (iprop(owns (c : Thread nD τ) (stage7_0 s0) fullShare X0 ∗ owns (c : Thread nD τ) (stage7_1 s1) fullShare X1
                  ∗ owns (c : Thread nD τ) (stage7_2 s2) fullShare X2 ∗ owns (c : Thread nD τ) (stage7_3 s3) fullShare X3
                  ∗ owns (c : Thread nD τ) (stage7_4 s4) fullShare X4
                  ∗ owns (c : Thread nD τ) (stage7_5 s5) fullShare (fin7_out X0 X1 X2 X3 X4)) -∗ K ⟨⟩))
      ⊢ wp frame (wpE (defs₀ (F := F)) 𝒱₀ c none) E
          (cc7__finalize_kernel_meta i (stage7_0 s0) (hstage7_0 s0) (stage7_1 s1) (hstage7_1 s1) (stage7_2 s2) (hstage7_2 s2)
            (stage7_3 s3) (hstage7_3 s3) (stage7_4 s4) (hstage7_4 s4) (stage7_5 s5) (hstage7_5 s5)) K := by
  conv_lhs => arg 1; unfold owns
  sl_unfold [cc7__finalize_kernel_meta]
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, Hk⟩
  subst hf0 hf1 hf2 hf3 hf4 hf5
  sl_exec
  sl_step
  iapply Hk
  isplitl [H0]; · iapply (owns_intro _ _ _ _) $$ H0
  isplitl [H1]; · iapply (owns_intro _ _ _ _) $$ H1
  isplitl [H2]; · iapply (owns_intro _ _ _ _) $$ H2
  isplitl [H3]; · iapply (owns_intro _ _ _ _) $$ H3
  isplitl [H4]; · iapply (owns_intro _ _ _ _) $$ H4
  unfold owns; iexists _; isplitr; swap; · iexact H5
  ipureintro
  rw [unit_zero_read_writes zeros2]
  sl_unfold_run_names
  rw [unit_zero_readAt zeros2, unit_zero_readAt zeros2, unit_zero_readAt zeros1, unit_zero_readAt zeros2, unit_zero_readAt zeros2]
  rfl

end Cert.KernelIdeal.Triples
-- ==== Proof.IdealDataFin7.lean ====
import proofs.«138250_j73134703116926_1_alg».proof.Proof.IdealDataFin
import proofs.«138250_j73134703116926_1_alg».proof.Proof.TripleFinMeta7
set_option maxRecDepth 1656
noncomputable section
namespace Cert.KernelIdeal.IdealData
open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Triples
local notation "𝕀" => Idealize.ShloMosaic.Ideal
local notation "𝕄" => MT nD τ sig Unit (Elt 𝕀) ℕ (UR sig nD τ) ℕ

theorem xsize7 : ∀ t : Fin grid7.N,
    win7_5.xsize (grid7.coords t) 1 = win7_1.xsize (grid7.coords t) 0
      ∧ win7_1.xsize (grid7.coords t) 1 = 16
      ∧ win7_2.xsize (grid7.coords t) 0 = win7_1.xsize (grid7.coords t) 0 := by decide +kernel

theorem fin7_out_cut (t : Fin grid7.N) (X0 : Vec 𝕀 S512x16 .f32) (X3 X4 : Vec 𝕀 S512x1 .f32)
    (b1 : (win7_1.xblock (grid7.coords t)).Idx → Elt 𝕀 .f32) (b2 : (win7_2.xblock (grid7.coords t)).Idx → Elt 𝕀 .f32)
    (d1 d1' : Vec 𝕀 S4096x16 .f32) (d2 d2' : Vec 𝕀 S4096 .f32) :
    win7_5.cut (grid7.coords t) (fin7_out X0 (win7_1.fill (grid7.coords t) d1 b1) (win7_2.fill (grid7.coords t) d2 b2) X3 X4)
      = win7_5.cut (grid7.coords t) (fin7_out X0 (win7_1.fill (grid7.coords t) d1' b1) (win7_2.fill (grid7.coords t) d2' b2) X3 X4) := by
  funext j
  obtain ⟨h51, h11, h21⟩ := xsize7 t
  have hj : (j 1).val < win7_1.xsize (grid7.coords t) 0 := lt_of_lt_of_eq (j 1).isLt h51
  show fin7_out _ _ _ _ _ (win7_5.xinj (grid7.coords t) j) = fin7_out _ _ _ _ _ (win7_5.xinj (grid7.coords t) j)
  rw [eq_ix2 (win7_5.xinj (grid7.coords t) j)]
  unfold fin7_out
  refine Cert.KernelIdeal.FinValue.finmeta16_col_local _ _ _ _ _ _ _ _ (fun k => ?_) ?_ _
  · refine fill_congr_moved win7_1 _ _ _ _ ((win7_1.moved_iff _ _).mpr fun a => ?_)
    match a with
    | ⟨0, _⟩ => exact hj
    | ⟨1, _⟩ => exact lt_of_lt_of_eq k.isLt h11.symm
  · refine fill_congr_moved win7_2 _ _ _ _ ((win7_2.moved_iff _ _).mpr fun a => ?_)
    match a with
    | ⟨0, _⟩ => exact lt_of_lt_of_eq hj h21.symm
section R7
variable (V : (c : Dev nD) → (b : Ref sig .tc) → Buf (Elt 𝕀) ((c : Thread nD τ).loc b))
def iblk7 (c : Dev nD) (w : Fin cfg7.W) (t : Fin cfg7.N) : ((cfg7.win w).xblock (cfg7.grid.coords t)).Idx → Elt 𝕀 (cfg7.win w).elt :=
  ((cfg7.win w).blk t).view.read (Elt 𝕀) (V c (Pipeline.arrRef spec7 w))
def x7_0 (c : Dev nD) (t : Fin cfg7.N) : Vec 𝕀 S512x16 .f32 := iblk7 V c 0 t
def x7_1 (c : Dev nD) (t : Fin cfg7.N) : Vec 𝕀 S4096x16 .f32 := win7_1.fill (grid7.coords t) (fun _ => padFin) (iblk7 V c 1 t)
def x7_2 (c : Dev nD) (t : Fin cfg7.N) : Vec 𝕀 S4096 .f32 := win7_2.fill (grid7.coords t) (fun _ => padFin) (iblk7 V c 2 t)
def x7_3 (c : Dev nD) (t : Fin cfg7.N) : Vec 𝕀 S512x1 .f32 := iblk7 V c 3 t
def x7_4 (c : Dev nD) (t : Fin cfg7.N) : Vec 𝕀 S512x1 .f32 := iblk7 V c 4 t
def out7 (c : Dev nD) (t : Fin cfg7.N) : Vec 𝕀 S512x4096 .f32 :=
  fin7_out (x7_0 V c t) (x7_1 V c t) (x7_2 V c t) (x7_3 V c t) (x7_4 V c t)

def dat7 (c : Dev nD) : Dat τ (Elt 𝕀) Unit ℕ (UR sig nD τ) ℕ cfg7 c where
  A w := V c (Pipeline.arrRef spec7 w)
  after w t := match w with
    | ⟨0, _⟩ => x7_0 V c t
    | ⟨1, _⟩ => x7_1 V c t
    | ⟨2, _⟩ => x7_2 V c t
    | ⟨3, _⟩ => x7_3 V c t
    | ⟨4, _⟩ => x7_4 V c t
    | ⟨5, _⟩ => out7 V c t
  Φ _ := Pipeline.ΦA spec7 c
  q _ := fullShare
  owed _ := 0
theorem A_eq7 (c : Dev nD) (w : Fin cfg7.W) : (dat7 V c).A w = V c (Pipeline.arrRef spec7 w) := by dsimp only [dat7]
theorem after7_0 (c : Dev nD) (t : Fin cfg7.N) : (dat7 V c).after 0 t = x7_0 V c t := rfl
theorem after7_1 (c : Dev nD) (t : Fin cfg7.N) : (dat7 V c).after 1 t = x7_1 V c t := rfl
theorem after7_2 (c : Dev nD) (t : Fin cfg7.N) : (dat7 V c).after 2 t = x7_2 V c t := rfl
theorem after7_3 (c : Dev nD) (t : Fin cfg7.N) : (dat7 V c).after 3 t = x7_3 V c t := rfl
theorem after7_4 (c : Dev nD) (t : Fin cfg7.N) : (dat7 V c).after 4 t = x7_4 V c t := rfl
theorem after7_5 (c : Dev nD) (t : Fin cfg7.N) : (dat7 V c).after 5 t = out7 V c t := rfl

theorem before7_whole (c : Dev nD) (t : Fin cfg7.N) : (∀ d, (dat7 V c).before 0 t d = x7_0 V c t) ∧ (∀ d, (dat7 V c).before 3 t d = x7_3 V c t)
    ∧ ∀ d, (dat7 V c).before 4 t d = x7_4 V c t := by
  refine ⟨fun d => ?_, fun d => ?_, fun d => ?_⟩ <;>
  exact ((dat7 V c).before_in_eq_fetched _ rfl (fun _ => rfl) (fun _ _ _ => rfl) (fun _ => rfl) t d).trans rfl

theorem before7_1 (c : Dev nD) (t : Fin cfg7.N) (d) :
    (dat7 V c).before 1 t d = win7_1.fill (grid7.coords t) d (iblk7 V c 1 t) := (if_pos (fetch7_1 t)).trans rfl
theorem before7_2 (c : Dev nD) (t : Fin cfg7.N) (d) :
    (dat7 V c).before 2 t d = win7_2.fill (grid7.coords t) d (iblk7 V c 2 t) := (if_pos (fetch7_2 t)).trans rfl

theorem body_obligation7 (c : Dev nD) : BodyObligationLoose (dat7 V c) (defs₀ (F := 𝕀)) Variants.none () Set.univ := fun t => by
  rw [bigSep_W7, bigSep_W7]
  simp only
  rw [show (dat7 V c).owesAt () t.succ = (dat7 V c).owesAt () t.castSucc from rfl,
    show (dat7 V c).Φ t.succ = (dat7 V c).Φ t.castSucc from rfl, after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  obtain ⟨b0, b3, b4⟩ := before7_whole V c t
  rw [b0 d0, before7_1 V c t d1, before7_2 V c t d2, b3 d3, b4 d4]
  iapply (fin7_triple (F := 𝕀) Variants.none c Set.univ (grid7.coords t)
    ((cfg7.slots t 0).cast nbuf7_0) ((cfg7.slots t 1).cast nbuf7_1) ((cfg7.slots t 2).cast nbuf7_2)
    ((cfg7.slots t 3).cast nbuf7_3) ((cfg7.slots t 4).cast nbuf7_4) ((cfg7.slots t 5).cast nbuf7_5) _ _ _ _ _ _ _)
  isplitl [H0 H1 H2 H3 H4 H5]
  · isplitl [H0]; · iexact H0
    isplitl [H1]; · iexact H1
    isplitl [H2]; · iexact H2
    isplitl [H3]; · iexact H3
    isplitl [H4]; · iexact H4
    iexact H5
  iintro ⟨H0, H1, H2, H3, H4, H5⟩
  isplitl [HΦ]; · iexact HΦ
  isplitl [Ho]; · iexact Ho
  isplitl [H0]; · iexact H0
  isplitl [H1]
  · iexists d1; unfold x7_1; rw [(win7 1).cut_fill]; iexact H1
  isplitl [H2]
  · iexists d2; unfold x7_2; rw [(win7 2).cut_fill]; iexact H2
  isplitl [H3]; · iexact H3
  isplitl [H4]; · iexact H4
  unfold out7 x7_1 x7_2
  iapply (owns_leaves_loose (win7 5) c _ fullShare (grid7.coords t) _ _
    (fin7_out_cut t _ _ _ _ _ d1 _ d2 _))
  iexact H5
end R7
end Cert.KernelIdeal.IdealData
-- ==== Proof.IdealData.lean ====
import proofs.«138250_j73134703116926_1_alg».proof.Proof.IdealStats0
import proofs.«138250_j73134703116926_1_alg».proof.Proof.IdealStats2
import proofs.«138250_j73134703116926_1_alg».proof.Proof.IdealStats4
import proofs.«138250_j73134703116926_1_alg».proof.Proof.IdealStats6
import proofs.«138250_j73134703116926_1_alg».proof.Proof.IdealDataFin
import proofs.«138250_j73134703116926_1_alg».proof.Proof.IdealDataFin3
import proofs.«138250_j73134703116926_1_alg».proof.Proof.IdealDataFin5
import proofs.«138250_j73134703116926_1_alg».proof.Proof.IdealDataFin7
set_option maxRecDepth 1656
noncomputable section
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Triples
local notation "𝕀" => Idealize.ShloMosaic.Ideal
local notation "𝕄" => MT nD τ sig Unit (Elt 𝕀) ℕ (UR sig nD τ) ℕ
namespace Cert.KernelIdeal.IdealData

theorem upd_of (W : Valuation τ sig (Elt 𝕀)) (a : Ref sig .tc) (o) (r : Ref sig .tc) (h : r ∉ ([a] : List (Ref sig .tc))) :
    Function.update W a o r = W r :=
  Function.update_of_ne (StableHlo.devRef_ne_of_ne (List.ne_of_not_mem_cons h) : (Proc.devRef .tc r : DevRef τ sig) ≠ Proc.devRef .tc a) _ _
section Chain
variable (m : (ℓ : Loc nD τ sig) → Buf (Elt 𝕀) ℓ)

abbrev W1 (c : Dev nD) : Valuation τ sig (Elt 𝕀) := GenP.V1 m c
def T1 : VT := fun c b => W1 m c b
def o2 (c : Dev nD) : Buf (Elt 𝕀) ((c : Thread nD τ).loc main_v12) := (dat0 (T1 m) c).arrAt 3 cfg0.N
def W2 (c : Dev nD) : Valuation τ sig (Elt 𝕀) := Function.update (W1 m c) main_v12 (o2 m c)
def T2 : VT := fun c b => W2 m c b
theorem W2_self (c : Dev nD) : W2 m c main_v12 = o2 m c := by
  unfold W2; exact Function.update_self _ _ _
def o3 (c : Dev nD) : Buf (Elt 𝕀) ((c : Thread nD τ).loc main_v13) := (dat1 (T2 m) c).arrAt 4 cfg1.N
def W3 (c : Dev nD) : Valuation τ sig (Elt 𝕀) := Function.update (W2 m c) main_v13 (o3 m c)
def T3 : VT := fun c b => W3 m c b
theorem W3_self (c : Dev nD) : W3 m c main_v13 = o3 m c := by
  unfold W3; exact Function.update_self _ _ _
def W4 (c : Dev nD) : Valuation τ sig (Elt 𝕀) := StableHlo.after hostOps2 (W3 m c)
def T4 : VT := fun c b => W4 m c b
def o5 (c : Dev nD) : Buf (Elt 𝕀) ((c : Thread nD τ).loc main_v16) := (dat2 (T4 m) c).arrAt 3 cfg2.N
def W5 (c : Dev nD) : Valuation τ sig (Elt 𝕀) := Function.update (W4 m c) main_v16 (o5 m c)
def T5 : VT := fun c b => W5 m c b
theorem W5_self (c : Dev nD) : W5 m c main_v16 = o5 m c := by
  unfold W5; exact Function.update_self _ _ _
def W6 (c : Dev nD) : Valuation τ sig (Elt 𝕀) := StableHlo.after hostOps3 (W5 m c)
def T6 : VT := fun c b => W6 m c b
def o7 (c : Dev nD) : Buf (Elt 𝕀) ((c : Thread nD τ).loc main_v18) := (dat3 (T6 m) c).arrAt 5 cfg3.N
def W7 (c : Dev nD) : Valuation τ sig (Elt 𝕀) := Function.update (W6 m c) main_v18 (o7 m c)
def T7 : VT := fun c b => W7 m c b
theorem W7_self (c : Dev nD) : W7 m c main_v18 = o7 m c := by
  unfold W7; exact Function.update_self _ _ _
def o8 (c : Dev nD) : Buf (Elt 𝕀) ((c : Thread nD τ).loc main_v19) := (dat4 (T7 m) c).arrAt 3 cfg4.N
def W8 (c : Dev nD) : Valuation τ sig (Elt 𝕀) := Function.update (W7 m c) main_v19 (o8 m c)
def T8 : VT := fun c b => W8 m c b
theorem W8_self (c : Dev nD) : W8 m c main_v19 = o8 m c := by
  unfold W8; exact Function.update_self _ _ _
def W9 (c : Dev nD) : Valuation τ sig (Elt 𝕀) := StableHlo.after hostOps5 (W8 m c)
def T9 : VT := fun c b => W9 m c b
def o10 (c : Dev nD) : Buf (Elt 𝕀) ((c : Thread nD τ).loc main_v21) := (dat5 (T9 m) c).arrAt 5 cfg5.N
def W10 (c : Dev nD) : Valuation τ sig (Elt 𝕀) := Function.update (W9 m c) main_v21 (o10 m c)
def T10 : VT := fun c b => W10 m c b
theorem W10_self (c : Dev nD) : W10 m c main_v21 = o10 m c := by
  unfold W10; exact Function.update_self _ _ _
def o11 (c : Dev nD) : Buf (Elt 𝕀) ((c : Thread nD τ).loc main_v22) := (dat6 (T10 m) c).arrAt 3 cfg6.N
def W11 (c : Dev nD) : Valuation τ sig (Elt 𝕀) := Function.update (W10 m c) main_v22 (o11 m c)
def T11 : VT := fun c b => W11 m c b
theorem W11_self (c : Dev nD) : W11 m c main_v22 = o11 m c := by
  unfold W11; exact Function.update_self _ _ _
def W12 (c : Dev nD) : Valuation τ sig (Elt 𝕀) := StableHlo.after hostOps7 (W11 m c)
def T12 : VT := fun c b => W12 m c b
def o13 (c : Dev nD) : Buf (Elt 𝕀) ((c : Thread nD τ).loc main_v24) := (dat7 (T12 m) c).arrAt 5 cfg7.N
def W13 (c : Dev nD) : Valuation τ sig (Elt 𝕀) := Function.update (W12 m c) main_v24 (o13 m c)
def T13 : VT := fun c b => W13 m c b
theorem W13_self (c : Dev nD) : W13 m c main_v24 = o13 m c := by
  unfold W13; exact Function.update_self _ _ _
def outs : GenP.Outs (F := 𝕀) := fun J r c => match J with
  | 2 => W2 m c r | 3 => W3 m c r | 5 => W5 m c r | 7 => W7 m c r | 8 => W8 m c r | 10 => W10 m c r | 11 => W11 m c r | 13 => W13 m c r
  | _ => W1 m c r
theorem V2_eq (c : Dev nD) : GenP.V2 m (outs m) c = W2 m c := by
  show Function.update (GenP.V1 m c) main_v12 (W2 m c main_v12) = W2 m c
  rw [W2_self]; rfl
theorem V3_eq (c : Dev nD) : GenP.V3 m (outs m) c = W3 m c := by
  show Function.update (GenP.V2 m (outs m) c) main_v13 (W3 m c main_v13) = W3 m c
  rw [W3_self, V2_eq]; rfl
theorem V4_eq (c : Dev nD) : GenP.V4 m (outs m) c = W4 m c := by
  show StableHlo.after hostOps2 (GenP.V3 m (outs m) c) = W4 m c
  rw [V3_eq]; rfl
theorem V5_eq (c : Dev nD) : GenP.V5 m (outs m) c = W5 m c := by
  show Function.update (GenP.V4 m (outs m) c) main_v16 (W5 m c main_v16) = W5 m c
  rw [W5_self, V4_eq]; rfl
theorem V6_eq (c : Dev nD) : GenP.V6 m (outs m) c = W6 m c := by
  show StableHlo.after hostOps3 (GenP.V5 m (outs m) c) = W6 m c
  rw [V5_eq]; rfl
theorem V7_eq (c : Dev nD) : GenP.V7 m (outs m) c = W7 m c := by
  show Function.update (GenP.V6 m (outs m) c) main_v18 (W7 m c main_v18) = W7 m c
  rw [W7_self, V6_eq]; rfl
theorem V8_eq (c : Dev nD) : GenP.V8 m (outs m) c = W8 m c := by
  show Function.update (GenP.V7 m (outs m) c) main_v19 (W8 m c main_v19) = W8 m c
  rw [W8_self, V7_eq]; rfl
theorem V9_eq (c : Dev nD) : GenP.V9 m (outs m) c = W9 m c := by
  show StableHlo.after hostOps5 (GenP.V8 m (outs m) c) = W9 m c
  rw [V8_eq]; rfl
theorem V10_eq (c : Dev nD) : GenP.V10 m (outs m) c = W10 m c := by
  show Function.update (GenP.V9 m (outs m) c) main_v21 (W10 m c main_v21) = W10 m c
  rw [W10_self, V9_eq]; rfl
theorem V11_eq (c : Dev nD) : GenP.V11 m (outs m) c = W11 m c := by
  show Function.update (GenP.V10 m (outs m) c) main_v22 (W11 m c main_v22) = W11 m c
  rw [W11_self, V10_eq]; rfl
theorem V12_eq (c : Dev nD) : GenP.V12 m (outs m) c = W12 m c := by
  show StableHlo.after hostOps7 (GenP.V11 m (outs m) c) = W12 m c
  rw [V11_eq]; rfl
theorem V13_eq (c : Dev nD) : GenP.V13 m (outs m) c = W13 m c := by
  show Function.update (GenP.V12 m (outs m) c) main_v24 (W13 m c main_v24) = W13 m c
  rw [W13_self, V12_eq]; rfl

def pdats : (p : Fin 8) → (c : Dev nD) → Dat τ (Elt 𝕀) Unit ℕ (UR sig nD τ) ℕ (cfgs p) c
  | ⟨0, _⟩ => fun c => dat0 (T1 m) c
  | ⟨1, _⟩ => fun c => dat1 (T2 m) c
  | ⟨2, _⟩ => fun c => dat2 (T4 m) c
  | ⟨3, _⟩ => fun c => dat3 (T6 m) c
  | ⟨4, _⟩ => fun c => dat4 (T7 m) c
  | ⟨5, _⟩ => fun c => dat5 (T9 m) c
  | ⟨6, _⟩ => fun c => dat6 (T10 m) c
  | ⟨7, _⟩ => fun c => dat7 (T12 m) c

theorem hF0 (c : Dev nD) (w : Fin cfg0.W) : (dat0 (T1 m) c).arrAt w cfg0.N = T2 m c (Pipeline.arrRef spec0 w) := by
  by_cases h : w = 3
  · subst h; exact (W2_self m c).symm
  · exact (((dat0 (T1 m) c).arrAt_in w (by revert w; decide) _).trans (A_eq0 (T1 m) c w)).trans (upd_of _ _ _ _ (by revert w; decide)).symm
theorem hrest0 (c : Dev nD) : ∀ b, b ∉ Finset.univ.image (Pipeline.arrRef spec0) → T2 m c b = T1 m c b :=
  fun b hb => upd_of _ _ _ b fun hmem => hb (Finset.mem_image.mpr ⟨3, Finset.mem_univ _, (List.mem_singleton.mp hmem).symm⟩)
theorem hF1 (c : Dev nD) (w : Fin cfg1.W) : (dat1 (T2 m) c).arrAt w cfg1.N = T3 m c (Pipeline.arrRef spec1 w) := by
  by_cases h : w = 4
  · subst h; exact (W3_self m c).symm
  · exact (((dat1 (T2 m) c).arrAt_in w (by revert w; decide) _).trans (A_eq1 (T2 m) c w)).trans (upd_of _ _ _ _ (by revert w; decide)).symm
theorem hrest1 (c : Dev nD) : ∀ b, b ∉ Finset.univ.image (Pipeline.arrRef spec1) → T3 m c b = T2 m c b :=
  fun b hb => upd_of _ _ _ b fun hmem => hb (Finset.mem_image.mpr ⟨4, Finset.mem_univ _, (List.mem_singleton.mp hmem).symm⟩)
theorem hF2 (c : Dev nD) (w : Fin cfg2.W) : (dat2 (T4 m) c).arrAt w cfg2.N = T5 m c (Pipeline.arrRef spec2 w) := by
  by_cases h : w = 3
  · subst h; exact (W5_self m c).symm
  · exact (((dat2 (T4 m) c).arrAt_in w (by revert w; decide) _).trans (A_eq2 (T4 m) c w)).trans (upd_of _ _ _ _ (by revert w; decide)).symm
theorem hrest2 (c : Dev nD) : ∀ b, b ∉ Finset.univ.image (Pipeline.arrRef spec2) → T5 m c b = T4 m c b :=
  fun b hb => upd_of _ _ _ b fun hmem => hb (Finset.mem_image.mpr ⟨3, Finset.mem_univ _, (List.mem_singleton.mp hmem).symm⟩)
theorem hF3 (c : Dev nD) (w : Fin cfg3.W) : (dat3 (T6 m) c).arrAt w cfg3.N = T7 m c (Pipeline.arrRef spec3 w) := by
  by_cases h : w = 5
  · subst h; exact (W7_self m c).symm
  · exact (((dat3 (T6 m) c).arrAt_in w (by revert w; decide) _).trans (A_eq3 (T6 m) c w)).trans (upd_of _ _ _ _ (by revert w; decide)).symm
theorem hrest3 (c : Dev nD) : ∀ b, b ∉ Finset.univ.image (Pipeline.arrRef spec3) → T7 m c b = T6 m c b :=
  fun b hb => upd_of _ _ _ b fun hmem => hb (Finset.mem_image.mpr ⟨5, Finset.mem_univ _, (List.mem_singleton.mp hmem).symm⟩)
theorem hF4 (c : Dev nD) (w : Fin cfg4.W) : (dat4 (T7 m) c).arrAt w cfg4.N = T8 m c (Pipeline.arrRef spec4 w) := by
  by_cases h : w = 3
  · subst h; exact (W8_self m c).symm
  · exact (((dat4 (T7 m) c).arrAt_in w (by revert w; decide) _).trans (A_eq4 (T7 m) c w)).trans (upd_of _ _ _ _ (by revert w; decide)).symm
theorem hrest4 (c : Dev nD) : ∀ b, b ∉ Finset.univ.image (Pipeline.arrRef spec4) → T8 m c b = T7 m c b :=
  fun b hb => upd_of _ _ _ b fun hmem => hb (Finset.mem_image.mpr ⟨3, Finset.mem_univ _, (List.mem_singleton.mp hmem).symm⟩)
theorem hF5 (c : Dev nD) (w : Fin cfg5.W) : (dat5 (T9 m) c).arrAt w cfg5.N = T10 m c (Pipeline.arrRef spec5 w) := by
  by_cases h : w = 5
  · subst h; exact (W10_self m c).symm
  · exact (((dat5 (T9 m) c).arrAt_in w (by revert w; decide) _).trans (A_eq5 (T9 m) c w)).trans (upd_of _ _ _ _ (by revert w; decide)).symm
theorem hrest5 (c : Dev nD) : ∀ b, b ∉ Finset.univ.image (Pipeline.arrRef spec5) → T10 m c b = T9 m c b :=
  fun b hb => upd_of _ _ _ b fun hmem => hb (Finset.mem_image.mpr ⟨5, Finset.mem_univ _, (List.mem_singleton.mp hmem).symm⟩)
theorem hF6 (c : Dev nD) (w : Fin cfg6.W) : (dat6 (T10 m) c).arrAt w cfg6.N = T11 m c (Pipeline.arrRef spec6 w) := by
  by_cases h : w = 3
  · subst h; exact (W11_self m c).symm
  · exact (((dat6 (T10 m) c).arrAt_in w (by revert w; decide) _).trans (A_eq6 (T10 m) c w)).trans (upd_of _ _ _ _ (by revert w; decide)).symm
theorem hrest6 (c : Dev nD) : ∀ b, b ∉ Finset.univ.image (Pipeline.arrRef spec6) → T11 m c b = T10 m c b :=
  fun b hb => upd_of _ _ _ b fun hmem => hb (Finset.mem_image.mpr ⟨3, Finset.mem_univ _, (List.mem_singleton.mp hmem).symm⟩)
theorem hF7 (c : Dev nD) (w : Fin cfg7.W) : (dat7 (T12 m) c).arrAt w cfg7.N = T13 m c (Pipeline.arrRef spec7 w) := by
  by_cases h : w = 5
  · subst h; exact (W13_self m c).symm
  · exact (((dat7 (T12 m) c).arrAt_in w (by revert w; decide) _).trans (A_eq7 (T12 m) c w)).trans (upd_of _ _ _ _ (by revert w; decide)).symm
theorem hrest7 (c : Dev nD) : ∀ b, b ∉ Finset.univ.image (Pipeline.arrRef spec7) → T13 m c b = T12 m c b :=
  fun b hb => upd_of _ _ _ b fun hmem => hb (Finset.mem_image.mpr ⟨5, Finset.mem_univ _, (List.mem_singleton.mp hmem).symm⟩)
end Chain
end Cert.KernelIdeal.IdealData
namespace Cert.KernelIdeal.IdealRegs
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
end Cert.KernelIdeal.IdealRegs
end
-- ==== Proof.IdealReg0.lean ====
import proofs.«138250_j73134703116926_1_alg».proof.Proof.IdealData

set_option maxRecDepth 1656

noncomputable section

namespace Cert.KernelIdeal.IdealRegs
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)
open Cert.KernelIdeal.Triples Cert.KernelIdeal.IdealData
local notation "𝕀" => Idealize.ShloMosaic.Ideal
local notation "𝕄" => MT nD τ sig Unit (Elt 𝕀) ℕ (UR sig nD τ) ℕ

variable (m : (ℓ : Loc nD τ sig) → Buf (Elt 𝕀) ℓ)

set_option backward.isDefEq.respectTransparency.types false in

def regOf (p : Fin 8) (lf : Pipeline.LaunchFacts (nD := nD) (τ := τ) cfgs p) (V V' : Dev nD → Valuation τ sig (Elt 𝕀))
    (hbody : ∀ c, BodyObligationLoose (pdats m p c) (defs₀ (F := 𝕀)) 𝒱₀ () Set.univ)
    (hq : ∀ c w, (pdats m p c).q w = fullShare) (howed : ∀ c t, (pdats m p c).owed t = 0)
    (hrec : ∀ c t, (pdats m p c).recorded t = Set.univ)
    (hA : ∀ c w, (pdats m p c).A w = V c (Pipeline.arrRef (cfgs p).spec w))
    (hF : ∀ c w, (pdats m p c).arrAt w (cfgs p).N = V' c (Pipeline.arrRef (cfgs p).spec w))
    (hrest : ∀ c b, b ∉ Finset.univ.image (Pipeline.arrRef (cfgs p).spec) → V' c b = V c b)
    (hΦin : ∀ c, (Pipeline.ΦA (cfgs p).spec c : sProp 𝕄) ⊢ (pdats m p c).Φ 0)
    (hΦout : ∀ c, (pdats m p c).Φ (Fin.last (cfgs p).N) ⊢ (Pipeline.ΦA (cfgs p).spec c : sProp 𝕄)) :
    RegionSeg (pcfgs (F := 𝕀)) GenP.adm (pdats m) () defs₀ 𝒱₀ L lv p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (V c) ∗ R c)
  post c := iprop(StableHlo.held (c : Thread nD τ) (Pipeline.ucRefs τ sig) (V' c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => V c b)
  hentry c := by
    rw [Pipeline.ownSems0_none]
    have hsplit := Pipeline.arrays_of_unscopedBufs (p := p) (pcfgs (F := 𝕀)) GenP.adm (pdats m) lf.win lf.arr_whole c
      ((pdats m p c).share_full (hq c)) (fun b => V c b) (hA c)
    rw [show unscopedBufs c (fun b => V c b) = StableHlo.held (c : Thread nD τ) (Pipeline.ucRefs τ sig) (V c)
      from Pipeline.unscopedBufs_held c (V c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl ((hrec c 0).symm.subset (Set.mem_univ _))
      iapply (Entails.of_eq (congrArg (fun O => (owes (c : Thread nD τ) O W : sProp 𝕄)) (howed c 0).symm))
      iexact HO
    isplitl [Hp]; · iexact Hp
    iexact Hrest
  hin c := by
    iintro ⟨Hp, -, Hr⟩
    iapply (hΦin c)
    unfold Pipeline.ΦA
    isplitl [Hr]; · iexact Hr
    iexact Hp
  hout c := by
    refine (hΦout c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := p) (pcfgs (F := 𝕀)) GenP.adm (Ix := Unit) (Name := ℕ) (U := UR sig nD τ) (Lvl := ℕ)
      lf.win lf.arr_whole c (pdats m) ((pdats m p c).share_full (hq c))
      (fun b => V c b) (fun b => V' c b) ((pdats m p c).arrAt · (cfgs p).N) (hF c) (hrest c)
    rw [show unscopedBufs c (fun b => V' c b) = StableHlo.held (c : Thread nD τ) (Pipeline.ucRefs τ sig) (V' c)
      from Pipeline.unscopedBufs_held c (V' c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    iapply (Entails.of_eq (congrArg (fun O => (owes (c : Thread nD τ) O W : sProp 𝕄)) (howed c (Fin.last _))))
    iexact HO

set_option backward.isDefEq.respectTransparency.types false in

def reg0 : RegionSeg (pcfgs (F := 𝕀)) GenP.adm (pdats m) () defs₀ 𝒱₀ L lv 0 :=
  regOf m 0 launch0 (W1 m) (W2 m) (body_obligation0 (T1 m)) (fun _ _ => rfl) (fun _ _ => rfl) (fun _ _ => rfl)
    (fun _ _ => rfl) (hF0 m) (hrest0 m)
    (fun c => Entails.of_eq (by show _ = Φ0 (T1 m) c 0; unfold Φ0; exact (if_pos rfl).symm))
    fun c => by
      rw [show (pdats m 0 c).Φ (Fin.last _) = Φ0 (T1 m) c (Fin.last _) from rfl]
      unfold Φ0 Pipeline.ΦA
      rw [if_neg (by decide), show (Pipeline.scopedRest (cfgs 0).spec c : sProp 𝕄) = _
        from scopedRest0_split (Ix := Unit) (Val := Elt 𝕀) (Name := ℕ) (U := UR sig nD τ) (Lvl := ℕ) c, owns_whole, owns_whole]
      iintro ⟨⟨Ha, Hb⟩, Hr, Hp⟩
      isplitr [Hp]
      · isplitl [Ha Hb]
        · isplitl [Ha]; · iexists _; iexact Ha
          iexists _; iexact Hb
        iexact Hr
      iexact Hp

end Cert.KernelIdeal.IdealRegs

end
-- ==== Proof.IdealReg1.lean ====
import proofs.«138250_j73134703116926_1_alg».proof.Proof.IdealReg0

set_option maxRecDepth 1656

noncomputable section

namespace Cert.KernelIdeal.IdealRegs
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)
open Cert.KernelIdeal.Triples Cert.KernelIdeal.IdealData
local notation "𝕀" => Idealize.ShloMosaic.Ideal
local notation "𝕄" => MT nD τ sig Unit (Elt 𝕀) ℕ (UR sig nD τ) ℕ

variable (m : (ℓ : Loc nD τ sig) → Buf (Elt 𝕀) ℓ)

set_option backward.isDefEq.respectTransparency.types false in

def reg1 : RegionSeg (pcfgs (F := 𝕀)) GenP.adm (pdats m) () defs₀ 𝒱₀ L lv 1 :=
  regOf m 1 launch1 (W2 m) (W3 m) (body_obligation1 (T2 m)) (fun _ _ => rfl) (fun _ _ => rfl) (fun _ _ => rfl)
    (fun _ _ => rfl) (hF1 m) (hrest1 m) (fun _ => .rfl) fun _ => .rfl

end Cert.KernelIdeal.IdealRegs

end
-- ==== Proof.IdealReg2.lean ====
import proofs.«138250_j73134703116926_1_alg».proof.Proof.IdealReg0

set_option maxRecDepth 1656

noncomputable section

namespace Cert.KernelIdeal.IdealRegs
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)
open Cert.KernelIdeal.Triples Cert.KernelIdeal.IdealData
local notation "𝕀" => Idealize.ShloMosaic.Ideal
local notation "𝕄" => MT nD τ sig Unit (Elt 𝕀) ℕ (UR sig nD τ) ℕ

variable (m : (ℓ : Loc nD τ sig) → Buf (Elt 𝕀) ℓ)

set_option backward.isDefEq.respectTransparency.types false in

def reg2 : RegionSeg (pcfgs (F := 𝕀)) GenP.adm (pdats m) () defs₀ 𝒱₀ L lv 2 :=
  regOf m 2 launch2 (W4 m) (W5 m) (body_obligation2 (T4 m)) (fun _ _ => rfl) (fun _ _ => rfl) (fun _ _ => rfl)
    (fun _ _ => rfl) (hF2 m) (hrest2 m)
    (fun c => Entails.of_eq (by show _ = Φ2 (T4 m) c 0; unfold Φ2; exact (if_pos rfl).symm))
    fun c => by
      rw [show (pdats m 2 c).Φ (Fin.last _) = Φ2 (T4 m) c (Fin.last _) from rfl]
      unfold Φ2 Pipeline.ΦA
      rw [if_neg (by decide), show (Pipeline.scopedRest (cfgs 2).spec c : sProp 𝕄) = _
        from scopedRest2_split (Ix := Unit) (Val := Elt 𝕀) (Name := ℕ) (U := UR sig nD τ) (Lvl := ℕ) c, owns_whole, owns_whole]
      iintro ⟨⟨Ha, Hb⟩, Hr, Hp⟩
      isplitr [Hp]
      · isplitl [Ha Hb]
        · isplitl [Ha]; · iexists _; iexact Ha
          iexists _; iexact Hb
        iexact Hr
      iexact Hp

end Cert.KernelIdeal.IdealRegs

end
-- ==== Proof.IdealReg3.lean ====
import proofs.«138250_j73134703116926_1_alg».proof.Proof.IdealReg0

set_option maxRecDepth 1656

noncomputable section

namespace Cert.KernelIdeal.IdealRegs
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)
open Cert.KernelIdeal.Triples Cert.KernelIdeal.IdealData
local notation "𝕀" => Idealize.ShloMosaic.Ideal
local notation "𝕄" => MT nD τ sig Unit (Elt 𝕀) ℕ (UR sig nD τ) ℕ

variable (m : (ℓ : Loc nD τ sig) → Buf (Elt 𝕀) ℓ)

set_option backward.isDefEq.respectTransparency.types false in

def reg3 : RegionSeg (pcfgs (F := 𝕀)) GenP.adm (pdats m) () defs₀ 𝒱₀ L lv 3 :=
  regOf m 3 launch3 (W6 m) (W7 m) (body_obligation3 (T6 m)) (fun _ _ => rfl) (fun _ _ => rfl) (fun _ _ => rfl)
    (fun _ _ => rfl) (hF3 m) (hrest3 m) (fun _ => .rfl) fun _ => .rfl

end Cert.KernelIdeal.IdealRegs

end
-- ==== Proof.IdealReg4.lean ====
import proofs.«138250_j73134703116926_1_alg».proof.Proof.IdealReg0

set_option maxRecDepth 1656

noncomputable section

namespace Cert.KernelIdeal.IdealRegs
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)
open Cert.KernelIdeal.Triples Cert.KernelIdeal.IdealData
local notation "𝕀" => Idealize.ShloMosaic.Ideal
local notation "𝕄" => MT nD τ sig Unit (Elt 𝕀) ℕ (UR sig nD τ) ℕ

variable (m : (ℓ : Loc nD τ sig) → Buf (Elt 𝕀) ℓ)

set_option backward.isDefEq.respectTransparency.types false in

def reg4 : RegionSeg (pcfgs (F := 𝕀)) GenP.adm (pdats m) () defs₀ 𝒱₀ L lv 4 :=
  regOf m 4 launch4 (W7 m) (W8 m) (body_obligation4 (T7 m)) (fun _ _ => rfl) (fun _ _ => rfl) (fun _ _ => rfl)
    (fun _ _ => rfl) (hF4 m) (hrest4 m)
    (fun c => Entails.of_eq (by show _ = Φ4 (T7 m) c 0; unfold Φ4; exact (if_pos rfl).symm))
    fun c => by
      rw [show (pdats m 4 c).Φ (Fin.last _) = Φ4 (T7 m) c (Fin.last _) from rfl]
      unfold Φ4 Pipeline.ΦA
      rw [if_neg (by decide), show (Pipeline.scopedRest (cfgs 4).spec c : sProp 𝕄) = _
        from scopedRest4_split (Ix := Unit) (Val := Elt 𝕀) (Name := ℕ) (U := UR sig nD τ) (Lvl := ℕ) c, owns_whole, owns_whole]
      iintro ⟨⟨Ha, Hb⟩, Hr, Hp⟩
      isplitr [Hp]
      · isplitl [Ha Hb]
        · isplitl [Ha]; · iexists _; iexact Ha
          iexists _; iexact Hb
        iexact Hr
      iexact Hp

end Cert.KernelIdeal.IdealRegs

end
-- ==== Proof.IdealReg5.lean ====
import proofs.«138250_j73134703116926_1_alg».proof.Proof.IdealReg0

set_option maxRecDepth 1656

noncomputable section

namespace Cert.KernelIdeal.IdealRegs
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)
open Cert.KernelIdeal.Triples Cert.KernelIdeal.IdealData
local notation "𝕀" => Idealize.ShloMosaic.Ideal
local notation "𝕄" => MT nD τ sig Unit (Elt 𝕀) ℕ (UR sig nD τ) ℕ

variable (m : (ℓ : Loc nD τ sig) → Buf (Elt 𝕀) ℓ)

set_option backward.isDefEq.respectTransparency.types false in

def reg5 : RegionSeg (pcfgs (F := 𝕀)) GenP.adm (pdats m) () defs₀ 𝒱₀ L lv 5 :=
  regOf m 5 launch5 (W9 m) (W10 m) (body_obligation5 (T9 m)) (fun _ _ => rfl) (fun _ _ => rfl) (fun _ _ => rfl)
    (fun _ _ => rfl) (hF5 m) (hrest5 m) (fun _ => .rfl) fun _ => .rfl

end Cert.KernelIdeal.IdealRegs

end
-- ==== Proof.IdealReg6.lean ====
import proofs.«138250_j73134703116926_1_alg».proof.Proof.IdealReg0

set_option maxRecDepth 1656

noncomputable section

namespace Cert.KernelIdeal.IdealRegs
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)
open Cert.KernelIdeal.Triples Cert.KernelIdeal.IdealData
local notation "𝕀" => Idealize.ShloMosaic.Ideal
local notation "𝕄" => MT nD τ sig Unit (Elt 𝕀) ℕ (UR sig nD τ) ℕ

variable (m : (ℓ : Loc nD τ sig) → Buf (Elt 𝕀) ℓ)

set_option backward.isDefEq.respectTransparency.types false in

def reg6 : RegionSeg (pcfgs (F := 𝕀)) GenP.adm (pdats m) () defs₀ 𝒱₀ L lv 6 :=
  regOf m 6 launch6 (W10 m) (W11 m) (body_obligation6 (T10 m)) (fun _ _ => rfl) (fun _ _ => rfl) (fun _ _ => rfl)
    (fun _ _ => rfl) (hF6 m) (hrest6 m)
    (fun c => Entails.of_eq (by show _ = Φ6 (T10 m) c 0; unfold Φ6; exact (if_pos rfl).symm))
    fun c => by
      rw [show (pdats m 6 c).Φ (Fin.last _) = Φ6 (T10 m) c (Fin.last _) from rfl]
      unfold Φ6 Pipeline.ΦA
      rw [if_neg (by decide), show (Pipeline.scopedRest (cfgs 6).spec c : sProp 𝕄) = _
        from scopedRest6_split (Ix := Unit) (Val := Elt 𝕀) (Name := ℕ) (U := UR sig nD τ) (Lvl := ℕ) c, owns_whole, owns_whole]
      iintro ⟨⟨Ha, Hb⟩, Hr, Hp⟩
      isplitr [Hp]
      · isplitl [Ha Hb]
        · isplitl [Ha]; · iexists _; iexact Ha
          iexists _; iexact Hb
        iexact Hr
      iexact Hp

end Cert.KernelIdeal.IdealRegs

end
-- ==== Proof.IdealReg7.lean ====
import proofs.«138250_j73134703116926_1_alg».proof.Proof.IdealReg0

set_option maxRecDepth 1656

noncomputable section

namespace Cert.KernelIdeal.IdealRegs
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg)
open Cert.KernelIdeal.Triples Cert.KernelIdeal.IdealData
local notation "𝕀" => Idealize.ShloMosaic.Ideal
local notation "𝕄" => MT nD τ sig Unit (Elt 𝕀) ℕ (UR sig nD τ) ℕ

variable (m : (ℓ : Loc nD τ sig) → Buf (Elt 𝕀) ℓ)

set_option backward.isDefEq.respectTransparency.types false in

def reg7 : RegionSeg (pcfgs (F := 𝕀)) GenP.adm (pdats m) () defs₀ 𝒱₀ L lv 7 :=
  regOf m 7 launch7 (W12 m) (W13 m) (body_obligation7 (T12 m)) (fun _ _ => rfl) (fun _ _ => rfl) (fun _ _ => rfl)
    (fun _ _ => rfl) (hF7 m) (hrest7 m) (fun _ => .rfl) fun _ => .rfl

end Cert.KernelIdeal.IdealRegs

end
-- ==== Proof.IdealRegs.lean ====
import proofs.«138250_j73134703116926_1_alg».proof.Proof.IdealReg0
import proofs.«138250_j73134703116926_1_alg».proof.Proof.IdealReg1
import proofs.«138250_j73134703116926_1_alg».proof.Proof.IdealReg2
import proofs.«138250_j73134703116926_1_alg».proof.Proof.IdealReg3
import proofs.«138250_j73134703116926_1_alg».proof.Proof.IdealReg4
import proofs.«138250_j73134703116926_1_alg».proof.Proof.IdealReg5
import proofs.«138250_j73134703116926_1_alg».proof.Proof.IdealReg6
import proofs.«138250_j73134703116926_1_alg».proof.Proof.IdealReg7
-- ==== Proof.IdealRun.lean ====
import proofs.«138250_j73134703116926_1_alg».proof.Proof.IdealRegs
set_option maxRecDepth 1656
noncomputable section
namespace Cert.KernelIdeal.IdealRun
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Triples Cert.KernelIdeal.IdealData Cert.KernelIdeal.IdealRegs
open Idealize.ShloMosaic.Pipeline (RegionSeg Seg HostSeg)
local notation "𝕀" => Idealize.ShloMosaic.Ideal
local notation "𝕄" => MT nD τ sig Unit (Elt 𝕀) ℕ (UR sig nD τ) ℕ
variable (m : (ℓ : Loc nD τ sig) → Buf (Elt 𝕀) ℓ)
abbrev E : Fin 9 → Dev nD → sProp 𝕄 := fun _ c => R c
theorem held_congr (c : Dev nD) {V V' : Valuation τ sig (Elt 𝕀)} (h : V = V') :
    (iprop(StableHlo.held (c : Thread nD τ) (Pipeline.ucRefs τ sig) V ∗ R c) : sProp 𝕄)
      ⊢ iprop(StableHlo.held (c : Thread nD τ) (Pipeline.ucRefs τ sig) V' ∗ R c) := by
  subst h; exact .rfl
theorem last_link (c : Dev nD) :
    (iprop(StableHlo.held (c : Thread nD τ) (Pipeline.ucRefs τ sig) (GenP.V38 m (outs m) c) ∗ R c) : sProp 𝕄)
      ⊢ iprop((StableHlo.held (c : Thread nD τ) (Pipeline.ucRefs τ sig) (GenP.V38 m (outs m) c) ∗ ∃ r, prngReg c r)
          ∗ ∃ W, owes (c : Thread nD τ) (0 : CellTallies nD τ sig Unit) W) := by
  iintro ⟨Hh, Hp, HO⟩
  isplitl [Hh Hp]
  · isplitl [Hh]; · iexact Hh
    iexact Hp
  iexact HO
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
set_option backward.isDefEq.respectTransparency.types false in
theorem run (ρ : Dev nD → PrngReg) :
    θ_run defs (onTc (τ := τ) (main (F := 𝕀))) ⟨m, fun _ => 0, ρ⟩ (fun r => ∀ c : Dev nD,
      r.2.mem ((c.tc : Thread nD τ).loc main_v76) = GenP.V38 m (outs m) c main_v76
      ∧ r.2.mem ((c.tc : Thread nD τ).loc main_v74) = GenP.V38 m (outs m) c main_v74
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) := by
  refine Pipeline.θ_run_regions_kit_dev (pcfgs (F := 𝕀)) GenP.adm (pdats m) () cellOf_inj emb₁ defs₀ 𝒱₀ L lv m ρ main
    (GenP.segs m (outs m) 𝒱₀ L lv E () (pdats m) (reg0 m) (reg1 m) (reg2 m) (reg3 m) (reg4 m) (reg5 m) (reg6 m) (reg7 m))
    (fun c Q => by
      rewrite [main_chain c, Seg.run_eq_chain,
        show (GenP.segs m (outs m) 𝒱₀ L lv E () (pdats m) (reg0 m) (reg1 m) (reg2 m) (reg3 m) (reg4 m) (reg5 m) (reg6 m) (reg7 m) c).map Seg.prog = [
          StableHlo.seq hostOps0,
          Prog.lift (.customCall (Pipeline.entry 0) ()),
          Prog.lift (.customCall (Pipeline.entry 1) ()),
          StableHlo.seq hostOps2,
          Prog.lift (.customCall (Pipeline.entry 2) ()),
          StableHlo.seq hostOps3,
          Prog.lift (.customCall (Pipeline.entry 3) ()),
          Prog.lift (.customCall (Pipeline.entry 4) ()),
          StableHlo.seq hostOps5,
          Prog.lift (.customCall (Pipeline.entry 5) ()),
          Prog.lift (.customCall (Pipeline.entry 6) ()),
          StableHlo.seq hostOps7,
          Prog.lift (.customCall (Pipeline.entry 7) ()),
          StableHlo.seq hostOps8,
          StableHlo.seq hostOps8_1,
          StableHlo.seq hostOps8_2,
          StableHlo.seq hostOps8_3,
          StableHlo.seq hostOps8_4,
          StableHlo.seq hostOps8_5,
          StableHlo.seq hostOps8_6,
          StableHlo.seq hostOps8_7,
          StableHlo.seq hostOps8_8,
          StableHlo.seq hostOps8_9,
          StableHlo.seq hostOps8_10,
          StableHlo.seq hostOps8_11,
          StableHlo.seq hostOps8_12,
          StableHlo.seq hostOps8_13,
          StableHlo.seq hostOps8_14,
          StableHlo.seq hostOps8_15,
          StableHlo.seq hostOps8_16,
          StableHlo.seq hostOps8_17,
          StableHlo.seq hostOps8_18,
          StableHlo.seq hostOps8_19,
          StableHlo.seq hostOps8_20,
          StableHlo.seq hostOps8_21,
          StableHlo.seq hostOps8_22,
          StableHlo.seq hostOps8_23,
          StableHlo.seq hostOps8_24 ] from rfl]
      with_reducible exact .rfl)
    (fun c => by simp only [GenP.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (GenP.V0 m c) ∗ R c))
    (Tₙ := fun c => iprop(StableHlo.held (c : Thread nD τ) (Pipeline.ucRefs τ sig) (GenP.V38 m (outs m) c) ∗ ∃ r, prngReg c r))
    (hch := fun c => ⟨.rfl, .rfl, .rfl,
      held_congr c (V3_eq m c).symm, held_congr c (V4_eq m c),
      held_congr c (V5_eq m c).symm, held_congr c (V6_eq m c),
      .rfl,
      held_congr c (V8_eq m c).symm, held_congr c (V9_eq m c),
      .rfl,
      held_congr c (V11_eq m c).symm, held_congr c (V12_eq m c),
      held_congr c (V13_eq m c).symm,
      .rfl, .rfl, .rfl, .rfl, .rfl, .rfl, .rfl, .rfl, .rfl, .rfl, .rfl, .rfl, .rfl, .rfl, .rfl, .rfl, .rfl, .rfl, .rfl, .rfl, .rfl, .rfl, .rfl, .rfl,
      last_link m c⟩)
    (hinit := ?_)
    (hfin := fun c s' => ?_) (hQ := fun _ h => h)
  · refine Pipeline.initEach L lv fun c => ?_
    rw [show unscopedBufs c (fun b => m ((c : Thread nD τ).loc b)) = StableHlo.held (c : Thread nD τ) (Pipeline.ucRefs τ sig) (GenP.V0 m c)
      from Pipeline.unscopedBufs_held c (GenP.V0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨⟨Hh, -⟩, HSI⟩
    ihave Hr := (pointsTo_read_all (Pipeline.ucRefs τ sig) (fun b => ((c : Thread nD τ).1, b)) (GenP.V38 m (outs m) c) s') $$ [Hh HSI]
    · isplitl [Hh] <;> iassumption
    icases Hr with ⟨%h, HSI⟩
    imodintro
    isplitr
    · ipureintro
      have hh := fun (b : Ref sig .tc) hb => h (Proc.devRef .tc b) (mem_uc b hb)
      exact ⟨hh main_v76 (by decide), hh main_v74 (by decide),
        (hh main_arg0 (by decide)).trans (GenP.V38_main_arg0 m (outs m) c),
        (hh main_arg1 (by decide)).trans (GenP.V38_main_arg1 m (outs m) c),
        (hh main_arg2 (by decide)).trans (GenP.V38_main_arg2 m (outs m) c),
        (hh main_arg3 (by decide)).trans (GenP.V38_main_arg3 m (outs m) c),
        (hh main_arg4 (by decide)).trans (GenP.V38_main_arg4 m (outs m) c),
        (hh main_arg5 (by decide)).trans (GenP.V38_main_arg5 m (outs m) c),
        (hh main_arg6 (by decide)).trans (GenP.V38_main_arg6 m (outs m) c),
        (hh main_arg7 (by decide)).trans (GenP.V38_main_arg7 m (outs m) c),
        (hh main_arg8 (by decide)).trans (GenP.V38_main_arg8 m (outs m) c),
        (hh main_arg9 (by decide)).trans (GenP.V38_main_arg9 m (outs m) c),
        (hh main_arg10 (by decide)).trans (GenP.V38_main_arg10 m (outs m) c),
        (hh main_arg11 (by decide)).trans (GenP.V38_main_arg11 m (outs m) c),
        (hh main_arg12 (by decide)).trans (GenP.V38_main_arg12 m (outs m) c),
        (hh main_arg13 (by decide)).trans (GenP.V38_main_arg13 m (outs m) c),
        (hh main_arg14 (by decide)).trans (GenP.V38_main_arg14 m (outs m) c),
        (hh main_arg15 (by decide)).trans (GenP.V38_main_arg15 m (outs m) c)⟩
    · iexact HSI
end Cert.KernelIdeal.IdealRun
end
-- ==== Proof.OutValueSpec.lean ====
import proofs.«138250_j73134703116926_1_alg».proof.Proof.Spec
import proofs.«138250_j73134703116926_1_alg».proof.Proof.SpecReal
import proofs.«138250_j73134703116926_1_alg».proof.Proof.LibOnlineLse

noncomputable section

open scoped BigOperators

namespace Cert.KernelIdeal.OutValue

open Idealize.ShloMosaic Idealize.ShloMosaic.ValueIdx AdaptiveSpec AdaptiveSpec.Real

def flatRow (s : Fin 64) (b : Fin 8) : Fin 512 := ⟨8 * s.val + b.val, by omega⟩

def rowS (r : Fin 512) : Fin 64 := ⟨r.val / 8, by omega⟩

def rowB (r : Fin 512) : Fin 8 := ⟨r.val % 8, by omega⟩

theorem rowS_flatRow (s : Fin 64) (b : Fin 8) : rowS (flatRow s b) = s := by
  apply Fin.ext
  show (8 * s.val + b.val) / 8 = s.val
  omega

theorem rowB_flatRow (s : Fin 64) (b : Fin 8) : rowB (flatRow s b) = b := by
  apply Fin.ext
  show (8 * s.val + b.val) % 8 = b.val
  omega

theorem flatRow_rowS_rowB (r : Fin 512) : flatRow (rowS r) (rowB r) = r := by
  apply Fin.ext
  show 8 * (r.val / 8) + r.val % 8 = r.val
  omega

section Value

variable {n : Nat}

theorem head_value (y : Fin n → ℝ) (j : Fin n) :
    ((y j : ℝ) : EReal) - ((Real.log (∑ k, Real.exp (y k)) : ℝ) : EReal) = ((logSoftmaxR y j : ℝ) : EReal) := by
  unfold logSoftmaxR
  rw [EReal.coe_sub]

theorem tail_value (y : Fin n → ℝ) (j : Fin n) (ρ : ℝ) :
    (((y j : ℝ) : EReal) - ((Real.log (∑ k, Real.exp (y k)) : ℝ) : EReal)) + ((ρ : ℝ) : EReal)
      = ((ρ + logSoftmaxR y j : ℝ) : EReal) := by
  rw [head_value, ← EReal.coe_add, add_comm]

end Value

section Spec

variable {A : Args} (R : RealOf A)

theorem head_entry (s : Fin 64) (b : Fin 8) (v : Fin 20003) (L : EReal)
    (hL : L = ((Real.log (∑ j, Real.exp (R.y0 s b j)) : ℝ) : EReal)) :
    A.logit0 s b v - L = A.lp0 s b v := by
  rw [hL, R.logit0_eq, R.lp0_eq]
  exact head_value (R.y0 s b) v

theorem tail1_entry (s : Fin 64) (b : Fin 8) (j : Fin 20000) (L ρ : EReal)
    (hL : L = ((Real.log (∑ k, Real.exp (R.y1 s b k)) : ℝ) : EReal)) (hρ : ρ = A.lp0 s b ⟨20000, by decide⟩) :
    (A.logit1 s b j - L) + ρ = A.joint1 s b j := by
  rw [hL, hρ, R.logit1_eq, R.lp0_eq, R.joint1_eq]
  exact tail_value (R.y1 s b) j _

theorem tail2_entry (s : Fin 64) (b : Fin 8) (j : Fin 160000) (L ρ : EReal)
    (hL : L = ((Real.log (∑ k, Real.exp (R.y2 s b k)) : ℝ) : EReal)) (hρ : ρ = A.lp0 s b ⟨20001, by decide⟩) :
    (A.logit2 s b j - L) + ρ = A.joint2 s b j := by
  rw [hL, hρ, R.logit2_eq, R.lp0_eq, R.joint2_eq]
  exact tail_value (R.y2 s b) j _

theorem tail3_entry (s : Fin 64) (b : Fin 8) (j : Fin 67735) (L ρ : EReal)
    (hL : L = ((Real.log (∑ k, Real.exp (R.y3 s b k)) : ℝ) : EReal)) (hρ : ρ = A.lp0 s b ⟨20002, by decide⟩) :
    (A.logit3 s b j - L) + ρ = A.joint3 s b j := by
  rw [hL, hρ, R.logit3_eq, R.lp0_eq, R.joint3_eq]
  exact tail_value (R.y3 s b) j _

end Spec

section KLogit

variable {A : Args}

def klogit {n e : Nat} (X : (⟨2, ![512, e]⟩ : Shape).Idx → EReal) (W : (⟨2, ![n, e]⟩ : Shape).Idx → EReal)
    (B : (⟨1, ![n]⟩ : Shape).Idx → EReal) (r : Fin 512) (j : Fin n) : EReal :=
  (∑ k : Fin e, X (ix2 r k) * W (ix2 j k)) + B (ix1 j)

theorem klogit_eq {n e : Nat} (X : (⟨2, ![512, e]⟩ : Shape).Idx → EReal) (P : (⟨2, ![e, 1024]⟩ : Shape).Idx → EReal)
    (W : (⟨2, ![n, e]⟩ : Shape).Idx → EReal) (B : (⟨1, ![n]⟩ : Shape).Idx → EReal)
    (hX : ∀ r k, X (ix2 r k) = ∑ d : Fin 1024, A.hidden (ix3 (rowS r) (rowB r) d) * P (ix2 k d))
    (r : Fin 512) (j : Fin n) :
    klogit X W B r j
      = logit A.hid (fun k d => P (ix2 k d)) (fun j k => W (ix2 j k)) (fun j => B (ix1 j)) (rowS r) (rowB r) j := by
  unfold klogit logit proj
  refine congrArg (· + B (ix1 j)) (Finset.sum_congr rfl fun k _ => ?_)
  rw [hX r k]
  rfl

theorem klogit0_eq (X : (⟨2, ![512, 1024]⟩ : Shape).Idx → EReal) (Wh : (⟨2, ![20003, 1024]⟩ : Shape).Idx → EReal)
    (Bh : (⟨1, ![20003]⟩ : Shape).Idx → EReal)
    (hX : ∀ r k, X (ix2 r k) = ∑ d : Fin 1024, A.hidden (ix3 (rowS r) (rowB r) d) * A.P0 (ix2 k d))
    (hW : ∀ j k, Wh (ix2 j k) = headW A.W0 A.clusterW j k) (hB : ∀ j, Bh (ix1 j) = headB A.b0 A.clusterB j)
    (r : Fin 512) (j : Fin 20003) : klogit X Wh Bh r j = A.logit0 (rowS r) (rowB r) j := by
  rw [klogit_eq X A.P0 Wh Bh hX r j]
  unfold Args.logit0
  rw [show (fun j k => Wh (ix2 j k)) = headW A.W0 A.clusterW from funext fun j => funext fun k => hW j k,
    show (fun j => Bh (ix1 j)) = headB A.b0 A.clusterB from funext fun j => hB j]

end KLogit

section Regions

variable {A : Args} (R : RealOf A)

theorem head_region (X : (⟨2, ![512, 1024]⟩ : Shape).Idx → EReal) (Wh : (⟨2, ![20003, 1024]⟩ : Shape).Idx → EReal)
    (Bh : (⟨1, ![20003]⟩ : Shape).Idx → EReal) (L : (⟨2, ![512, 1]⟩ : Shape).Idx → EReal)
    (O : (⟨2, ![512, 20003]⟩ : Shape).Idx → EReal)
    (hX : ∀ r k, X (ix2 r k) = ∑ d : Fin 1024, A.hidden (ix3 (rowS r) (rowB r) d) * A.P0 (ix2 k d))
    (hW : ∀ j k, Wh (ix2 j k) = headW A.W0 A.clusterW j k) (hB : ∀ j, Bh (ix1 j) = headB A.b0 A.clusterB j)
    (hL : ∀ r, L (ix2 r 0) = ((Real.log (∑ j, Real.exp (R.y0 (rowS r) (rowB r) j)) : ℝ) : EReal))
    (hO : ∀ r v, O (ix2 r v) = klogit X Wh Bh r v - L (ix2 r 0)) (r : Fin 512) (v : Fin 20003) :
    O (ix2 r v) = A.lp0 (rowS r) (rowB r) v := by
  rw [hO, klogit0_eq X Wh Bh hX hW hB]
  exact head_entry R _ _ v _ (hL r)

theorem tail1_region (X : (⟨2, ![512, 256]⟩ : Shape).Idx → EReal) (L ρ : (⟨2, ![512, 1]⟩ : Shape).Idx → EReal)
    (O : (⟨2, ![512, 20000]⟩ : Shape).Idx → EReal)
    (hX : ∀ r k, X (ix2 r k) = ∑ d : Fin 1024, A.hidden (ix3 (rowS r) (rowB r) d) * A.P1 (ix2 k d))
    (hL : ∀ r, L (ix2 r 0) = ((Real.log (∑ j, Real.exp (R.y1 (rowS r) (rowB r) j)) : ℝ) : EReal))
    (hρ : ∀ r, ρ (ix2 r 0) = A.lp0 (rowS r) (rowB r) ⟨20000, by decide⟩)
    (hO : ∀ r j, O (ix2 r j) = (klogit X A.W1 A.b1 r j - L (ix2 r 0)) + ρ (ix2 r 0)) (r : Fin 512) (j : Fin 20000) :
    O (ix2 r j) = A.joint1 (rowS r) (rowB r) j := by
  rw [hO, klogit_eq X A.P1 A.W1 A.b1 hX]
  exact tail1_entry R _ _ j _ _ (hL r) (hρ r)

theorem tail2_region (X : (⟨2, ![512, 64]⟩ : Shape).Idx → EReal) (L ρ : (⟨2, ![512, 1]⟩ : Shape).Idx → EReal)
    (O : (⟨2, ![512, 160000]⟩ : Shape).Idx → EReal)
    (hX : ∀ r k, X (ix2 r k) = ∑ d : Fin 1024, A.hidden (ix3 (rowS r) (rowB r) d) * A.P2 (ix2 k d))
    (hL : ∀ r, L (ix2 r 0) = ((Real.log (∑ j, Real.exp (R.y2 (rowS r) (rowB r) j)) : ℝ) : EReal))
    (hρ : ∀ r, ρ (ix2 r 0) = A.lp0 (rowS r) (rowB r) ⟨20001, by decide⟩)
    (hO : ∀ r j, O (ix2 r j) = (klogit X A.W2 A.b2 r j - L (ix2 r 0)) + ρ (ix2 r 0)) (r : Fin 512) (j : Fin 160000) :
    O (ix2 r j) = A.joint2 (rowS r) (rowB r) j := by
  rw [hO, klogit_eq X A.P2 A.W2 A.b2 hX]
  exact tail2_entry R _ _ j _ _ (hL r) (hρ r)

theorem tail3_region (X : (⟨2, ![512, 16]⟩ : Shape).Idx → EReal) (L ρ : (⟨2, ![512, 1]⟩ : Shape).Idx → EReal)
    (O : (⟨2, ![512, 67735]⟩ : Shape).Idx → EReal)
    (hX : ∀ r k, X (ix2 r k) = ∑ d : Fin 1024, A.hidden (ix3 (rowS r) (rowB r) d) * A.P3 (ix2 k d))
    (hL : ∀ r, L (ix2 r 0) = ((Real.log (∑ j, Real.exp (R.y3 (rowS r) (rowB r) j)) : ℝ) : EReal))
    (hρ : ∀ r, ρ (ix2 r 0) = A.lp0 (rowS r) (rowB r) ⟨20002, by decide⟩)
    (hO : ∀ r j, O (ix2 r j) = (klogit X A.W3 A.b3 r j - L (ix2 r 0)) + ρ (ix2 r 0)) (r : Fin 512) (j : Fin 67735) :
    O (ix2 r j) = A.joint3 (rowS r) (rowB r) j := by
  rw [hO, klogit_eq X A.P3 A.W3 A.b3 hX]
  exact tail3_entry R _ _ j _ _ (hL r) (hρ r)

end Regions

def sideBySide (O1 : (⟨2, ![512, 20003]⟩ : Shape).Idx → EReal) (O3 : (⟨2, ![512, 20000]⟩ : Shape).Idx → EReal)
    (O5 : (⟨2, ![512, 160000]⟩ : Shape).Idx → EReal) (O7 : (⟨2, ![512, 67735]⟩ : Shape).Idx → EReal) :
    (⟨3, ![64, 8, 267735]⟩ : Shape).Idx → EReal := fun i =>
  if h0 : (i 2).val < 20000 then O1 (ix2 (flatRow (i 0) (i 1)) ⟨(i 2).val, by omega⟩)
  else if h1 : (i 2).val < 40000 then O3 (ix2 (flatRow (i 0) (i 1)) ⟨(i 2).val - 20000, by omega⟩)
  else if h2 : (i 2).val < 200000 then O5 (ix2 (flatRow (i 0) (i 1)) ⟨(i 2).val - 40000, by omega⟩)
  else O7 (ix2 (flatRow (i 0) (i 1)) ⟨(i 2).val - 200000, by have h : (i 2).val < 267735 := (i 2).isLt; omega⟩)

theorem sideBySide_eq_out (A : Args) (O1 : (⟨2, ![512, 20003]⟩ : Shape).Idx → EReal)
    (O3 : (⟨2, ![512, 20000]⟩ : Shape).Idx → EReal) (O5 : (⟨2, ![512, 160000]⟩ : Shape).Idx → EReal)
    (O7 : (⟨2, ![512, 67735]⟩ : Shape).Idx → EReal)
    (h1 : ∀ r v, O1 (ix2 r v) = A.lp0 (rowS r) (rowB r) v)
    (h3 : ∀ r j, O3 (ix2 r j) = A.joint1 (rowS r) (rowB r) j)
    (h5 : ∀ r j, O5 (ix2 r j) = A.joint2 (rowS r) (rowB r) j)
    (h7 : ∀ r j, O7 (ix2 r j) = A.joint3 (rowS r) (rowB r) j) :
    sideBySide O1 O3 O5 O7 = A.out := by
  have e1 : ∀ (s : Fin 64) (b : Fin 8) v, O1 (ix2 (flatRow s b) v) = A.lp0 s b v := fun s b v => by
    rw [h1, rowS_flatRow, rowB_flatRow]
  have e3 : ∀ (s : Fin 64) (b : Fin 8) j, O3 (ix2 (flatRow s b) j) = A.joint1 s b j := fun s b j => by
    rw [h3, rowS_flatRow, rowB_flatRow]
  have e5 : ∀ (s : Fin 64) (b : Fin 8) j, O5 (ix2 (flatRow s b) j) = A.joint2 s b j := fun s b j => by
    rw [h5, rowS_flatRow, rowB_flatRow]
  have e7 : ∀ (s : Fin 64) (b : Fin 8) j, O7 (ix2 (flatRow s b) j) = A.joint3 s b j := fun s b j => by
    rw [h7, rowS_flatRow, rowB_flatRow]
  funext i
  unfold sideBySide Args.out
  by_cases c0 : (i 2).val < 20000
  · rw [dif_pos c0, dif_pos c0]
    exact e1 (i 0) (i 1) _
  · rw [dif_neg c0, dif_neg c0]
    by_cases c1 : (i 2).val < 40000
    · rw [dif_pos c1, dif_pos c1]
      exact e3 (i 0) (i 1) _
    · rw [dif_neg c1, dif_neg c1]
      by_cases c2 : (i 2).val < 200000
      · rw [dif_pos c2, dif_pos c2]
        exact e5 (i 0) (i 1) _
      · rw [dif_neg c2, dif_neg c2]
        exact e7 (i 0) (i 1) _

section Stats

theorem stats_lse {n C T : Nat} (hle : n ≤ T * C) (hlast : (T - 1) * C < n) (z : Fin n → EReal) (y : Fin n → ℝ)
    (hz : ∀ j, z j = ((y j : ℝ) : EReal)) (x : ℕ → Fin C → EReal)
    (hx : ∀ t, t < T → ∀ j : Fin C, x t j = if h : t * C + j.val < n then z ⟨t * C + j.val, h⟩ else ⊥) :
    (LibOnlineLse.run x T).1 + Ideal.log (LibOnlineLse.run x T).2 = ((Real.log (∑ j, Real.exp (y j)) : ℝ) : EReal) := by
  refine LibOnlineLse.online_lse_layout hle hlast y x fun t ht j => ?_
  rw [hx t ht j]
  by_cases h : t * C + j.val < n
  · rw [dif_pos h, dif_pos h, hz]
  · rw [dif_neg h, dif_neg h]

end Stats

end Cert.KernelIdeal.OutValue

end
-- ==== Proof.IdealHost.lean ====
import proofs.«138250_j73134703116926_1_alg».proof.Proof.KernelIdealRegions
import Idealize.ShloMosaic.Lib.Pipeline.Value
import Idealize.ShloMosaic.Lib.ValueIdx
import Idealize.ShloMosaic.Lib.StackMember
import Idealize.ShloMosaic.PureOps.Ideal.Laws
import proofs.«138250_j73134703116926_1_alg».proof.Proof.Spec

set_option maxRecDepth 1656

noncomputable section

namespace Cert.KernelIdeal.HostValue

open Cert.KernelIdeal Cert.KernelIdeal.Gen Cert.KernelIdeal.GenP
open Idealize.ShloMosaic Idealize.ShloMosaic.TcCoe Idealize.SL.Sem Idealize.ShloMosaic.StableHlo
open Idealize.ShloMosaic.ValueIdx
open scoped BigOperators

def tokS (i : Fin 512) : Fin 64 := ⟨i.val / 8, by omega⟩
def tokB (i : Fin 512) : Fin 8 := ⟨i.val % 8, by omega⟩

def flatHidden (hid : S64x8x1024.Idx → EReal) : S512x1024.Idx → EReal := fun j =>
  hid (ix3 (tokS (j 0)) (tokB (j 0)) (j 1))

def flatTarget (t : S64x8.Idx → BitVec 32) : S512.Idx → BitVec 32 := fun j => t (ix2 (tokS (j 0)) (tokB (j 0)))

def catRows {n₁ n₂ n k : Nat} (hn : n = n₁ + n₂) (x₁ : (⟨2, ![n₁, k]⟩ : Shape).Idx → EReal)
    (x₂ : (⟨2, ![n₂, k]⟩ : Shape).Idx → EReal) : (⟨2, ![n, k]⟩ : Shape).Idx → EReal := fun j =>
  if h : (j 0).val < n₁ then x₁ (ix2 ⟨(j 0).val, h⟩ (j 1))
  else x₂ (ix2 ⟨(j 0).val - n₁, by have := idx2_lt0 j; omega⟩ (j 1))

def catVec {n₁ n₂ n : Nat} (hn : n = n₁ + n₂) (x₁ : (⟨1, ![n₁]⟩ : Shape).Idx → EReal)
    (x₂ : (⟨1, ![n₂]⟩ : Shape).Idx → EReal) : (⟨1, ![n]⟩ : Shape).Idx → EReal := fun j =>
  if h : (j 0).val < n₁ then x₁ (ix1 ⟨(j 0).val, h⟩)
  else x₂ (ix1 ⟨(j 0).val - n₁, by have : (j 0).val < n := (j 0).isLt; omega⟩)

def projRows {e : Nat} (H : S512x1024.Idx → EReal) (P : (⟨2, ![e, 1024]⟩ : Shape).Idx → EReal) :
    (⟨2, ![512, e]⟩ : Shape).Idx → EReal := fun j =>
  ∑ d : Fin 1024, H (ix2 (j 0) d) * P (ix2 (j 1) d)

theorem shapeCast_flatHidden (x : S64x8x1024.Idx → EReal) :
    shapeCast S512x1024 x shapeCasts_S64x8x1024_S512x1024 = flatHidden x := by
  funext j
  refine shapeCast_apply x shapeCasts_S64x8x1024_S512x1024 j (ix3 (tokS (j 0)) (tokB (j 0)) (j 1)) ?_
  rewrite [Shape.rowMajor_val_three, Shape.rowMajor_val_two]
  have h0 : (j 0).val < 512 := (j 0).isLt
  show ((j 0).val / 8 * 8 + (j 0).val % 8) * 1024 + (j 1).val = (j 0).val * 1024 + (j 1).val
  omega

theorem shapeCast_flatTarget (x : S64x8.Idx → BitVec 32) :
    shapeCast S512 x shapeCasts_S64x8_S512 = flatTarget x := by
  funext j
  refine shapeCast_apply x shapeCasts_S64x8_S512 j (ix2 (tokS (j 0)) (tokB (j 0))) ?_
  rewrite [Shape.rowMajor_val_two, Shape.rowMajor_val_one]
  show (j 0).val / 8 * 8 + (j 0).val % 8 = (j 0).val
  omega

theorem concat_catRows (x₁ : S20000x1024.Idx → EReal) (x₂ : S3x1024.Idx → EReal) :
    concatenate S20003x1024 0 [⟨S20000x1024, x₁⟩, ⟨S3x1024, x₂⟩] concatenates_S20000x1024_S3x1024_S20003x1024_d0
      = catRows rfl x₁ x₂ := by
  funext j
  unfold catRows
  have hj : (j 0).val < 20003 := (j 0).isLt
  by_cases h : (j 0).val < 20000
  · rw [dif_pos h]
    exact concatenate_pair_apply_left 0 x₁ x₂ concatenates_S20000x1024_S3x1024_S20003x1024_d0 j rfl
      (ix2 ⟨(j 0).val, h⟩ (j 1)) (fun b => match b with
        | ⟨0, _⟩ => rfl
        | ⟨1, _⟩ => rfl)
  · rw [dif_neg h]
    exact concatenate_pair_apply_right 0 x₁ x₂ concatenates_S20000x1024_S3x1024_S20003x1024_d0 j rfl rfl
      (ix2 ⟨(j 0).val - 20000, by omega⟩ (j 1)) (fun b hb => match b, hb with
        | ⟨0, _⟩, hb => absurd rfl hb
        | ⟨1, _⟩, _ => rfl)
      (by show (j 0).val - 20000 + 20000 = (j 0).val; omega)

theorem concat_catVec (x₁ : S20000.Idx → EReal) (x₂ : S3.Idx → EReal) :
    concatenate S20003 0 [⟨S20000, x₁⟩, ⟨S3, x₂⟩] concatenates_S20000_S3_S20003_d0 = catVec rfl x₁ x₂ := by
  funext j
  unfold catVec
  have hj : (j 0).val < 20003 := (j 0).isLt
  by_cases h : (j 0).val < 20000
  · rw [dif_pos h]
    exact concatenate_pair_apply_left 0 x₁ x₂ concatenates_S20000_S3_S20003_d0 j rfl
      (ix1 ⟨(j 0).val, h⟩) (fun b => match b with
        | ⟨0, _⟩ => rfl)
  · rw [dif_neg h]
    exact concatenate_pair_apply_right 0 x₁ x₂ concatenates_S20000_S3_S20003_d0 j rfl rfl
      (ix1 ⟨(j 0).val - 20000, by omega⟩) (fun b hb => match b, hb with
        | ⟨0, _⟩, hb => absurd rfl hb)
      (by show (j 0).val - 20000 + 20000 = (j 0).val; omega)

-- A plain product against a transposed matrix is the inner products of the rows of both, whatever the width.
theorem dot_proj {e : Nat} (D : DotDims S512x1024 ⟨2, ![1024, e]⟩ ⟨2, ![512, e]⟩) (hD : D = DotDims.plain 512 1024 e)
    (ht : (⟨2, ![e, 1024]⟩ : Shape).Transposes [1, 0] ⟨2, ![1024, e]⟩) (H : FVec Ideal S512x1024 .f32)
    (P : FVec Ideal ⟨2, ![e, 1024]⟩ .f32) :
    Host.dotGeneral (F := Ideal) (φ₁ := .f32) (φ₂ := .f32) D none H
      (transpose ⟨2, ![1024, e]⟩ [1, 0] P ht : FVec Ideal ⟨2, ![1024, e]⟩ .f32) = projRows H P := by
  subst hD
  funext j
  obtain ⟨a, b, rfl⟩ : ∃ a b, j = ix2 a b := ⟨j 0, j 1, eq_ix2 j⟩
  rw [StackMember.dotGeneral_plain_apply]
  show _ = ∑ d : Fin 1024, H (ix2 a d) * P (ix2 b d)
  exact Finset.sum_congr rfl fun d _ => congrArg (H (ix2 a d) * ·)
    (transpose_apply [1, 0] P ht (ix2 d b) (ix2 b d) fun x => match x with
      | ⟨0, _⟩ => rfl
      | ⟨1, _⟩ => rfl)

variable (m : (ℓ : Loc nD τ sig) → Buf (Elt Ideal) ℓ) (outs : Outs (F := Ideal)) (c : Dev nD)

theorem V1_main_v1 : (V1 m c main_v1 : S512.Idx → BitVec 32) = flatTarget (m (c, main_arg1)) := by
  have e : (V1 m c main_v1 : S512.Idx → BitVec 32) = shapeCast S512 (m (c, main_arg1)) shapeCasts_S64x8_S512 := by
    dsimp only [V1, V0, hostOps0]; after_results; rfl
  exact e.trans (shapeCast_flatTarget _)

theorem V1_main_v2 : (V1 m c main_v2 : S20003x1024.Idx → EReal) = catRows rfl (m (c, main_arg4)) (m (c, main_arg2)) := by
  have e : (V1 m c main_v2 : S20003x1024.Idx → EReal)
      = concatenate S20003x1024 0 [⟨S20000x1024, m (c, main_arg4)⟩, ⟨S3x1024, m (c, main_arg2)⟩]
          concatenates_S20000x1024_S3x1024_S20003x1024_d0 := by
    dsimp only [V1, V0, hostOps0]; after_results
  exact e.trans (concat_catRows _ _)

theorem V1_main_v3 : (V1 m c main_v3 : S20003.Idx → EReal) = catVec rfl (m (c, main_arg5)) (m (c, main_arg3)) := by
  have e : (V1 m c main_v3 : S20003.Idx → EReal)
      = concatenate S20003 0 [⟨S20000, m (c, main_arg5)⟩, ⟨S3, m (c, main_arg3)⟩] concatenates_S20000_S3_S20003_d0 := by
    dsimp only [V1, V0, hostOps0]; after_results
  exact e.trans (concat_catVec _ _)

theorem V1_main_v5 : (V1 m c main_v5 : S512x1024.Idx → EReal)
    = projRows (flatHidden (m (c, main_arg0))) (m (c, main_arg6)) := by
  have e : (V1 m c main_v5 : S512x1024.Idx → EReal)
      = Host.dotGeneral (F := Ideal) (φ₁ := .f32) (φ₂ := .f32) dot_S512x1024_S1024x1024_S512x1024_1_0_0_1_n_n none
          (shapeCast S512x1024 (m (c, main_arg0)) shapeCasts_S64x8x1024_S512x1024)
          (transpose S1024x1024 [1, 0] (m (c, main_arg6)) transposes_S1024x1024_S1024x1024_1_0 : FVec Ideal S1024x1024 .f32) := by
    dsimp only [V1, V0, hostOps0]; after_results; rfl
  rw [e, shapeCast_flatHidden]
  exact dot_proj _ rfl _ _ _

theorem V1_main_v7 : (V1 m c main_v7 : S512x256.Idx → EReal)
    = projRows (flatHidden (m (c, main_arg0))) (m (c, main_arg9)) := by
  have e : (V1 m c main_v7 : S512x256.Idx → EReal)
      = Host.dotGeneral (F := Ideal) (φ₁ := .f32) (φ₂ := .f32) dot_S512x1024_S1024x256_S512x256_1_0_0_1_n_n none
          (shapeCast S512x1024 (m (c, main_arg0)) shapeCasts_S64x8x1024_S512x1024)
          (transpose S1024x256 [1, 0] (m (c, main_arg9)) transposes_S256x1024_S1024x256_1_0 : FVec Ideal S1024x256 .f32) := by
    dsimp only [V1, V0, hostOps0]; after_results; rfl
  rw [e, shapeCast_flatHidden]
  exact dot_proj _ rfl _ _ _

theorem V1_main_v9 : (V1 m c main_v9 : S512x64.Idx → EReal)
    = projRows (flatHidden (m (c, main_arg0))) (m (c, main_arg12)) := by
  have e : (V1 m c main_v9 : S512x64.Idx → EReal)
      = Host.dotGeneral (F := Ideal) (φ₁ := .f32) (φ₂ := .f32) dot_S512x1024_S1024x64_S512x64_1_0_0_1_n_n none
          (shapeCast S512x1024 (m (c, main_arg0)) shapeCasts_S64x8x1024_S512x1024)
          (transpose S1024x64 [1, 0] (m (c, main_arg12)) transposes_S64x1024_S1024x64_1_0 : FVec Ideal S1024x64 .f32) := by
    dsimp only [V1, V0, hostOps0]; after_results; rfl
  rw [e, shapeCast_flatHidden]
  exact dot_proj _ rfl _ _ _

theorem V1_main_v11 : (V1 m c main_v11 : S512x16.Idx → EReal)
    = projRows (flatHidden (m (c, main_arg0))) (m (c, main_arg15)) := by
  have e : (V1 m c main_v11 : S512x16.Idx → EReal)
      = Host.dotGeneral (F := Ideal) (φ₁ := .f32) (φ₂ := .f32) dot_S512x1024_S1024x16_S512x16_1_0_0_1_n_n none
          (shapeCast S512x1024 (m (c, main_arg0)) shapeCasts_S64x8x1024_S512x1024)
          (transpose S1024x16 [1, 0] (m (c, main_arg15)) transposes_S16x1024_S1024x16_1_0 : FVec Ideal S1024x16 .f32) := by
    dsimp only [V1, V0, hostOps0]; after_results; rfl
  rw [e, shapeCast_flatHidden]
  exact dot_proj _ rfl _ _ _

-- An array no later stretch writes and no region may change holds, at each later valuation, what the first stretch left.
abbrev K4 (r : Ref sig .tc) : Prop := r ∉ hostOps2_W ∧ r ∉ [main_v13] ∧ r ∉ [main_v12]
theorem V4_V1 (r : Ref sig .tc) (h : K4 r) : V4 m outs c r = V1 m c r :=
  (V4_of m outs c r h.1).trans ((V3_of m outs c r h.2.1).trans (V2_of m outs c r h.2.2))
abbrev K6 (r : Ref sig .tc) : Prop := r ∉ hostOps3_W ∧ r ∉ [main_v16] ∧ K4 r
theorem V6_V1 (r : Ref sig .tc) (h : K6 r) : V6 m outs c r = V1 m c r :=
  (V6_of m outs c r h.1).trans ((V5_of m outs c r h.2.1).trans (V4_V1 m outs c r h.2.2))
abbrev K7 (r : Ref sig .tc) : Prop := r ∉ [main_v18] ∧ K6 r
theorem V7_V1 (r : Ref sig .tc) (h : K7 r) : V7 m outs c r = V1 m c r :=
  (V7_of m outs c r h.1).trans (V6_V1 m outs c r h.2)
abbrev K9 (r : Ref sig .tc) : Prop := r ∉ hostOps5_W ∧ r ∉ [main_v19] ∧ K7 r
theorem V9_V1 (r : Ref sig .tc) (h : K9 r) : V9 m outs c r = V1 m c r :=
  (V9_of m outs c r h.1).trans ((V8_of m outs c r h.2.1).trans (V7_V1 m outs c r h.2.2))
abbrev K10 (r : Ref sig .tc) : Prop := r ∉ [main_v21] ∧ K9 r
theorem V10_V1 (r : Ref sig .tc) (h : K10 r) : V10 m outs c r = V1 m c r :=
  (V10_of m outs c r h.1).trans (V9_V1 m outs c r h.2)
abbrev K12 (r : Ref sig .tc) : Prop := r ∉ hostOps7_W ∧ r ∉ [main_v22] ∧ K10 r
theorem V12_V1 (r : Ref sig .tc) (h : K12 r) : V12 m outs c r = V1 m c r :=
  (V12_of m outs c r h.1).trans ((V11_of m outs c r h.2.1).trans (V10_V1 m outs c r h.2.2))
theorem V13_V1 (r : Ref sig .tc) (h : r ∉ [main_v24]) (h' : K12 r) : V13 m outs c r = V1 m c r :=
  (V13_of m outs c r h).trans (V12_V1 m outs c r h')

-- The same for the last stretches: an array they do not write holds what it held where they start.
def T19 (r : Ref sig .tc) : Prop := r ∉ hostOps8_5_W ∧ r ∉ hostOps8_4_W ∧ r ∉ hostOps8_3_W ∧ r ∉ hostOps8_2_W ∧ r ∉ hostOps8_1_W ∧ r ∉ hostOps8_W
instance (r : Ref sig .tc) : Decidable (T19 r) := by unfold T19; infer_instance
theorem V19_V13 (r : Ref sig .tc) (h : T19 r) : V19 m outs c r = V13 m outs c r :=
  (V19_of m outs c r h.1).trans ((V18_of m outs c r h.2.1).trans ((V17_of m outs c r h.2.2.1).trans ((V16_of m outs c r h.2.2.2.1).trans ((V15_of m outs c r h.2.2.2.2.1).trans (V14_of m outs c r h.2.2.2.2.2)))))
def T25 (r : Ref sig .tc) : Prop := r ∉ hostOps8_11_W ∧ r ∉ hostOps8_10_W ∧ r ∉ hostOps8_9_W ∧ r ∉ hostOps8_8_W ∧ r ∉ hostOps8_7_W ∧ r ∉ hostOps8_6_W ∧ T19 r
instance (r : Ref sig .tc) : Decidable (T25 r) := by unfold T25; infer_instance
theorem V25_V13 (r : Ref sig .tc) (h : T25 r) : V25 m outs c r = V13 m outs c r :=
  (V25_of m outs c r h.1).trans ((V24_of m outs c r h.2.1).trans ((V23_of m outs c r h.2.2.1).trans ((V22_of m outs c r h.2.2.2.1).trans ((V21_of m outs c r h.2.2.2.2.1).trans ((V20_of m outs c r h.2.2.2.2.2.1).trans (V19_V13 m outs c r h.2.2.2.2.2.2))))))
def T31 (r : Ref sig .tc) : Prop := r ∉ hostOps8_17_W ∧ r ∉ hostOps8_16_W ∧ r ∉ hostOps8_15_W ∧ r ∉ hostOps8_14_W ∧ r ∉ hostOps8_13_W ∧ r ∉ hostOps8_12_W ∧ T25 r
instance (r : Ref sig .tc) : Decidable (T31 r) := by unfold T31; infer_instance
theorem V31_V13 (r : Ref sig .tc) (h : T31 r) : V31 m outs c r = V13 m outs c r :=
  (V31_of m outs c r h.1).trans ((V30_of m outs c r h.2.1).trans ((V29_of m outs c r h.2.2.1).trans ((V28_of m outs c r h.2.2.2.1).trans ((V27_of m outs c r h.2.2.2.2.1).trans ((V26_of m outs c r h.2.2.2.2.2.1).trans (V25_V13 m outs c r h.2.2.2.2.2.2))))))
def T37 (r : Ref sig .tc) : Prop := r ∉ hostOps8_23_W ∧ r ∉ hostOps8_22_W ∧ r ∉ hostOps8_21_W ∧ r ∉ hostOps8_20_W ∧ r ∉ hostOps8_19_W ∧ r ∉ hostOps8_18_W ∧ T31 r
instance (r : Ref sig .tc) : Decidable (T37 r) := by unfold T37; infer_instance
theorem V37_V13 (r : Ref sig .tc) (h : T37 r) : V37 m outs c r = V13 m outs c r :=
  (V37_of m outs c r h.1).trans ((V36_of m outs c r h.2.1).trans ((V35_of m outs c r h.2.2.1).trans ((V34_of m outs c r h.2.2.2.1).trans ((V33_of m outs c r h.2.2.2.2.1).trans ((V32_of m outs c r h.2.2.2.2.2.1).trans (V31_V13 m outs c r h.2.2.2.2.2.2))))))
def T38 (r : Ref sig .tc) : Prop := r ∉ hostOps8_24_W ∧ T37 r
instance (r : Ref sig .tc) : Decidable (T38 r) := by unfold T38; infer_instance
theorem V38_V13 (r : Ref sig .tc) (h : T38 r) : V38 m outs c r = V13 m outs c r :=
  (V38_of m outs c r h.1).trans (V37_V13 m outs c r h.2)

theorem V2_main_v12 : V2 m outs c main_v12 = outs 2 main_v12 c := Function.update_self _ _ _
theorem V6_main_v16 : V6 m outs c main_v16 = outs 5 main_v16 c :=
  (V6_of m outs c main_v16 (by decide)).trans (Function.update_self _ _ _)
theorem V9_main_v19 : V9 m outs c main_v19 = outs 8 main_v19 c :=
  (V9_of m outs c main_v19 (by decide)).trans (Function.update_self _ _ _)
theorem V12_main_v22 : V12 m outs c main_v22 = outs 11 main_v22 c :=
  (V12_of m outs c main_v22 (by decide)).trans (Function.update_self _ _ _)

theorem V2_main_v5 : (V2 m outs c main_v5 : S512x1024.Idx → EReal)
    = projRows (flatHidden (m (c, main_arg0))) (m (c, main_arg6)) :=
  (V2_of m outs c main_v5 (by decide)).trans (V1_main_v5 m c)
theorem V2_main_v2 : (V2 m outs c main_v2 : S20003x1024.Idx → EReal) = catRows rfl (m (c, main_arg4)) (m (c, main_arg2)) :=
  (V2_of m outs c main_v2 (by decide)).trans (V1_main_v2 m c)
theorem V2_main_v3 : (V2 m outs c main_v3 : S20003.Idx → EReal) = catVec rfl (m (c, main_arg5)) (m (c, main_arg3)) :=
  (V2_of m outs c main_v3 (by decide)).trans (V1_main_v3 m c)
theorem V4_main_v7 : (V4 m outs c main_v7 : S512x256.Idx → EReal)
    = projRows (flatHidden (m (c, main_arg0))) (m (c, main_arg9)) :=
  (V4_V1 m outs c main_v7 (by decide)).trans (V1_main_v7 m c)
theorem V4_main_arg7 : V4 m outs c main_arg7 = m (c, main_arg7) :=
  (V4_V1 m outs c main_arg7 (by decide)).trans (V1_of m c main_arg7 (by decide))
theorem V4_main_arg8 : V4 m outs c main_arg8 = m (c, main_arg8) :=
  (V4_V1 m outs c main_arg8 (by decide)).trans (V1_of m c main_arg8 (by decide))
theorem V6_main_v7 : (V6 m outs c main_v7 : S512x256.Idx → EReal)
    = projRows (flatHidden (m (c, main_arg0))) (m (c, main_arg9)) :=
  (V6_V1 m outs c main_v7 (by decide)).trans (V1_main_v7 m c)
theorem V6_main_arg7 : V6 m outs c main_arg7 = m (c, main_arg7) :=
  (V6_V1 m outs c main_arg7 (by decide)).trans (V1_of m c main_arg7 (by decide))
theorem V6_main_arg8 : V6 m outs c main_arg8 = m (c, main_arg8) :=
  (V6_V1 m outs c main_arg8 (by decide)).trans (V1_of m c main_arg8 (by decide))
theorem V7_main_v9 : (V7 m outs c main_v9 : S512x64.Idx → EReal)
    = projRows (flatHidden (m (c, main_arg0))) (m (c, main_arg12)) :=
  (V7_V1 m outs c main_v9 (by decide)).trans (V1_main_v9 m c)
theorem V7_main_arg10 : V7 m outs c main_arg10 = m (c, main_arg10) :=
  (V7_V1 m outs c main_arg10 (by decide)).trans (V1_of m c main_arg10 (by decide))
theorem V7_main_arg11 : V7 m outs c main_arg11 = m (c, main_arg11) :=
  (V7_V1 m outs c main_arg11 (by decide)).trans (V1_of m c main_arg11 (by decide))
theorem V9_main_v9 : (V9 m outs c main_v9 : S512x64.Idx → EReal)
    = projRows (flatHidden (m (c, main_arg0))) (m (c, main_arg12)) :=
  (V9_V1 m outs c main_v9 (by decide)).trans (V1_main_v9 m c)
theorem V9_main_arg10 : V9 m outs c main_arg10 = m (c, main_arg10) :=
  (V9_V1 m outs c main_arg10 (by decide)).trans (V1_of m c main_arg10 (by decide))
theorem V9_main_arg11 : V9 m outs c main_arg11 = m (c, main_arg11) :=
  (V9_V1 m outs c main_arg11 (by decide)).trans (V1_of m c main_arg11 (by decide))
theorem V10_main_v11 : (V10 m outs c main_v11 : S512x16.Idx → EReal)
    = projRows (flatHidden (m (c, main_arg0))) (m (c, main_arg15)) :=
  (V10_V1 m outs c main_v11 (by decide)).trans (V1_main_v11 m c)
theorem V10_main_arg13 : V10 m outs c main_arg13 = m (c, main_arg13) :=
  (V10_V1 m outs c main_arg13 (by decide)).trans (V1_of m c main_arg13 (by decide))
theorem V10_main_arg14 : V10 m outs c main_arg14 = m (c, main_arg14) :=
  (V10_V1 m outs c main_arg14 (by decide)).trans (V1_of m c main_arg14 (by decide))
theorem V12_main_v11 : (V12 m outs c main_v11 : S512x16.Idx → EReal)
    = projRows (flatHidden (m (c, main_arg0))) (m (c, main_arg15)) :=
  (V12_V1 m outs c main_v11 (by decide)).trans (V1_main_v11 m c)
theorem V12_main_arg13 : V12 m outs c main_arg13 = m (c, main_arg13) :=
  (V12_V1 m outs c main_arg13 (by decide)).trans (V1_of m c main_arg13 (by decide))
theorem V12_main_arg14 : V12 m outs c main_arg14 = m (c, main_arg14) :=
  (V12_V1 m outs c main_arg14 (by decide)).trans (V1_of m c main_arg14 (by decide))

end Cert.KernelIdeal.HostValue
-- ==== Proof.IdealHostSlices.lean ====
import proofs.«138250_j73134703116926_1_alg».proof.Proof.KernelIdealRegions
import Idealize.ShloMosaic.Lib.Pipeline.Value
import Idealize.ShloMosaic.Lib.ValueIdx

set_option maxRecDepth 1656

noncomputable section

namespace Cert.KernelIdeal.HostValue

open Cert.KernelIdeal Cert.KernelIdeal.Gen Cert.KernelIdeal.GenP
open Idealize.ShloMosaic Idealize.ShloMosaic.TcCoe Idealize.SL.Sem Idealize.ShloMosaic.StableHlo
open Idealize.ShloMosaic.ValueIdx

def headCols (x : S512x20003.Idx → EReal) : S512x20000.Idx → EReal := fun j =>
  x (ix2 (j 0) ⟨(j 1).val, by have := idx2_lt1 j; omega⟩)

def routeCol (k : Fin 3) (x : S512x20003.Idx → EReal) : S512x1.Idx → EReal := fun j =>
  x (ix2 (j 0) ⟨20000 + k.val, by omega⟩)

def routeCols (x : S512x20003.Idx → EReal) : S512x3.Idx → EReal := fun j =>
  x (ix2 (j 0) ⟨20000 + (j 1).val, by have := idx2_lt1 j; omega⟩)

theorem slice_headCols (x : S512x20003.Idx → EReal) :
    extractStridedSlice S512x20000 ![0, 0] x slices_S512x20003_S512x20000_0_0 = headCols x := by
  funext j
  have h1 : (j 1).val < 20000 := (j 1).isLt
  exact extractStridedSlice_apply ![0, 0] x slices_S512x20003_S512x20000_0_0 j
    (ix2 (j 0) ⟨(j 1).val, by omega⟩) (fun a => match a with
      | ⟨0, _⟩ => by show (j 0).val = 0 + (j 0).val; omega
      | ⟨1, _⟩ => by show (j 1).val = 0 + (j 1).val; omega)

theorem slice_routeCols (x : S512x20003.Idx → EReal) :
    extractStridedSlice S512x3 ![0, 20000] x slices_S512x20003_S512x3_0_20000 = routeCols x := by
  funext j
  have h1 : (j 1).val < 3 := (j 1).isLt
  exact extractStridedSlice_apply ![0, 20000] x slices_S512x20003_S512x3_0_20000 j
    (ix2 (j 0) ⟨20000 + (j 1).val, by omega⟩) (fun a => match a with
      | ⟨0, _⟩ => by show (j 0).val = 0 + (j 0).val; omega
      | ⟨1, _⟩ => by show 20000 + (j 1).val = 20000 + (j 1).val; rfl)

-- Column k of the three routing columns is routing column 20000 + k of the whole array.
theorem slice_routeCol (k : Fin 3) (x : S512x20003.Idx → EReal) (h : S512x3.Slices ![0, k.val] S512x1) :
    extractStridedSlice S512x1 ![0, k.val] (routeCols x) h = routeCol k x := by
  funext j
  have h1 : (j 1).val < 1 := (j 1).isLt
  refine (extractStridedSlice_apply ![0, k.val] (routeCols x) h j (ix2 (j 0) k) (fun a => match a with
      | ⟨0, _⟩ => by show (j 0).val = 0 + (j 0).val; omega
      | ⟨1, _⟩ => by show k.val = k.val + (j 1).val; omega)).trans ?_
  rfl

variable (m : (ℓ : Loc nD τ sig) → Buf (Elt Ideal) ℓ) (outs : Outs (F := Ideal)) (c : Dev nD)

theorem V4_main_v14 : (V4 m outs c main_v14 : S512x20000.Idx → EReal) = headCols (outs 3 main_v13 c) := by
  have e : (V4 m outs c main_v14 : S512x20000.Idx → EReal)
      = extractStridedSlice S512x20000 ![0, 0] (outs 3 main_v13 c) slices_S512x20003_S512x20000_0_0 := by
    dsimp only [V4, hostOps2]; after_results
    refine congrArg (fun x : S512x20003.Idx → EReal => extractStridedSlice S512x20000 ![0, 0] x slices_S512x20003_S512x20000_0_0) ?_
    exact Function.update_self _ _ _
  exact e.trans (slice_headCols _)

theorem V4_main_v15 : (V4 m outs c main_v15 : S512x3.Idx → EReal) = routeCols (outs 3 main_v13 c) := by
  have e : (V4 m outs c main_v15 : S512x3.Idx → EReal)
      = extractStridedSlice S512x3 ![0, 20000] (outs 3 main_v13 c) slices_S512x20003_S512x3_0_20000 := by
    dsimp only [V4, hostOps2]; after_results
    refine congrArg (fun x : S512x20003.Idx → EReal => extractStridedSlice S512x3 ![0, 20000] x slices_S512x20003_S512x3_0_20000) ?_
    exact Function.update_self _ _ _
  exact e.trans (slice_routeCols _)

-- Nothing between the head's second region and a tail's second region writes the three routing columns.
theorem V5_main_v15 : (V5 m outs c main_v15 : S512x3.Idx → EReal) = routeCols (outs 3 main_v13 c) :=
  (V5_of m outs c main_v15 (by decide)).trans (V4_main_v15 m outs c)
theorem V8_main_v15 : (V8 m outs c main_v15 : S512x3.Idx → EReal) = routeCols (outs 3 main_v13 c) :=
  (V8_of m outs c main_v15 (by decide)).trans ((V7_of m outs c main_v15 (by decide)).trans
    ((V6_of m outs c main_v15 (by decide)).trans (V5_main_v15 m outs c)))
theorem V11_main_v15 : (V11 m outs c main_v15 : S512x3.Idx → EReal) = routeCols (outs 3 main_v13 c) :=
  (V11_of m outs c main_v15 (by decide)).trans ((V10_of m outs c main_v15 (by decide)).trans
    ((V9_of m outs c main_v15 (by decide)).trans (V8_main_v15 m outs c)))

theorem V6_main_v17 : (V6 m outs c main_v17 : S512x1.Idx → EReal) = routeCol 0 (outs 3 main_v13 c) := by
  have e : (V6 m outs c main_v17 : S512x1.Idx → EReal)
      = extractStridedSlice S512x1 ![0, 0] (V5 m outs c main_v15) slices_S512x3_S512x1_0_0 := by
    dsimp only [V6, hostOps3]; after_results
  rw [e, V5_main_v15]
  exact slice_routeCol 0 _ _

theorem V9_main_v20 : (V9 m outs c main_v20 : S512x1.Idx → EReal) = routeCol 1 (outs 3 main_v13 c) := by
  have e : (V9 m outs c main_v20 : S512x1.Idx → EReal)
      = extractStridedSlice S512x1 ![0, 1] (V8 m outs c main_v15) slices_S512x3_S512x1_0_1 := by
    dsimp only [V9, hostOps5]; after_results
  rw [e, V8_main_v15]
  exact slice_routeCol 1 _ _

theorem V12_main_v23 : (V12 m outs c main_v23 : S512x1.Idx → EReal) = routeCol 2 (outs 3 main_v13 c) := by
  have e : (V12 m outs c main_v23 : S512x1.Idx → EReal)
      = extractStridedSlice S512x1 ![0, 2] (V11 m outs c main_v15) slices_S512x3_S512x1_0_2 := by
    dsimp only [V12, hostOps7]; after_results
  rw [e, V11_main_v15]
  exact slice_routeCol 2 _ _

end Cert.KernelIdeal.HostValue
-- ==== Proof.IdealHostOut.lean ====
import proofs.«138250_j73134703116926_1_alg».proof.Proof.IdealHost
import proofs.«138250_j73134703116926_1_alg».proof.Proof.IdealHostSlices
import proofs.«138250_j73134703116926_1_alg».proof.Proof.OutValueSpec
import Idealize.ShloMosaic.Lib.Pipeline.Value
import Idealize.ShloMosaic.Lib.ValueIdx

set_option maxRecDepth 1656

noncomputable section

namespace Cert.KernelIdeal.HostValue

open Cert.KernelIdeal Cert.KernelIdeal.Gen Cert.KernelIdeal.GenP Cert.KernelIdeal.OutValue
open Idealize.ShloMosaic Idealize.ShloMosaic.TcCoe Idealize.SL.Sem Idealize.ShloMosaic.StableHlo
open Idealize.ShloMosaic.ValueIdx

theorem tail_v76 (W : Valuation τ sig (Elt Ideal)) :
    (StableHlo.after hostOps8_24 W main_v76 : S64x8x267735.Idx → EReal)
      = shapeCast S64x8x267735 (concatenate S512x267735 1 [⟨S512x20000, W main_v14⟩, ⟨S512x20000, W main_v18⟩, ⟨S512x160000, W main_v21⟩, ⟨S512x67735, W main_v24⟩] concatenates_S512x20000_S512x20000_S512x160000_S512x67735_S512x267735_d1)
          shapeCasts_S512x267735_S64x8x267735 := by
  dsimp only [hostOps8_24]; after_results; rfl

theorem concat_sideBySide (O1 : S512x20003.Idx → EReal) (O3 : S512x20000.Idx → EReal) (O5 : S512x160000.Idx → EReal)
    (O7 : S512x67735.Idx → EReal) :
    shapeCast S64x8x267735 (concatenate S512x267735 1 [⟨S512x20000, headCols O1⟩, ⟨S512x20000, O3⟩, ⟨S512x160000, O5⟩, ⟨S512x67735, O7⟩] concatenates_S512x20000_S512x20000_S512x160000_S512x67735_S512x267735_d1)
        shapeCasts_S512x267735_S64x8x267735 = sideBySide O1 O3 O5 O7 := by
  funext i
  have hi0 : (i 0).val < 64 := (i 0).isLt
  have hi1 : (i 1).val < 8 := (i 1).isLt
  have hi2 : (i 2).val < 267735 := (i 2).isLt
  refine (shapeCast_apply _ shapeCasts_S512x267735_S64x8x267735 i (ix2 (flatRow (i 0) (i 1)) (i 2)) ?_).trans ?_
  · rewrite [Shape.rowMajor_val_two, Shape.rowMajor_val_three]
    show (8 * (i 0).val + (i 1).val) * 267735 + (i 2).val = ((i 0).val * 8 + (i 1).val) * 267735 + (i 2).val
    omega
  · unfold sideBySide
    have key := concatenate_apply_piece 1 [⟨S512x20000, headCols O1⟩, ⟨S512x20000, O3⟩, ⟨S512x160000, O5⟩, ⟨S512x67735, O7⟩]
      concatenates_S512x20000_S512x20000_S512x160000_S512x67735_S512x267735_d1 (ix2 (flatRow (i 0) (i 1)) (i 2))
    by_cases h0 : (i 2).val < 20000
    · rw [dif_pos h0]
      refine (key 0 (by show (0 : Nat) < 4; omega) S512x20000 (headCols O1) rfl rfl 0 (by first | rfl | (simp only [List.take, List.map, List.sum_cons, List.sum_nil]; rfl) | simp)
        (ix2 (flatRow (i 0) (i 1)) ⟨(i 2).val, by omega⟩) (fun b hb => match b, hb with
          | ⟨0, _⟩, _ => rfl
          | ⟨1, _⟩, hb => absurd rfl hb)
        (by show 0 + ((i 2).val) = (i 2).val; omega)).trans ?_
      rfl
    · rw [dif_neg h0]
      by_cases h1 : (i 2).val < 40000
      · rw [dif_pos h1]
        refine (key 1 (by show (1 : Nat) < 4; omega) S512x20000 (O3) rfl rfl 20000 (by first | rfl | (simp only [List.take, List.map, List.sum_cons, List.sum_nil]; rfl) | simp)
          (ix2 (flatRow (i 0) (i 1)) ⟨(i 2).val - 20000, by omega⟩) (fun b hb => match b, hb with
            | ⟨0, _⟩, _ => rfl
            | ⟨1, _⟩, hb => absurd rfl hb)
          (by show 20000 + ((i 2).val - 20000) = (i 2).val; omega)).trans ?_
        rfl
      · rw [dif_neg h1]
        by_cases h2 : (i 2).val < 200000
        · rw [dif_pos h2]
          refine (key 2 (by show (2 : Nat) < 4; omega) S512x160000 (O5) rfl rfl 40000 (by first | rfl | (simp only [List.take, List.map, List.sum_cons, List.sum_nil]; rfl) | simp)
            (ix2 (flatRow (i 0) (i 1)) ⟨(i 2).val - 40000, by omega⟩) (fun b hb => match b, hb with
              | ⟨0, _⟩, _ => rfl
              | ⟨1, _⟩, hb => absurd rfl hb)
            (by show 40000 + ((i 2).val - 40000) = (i 2).val; omega)).trans ?_
          rfl
        · rw [dif_neg h2]
          refine (key 3 (by show (3 : Nat) < 4; omega) S512x67735 (O7) rfl rfl 200000 (by simp only [List.take, List.map, List.sum_cons, List.sum_nil]; simp)
            (ix2 (flatRow (i 0) (i 1)) ⟨(i 2).val - 200000, by omega⟩) (fun b hb => match b, hb with
              | ⟨0, _⟩, _ => rfl
              | ⟨1, _⟩, hb => absurd rfl hb)
            (by show 200000 + ((i 2).val - 200000) = (i 2).val; omega)).trans ?_
          rfl

variable (m : (ℓ : Loc nD τ sig) → Buf (Elt Ideal) ℓ) (outs : Outs (F := Ideal)) (c : Dev nD)

-- No stretch and no region after the one that leaves it writes any of the four arrays.
theorem V37_main_v14 : (V37 m outs c main_v14 : S512x20000.Idx → EReal) = headCols (outs 3 main_v13 c) :=
  (V37_V13 m outs c main_v14 (by decide)).trans ((V13_of m outs c main_v14 (by decide)).trans
    ((V12_of m outs c main_v14 (by decide)).trans ((V11_of m outs c main_v14 (by decide)).trans
    ((V10_of m outs c main_v14 (by decide)).trans ((V9_of m outs c main_v14 (by decide)).trans
    ((V8_of m outs c main_v14 (by decide)).trans ((V7_of m outs c main_v14 (by decide)).trans
    ((V6_of m outs c main_v14 (by decide)).trans ((V5_of m outs c main_v14 (by decide)).trans
    (V4_main_v14 m outs c))))))))))
theorem V37_main_v18 : V37 m outs c main_v18 = outs 7 main_v18 c :=
  (V37_V13 m outs c main_v18 (by decide)).trans ((V13_of m outs c main_v18 (by decide)).trans
    ((V12_of m outs c main_v18 (by decide)).trans ((V11_of m outs c main_v18 (by decide)).trans
    ((V10_of m outs c main_v18 (by decide)).trans ((V9_of m outs c main_v18 (by decide)).trans
    ((V8_of m outs c main_v18 (by decide)).trans (Function.update_self _ _ _)))))))
theorem V37_main_v21 : V37 m outs c main_v21 = outs 10 main_v21 c :=
  (V37_V13 m outs c main_v21 (by decide)).trans ((V13_of m outs c main_v21 (by decide)).trans
    ((V12_of m outs c main_v21 (by decide)).trans ((V11_of m outs c main_v21 (by decide)).trans
    (Function.update_self _ _ _))))
theorem V37_main_v24 : V37 m outs c main_v24 = outs 13 main_v24 c :=
  (V37_V13 m outs c main_v24 (by decide)).trans (Function.update_self _ _ _)

theorem V38_main_v76 : (V38 m outs c main_v76 : S64x8x267735.Idx → EReal)
    = sideBySide (outs 3 main_v13 c) (outs 7 main_v18 c) (outs 10 main_v21 c) (outs 13 main_v24 c) := by
  have e := tail_v76 (V37 m outs c)
  rw [V37_main_v14, V37_main_v18, V37_main_v21, V37_main_v24] at e
  exact e.trans (concat_sideBySide _ _ _ _)

theorem V38_main_v14 : (V38 m outs c main_v14 : S512x20000.Idx → EReal) = headCols (outs 3 main_v13 c) :=
  (V38_of m outs c main_v14 (by decide)).trans (V37_main_v14 m outs c)
theorem V38_main_v18 : V38 m outs c main_v18 = outs 7 main_v18 c :=
  (V38_of m outs c main_v18 (by decide)).trans (V37_main_v18 m outs c)
theorem V38_main_v21 : V38 m outs c main_v21 = outs 10 main_v21 c :=
  (V38_of m outs c main_v21 (by decide)).trans (V37_main_v21 m outs c)
theorem V38_main_v24 : V38 m outs c main_v24 = outs 13 main_v24 c :=
  (V38_of m outs c main_v24 (by decide)).trans (V37_main_v24 m outs c)

end Cert.KernelIdeal.HostValue
-- ==== Proof.IdealCover.lean ====
import proofs.«138250_j73134703116926_1_alg».proof.Proof.Gen.KernelIdeal.Launch
import proofs.«138250_j73134703116926_1_alg».proof.Proof.Gen.KernelIdeal.Points
import Idealize.ShloMosaic.Lib.Pipeline.Value
import Idealize.ShloMosaic.Lib.ValueIdx

noncomputable section

namespace Cert.KernelIdeal.Cover

open Cert.KernelIdeal Cert.KernelIdeal.Gen Idealize.ShloMosaic Idealize.ShloMosaic.TcCoe Idealize.SL.Sem
open Idealize.SL Idealize.SL.RA
open Idealize.ShloMosaic.Pipeline (Dat)
open Idealize.ShloMosaic.ValueIdx

theorem ix2_ext {n0 n1 : ℕ} {i : (⟨2, ![n0, n1]⟩ : Shape).Idx} {a : Fin n0} {b : Fin n1}
    (h0 : (i 0).val = a.val) (h1 : (i 1).val = b.val) : i = ix2 a b := by
  funext d; match d with | ⟨0, _⟩ => exact Fin.ext h0 | ⟨1, _⟩ => exact Fin.ext h1

theorem fill_read {G : Pipeline.Grid} (w : Pipeline.Window sig G) {α : Type} (t : Fin G.N) (d : w.block.Idx → α)
    (g : (w.xblock (G.coords t)).Idx → α) (A : w.shape.Idx → α) (hg : ∀ y, g y = A ((w.rect t).emb y))
    (j : w.block.Idx) (i : w.shape.Idx) (hj : ∀ a, (j a).val < w.xsize (G.coords t) a)
    (hi : ∀ a, w.index t a * w.size a + (j a).val = (i a).val) : w.fill (G.coords t) d g j = A i := by
  unfold Pipeline.Window.fill
  rw [dif_pos ((w.moved_iff _ j).mpr hj), hg]
  exact congrArg A (funext fun a => Fin.ext ((w.rect_emb_val t (fun a => ⟨(j a).val, hj a⟩) a).trans (hi a)))

variable {Ix : Type} [DecidableEq Ix] {U : Type} [URA U] {Lvl : Type} [Preorder Lvl]

section Region0

variable (c : Dev nD) (dat : Dat τ (Elt Ideal) Ix ℕ U Lvl cfg0 c)

abbrev last0 : Fin cfg0.N := ⟨9, by decide⟩

theorem final_lse0 : (dat.arrAt 3 cfg0.N : S512x1.Idx → EReal) = dat.after 3 last0 := by
  have emb : ∀ y : S512x1.Idx, ((cfg0.win 3).blk last0).view.emb y = y := fun y => funext (Fin.forall_fin_two.2
    ⟨Fin.ext (win0_3.rect_emb_val_of_index_zero last0 (0 : Fin 2) rfl y),
      Fin.ext (win0_3.rect_emb_val_of_index_zero last0 (1 : Fin 2) rfl y)⟩)
  refine dat.arrAt_eq_of_cover 3 (dat.after 3 last0) (fun t hf => ?_)
    fun i => ⟨last0, (flush0_3 _).2 rfl, emb i ▸ ((cfg0.win 3).blk last0).view.emb_mem_set i⟩
  obtain rfl : t = last0 := Fin.ext (by
    have h1 := (flush0_3 t).1 hf
    have h2 : t.val < 10 := t.isLt.trans_eq N_0
    show t.val = 9
    omega)
  exact funext fun y => congrArg (dat.after 3 last0) (emb y).symm

end Region0

section Region1

variable (c : Dev nD) (dat : Dat τ (Elt Ideal) Ix ℕ U Lvl cfg1 c)

theorem out1_facts : ∀ t : Fin cfg1.N, win1_4.index t (0 : Fin 2) = 0 ∧ win1_4.index t (1 : Fin 2) = t.val
    ∧ win1_4.xsize (grid1.coords t) (0 : Fin 2) = 512
    ∧ win1_4.xsize (grid1.coords t) (1 : Fin 2) = min 2048 (20003 - t.val * 2048) :=
  (by decide +kernel : ∀ t : Fin grid1.N, _)

theorem final_out1 (G : S512x20003.Idx → EReal)
    (h : ∀ (t : Fin cfg1.N) (r : Fin 512) (j : Fin 2048) (hj : t.val * 2048 + j.val < 20003),
      dat.after 4 t (ix2 r j) = G (ix2 r ⟨t.val * 2048 + j.val, hj⟩)) :
    dat.arrAt 4 cfg1.N = G := by
  refine dat.arrAt_eq_of_cover 4 G (fun t _ => funext fun y => ?_) fun i => ?_
  · obtain ⟨e0, e1, x0, x1⟩ := out1_facts t
    have hy0 : (y 0).val < 512 := (y 0).isLt.trans_eq x0
    have hy1 := (y 1).isLt.trans_eq x1
    have hj : t.val * 2048 + (y 1).val < 20003 := by omega
    exact (congrArg (dat.after 4 t) (ix2_ext rfl rfl)).trans ((h t ⟨_, hy0⟩ ⟨(y 1).val, by omega⟩ hj).trans
      (congrArg G (ix2_ext (win1_4.rect_emb_val_of_index_zero t (0 : Fin 2) e0 y)
        ((win1_4.rect_emb_val t y (1 : Fin 2)).trans (by show _ * 2048 + _ = _; rw [e1]))).symm))
  · have hi : (i 1).val < 20003 := (i 1).isLt
    have h0 : (i 0).val < 512 := (i 0).isLt
    obtain ⟨t, ht⟩ : ∃ t : Fin cfg1.N, t.val = (i 1).val / 2048 := ⟨⟨_, by show (i 1).val / 2048 < 10; omega⟩, rfl⟩
    obtain ⟨e0, e1, x0, x1⟩ := out1_facts t
    have hax : i ∈ ((cfg1.win 4).blk t).view.set ↔ ∀ a : Fin 2, win1_4.index t a * win1_4.size a ≤ (i a).val
        ∧ (i a).val < win1_4.index t a * win1_4.size a + win1_4.xsize (grid1.coords t) a := by
      show i ∈ ((View.whole main_v13).slice (win1_4.rect t)).set ↔ _
      rw [View.set_slice_whole, Rect.mem_set_unit]
      exact Iff.rfl
    refine ⟨t, flush1_4 _, ?_⟩
    rw [hax, Fin.forall_fin_two, e0, e1, x0, x1, show win1_4.size (0 : Fin 2) = 512 from rfl,
      show win1_4.size (1 : Fin 2) = 2048 from rfl, ht]
    omega

end Region1

section Region2

variable (c : Dev nD) (dat : Dat τ (Elt Ideal) Ix ℕ U Lvl cfg2 c)

abbrev last2 : Fin cfg2.N := ⟨9, by decide⟩

theorem final_lse2 : (dat.arrAt 3 cfg2.N : S512x1.Idx → EReal) = dat.after 3 last2 := by
  have emb : ∀ y : S512x1.Idx, ((cfg2.win 3).blk last2).view.emb y = y := fun y => funext (Fin.forall_fin_two.2
    ⟨Fin.ext (win2_3.rect_emb_val_of_index_zero last2 (0 : Fin 2) rfl y),
      Fin.ext (win2_3.rect_emb_val_of_index_zero last2 (1 : Fin 2) rfl y)⟩)
  refine dat.arrAt_eq_of_cover 3 (dat.after 3 last2) (fun t hf => ?_)
    fun i => ⟨last2, (flush2_3 _).2 rfl, emb i ▸ ((cfg2.win 3).blk last2).view.emb_mem_set i⟩
  obtain rfl : t = last2 := Fin.ext (by
    have h1 := (flush2_3 t).1 hf
    have h2 : t.val < 10 := t.isLt.trans_eq N_2
    show t.val = 9
    omega)
  exact funext fun y => congrArg (dat.after 3 last2) (emb y).symm

end Region2

section Region3

variable (c : Dev nD) (dat : Dat τ (Elt Ideal) Ix ℕ U Lvl cfg3 c)

theorem out3_facts : ∀ t : Fin cfg3.N, win3_5.index t (0 : Fin 2) = 0 ∧ win3_5.index t (1 : Fin 2) = t.val
    ∧ win3_5.xsize (grid3.coords t) (0 : Fin 2) = 512
    ∧ win3_5.xsize (grid3.coords t) (1 : Fin 2) = min 2048 (20000 - t.val * 2048) :=
  (by decide +kernel : ∀ t : Fin grid3.N, _)

theorem final_out3 (G : S512x20000.Idx → EReal)
    (h : ∀ (t : Fin cfg3.N) (r : Fin 512) (j : Fin 2048) (hj : t.val * 2048 + j.val < 20000),
      dat.after 5 t (ix2 r j) = G (ix2 r ⟨t.val * 2048 + j.val, hj⟩)) :
    dat.arrAt 5 cfg3.N = G := by
  refine dat.arrAt_eq_of_cover 5 G (fun t _ => funext fun y => ?_) fun i => ?_
  · obtain ⟨e0, e1, x0, x1⟩ := out3_facts t
    have hy0 : (y 0).val < 512 := (y 0).isLt.trans_eq x0
    have hy1 := (y 1).isLt.trans_eq x1
    have hj : t.val * 2048 + (y 1).val < 20000 := by omega
    exact (congrArg (dat.after 5 t) (ix2_ext rfl rfl)).trans ((h t ⟨_, hy0⟩ ⟨(y 1).val, by omega⟩ hj).trans
      (congrArg G (ix2_ext (win3_5.rect_emb_val_of_index_zero t (0 : Fin 2) e0 y)
        ((win3_5.rect_emb_val t y (1 : Fin 2)).trans (by show _ * 2048 + _ = _; rw [e1]))).symm))
  · have hi : (i 1).val < 20000 := (i 1).isLt
    have h0 : (i 0).val < 512 := (i 0).isLt
    obtain ⟨t, ht⟩ : ∃ t : Fin cfg3.N, t.val = (i 1).val / 2048 := ⟨⟨_, by show (i 1).val / 2048 < 10; omega⟩, rfl⟩
    obtain ⟨e0, e1, x0, x1⟩ := out3_facts t
    have hax : i ∈ ((cfg3.win 5).blk t).view.set ↔ ∀ a : Fin 2, win3_5.index t a * win3_5.size a ≤ (i a).val
        ∧ (i a).val < win3_5.index t a * win3_5.size a + win3_5.xsize (grid3.coords t) a := by
      show i ∈ ((View.whole main_v18).slice (win3_5.rect t)).set ↔ _
      rw [View.set_slice_whole, Rect.mem_set_unit]
      exact Iff.rfl
    refine ⟨t, flush3_5 _, ?_⟩
    rw [hax, Fin.forall_fin_two, e0, e1, x0, x1, show win3_5.size (0 : Fin 2) = 512 from rfl,
      show win3_5.size (1 : Fin 2) = 2048 from rfl, ht]
    omega

end Region3

section Region4

variable (c : Dev nD) (dat : Dat τ (Elt Ideal) Ix ℕ U Lvl cfg4 c)

abbrev last4 : Fin cfg4.N := ⟨39, by decide⟩

theorem final_lse4 : (dat.arrAt 3 cfg4.N : S512x1.Idx → EReal) = dat.after 3 last4 := by
  have emb : ∀ y : S512x1.Idx, ((cfg4.win 3).blk last4).view.emb y = y := fun y => funext (Fin.forall_fin_two.2
    ⟨Fin.ext (win4_3.rect_emb_val_of_index_zero last4 (0 : Fin 2) rfl y),
      Fin.ext (win4_3.rect_emb_val_of_index_zero last4 (1 : Fin 2) rfl y)⟩)
  refine dat.arrAt_eq_of_cover 3 (dat.after 3 last4) (fun t hf => ?_)
    fun i => ⟨last4, (flush4_3 _).2 rfl, emb i ▸ ((cfg4.win 3).blk last4).view.emb_mem_set i⟩
  obtain rfl : t = last4 := Fin.ext (by
    have h1 := (flush4_3 t).1 hf
    have h2 : t.val < 40 := t.isLt.trans_eq N_4
    show t.val = 39
    omega)
  exact funext fun y => congrArg (dat.after 3 last4) (emb y).symm

end Region4

section Region5

variable (c : Dev nD) (dat : Dat τ (Elt Ideal) Ix ℕ U Lvl cfg5 c)

theorem out5_facts : ∀ t : Fin cfg5.N, win5_5.index t (0 : Fin 2) = 0 ∧ win5_5.index t (1 : Fin 2) = t.val
    ∧ win5_5.xsize (grid5.coords t) (0 : Fin 2) = 512
    ∧ win5_5.xsize (grid5.coords t) (1 : Fin 2) = min 4096 (160000 - t.val * 4096) :=
  (by decide +kernel : ∀ t : Fin grid5.N, _)

theorem final_out5 (G : S512x160000.Idx → EReal)
    (h : ∀ (t : Fin cfg5.N) (r : Fin 512) (j : Fin 4096) (hj : t.val * 4096 + j.val < 160000),
      dat.after 5 t (ix2 r j) = G (ix2 r ⟨t.val * 4096 + j.val, hj⟩)) :
    dat.arrAt 5 cfg5.N = G := by
  refine dat.arrAt_eq_of_cover 5 G (fun t _ => funext fun y => ?_) fun i => ?_
  · obtain ⟨e0, e1, x0, x1⟩ := out5_facts t
    have hy0 : (y 0).val < 512 := (y 0).isLt.trans_eq x0
    have hy1 := (y 1).isLt.trans_eq x1
    have hj : t.val * 4096 + (y 1).val < 160000 := by omega
    exact (congrArg (dat.after 5 t) (ix2_ext rfl rfl)).trans ((h t ⟨_, hy0⟩ ⟨(y 1).val, by omega⟩ hj).trans
      (congrArg G (ix2_ext (win5_5.rect_emb_val_of_index_zero t (0 : Fin 2) e0 y)
        ((win5_5.rect_emb_val t y (1 : Fin 2)).trans (by show _ * 4096 + _ = _; rw [e1]))).symm))
  · have hi : (i 1).val < 160000 := (i 1).isLt
    have h0 : (i 0).val < 512 := (i 0).isLt
    obtain ⟨t, ht⟩ : ∃ t : Fin cfg5.N, t.val = (i 1).val / 4096 := ⟨⟨_, by show (i 1).val / 4096 < 40; omega⟩, rfl⟩
    obtain ⟨e0, e1, x0, x1⟩ := out5_facts t
    have hax : i ∈ ((cfg5.win 5).blk t).view.set ↔ ∀ a : Fin 2, win5_5.index t a * win5_5.size a ≤ (i a).val
        ∧ (i a).val < win5_5.index t a * win5_5.size a + win5_5.xsize (grid5.coords t) a := by
      show i ∈ ((View.whole main_v21).slice (win5_5.rect t)).set ↔ _
      rw [View.set_slice_whole, Rect.mem_set_unit]
      exact Iff.rfl
    refine ⟨t, flush5_5 _, ?_⟩
    rw [hax, Fin.forall_fin_two, e0, e1, x0, x1, show win5_5.size (0 : Fin 2) = 512 from rfl,
      show win5_5.size (1 : Fin 2) = 4096 from rfl, ht]
    omega

end Region5

section Region6

variable (c : Dev nD) (dat : Dat τ (Elt Ideal) Ix ℕ U Lvl cfg6 c)

abbrev last6 : Fin cfg6.N := ⟨16, by decide⟩

theorem final_lse6 : (dat.arrAt 3 cfg6.N : S512x1.Idx → EReal) = dat.after 3 last6 := by
  have emb : ∀ y : S512x1.Idx, ((cfg6.win 3).blk last6).view.emb y = y := fun y => funext (Fin.forall_fin_two.2
    ⟨Fin.ext (win6_3.rect_emb_val_of_index_zero last6 (0 : Fin 2) rfl y),
      Fin.ext (win6_3.rect_emb_val_of_index_zero last6 (1 : Fin 2) rfl y)⟩)
  refine dat.arrAt_eq_of_cover 3 (dat.after 3 last6) (fun t hf => ?_)
    fun i => ⟨last6, (flush6_3 _).2 rfl, emb i ▸ ((cfg6.win 3).blk last6).view.emb_mem_set i⟩
  obtain rfl : t = last6 := Fin.ext (by
    have h1 := (flush6_3 t).1 hf
    have h2 : t.val < 17 := t.isLt.trans_eq N_6
    show t.val = 16
    omega)
  exact funext fun y => congrArg (dat.after 3 last6) (emb y).symm

end Region6

section Region7

variable (c : Dev nD) (dat : Dat τ (Elt Ideal) Ix ℕ U Lvl cfg7 c)

theorem out7_facts : ∀ t : Fin cfg7.N, win7_5.index t (0 : Fin 2) = 0 ∧ win7_5.index t (1 : Fin 2) = t.val
    ∧ win7_5.xsize (grid7.coords t) (0 : Fin 2) = 512
    ∧ win7_5.xsize (grid7.coords t) (1 : Fin 2) = min 4096 (67735 - t.val * 4096) :=
  (by decide +kernel : ∀ t : Fin grid7.N, _)

theorem final_out7 (G : S512x67735.Idx → EReal)
    (h : ∀ (t : Fin cfg7.N) (r : Fin 512) (j : Fin 4096) (hj : t.val * 4096 + j.val < 67735),
      dat.after 5 t (ix2 r j) = G (ix2 r ⟨t.val * 4096 + j.val, hj⟩)) :
    dat.arrAt 5 cfg7.N = G := by
  refine dat.arrAt_eq_of_cover 5 G (fun t _ => funext fun y => ?_) fun i => ?_
  · obtain ⟨e0, e1, x0, x1⟩ := out7_facts t
    have hy0 : (y 0).val < 512 := (y 0).isLt.trans_eq x0
    have hy1 := (y 1).isLt.trans_eq x1
    have hj : t.val * 4096 + (y 1).val < 67735 := by omega
    exact (congrArg (dat.after 5 t) (ix2_ext rfl rfl)).trans ((h t ⟨_, hy0⟩ ⟨(y 1).val, by omega⟩ hj).trans
      (congrArg G (ix2_ext (win7_5.rect_emb_val_of_index_zero t (0 : Fin 2) e0 y)
        ((win7_5.rect_emb_val t y (1 : Fin 2)).trans (by show _ * 4096 + _ = _; rw [e1]))).symm))
  · have hi : (i 1).val < 67735 := (i 1).isLt
    have h0 : (i 0).val < 512 := (i 0).isLt
    obtain ⟨t, ht⟩ : ∃ t : Fin cfg7.N, t.val = (i 1).val / 4096 := ⟨⟨_, by show (i 1).val / 4096 < 17; omega⟩, rfl⟩
    obtain ⟨e0, e1, x0, x1⟩ := out7_facts t
    have hax : i ∈ ((cfg7.win 5).blk t).view.set ↔ ∀ a : Fin 2, win7_5.index t a * win7_5.size a ≤ (i a).val
        ∧ (i a).val < win7_5.index t a * win7_5.size a + win7_5.xsize (grid7.coords t) a := by
      show i ∈ ((View.whole main_v24).slice (win7_5.rect t)).set ↔ _
      rw [View.set_slice_whole, Rect.mem_set_unit]
      exact Iff.rfl
    refine ⟨t, flush7_5 _, ?_⟩
    rw [hax, Fin.forall_fin_two, e0, e1, x0, x1, show win7_5.size (0 : Fin 2) = 512 from rfl,
      show win7_5.size (1 : Fin 2) = 4096 from rfl, ht]
    omega

end Region7

end Cert.KernelIdeal.Cover

end
-- ==== Proof.IdealBlocks0.lean ====
import proofs.«138250_j73134703116926_1_alg».proof.Proof.IdealCover

namespace Cert.KernelIdeal.Blocks

open Idealize.ShloMosaic Idealize.ShloMosaic.ValueIdx

-- The projected rows' block is the whole array at every point.
theorem read0_0 (t : Fin cfg0.N) (A : S512x1024.Idx → EReal) :
    (((cfg0.win 0).blk t).view.read (Elt Ideal) A : S512x1024.Idx → EReal) = A :=
  funext fun y => congrArg A (funext (Fin.forall_fin_two.2
    ⟨Fin.ext (win0_0.rect_emb_val_of_index_zero t (0 : Fin 2) rfl y),
      Fin.ext (win0_0.rect_emb_val_of_index_zero t (1 : Fin 2) rfl y)⟩))

theorem win0_1_facts : ∀ t : Fin grid0.N, win0_1.index t (0 : Fin 2) = t.val ∧ win0_1.index t (1 : Fin 2) = 0
    ∧ win0_1.xsize (grid0.coords t) (0 : Fin 2) = min 2048 (20003 - t.val * 2048)
    ∧ win0_1.xsize (grid0.coords t) (1 : Fin 2) = 1024 := by
  decide +kernel

-- The weight tile at point t holds the array's rows from t · 2048 on, as far as the array goes.
theorem read0_1 (t : Fin cfg0.N) (A : S20003x1024.Idx → EReal) (d : S2048x1024.Idx → EReal) (j : Fin 2048)
    (k : Fin 1024) (hj : t.val * 2048 + j.val < 20003) :
    win0_1.fill (grid0.coords t) d (((cfg0.win 1).blk t).view.read (Elt Ideal) A) (ix2 j k)
      = A (ix2 ⟨t.val * 2048 + j.val, hj⟩ k) := by
  obtain ⟨e0, e1, x0, x1⟩ := win0_1_facts t
  refine Cover.fill_read win0_1 t d _ A (fun _ => rfl) (ix2 j k) _ (Fin.forall_fin_two.2 ⟨?_, ?_⟩)
    (Fin.forall_fin_two.2 ⟨?_, ?_⟩)
  · show j.val < _; rw [x0]; omega
  · show k.val < _; rw [x1]; exact k.isLt
  · show _ * 2048 + j.val = t.val * 2048 + j.val; rw [e0]
  · show _ * 1024 + k.val = k.val; rw [e1]; omega

theorem win0_2_facts : ∀ t : Fin grid0.N, win0_2.index t (0 : Fin 1) = t.val
    ∧ win0_2.xsize (grid0.coords t) (0 : Fin 1) = min 2048 (20003 - t.val * 2048) := by
  decide +kernel

-- The bias tile at point t holds the array's entries from t · 2048 on, as far as the array goes.
theorem read0_2 (t : Fin cfg0.N) (A : S20003.Idx → EReal) (d : S2048.Idx → EReal) (j : Fin 2048)
    (hj : t.val * 2048 + j.val < 20003) :
    win0_2.fill (grid0.coords t) d (((cfg0.win 2).blk t).view.read (Elt Ideal) A) (ix1 j)
      = A (ix1 ⟨t.val * 2048 + j.val, hj⟩) := by
  obtain ⟨e0, x0⟩ := win0_2_facts t
  refine Cover.fill_read win0_2 t d _ A (fun _ => rfl) (ix1 j) _ (Fin.forall_fin_one.2 ?_) (Fin.forall_fin_one.2 ?_)
  · show j.val < _; rw [x0]; omega
  · show _ * 2048 + j.val = t.val * 2048 + j.val; rw [e0]

end Cert.KernelIdeal.Blocks
-- ==== Proof.IdealBlocks1.lean ====
import proofs.«138250_j73134703116926_1_alg».proof.Proof.IdealCover

namespace Cert.KernelIdeal.Blocks

open Idealize.ShloMosaic Idealize.ShloMosaic.ValueIdx

-- The projected rows' block is the whole array at every point.
theorem read1_0 (t : Fin cfg1.N) (A : S512x1024.Idx → EReal) :
    (((cfg1.win 0).blk t).view.read (Elt Ideal) A : S512x1024.Idx → EReal) = A :=
  funext fun y => congrArg A (funext (Fin.forall_fin_two.2
    ⟨Fin.ext (win1_0.rect_emb_val_of_index_zero t (0 : Fin 2) rfl y),
      Fin.ext (win1_0.rect_emb_val_of_index_zero t (1 : Fin 2) rfl y)⟩))

theorem win1_1_facts : ∀ t : Fin grid1.N, win1_1.index t (0 : Fin 2) = t.val ∧ win1_1.index t (1 : Fin 2) = 0
    ∧ win1_1.xsize (grid1.coords t) (0 : Fin 2) = min 2048 (20003 - t.val * 2048)
    ∧ win1_1.xsize (grid1.coords t) (1 : Fin 2) = 1024 := by
  decide +kernel

-- The weight tile at point t holds the array's rows from t · 2048 on, as far as the array goes.
theorem read1_1 (t : Fin cfg1.N) (A : S20003x1024.Idx → EReal) (d : S2048x1024.Idx → EReal) (j : Fin 2048)
    (k : Fin 1024) (hj : t.val * 2048 + j.val < 20003) :
    win1_1.fill (grid1.coords t) d (((cfg1.win 1).blk t).view.read (Elt Ideal) A) (ix2 j k)
      = A (ix2 ⟨t.val * 2048 + j.val, hj⟩ k) := by
  obtain ⟨e0, e1, x0, x1⟩ := win1_1_facts t
  refine Cover.fill_read win1_1 t d _ A (fun _ => rfl) (ix2 j k) _ (Fin.forall_fin_two.2 ⟨?_, ?_⟩)
    (Fin.forall_fin_two.2 ⟨?_, ?_⟩)
  · show j.val < _; rw [x0]; omega
  · show k.val < _; rw [x1]; exact k.isLt
  · show _ * 2048 + j.val = t.val * 2048 + j.val; rw [e0]
  · show _ * 1024 + k.val = k.val; rw [e1]; omega

theorem win1_2_facts : ∀ t : Fin grid1.N, win1_2.index t (0 : Fin 1) = t.val
    ∧ win1_2.xsize (grid1.coords t) (0 : Fin 1) = min 2048 (20003 - t.val * 2048) := by
  decide +kernel

-- The bias tile at point t holds the array's entries from t · 2048 on, as far as the array goes.
theorem read1_2 (t : Fin cfg1.N) (A : S20003.Idx → EReal) (d : S2048.Idx → EReal) (j : Fin 2048)
    (hj : t.val * 2048 + j.val < 20003) :
    win1_2.fill (grid1.coords t) d (((cfg1.win 2).blk t).view.read (Elt Ideal) A) (ix1 j)
      = A (ix1 ⟨t.val * 2048 + j.val, hj⟩) := by
  obtain ⟨e0, x0⟩ := win1_2_facts t
  refine Cover.fill_read win1_2 t d _ A (fun _ => rfl) (ix1 j) _ (Fin.forall_fin_one.2 ?_) (Fin.forall_fin_one.2 ?_)
  · show j.val < _; rw [x0]; omega
  · show _ * 2048 + j.val = t.val * 2048 + j.val; rw [e0]

-- A column's block is the whole array at every point.
theorem read1_3 (t : Fin cfg1.N) (A : S512x1.Idx → EReal) :
    (((cfg1.win 3).blk t).view.read (Elt Ideal) A : S512x1.Idx → EReal) = A :=
  funext fun y => congrArg A (funext (Fin.forall_fin_two.2
    ⟨Fin.ext (win1_3.rect_emb_val_of_index_zero t (0 : Fin 2) rfl y),
      Fin.ext (win1_3.rect_emb_val_of_index_zero t (1 : Fin 2) rfl y)⟩))

end Cert.KernelIdeal.Blocks
-- ==== Proof.IdealBlocks2.lean ====
import proofs.«138250_j73134703116926_1_alg».proof.Proof.IdealCover

namespace Cert.KernelIdeal.Blocks

open Idealize.ShloMosaic Idealize.ShloMosaic.ValueIdx

-- The projected rows' block is the whole array at every point.
theorem read2_0 (t : Fin cfg2.N) (A : S512x256.Idx → EReal) :
    (((cfg2.win 0).blk t).view.read (Elt Ideal) A : S512x256.Idx → EReal) = A :=
  funext fun y => congrArg A (funext (Fin.forall_fin_two.2
    ⟨Fin.ext (win2_0.rect_emb_val_of_index_zero t (0 : Fin 2) rfl y),
      Fin.ext (win2_0.rect_emb_val_of_index_zero t (1 : Fin 2) rfl y)⟩))

theorem win2_1_facts : ∀ t : Fin grid2.N, win2_1.index t (0 : Fin 2) = t.val ∧ win2_1.index t (1 : Fin 2) = 0
    ∧ win2_1.xsize (grid2.coords t) (0 : Fin 2) = min 2048 (20000 - t.val * 2048)
    ∧ win2_1.xsize (grid2.coords t) (1 : Fin 2) = 256 := by
  decide +kernel

-- The weight tile at point t holds the array's rows from t · 2048 on, as far as the array goes.
theorem read2_1 (t : Fin cfg2.N) (A : S20000x256.Idx → EReal) (d : S2048x256.Idx → EReal) (j : Fin 2048)
    (k : Fin 256) (hj : t.val * 2048 + j.val < 20000) :
    win2_1.fill (grid2.coords t) d (((cfg2.win 1).blk t).view.read (Elt Ideal) A) (ix2 j k)
      = A (ix2 ⟨t.val * 2048 + j.val, hj⟩ k) := by
  obtain ⟨e0, e1, x0, x1⟩ := win2_1_facts t
  refine Cover.fill_read win2_1 t d _ A (fun _ => rfl) (ix2 j k) _ (Fin.forall_fin_two.2 ⟨?_, ?_⟩)
    (Fin.forall_fin_two.2 ⟨?_, ?_⟩)
  · show j.val < _; rw [x0]; omega
  · show k.val < _; rw [x1]; exact k.isLt
  · show _ * 2048 + j.val = t.val * 2048 + j.val; rw [e0]
  · show _ * 256 + k.val = k.val; rw [e1]; omega

theorem win2_2_facts : ∀ t : Fin grid2.N, win2_2.index t (0 : Fin 1) = t.val
    ∧ win2_2.xsize (grid2.coords t) (0 : Fin 1) = min 2048 (20000 - t.val * 2048) := by
  decide +kernel

-- The bias tile at point t holds the array's entries from t · 2048 on, as far as the array goes.
theorem read2_2 (t : Fin cfg2.N) (A : S20000.Idx → EReal) (d : S2048.Idx → EReal) (j : Fin 2048)
    (hj : t.val * 2048 + j.val < 20000) :
    win2_2.fill (grid2.coords t) d (((cfg2.win 2).blk t).view.read (Elt Ideal) A) (ix1 j)
      = A (ix1 ⟨t.val * 2048 + j.val, hj⟩) := by
  obtain ⟨e0, x0⟩ := win2_2_facts t
  refine Cover.fill_read win2_2 t d _ A (fun _ => rfl) (ix1 j) _ (Fin.forall_fin_one.2 ?_) (Fin.forall_fin_one.2 ?_)
  · show j.val < _; rw [x0]; omega
  · show _ * 2048 + j.val = t.val * 2048 + j.val; rw [e0]

end Cert.KernelIdeal.Blocks
-- ==== Proof.IdealBlocks3.lean ====
import proofs.«138250_j73134703116926_1_alg».proof.Proof.IdealCover

namespace Cert.KernelIdeal.Blocks

open Idealize.ShloMosaic Idealize.ShloMosaic.ValueIdx

-- The projected rows' block is the whole array at every point.
theorem read3_0 (t : Fin cfg3.N) (A : S512x256.Idx → EReal) :
    (((cfg3.win 0).blk t).view.read (Elt Ideal) A : S512x256.Idx → EReal) = A :=
  funext fun y => congrArg A (funext (Fin.forall_fin_two.2
    ⟨Fin.ext (win3_0.rect_emb_val_of_index_zero t (0 : Fin 2) rfl y),
      Fin.ext (win3_0.rect_emb_val_of_index_zero t (1 : Fin 2) rfl y)⟩))

theorem win3_1_facts : ∀ t : Fin grid3.N, win3_1.index t (0 : Fin 2) = t.val ∧ win3_1.index t (1 : Fin 2) = 0
    ∧ win3_1.xsize (grid3.coords t) (0 : Fin 2) = min 2048 (20000 - t.val * 2048)
    ∧ win3_1.xsize (grid3.coords t) (1 : Fin 2) = 256 := by
  decide +kernel

-- The weight tile at point t holds the array's rows from t · 2048 on, as far as the array goes.
theorem read3_1 (t : Fin cfg3.N) (A : S20000x256.Idx → EReal) (d : S2048x256.Idx → EReal) (j : Fin 2048)
    (k : Fin 256) (hj : t.val * 2048 + j.val < 20000) :
    win3_1.fill (grid3.coords t) d (((cfg3.win 1).blk t).view.read (Elt Ideal) A) (ix2 j k)
      = A (ix2 ⟨t.val * 2048 + j.val, hj⟩ k) := by
  obtain ⟨e0, e1, x0, x1⟩ := win3_1_facts t
  refine Cover.fill_read win3_1 t d _ A (fun _ => rfl) (ix2 j k) _ (Fin.forall_fin_two.2 ⟨?_, ?_⟩)
    (Fin.forall_fin_two.2 ⟨?_, ?_⟩)
  · show j.val < _; rw [x0]; omega
  · show k.val < _; rw [x1]; exact k.isLt
  · show _ * 2048 + j.val = t.val * 2048 + j.val; rw [e0]
  · show _ * 256 + k.val = k.val; rw [e1]; omega

theorem win3_2_facts : ∀ t : Fin grid3.N, win3_2.index t (0 : Fin 1) = t.val
    ∧ win3_2.xsize (grid3.coords t) (0 : Fin 1) = min 2048 (20000 - t.val * 2048) := by
  decide +kernel

-- The bias tile at point t holds the array's entries from t · 2048 on, as far as the array goes.
theorem read3_2 (t : Fin cfg3.N) (A : S20000.Idx → EReal) (d : S2048.Idx → EReal) (j : Fin 2048)
    (hj : t.val * 2048 + j.val < 20000) :
    win3_2.fill (grid3.coords t) d (((cfg3.win 2).blk t).view.read (Elt Ideal) A) (ix1 j)
      = A (ix1 ⟨t.val * 2048 + j.val, hj⟩) := by
  obtain ⟨e0, x0⟩ := win3_2_facts t
  refine Cover.fill_read win3_2 t d _ A (fun _ => rfl) (ix1 j) _ (Fin.forall_fin_one.2 ?_) (Fin.forall_fin_one.2 ?_)
  · show j.val < _; rw [x0]; omega
  · show _ * 2048 + j.val = t.val * 2048 + j.val; rw [e0]

-- A column's block is the whole array at every point.
theorem read3_3 (t : Fin cfg3.N) (A : S512x1.Idx → EReal) :
    (((cfg3.win 3).blk t).view.read (Elt Ideal) A : S512x1.Idx → EReal) = A :=
  funext fun y => congrArg A (funext (Fin.forall_fin_two.2
    ⟨Fin.ext (win3_3.rect_emb_val_of_index_zero t (0 : Fin 2) rfl y),
      Fin.ext (win3_3.rect_emb_val_of_index_zero t (1 : Fin 2) rfl y)⟩))

-- A column's block is the whole array at every point.
theorem read3_4 (t : Fin cfg3.N) (A : S512x1.Idx → EReal) :
    (((cfg3.win 4).blk t).view.read (Elt Ideal) A : S512x1.Idx → EReal) = A :=
  funext fun y => congrArg A (funext (Fin.forall_fin_two.2
    ⟨Fin.ext (win3_4.rect_emb_val_of_index_zero t (0 : Fin 2) rfl y),
      Fin.ext (win3_4.rect_emb_val_of_index_zero t (1 : Fin 2) rfl y)⟩))

end Cert.KernelIdeal.Blocks
-- ==== Proof.IdealBlocks4.lean ====
import proofs.«138250_j73134703116926_1_alg».proof.Proof.IdealCover

namespace Cert.KernelIdeal.Blocks

open Idealize.ShloMosaic Idealize.ShloMosaic.ValueIdx

-- The projected rows' block is the whole array at every point.
theorem read4_0 (t : Fin cfg4.N) (A : S512x64.Idx → EReal) :
    (((cfg4.win 0).blk t).view.read (Elt Ideal) A : S512x64.Idx → EReal) = A :=
  funext fun y => congrArg A (funext (Fin.forall_fin_two.2
    ⟨Fin.ext (win4_0.rect_emb_val_of_index_zero t (0 : Fin 2) rfl y),
      Fin.ext (win4_0.rect_emb_val_of_index_zero t (1 : Fin 2) rfl y)⟩))

theorem win4_1_facts : ∀ t : Fin grid4.N, win4_1.index t (0 : Fin 2) = t.val ∧ win4_1.index t (1 : Fin 2) = 0
    ∧ win4_1.xsize (grid4.coords t) (0 : Fin 2) = min 4096 (160000 - t.val * 4096)
    ∧ win4_1.xsize (grid4.coords t) (1 : Fin 2) = 64 := by
  decide +kernel

-- The weight tile at point t holds the array's rows from t · 4096 on, as far as the array goes.
theorem read4_1 (t : Fin cfg4.N) (A : S160000x64.Idx → EReal) (d : S4096x64.Idx → EReal) (j : Fin 4096)
    (k : Fin 64) (hj : t.val * 4096 + j.val < 160000) :
    win4_1.fill (grid4.coords t) d (((cfg4.win 1).blk t).view.read (Elt Ideal) A) (ix2 j k)
      = A (ix2 ⟨t.val * 4096 + j.val, hj⟩ k) := by
  obtain ⟨e0, e1, x0, x1⟩ := win4_1_facts t
  refine Cover.fill_read win4_1 t d _ A (fun _ => rfl) (ix2 j k) _ (Fin.forall_fin_two.2 ⟨?_, ?_⟩)
    (Fin.forall_fin_two.2 ⟨?_, ?_⟩)
  · show j.val < _; rw [x0]; omega
  · show k.val < _; rw [x1]; exact k.isLt
  · show _ * 4096 + j.val = t.val * 4096 + j.val; rw [e0]
  · show _ * 64 + k.val = k.val; rw [e1]; omega

theorem win4_2_facts : ∀ t : Fin grid4.N, win4_2.index t (0 : Fin 1) = t.val
    ∧ win4_2.xsize (grid4.coords t) (0 : Fin 1) = min 4096 (160000 - t.val * 4096) := by
  decide +kernel

-- The bias tile at point t holds the array's entries from t · 4096 on, as far as the array goes.
theorem read4_2 (t : Fin cfg4.N) (A : S160000.Idx → EReal) (d : S4096.Idx → EReal) (j : Fin 4096)
    (hj : t.val * 4096 + j.val < 160000) :
    win4_2.fill (grid4.coords t) d (((cfg4.win 2).blk t).view.read (Elt Ideal) A) (ix1 j)
      = A (ix1 ⟨t.val * 4096 + j.val, hj⟩) := by
  obtain ⟨e0, x0⟩ := win4_2_facts t
  refine Cover.fill_read win4_2 t d _ A (fun _ => rfl) (ix1 j) _ (Fin.forall_fin_one.2 ?_) (Fin.forall_fin_one.2 ?_)
  · show j.val < _; rw [x0]; omega
  · show _ * 4096 + j.val = t.val * 4096 + j.val; rw [e0]

end Cert.KernelIdeal.Blocks
-- ==== Proof.IdealBlocks5.lean ====
import proofs.«138250_j73134703116926_1_alg».proof.Proof.IdealCover

namespace Cert.KernelIdeal.Blocks

open Idealize.ShloMosaic Idealize.ShloMosaic.ValueIdx

-- The projected rows' block is the whole array at every point.
theorem read5_0 (t : Fin cfg5.N) (A : S512x64.Idx → EReal) :
    (((cfg5.win 0).blk t).view.read (Elt Ideal) A : S512x64.Idx → EReal) = A :=
  funext fun y => congrArg A (funext (Fin.forall_fin_two.2
    ⟨Fin.ext (win5_0.rect_emb_val_of_index_zero t (0 : Fin 2) rfl y),
      Fin.ext (win5_0.rect_emb_val_of_index_zero t (1 : Fin 2) rfl y)⟩))

theorem win5_1_facts : ∀ t : Fin grid5.N, win5_1.index t (0 : Fin 2) = t.val ∧ win5_1.index t (1 : Fin 2) = 0
    ∧ win5_1.xsize (grid5.coords t) (0 : Fin 2) = min 4096 (160000 - t.val * 4096)
    ∧ win5_1.xsize (grid5.coords t) (1 : Fin 2) = 64 := by
  decide +kernel

-- The weight tile at point t holds the array's rows from t · 4096 on, as far as the array goes.
theorem read5_1 (t : Fin cfg5.N) (A : S160000x64.Idx → EReal) (d : S4096x64.Idx → EReal) (j : Fin 4096)
    (k : Fin 64) (hj : t.val * 4096 + j.val < 160000) :
    win5_1.fill (grid5.coords t) d (((cfg5.win 1).blk t).view.read (Elt Ideal) A) (ix2 j k)
      = A (ix2 ⟨t.val * 4096 + j.val, hj⟩ k) := by
  obtain ⟨e0, e1, x0, x1⟩ := win5_1_facts t
  refine Cover.fill_read win5_1 t d _ A (fun _ => rfl) (ix2 j k) _ (Fin.forall_fin_two.2 ⟨?_, ?_⟩)
    (Fin.forall_fin_two.2 ⟨?_, ?_⟩)
  · show j.val < _; rw [x0]; omega
  · show k.val < _; rw [x1]; exact k.isLt
  · show _ * 4096 + j.val = t.val * 4096 + j.val; rw [e0]
  · show _ * 64 + k.val = k.val; rw [e1]; omega

theorem win5_2_facts : ∀ t : Fin grid5.N, win5_2.index t (0 : Fin 1) = t.val
    ∧ win5_2.xsize (grid5.coords t) (0 : Fin 1) = min 4096 (160000 - t.val * 4096) := by
  decide +kernel

-- The bias tile at point t holds the array's entries from t · 4096 on, as far as the array goes.
theorem read5_2 (t : Fin cfg5.N) (A : S160000.Idx → EReal) (d : S4096.Idx → EReal) (j : Fin 4096)
    (hj : t.val * 4096 + j.val < 160000) :
    win5_2.fill (grid5.coords t) d (((cfg5.win 2).blk t).view.read (Elt Ideal) A) (ix1 j)
      = A (ix1 ⟨t.val * 4096 + j.val, hj⟩) := by
  obtain ⟨e0, x0⟩ := win5_2_facts t
  refine Cover.fill_read win5_2 t d _ A (fun _ => rfl) (ix1 j) _ (Fin.forall_fin_one.2 ?_) (Fin.forall_fin_one.2 ?_)
  · show j.val < _; rw [x0]; omega
  · show _ * 4096 + j.val = t.val * 4096 + j.val; rw [e0]

-- A column's block is the whole array at every point.
theorem read5_3 (t : Fin cfg5.N) (A : S512x1.Idx → EReal) :
    (((cfg5.win 3).blk t).view.read (Elt Ideal) A : S512x1.Idx → EReal) = A :=
  funext fun y => congrArg A (funext (Fin.forall_fin_two.2
    ⟨Fin.ext (win5_3.rect_emb_val_of_index_zero t (0 : Fin 2) rfl y),
      Fin.ext (win5_3.rect_emb_val_of_index_zero t (1 : Fin 2) rfl y)⟩))

-- A column's block is the whole array at every point.
theorem read5_4 (t : Fin cfg5.N) (A : S512x1.Idx → EReal) :
    (((cfg5.win 4).blk t).view.read (Elt Ideal) A : S512x1.Idx → EReal) = A :=
  funext fun y => congrArg A (funext (Fin.forall_fin_two.2
    ⟨Fin.ext (win5_4.rect_emb_val_of_index_zero t (0 : Fin 2) rfl y),
      Fin.ext (win5_4.rect_emb_val_of_index_zero t (1 : Fin 2) rfl y)⟩))

end Cert.KernelIdeal.Blocks
-- ==== Proof.IdealBlocks6.lean ====
import proofs.«138250_j73134703116926_1_alg».proof.Proof.IdealCover

namespace Cert.KernelIdeal.Blocks

open Idealize.ShloMosaic Idealize.ShloMosaic.ValueIdx

-- The projected rows' block is the whole array at every point.
theorem read6_0 (t : Fin cfg6.N) (A : S512x16.Idx → EReal) :
    (((cfg6.win 0).blk t).view.read (Elt Ideal) A : S512x16.Idx → EReal) = A :=
  funext fun y => congrArg A (funext (Fin.forall_fin_two.2
    ⟨Fin.ext (win6_0.rect_emb_val_of_index_zero t (0 : Fin 2) rfl y),
      Fin.ext (win6_0.rect_emb_val_of_index_zero t (1 : Fin 2) rfl y)⟩))

theorem win6_1_facts : ∀ t : Fin grid6.N, win6_1.index t (0 : Fin 2) = t.val ∧ win6_1.index t (1 : Fin 2) = 0
    ∧ win6_1.xsize (grid6.coords t) (0 : Fin 2) = min 4096 (67735 - t.val * 4096)
    ∧ win6_1.xsize (grid6.coords t) (1 : Fin 2) = 16 := by
  decide +kernel

-- The weight tile at point t holds the array's rows from t · 4096 on, as far as the array goes.
theorem read6_1 (t : Fin cfg6.N) (A : S67735x16.Idx → EReal) (d : S4096x16.Idx → EReal) (j : Fin 4096)
    (k : Fin 16) (hj : t.val * 4096 + j.val < 67735) :
    win6_1.fill (grid6.coords t) d (((cfg6.win 1).blk t).view.read (Elt Ideal) A) (ix2 j k)
      = A (ix2 ⟨t.val * 4096 + j.val, hj⟩ k) := by
  obtain ⟨e0, e1, x0, x1⟩ := win6_1_facts t
  refine Cover.fill_read win6_1 t d _ A (fun _ => rfl) (ix2 j k) _ (Fin.forall_fin_two.2 ⟨?_, ?_⟩)
    (Fin.forall_fin_two.2 ⟨?_, ?_⟩)
  · show j.val < _; rw [x0]; omega
  · show k.val < _; rw [x1]; exact k.isLt
  · show _ * 4096 + j.val = t.val * 4096 + j.val; rw [e0]
  · show _ * 16 + k.val = k.val; rw [e1]; omega

theorem win6_2_facts : ∀ t : Fin grid6.N, win6_2.index t (0 : Fin 1) = t.val
    ∧ win6_2.xsize (grid6.coords t) (0 : Fin 1) = min 4096 (67735 - t.val * 4096) := by
  decide +kernel

-- The bias tile at point t holds the array's entries from t · 4096 on, as far as the array goes.
theorem read6_2 (t : Fin cfg6.N) (A : S67735.Idx → EReal) (d : S4096.Idx → EReal) (j : Fin 4096)
    (hj : t.val * 4096 + j.val < 67735) :
    win6_2.fill (grid6.coords t) d (((cfg6.win 2).blk t).view.read (Elt Ideal) A) (ix1 j)
      = A (ix1 ⟨t.val * 4096 + j.val, hj⟩) := by
  obtain ⟨e0, x0⟩ := win6_2_facts t
  refine Cover.fill_read win6_2 t d _ A (fun _ => rfl) (ix1 j) _ (Fin.forall_fin_one.2 ?_) (Fin.forall_fin_one.2 ?_)
  · show j.val < _; rw [x0]; omega
  · show _ * 4096 + j.val = t.val * 4096 + j.val; rw [e0]

end Cert.KernelIdeal.Blocks
-- ==== Proof.IdealBlocks7.lean ====
import proofs.«138250_j73134703116926_1_alg».proof.Proof.IdealCover

namespace Cert.KernelIdeal.Blocks

open Idealize.ShloMosaic Idealize.ShloMosaic.ValueIdx

-- The projected rows' block is the whole array at every point.
theorem read7_0 (t : Fin cfg7.N) (A : S512x16.Idx → EReal) :
    (((cfg7.win 0).blk t).view.read (Elt Ideal) A : S512x16.Idx → EReal) = A :=
  funext fun y => congrArg A (funext (Fin.forall_fin_two.2
    ⟨Fin.ext (win7_0.rect_emb_val_of_index_zero t (0 : Fin 2) rfl y),
      Fin.ext (win7_0.rect_emb_val_of_index_zero t (1 : Fin 2) rfl y)⟩))

theorem win7_1_facts : ∀ t : Fin grid7.N, win7_1.index t (0 : Fin 2) = t.val ∧ win7_1.index t (1 : Fin 2) = 0
    ∧ win7_1.xsize (grid7.coords t) (0 : Fin 2) = min 4096 (67735 - t.val * 4096)
    ∧ win7_1.xsize (grid7.coords t) (1 : Fin 2) = 16 := by
  decide +kernel

-- The weight tile at point t holds the array's rows from t · 4096 on, as far as the array goes.
theorem read7_1 (t : Fin cfg7.N) (A : S67735x16.Idx → EReal) (d : S4096x16.Idx → EReal) (j : Fin 4096)
    (k : Fin 16) (hj : t.val * 4096 + j.val < 67735) :
    win7_1.fill (grid7.coords t) d (((cfg7.win 1).blk t).view.read (Elt Ideal) A) (ix2 j k)
      = A (ix2 ⟨t.val * 4096 + j.val, hj⟩ k) := by
  obtain ⟨e0, e1, x0, x1⟩ := win7_1_facts t
  refine Cover.fill_read win7_1 t d _ A (fun _ => rfl) (ix2 j k) _ (Fin.forall_fin_two.2 ⟨?_, ?_⟩)
    (Fin.forall_fin_two.2 ⟨?_, ?_⟩)
  · show j.val < _; rw [x0]; omega
  · show k.val < _; rw [x1]; exact k.isLt
  · show _ * 4096 + j.val = t.val * 4096 + j.val; rw [e0]
  · show _ * 16 + k.val = k.val; rw [e1]; omega

theorem win7_2_facts : ∀ t : Fin grid7.N, win7_2.index t (0 : Fin 1) = t.val
    ∧ win7_2.xsize (grid7.coords t) (0 : Fin 1) = min 4096 (67735 - t.val * 4096) := by
  decide +kernel

-- The bias tile at point t holds the array's entries from t · 4096 on, as far as the array goes.
theorem read7_2 (t : Fin cfg7.N) (A : S67735.Idx → EReal) (d : S4096.Idx → EReal) (j : Fin 4096)
    (hj : t.val * 4096 + j.val < 67735) :
    win7_2.fill (grid7.coords t) d (((cfg7.win 2).blk t).view.read (Elt Ideal) A) (ix1 j)
      = A (ix1 ⟨t.val * 4096 + j.val, hj⟩) := by
  obtain ⟨e0, x0⟩ := win7_2_facts t
  refine Cover.fill_read win7_2 t d _ A (fun _ => rfl) (ix1 j) _ (Fin.forall_fin_one.2 ?_) (Fin.forall_fin_one.2 ?_)
  · show j.val < _; rw [x0]; omega
  · show _ * 4096 + j.val = t.val * 4096 + j.val; rw [e0]

-- A column's block is the whole array at every point.
theorem read7_3 (t : Fin cfg7.N) (A : S512x1.Idx → EReal) :
    (((cfg7.win 3).blk t).view.read (Elt Ideal) A : S512x1.Idx → EReal) = A :=
  funext fun y => congrArg A (funext (Fin.forall_fin_two.2
    ⟨Fin.ext (win7_3.rect_emb_val_of_index_zero t (0 : Fin 2) rfl y),
      Fin.ext (win7_3.rect_emb_val_of_index_zero t (1 : Fin 2) rfl y)⟩))

-- A column's block is the whole array at every point.
theorem read7_4 (t : Fin cfg7.N) (A : S512x1.Idx → EReal) :
    (((cfg7.win 4).blk t).view.read (Elt Ideal) A : S512x1.Idx → EReal) = A :=
  funext fun y => congrArg A (funext (Fin.forall_fin_two.2
    ⟨Fin.ext (win7_4.rect_emb_val_of_index_zero t (0 : Fin 2) rfl y),
      Fin.ext (win7_4.rect_emb_val_of_index_zero t (1 : Fin 2) rfl y)⟩))

end Cert.KernelIdeal.Blocks
-- ==== Proof.IdealBlocks.lean ====
import proofs.«138250_j73134703116926_1_alg».proof.Proof.IdealBlocks0
import proofs.«138250_j73134703116926_1_alg».proof.Proof.IdealBlocks1
import proofs.«138250_j73134703116926_1_alg».proof.Proof.IdealBlocks2
import proofs.«138250_j73134703116926_1_alg».proof.Proof.IdealBlocks3
import proofs.«138250_j73134703116926_1_alg».proof.Proof.IdealBlocks4
import proofs.«138250_j73134703116926_1_alg».proof.Proof.IdealBlocks5
import proofs.«138250_j73134703116926_1_alg».proof.Proof.IdealBlocks6
import proofs.«138250_j73134703116926_1_alg».proof.Proof.IdealBlocks7
-- ==== Proof.IdealStatsSpec2.lean ====
import proofs.«138250_j73134703116926_1_alg».proof.Proof.IdealStatsData0
import proofs.«138250_j73134703116926_1_alg».proof.Proof.IdealStatsData2

noncomputable section

namespace Cert.KernelIdeal.StatsValue

open Idealize.ShloMosaic Idealize.ShloMosaic.ValueIdx Cert.KernelIdeal Cert.KernelIdeal.Gen Cert.KernelIdeal.Triples
open AdaptiveSpec AdaptiveSpec.Real
open scoped BigOperators

variable {A : AdaptiveSpec.Args} (R : AdaptiveSpec.Real.RealOf A)

-- The arrays hold the coercions of the tail's real projections, weights and bias: the merges run the online recurrence over the real logits.
theorem stats2_out_spec
    (X0 : Fin grid2.N → Vec Ideal S512x256 .f32) (X1 : Fin grid2.N → Vec Ideal S2048x256 .f32)
    (X2 : Fin grid2.N → Vec Ideal S2048 .f32) (X3 : Vec Ideal S512x1 .f32)
    (ml : ℕ → Vec Ideal S512x1 .f32 × Vec Ideal S512x1 .f32)
    (hml : ∀ t : Fin grid2.N, ml (t.val + 1) = (stats2_scr0 (grid2.coords t) (X0 t) (X1 t) (X2 t) (ml t.val).1,
      stats2_scr1 (grid2.coords t) (X0 t) (X1 t) (X2 t) (ml t.val).1 (ml t.val).2))
    (h0 : ∀ (t : Fin grid2.N) (r : Fin 512) (k : Fin 256),
      X0 t (ix2 r k) = AdaptiveSpec.proj A.hid (fun k d => A.P1 (ix2 k d)) (rowS r) (rowB r) k)
    (h1 : ∀ (t : Fin grid2.N) (j : Fin 2048) (k : Fin 256) (h : t.val * 2048 + j.val < 20000),
      X1 t (ix2 j k) = A.W1 (ix2 ⟨t.val * 2048 + j.val, h⟩ k))
    (h2 : ∀ (t : Fin grid2.N) (j : Fin 2048) (h : t.val * 2048 + j.val < 20000),
      X2 t (ix1 j) = A.b1 (ix1 ⟨t.val * 2048 + j.val, h⟩))
    (t9 : Fin grid2.N) (h9 : t9.val = 9) (r : Fin 512) (c : Fin 1) :
    stats2_out (grid2.coords t9) (X0 t9) (X1 t9) (X2 t9) X3 (ml 9).1 (ml 9).2 (ix2 r c)
      = ((Real.log (∑ j : Fin 20000, Real.exp (R.y1 (rowS r) (rowB r) j)) : ℝ) : EReal) := by
  have hN : grid2.N = 10 := by decide
  have hlt : ∀ t j, t * 2048 + j < 20000 → t < grid2.N := fun t j h => by rw [hN]; omega
  have hp : ∀ t (r : Fin 512) (k : Fin 256),
      X0 t (ix2 r k) = ((projR R.hid (fun k d => R.P1 (ix2 k d)) (rowS r) (rowB r) k : ℝ) : EReal) := fun t r k => by
    rw [h0, R.hid_eq, R.P1_eq]; exact proj_coe R.hid (fun k d => R.P1 (ix2 k d)) (rowS r) (rowB r) k
  have hX0 : ∀ t, X0 t = X0 t9 := fun t => funext fun x => by
    obtain ⟨r, k, rfl⟩ : ∃ (r : Fin 512) (k : Fin 256), x = ix2 r k := ⟨x 0, x 1, eq_ix2 x⟩
    rw [hp t r k, hp t9 r k]
  have hfold := StatsValue2.stats_lse _ (fun j k => R.W1 (ix2 j k)) (fun j => R.b1 (ix1 j)) (X0 t9) (tileSeq X1) (tileSeq X2) (hp t9)
    (fun t j k h => by rw [show tileSeq X1 t = X1 ⟨t, hlt t _ h⟩ from dif_pos _, h1 ⟨t, hlt t _ h⟩ j k h, R.W1_eq])
    (fun t j h => by rw [show tileSeq X2 t = X2 ⟨t, hlt t _ h⟩ from dif_pos _, h2 ⟨t, hlt t _ h⟩ j h, R.b1_eq])
    (foundM2 ml) (foundL2 ml) rfl rfl (fun t ht => by
      have htN : t < grid2.N := hN ▸ ht
      rw [show tileSeq X1 t = X1 ⟨t, htN⟩ from dif_pos htN, show tileSeq X2 t = X2 ⟨t, htN⟩ from dif_pos htN]
      exact ⟨grid2.coords ⟨t, htN⟩, coords2_val ⟨t, htN⟩,
        found_succ2 (X0 t9) X1 X2 ml ⟨t, htN⟩ (by rw [← hX0 ⟨t, htN⟩]; exact hml ⟨t, htN⟩)⟩) r c
  have hlast := found_succ2 (X0 t9) X1 X2 ml t9 (hml t9)
  have hm : stats2_mIn (grid2.coords t9) (ml 9).1 = foundM2 ml 9 := by rw [mIn_eq2, h9]; rfl
  have hl : stats2_lIn (grid2.coords t9) (ml 9).2 = foundL2 ml 9 := by rw [lIn_eq2, h9]; rfl
  rw [h9] at hlast
  unfold stats2_out
  rw [if_pos ((k2_cond2_iff t9).mpr h9)]
  unfold stats2_m stats2_l
  rw [hm, hl, ← hlast.1, ← hlast.2]
  exact hfold

end Cert.KernelIdeal.StatsValue
-- ==== Proof.IdealStatsSpec4.lean ====
import proofs.«138250_j73134703116926_1_alg».proof.Proof.IdealStatsData0
import proofs.«138250_j73134703116926_1_alg».proof.Proof.IdealStatsData4

noncomputable section

namespace Cert.KernelIdeal.StatsValue

open Idealize.ShloMosaic Idealize.ShloMosaic.ValueIdx Cert.KernelIdeal Cert.KernelIdeal.Gen Cert.KernelIdeal.Triples
open AdaptiveSpec AdaptiveSpec.Real
open scoped BigOperators

variable {A : AdaptiveSpec.Args} (R : AdaptiveSpec.Real.RealOf A)

-- The arrays hold the coercions of the tail's real projections, weights and bias: the merges run the online recurrence over the real logits.
theorem stats4_out_spec
    (X0 : Fin grid4.N → Vec Ideal S512x64 .f32) (X1 : Fin grid4.N → Vec Ideal S4096x64 .f32)
    (X2 : Fin grid4.N → Vec Ideal S4096 .f32) (X3 : Vec Ideal S512x1 .f32)
    (ml : ℕ → Vec Ideal S512x1 .f32 × Vec Ideal S512x1 .f32)
    (hml : ∀ t : Fin grid4.N, ml (t.val + 1) = (stats4_scr0 (grid4.coords t) (X0 t) (X1 t) (X2 t) (ml t.val).1,
      stats4_scr1 (grid4.coords t) (X0 t) (X1 t) (X2 t) (ml t.val).1 (ml t.val).2))
    (h0 : ∀ (t : Fin grid4.N) (r : Fin 512) (k : Fin 64),
      X0 t (ix2 r k) = AdaptiveSpec.proj A.hid (fun k d => A.P2 (ix2 k d)) (rowS r) (rowB r) k)
    (h1 : ∀ (t : Fin grid4.N) (j : Fin 4096) (k : Fin 64) (h : t.val * 4096 + j.val < 160000),
      X1 t (ix2 j k) = A.W2 (ix2 ⟨t.val * 4096 + j.val, h⟩ k))
    (h2 : ∀ (t : Fin grid4.N) (j : Fin 4096) (h : t.val * 4096 + j.val < 160000),
      X2 t (ix1 j) = A.b2 (ix1 ⟨t.val * 4096 + j.val, h⟩))
    (t9 : Fin grid4.N) (h9 : t9.val = 39) (r : Fin 512) (c : Fin 1) :
    stats4_out (grid4.coords t9) (X0 t9) (X1 t9) (X2 t9) X3 (ml 39).1 (ml 39).2 (ix2 r c)
      = ((Real.log (∑ j : Fin 160000, Real.exp (R.y2 (rowS r) (rowB r) j)) : ℝ) : EReal) := by
  have hN : grid4.N = 40 := by decide
  have hlt : ∀ t j, t * 4096 + j < 160000 → t < grid4.N := fun t j h => by rw [hN]; omega
  have hp : ∀ t (r : Fin 512) (k : Fin 64),
      X0 t (ix2 r k) = ((projR R.hid (fun k d => R.P2 (ix2 k d)) (rowS r) (rowB r) k : ℝ) : EReal) := fun t r k => by
    rw [h0, R.hid_eq, R.P2_eq]; exact proj_coe R.hid (fun k d => R.P2 (ix2 k d)) (rowS r) (rowB r) k
  have hX0 : ∀ t, X0 t = X0 t9 := fun t => funext fun x => by
    obtain ⟨r, k, rfl⟩ : ∃ (r : Fin 512) (k : Fin 64), x = ix2 r k := ⟨x 0, x 1, eq_ix2 x⟩
    rw [hp t r k, hp t9 r k]
  have hfold := StatsValue4.stats_lse _ (fun j k => R.W2 (ix2 j k)) (fun j => R.b2 (ix1 j)) (X0 t9) (tileSeq X1) (tileSeq X2) (hp t9)
    (fun t j k h => by rw [show tileSeq X1 t = X1 ⟨t, hlt t _ h⟩ from dif_pos _, h1 ⟨t, hlt t _ h⟩ j k h, R.W2_eq])
    (fun t j h => by rw [show tileSeq X2 t = X2 ⟨t, hlt t _ h⟩ from dif_pos _, h2 ⟨t, hlt t _ h⟩ j h, R.b2_eq])
    (foundM4 ml) (foundL4 ml) rfl rfl (fun t ht => by
      have htN : t < grid4.N := hN ▸ ht
      rw [show tileSeq X1 t = X1 ⟨t, htN⟩ from dif_pos htN, show tileSeq X2 t = X2 ⟨t, htN⟩ from dif_pos htN]
      exact ⟨grid4.coords ⟨t, htN⟩, coords4_val ⟨t, htN⟩,
        found_succ4 (X0 t9) X1 X2 ml ⟨t, htN⟩ (by rw [← hX0 ⟨t, htN⟩]; exact hml ⟨t, htN⟩)⟩) r c
  have hlast := found_succ4 (X0 t9) X1 X2 ml t9 (hml t9)
  have hm : stats4_mIn (grid4.coords t9) (ml 39).1 = foundM4 ml 39 := by rw [mIn_eq4, h9]; rfl
  have hl : stats4_lIn (grid4.coords t9) (ml 39).2 = foundL4 ml 39 := by rw [lIn_eq4, h9]; rfl
  rw [h9] at hlast
  unfold stats4_out
  rw [if_pos ((k4_cond2_iff t9).mpr h9)]
  unfold stats4_m stats4_l
  rw [hm, hl, ← hlast.1, ← hlast.2]
  exact hfold

end Cert.KernelIdeal.StatsValue
-- ==== Proof.IdealStatsSpec6.lean ====
import proofs.«138250_j73134703116926_1_alg».proof.Proof.IdealStatsData0
import proofs.«138250_j73134703116926_1_alg».proof.Proof.IdealStatsData6

noncomputable section

namespace Cert.KernelIdeal.StatsValue

open Idealize.ShloMosaic Idealize.ShloMosaic.ValueIdx Cert.KernelIdeal Cert.KernelIdeal.Gen Cert.KernelIdeal.Triples
open AdaptiveSpec AdaptiveSpec.Real
open scoped BigOperators

variable {A : AdaptiveSpec.Args} (R : AdaptiveSpec.Real.RealOf A)

-- The arrays hold the coercions of the tail's real projections, weights and bias: the merges run the online recurrence over the real logits.
theorem stats6_out_spec
    (X0 : Fin grid6.N → Vec Ideal S512x16 .f32) (X1 : Fin grid6.N → Vec Ideal S4096x16 .f32)
    (X2 : Fin grid6.N → Vec Ideal S4096 .f32) (X3 : Vec Ideal S512x1 .f32)
    (ml : ℕ → Vec Ideal S512x1 .f32 × Vec Ideal S512x1 .f32)
    (hml : ∀ t : Fin grid6.N, ml (t.val + 1) = (stats6_scr0 (grid6.coords t) (X0 t) (X1 t) (X2 t) (ml t.val).1,
      stats6_scr1 (grid6.coords t) (X0 t) (X1 t) (X2 t) (ml t.val).1 (ml t.val).2))
    (h0 : ∀ (t : Fin grid6.N) (r : Fin 512) (k : Fin 16),
      X0 t (ix2 r k) = AdaptiveSpec.proj A.hid (fun k d => A.P3 (ix2 k d)) (rowS r) (rowB r) k)
    (h1 : ∀ (t : Fin grid6.N) (j : Fin 4096) (k : Fin 16) (h : t.val * 4096 + j.val < 67735),
      X1 t (ix2 j k) = A.W3 (ix2 ⟨t.val * 4096 + j.val, h⟩ k))
    (h2 : ∀ (t : Fin grid6.N) (j : Fin 4096) (h : t.val * 4096 + j.val < 67735),
      X2 t (ix1 j) = A.b3 (ix1 ⟨t.val * 4096 + j.val, h⟩))
    (t9 : Fin grid6.N) (h9 : t9.val = 16) (r : Fin 512) (c : Fin 1) :
    stats6_out (grid6.coords t9) (X0 t9) (X1 t9) (X2 t9) X3 (ml 16).1 (ml 16).2 (ix2 r c)
      = ((Real.log (∑ j : Fin 67735, Real.exp (R.y3 (rowS r) (rowB r) j)) : ℝ) : EReal) := by
  have hN : grid6.N = 17 := by decide
  have hlt : ∀ t j, t * 4096 + j < 67735 → t < grid6.N := fun t j h => by rw [hN]; omega
  have hp : ∀ t (r : Fin 512) (k : Fin 16),
      X0 t (ix2 r k) = ((projR R.hid (fun k d => R.P3 (ix2 k d)) (rowS r) (rowB r) k : ℝ) : EReal) := fun t r k => by
    rw [h0, R.hid_eq, R.P3_eq]; exact proj_coe R.hid (fun k d => R.P3 (ix2 k d)) (rowS r) (rowB r) k
  have hX0 : ∀ t, X0 t = X0 t9 := fun t => funext fun x => by
    obtain ⟨r, k, rfl⟩ : ∃ (r : Fin 512) (k : Fin 16), x = ix2 r k := ⟨x 0, x 1, eq_ix2 x⟩
    rw [hp t r k, hp t9 r k]
  have hfold := StatsValue6.stats_lse _ (fun j k => R.W3 (ix2 j k)) (fun j => R.b3 (ix1 j)) (X0 t9) (tileSeq X1) (tileSeq X2) (hp t9)
    (fun t j k h => by rw [show tileSeq X1 t = X1 ⟨t, hlt t _ h⟩ from dif_pos _, h1 ⟨t, hlt t _ h⟩ j k h, R.W3_eq])
    (fun t j h => by rw [show tileSeq X2 t = X2 ⟨t, hlt t _ h⟩ from dif_pos _, h2 ⟨t, hlt t _ h⟩ j h, R.b3_eq])
    (foundM6 ml) (foundL6 ml) rfl rfl (fun t ht => by
      have htN : t < grid6.N := hN ▸ ht
      rw [show tileSeq X1 t = X1 ⟨t, htN⟩ from dif_pos htN, show tileSeq X2 t = X2 ⟨t, htN⟩ from dif_pos htN]
      exact ⟨grid6.coords ⟨t, htN⟩, coords6_val ⟨t, htN⟩,
        found_succ6 (X0 t9) X1 X2 ml ⟨t, htN⟩ (by rw [← hX0 ⟨t, htN⟩]; exact hml ⟨t, htN⟩)⟩) r c
  have hlast := found_succ6 (X0 t9) X1 X2 ml t9 (hml t9)
  have hm : stats6_mIn (grid6.coords t9) (ml 16).1 = foundM6 ml 16 := by rw [mIn_eq6, h9]; rfl
  have hl : stats6_lIn (grid6.coords t9) (ml 16).2 = foundL6 ml 16 := by rw [lIn_eq6, h9]; rfl
  rw [h9] at hlast
  unfold stats6_out
  rw [if_pos ((k6_cond2_iff t9).mpr h9)]
  unfold stats6_m stats6_l
  rw [hm, hl, ← hlast.1, ← hlast.2]
  exact hfold

end Cert.KernelIdeal.StatsValue
-- ==== Proof.IdealRegionValues.lean ====
import proofs.«138250_j73134703116926_1_alg».proof.Proof.IdealBase
import proofs.«138250_j73134703116926_1_alg».proof.Proof.IdealData
import proofs.«138250_j73134703116926_1_alg».proof.Proof.IdealFinValue
import proofs.«138250_j73134703116926_1_alg».proof.Proof.IdealBlocks
import proofs.«138250_j73134703116926_1_alg».proof.Proof.IdealCover
import proofs.«138250_j73134703116926_1_alg».proof.Proof.IdealStatsData0
import proofs.«138250_j73134703116926_1_alg».proof.Proof.IdealStatsSpec2
import proofs.«138250_j73134703116926_1_alg».proof.Proof.IdealStatsSpec4
import proofs.«138250_j73134703116926_1_alg».proof.Proof.IdealStatsSpec6

set_option maxRecDepth 1656

noncomputable section

namespace Cert.KernelIdeal.RegionValues

open Cert.KernelIdeal Cert.KernelIdeal.Gen Idealize.ShloMosaic Idealize.ShloMosaic.TcCoe Idealize.SL.Sem
open Idealize.SL Idealize.SL.RA
open Idealize.ShloMosaic.Pipeline (Dat)
open Idealize.ShloMosaic.ValueIdx
open Cert.KernelIdeal.IdealData Cert.KernelIdeal.Triples
open scoped BigOperators

-- A tile's logit less the row statistic, each block read as the part of its array it holds.
theorem tile_value {K T n : ℕ} {x0 X : (⟨2, ![512, K]⟩ : Shape).Idx → EReal} {x1 : (⟨2, ![T, K]⟩ : Shape).Idx → EReal}
    {W : (⟨2, ![n, K]⟩ : Shape).Idx → EReal} {x2 : (⟨1, ![T]⟩ : Shape).Idx → EReal} {B : (⟨1, ![n]⟩ : Shape).Idx → EReal}
    {x3 L : S512x1.Idx → EReal} (r : Fin 512) (j : Fin T) (v : Fin n) (e0 : x0 = X)
    (e1 : ∀ k, x1 (ix2 j k) = W (ix2 v k)) (e2 : x2 (ix1 j) = B (ix1 v)) (e3 : x3 = L) :
    ((∑ k : Fin K, x0 (ix2 r k) * x1 (ix2 j k)) + x2 (ix1 j)) - x3 (ix2 r 0)
      = ((∑ k : Fin K, X (ix2 r k) * W (ix2 v k)) + B (ix1 v)) - L (ix2 r 0) := by
  rw [e0, e3, e2]
  exact congrArg (fun s => (s + _) - _) (Finset.sum_congr rfl fun k _ => by rw [e1 k])

section Region0

variable (V : VT) (c : Dev nD)

abbrev rows0 : S512x1024.Idx → EReal := V c (Pipeline.arrRef spec0 0)
abbrev weights0 : S20003x1024.Idx → EReal := V c (Pipeline.arrRef spec0 1)
abbrev bias0 : S20003.Idx → EReal := V c (Pipeline.arrRef spec0 2)

theorem arr0_lse {A : AdaptiveSpec.Args} (R : AdaptiveSpec.Real.RealOf A)
    (hX : ∀ (r : Fin 512) (k : Fin 1024), rows0 V c (ix2 r k)
      = AdaptiveSpec.proj A.hid (fun k d => A.P0 (ix2 k d)) (StatsValue.rowS r) (StatsValue.rowB r) k)
    (hW : ∀ (j : Fin 20003) (k : Fin 1024), weights0 V c (ix2 j k) = AdaptiveSpec.headW A.W0 A.clusterW j k)
    (hB : ∀ j : Fin 20003, bias0 V c (ix1 j) = AdaptiveSpec.headB A.b0 A.clusterB j) (r : Fin 512) :
    ((dat0 V c).arrAt 3 cfg0.N : S512x1.Idx → EReal) (ix2 r 0)
      = ((Real.log (∑ j : Fin 20003, Real.exp (R.y0 (StatsValue.rowS r) (StatsValue.rowB r) j)) : ℝ) : EReal) := by
  refine (congrFun ?_ _).trans (StatsValue.stats0_out_spec R (x0_0 V c) (x0_1 V c) (x0_2 V c) (fun _ => (0 : EReal)) (ml0 V c) (ml0_succ V c)
    (fun t r k => ?_) (fun t j k h => ?_) (fun t j h => ?_) Cover.last0 rfl r 0)
  · rw [Cover.final_lse0, after0_3]
    unfold lse0 stats0_out
    exact (if_pos ((k0_cond2_iff Cover.last0).mpr rfl)).symm
  · rw [show x0_0 V c t = rows0 V c from Blocks.read0_0 t (rows0 V c)]; exact hX r k
  · exact (Blocks.read0_1 t (weights0 V c) _ j k h).trans (hW _ k)
  · exact (Blocks.read0_2 t (bias0 V c) _ j h).trans (hB _)

end Region0

section Region1

variable (V : VT) (c : Dev nD)

abbrev rows1 : S512x1024.Idx → EReal := V c (Pipeline.arrRef spec1 0)
abbrev weights1 : S20003x1024.Idx → EReal := V c (Pipeline.arrRef spec1 1)
abbrev bias1 : S20003.Idx → EReal := V c (Pipeline.arrRef spec1 2)
abbrev lse1 : S512x1.Idx → EReal := V c (Pipeline.arrRef spec1 3)

theorem arr1_apply (r : Fin 512) (v : Fin 20003) :
    ((dat1 V c).arrAt 4 cfg1.N : S512x20003.Idx → EReal) (ix2 r v)
      = ((∑ k : Fin 1024, rows1 V c (ix2 r k) * weights1 V c (ix2 v k)) + bias1 V c (ix1 v)) - lse1 V c (ix2 r 0) := by
  rw [Cover.final_out1 c (dat1 V c) (fun i : S512x20003.Idx => ((∑ k : Fin 1024, rows1 V c (ix2 (i 0) k) * weights1 V c (ix2 (i 1) k))
        + bias1 V c (ix1 (i 1))) - lse1 V c (ix2 (i 0) 0)) fun t r j hj => by
    rw [after1_4]
    unfold out1 fin1_out
    rw [FinValue.fin_apply]
    exact tile_value r j _ (Blocks.read1_0 t _) (fun k => Blocks.read1_1 t _ _ j k hj)
      (Blocks.read1_2 t _ _ j hj) (Blocks.read1_3 t _)]

end Region1

section Region2

variable (V : VT) (c : Dev nD)

abbrev rows2 : S512x256.Idx → EReal := V c (Pipeline.arrRef spec2 0)
abbrev weights2 : S20000x256.Idx → EReal := V c (Pipeline.arrRef spec2 1)
abbrev bias2 : S20000.Idx → EReal := V c (Pipeline.arrRef spec2 2)

theorem arr2_lse {A : AdaptiveSpec.Args} (R : AdaptiveSpec.Real.RealOf A)
    (hX : ∀ (r : Fin 512) (k : Fin 256), rows2 V c (ix2 r k)
      = AdaptiveSpec.proj A.hid (fun k d => A.P1 (ix2 k d)) (StatsValue.rowS r) (StatsValue.rowB r) k)
    (hW : ∀ (j : Fin 20000) (k : Fin 256), weights2 V c (ix2 j k) = A.W1 (ix2 j k))
    (hB : ∀ j : Fin 20000, bias2 V c (ix1 j) = A.b1 (ix1 j)) (r : Fin 512) :
    ((dat2 V c).arrAt 3 cfg2.N : S512x1.Idx → EReal) (ix2 r 0)
      = ((Real.log (∑ j : Fin 20000, Real.exp (R.y1 (StatsValue.rowS r) (StatsValue.rowB r) j)) : ℝ) : EReal) := by
  refine (congrFun ?_ _).trans (StatsValue.stats2_out_spec R (x2_0 V c) (x2_1 V c) (x2_2 V c) (fun _ => (0 : EReal)) (ml2 V c) (ml2_succ V c)
    (fun t r k => ?_) (fun t j k h => ?_) (fun t j h => ?_) Cover.last2 rfl r 0)
  · rw [Cover.final_lse2, after2_3]
    unfold lse2 stats2_out
    exact (if_pos ((k2_cond2_iff Cover.last2).mpr rfl)).symm
  · rw [show x2_0 V c t = rows2 V c from Blocks.read2_0 t (rows2 V c)]; exact hX r k
  · exact (Blocks.read2_1 t (weights2 V c) _ j k h).trans (hW _ k)
  · exact (Blocks.read2_2 t (bias2 V c) _ j h).trans (hB _)

end Region2

section Region3

variable (V : VT) (c : Dev nD)

abbrev rows3 : S512x256.Idx → EReal := V c (Pipeline.arrRef spec3 0)
abbrev weights3 : S20000x256.Idx → EReal := V c (Pipeline.arrRef spec3 1)
abbrev bias3 : S20000.Idx → EReal := V c (Pipeline.arrRef spec3 2)
abbrev lse3 : S512x1.Idx → EReal := V c (Pipeline.arrRef spec3 3)
abbrev route3 : S512x1.Idx → EReal := V c (Pipeline.arrRef spec3 4)

theorem arr3_apply (r : Fin 512) (v : Fin 20000) :
    ((dat3 V c).arrAt 5 cfg3.N : S512x20000.Idx → EReal) (ix2 r v)
      = (((∑ k : Fin 256, rows3 V c (ix2 r k) * weights3 V c (ix2 v k)) + bias3 V c (ix1 v))
          - lse3 V c (ix2 r 0)) + route3 V c (ix2 r 0) := by
  rw [Cover.final_out3 c (dat3 V c) (fun i : S512x20000.Idx => (((∑ k : Fin 256, rows3 V c (ix2 (i 0) k) * weights3 V c (ix2 (i 1) k))
        + bias3 V c (ix1 (i 1))) - lse3 V c (ix2 (i 0) 0)) + route3 V c (ix2 (i 0) 0)) fun t r j hj => by
    rw [after3_5]
    unfold out3 fin3_out
    rw [FinValue.finmeta2048_apply]
    exact congrArg₂ (· + ·) (tile_value r j _ (Blocks.read3_0 t _) (fun k => Blocks.read3_1 t _ _ j k hj)
      (Blocks.read3_2 t _ _ j hj) (Blocks.read3_3 t _))
      (congrFun (Blocks.read3_4 t (route3 V c)) _)]

end Region3

section Region4

variable (V : VT) (c : Dev nD)

abbrev rows4 : S512x64.Idx → EReal := V c (Pipeline.arrRef spec4 0)
abbrev weights4 : S160000x64.Idx → EReal := V c (Pipeline.arrRef spec4 1)
abbrev bias4 : S160000.Idx → EReal := V c (Pipeline.arrRef spec4 2)

theorem arr4_lse {A : AdaptiveSpec.Args} (R : AdaptiveSpec.Real.RealOf A)
    (hX : ∀ (r : Fin 512) (k : Fin 64), rows4 V c (ix2 r k)
      = AdaptiveSpec.proj A.hid (fun k d => A.P2 (ix2 k d)) (StatsValue.rowS r) (StatsValue.rowB r) k)
    (hW : ∀ (j : Fin 160000) (k : Fin 64), weights4 V c (ix2 j k) = A.W2 (ix2 j k))
    (hB : ∀ j : Fin 160000, bias4 V c (ix1 j) = A.b2 (ix1 j)) (r : Fin 512) :
    ((dat4 V c).arrAt 3 cfg4.N : S512x1.Idx → EReal) (ix2 r 0)
      = ((Real.log (∑ j : Fin 160000, Real.exp (R.y2 (StatsValue.rowS r) (StatsValue.rowB r) j)) : ℝ) : EReal) := by
  refine (congrFun ?_ _).trans (StatsValue.stats4_out_spec R (x4_0 V c) (x4_1 V c) (x4_2 V c) (fun _ => (0 : EReal)) (ml4 V c) (ml4_succ V c)
    (fun t r k => ?_) (fun t j k h => ?_) (fun t j h => ?_) Cover.last4 rfl r 0)
  · rw [Cover.final_lse4, after4_3]
    unfold lse4 stats4_out
    exact (if_pos ((k4_cond2_iff Cover.last4).mpr rfl)).symm
  · rw [show x4_0 V c t = rows4 V c from Blocks.read4_0 t (rows4 V c)]; exact hX r k
  · exact (Blocks.read4_1 t (weights4 V c) _ j k h).trans (hW _ k)
  · exact (Blocks.read4_2 t (bias4 V c) _ j h).trans (hB _)

end Region4

section Region5

variable (V : VT) (c : Dev nD)

abbrev rows5 : S512x64.Idx → EReal := V c (Pipeline.arrRef spec5 0)
abbrev weights5 : S160000x64.Idx → EReal := V c (Pipeline.arrRef spec5 1)
abbrev bias5 : S160000.Idx → EReal := V c (Pipeline.arrRef spec5 2)
abbrev lse5 : S512x1.Idx → EReal := V c (Pipeline.arrRef spec5 3)
abbrev route5 : S512x1.Idx → EReal := V c (Pipeline.arrRef spec5 4)

theorem arr5_apply (r : Fin 512) (v : Fin 160000) :
    ((dat5 V c).arrAt 5 cfg5.N : S512x160000.Idx → EReal) (ix2 r v)
      = (((∑ k : Fin 64, rows5 V c (ix2 r k) * weights5 V c (ix2 v k)) + bias5 V c (ix1 v))
          - lse5 V c (ix2 r 0)) + route5 V c (ix2 r 0) := by
  rw [Cover.final_out5 c (dat5 V c) (fun i : S512x160000.Idx => (((∑ k : Fin 64, rows5 V c (ix2 (i 0) k) * weights5 V c (ix2 (i 1) k))
        + bias5 V c (ix1 (i 1))) - lse5 V c (ix2 (i 0) 0)) + route5 V c (ix2 (i 0) 0)) fun t r j hj => by
    rw [after5_5]
    unfold out5 fin5_out
    rw [FinValue.finmeta64_apply]
    exact congrArg₂ (· + ·) (tile_value r j _ (Blocks.read5_0 t _) (fun k => Blocks.read5_1 t _ _ j k hj)
      (Blocks.read5_2 t _ _ j hj) (Blocks.read5_3 t _))
      (congrFun (Blocks.read5_4 t (route5 V c)) _)]

end Region5

section Region6

variable (V : VT) (c : Dev nD)

abbrev rows6 : S512x16.Idx → EReal := V c (Pipeline.arrRef spec6 0)
abbrev weights6 : S67735x16.Idx → EReal := V c (Pipeline.arrRef spec6 1)
abbrev bias6 : S67735.Idx → EReal := V c (Pipeline.arrRef spec6 2)

theorem arr6_lse {A : AdaptiveSpec.Args} (R : AdaptiveSpec.Real.RealOf A)
    (hX : ∀ (r : Fin 512) (k : Fin 16), rows6 V c (ix2 r k)
      = AdaptiveSpec.proj A.hid (fun k d => A.P3 (ix2 k d)) (StatsValue.rowS r) (StatsValue.rowB r) k)
    (hW : ∀ (j : Fin 67735) (k : Fin 16), weights6 V c (ix2 j k) = A.W3 (ix2 j k))
    (hB : ∀ j : Fin 67735, bias6 V c (ix1 j) = A.b3 (ix1 j)) (r : Fin 512) :
    ((dat6 V c).arrAt 3 cfg6.N : S512x1.Idx → EReal) (ix2 r 0)
      = ((Real.log (∑ j : Fin 67735, Real.exp (R.y3 (StatsValue.rowS r) (StatsValue.rowB r) j)) : ℝ) : EReal) := by
  refine (congrFun ?_ _).trans (StatsValue.stats6_out_spec R (x6_0 V c) (x6_1 V c) (x6_2 V c) (fun _ => (0 : EReal)) (ml6 V c) (ml6_succ V c)
    (fun t r k => ?_) (fun t j k h => ?_) (fun t j h => ?_) Cover.last6 rfl r 0)
  · rw [Cover.final_lse6, after6_3]
    unfold lse6 stats6_out
    exact (if_pos ((k6_cond2_iff Cover.last6).mpr rfl)).symm
  · rw [show x6_0 V c t = rows6 V c from Blocks.read6_0 t (rows6 V c)]; exact hX r k
  · exact (Blocks.read6_1 t (weights6 V c) _ j k h).trans (hW _ k)
  · exact (Blocks.read6_2 t (bias6 V c) _ j h).trans (hB _)

end Region6

section Region7

variable (V : VT) (c : Dev nD)

abbrev rows7 : S512x16.Idx → EReal := V c (Pipeline.arrRef spec7 0)
abbrev weights7 : S67735x16.Idx → EReal := V c (Pipeline.arrRef spec7 1)
abbrev bias7 : S67735.Idx → EReal := V c (Pipeline.arrRef spec7 2)
abbrev lse7 : S512x1.Idx → EReal := V c (Pipeline.arrRef spec7 3)
abbrev route7 : S512x1.Idx → EReal := V c (Pipeline.arrRef spec7 4)

theorem arr7_apply (r : Fin 512) (v : Fin 67735) :
    ((dat7 V c).arrAt 5 cfg7.N : S512x67735.Idx → EReal) (ix2 r v)
      = (((∑ k : Fin 16, rows7 V c (ix2 r k) * weights7 V c (ix2 v k)) + bias7 V c (ix1 v))
          - lse7 V c (ix2 r 0)) + route7 V c (ix2 r 0) := by
  rw [Cover.final_out7 c (dat7 V c) (fun i : S512x67735.Idx => (((∑ k : Fin 16, rows7 V c (ix2 (i 0) k) * weights7 V c (ix2 (i 1) k))
        + bias7 V c (ix1 (i 1))) - lse7 V c (ix2 (i 0) 0)) + route7 V c (ix2 (i 0) 0)) fun t r j hj => by
    rw [after7_5]
    unfold out7 fin7_out
    rw [FinValue.finmeta16_apply]
    exact congrArg₂ (· + ·) (tile_value r j _ (Blocks.read7_0 t _) (fun k => Blocks.read7_1 t _ _ j k hj)
      (Blocks.read7_2 t _ _ j hj) (Blocks.read7_3 t _))
      (congrFun (Blocks.read7_4 t (route7 V c)) _)]

end Region7

end Cert.KernelIdeal.RegionValues

end
-- ==== Proof.KernelOutValue.lean ====
import proofs.«138250_j73134703116926_1_alg».proof.Proof.OutValueSpec
import proofs.«138250_j73134703116926_1_alg».proof.Proof.FiniteInputs
import proofs.«138250_j73134703116926_1_alg».proof.Proof.KernelIdealRegions
import proofs.«138250_j73134703116926_1_alg».proof.Proof.IdealHost
import proofs.«138250_j73134703116926_1_alg».proof.Proof.IdealHostSlices
import proofs.«138250_j73134703116926_1_alg».proof.Proof.IdealHostOut
import proofs.«138250_j73134703116926_1_alg».proof.Proof.IdealData
import proofs.«138250_j73134703116926_1_alg».proof.Proof.IdealRegionValues

noncomputable section

open scoped BigOperators

namespace Cert.KernelIdeal.OutValue

open Idealize.ShloMosaic Idealize.ShloMosaic.ValueIdx AdaptiveSpec AdaptiveSpec.Real

section Args

open Cert.KernelIdeal Cert.KernelIdeal.Gen Cert.KernelIdeal.GenP Cert.FiniteInputs
open Idealize.ShloMosaic.TcCoe Idealize.SL.Sem

abbrev argsOf (m : Mem) (c : Dev nD) : Args where
  hidden := Cert.FiniteInputs.hidden m c
  target := Cert.FiniteInputs.target m c
  clusterW := Cert.FiniteInputs.clusterW m c
  clusterB := Cert.FiniteInputs.clusterB m c
  W0 := Cert.FiniteInputs.W0 m c
  b0 := Cert.FiniteInputs.b0 m c
  P0 := Cert.FiniteInputs.P0 m c
  W1 := Cert.FiniteInputs.W1 m c
  b1 := Cert.FiniteInputs.b1 m c
  P1 := Cert.FiniteInputs.P1 m c
  W2 := Cert.FiniteInputs.W2 m c
  b2 := Cert.FiniteInputs.b2 m c
  P2 := Cert.FiniteInputs.P2 m c
  W3 := Cert.FiniteInputs.W3 m c
  b3 := Cert.FiniteInputs.b3 m c
  P3 := Cert.FiniteInputs.P3 m c

theorem realOf_argsOf (m : Mem) (hR : RealArgs m) (c : Dev nD) : Nonempty (RealOf (argsOf m c)) :=
  RealOf.of_exists (argsOf m c) (hR.hidden c).exists_fun (hR.clusterW c).exists_fun (hR.clusterB c).exists_fun
    (hR.W0 c).exists_fun (hR.b0 c).exists_fun (hR.P0 c).exists_fun (hR.W1 c).exists_fun (hR.b1 c).exists_fun
    (hR.P1 c).exists_fun (hR.W2 c).exists_fun (hR.b2 c).exists_fun (hR.P2 c).exists_fun (hR.W3 c).exists_fun
    (hR.b3 c).exists_fun (hR.P3 c).exists_fun

end Args

section Arrays

open Cert.KernelIdeal Cert.KernelIdeal.Gen Cert.KernelIdeal.GenP Cert.FiniteInputs
open Idealize.ShloMosaic.TcCoe Idealize.SL.Sem

variable (m : Mem) (outs : Outs (F := Ideal)) (c : Dev nD)

abbrev inX0 : (⟨2, ![512, 1024]⟩ : Shape).Idx → EReal := V2 m outs c main_v5
abbrev inWh : (⟨2, ![20003, 1024]⟩ : Shape).Idx → EReal := V2 m outs c main_v2
abbrev inBh : (⟨1, ![20003]⟩ : Shape).Idx → EReal := V2 m outs c main_v3
abbrev inL0 : (⟨2, ![512, 1]⟩ : Shape).Idx → EReal := V2 m outs c main_v12

abbrev inX1 : (⟨2, ![512, 256]⟩ : Shape).Idx → EReal := V6 m outs c main_v7
abbrev inW1 : (⟨2, ![20000, 256]⟩ : Shape).Idx → EReal := V6 m outs c main_arg7
abbrev inB1 : (⟨1, ![20000]⟩ : Shape).Idx → EReal := V6 m outs c main_arg8
abbrev inL2 : (⟨2, ![512, 1]⟩ : Shape).Idx → EReal := V6 m outs c main_v16
abbrev inR1 : (⟨2, ![512, 1]⟩ : Shape).Idx → EReal := V6 m outs c main_v17

abbrev inX2 : (⟨2, ![512, 64]⟩ : Shape).Idx → EReal := V9 m outs c main_v9
abbrev inW2 : (⟨2, ![160000, 64]⟩ : Shape).Idx → EReal := V9 m outs c main_arg10
abbrev inB2 : (⟨1, ![160000]⟩ : Shape).Idx → EReal := V9 m outs c main_arg11
abbrev inL4 : (⟨2, ![512, 1]⟩ : Shape).Idx → EReal := V9 m outs c main_v19
abbrev inR2 : (⟨2, ![512, 1]⟩ : Shape).Idx → EReal := V9 m outs c main_v20

abbrev inX3 : (⟨2, ![512, 16]⟩ : Shape).Idx → EReal := V12 m outs c main_v11
abbrev inW3 : (⟨2, ![67735, 16]⟩ : Shape).Idx → EReal := V12 m outs c main_arg13
abbrev inB3 : (⟨1, ![67735]⟩ : Shape).Idx → EReal := V12 m outs c main_arg14
abbrev inL6 : (⟨2, ![512, 1]⟩ : Shape).Idx → EReal := V12 m outs c main_v22
abbrev inR3 : (⟨2, ![512, 1]⟩ : Shape).Idx → EReal := V12 m outs c main_v23

abbrev outL0 : (⟨2, ![512, 1]⟩ : Shape).Idx → EReal := outs 2 main_v12 c
abbrev outO1 : (⟨2, ![512, 20003]⟩ : Shape).Idx → EReal := outs 3 main_v13 c
abbrev outL2 : (⟨2, ![512, 1]⟩ : Shape).Idx → EReal := outs 5 main_v16 c
abbrev outO3 : (⟨2, ![512, 20000]⟩ : Shape).Idx → EReal := outs 7 main_v18 c
abbrev outL4 : (⟨2, ![512, 1]⟩ : Shape).Idx → EReal := outs 8 main_v19 c
abbrev outO5 : (⟨2, ![512, 160000]⟩ : Shape).Idx → EReal := outs 10 main_v21 c
abbrev outL6 : (⟨2, ![512, 1]⟩ : Shape).Idx → EReal := outs 11 main_v22 c
abbrev outO7 : (⟨2, ![512, 67735]⟩ : Shape).Idx → EReal := outs 13 main_v24 c

end Arrays

section Host

open Cert.KernelIdeal Cert.KernelIdeal.Gen Cert.KernelIdeal.GenP Cert.FiniteInputs Cert.KernelIdeal.HostValue
open Idealize.ShloMosaic.TcCoe Idealize.SL.Sem

variable (m : Mem) (outs : Outs (F := Ideal)) (c : Dev nD)

theorem host_X0 (r : Fin 512) (k : Fin 1024) :
    inX0 m outs c (ix2 r k)
      = ∑ d : Fin 1024, (argsOf m c).hidden (ix3 (rowS r) (rowB r) d) * (argsOf m c).P0 (ix2 k d) := by
  show (V2 m outs c main_v5 : S512x1024.Idx → EReal) (ix2 r k) = _
  rw [V2_main_v5]; rfl

theorem host_Wh (j : Fin 20003) (k : Fin 1024) :
    inWh m outs c (ix2 j k) = headW (argsOf m c).W0 (argsOf m c).clusterW j k := by
  show (V2 m outs c main_v2 : S20003x1024.Idx → EReal) (ix2 j k) = _
  rw [V2_main_v2]; rfl

theorem host_Bh (j : Fin 20003) : inBh m outs c (ix1 j) = headB (argsOf m c).b0 (argsOf m c).clusterB j := by
  show (V2 m outs c main_v3 : S20003.Idx → EReal) (ix1 j) = _
  rw [V2_main_v3]; rfl

theorem host_L0 : inL0 m outs c = outL0 outs c := V2_main_v12 m outs c

theorem host_X1 (r : Fin 512) (k : Fin 256) :
    inX1 m outs c (ix2 r k)
      = ∑ d : Fin 1024, (argsOf m c).hidden (ix3 (rowS r) (rowB r) d) * (argsOf m c).P1 (ix2 k d) := by
  show (V6 m outs c main_v7 : S512x256.Idx → EReal) (ix2 r k) = _
  rw [V6_main_v7]; rfl

theorem host_X2 (r : Fin 512) (k : Fin 64) :
    inX2 m outs c (ix2 r k)
      = ∑ d : Fin 1024, (argsOf m c).hidden (ix3 (rowS r) (rowB r) d) * (argsOf m c).P2 (ix2 k d) := by
  show (V9 m outs c main_v9 : S512x64.Idx → EReal) (ix2 r k) = _
  rw [V9_main_v9]; rfl

theorem host_X3 (r : Fin 512) (k : Fin 16) :
    inX3 m outs c (ix2 r k)
      = ∑ d : Fin 1024, (argsOf m c).hidden (ix3 (rowS r) (rowB r) d) * (argsOf m c).P3 (ix2 k d) := by
  show (V12 m outs c main_v11 : S512x16.Idx → EReal) (ix2 r k) = _
  rw [V12_main_v11]; rfl

theorem host_W1 : inW1 m outs c = (argsOf m c).W1 := V6_main_arg7 m outs c
theorem host_B1 : inB1 m outs c = (argsOf m c).b1 := V6_main_arg8 m outs c
theorem host_L2 : inL2 m outs c = outL2 outs c := V6_main_v16 m outs c
theorem host_W2 : inW2 m outs c = (argsOf m c).W2 := V9_main_arg10 m outs c
theorem host_B2 : inB2 m outs c = (argsOf m c).b2 := V9_main_arg11 m outs c
theorem host_L4 : inL4 m outs c = outL4 outs c := V9_main_v19 m outs c
theorem host_W3 : inW3 m outs c = (argsOf m c).W3 := V12_main_arg13 m outs c
theorem host_B3 : inB3 m outs c = (argsOf m c).b3 := V12_main_arg14 m outs c
theorem host_L6 : inL6 m outs c = outL6 outs c := V12_main_v22 m outs c

theorem host_R1 (r : Fin 512) : inR1 m outs c (ix2 r 0) = outO1 outs c (ix2 r ⟨20000, by decide⟩) := by
  show (V6 m outs c main_v17 : S512x1.Idx → EReal) (ix2 r 0) = _
  rw [V6_main_v17]; rfl
theorem host_R2 (r : Fin 512) : inR2 m outs c (ix2 r 0) = outO1 outs c (ix2 r ⟨20001, by decide⟩) := by
  show (V9 m outs c main_v20 : S512x1.Idx → EReal) (ix2 r 0) = _
  rw [V9_main_v20]; rfl
theorem host_R3 (r : Fin 512) : inR3 m outs c (ix2 r 0) = outO1 outs c (ix2 r ⟨20002, by decide⟩) := by
  show (V12 m outs c main_v23 : S512x1.Idx → EReal) (ix2 r 0) = _
  rw [V12_main_v23]; rfl

end Host

section Assembly

open Cert.KernelIdeal Cert.KernelIdeal.Gen Cert.KernelIdeal.GenP Cert.FiniteInputs Cert.KernelIdeal.HostValue
open Idealize.ShloMosaic.TcCoe Idealize.SL.Sem

variable (m : Mem) (c : Dev nD) (outs : Outs (F := Ideal)) (R : RealOf (argsOf m c))

theorem head_rows_of
    (hL0 : ∀ r, outL0 outs c (ix2 r 0) = ((Real.log (∑ j, Real.exp (R.y0 (rowS r) (rowB r) j)) : ℝ) : EReal))
    (hO1 : ∀ r v, outO1 outs c (ix2 r v)
      = klogit (inX0 m outs c) (inWh m outs c) (inBh m outs c) r v - inL0 m outs c (ix2 r 0))
    (r : Fin 512) (v : Fin 20003) : outO1 outs c (ix2 r v) = (argsOf m c).lp0 (rowS r) (rowB r) v :=
  head_region R (inX0 m outs c) (inWh m outs c) (inBh m outs c) (inL0 m outs c) (outO1 outs c)
    (host_X0 m outs c) (host_Wh m outs c) (host_Bh m outs c) (fun r => by rw [host_L0]; exact hL0 r) hO1 r v

theorem tail1_rows_of
    (h1 : ∀ r v, outO1 outs c (ix2 r v) = (argsOf m c).lp0 (rowS r) (rowB r) v)
    (hL2 : ∀ r, outL2 outs c (ix2 r 0) = ((Real.log (∑ j, Real.exp (R.y1 (rowS r) (rowB r) j)) : ℝ) : EReal))
    (hO3 : ∀ r j, outO3 outs c (ix2 r j)
      = (klogit (inX1 m outs c) (inW1 m outs c) (inB1 m outs c) r j - inL2 m outs c (ix2 r 0)) + inR1 m outs c (ix2 r 0))
    (r : Fin 512) (j : Fin 20000) : outO3 outs c (ix2 r j) = (argsOf m c).joint1 (rowS r) (rowB r) j :=
  tail1_region R (inX1 m outs c) (inL2 m outs c) (inR1 m outs c) (outO3 outs c) (host_X1 m outs c)
    (fun r => by rw [host_L2]; exact hL2 r) (fun r => (host_R1 m outs c r).trans (h1 r _))
    (fun r j => by rw [hO3, host_W1, host_B1]) r j

theorem tail2_rows_of
    (h1 : ∀ r v, outO1 outs c (ix2 r v) = (argsOf m c).lp0 (rowS r) (rowB r) v)
    (hL4 : ∀ r, outL4 outs c (ix2 r 0) = ((Real.log (∑ j, Real.exp (R.y2 (rowS r) (rowB r) j)) : ℝ) : EReal))
    (hO5 : ∀ r j, outO5 outs c (ix2 r j)
      = (klogit (inX2 m outs c) (inW2 m outs c) (inB2 m outs c) r j - inL4 m outs c (ix2 r 0)) + inR2 m outs c (ix2 r 0))
    (r : Fin 512) (j : Fin 160000) : outO5 outs c (ix2 r j) = (argsOf m c).joint2 (rowS r) (rowB r) j :=
  tail2_region R (inX2 m outs c) (inL4 m outs c) (inR2 m outs c) (outO5 outs c) (host_X2 m outs c)
    (fun r => by rw [host_L4]; exact hL4 r) (fun r => (host_R2 m outs c r).trans (h1 r _))
    (fun r j => by rw [hO5, host_W2, host_B2]) r j

theorem tail3_rows_of
    (h1 : ∀ r v, outO1 outs c (ix2 r v) = (argsOf m c).lp0 (rowS r) (rowB r) v)
    (hL6 : ∀ r, outL6 outs c (ix2 r 0) = ((Real.log (∑ j, Real.exp (R.y3 (rowS r) (rowB r) j)) : ℝ) : EReal))
    (hO7 : ∀ r j, outO7 outs c (ix2 r j)
      = (klogit (inX3 m outs c) (inW3 m outs c) (inB3 m outs c) r j - inL6 m outs c (ix2 r 0)) + inR3 m outs c (ix2 r 0))
    (r : Fin 512) (j : Fin 67735) : outO7 outs c (ix2 r j) = (argsOf m c).joint3 (rowS r) (rowB r) j :=
  tail3_region R (inX3 m outs c) (inL6 m outs c) (inR3 m outs c) (outO7 outs c) (host_X3 m outs c)
    (fun r => by rw [host_L6]; exact hL6 r) (fun r => (host_R3 m outs c r).trans (h1 r _))
    (fun r j => by rw [hO7, host_W3, host_B3]) r j

theorem out_eq_spec_of
    (hC : (V38 m outs c main_v76 : S64x8x267735.Idx → EReal)
      = sideBySide (outO1 outs c) (outO3 outs c) (outO5 outs c) (outO7 outs c))
    (h1 : ∀ r v, outO1 outs c (ix2 r v) = (argsOf m c).lp0 (rowS r) (rowB r) v)
    (h3 : ∀ r j, outO3 outs c (ix2 r j) = (argsOf m c).joint1 (rowS r) (rowB r) j)
    (h5 : ∀ r j, outO5 outs c (ix2 r j) = (argsOf m c).joint2 (rowS r) (rowB r) j)
    (h7 : ∀ r j, outO7 outs c (ix2 r j) = (argsOf m c).joint3 (rowS r) (rowB r) j) :
    (V38 m outs c main_v76 : S64x8x267735.Idx → EReal) = (argsOf m c).out :=
  hC.trans (sideBySide_eq_out (argsOf m c) _ _ _ _ h1 h3 h5 h7)

end Assembly

section Final

open Cert.KernelIdeal Cert.KernelIdeal.Gen Cert.KernelIdeal.GenP Cert.FiniteInputs Cert.KernelIdeal.HostValue
open Idealize.ShloMosaic.TcCoe Idealize.SL.Sem
open Cert.KernelIdeal.IdealData Cert.KernelIdeal.RegionValues

variable (m : Mem) (c : Dev nD)

theorem lse0_value (R : RealOf (argsOf m c)) (r : Fin 512) :
    outL0 (outs m) c (ix2 r 0) = ((Real.log (∑ j, Real.exp (R.y0 (rowS r) (rowB r) j)) : ℝ) : EReal) := by
  show (W2 m c main_v12 : S512x1.Idx → EReal) (ix2 r 0) = _
  rw [W2_self]
  refine arr0_lse (T1 m) c R (fun r k => ?_) (fun j k => ?_) (fun j => ?_) r
  · show (V1 m c main_v5 : S512x1024.Idx → EReal) (ix2 r k) = _
    rw [V1_main_v5]; rfl
  · show (V1 m c main_v2 : S20003x1024.Idx → EReal) (ix2 j k) = _
    rw [V1_main_v2]; rfl
  · show (V1 m c main_v3 : S20003.Idx → EReal) (ix1 j) = _
    rw [V1_main_v3]; rfl

theorem lse2_value (R : RealOf (argsOf m c)) (r : Fin 512) :
    outL2 (outs m) c (ix2 r 0) = ((Real.log (∑ j, Real.exp (R.y1 (rowS r) (rowB r) j)) : ℝ) : EReal) := by
  show (W5 m c main_v16 : S512x1.Idx → EReal) (ix2 r 0) = _
  rw [W5_self]
  have e4 : W4 m c = V4 m (outs m) c := (V4_eq m c).symm
  refine arr2_lse (T4 m) c R (fun r k => ?_) (fun j k => ?_) (fun j => ?_) r
  · show (W4 m c main_v7 : S512x256.Idx → EReal) (ix2 r k) = _
    rw [e4, V4_main_v7]; rfl
  · show (W4 m c main_arg7 : S20000x256.Idx → EReal) (ix2 j k) = _
    rw [e4, V4_main_arg7]
  · show (W4 m c main_arg8 : S20000.Idx → EReal) (ix1 j) = _
    rw [e4, V4_main_arg8]

theorem lse4_value (R : RealOf (argsOf m c)) (r : Fin 512) :
    outL4 (outs m) c (ix2 r 0) = ((Real.log (∑ j, Real.exp (R.y2 (rowS r) (rowB r) j)) : ℝ) : EReal) := by
  show (W8 m c main_v19 : S512x1.Idx → EReal) (ix2 r 0) = _
  rw [W8_self]
  have e7 : W7 m c = V7 m (outs m) c := (V7_eq m c).symm
  refine arr4_lse (T7 m) c R (fun r k => ?_) (fun j k => ?_) (fun j => ?_) r
  · show (W7 m c main_v9 : S512x64.Idx → EReal) (ix2 r k) = _
    rw [e7, V7_main_v9]; rfl
  · show (W7 m c main_arg10 : S160000x64.Idx → EReal) (ix2 j k) = _
    rw [e7, V7_main_arg10]
  · show (W7 m c main_arg11 : S160000.Idx → EReal) (ix1 j) = _
    rw [e7, V7_main_arg11]

theorem lse6_value (R : RealOf (argsOf m c)) (r : Fin 512) :
    outL6 (outs m) c (ix2 r 0) = ((Real.log (∑ j, Real.exp (R.y3 (rowS r) (rowB r) j)) : ℝ) : EReal) := by
  show (W11 m c main_v22 : S512x1.Idx → EReal) (ix2 r 0) = _
  rw [W11_self]
  have e10 : W10 m c = V10 m (outs m) c := (V10_eq m c).symm
  refine arr6_lse (T10 m) c R (fun r k => ?_) (fun j k => ?_) (fun j => ?_) r
  · show (W10 m c main_v11 : S512x16.Idx → EReal) (ix2 r k) = _
    rw [e10, V10_main_v11]; rfl
  · show (W10 m c main_arg13 : S67735x16.Idx → EReal) (ix2 j k) = _
    rw [e10, V10_main_arg13]
  · show (W10 m c main_arg14 : S67735.Idx → EReal) (ix1 j) = _
    rw [e10, V10_main_arg14]

theorem out1_value (r : Fin 512) (v : Fin 20003) :
    outO1 (outs m) c (ix2 r v)
      = klogit (inX0 m (outs m) c) (inWh m (outs m) c) (inBh m (outs m) c) r v - inL0 m (outs m) c (ix2 r 0) := by
  show (W3 m c main_v13 : S512x20003.Idx → EReal) (ix2 r v) = _
  rw [W3_self]
  unfold inX0 inWh inBh inL0
  rw [V2_eq]
  exact arr1_apply (T2 m) c r v

theorem out3_value (r : Fin 512) (j : Fin 20000) :
    outO3 (outs m) c (ix2 r j)
      = (klogit (inX1 m (outs m) c) (inW1 m (outs m) c) (inB1 m (outs m) c) r j - inL2 m (outs m) c (ix2 r 0))
        + inR1 m (outs m) c (ix2 r 0) := by
  show (W7 m c main_v18 : S512x20000.Idx → EReal) (ix2 r j) = _
  rw [W7_self]
  unfold inX1 inW1 inB1 inL2 inR1
  rw [V6_eq]
  exact arr3_apply (T6 m) c r j

theorem out5_value (r : Fin 512) (j : Fin 160000) :
    outO5 (outs m) c (ix2 r j)
      = (klogit (inX2 m (outs m) c) (inW2 m (outs m) c) (inB2 m (outs m) c) r j - inL4 m (outs m) c (ix2 r 0))
        + inR2 m (outs m) c (ix2 r 0) := by
  show (W10 m c main_v21 : S512x160000.Idx → EReal) (ix2 r j) = _
  rw [W10_self]
  unfold inX2 inW2 inB2 inL4 inR2
  rw [V9_eq]
  exact arr5_apply (T9 m) c r j

theorem out7_value (r : Fin 512) (j : Fin 67735) :
    outO7 (outs m) c (ix2 r j)
      = (klogit (inX3 m (outs m) c) (inW3 m (outs m) c) (inB3 m (outs m) c) r j - inL6 m (outs m) c (ix2 r 0))
        + inR3 m (outs m) c (ix2 r 0) := by
  show (W13 m c main_v24 : S512x67735.Idx → EReal) (ix2 r j) = _
  rw [W13_self]
  unfold inX3 inW3 inB3 inL6 inR3
  rw [V12_eq]
  exact arr7_apply (T12 m) c r j

theorem head_rows (hR : RealArgs m) (r : Fin 512) (v : Fin 20003) :
    outO1 (outs m) c (ix2 r v) = (argsOf m c).lp0 (rowS r) (rowB r) v := by
  obtain ⟨R⟩ := realOf_argsOf m hR c
  exact head_rows_of m c (outs m) R (lse0_value m c R) (out1_value m c) r v

theorem tail1_rows (hR : RealArgs m) (r : Fin 512) (j : Fin 20000) :
    outO3 (outs m) c (ix2 r j) = (argsOf m c).joint1 (rowS r) (rowB r) j := by
  obtain ⟨R⟩ := realOf_argsOf m hR c
  exact tail1_rows_of m c (outs m) R (head_rows m c hR) (lse2_value m c R) (out3_value m c) r j

theorem tail2_rows (hR : RealArgs m) (r : Fin 512) (j : Fin 160000) :
    outO5 (outs m) c (ix2 r j) = (argsOf m c).joint2 (rowS r) (rowB r) j := by
  obtain ⟨R⟩ := realOf_argsOf m hR c
  exact tail2_rows_of m c (outs m) R (head_rows m c hR) (lse4_value m c R) (out5_value m c) r j

theorem tail3_rows (hR : RealArgs m) (r : Fin 512) (j : Fin 67735) :
    outO7 (outs m) c (ix2 r j) = (argsOf m c).joint3 (rowS r) (rowB r) j := by
  obtain ⟨R⟩ := realOf_argsOf m hR c
  exact tail3_rows_of m c (outs m) R (head_rows m c hR) (lse6_value m c R) (out7_value m c) r j

theorem v14_rows (hR : RealArgs m) (r : Fin 512) (v : Fin 20000) :
    (V38 m (outs m) c main_v14 : S512x20000.Idx → EReal) (ix2 r v)
      = (argsOf m c).lp0 (rowS r) (rowB r) ⟨v.val, by omega⟩ := by
  rw [V38_main_v14]
  exact head_rows m c hR r ⟨v.val, by omega⟩

theorem v18_rows (hR : RealArgs m) (r : Fin 512) (j : Fin 20000) :
    (V38 m (outs m) c main_v18 : S512x20000.Idx → EReal) (ix2 r j) = (argsOf m c).joint1 (rowS r) (rowB r) j := by
  rw [V38_main_v18]
  exact tail1_rows m c hR r j

theorem v21_rows (hR : RealArgs m) (r : Fin 512) (j : Fin 160000) :
    (V38 m (outs m) c main_v21 : S512x160000.Idx → EReal) (ix2 r j) = (argsOf m c).joint2 (rowS r) (rowB r) j := by
  rw [V38_main_v21]
  exact tail2_rows m c hR r j

theorem v24_rows (hR : RealArgs m) (r : Fin 512) (j : Fin 67735) :
    (V38 m (outs m) c main_v24 : S512x67735.Idx → EReal) (ix2 r j) = (argsOf m c).joint3 (rowS r) (rowB r) j := by
  rw [V38_main_v24]
  exact tail3_rows m c hR r j

end Final

section Result

open Cert.KernelIdeal Cert.KernelIdeal.Gen Cert.KernelIdeal.GenP Cert.FiniteInputs
open Idealize.ShloMosaic.TcCoe Idealize.SL.Sem

theorem out_eq_spec (m : Mem) (hR : RealArgs m) (c : Dev nD) :
    (V38 m (IdealData.outs m) c main_v76 : (⟨3, ![64, 8, 267735]⟩ : Shape).Idx → EReal) = (argsOf m c).out :=
  out_eq_spec_of m c (IdealData.outs m) (HostValue.V38_main_v76 m (IdealData.outs m) c)
    (head_rows m c hR) (tail1_rows m c hR) (tail2_rows m c hR) (tail3_rows m c hR)

end Result

end Cert.KernelIdeal.OutValue

end
-- ==== Proof.KernelLossValue.lean ====
import proofs.«138250_j73134703116926_1_alg».proof.Proof.KernelIdealRegions
import proofs.«138250_j73134703116926_1_alg».proof.Proof.Spec
import proofs.«138250_j73134703116926_1_alg».proof.Proof.FiniteInputs
import proofs.«138250_j73134703116926_1_alg».proof.Proof.OutValueSpec
import Idealize.ShloMosaic.Lib.ValueIdx
import Idealize.ShloMosaic.Lib.WordArith

noncomputable section

open scoped BigOperators

namespace Cert.KernelIdeal.LossValue

open Idealize.ShloMosaic Idealize.ShloMosaic.ValueIdx Idealize.ShloMosaic.WordArith
open AdaptiveSpec
open Cert.KernelIdeal.OutValue (flatRow rowS rowB rowS_flatRow rowB_flatRow flatRow_rowS_rowB)

theorem clip_range (hi t : BitVec 32) (hhi : 0 ≤ hi.toInt) :
    0 ≤ (clip hi t).toInt ∧ (clip hi t).toInt ≤ hi.toInt := by
  have hM : (IntOp.maxsi 0#32 t).toInt = max 0 t.toInt := toInt_maxsi_zero t
  have hM0 : 0 ≤ (IntOp.maxsi 0#32 t).toInt := by rw [hM]; exact le_max_left _ _
  unfold clip IntOp.minsi
  by_cases h : hi.slt (IntOp.maxsi 0#32 t) = true
  · rw [if_pos h]; exact ⟨hhi, le_refl _⟩
  · rw [if_neg h]
    rw [BitVec.slt_iff_toInt_lt] at h
    exact ⟨hM0, by omega⟩

theorem wrap_of_nonneg (n w : BitVec 32) (h : 0 ≤ w.toInt) : wrap n w = w := by
  have h0 : (0#32 : BitVec 32).toInt = 0 := by decide
  have hs : w.slt 0#32 = false := by
    rw [Bool.eq_false_iff]
    intro hs
    rw [BitVec.slt_iff_toInt_lt, h0] at hs
    omega
  show Scalar.select (BitVec.ofBool (w.slt 0#32)) (IntOp.addi w n) w = w
  rw [hs]
  exact select_zero _ _

theorem inBounds_of_range (hi w : BitVec 32) (h0 : 0 ≤ w.toInt) (h1 : w.toInt ≤ hi.toInt) : inBounds hi w = 1#1 := by
  have h0' : (0#32 : BitVec 32).toInt = 0 := by decide
  have ha : (0#32 : BitVec 32).sle w = true := BitVec.sle_iff_toInt_le.mpr (by rw [h0']; exact h0)
  have hb : w.sle hi = true := BitVec.sle_iff_toInt_le.mpr h1
  show IntOp.andi (BitVec.ofBool ((0#32 : BitVec 32).sle w)) (BitVec.ofBool (w.sle hi)) = 1#1
  rw [ha, hb]
  rfl

theorem take_of_range {n : Nat} (hn : 0 < n) (row : Fin n → EReal) (hi w : BitVec 32) (h0 : 0 ≤ w.toInt)
    (h1 : w.toInt ≤ hi.toInt) (hw : w.toInt.toNat < n) : take hn row hi w = row ⟨w.toInt.toNat, hw⟩ := by
  unfold take
  rw [inBounds_of_range hi w h0 h1, select_one]
  exact congrArg row (Fin.ext (Nat.min_eq_left (by omega)))

theorem take_wrap_clip_congr {n n' : Nat} (hn : 0 < n) (hn' : 0 < n') (row : Fin n → EReal) (row' : Fin n' → EReal)
    (hi hi' nn nn' cb t : BitVec 32) (hcb : 0 ≤ cb.toInt) (hhi : cb.toInt ≤ hi.toInt) (hhi' : cb.toInt ≤ hi'.toInt)
    (hcn : cb.toInt.toNat < n) (hcn' : cb.toInt.toNat < n')
    (hrow : ∀ (k : Nat) (h : k < n) (h' : k < n'), k ≤ cb.toInt.toNat → row ⟨k, h⟩ = row' ⟨k, h'⟩) :
    take hn row hi (wrap nn (clip cb t)) = take hn' row' hi' (wrap nn' (clip cb t)) := by
  obtain ⟨hc0, hc1⟩ := clip_range cb t hcb
  have hk : (clip cb t).toInt.toNat ≤ cb.toInt.toNat := by omega
  rw [wrap_of_nonneg nn _ hc0, wrap_of_nonneg nn' _ hc0,
    take_of_range hn row hi _ hc0 (by omega) (by omega), take_of_range hn' row' hi' _ hc0 (by omega) (by omega)]
  exact hrow _ _ _ hk

def kSel0 (t : BitVec 32) (r0 : Fin 20000 → EReal) : EReal :=
  Scalar.select (inCluster 0#32 20000#32 t)
    (take (by decide) r0 19999#32 (wrap 20000#32 (clip 19999#32 t)))
    (Ideal.ofBits .f32 0x00000000#32)

def kSel1 (t : BitVec 32) (r0 : Fin 20000 → EReal) (r1 : Fin 20000 → EReal) : EReal :=
  Scalar.select (inCluster 20000#32 40000#32 t)
    (take (by decide) r1 19999#32 (wrap 20000#32 (clip 19999#32 (IntOp.subi t 20000#32))))
    (kSel0 t r0)

def kSel2 (t : BitVec 32) (r0 : Fin 20000 → EReal) (r1 : Fin 20000 → EReal) (r2 : Fin 160000 → EReal) : EReal :=
  Scalar.select (inCluster 40000#32 200000#32 t)
    (take (by decide) r2 159999#32 (wrap 160000#32 (clip 159999#32 (IntOp.subi t 40000#32))))
    (kSel1 t r0 r1)

def kSel3 (t : BitVec 32) (r0 : Fin 20000 → EReal) (r1 : Fin 20000 → EReal) (r2 : Fin 160000 → EReal)
    (r3 : Fin 67735 → EReal) : EReal :=
  Scalar.select (inCluster 200000#32 267735#32 t)
    (take (by decide) r3 67734#32 (wrap 67735#32 (clip 67734#32 (IntOp.subi t 200000#32))))
    (kSel2 t r0 r1 r2)

def kSel (tgt : (⟨1, ![512]⟩ : Shape).Idx → BitVec 32) (o0 : (⟨2, ![512, 20000]⟩ : Shape).Idx → EReal)
    (o1 : (⟨2, ![512, 20000]⟩ : Shape).Idx → EReal) (o2 : (⟨2, ![512, 160000]⟩ : Shape).Idx → EReal)
    (o3 : (⟨2, ![512, 67735]⟩ : Shape).Idx → EReal) (i : (⟨1, ![512]⟩ : Shape).Idx) : EReal :=
  kSel3 (tgt i) (fun v => o0 (ix2 (i 0) v)) (fun v => o1 (ix2 (i 0) v)) (fun v => o2 (ix2 (i 0) v))
    (fun v => o3 (ix2 (i 0) v))

def kLossVal (tgt : (⟨1, ![512]⟩ : Shape).Idx → BitVec 32) (o0 : (⟨2, ![512, 20000]⟩ : Shape).Idx → EReal)
    (o1 : (⟨2, ![512, 20000]⟩ : Shape).Idx → EReal) (o2 : (⟨2, ![512, 160000]⟩ : Shape).Idx → EReal)
    (o3 : (⟨2, ![512, 67735]⟩ : Shape).Idx → EReal) : EReal :=
  Ideal.div (Ideal.ofBits .f32 0x00000000#32 + ∑ i : (⟨1, ![512]⟩ : Shape).Idx, -(kSel tgt o0 o1 o2 o3 i))
    (Ideal.ofBits .f32 0x44000000#32)

theorem sel0_eq (A : Args) (s : Fin 64) (b : Fin 8) (r0 : Fin 20000 → EReal)
    (h0 : ∀ v : Fin 20000, A.lp0 s b ⟨v.val, by omega⟩ = r0 v) : A.sel0 s b = kSel0 (A.tgt s b) r0 := by
  unfold Args.sel0 kSel0
  refine congrArg (fun x => Scalar.select (inCluster 0#32 20000#32 (A.tgt s b)) x (Ideal.ofBits .f32 0x00000000#32)) ?_
  exact take_wrap_clip_congr (by decide) (by decide) (A.lp0 s b) r0 20002#32 19999#32 20003#32 20000#32 19999#32
    (A.tgt s b) (by decide) (by decide) (by decide) (by decide) (by decide) (fun k h h' _ => h0 ⟨k, h'⟩)

theorem sel3_eq (A : Args) (s : Fin 64) (b : Fin 8) (r0 : Fin 20000 → EReal) (r1 : Fin 20000 → EReal)
    (r2 : Fin 160000 → EReal) (r3 : Fin 67735 → EReal)
    (h0 : ∀ v : Fin 20000, A.lp0 s b ⟨v.val, by omega⟩ = r0 v) (h1 : ∀ v, A.joint1 s b v = r1 v)
    (h2 : ∀ v, A.joint2 s b v = r2 v) (h3 : ∀ v, A.joint3 s b v = r3 v) :
    A.sel3 s b = kSel3 (A.tgt s b) r0 r1 r2 r3 := by
  have e1 : A.joint1 s b = r1 := funext h1
  have e2 : A.joint2 s b = r2 := funext h2
  have e3 : A.joint3 s b = r3 := funext h3
  unfold Args.sel3 Args.sel2 Args.sel1 kSel3 kSel2 kSel1
  rw [e1, e2, e3, sel0_eq A s b r0 h0]

def tokEquiv : (⟨1, ![512]⟩ : Shape).Idx ≃ (⟨2, ![64, 8]⟩ : Shape).Idx where
  toFun i := ix2 (rowS (i 0)) (rowB (i 0))
  invFun j := ix1 (flatRow (j 0) (j 1))
  left_inv i := by
    show ix1 (flatRow (rowS (i 0)) (rowB (i 0))) = i
    exact (congrArg ix1 (flatRow_rowS_rowB (i 0))).trans (eq_ix1 i).symm
  right_inv j := by
    show ix2 (rowS (flatRow (j 0) (j 1))) (rowB (flatRow (j 0) (j 1))) = j
    exact (congrArg₂ ix2 (rowS_flatRow (j 0) (j 1)) (rowB_flatRow (j 0) (j 1))).trans (eq_ix2 j).symm

theorem sum_flat {M : Type*} [AddCommMonoid M] (f : (⟨2, ![64, 8]⟩ : Shape).Idx → M) :
    ∑ i : (⟨1, ![512]⟩ : Shape).Idx, f (ix2 (rowS (i 0)) (rowB (i 0))) = ∑ j : (⟨2, ![64, 8]⟩ : Shape).Idx, f j :=
  Equiv.sum_comp tokEquiv f

-- The flat tokens are the token pairs, so both losses sum the same selected values.
theorem kLossVal_eq (A : Args) (tgt : (⟨1, ![512]⟩ : Shape).Idx → BitVec 32)
    (o0 : (⟨2, ![512, 20000]⟩ : Shape).Idx → EReal) (o1 : (⟨2, ![512, 20000]⟩ : Shape).Idx → EReal)
    (o2 : (⟨2, ![512, 160000]⟩ : Shape).Idx → EReal) (o3 : (⟨2, ![512, 67735]⟩ : Shape).Idx → EReal)
    (ht : ∀ r : Fin 512, tgt (ix1 r) = A.tgt (rowS r) (rowB r))
    (h0 : ∀ (r : Fin 512) (v : Fin 20000), o0 (ix2 r v) = A.lp0 (rowS r) (rowB r) ⟨v.val, by omega⟩)
    (h1 : ∀ (r : Fin 512) v, o1 (ix2 r v) = A.joint1 (rowS r) (rowB r) v)
    (h2 : ∀ (r : Fin 512) v, o2 (ix2 r v) = A.joint2 (rowS r) (rowB r) v)
    (h3 : ∀ (r : Fin 512) v, o3 (ix2 r v) = A.joint3 (rowS r) (rowB r) v) :
    kLossVal tgt o0 o1 o2 o3 = A.lossVal := by
  unfold kLossVal Args.lossVal
  refine congrArg (fun x => Ideal.div (Ideal.ofBits .f32 0x00000000#32 + x) (Ideal.ofBits .f32 0x44000000#32)) ?_
  rw [← sum_flat (fun j => -(A.sel3 (j 0) (j 1)))]
  refine Finset.sum_congr rfl fun i _ => ?_
  show -(kSel tgt o0 o1 o2 o3 i) = -(A.sel3 (rowS (i 0)) (rowB (i 0)))
  refine congrArg Neg.neg ?_
  have htg : A.tgt (rowS (i 0)) (rowB (i 0)) = tgt i := (ht _).symm.trans (congrArg tgt (eq_ix1 i).symm)
  rw [sel3_eq A (rowS (i 0)) (rowB (i 0)) (fun v => o0 (ix2 (i 0) v)) (fun v => o1 (ix2 (i 0) v))
    (fun v => o2 (ix2 (i 0) v)) (fun v => o3 (ix2 (i 0) v))
    (fun v => (h0 _ v).symm) (fun v => (h1 _ v).symm) (fun v => (h2 _ v).symm) (fun v => (h3 _ v).symm), htg]
  rfl

end Cert.KernelIdeal.LossValue

end
-- ==== Proof.IdealHostReads.lean ====
import Idealize.ShloMosaic.Lib.Pipeline.Value
import Idealize.ShloMosaic.Lib.ValueIdx
import Idealize.ShloMosaic.PureOps.Ideal.Laws
import Idealize.ShloMosaic.Lib.IdealHost
import proofs.«138250_j73134703116926_1_alg».proof.Proof.Spec

noncomputable section

open scoped BigOperators

namespace Cert.KernelIdeal.HostReads

open Idealize.ShloMosaic Idealize.ShloMosaic.ValueIdx

section TakeRows
variable {α : Type}

abbrev rowsDims (n : Nat)
    (wf : GatherDims.WF ⟨2, ![512, n]⟩ ⟨3, ![512, 1, 1]⟩ ⟨2, ![512, 1]⟩ [] [1] [0] [1] [0] 2 ![1, 1]) :
    GatherDims ⟨2, ![512, n]⟩ ⟨3, ![512, 1, 1]⟩ ⟨2, ![512, 1]⟩ where
  offsetDims := []
  collapsedSliceDims := [1]
  operandBatchingDims := [0]
  startIndicesBatchingDims := [0]
  startIndexMap := [1]
  indexVectorDim := 2
  sliceSizes := ![1, 1]
  wf := wf

theorem rows_coord0 {n w : Nat}
    (wf : GatherDims.WF ⟨2, ![512, n]⟩ ⟨3, ![512, 1, 1]⟩ ⟨2, ![512, 1]⟩ [] [1] [0] [1] [0] 2 ![1, 1])
    (idx : IVec ⟨3, ![512, 1, 1]⟩ w) (j : (⟨2, ![512, 1]⟩ : Shape).Idx) :
    (rowsDims n wf).start j idx 0 + (rowsDims n wf).batchCoord j 0 + (rowsDims n wf).offCoord j 0 = (j 0).val := by
  have hb : (0 : Fin 2) ∈ (rowsDims n wf).operandBatchingDims := List.mem_cons_self
  rw [GatherDims.start_batching _ j idx 0 hb,
    GatherDims.offCoord_eq_zero _ j 0 (fun h => ((GatherDims.mem_sKept _ _).mp h).2 hb)]
  simp only [Nat.zero_add, Nat.add_zero]
  unfold GatherDims.batchCoord
  rw [dif_pos hb]
  rfl

theorem rows_coord1 {n w : Nat}
    (wf : GatherDims.WF ⟨2, ![512, n]⟩ ⟨3, ![512, 1, 1]⟩ ⟨2, ![512, 1]⟩ [] [1] [0] [1] [0] 2 ![1, 1])
    (idx : IVec ⟨3, ![512, 1, 1]⟩ w) (i : Fin 512) :
    (rowsDims n wf).start (ix2 i (0 : Fin 1)) idx 1 + (rowsDims n wf).batchCoord (ix2 i (0 : Fin 1)) 1
      + (rowsDims n wf).offCoord (ix2 i (0 : Fin 1)) 1 = min (idx (ix3 i (0 : Fin 1) (0 : Fin 1))).toInt.toNat (n - 1) := by
  have hc : (1 : Fin 2) ∈ (rowsDims n wf).collapsedSliceDims := List.mem_singleton.mpr rfl
  have hnb : (1 : Fin 2) ∉ (rowsDims n wf).operandBatchingDims := by
    show (1 : Fin 2) ∉ [(0 : Fin 2)]
    decide
  rw [GatherDims.batchCoord_eq_zero _ _ _ hnb,
    GatherDims.offCoord_eq_zero _ _ _ (fun h => ((GatherDims.mem_sKept _ _).mp h).1 hc)]
  simp only [Nat.add_zero]
  unfold GatherDims.start
  rw [dif_pos (show (1 : Fin 2) ∈ (rowsDims n wf).startIndexMap from List.mem_singleton.mpr rfl)]
  have hsi : (rowsDims n wf).siIdx (ix2 i (0 : Fin 1)) ⟨List.idxOf (1 : Fin 2) (rowsDims n wf).startIndexMap,
      List.idxOf_lt_length_iff.2 (List.mem_singleton.mpr rfl)⟩ = ix3 i (0 : Fin 1) (0 : Fin 1) := by
    funext c; refine Fin.ext ?_
    match c with
    | ⟨0, _⟩ => rfl
    | ⟨1, _⟩ => rfl
    | ⟨2, _⟩ => rfl
  rw [hsi]
  rfl

theorem gather_rows_apply {n w : Nat} (hn : 0 < n)
    (wf : GatherDims.WF ⟨2, ![512, n]⟩ ⟨3, ![512, 1, 1]⟩ ⟨2, ![512, 1]⟩ [] [1] [0] [1] [0] 2 ![1, 1])
    (x : (⟨2, ![512, n]⟩ : Shape).Idx → α) (idx : IVec ⟨3, ![512, 1, 1]⟩ w) (i : Fin 512) :
    Host.gather (rowsDims n wf) x idx (ix2 i (0 : Fin 1))
      = x (ix2 i ⟨min (idx (ix3 i (0 : Fin 1) (0 : Fin 1))).toInt.toNat (n - 1), by omega⟩) := by
  unfold Host.gather
  congr 1
  funext a
  refine Fin.ext ?_
  show (rowsDims n wf).start (ix2 i (0 : Fin 1)) idx a + (rowsDims n wf).batchCoord (ix2 i (0 : Fin 1)) a
    + (rowsDims n wf).offCoord (ix2 i (0 : Fin 1)) a = _
  match a with
  | ⟨0, _⟩ => exact rows_coord0 wf idx _
  | ⟨1, _⟩ => exact rows_coord1 wf idx i

end TakeRows

theorem reduceAnd_unit_apply (x : IVec ⟨3, ![512, 1, 1]⟩ 1) (init : IVec ⟨0, ![]⟩ 1)
    (h' : (⟨3, ![512, 1, 1]⟩ : Shape).ReducesTo [2] ⟨2, ![512, 1]⟩) (h : (⟨3, ![512, 1, 1]⟩ : Shape).Reduces [2] ⟨2, ![512, 1]⟩)
    (hu : 0 < (⟨0, ![]⟩ : Shape).numel) (i : Fin 512) :
    Host.reduce IntOp.andi x init h' hu (ix2 i (0 : Fin 1))
      = IntOp.andi (x (ix3 i (0 : Fin 1) (0 : Fin 1))) (init (Shape.Idx.first hu)) := by
  rw [Host.reduce_eq_fold_single IntOp.andi x init h' h hu]
  have hu1 : (Finset.univ : Finset (Fin ((⟨3, ![512, 1, 1]⟩ : Shape).size 2))) = {⟨0, Nat.one_pos⟩} := rfl
  rw [hu1, Finset.fold_singleton]
  have hx : h.lift (ix2 i (0 : Fin 1)) ⟨0, Nat.one_pos⟩ = ix3 i (0 : Fin 1) (0 : Fin 1) := by
    funext c; apply Fin.ext; fin_cases c <;> rfl
  show IntOp.andi (x (h.lift (ix2 i (0 : Fin 1)) ⟨0, Nat.one_pos⟩)) _ = _
  rw [hx]

theorem andi_one (c : BitVec 1) : IntOp.andi c 1#1 = c := by
  revert c; decide

theorem reduceAdd_tokens_apply {axes : List (Fin (⟨1, ![512]⟩ : Shape).rank)} (x : FVec Ideal ⟨1, ![512]⟩ .f32)
    (init : FVec Ideal ⟨0, ![]⟩ .f32) (h : (⟨1, ![512]⟩ : Shape).ReducesTo axes ⟨0, ![]⟩)
    (hu : 0 < (⟨0, ![]⟩ : Shape).numel) :
    Host.reduceAdd x init h hu ix0 = init ix0 + ∑ i : (⟨1, ![512]⟩ : Shape).Idx, x i := by
  rw [hostReduceAdd_apply, Ideal.hostReduceAdd_total h (fun b => b.elim0) x _ ix0, eq_ix0 (Shape.Idx.first hu)]

end Cert.KernelIdeal.HostReads

end
-- ==== Proof.IdealHostLoss.lean ====
import proofs.«138250_j73134703116926_1_alg».proof.Proof.KernelIdealRegions
import proofs.«138250_j73134703116926_1_alg».proof.Proof.Spec
import Idealize.ShloMosaic.Lib.Pipeline.Value
import Idealize.ShloMosaic.Lib.ValueIdx
import Idealize.ShloMosaic.Lib.IdealHost
import Idealize.ShloMosaic.PureOps.Ideal.Laws
import proofs.«138250_j73134703116926_1_alg».proof.Proof.KernelLossValue
import proofs.«138250_j73134703116926_1_alg».proof.Proof.IdealHost
import proofs.«138250_j73134703116926_1_alg».proof.Proof.IdealHostReads

set_option maxRecDepth 1656

noncomputable section

namespace Cert.KernelIdeal.HostValue

open Cert.KernelIdeal Cert.KernelIdeal.Gen Cert.KernelIdeal.GenP
open Idealize.ShloMosaic Idealize.ShloMosaic.TcCoe Idealize.SL.Sem Idealize.ShloMosaic.StableHlo
open Idealize.ShloMosaic.ValueIdx
open scoped BigOperators
open Cert.KernelIdeal.LossValue (kSel0 kSel1 kSel2 kSel3 kSel kLossVal)

def bc512 (x : IVec S_ 32) : IVec S512 32 := broadcastInDim S512 ![] bcast_S_S512 x

def maskV (lo hi : BitVec 32) (t : IVec S512 32) : IVec S512 1 :=
  andi (cmpi .sge t (bc512 (constantI S_ 32 lo))) (cmpi .slt t (bc512 (constantI S_ 32 hi)))

def shiftV (s : BitVec 32) (t : IVec S512 32) : IVec S512 32 := subi t (bc512 (constantI S_ 32 s))

def clipV (lo hi : IVec S_ 32) (t : IVec S512 32) : IVec S512 32 := minsi (bc512 hi) (maxsi (bc512 lo) t)

def colV (t : IVec S512 32) : IVec S512x1 32 := broadcastInDim S512x1 ![0] bcast_S512_S512x1_0 t

def wrap3 (n : BitVec 32) (idx : IVec S512x1 32) : IVec S512x1x1 32 :=
  shapeCast S512x1x1
    (select (cmpi .slt idx (broadcastInDim S512x1 ![] bcast_S_S512x1 (constantI S_ 32 0#32)))
      (addi idx (broadcastInDim S512x1 ![] bcast_S_S512x1 (constantI S_ 32 n))) idx)
    shapeCasts_S512x1_S512x1x1

def takeV {N : Nat} (D : GatherDims ⟨2, ![512, N]⟩ S512x1x1 S512x1) (n hi : BitVec 32)
    (x : (⟨2, ![512, N]⟩ : Shape).Idx → EReal) (idx : IVec S512x1 32) : S512x1.Idx → EReal :=
  select
    (Host.reduce IntOp.andi
      (andi (cmpi .sge (wrap3 n idx) (broadcastInDim S512x1x1 ![] bcast_S_S512x1x1 (constantI S_ 32 0#32)))
        (cmpi .sle (wrap3 n idx) (broadcastInDim S512x1x1 ![0, 1, 2] bcast_S1x1x1_S512x1x1_0_1_2
          (broadcastInDim S1x1x1 ![2] bcast_S1_S1x1x1_2 (constantI S1 32 hi)))))
      (constantI S_ 1 1#1) reducesTo_S512x1x1_S512x1_d2 h_S_)
    (Host.gather D x (wrap3 n idx))
    (broadcastInDim S512x1 ![] bcast_S_S512x1 (constant (F := Ideal) S_ .f32 0x7FC00000#32))

def pickV {N : Nat} (D : GatherDims ⟨2, ![512, N]⟩ S512x1x1 S512x1) (n hi : BitVec 32)
    (o : (⟨2, ![512, N]⟩ : Shape).Idx → EReal) (tt : IVec S512 32) : S512.Idx → EReal :=
  shapeCast S512 (takeV D n hi o (colV (clipV (constantI S_ 32 0#32) (constantI S_ 32 hi) tt))) shapeCasts_S512x1_S512

def zerosV : S512.Idx → EReal := broadcastInDim S512 ![] bcast_S_S512 (constant (F := Ideal) S_ .f32 0x00000000#32)

def lossV (sel : S512.Idx → EReal) : S_.Idx → EReal :=
  Host.divf (F := Ideal) (φ := .f32)
    (Host.reduceAdd (F := Ideal) (φ := .f32) (Host.negf (F := Ideal) (φ := .f32) sel) (constant (F := Ideal) S_ .f32 0x00000000#32)
      reducesTo_S512_S_d0 h_S_)
    (constant (F := Ideal) S_ .f32 0x44000000#32)

section Raw
variable (W : Valuation τ sig (Elt Ideal))

theorem mask0_raw : (StableHlo.after hostOps8 W main_v30 : IVec S512 1) = maskV 0#32 20000#32 (W main_v1) := by
  dsimp only [hostOps8]; after_results <;> rfl
theorem zeros_raw : (StableHlo.after hostOps8 W main_v25 : S512.Idx → EReal) = zerosV := by
  dsimp only [hostOps8]; after_results <;> rfl
theorem lo0_raw : (StableHlo.after hostOps8 W main_c_1 : IVec S_ 32) = constantI S_ 32 0#32 := by
  dsimp only [hostOps8]; after_results <;> rfl
theorem hi0_raw : (StableHlo.after hostOps8 W main_c_2 : IVec S_ 32) = constantI S_ 32 19999#32 := by
  dsimp only [hostOps8]; after_results <;> rfl
theorem clip0_raw : (StableHlo.after hostOps8_1 W main_v31 : IVec S512 32) = clipV (W main_c_1) (W main_c_2) (W main_v1) := by
  dsimp only [hostOps8_1]; after_results <;> rfl
theorem col0_raw : (StableHlo.after hostOps8_2 W main_v32 : IVec S512x1 32) = colV (W main_v31) := by
  dsimp only [hostOps8_2]; after_results <;> rfl
set_option maxHeartbeats 1000000 in
theorem take0_raw : (StableHlo.after hostOps8_3 W main_v33 : S512x1.Idx → EReal)
    = takeV gather_S512x20000_S512x1x1_S512x1_n_1_0_0_1_2_11 20000#32 19999#32 (W main_v14) (W main_v32) := by
  dsimp only [hostOps8_3]; after_results_simp <;> rfl
theorem resh0_raw : (StableHlo.after hostOps8_4 W main_v34 : S512.Idx → EReal) = shapeCast S512 (W main_v33) shapeCasts_S512x1_S512 := by
  dsimp only [hostOps8_4]; after_results <;> rfl
theorem where0_raw : (StableHlo.after hostOps8_5 W main_v35 : S512.Idx → EReal) = select (W main_v30) (W main_v34) (W main_v25) := by
  dsimp only [hostOps8_5]; after_results <;> rfl

theorem mask1_raw : (StableHlo.after hostOps8_6 W main_v40 : IVec S512 1) = maskV 20000#32 40000#32 (W main_v1) := by
  dsimp only [hostOps8_6]; after_results <;> rfl
theorem shift1_raw : (StableHlo.after hostOps8_6 W main_v42 : IVec S512 32) = shiftV 20000#32 (W main_v1) := by
  dsimp only [hostOps8_6]; after_results <;> rfl
theorem lo1_raw : (StableHlo.after hostOps8_6 W main_c_6 : IVec S_ 32) = constantI S_ 32 0#32 := by
  dsimp only [hostOps8_6]; after_results <;> rfl
theorem hi1_raw : (StableHlo.after hostOps8_6 W main_c_7 : IVec S_ 32) = constantI S_ 32 19999#32 := by
  dsimp only [hostOps8_6]; after_results <;> rfl
theorem clip1_raw : (StableHlo.after hostOps8_7 W main_v43 : IVec S512 32) = clipV (W main_c_6) (W main_c_7) (W main_v42) := by
  dsimp only [hostOps8_7]; after_results <;> rfl
theorem col1_raw : (StableHlo.after hostOps8_8 W main_v44 : IVec S512x1 32) = colV (W main_v43) := by
  dsimp only [hostOps8_8]; after_results <;> rfl
set_option maxHeartbeats 1000000 in
theorem take1_raw : (StableHlo.after hostOps8_9 W main_v45 : S512x1.Idx → EReal)
    = takeV gather_S512x20000_S512x1x1_S512x1_n_1_0_0_1_2_11 20000#32 19999#32 (W main_v18) (W main_v44) := by
  dsimp only [hostOps8_9]; after_results_simp <;> rfl
theorem resh1_raw : (StableHlo.after hostOps8_10 W main_v46 : S512.Idx → EReal) = shapeCast S512 (W main_v45) shapeCasts_S512x1_S512 := by
  dsimp only [hostOps8_10]; after_results <;> rfl
theorem where1_raw : (StableHlo.after hostOps8_11 W main_v47 : S512.Idx → EReal) = select (W main_v40) (W main_v46) (W main_v35) := by
  dsimp only [hostOps8_11]; after_results <;> rfl

theorem mask2_raw : (StableHlo.after hostOps8_12 W main_v52 : IVec S512 1) = maskV 40000#32 200000#32 (W main_v1) := by
  dsimp only [hostOps8_12]; after_results <;> rfl
theorem shift2_raw : (StableHlo.after hostOps8_12 W main_v54 : IVec S512 32) = shiftV 40000#32 (W main_v1) := by
  dsimp only [hostOps8_12]; after_results <;> rfl
theorem lo2_raw : (StableHlo.after hostOps8_12 W main_c_11 : IVec S_ 32) = constantI S_ 32 0#32 := by
  dsimp only [hostOps8_12]; after_results <;> rfl
theorem hi2_raw : (StableHlo.after hostOps8_12 W main_c_12 : IVec S_ 32) = constantI S_ 32 159999#32 := by
  dsimp only [hostOps8_12]; after_results <;> rfl
theorem clip2_raw : (StableHlo.after hostOps8_13 W main_v55 : IVec S512 32) = clipV (W main_c_11) (W main_c_12) (W main_v54) := by
  dsimp only [hostOps8_13]; after_results <;> rfl
theorem col2_raw : (StableHlo.after hostOps8_14 W main_v56 : IVec S512x1 32) = colV (W main_v55) := by
  dsimp only [hostOps8_14]; after_results <;> rfl
set_option maxHeartbeats 1000000 in
theorem take2_raw : (StableHlo.after hostOps8_15 W main_v57 : S512x1.Idx → EReal)
    = takeV gather_S512x160000_S512x1x1_S512x1_n_1_0_0_1_2_11 160000#32 159999#32 (W main_v21) (W main_v56) := by
  dsimp only [hostOps8_15]; after_results_simp <;> rfl
theorem resh2_raw : (StableHlo.after hostOps8_16 W main_v58 : S512.Idx → EReal) = shapeCast S512 (W main_v57) shapeCasts_S512x1_S512 := by
  dsimp only [hostOps8_16]; after_results <;> rfl
theorem where2_raw : (StableHlo.after hostOps8_17 W main_v59 : S512.Idx → EReal) = select (W main_v52) (W main_v58) (W main_v47) := by
  dsimp only [hostOps8_17]; after_results <;> rfl

theorem mask3_raw : (StableHlo.after hostOps8_18 W main_v64 : IVec S512 1) = maskV 200000#32 267735#32 (W main_v1) := by
  dsimp only [hostOps8_18]; after_results <;> rfl
theorem shift3_raw : (StableHlo.after hostOps8_18 W main_v66 : IVec S512 32) = shiftV 200000#32 (W main_v1) := by
  dsimp only [hostOps8_18]; after_results <;> rfl
theorem lo3_raw : (StableHlo.after hostOps8_18 W main_c_16 : IVec S_ 32) = constantI S_ 32 0#32 := by
  dsimp only [hostOps8_18]; after_results <;> rfl
theorem hi3_raw : (StableHlo.after hostOps8_18 W main_c_17 : IVec S_ 32) = constantI S_ 32 67734#32 := by
  dsimp only [hostOps8_18]; after_results <;> rfl
theorem clip3_raw : (StableHlo.after hostOps8_19 W main_v67 : IVec S512 32) = clipV (W main_c_16) (W main_c_17) (W main_v66) := by
  dsimp only [hostOps8_19]; after_results <;> rfl
theorem col3_raw : (StableHlo.after hostOps8_20 W main_v68 : IVec S512x1 32) = colV (W main_v67) := by
  dsimp only [hostOps8_20]; after_results <;> rfl
set_option maxHeartbeats 1000000 in
theorem take3_raw : (StableHlo.after hostOps8_21 W main_v69 : S512x1.Idx → EReal)
    = takeV gather_S512x67735_S512x1x1_S512x1_n_1_0_0_1_2_11 67735#32 67734#32 (W main_v24) (W main_v68) := by
  dsimp only [hostOps8_21]; after_results_simp <;> rfl
theorem resh3_raw : (StableHlo.after hostOps8_22 W main_v70 : S512.Idx → EReal) = shapeCast S512 (W main_v69) shapeCasts_S512x1_S512 := by
  dsimp only [hostOps8_22]; after_results <;> rfl
theorem where3_raw : (StableHlo.after hostOps8_23 W main_v71 : S512.Idx → EReal) = select (W main_v64) (W main_v70) (W main_v59) := by
  dsimp only [hostOps8_23]; after_results <;> rfl

theorem loss_raw : (StableHlo.after hostOps8_24 W main_v74 : S_.Idx → EReal) = lossV (W main_v71) := by
  dsimp only [hostOps8_24]; after_results <;> rfl

end Raw

theorem colV_apply (t : IVec S512 32) (j : S512x1.Idx) : colV t j = t (ix1 (j 0)) :=
  broadcastInDim_apply ![0] bcast_S512_S512x1_0 t j (ix1 (j 0)) (fun a => match a with
    | ⟨0, _⟩ => by show (j 0).val = if (512 : Nat) = 1 then 0 else (j 0).val; rw [if_neg (by decide)])

theorem wrap3_apply (n : BitVec 32) (idx : IVec S512x1 32) (r : Fin 512) :
    wrap3 n idx (ix3 r (0 : Fin 1) (0 : Fin 1)) = AdaptiveSpec.wrap n (idx (ix2 r (0 : Fin 1))) := by
  unfold wrap3
  refine (shapeCast_apply _ shapeCasts_S512x1_S512x1x1 (ix3 r (0 : Fin 1) (0 : Fin 1)) (ix2 r (0 : Fin 1)) ?_).trans rfl
  rewrite [Shape.rowMajor_val_two, Shape.rowMajor_val_three]
  show r.val * 1 + 0 = (r.val * 1 + 0) * 1 + 0
  omega

theorem takeV_apply {N : Nat} (hN : 0 < N)
    (wf : GatherDims.WF ⟨2, ![512, N]⟩ ⟨3, ![512, 1, 1]⟩ ⟨2, ![512, 1]⟩ [] [1] [0] [1] [0] 2 ![1, 1])
    (n hi : BitVec 32) (x : (⟨2, ![512, N]⟩ : Shape).Idx → EReal) (idx : IVec S512x1 32) (r : Fin 512) :
    takeV (HostReads.rowsDims N wf) n hi x idx (ix2 r (0 : Fin 1))
      = AdaptiveSpec.take hN (fun v => x (ix2 r v)) hi (AdaptiveSpec.wrap n (idx (ix2 r (0 : Fin 1)))) := by
  unfold takeV
  show Scalar.select (Host.reduce IntOp.andi _ _ reducesTo_S512x1x1_S512x1_d2 h_S_ (ix2 r (0 : Fin 1)))
    (Host.gather (HostReads.rowsDims N wf) x (wrap3 n idx) (ix2 r (0 : Fin 1))) _ = _
  rw [HostReads.reduceAnd_unit_apply _ _ reducesTo_S512x1x1_S512x1_d2 (by decide) h_S_ r,
    HostReads.gather_rows_apply hN wf x (wrap3 n idx) r]
  show Scalar.select (IntOp.andi (IntOp.andi (IntOp.cmpi .sge (wrap3 n idx (ix3 r (0 : Fin 1) (0 : Fin 1))) 0#32)
      (IntOp.cmpi .sle (wrap3 n idx (ix3 r (0 : Fin 1) (0 : Fin 1))) hi)) 1#1) _ _ = _
  rw [HostReads.andi_one]
  rw [← wrap3_apply n idx r]
  rfl

theorem pickV_apply {N : Nat} (hN : 0 < N)
    (wf : GatherDims.WF ⟨2, ![512, N]⟩ ⟨3, ![512, 1, 1]⟩ ⟨2, ![512, 1]⟩ [] [1] [0] [1] [0] 2 ![1, 1])
    (n hi : BitVec 32) (o : (⟨2, ![512, N]⟩ : Shape).Idx → EReal) (tt : IVec S512 32) (i : S512.Idx) :
    pickV (HostReads.rowsDims N wf) n hi o tt i
      = AdaptiveSpec.take hN (fun v => o (ix2 (i 0) v)) hi (AdaptiveSpec.wrap n (AdaptiveSpec.clip hi (tt i))) := by
  unfold pickV
  refine (shapeCast_apply _ shapeCasts_S512x1_S512 i (ix2 (i 0) (0 : Fin 1)) ?_).trans ?_
  · rewrite [Shape.rowMajor_val_two, Shape.rowMajor_val_one]
    show (i 0).val * 1 + 0 = (i 0).val
    omega
  · refine (takeV_apply hN wf n hi o _ (i 0)).trans ?_
    refine congrArg (fun w => AdaptiveSpec.take hN (fun v => o (ix2 (i 0) v)) hi (AdaptiveSpec.wrap n w)) ?_
    refine (colV_apply _ _).trans ?_
    exact congrArg (fun k => AdaptiveSpec.clip hi (tt k)) (eq_ix1 i).symm

def selV0 (t : IVec S512 32) (o0 : S512x20000.Idx → EReal) : S512.Idx → EReal :=
  select (maskV 0#32 20000#32 t) (pickV gather_S512x20000_S512x1x1_S512x1_n_1_0_0_1_2_11 20000#32 19999#32 o0 t) zerosV

def selV1 (t : IVec S512 32) (o0 o1 : S512x20000.Idx → EReal) : S512.Idx → EReal :=
  select (maskV 20000#32 40000#32 t) (pickV gather_S512x20000_S512x1x1_S512x1_n_1_0_0_1_2_11 20000#32 19999#32 o1 (shiftV 20000#32 t)) (selV0 t o0)

def selV2 (t : IVec S512 32) (o0 o1 : S512x20000.Idx → EReal) (o2 : S512x160000.Idx → EReal) : S512.Idx → EReal :=
  select (maskV 40000#32 200000#32 t) (pickV gather_S512x160000_S512x1x1_S512x1_n_1_0_0_1_2_11 160000#32 159999#32 o2 (shiftV 40000#32 t)) (selV1 t o0 o1)

def selV3 (t : IVec S512 32) (o0 o1 : S512x20000.Idx → EReal) (o2 : S512x160000.Idx → EReal)
    (o3 : S512x67735.Idx → EReal) : S512.Idx → EReal :=
  select (maskV 200000#32 267735#32 t) (pickV gather_S512x67735_S512x1x1_S512x1_n_1_0_0_1_2_11 67735#32 67734#32 o3 (shiftV 200000#32 t)) (selV2 t o0 o1 o2)

theorem selV0_apply (t : IVec S512 32) (o0 : S512x20000.Idx → EReal) (i : S512.Idx) :
    selV0 t o0 i = kSel0 (t i) (fun v => o0 (ix2 (i 0) v)) := by
  show Scalar.select (maskV 0#32 20000#32 t i) (pickV (HostReads.rowsDims 20000 gather_S512x20000_S512x1x1_S512x1_n_1_0_0_1_2_11_wf) 20000#32 19999#32 o0 t i) (zerosV i) = _
  rw [pickV_apply (by decide)]
  rfl

theorem selV1_apply (t : IVec S512 32) (o0 o1 : S512x20000.Idx → EReal) (i : S512.Idx) :
    selV1 t o0 o1 i = kSel1 (t i) (fun v => o0 (ix2 (i 0) v)) (fun v => o1 (ix2 (i 0) v)) := by
  show Scalar.select (maskV 20000#32 40000#32 t i)
    (pickV (HostReads.rowsDims 20000 gather_S512x20000_S512x1x1_S512x1_n_1_0_0_1_2_11_wf) 20000#32 19999#32 o1 (shiftV 20000#32 t) i) (selV0 t o0 i) = _
  rw [pickV_apply (by decide), selV0_apply]
  rfl

theorem selV2_apply (t : IVec S512 32) (o0 o1 : S512x20000.Idx → EReal) (o2 : S512x160000.Idx → EReal) (i : S512.Idx) :
    selV2 t o0 o1 o2 i = kSel2 (t i) (fun v => o0 (ix2 (i 0) v)) (fun v => o1 (ix2 (i 0) v)) (fun v => o2 (ix2 (i 0) v)) := by
  show Scalar.select (maskV 40000#32 200000#32 t i)
    (pickV (HostReads.rowsDims 160000 gather_S512x160000_S512x1x1_S512x1_n_1_0_0_1_2_11_wf) 160000#32 159999#32 o2 (shiftV 40000#32 t) i) (selV1 t o0 o1 i) = _
  rw [pickV_apply (by decide), selV1_apply]
  rfl

theorem selV3_apply (t : IVec S512 32) (o0 o1 : S512x20000.Idx → EReal) (o2 : S512x160000.Idx → EReal)
    (o3 : S512x67735.Idx → EReal) (i : S512.Idx) : selV3 t o0 o1 o2 o3 i = kSel t o0 o1 o2 o3 i := by
  show Scalar.select (maskV 200000#32 267735#32 t i)
    (pickV (HostReads.rowsDims 67735 gather_S512x67735_S512x1x1_S512x1_n_1_0_0_1_2_11_wf) 67735#32 67734#32 o3 (shiftV 200000#32 t) i) (selV2 t o0 o1 o2 i) = _
  rw [pickV_apply (by decide), selV2_apply]
  rfl

theorem lossV_apply (sel : S512.Idx → EReal) :
    lossV sel = fun _ => Ideal.div (Ideal.ofBits .f32 0x00000000#32 + ∑ i : S512.Idx, -(sel i))
      (Ideal.ofBits .f32 0x44000000#32) := by
  funext j
  rw [eq_ix0 j]
  unfold lossV
  show Ideal.div (Host.reduceAdd (F := Ideal) (φ := .f32) (Host.negf (F := Ideal) (φ := .f32) sel)
    (constant (F := Ideal) S_ .f32 0x00000000#32) reducesTo_S512_S_d0 h_S_ ix0) (Ideal.ofBits .f32 0x44000000#32) = _
  rw [HostReads.reduceAdd_tokens_apply]
  rfl

theorem lossV_selV3 (t : IVec S512 32) (o0 o1 : S512x20000.Idx → EReal) (o2 : S512x160000.Idx → EReal)
    (o3 : S512x67735.Idx → EReal) : lossV (selV3 t o0 o1 o2 o3) = fun _ => kLossVal t o0 o1 o2 o3 := by
  rw [lossV_apply]
  funext _
  unfold kLossVal
  refine congrArg (fun s => Ideal.div (Ideal.ofBits .f32 0x00000000#32 + s) (Ideal.ofBits .f32 0x44000000#32)) ?_
  exact Finset.sum_congr rfl fun i _ => congrArg Neg.neg (selV3_apply t o0 o1 o2 o3 i)

variable (m : (ℓ : Loc nD τ sig) → Buf (Elt Ideal) ℓ) (outs : Outs (F := Ideal)) (c : Dev nD)

-- Each array a stretch reads was left by an earlier stretch that no stretch in between overwrites.
theorem K14_13_main_v1 : V14 m outs c main_v1 = V13 m outs c main_v1 := V14_of m outs c main_v1 (by decide)
theorem K16_13_main_v14 : V16 m outs c main_v14 = V13 m outs c main_v14 :=
  (V16_of m outs c main_v14 (by decide)).trans ((V15_of m outs c main_v14 (by decide)).trans
    (V14_of m outs c main_v14 (by decide)))
theorem K18_14_main_v30 : V18 m outs c main_v30 = V14 m outs c main_v30 :=
  (V18_of m outs c main_v30 (by decide)).trans ((V17_of m outs c main_v30 (by decide)).trans
    ((V16_of m outs c main_v30 (by decide)).trans (V15_of m outs c main_v30 (by decide))))
theorem K18_14_main_v25 : V18 m outs c main_v25 = V14 m outs c main_v25 :=
  (V18_of m outs c main_v25 (by decide)).trans ((V17_of m outs c main_v25 (by decide)).trans
    ((V16_of m outs c main_v25 (by decide)).trans (V15_of m outs c main_v25 (by decide))))
theorem K19_13_main_v1 : V19 m outs c main_v1 = V13 m outs c main_v1 := V19_V13 m outs c main_v1 (by decide)
theorem K22_13_main_v18 : V22 m outs c main_v18 = V13 m outs c main_v18 :=
  (V22_of m outs c main_v18 (by decide)).trans ((V21_of m outs c main_v18 (by decide)).trans
    ((V20_of m outs c main_v18 (by decide)).trans (V19_V13 m outs c main_v18 (by decide))))
theorem K24_20_main_v40 : V24 m outs c main_v40 = V20 m outs c main_v40 :=
  (V24_of m outs c main_v40 (by decide)).trans ((V23_of m outs c main_v40 (by decide)).trans
    ((V22_of m outs c main_v40 (by decide)).trans (V21_of m outs c main_v40 (by decide))))
theorem K24_19_main_v35 : V24 m outs c main_v35 = V19 m outs c main_v35 :=
  (V24_of m outs c main_v35 (by decide)).trans ((V23_of m outs c main_v35 (by decide)).trans
    ((V22_of m outs c main_v35 (by decide)).trans ((V21_of m outs c main_v35 (by decide)).trans
    (V20_of m outs c main_v35 (by decide)))))
theorem K25_13_main_v1 : V25 m outs c main_v1 = V13 m outs c main_v1 := V25_V13 m outs c main_v1 (by decide)
theorem K28_13_main_v21 : V28 m outs c main_v21 = V13 m outs c main_v21 :=
  (V28_of m outs c main_v21 (by decide)).trans ((V27_of m outs c main_v21 (by decide)).trans
    ((V26_of m outs c main_v21 (by decide)).trans (V25_V13 m outs c main_v21 (by decide))))
theorem K30_26_main_v52 : V30 m outs c main_v52 = V26 m outs c main_v52 :=
  (V30_of m outs c main_v52 (by decide)).trans ((V29_of m outs c main_v52 (by decide)).trans
    ((V28_of m outs c main_v52 (by decide)).trans (V27_of m outs c main_v52 (by decide))))
theorem K30_25_main_v47 : V30 m outs c main_v47 = V25 m outs c main_v47 :=
  (V30_of m outs c main_v47 (by decide)).trans ((V29_of m outs c main_v47 (by decide)).trans
    ((V28_of m outs c main_v47 (by decide)).trans ((V27_of m outs c main_v47 (by decide)).trans
    (V26_of m outs c main_v47 (by decide)))))
theorem K31_13_main_v1 : V31 m outs c main_v1 = V13 m outs c main_v1 := V31_V13 m outs c main_v1 (by decide)
theorem K34_13_main_v24 : V34 m outs c main_v24 = V13 m outs c main_v24 :=
  (V34_of m outs c main_v24 (by decide)).trans ((V33_of m outs c main_v24 (by decide)).trans
    ((V32_of m outs c main_v24 (by decide)).trans (V31_V13 m outs c main_v24 (by decide))))
theorem K36_32_main_v64 : V36 m outs c main_v64 = V32 m outs c main_v64 :=
  (V36_of m outs c main_v64 (by decide)).trans ((V35_of m outs c main_v64 (by decide)).trans
    ((V34_of m outs c main_v64 (by decide)).trans (V33_of m outs c main_v64 (by decide))))
theorem K36_31_main_v59 : V36 m outs c main_v59 = V31 m outs c main_v59 :=
  (V36_of m outs c main_v59 (by decide)).trans ((V35_of m outs c main_v59 (by decide)).trans
    ((V34_of m outs c main_v59 (by decide)).trans ((V33_of m outs c main_v59 (by decide)).trans
    (V32_of m outs c main_v59 (by decide)))))

theorem V14_main_v30 : (V14 m outs c main_v30 : IVec S512 1) = maskV 0#32 20000#32 (V13 m outs c main_v1) := mask0_raw (V13 m outs c)
theorem V14_main_v25 : (V14 m outs c main_v25 : S512.Idx → EReal) = zerosV := zeros_raw (V13 m outs c)
theorem V14_main_c_1 : (V14 m outs c main_c_1 : IVec S_ 32) = constantI S_ 32 0#32 := lo0_raw (V13 m outs c)
theorem V14_main_c_2 : (V14 m outs c main_c_2 : IVec S_ 32) = constantI S_ 32 19999#32 := hi0_raw (V13 m outs c)
theorem V15_main_v31 : (V15 m outs c main_v31 : IVec S512 32)
    = clipV (constantI S_ 32 0#32) (constantI S_ 32 19999#32) (V13 m outs c main_v1) := by
  have e := clip0_raw (V14 m outs c)
  rw [V14_main_c_1, V14_main_c_2, K14_13_main_v1] at e
  exact e
theorem V16_main_v32 : (V16 m outs c main_v32 : IVec S512x1 32)
    = colV (clipV (constantI S_ 32 0#32) (constantI S_ 32 19999#32) (V13 m outs c main_v1)) := by
  have e := col0_raw (V15 m outs c)
  rw [V15_main_v31] at e
  exact e
theorem V17_main_v33 : (V17 m outs c main_v33 : S512x1.Idx → EReal)
    = takeV gather_S512x20000_S512x1x1_S512x1_n_1_0_0_1_2_11 20000#32 19999#32 (V13 m outs c main_v14)
        (colV (clipV (constantI S_ 32 0#32) (constantI S_ 32 19999#32) (V13 m outs c main_v1))) := by
  have e := take0_raw (V16 m outs c)
  rw [K16_13_main_v14, V16_main_v32] at e
  exact e
theorem V18_main_v34 : (V18 m outs c main_v34 : S512.Idx → EReal)
    = pickV gather_S512x20000_S512x1x1_S512x1_n_1_0_0_1_2_11 20000#32 19999#32 (V13 m outs c main_v14) (V13 m outs c main_v1) := by
  have e := resh0_raw (V17 m outs c)
  rw [V17_main_v33] at e
  exact e
theorem V19_main_v35 : (V19 m outs c main_v35 : S512.Idx → EReal) = selV0 (V13 m outs c main_v1) (V13 m outs c main_v14) := by
  have e := where0_raw (V18 m outs c)
  rw [K18_14_main_v30, V14_main_v30, V18_main_v34, K18_14_main_v25, V14_main_v25] at e
  exact e

theorem V20_main_v40 : (V20 m outs c main_v40 : IVec S512 1) = maskV 20000#32 40000#32 (V13 m outs c main_v1) := by
  have e := mask1_raw (V19 m outs c)
  rw [K19_13_main_v1] at e
  exact e
theorem V20_main_v42 : (V20 m outs c main_v42 : IVec S512 32) = shiftV 20000#32 (V13 m outs c main_v1) := by
  have e := shift1_raw (V19 m outs c)
  rw [K19_13_main_v1] at e
  exact e
theorem V20_main_c_6 : (V20 m outs c main_c_6 : IVec S_ 32) = constantI S_ 32 0#32 := lo1_raw (V19 m outs c)
theorem V20_main_c_7 : (V20 m outs c main_c_7 : IVec S_ 32) = constantI S_ 32 19999#32 := hi1_raw (V19 m outs c)
theorem V21_main_v43 : (V21 m outs c main_v43 : IVec S512 32)
    = clipV (constantI S_ 32 0#32) (constantI S_ 32 19999#32) (shiftV 20000#32 (V13 m outs c main_v1)) := by
  have e := clip1_raw (V20 m outs c)
  rw [V20_main_c_6, V20_main_c_7, V20_main_v42] at e
  exact e
theorem V22_main_v44 : (V22 m outs c main_v44 : IVec S512x1 32)
    = colV (clipV (constantI S_ 32 0#32) (constantI S_ 32 19999#32) (shiftV 20000#32 (V13 m outs c main_v1))) := by
  have e := col1_raw (V21 m outs c)
  rw [V21_main_v43] at e
  exact e
theorem V23_main_v45 : (V23 m outs c main_v45 : S512x1.Idx → EReal)
    = takeV gather_S512x20000_S512x1x1_S512x1_n_1_0_0_1_2_11 20000#32 19999#32 (V13 m outs c main_v18)
        (colV (clipV (constantI S_ 32 0#32) (constantI S_ 32 19999#32) (shiftV 20000#32 (V13 m outs c main_v1)))) := by
  have e := take1_raw (V22 m outs c)
  rw [K22_13_main_v18, V22_main_v44] at e
  exact e
theorem V24_main_v46 : (V24 m outs c main_v46 : S512.Idx → EReal)
    = pickV gather_S512x20000_S512x1x1_S512x1_n_1_0_0_1_2_11 20000#32 19999#32 (V13 m outs c main_v18) (shiftV 20000#32 (V13 m outs c main_v1)) := by
  have e := resh1_raw (V23 m outs c)
  rw [V23_main_v45] at e
  exact e
theorem V25_main_v47 : (V25 m outs c main_v47 : S512.Idx → EReal) = selV1 (V13 m outs c main_v1) (V13 m outs c main_v14) (V13 m outs c main_v18) := by
  have e := where1_raw (V24 m outs c)
  rw [K24_20_main_v40, V20_main_v40, V24_main_v46, K24_19_main_v35, V19_main_v35] at e
  exact e

theorem V26_main_v52 : (V26 m outs c main_v52 : IVec S512 1) = maskV 40000#32 200000#32 (V13 m outs c main_v1) := by
  have e := mask2_raw (V25 m outs c)
  rw [K25_13_main_v1] at e
  exact e
theorem V26_main_v54 : (V26 m outs c main_v54 : IVec S512 32) = shiftV 40000#32 (V13 m outs c main_v1) := by
  have e := shift2_raw (V25 m outs c)
  rw [K25_13_main_v1] at e
  exact e
theorem V26_main_c_11 : (V26 m outs c main_c_11 : IVec S_ 32) = constantI S_ 32 0#32 := lo2_raw (V25 m outs c)
theorem V26_main_c_12 : (V26 m outs c main_c_12 : IVec S_ 32) = constantI S_ 32 159999#32 := hi2_raw (V25 m outs c)
theorem V27_main_v55 : (V27 m outs c main_v55 : IVec S512 32)
    = clipV (constantI S_ 32 0#32) (constantI S_ 32 159999#32) (shiftV 40000#32 (V13 m outs c main_v1)) := by
  have e := clip2_raw (V26 m outs c)
  rw [V26_main_c_11, V26_main_c_12, V26_main_v54] at e
  exact e
theorem V28_main_v56 : (V28 m outs c main_v56 : IVec S512x1 32)
    = colV (clipV (constantI S_ 32 0#32) (constantI S_ 32 159999#32) (shiftV 40000#32 (V13 m outs c main_v1))) := by
  have e := col2_raw (V27 m outs c)
  rw [V27_main_v55] at e
  exact e
theorem V29_main_v57 : (V29 m outs c main_v57 : S512x1.Idx → EReal)
    = takeV gather_S512x160000_S512x1x1_S512x1_n_1_0_0_1_2_11 160000#32 159999#32 (V13 m outs c main_v21)
        (colV (clipV (constantI S_ 32 0#32) (constantI S_ 32 159999#32) (shiftV 40000#32 (V13 m outs c main_v1)))) := by
  have e := take2_raw (V28 m outs c)
  rw [K28_13_main_v21, V28_main_v56] at e
  exact e
theorem V30_main_v58 : (V30 m outs c main_v58 : S512.Idx → EReal)
    = pickV gather_S512x160000_S512x1x1_S512x1_n_1_0_0_1_2_11 160000#32 159999#32 (V13 m outs c main_v21) (shiftV 40000#32 (V13 m outs c main_v1)) := by
  have e := resh2_raw (V29 m outs c)
  rw [V29_main_v57] at e
  exact e
theorem V31_main_v59 : (V31 m outs c main_v59 : S512.Idx → EReal) = selV2 (V13 m outs c main_v1) (V13 m outs c main_v14) (V13 m outs c main_v18) (V13 m outs c main_v21) := by
  have e := where2_raw (V30 m outs c)
  rw [K30_26_main_v52, V26_main_v52, V30_main_v58, K30_25_main_v47, V25_main_v47] at e
  exact e

theorem V32_main_v64 : (V32 m outs c main_v64 : IVec S512 1) = maskV 200000#32 267735#32 (V13 m outs c main_v1) := by
  have e := mask3_raw (V31 m outs c)
  rw [K31_13_main_v1] at e
  exact e
theorem V32_main_v66 : (V32 m outs c main_v66 : IVec S512 32) = shiftV 200000#32 (V13 m outs c main_v1) := by
  have e := shift3_raw (V31 m outs c)
  rw [K31_13_main_v1] at e
  exact e
theorem V32_main_c_16 : (V32 m outs c main_c_16 : IVec S_ 32) = constantI S_ 32 0#32 := lo3_raw (V31 m outs c)
theorem V32_main_c_17 : (V32 m outs c main_c_17 : IVec S_ 32) = constantI S_ 32 67734#32 := hi3_raw (V31 m outs c)
theorem V33_main_v67 : (V33 m outs c main_v67 : IVec S512 32)
    = clipV (constantI S_ 32 0#32) (constantI S_ 32 67734#32) (shiftV 200000#32 (V13 m outs c main_v1)) := by
  have e := clip3_raw (V32 m outs c)
  rw [V32_main_c_16, V32_main_c_17, V32_main_v66] at e
  exact e
theorem V34_main_v68 : (V34 m outs c main_v68 : IVec S512x1 32)
    = colV (clipV (constantI S_ 32 0#32) (constantI S_ 32 67734#32) (shiftV 200000#32 (V13 m outs c main_v1))) := by
  have e := col3_raw (V33 m outs c)
  rw [V33_main_v67] at e
  exact e
theorem V35_main_v69 : (V35 m outs c main_v69 : S512x1.Idx → EReal)
    = takeV gather_S512x67735_S512x1x1_S512x1_n_1_0_0_1_2_11 67735#32 67734#32 (V13 m outs c main_v24)
        (colV (clipV (constantI S_ 32 0#32) (constantI S_ 32 67734#32) (shiftV 200000#32 (V13 m outs c main_v1)))) := by
  have e := take3_raw (V34 m outs c)
  rw [K34_13_main_v24, V34_main_v68] at e
  exact e
theorem V36_main_v70 : (V36 m outs c main_v70 : S512.Idx → EReal)
    = pickV gather_S512x67735_S512x1x1_S512x1_n_1_0_0_1_2_11 67735#32 67734#32 (V13 m outs c main_v24) (shiftV 200000#32 (V13 m outs c main_v1)) := by
  have e := resh3_raw (V35 m outs c)
  rw [V35_main_v69] at e
  exact e
theorem V37_main_v71 : (V37 m outs c main_v71 : S512.Idx → EReal) = selV3 (V13 m outs c main_v1) (V13 m outs c main_v14) (V13 m outs c main_v18) (V13 m outs c main_v21) (V13 m outs c main_v24) := by
  have e := where3_raw (V36 m outs c)
  rw [K36_32_main_v64, V32_main_v64, V36_main_v70, K36_31_main_v59, V31_main_v59] at e
  exact e

theorem V38_main_v74 : (V38 m outs c main_v74 : S_.Idx → EReal)
    = fun _ => kLossVal (V38 m outs c main_v1) (V38 m outs c main_v14) (V38 m outs c main_v18) (V38 m outs c main_v21) (V38 m outs c main_v24) := by
  rw [V38_V13 m outs c main_v1 (by decide), V38_V13 m outs c main_v14 (by decide), V38_V13 m outs c main_v18 (by decide),
    V38_V13 m outs c main_v21 (by decide), V38_V13 m outs c main_v24 (by decide)]
  have e := loss_raw (V37 m outs c)
  rw [V37_main_v71, lossV_selV3] at e
  exact e

theorem V38_main_v1 : (V38 m outs c main_v1 : S512.Idx → BitVec 32) = flatTarget (m (c, main_arg1)) :=
  (V38_V13 m outs c main_v1 (by decide)).trans ((V13_V1 m outs c main_v1 (by decide) (by decide)).trans (V1_main_v1 m c))

end Cert.KernelIdeal.HostValue
-- ==== Proof.KernelLossFinal.lean ====
import proofs.«138250_j73134703116926_1_alg».proof.Proof.KernelLossValue
import proofs.«138250_j73134703116926_1_alg».proof.Proof.IdealHostLoss
import proofs.«138250_j73134703116926_1_alg».proof.Proof.KernelOutValue
import proofs.«138250_j73134703116926_1_alg».proof.Proof.IdealData

noncomputable section

open scoped BigOperators

namespace Cert.KernelIdeal.LossValue

open Idealize.ShloMosaic Idealize.ShloMosaic.ValueIdx
open AdaptiveSpec
open Cert.KernelIdeal Cert.KernelIdeal.Gen Cert.KernelIdeal.GenP Cert.FiniteInputs
open Idealize.ShloMosaic.TcCoe Idealize.SL.Sem Idealize.ShloMosaic.StableHlo

-- The host tail computes the loss of the flat targets and the four arrays, whose rows hold the specification's log-probabilities.
theorem loss_final (m : Mem) (hR : RealArgs m) (c : Dev nD) :
    (GenP.V38 m (Cert.KernelIdeal.IdealData.outs m) c main_v74 : (⟨0, ![]⟩ : Shape).Idx → EReal)
      = (Cert.KernelIdeal.OutValue.argsOf m c).loss :=
  (Cert.KernelIdeal.HostValue.V38_main_v74 m (Cert.KernelIdeal.IdealData.outs m) c).trans
    (funext fun _ => kLossVal_eq (Cert.KernelIdeal.OutValue.argsOf m c) _ _ _ _ _
      (fun r => (congrFun (Cert.KernelIdeal.HostValue.V38_main_v1 m (Cert.KernelIdeal.IdealData.outs m) c) (ix1 r)).trans rfl)
      (Cert.KernelIdeal.OutValue.v14_rows m c hR) (Cert.KernelIdeal.OutValue.v18_rows m c hR)
      (Cert.KernelIdeal.OutValue.v21_rows m c hR) (Cert.KernelIdeal.OutValue.v24_rows m c hR))

end Cert.KernelIdeal.LossValue

end
-- ==== Proof.RefReads.lean ====
import Idealize.ShloMosaic.Lib.Pipeline.Value
import Idealize.ShloMosaic.Lib.ValueIdx
import Idealize.ShloMosaic.PureOps.Ideal.Laws
import proofs.«138250_j73134703116926_1_alg».proof.Proof.Spec

noncomputable section

open scoped BigOperators

namespace AdaptiveSpec.Reads

open Idealize.ShloMosaic Idealize.ShloMosaic.ValueIdx

section TakeAlong
variable {α : Type}

abbrev takeAlongDims (n : Nat)
    (wf : GatherDims.WF ⟨3, ![64, 8, n]⟩ ⟨4, ![64, 8, 1, 1]⟩ ⟨3, ![64, 8, 1]⟩ [] [2] [0, 1] [2] [0, 1] 3 ![1, 1, 1]) :
    GatherDims ⟨3, ![64, 8, n]⟩ ⟨4, ![64, 8, 1, 1]⟩ ⟨3, ![64, 8, 1]⟩ where
  offsetDims := []
  collapsedSliceDims := [2]
  operandBatchingDims := [0, 1]
  startIndicesBatchingDims := [0, 1]
  startIndexMap := [2]
  indexVectorDim := 3
  sliceSizes := ![1, 1, 1]
  wf := wf

theorem takeAlong_coord0 {n w : Nat}
    (wf : GatherDims.WF ⟨3, ![64, 8, n]⟩ ⟨4, ![64, 8, 1, 1]⟩ ⟨3, ![64, 8, 1]⟩ [] [2] [0, 1] [2] [0, 1] 3 ![1, 1, 1])
    (idx : IVec ⟨4, ![64, 8, 1, 1]⟩ w) (j : (⟨3, ![64, 8, 1]⟩ : Shape).Idx) :
    (takeAlongDims n wf).start j idx 0 + (takeAlongDims n wf).batchCoord j 0 + (takeAlongDims n wf).offCoord j 0 = (j 0).val := by
  have hb : (0 : Fin 3) ∈ (takeAlongDims n wf).operandBatchingDims := List.mem_cons_self
  rw [GatherDims.start_batching _ j idx 0 hb,
    GatherDims.offCoord_eq_zero _ j 0 (fun h => ((GatherDims.mem_sKept _ _).mp h).2 hb)]
  simp only [Nat.zero_add, Nat.add_zero]
  unfold GatherDims.batchCoord
  rw [dif_pos hb]
  rfl

theorem takeAlong_coord1 {n w : Nat}
    (wf : GatherDims.WF ⟨3, ![64, 8, n]⟩ ⟨4, ![64, 8, 1, 1]⟩ ⟨3, ![64, 8, 1]⟩ [] [2] [0, 1] [2] [0, 1] 3 ![1, 1, 1])
    (idx : IVec ⟨4, ![64, 8, 1, 1]⟩ w) (j : (⟨3, ![64, 8, 1]⟩ : Shape).Idx) :
    (takeAlongDims n wf).start j idx 1 + (takeAlongDims n wf).batchCoord j 1 + (takeAlongDims n wf).offCoord j 1 = (j 1).val := by
  have hb : (1 : Fin 3) ∈ (takeAlongDims n wf).operandBatchingDims := List.mem_cons_of_mem _ List.mem_cons_self
  rw [GatherDims.start_batching _ j idx 1 hb,
    GatherDims.offCoord_eq_zero _ j 1 (fun h => ((GatherDims.mem_sKept _ _).mp h).2 hb)]
  simp only [Nat.zero_add, Nat.add_zero]
  unfold GatherDims.batchCoord
  rw [dif_pos hb]
  rfl

theorem takeAlong_coord2 {n w : Nat}
    (wf : GatherDims.WF ⟨3, ![64, 8, n]⟩ ⟨4, ![64, 8, 1, 1]⟩ ⟨3, ![64, 8, 1]⟩ [] [2] [0, 1] [2] [0, 1] 3 ![1, 1, 1])
    (idx : IVec ⟨4, ![64, 8, 1, 1]⟩ w) (s : Fin 64) (b : Fin 8) :
    (takeAlongDims n wf).start (ix3 s b (0 : Fin 1)) idx 2 + (takeAlongDims n wf).batchCoord (ix3 s b (0 : Fin 1)) 2
      + (takeAlongDims n wf).offCoord (ix3 s b (0 : Fin 1)) 2 = min (idx (ix4 s b (0 : Fin 1) (0 : Fin 1))).toInt.toNat (n - 1) := by
  have hc : (2 : Fin 3) ∈ (takeAlongDims n wf).collapsedSliceDims := List.mem_singleton.mpr rfl
  have hnb : (2 : Fin 3) ∉ (takeAlongDims n wf).operandBatchingDims := by
    show (2 : Fin 3) ∉ [(0 : Fin 3), 1]
    decide
  rw [GatherDims.batchCoord_eq_zero _ _ _ hnb,
    GatherDims.offCoord_eq_zero _ _ _ (fun h => ((GatherDims.mem_sKept _ _).mp h).1 hc)]
  simp only [Nat.add_zero]
  unfold GatherDims.start
  rw [dif_pos (show (2 : Fin 3) ∈ (takeAlongDims n wf).startIndexMap from List.mem_singleton.mpr rfl)]
  have hsi : (takeAlongDims n wf).siIdx (ix3 s b (0 : Fin 1)) ⟨List.idxOf (2 : Fin 3) (takeAlongDims n wf).startIndexMap,
      List.idxOf_lt_length_iff.2 (List.mem_singleton.mpr rfl)⟩ = ix4 s b (0 : Fin 1) (0 : Fin 1) := by
    funext c; refine Fin.ext ?_
    match c with
    | ⟨0, _⟩ => rfl
    | ⟨1, _⟩ => rfl
    | ⟨2, _⟩ => rfl
    | ⟨3, _⟩ => rfl
  rw [hsi]
  rfl

theorem gather_takeAlong_apply {n w : Nat} (hn : 0 < n)
    (wf : GatherDims.WF ⟨3, ![64, 8, n]⟩ ⟨4, ![64, 8, 1, 1]⟩ ⟨3, ![64, 8, 1]⟩ [] [2] [0, 1] [2] [0, 1] 3 ![1, 1, 1])
    (x : (⟨3, ![64, 8, n]⟩ : Shape).Idx → α) (idx : IVec ⟨4, ![64, 8, 1, 1]⟩ w) (s : Fin 64) (b : Fin 8) :
    Host.gather (takeAlongDims n wf) x idx (ix3 s b (0 : Fin 1))
      = x (ix3 s b ⟨min (idx (ix4 s b (0 : Fin 1) (0 : Fin 1))).toInt.toNat (n - 1), by omega⟩) := by
  unfold Host.gather
  congr 1
  funext a
  refine Fin.ext ?_
  show (takeAlongDims n wf).start (ix3 s b (0 : Fin 1)) idx a + (takeAlongDims n wf).batchCoord (ix3 s b (0 : Fin 1)) a
    + (takeAlongDims n wf).offCoord (ix3 s b (0 : Fin 1)) a = _
  match a with
  | ⟨0, _⟩ => exact takeAlong_coord0 wf idx _
  | ⟨1, _⟩ => exact takeAlong_coord1 wf idx _
  | ⟨2, _⟩ => exact takeAlong_coord2 wf idx s b

end TakeAlong

theorem reduceMax_apply {n : Nat} (x : FVec Ideal ⟨3, ![64, 8, n]⟩ .f32) (init : FVec Ideal ⟨0, ![]⟩ .f32)
    (h' : (⟨3, ![64, 8, n]⟩ : Shape).ReducesTo [2] ⟨2, ![64, 8]⟩) (h : (⟨3, ![64, 8, n]⟩ : Shape).Reduces [2] ⟨2, ![64, 8]⟩)
    (hu : 0 < (⟨0, ![]⟩ : Shape).numel) (s : Fin 64) (b : Fin 8) :
    Host.reduce FloatOps.maximumf x init h' hu (ix2 s b)
      = (Finset.univ : Finset (Fin n)).fold max (init (Shape.Idx.first hu)) (fun k => x (ix3 s b k)) := by
  rw [Host.reduce_eq_fold_single FloatOps.maximumf x init h' h hu]
  have hf : (x ∘ h.lift (ix2 s b)) = fun k : Fin n => x (ix3 s b k) :=
    funext fun k => congrArg x (by funext c; apply Fin.ext; fin_cases c <;> rfl)
  exact congrArg (fun f => Finset.fold max (init (Shape.Idx.first hu)) f (Finset.univ : Finset (Fin n))) hf

theorem reduceAnd_apply (x : IVec ⟨4, ![64, 8, 1, 1]⟩ 1) (init : IVec ⟨0, ![]⟩ 1)
    (h' : (⟨4, ![64, 8, 1, 1]⟩ : Shape).ReducesTo [3] ⟨3, ![64, 8, 1]⟩) (h : (⟨4, ![64, 8, 1, 1]⟩ : Shape).Reduces [3] ⟨3, ![64, 8, 1]⟩)
    (hu : 0 < (⟨0, ![]⟩ : Shape).numel) (s : Fin 64) (b : Fin 8) :
    Host.reduce IntOp.andi x init h' hu (ix3 s b (0 : Fin 1))
      = IntOp.andi (x (ix4 s b (0 : Fin 1) (0 : Fin 1))) (init (Shape.Idx.first hu)) := by
  rw [Host.reduce_eq_fold_single IntOp.andi x init h' h hu]
  have hu1 : (Finset.univ : Finset (Fin ((⟨4, ![64, 8, 1, 1]⟩ : Shape).size 3))) = {⟨0, Nat.one_pos⟩} := rfl
  rw [hu1, Finset.fold_singleton]
  have hx : h.lift (ix3 s b (0 : Fin 1)) ⟨0, Nat.one_pos⟩ = ix4 s b (0 : Fin 1) (0 : Fin 1) := by
    funext c; apply Fin.ext; fin_cases c <;> rfl
  show IntOp.andi (x (h.lift (ix3 s b (0 : Fin 1)) ⟨0, Nat.one_pos⟩)) _ = _
  rw [hx]

theorem headW_concat (W0 : (⟨2, ![20000, 1024]⟩ : Shape).Idx → EReal) (cw : (⟨2, ![3, 1024]⟩ : Shape).Idx → EReal)
    (h : Shape.Concatenates [(⟨2, ![20000, 1024]⟩ : Shape), ⟨2, ![3, 1024]⟩] ⟨2, ![20003, 1024]⟩ 0) (j : Fin 20003) (k : Fin 1024) :
    concatenate (⟨2, ![20003, 1024]⟩ : Shape) 0 [⟨⟨2, ![20000, 1024]⟩, W0⟩, ⟨⟨2, ![3, 1024]⟩, cw⟩] h (ix2 j k) = headW W0 cw j k := by
  unfold headW
  split
  · next hj =>
    exact concatenate_pair_apply_left 0 W0 cw h (ix2 j k) rfl (ix2 ⟨j.val, hj⟩ k)
      (fun b => by match b with | ⟨0, _⟩ => rfl | ⟨1, _⟩ => rfl)
  · next hj =>
    exact concatenate_pair_apply_right 0 W0 cw h (ix2 j k) rfl rfl (ix2 ⟨j.val - 20000, by omega⟩ k)
      (fun b hb => by match b with | ⟨0, _⟩ => exact absurd rfl hb | ⟨1, _⟩ => rfl)
      (by show j.val - 20000 + 20000 = j.val; omega)

theorem headB_concat (b0 : (⟨1, ![20000]⟩ : Shape).Idx → EReal) (cb : (⟨1, ![3]⟩ : Shape).Idx → EReal)
    (h : Shape.Concatenates [(⟨1, ![20000]⟩ : Shape), ⟨1, ![3]⟩] ⟨1, ![20003]⟩ 0) (j : Fin 20003) :
    concatenate (⟨1, ![20003]⟩ : Shape) 0 [⟨⟨1, ![20000]⟩, b0⟩, ⟨⟨1, ![3]⟩, cb⟩] h (ix1 j) = headB b0 cb j := by
  unfold headB
  split
  · next hj =>
    exact concatenate_pair_apply_left 0 b0 cb h (ix1 j) rfl (ix1 ⟨j.val, hj⟩)
      (fun b => by match b with | ⟨0, _⟩ => rfl)
  · next hj =>
    exact concatenate_pair_apply_right 0 b0 cb h (ix1 j) rfl rfl (ix1 ⟨j.val - 20000, by omega⟩)
      (fun b hb => by match b with | ⟨0, _⟩ => exact absurd rfl hb)
      (by show j.val - 20000 + 20000 = j.val; omega)

theorem andi_one (c : BitVec 1) : IntOp.andi c 1#1 = c := by
  revert c; decide

theorem out_concat {α : Type} (u0 : (⟨3, ![64, 8, 20000]⟩ : Shape).Idx → α) (u1 : (⟨3, ![64, 8, 20000]⟩ : Shape).Idx → α)
    (u2 : (⟨3, ![64, 8, 160000]⟩ : Shape).Idx → α) (u3 : (⟨3, ![64, 8, 67735]⟩ : Shape).Idx → α)
    (h : Shape.Concatenates [(⟨3, ![64, 8, 20000]⟩ : Shape), ⟨3, ![64, 8, 20000]⟩, ⟨3, ![64, 8, 160000]⟩, ⟨3, ![64, 8, 67735]⟩]
      ⟨3, ![64, 8, 267735]⟩ 2) (i : (⟨3, ![64, 8, 267735]⟩ : Shape).Idx) :
    concatenate (⟨3, ![64, 8, 267735]⟩ : Shape) 2
        [⟨⟨3, ![64, 8, 20000]⟩, u0⟩, ⟨⟨3, ![64, 8, 20000]⟩, u1⟩, ⟨⟨3, ![64, 8, 160000]⟩, u2⟩, ⟨⟨3, ![64, 8, 67735]⟩, u3⟩] h i
      = if h0 : (i 2).val < 20000 then u0 (ix3 (i 0) (i 1) ⟨(i 2).val, h0⟩)
        else if h1 : (i 2).val < 40000 then u1 (ix3 (i 0) (i 1) ⟨(i 2).val - 20000, by omega⟩)
        else if h2 : (i 2).val < 200000 then u2 (ix3 (i 0) (i 1) ⟨(i 2).val - 40000, by omega⟩)
        else u3 (ix3 (i 0) (i 1) ⟨(i 2).val - 200000, by have h : (i 2).val < 267735 := (i 2).isLt; omega⟩) := by
  have hlt : (i 2).val < 267735 := (i 2).isLt
  split
  · next h0 =>
    exact concatenate_apply_piece (t := ⟨3, ![64, 8, 267735]⟩) 2 [⟨⟨3, ![64, 8, 20000]⟩, u0⟩, ⟨⟨3, ![64, 8, 20000]⟩, u1⟩, ⟨⟨3, ![64, 8, 160000]⟩, u2⟩, ⟨⟨3, ![64, 8, 67735]⟩, u3⟩] h i 0 (by show 0 < 4; omega) _ u0 rfl rfl 0 rfl (ix3 (i 0) (i 1) ⟨(i 2).val, h0⟩)
      (fun b hb => by match b with | ⟨0, _⟩ => rfl | ⟨1, _⟩ => rfl | ⟨2, _⟩ => exact absurd rfl hb)
      (by show 0 + (i 2).val = (i 2).val; omega)
  · next h0 =>
    split
    · next h1 =>
      exact concatenate_apply_piece (t := ⟨3, ![64, 8, 267735]⟩) 2 [⟨⟨3, ![64, 8, 20000]⟩, u0⟩, ⟨⟨3, ![64, 8, 20000]⟩, u1⟩, ⟨⟨3, ![64, 8, 160000]⟩, u2⟩, ⟨⟨3, ![64, 8, 67735]⟩, u3⟩] h i 1 (by show 1 < 4; omega) _ u1 rfl rfl 20000 (by show ([20000] : List Nat).sum = 20000; decide) (ix3 (i 0) (i 1) ⟨(i 2).val - 20000, by omega⟩)
        (fun b hb => by match b with | ⟨0, _⟩ => rfl | ⟨1, _⟩ => rfl | ⟨2, _⟩ => exact absurd rfl hb)
        (by show 20000 + ((i 2).val - 20000) = (i 2).val; omega)
    · next h1 =>
      split
      · next h2 =>
        exact concatenate_apply_piece (t := ⟨3, ![64, 8, 267735]⟩) 2 [⟨⟨3, ![64, 8, 20000]⟩, u0⟩, ⟨⟨3, ![64, 8, 20000]⟩, u1⟩, ⟨⟨3, ![64, 8, 160000]⟩, u2⟩, ⟨⟨3, ![64, 8, 67735]⟩, u3⟩] h i 2 (by show 2 < 4; omega) _ u2 rfl rfl 40000 (by show ([20000, 20000] : List Nat).sum = 40000; decide) (ix3 (i 0) (i 1) ⟨(i 2).val - 40000, by omega⟩)
          (fun b hb => by match b with | ⟨0, _⟩ => rfl | ⟨1, _⟩ => rfl | ⟨2, _⟩ => exact absurd rfl hb)
          (by show 40000 + ((i 2).val - 40000) = (i 2).val; omega)
      · next h2 =>
        exact concatenate_apply_piece (t := ⟨3, ![64, 8, 267735]⟩) 2 [⟨⟨3, ![64, 8, 20000]⟩, u0⟩, ⟨⟨3, ![64, 8, 20000]⟩, u1⟩, ⟨⟨3, ![64, 8, 160000]⟩, u2⟩, ⟨⟨3, ![64, 8, 67735]⟩, u3⟩] h i 3 (by show 3 < 4; omega) _ u3 rfl rfl 200000 (by show ([20000, 20000, 160000] : List Nat).sum = 200000; decide) (ix3 (i 0) (i 1) ⟨(i 2).val - 200000, by omega⟩)
          (fun b hb => by match b with | ⟨0, _⟩ => rfl | ⟨1, _⟩ => rfl | ⟨2, _⟩ => exact absurd rfl hb)
          (by show 200000 + ((i 2).val - 200000) = (i 2).val; omega)

end AdaptiveSpec.Reads

end
-- ==== Proof.RefHead.lean ====
import proofs.«138250_j73134703116926_1_alg».proof.Proof.RefReadP
import proofs.«138250_j73134703116926_1_alg».proof.Proof.Spec
import proofs.«138250_j73134703116926_1_alg».proof.Proof.RefReads

noncomputable section

open scoped BigOperators

namespace Cert.ReferenceIdeal.RefValue

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx
open AdaptiveSpec AdaptiveSpec.Reads

theorem logit0_eq (x0 : (⟨S64x8x1024, .f32⟩ : BufTy).Contents (Elt Ideal)) (x2 : (⟨S3x1024, .f32⟩ : BufTy).Contents (Elt Ideal)) (x3 : (⟨S3, .f32⟩ : BufTy).Contents (Elt Ideal)) (x4 : (⟨S20000x1024, .f32⟩ : BufTy).Contents (Elt Ideal)) (x5 : (⟨S20000, .f32⟩ : BufTy).Contents (Elt Ideal)) (x6 : (⟨S1024x1024, .f32⟩ : BufTy).Contents (Elt Ideal)) (s : Fin 64) (b : Fin 8) (j : Fin 20003) :
    val_main_v6 (F := Ideal) x0 x2 x3 x4 x5 x6 (ix3 s b j)
      = logit (fun s b d => x0 (ix3 s b d)) (fun k d => x6 (ix2 k d)) (headW x4 x2) (headB x5 x3) s b j := by
  rw [val_main_v6_apply, val_main_v3_apply, val_main_v5_apply, val_main_v4_apply]
  unfold logit proj
  show (∑ k : Fin 1024, _) + _ = (∑ k : Fin 1024, _) + _
  congr 1
  · refine Finset.sum_congr rfl fun k _ => ?_
    rw [val_main_v2_apply]
    congr 1
    · refine Finset.sum_congr rfl fun d _ => ?_
      congr 2 <;> (funext a; apply Fin.ext; fin_cases a <;> rfl)
    · unfold val_main_v0
      rw [show ridx_main_v3 (ix3 s b j) k = ix2 j k by funext a; apply Fin.ext; fin_cases a <;> rfl]
      exact headW_concat x4 x2 _ j k
  · unfold val_main_v1
    rw [show idx_main_v4 (idx_main_v5 (ix3 s b j)) = ix1 j by funext a; apply Fin.ext; fin_cases a <;> rfl]
    exact headB_concat x5 x3 _ j

theorem rowMax0_eq (x0 : (⟨S64x8x1024, .f32⟩ : BufTy).Contents (Elt Ideal)) (x2 : (⟨S3x1024, .f32⟩ : BufTy).Contents (Elt Ideal)) (x3 : (⟨S3, .f32⟩ : BufTy).Contents (Elt Ideal)) (x4 : (⟨S20000x1024, .f32⟩ : BufTy).Contents (Elt Ideal)) (x5 : (⟨S20000, .f32⟩ : BufTy).Contents (Elt Ideal)) (x6 : (⟨S1024x1024, .f32⟩ : BufTy).Contents (Elt Ideal)) (s : Fin 64) (b : Fin 8) :
    val_main_call0_v2 (F := Ideal) x0 x2 x3 x4 x5 x6 (ix2 s b)
      = rowMax (fun k : Fin 20003 => val_main_v6 (F := Ideal) x0 x2 x3 x4 x5 x6 (ix3 s b k)) := by
  rw [val_main_call0_v2_apply, val_main_call0_v1_apply, val_main_call0_cst_0_apply]
  unfold val_main_call0_v0 rowMax
  refine congrArg (max _) ?_
  exact reduceMax_apply _ _ reducesTo_S64x8x20003_S64x8_d2 (by decide) h_S_ s b

theorem shifted0_eq (x0 : (⟨S64x8x1024, .f32⟩ : BufTy).Contents (Elt Ideal)) (x2 : (⟨S3x1024, .f32⟩ : BufTy).Contents (Elt Ideal)) (x3 : (⟨S3, .f32⟩ : BufTy).Contents (Elt Ideal)) (x4 : (⟨S20000x1024, .f32⟩ : BufTy).Contents (Elt Ideal)) (x5 : (⟨S20000, .f32⟩ : BufTy).Contents (Elt Ideal)) (x6 : (⟨S1024x1024, .f32⟩ : BufTy).Contents (Elt Ideal)) (s : Fin 64) (b : Fin 8) (k : Fin 20003) :
    val_main_call0_v5 (F := Ideal) x0 x2 x3 x4 x5 x6 (ix3 s b k)
      = val_main_v6 (F := Ideal) x0 x2 x3 x4 x5 x6 (ix3 s b k) - rowMax (fun k : Fin 20003 => val_main_v6 (F := Ideal) x0 x2 x3 x4 x5 x6 (ix3 s b k)) := by
  rw [val_main_call0_v5_apply, val_main_call0_v4_apply, val_main_call0_v3_apply,
    show idx_main_call0_v3 (idx_main_call0_v4 (ix3 s b k)) = ix2 s b by (funext a; apply Fin.ext; fin_cases a <;> rfl), rowMax0_eq]
  rfl

theorem rowSumExp0_eq (x0 : (⟨S64x8x1024, .f32⟩ : BufTy).Contents (Elt Ideal)) (x2 : (⟨S3x1024, .f32⟩ : BufTy).Contents (Elt Ideal)) (x3 : (⟨S3, .f32⟩ : BufTy).Contents (Elt Ideal)) (x4 : (⟨S20000x1024, .f32⟩ : BufTy).Contents (Elt Ideal)) (x5 : (⟨S20000, .f32⟩ : BufTy).Contents (Elt Ideal)) (x6 : (⟨S1024x1024, .f32⟩ : BufTy).Contents (Elt Ideal)) (s : Fin 64) (b : Fin 8) :
    val_main_call0_v7 (F := Ideal) x0 x2 x3 x4 x5 x6 (ix2 s b)
      = rowSumExp (fun k : Fin 20003 => val_main_v6 (F := Ideal) x0 x2 x3 x4 x5 x6 (ix3 s b k)) := by
  rw [val_main_call0_v7_apply]
  unfold rowSumExp
  refine congrArg₂ (· + ·) rfl (Finset.sum_congr rfl fun k _ => ?_)
  rw [show idx_main_call0_v7 (ix2 s b) k = ix3 s b k by (funext a; apply Fin.ext; fin_cases a <;> rfl), val_main_call0_v6_apply, shifted0_eq]
  rfl

theorem logSoftmax0_eq (x0 : (⟨S64x8x1024, .f32⟩ : BufTy).Contents (Elt Ideal)) (x2 : (⟨S3x1024, .f32⟩ : BufTy).Contents (Elt Ideal)) (x3 : (⟨S3, .f32⟩ : BufTy).Contents (Elt Ideal)) (x4 : (⟨S20000x1024, .f32⟩ : BufTy).Contents (Elt Ideal)) (x5 : (⟨S20000, .f32⟩ : BufTy).Contents (Elt Ideal)) (x6 : (⟨S1024x1024, .f32⟩ : BufTy).Contents (Elt Ideal)) (s : Fin 64) (b : Fin 8) (j : Fin 20003) :
    val_main_v7 (F := Ideal) x0 x2 x3 x4 x5 x6 (ix3 s b j)
      = logSoftmax (fun k : Fin 20003 => val_main_v6 (F := Ideal) x0 x2 x3 x4 x5 x6 (ix3 s b k)) j := by
  rw [val_main_v7_apply, val_main_call0_v10_apply, val_main_call0_v9_apply, val_main_call0_v8_apply,
    show idx_main_call0_v8 (idx_main_call0_v10 (ix3 s b j)) = ix2 s b by (funext a; apply Fin.ext; fin_cases a <;> rfl), rowSumExp0_eq, shifted0_eq]
  unfold logSoftmax
  simp only [Ideal.subf_def, Ideal.hostUnary_log_def]

theorem readWord0_eq (x1 : (⟨S64x8, .i32⟩ : BufTy).Contents (Elt Ideal)) (s : Fin 64) (b : Fin 8) :
    val_main_call2_v5 (F := Ideal) x1 (ix4 s b (0 : Fin 1) (0 : Fin 1)) = wrap 20003#32 (clip 19999#32 (x1 (ix2 s b))) := by
  rw [val_main_call2_v5_apply, show idx_main_call2_v5 (ix4 s b (0 : Fin 1) (0 : Fin 1)) = ix3 s b (0 : Fin 1) by (funext a; apply Fin.ext; have hs := s.isLt; have hb := b.isLt; match a with | ⟨0, _⟩ => (show ((((s.val * 8 + b.val) * 1 + 0) * 1 + 0) / 8 = s.val); omega) | ⟨1, _⟩ => (show ((((s.val * 8 + b.val) * 1 + 0) * 1 + 0) / 1 % 8 = b.val); omega) | ⟨2, _⟩ => rfl),
    val_main_call2_v4_apply, val_main_call2_v1_apply, val_main_call2_v3_apply, val_main_v16_apply,
    show idx_main_v16 (ix3 s b (0 : Fin 1)) = ix2 s b by (funext a; apply Fin.ext; fin_cases a <;> rfl), val_main_v15_apply,
    val_main_call1_v4_apply, val_main_call1_v3_apply, val_main_c_2_apply, val_main_call1_v2_apply,
    val_main_call1_v1_apply, val_main_call1_v0_apply, val_main_c_1_apply, val_main_call2_v0_apply,
    val_main_call2_c_apply, val_main_call2_v2_apply, val_main_call2_c_0_apply]
  rfl

theorem readOk0_eq (x1 : (⟨S64x8, .i32⟩ : BufTy).Contents (Elt Ideal)) (s : Fin 64) (b : Fin 8) :
    val_main_call2_v12 (F := Ideal) x1 (ix3 s b (0 : Fin 1)) = inBounds 20002#32 (wrap 20003#32 (clip 19999#32 (x1 (ix2 s b)))) := by
  unfold val_main_call2_v12
  rw [reduceAnd_apply _ _ reducesTo_S64x8x1x1_S64x8x1_d3 (by decide) h_S_ s b, val_main_call2_v11_apply,
    val_main_call2_v7_apply, val_main_call2_v10_apply, val_main_call2_v6_apply, val_main_call2_c_2_apply,
    val_main_call2_v9_apply, val_main_call2_v8_apply, val_main_call2_c_1_apply, readWord0_eq]
  exact andi_one _

theorem gathered0_eq (x0 : (⟨S64x8x1024, .f32⟩ : BufTy).Contents (Elt Ideal)) (x1 : (⟨S64x8, .i32⟩ : BufTy).Contents (Elt Ideal)) (x2 : (⟨S3x1024, .f32⟩ : BufTy).Contents (Elt Ideal)) (x3 : (⟨S3, .f32⟩ : BufTy).Contents (Elt Ideal)) (x4 : (⟨S20000x1024, .f32⟩ : BufTy).Contents (Elt Ideal)) (x5 : (⟨S20000, .f32⟩ : BufTy).Contents (Elt Ideal)) (x6 : (⟨S1024x1024, .f32⟩ : BufTy).Contents (Elt Ideal)) (s : Fin 64) (b : Fin 8) :
    val_main_call2_v13 (F := Ideal) x0 x1 x2 x3 x4 x5 x6 (ix3 s b (0 : Fin 1))
      = val_main_v7 (F := Ideal) x0 x2 x3 x4 x5 x6 (ix3 s b ⟨min (wrap 20003#32 (clip 19999#32 (x1 (ix2 s b)))).toInt.toNat (20003 - 1), by omega⟩) := by
  unfold val_main_call2_v13
  refine (gather_takeAlong_apply (n := 20003) (by decide) gather_S64x8x20003_S64x8x1x1_S64x8x1_n_2_01_01_2_3_111_wf _ _ s b).trans ?_
  refine congrArg _ (congrArg (ix3 s b) (Fin.ext ?_))
  show min (val_main_call2_v5 (F := Ideal) x1 (ix4 s b (0 : Fin 1) (0 : Fin 1))).toInt.toNat (20003 - 1) = _
  rw [readWord0_eq]

theorem sel0_eq (x0 : (⟨S64x8x1024, .f32⟩ : BufTy).Contents (Elt Ideal)) (x1 : (⟨S64x8, .i32⟩ : BufTy).Contents (Elt Ideal)) (x2 : (⟨S3x1024, .f32⟩ : BufTy).Contents (Elt Ideal)) (x3 : (⟨S3, .f32⟩ : BufTy).Contents (Elt Ideal)) (x4 : (⟨S20000x1024, .f32⟩ : BufTy).Contents (Elt Ideal)) (x5 : (⟨S20000, .f32⟩ : BufTy).Contents (Elt Ideal)) (x6 : (⟨S1024x1024, .f32⟩ : BufTy).Contents (Elt Ideal)) (s : Fin 64) (b : Fin 8) :
    val_main_v19 (F := Ideal) x0 x1 x2 x3 x4 x5 x6 (ix2 s b)
      = Scalar.select (inCluster 0#32 20000#32 (x1 (ix2 s b)))
          (take (by decide) (fun j : Fin 20003 => val_main_v7 (F := Ideal) x0 x2 x3 x4 x5 x6 (ix3 s b j)) 20002#32
            (wrap 20003#32 (clip 19999#32 (x1 (ix2 s b)))))
          (Ideal.ofBits .f32 0x00000000#32) := by
  rw [val_main_v19_apply, val_main_v18_apply, show idx_main_v18 (ix2 s b) = ix3 s b (0 : Fin 1) by (funext a; apply Fin.ext; have hs := s.isLt; have hb := b.isLt; match a with | ⟨0, _⟩ => (show (s.val * 8 + b.val) / 8 = s.val; omega) | ⟨1, _⟩ => (show (s.val * 8 + b.val) / 1 % 8 = b.val; omega) | ⟨2, _⟩ => rfl),
    val_main_v17_apply, readOk0_eq, gathered0_eq, val_main_call2_v14_apply, val_main_call2_cst_apply,
    val_main_v14_apply, val_main_v11_apply, val_main_v13_apply, val_main_v10_apply, val_main_c_apply, val_main_v12_apply,
    val_main_c_0_apply, val_main_v9_apply, val_main_cst_apply]
  rfl

end Cert.ReferenceIdeal.RefValue

end
-- ==== Proof.RefTail1.lean ====
/-
  Tail cluster 1 of the reference, stage by stage, is the specification's: its 20000 columns of width 256. The two inner
  products and the bias give the logits; the maximum-reduce folded from −∞, the subtraction, the exponentials summed
  from zero and the logarithm give the row's log-softmax; the joint row adds the head's routing column 20000. For the loss,
  the target moved to the cluster's origin (20000), clipped into [0, 19999] and wrapped is the word at which the gather
  reads the token's joint row, and the select on "20000 ≤ target < 40000" keeps the earlier clusters' value elsewhere.
-/
import proofs.«138250_j73134703116926_1_alg».proof.Proof.RefReadP
import proofs.«138250_j73134703116926_1_alg».proof.Proof.Spec
import proofs.«138250_j73134703116926_1_alg».proof.Proof.RefReads

noncomputable section

open scoped BigOperators

namespace Cert.ReferenceIdeal.RefValue

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx
open AdaptiveSpec AdaptiveSpec.Reads

/-- The logits of cluster 1: the hidden state against the projection, then against the weights, plus the bias. -/
theorem logit1_eq (x0 : (⟨S64x8x1024, .f32⟩ : BufTy).Contents (Elt Ideal)) (x7 : (⟨S20000x256, .f32⟩ : BufTy).Contents (Elt Ideal)) (x8 : (⟨S20000, .f32⟩ : BufTy).Contents (Elt Ideal)) (x9 : (⟨S256x1024, .f32⟩ : BufTy).Contents (Elt Ideal)) (s : Fin 64) (b : Fin 8) (j : Fin 20000) :
    val_main_v24 (F := Ideal) x0 x7 x8 x9 (ix3 s b j)
      = logit (fun s b d => x0 (ix3 s b d)) (fun k d => x9 (ix2 k d)) (fun j k => x7 (ix2 j k)) (fun j => x8 (ix1 j)) s b j := by
  rw [val_main_v24_apply, val_main_v21_apply, val_main_v23_apply, val_main_v22_apply]
  unfold logit proj
  show (∑ k : Fin 256, _) + _ = (∑ k : Fin 256, _) + _
  congr 1
  · refine Finset.sum_congr rfl fun k _ => ?_
    rw [val_main_v20_apply]
    congr 1
    · refine Finset.sum_congr rfl fun d _ => ?_
      congr 2 <;> (funext a; apply Fin.ext; fin_cases a <;> rfl)
    · exact congrArg x7 (by (funext a; apply Fin.ext; fin_cases a <;> rfl))
  · exact congrArg x8 (by (funext a; apply Fin.ext; fin_cases a <;> rfl))

/-- The row maximum of cluster 1, as the reference computes it. -/
theorem rowMax1_eq (x0 : (⟨S64x8x1024, .f32⟩ : BufTy).Contents (Elt Ideal)) (x7 : (⟨S20000x256, .f32⟩ : BufTy).Contents (Elt Ideal)) (x8 : (⟨S20000, .f32⟩ : BufTy).Contents (Elt Ideal)) (x9 : (⟨S256x1024, .f32⟩ : BufTy).Contents (Elt Ideal)) (s : Fin 64) (b : Fin 8) :
    val_main_call4_v2 (F := Ideal) x0 x7 x8 x9 (ix2 s b)
      = rowMax (fun k : Fin 20000 => val_main_v24 (F := Ideal) x0 x7 x8 x9 (ix3 s b k)) := by
  rw [val_main_call4_v2_apply, val_main_call4_v1_apply, val_main_call4_cst_0_apply]
  unfold val_main_call4_v0 rowMax
  refine congrArg (max _) ?_
  exact reduceMax_apply _ _ reducesTo_S64x8x20000_S64x8_d2 (by decide) h_S_ s b

/-- The logits of cluster 1 with the row maximum subtracted. -/
theorem shifted1_eq (x0 : (⟨S64x8x1024, .f32⟩ : BufTy).Contents (Elt Ideal)) (x7 : (⟨S20000x256, .f32⟩ : BufTy).Contents (Elt Ideal)) (x8 : (⟨S20000, .f32⟩ : BufTy).Contents (Elt Ideal)) (x9 : (⟨S256x1024, .f32⟩ : BufTy).Contents (Elt Ideal)) (s : Fin 64) (b : Fin 8) (k : Fin 20000) :
    val_main_call4_v5 (F := Ideal) x0 x7 x8 x9 (ix3 s b k)
      = val_main_v24 (F := Ideal) x0 x7 x8 x9 (ix3 s b k) - rowMax (fun k : Fin 20000 => val_main_v24 (F := Ideal) x0 x7 x8 x9 (ix3 s b k)) := by
  rw [val_main_call4_v5_apply, val_main_call4_v4_apply, val_main_call4_v3_apply,
    show idx_main_call4_v3 (idx_main_call4_v4 (ix3 s b k)) = ix2 s b by (funext a; apply Fin.ext; fin_cases a <;> rfl), rowMax1_eq]
  rfl

/-- The row's sum of exponentials of cluster 1. -/
theorem rowSumExp1_eq (x0 : (⟨S64x8x1024, .f32⟩ : BufTy).Contents (Elt Ideal)) (x7 : (⟨S20000x256, .f32⟩ : BufTy).Contents (Elt Ideal)) (x8 : (⟨S20000, .f32⟩ : BufTy).Contents (Elt Ideal)) (x9 : (⟨S256x1024, .f32⟩ : BufTy).Contents (Elt Ideal)) (s : Fin 64) (b : Fin 8) :
    val_main_call4_v7 (F := Ideal) x0 x7 x8 x9 (ix2 s b)
      = rowSumExp (fun k : Fin 20000 => val_main_v24 (F := Ideal) x0 x7 x8 x9 (ix3 s b k)) := by
  rw [val_main_call4_v7_apply]
  unfold rowSumExp
  refine congrArg₂ (· + ·) rfl (Finset.sum_congr rfl fun k _ => ?_)
  rw [show idx_main_call4_v7 (ix2 s b) k = ix3 s b k by (funext a; apply Fin.ext; fin_cases a <;> rfl), val_main_call4_v6_apply, shifted1_eq]
  rfl

/-- The log-softmax of cluster 1's row of logits. -/
theorem logSoftmax1_eq (x0 : (⟨S64x8x1024, .f32⟩ : BufTy).Contents (Elt Ideal)) (x7 : (⟨S20000x256, .f32⟩ : BufTy).Contents (Elt Ideal)) (x8 : (⟨S20000, .f32⟩ : BufTy).Contents (Elt Ideal)) (x9 : (⟨S256x1024, .f32⟩ : BufTy).Contents (Elt Ideal)) (s : Fin 64) (b : Fin 8) (j : Fin 20000) :
    val_main_v25 (F := Ideal) x0 x7 x8 x9 (ix3 s b j)
      = logSoftmax (fun k : Fin 20000 => val_main_v24 (F := Ideal) x0 x7 x8 x9 (ix3 s b k)) j := by
  rw [val_main_v25_apply, val_main_call4_v10_apply, val_main_call4_v9_apply, val_main_call4_v8_apply,
    show idx_main_call4_v8 (idx_main_call4_v10 (ix3 s b j)) = ix2 s b by (funext a; apply Fin.ext; fin_cases a <;> rfl), rowSumExp1_eq, shifted1_eq]
  unfold logSoftmax
  simp only [Ideal.subf_def, Ideal.hostUnary_log_def]

/-- The joint row of cluster 1: the head's routing column 20000 plus the within-cluster log-probability. -/
theorem joint1_eq (x0 : (⟨S64x8x1024, .f32⟩ : BufTy).Contents (Elt Ideal)) (x2 : (⟨S3x1024, .f32⟩ : BufTy).Contents (Elt Ideal)) (x3 : (⟨S3, .f32⟩ : BufTy).Contents (Elt Ideal)) (x4 : (⟨S20000x1024, .f32⟩ : BufTy).Contents (Elt Ideal)) (x5 : (⟨S20000, .f32⟩ : BufTy).Contents (Elt Ideal)) (x6 : (⟨S1024x1024, .f32⟩ : BufTy).Contents (Elt Ideal)) (x7 : (⟨S20000x256, .f32⟩ : BufTy).Contents (Elt Ideal)) (x8 : (⟨S20000, .f32⟩ : BufTy).Contents (Elt Ideal)) (x9 : (⟨S256x1024, .f32⟩ : BufTy).Contents (Elt Ideal)) (s : Fin 64) (b : Fin 8) (j : Fin 20000) :
    val_main_v30 (F := Ideal) x0 x2 x3 x4 x5 x6 x7 x8 x9 (ix3 s b j)
      = val_main_v7 (F := Ideal) x0 x2 x3 x4 x5 x6 (ix3 s b ⟨20000, by decide⟩) + val_main_v25 (F := Ideal) x0 x7 x8 x9 (ix3 s b j) := by
  rw [val_main_v30_apply, val_main_v29_apply, val_main_v28_apply, val_main_v27_apply, val_main_v26_apply]
  refine congrArg₂ (· + ·) (congrArg _ ?_) rfl
  funext a; apply Fin.ext; have hs := s.isLt; have hb := b.isLt; match a with | ⟨0, _⟩ => (show (s.val * 8 + b.val) / 8 = s.val; omega) | ⟨1, _⟩ => (show (s.val * 8 + b.val) / 1 % 8 = b.val; omega) | ⟨2, _⟩ => rfl

/-- The word at which cluster 1's row is read for token (s, b): the target moved to the cluster's origin, clipped into the cluster, a
    negative word counted from the end. -/
theorem readWord1_eq (x1 : (⟨S64x8, .i32⟩ : BufTy).Contents (Elt Ideal)) (s : Fin 64) (b : Fin 8) :
    val_main_call6_v5 (F := Ideal) x1 (ix4 s b (0 : Fin 1) (0 : Fin 1)) = wrap 20000#32 (clip 19999#32 (IntOp.subi (x1 (ix2 s b)) 20000#32)) := by
  rw [val_main_call6_v5_apply, show idx_main_call6_v5 (ix4 s b (0 : Fin 1) (0 : Fin 1)) = ix3 s b (0 : Fin 1) by (funext a; apply Fin.ext; have hs := s.isLt; have hb := b.isLt; match a with | ⟨0, _⟩ => (show ((((s.val * 8 + b.val) * 1 + 0) * 1 + 0) / 8 = s.val); omega) | ⟨1, _⟩ => (show ((((s.val * 8 + b.val) * 1 + 0) * 1 + 0) / 1 % 8 = b.val); omega) | ⟨2, _⟩ => rfl),
    val_main_call6_v4_apply, val_main_call6_v1_apply, val_main_call6_v3_apply, val_main_v39_apply,
    show idx_main_v39 (ix3 s b (0 : Fin 1)) = ix2 s b by (funext a; apply Fin.ext; fin_cases a <;> rfl), val_main_v38_apply,
    val_main_call5_v4_apply, val_main_call5_v3_apply, val_main_c_7_apply, val_main_call5_v2_apply,
    val_main_call5_v1_apply, val_main_call5_v0_apply, val_main_c_6_apply, val_main_call6_v0_apply,
    val_main_call6_c_apply, val_main_call6_v2_apply, val_main_call6_c_0_apply, val_main_v37_apply, val_main_v36_apply, val_main_c_5_apply]
  rfl

/-- The bit that the read word is inside cluster 1's row. -/
theorem readOk1_eq (x1 : (⟨S64x8, .i32⟩ : BufTy).Contents (Elt Ideal)) (s : Fin 64) (b : Fin 8) :
    val_main_call6_v12 (F := Ideal) x1 (ix3 s b (0 : Fin 1)) = inBounds 19999#32 (wrap 20000#32 (clip 19999#32 (IntOp.subi (x1 (ix2 s b)) 20000#32))) := by
  unfold val_main_call6_v12
  rw [reduceAnd_apply _ _ reducesTo_S64x8x1x1_S64x8x1_d3 (by decide) h_S_ s b, val_main_call6_v11_apply,
    val_main_call6_v7_apply, val_main_call6_v10_apply, val_main_call6_v6_apply, val_main_call6_c_2_apply,
    val_main_call6_v9_apply, val_main_call6_v8_apply, val_main_call6_c_1_apply, readWord1_eq]
  exact andi_one _

/-- The gathered entry of cluster 1's row for token (s, b). -/
theorem gathered1_eq (x0 : (⟨S64x8x1024, .f32⟩ : BufTy).Contents (Elt Ideal)) (x1 : (⟨S64x8, .i32⟩ : BufTy).Contents (Elt Ideal)) (x2 : (⟨S3x1024, .f32⟩ : BufTy).Contents (Elt Ideal)) (x3 : (⟨S3, .f32⟩ : BufTy).Contents (Elt Ideal)) (x4 : (⟨S20000x1024, .f32⟩ : BufTy).Contents (Elt Ideal)) (x5 : (⟨S20000, .f32⟩ : BufTy).Contents (Elt Ideal)) (x6 : (⟨S1024x1024, .f32⟩ : BufTy).Contents (Elt Ideal)) (x7 : (⟨S20000x256, .f32⟩ : BufTy).Contents (Elt Ideal)) (x8 : (⟨S20000, .f32⟩ : BufTy).Contents (Elt Ideal)) (x9 : (⟨S256x1024, .f32⟩ : BufTy).Contents (Elt Ideal)) (s : Fin 64) (b : Fin 8) :
    val_main_call6_v13 (F := Ideal) x0 x1 x2 x3 x4 x5 x6 x7 x8 x9 (ix3 s b (0 : Fin 1))
      = val_main_v30 (F := Ideal) x0 x2 x3 x4 x5 x6 x7 x8 x9 (ix3 s b ⟨min (wrap 20000#32 (clip 19999#32 (IntOp.subi (x1 (ix2 s b)) 20000#32))).toInt.toNat (20000 - 1), by omega⟩) := by
  unfold val_main_call6_v13
  refine (gather_takeAlong_apply (n := 20000) (by decide) gather_S64x8x20000_S64x8x1x1_S64x8x1_n_2_01_01_2_3_111_wf _ _ s b).trans ?_
  refine congrArg _ (congrArg (ix3 s b) (Fin.ext ?_))
  show min (val_main_call6_v5 (F := Ideal) x1 (ix4 s b (0 : Fin 1) (0 : Fin 1))).toInt.toNat (20000 - 1) = _
  rw [readWord1_eq]

/-- A token's selected log-probability through cluster 1. -/
theorem sel1_eq (x0 : (⟨S64x8x1024, .f32⟩ : BufTy).Contents (Elt Ideal)) (x1 : (⟨S64x8, .i32⟩ : BufTy).Contents (Elt Ideal)) (x2 : (⟨S3x1024, .f32⟩ : BufTy).Contents (Elt Ideal)) (x3 : (⟨S3, .f32⟩ : BufTy).Contents (Elt Ideal)) (x4 : (⟨S20000x1024, .f32⟩ : BufTy).Contents (Elt Ideal)) (x5 : (⟨S20000, .f32⟩ : BufTy).Contents (Elt Ideal)) (x6 : (⟨S1024x1024, .f32⟩ : BufTy).Contents (Elt Ideal)) (x7 : (⟨S20000x256, .f32⟩ : BufTy).Contents (Elt Ideal)) (x8 : (⟨S20000, .f32⟩ : BufTy).Contents (Elt Ideal)) (x9 : (⟨S256x1024, .f32⟩ : BufTy).Contents (Elt Ideal)) (s : Fin 64) (b : Fin 8) :
    val_main_v42 (F := Ideal) x0 x1 x2 x3 x4 x5 x6 x7 x8 x9 (ix2 s b)
      = Scalar.select (inCluster 20000#32 40000#32 (x1 (ix2 s b)))
          (take (by decide) (fun j : Fin 20000 => val_main_v30 (F := Ideal) x0 x2 x3 x4 x5 x6 x7 x8 x9 (ix3 s b j)) 19999#32
            (wrap 20000#32 (clip 19999#32 (IntOp.subi (x1 (ix2 s b)) 20000#32))))
          (val_main_v19 (F := Ideal) x0 x1 x2 x3 x4 x5 x6 (ix2 s b)) := by
  rw [val_main_v42_apply, val_main_v41_apply, show idx_main_v41 (ix2 s b) = ix3 s b (0 : Fin 1) by (funext a; apply Fin.ext; have hs := s.isLt; have hb := b.isLt; match a with | ⟨0, _⟩ => (show (s.val * 8 + b.val) / 8 = s.val; omega) | ⟨1, _⟩ => (show (s.val * 8 + b.val) / 1 % 8 = b.val; omega) | ⟨2, _⟩ => rfl),
    val_main_v40_apply, readOk1_eq, gathered1_eq, val_main_call6_v14_apply, val_main_call6_cst_apply,
    val_main_v35_apply, val_main_v32_apply, val_main_v34_apply, val_main_v31_apply, val_main_c_3_apply,
    val_main_v33_apply, val_main_c_4_apply]
  rfl

end Cert.ReferenceIdeal.RefValue

end
-- ==== Proof.RefTail2.lean ====
/-
  Tail cluster 2 of the reference, stage by stage, is the specification's: its 160000 columns of width 64. The two inner
  products and the bias give the logits; the maximum-reduce folded from −∞, the subtraction, the exponentials summed
  from zero and the logarithm give the row's log-softmax; the joint row adds the head's routing column 20001. For the loss,
  the target moved to the cluster's origin (40000), clipped into [0, 159999] and wrapped is the word at which the gather
  reads the token's joint row, and the select on "40000 ≤ target < 200000" keeps the earlier clusters' value elsewhere.
-/
import proofs.«138250_j73134703116926_1_alg».proof.Proof.RefReadP
import proofs.«138250_j73134703116926_1_alg».proof.Proof.Spec
import proofs.«138250_j73134703116926_1_alg».proof.Proof.RefReads

noncomputable section

open scoped BigOperators

namespace Cert.ReferenceIdeal.RefValue

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx
open AdaptiveSpec AdaptiveSpec.Reads

/-- The logits of cluster 2: the hidden state against the projection, then against the weights, plus the bias. -/
theorem logit2_eq (x0 : (⟨S64x8x1024, .f32⟩ : BufTy).Contents (Elt Ideal)) (x10 : (⟨S160000x64, .f32⟩ : BufTy).Contents (Elt Ideal)) (x11 : (⟨S160000, .f32⟩ : BufTy).Contents (Elt Ideal)) (x12 : (⟨S64x1024, .f32⟩ : BufTy).Contents (Elt Ideal)) (s : Fin 64) (b : Fin 8) (j : Fin 160000) :
    val_main_v47 (F := Ideal) x0 x10 x11 x12 (ix3 s b j)
      = logit (fun s b d => x0 (ix3 s b d)) (fun k d => x12 (ix2 k d)) (fun j k => x10 (ix2 j k)) (fun j => x11 (ix1 j)) s b j := by
  rw [val_main_v47_apply, val_main_v44_apply, val_main_v46_apply, val_main_v45_apply]
  unfold logit proj
  show (∑ k : Fin 64, _) + _ = (∑ k : Fin 64, _) + _
  congr 1
  · refine Finset.sum_congr rfl fun k _ => ?_
    rw [val_main_v43_apply]
    congr 1
    · refine Finset.sum_congr rfl fun d _ => ?_
      congr 2 <;> (funext a; apply Fin.ext; fin_cases a <;> rfl)
    · exact congrArg x10 (by (funext a; apply Fin.ext; fin_cases a <;> rfl))
  · exact congrArg x11 (by (funext a; apply Fin.ext; fin_cases a <;> rfl))

/-- The row maximum of cluster 2, as the reference computes it. -/
theorem rowMax2_eq (x0 : (⟨S64x8x1024, .f32⟩ : BufTy).Contents (Elt Ideal)) (x10 : (⟨S160000x64, .f32⟩ : BufTy).Contents (Elt Ideal)) (x11 : (⟨S160000, .f32⟩ : BufTy).Contents (Elt Ideal)) (x12 : (⟨S64x1024, .f32⟩ : BufTy).Contents (Elt Ideal)) (s : Fin 64) (b : Fin 8) :
    val_main_call8_v2 (F := Ideal) x0 x10 x11 x12 (ix2 s b)
      = rowMax (fun k : Fin 160000 => val_main_v47 (F := Ideal) x0 x10 x11 x12 (ix3 s b k)) := by
  rw [val_main_call8_v2_apply, val_main_call8_v1_apply, val_main_call8_cst_0_apply]
  unfold val_main_call8_v0 rowMax
  refine congrArg (max _) ?_
  exact reduceMax_apply _ _ reducesTo_S64x8x160000_S64x8_d2 (by decide) h_S_ s b

/-- The logits of cluster 2 with the row maximum subtracted. -/
theorem shifted2_eq (x0 : (⟨S64x8x1024, .f32⟩ : BufTy).Contents (Elt Ideal)) (x10 : (⟨S160000x64, .f32⟩ : BufTy).Contents (Elt Ideal)) (x11 : (⟨S160000, .f32⟩ : BufTy).Contents (Elt Ideal)) (x12 : (⟨S64x1024, .f32⟩ : BufTy).Contents (Elt Ideal)) (s : Fin 64) (b : Fin 8) (k : Fin 160000) :
    val_main_call8_v5 (F := Ideal) x0 x10 x11 x12 (ix3 s b k)
      = val_main_v47 (F := Ideal) x0 x10 x11 x12 (ix3 s b k) - rowMax (fun k : Fin 160000 => val_main_v47 (F := Ideal) x0 x10 x11 x12 (ix3 s b k)) := by
  rw [val_main_call8_v5_apply, val_main_call8_v4_apply, val_main_call8_v3_apply,
    show idx_main_call8_v3 (idx_main_call8_v4 (ix3 s b k)) = ix2 s b by (funext a; apply Fin.ext; fin_cases a <;> rfl), rowMax2_eq]
  rfl

/-- The row's sum of exponentials of cluster 2. -/
theorem rowSumExp2_eq (x0 : (⟨S64x8x1024, .f32⟩ : BufTy).Contents (Elt Ideal)) (x10 : (⟨S160000x64, .f32⟩ : BufTy).Contents (Elt Ideal)) (x11 : (⟨S160000, .f32⟩ : BufTy).Contents (Elt Ideal)) (x12 : (⟨S64x1024, .f32⟩ : BufTy).Contents (Elt Ideal)) (s : Fin 64) (b : Fin 8) :
    val_main_call8_v7 (F := Ideal) x0 x10 x11 x12 (ix2 s b)
      = rowSumExp (fun k : Fin 160000 => val_main_v47 (F := Ideal) x0 x10 x11 x12 (ix3 s b k)) := by
  rw [val_main_call8_v7_apply]
  unfold rowSumExp
  refine congrArg₂ (· + ·) rfl (Finset.sum_congr rfl fun k _ => ?_)
  rw [show idx_main_call8_v7 (ix2 s b) k = ix3 s b k by (funext a; apply Fin.ext; fin_cases a <;> rfl), val_main_call8_v6_apply, shifted2_eq]
  rfl

/-- The log-softmax of cluster 2's row of logits. -/
theorem logSoftmax2_eq (x0 : (⟨S64x8x1024, .f32⟩ : BufTy).Contents (Elt Ideal)) (x10 : (⟨S160000x64, .f32⟩ : BufTy).Contents (Elt Ideal)) (x11 : (⟨S160000, .f32⟩ : BufTy).Contents (Elt Ideal)) (x12 : (⟨S64x1024, .f32⟩ : BufTy).Contents (Elt Ideal)) (s : Fin 64) (b : Fin 8) (j : Fin 160000) :
    val_main_v48 (F := Ideal) x0 x10 x11 x12 (ix3 s b j)
      = logSoftmax (fun k : Fin 160000 => val_main_v47 (F := Ideal) x0 x10 x11 x12 (ix3 s b k)) j := by
  rw [val_main_v48_apply, val_main_call8_v10_apply, val_main_call8_v9_apply, val_main_call8_v8_apply,
    show idx_main_call8_v8 (idx_main_call8_v10 (ix3 s b j)) = ix2 s b by (funext a; apply Fin.ext; fin_cases a <;> rfl), rowSumExp2_eq, shifted2_eq]
  unfold logSoftmax
  simp only [Ideal.subf_def, Ideal.hostUnary_log_def]

/-- The joint row of cluster 2: the head's routing column 20001 plus the within-cluster log-probability. -/
theorem joint2_eq (x0 : (⟨S64x8x1024, .f32⟩ : BufTy).Contents (Elt Ideal)) (x2 : (⟨S3x1024, .f32⟩ : BufTy).Contents (Elt Ideal)) (x3 : (⟨S3, .f32⟩ : BufTy).Contents (Elt Ideal)) (x4 : (⟨S20000x1024, .f32⟩ : BufTy).Contents (Elt Ideal)) (x5 : (⟨S20000, .f32⟩ : BufTy).Contents (Elt Ideal)) (x6 : (⟨S1024x1024, .f32⟩ : BufTy).Contents (Elt Ideal)) (x10 : (⟨S160000x64, .f32⟩ : BufTy).Contents (Elt Ideal)) (x11 : (⟨S160000, .f32⟩ : BufTy).Contents (Elt Ideal)) (x12 : (⟨S64x1024, .f32⟩ : BufTy).Contents (Elt Ideal)) (s : Fin 64) (b : Fin 8) (j : Fin 160000) :
    val_main_v53 (F := Ideal) x0 x2 x3 x4 x5 x6 x10 x11 x12 (ix3 s b j)
      = val_main_v7 (F := Ideal) x0 x2 x3 x4 x5 x6 (ix3 s b ⟨20001, by decide⟩) + val_main_v48 (F := Ideal) x0 x10 x11 x12 (ix3 s b j) := by
  rw [val_main_v53_apply, val_main_v52_apply, val_main_v51_apply, val_main_v50_apply, val_main_v49_apply]
  refine congrArg₂ (· + ·) (congrArg _ ?_) rfl
  funext a; apply Fin.ext; have hs := s.isLt; have hb := b.isLt; match a with | ⟨0, _⟩ => (show (s.val * 8 + b.val) / 8 = s.val; omega) | ⟨1, _⟩ => (show (s.val * 8 + b.val) / 1 % 8 = b.val; omega) | ⟨2, _⟩ => rfl

/-- The word at which cluster 2's row is read for token (s, b): the target moved to the cluster's origin, clipped into the cluster, a
    negative word counted from the end. -/
theorem readWord2_eq (x1 : (⟨S64x8, .i32⟩ : BufTy).Contents (Elt Ideal)) (s : Fin 64) (b : Fin 8) :
    val_main_call10_v5 (F := Ideal) x1 (ix4 s b (0 : Fin 1) (0 : Fin 1)) = wrap 160000#32 (clip 159999#32 (IntOp.subi (x1 (ix2 s b)) 40000#32)) := by
  rw [val_main_call10_v5_apply, show idx_main_call10_v5 (ix4 s b (0 : Fin 1) (0 : Fin 1)) = ix3 s b (0 : Fin 1) by (funext a; apply Fin.ext; have hs := s.isLt; have hb := b.isLt; match a with | ⟨0, _⟩ => (show ((((s.val * 8 + b.val) * 1 + 0) * 1 + 0) / 8 = s.val); omega) | ⟨1, _⟩ => (show ((((s.val * 8 + b.val) * 1 + 0) * 1 + 0) / 1 % 8 = b.val); omega) | ⟨2, _⟩ => rfl),
    val_main_call10_v4_apply, val_main_call10_v1_apply, val_main_call10_v3_apply, val_main_v62_apply,
    show idx_main_v62 (ix3 s b (0 : Fin 1)) = ix2 s b by (funext a; apply Fin.ext; fin_cases a <;> rfl), val_main_v61_apply,
    val_main_call9_v4_apply, val_main_call9_v3_apply, val_main_c_12_apply, val_main_call9_v2_apply,
    val_main_call9_v1_apply, val_main_call9_v0_apply, val_main_c_11_apply, val_main_call10_v0_apply,
    val_main_call10_c_apply, val_main_call10_v2_apply, val_main_call10_c_0_apply, val_main_v60_apply, val_main_v59_apply, val_main_c_10_apply]
  rfl

/-- The bit that the read word is inside cluster 2's row. -/
theorem readOk2_eq (x1 : (⟨S64x8, .i32⟩ : BufTy).Contents (Elt Ideal)) (s : Fin 64) (b : Fin 8) :
    val_main_call10_v12 (F := Ideal) x1 (ix3 s b (0 : Fin 1)) = inBounds 159999#32 (wrap 160000#32 (clip 159999#32 (IntOp.subi (x1 (ix2 s b)) 40000#32))) := by
  unfold val_main_call10_v12
  rw [reduceAnd_apply _ _ reducesTo_S64x8x1x1_S64x8x1_d3 (by decide) h_S_ s b, val_main_call10_v11_apply,
    val_main_call10_v7_apply, val_main_call10_v10_apply, val_main_call10_v6_apply, val_main_call10_c_2_apply,
    val_main_call10_v9_apply, val_main_call10_v8_apply, val_main_call10_c_1_apply, readWord2_eq]
  exact andi_one _

/-- The gathered entry of cluster 2's row for token (s, b). -/
theorem gathered2_eq (x0 : (⟨S64x8x1024, .f32⟩ : BufTy).Contents (Elt Ideal)) (x1 : (⟨S64x8, .i32⟩ : BufTy).Contents (Elt Ideal)) (x2 : (⟨S3x1024, .f32⟩ : BufTy).Contents (Elt Ideal)) (x3 : (⟨S3, .f32⟩ : BufTy).Contents (Elt Ideal)) (x4 : (⟨S20000x1024, .f32⟩ : BufTy).Contents (Elt Ideal)) (x5 : (⟨S20000, .f32⟩ : BufTy).Contents (Elt Ideal)) (x6 : (⟨S1024x1024, .f32⟩ : BufTy).Contents (Elt Ideal)) (x10 : (⟨S160000x64, .f32⟩ : BufTy).Contents (Elt Ideal)) (x11 : (⟨S160000, .f32⟩ : BufTy).Contents (Elt Ideal)) (x12 : (⟨S64x1024, .f32⟩ : BufTy).Contents (Elt Ideal)) (s : Fin 64) (b : Fin 8) :
    val_main_call10_v13 (F := Ideal) x0 x1 x2 x3 x4 x5 x6 x10 x11 x12 (ix3 s b (0 : Fin 1))
      = val_main_v53 (F := Ideal) x0 x2 x3 x4 x5 x6 x10 x11 x12 (ix3 s b ⟨min (wrap 160000#32 (clip 159999#32 (IntOp.subi (x1 (ix2 s b)) 40000#32))).toInt.toNat (160000 - 1), by omega⟩) := by
  unfold val_main_call10_v13
  refine (gather_takeAlong_apply (n := 160000) (by decide) gather_S64x8x160000_S64x8x1x1_S64x8x1_n_2_01_01_2_3_111_wf _ _ s b).trans ?_
  refine congrArg _ (congrArg (ix3 s b) (Fin.ext ?_))
  show min (val_main_call10_v5 (F := Ideal) x1 (ix4 s b (0 : Fin 1) (0 : Fin 1))).toInt.toNat (160000 - 1) = _
  rw [readWord2_eq]

/-- A token's selected log-probability through cluster 2. -/
theorem sel2_eq (x0 : (⟨S64x8x1024, .f32⟩ : BufTy).Contents (Elt Ideal)) (x1 : (⟨S64x8, .i32⟩ : BufTy).Contents (Elt Ideal)) (x2 : (⟨S3x1024, .f32⟩ : BufTy).Contents (Elt Ideal)) (x3 : (⟨S3, .f32⟩ : BufTy).Contents (Elt Ideal)) (x4 : (⟨S20000x1024, .f32⟩ : BufTy).Contents (Elt Ideal)) (x5 : (⟨S20000, .f32⟩ : BufTy).Contents (Elt Ideal)) (x6 : (⟨S1024x1024, .f32⟩ : BufTy).Contents (Elt Ideal)) (x7 : (⟨S20000x256, .f32⟩ : BufTy).Contents (Elt Ideal)) (x8 : (⟨S20000, .f32⟩ : BufTy).Contents (Elt Ideal)) (x9 : (⟨S256x1024, .f32⟩ : BufTy).Contents (Elt Ideal)) (x10 : (⟨S160000x64, .f32⟩ : BufTy).Contents (Elt Ideal)) (x11 : (⟨S160000, .f32⟩ : BufTy).Contents (Elt Ideal)) (x12 : (⟨S64x1024, .f32⟩ : BufTy).Contents (Elt Ideal)) (s : Fin 64) (b : Fin 8) :
    val_main_v65 (F := Ideal) x0 x1 x2 x3 x4 x5 x6 x7 x8 x9 x10 x11 x12 (ix2 s b)
      = Scalar.select (inCluster 40000#32 200000#32 (x1 (ix2 s b)))
          (take (by decide) (fun j : Fin 160000 => val_main_v53 (F := Ideal) x0 x2 x3 x4 x5 x6 x10 x11 x12 (ix3 s b j)) 159999#32
            (wrap 160000#32 (clip 159999#32 (IntOp.subi (x1 (ix2 s b)) 40000#32))))
          (val_main_v42 (F := Ideal) x0 x1 x2 x3 x4 x5 x6 x7 x8 x9 (ix2 s b)) := by
  rw [val_main_v65_apply, val_main_v64_apply, show idx_main_v64 (ix2 s b) = ix3 s b (0 : Fin 1) by (funext a; apply Fin.ext; have hs := s.isLt; have hb := b.isLt; match a with | ⟨0, _⟩ => (show (s.val * 8 + b.val) / 8 = s.val; omega) | ⟨1, _⟩ => (show (s.val * 8 + b.val) / 1 % 8 = b.val; omega) | ⟨2, _⟩ => rfl),
    val_main_v63_apply, readOk2_eq, gathered2_eq, val_main_call10_v14_apply, val_main_call10_cst_apply,
    val_main_v58_apply, val_main_v55_apply, val_main_v57_apply, val_main_v54_apply, val_main_c_8_apply,
    val_main_v56_apply, val_main_c_9_apply]
  rfl

end Cert.ReferenceIdeal.RefValue

end
-- ==== Proof.RefTail3.lean ====
/-
  Tail cluster 3 of the reference, stage by stage, is the specification's: its 67735 columns of width 16. The two inner
  products and the bias give the logits; the maximum-reduce folded from −∞, the subtraction, the exponentials summed
  from zero and the logarithm give the row's log-softmax; the joint row adds the head's routing column 20002. For the loss,
  the target moved to the cluster's origin (200000), clipped into [0, 67734] and wrapped is the word at which the gather
  reads the token's joint row, and the select on "200000 ≤ target < 267735" keeps the earlier clusters' value elsewhere.
-/
import proofs.«138250_j73134703116926_1_alg».proof.Proof.RefReadP
import proofs.«138250_j73134703116926_1_alg».proof.Proof.Spec
import proofs.«138250_j73134703116926_1_alg».proof.Proof.RefReads

noncomputable section

open scoped BigOperators

namespace Cert.ReferenceIdeal.RefValue

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx
open AdaptiveSpec AdaptiveSpec.Reads

/-- The logits of cluster 3: the hidden state against the projection, then against the weights, plus the bias. -/
theorem logit3_eq (x0 : (⟨S64x8x1024, .f32⟩ : BufTy).Contents (Elt Ideal)) (x13 : (⟨S67735x16, .f32⟩ : BufTy).Contents (Elt Ideal)) (x14 : (⟨S67735, .f32⟩ : BufTy).Contents (Elt Ideal)) (x15 : (⟨S16x1024, .f32⟩ : BufTy).Contents (Elt Ideal)) (s : Fin 64) (b : Fin 8) (j : Fin 67735) :
    val_main_v70 (F := Ideal) x0 x13 x14 x15 (ix3 s b j)
      = logit (fun s b d => x0 (ix3 s b d)) (fun k d => x15 (ix2 k d)) (fun j k => x13 (ix2 j k)) (fun j => x14 (ix1 j)) s b j := by
  rw [val_main_v70_apply, val_main_v67_apply, val_main_v69_apply, val_main_v68_apply]
  unfold logit proj
  show (∑ k : Fin 16, _) + _ = (∑ k : Fin 16, _) + _
  congr 1
  · refine Finset.sum_congr rfl fun k _ => ?_
    rw [val_main_v66_apply]
    congr 1
    · refine Finset.sum_congr rfl fun d _ => ?_
      congr 2 <;> (funext a; apply Fin.ext; fin_cases a <;> rfl)
    · exact congrArg x13 (by (funext a; apply Fin.ext; fin_cases a <;> rfl))
  · exact congrArg x14 (by (funext a; apply Fin.ext; fin_cases a <;> rfl))

/-- The row maximum of cluster 3, as the reference computes it. -/
theorem rowMax3_eq (x0 : (⟨S64x8x1024, .f32⟩ : BufTy).Contents (Elt Ideal)) (x13 : (⟨S67735x16, .f32⟩ : BufTy).Contents (Elt Ideal)) (x14 : (⟨S67735, .f32⟩ : BufTy).Contents (Elt Ideal)) (x15 : (⟨S16x1024, .f32⟩ : BufTy).Contents (Elt Ideal)) (s : Fin 64) (b : Fin 8) :
    val_main_call12_v2 (F := Ideal) x0 x13 x14 x15 (ix2 s b)
      = rowMax (fun k : Fin 67735 => val_main_v70 (F := Ideal) x0 x13 x14 x15 (ix3 s b k)) := by
  rw [val_main_call12_v2_apply, val_main_call12_v1_apply, val_main_call12_cst_0_apply]
  unfold val_main_call12_v0 rowMax
  refine congrArg (max _) ?_
  exact reduceMax_apply _ _ reducesTo_S64x8x67735_S64x8_d2 (by decide) h_S_ s b

/-- The logits of cluster 3 with the row maximum subtracted. -/
theorem shifted3_eq (x0 : (⟨S64x8x1024, .f32⟩ : BufTy).Contents (Elt Ideal)) (x13 : (⟨S67735x16, .f32⟩ : BufTy).Contents (Elt Ideal)) (x14 : (⟨S67735, .f32⟩ : BufTy).Contents (Elt Ideal)) (x15 : (⟨S16x1024, .f32⟩ : BufTy).Contents (Elt Ideal)) (s : Fin 64) (b : Fin 8) (k : Fin 67735) :
    val_main_call12_v5 (F := Ideal) x0 x13 x14 x15 (ix3 s b k)
      = val_main_v70 (F := Ideal) x0 x13 x14 x15 (ix3 s b k) - rowMax (fun k : Fin 67735 => val_main_v70 (F := Ideal) x0 x13 x14 x15 (ix3 s b k)) := by
  rw [val_main_call12_v5_apply, val_main_call12_v4_apply, val_main_call12_v3_apply,
    show idx_main_call12_v3 (idx_main_call12_v4 (ix3 s b k)) = ix2 s b by (funext a; apply Fin.ext; fin_cases a <;> rfl), rowMax3_eq]
  rfl

/-- The row's sum of exponentials of cluster 3. -/
theorem rowSumExp3_eq (x0 : (⟨S64x8x1024, .f32⟩ : BufTy).Contents (Elt Ideal)) (x13 : (⟨S67735x16, .f32⟩ : BufTy).Contents (Elt Ideal)) (x14 : (⟨S67735, .f32⟩ : BufTy).Contents (Elt Ideal)) (x15 : (⟨S16x1024, .f32⟩ : BufTy).Contents (Elt Ideal)) (s : Fin 64) (b : Fin 8) :
    val_main_call12_v7 (F := Ideal) x0 x13 x14 x15 (ix2 s b)
      = rowSumExp (fun k : Fin 67735 => val_main_v70 (F := Ideal) x0 x13 x14 x15 (ix3 s b k)) := by
  rw [val_main_call12_v7_apply]
  unfold rowSumExp
  refine congrArg₂ (· + ·) rfl (Finset.sum_congr rfl fun k _ => ?_)
  rw [show idx_main_call12_v7 (ix2 s b) k = ix3 s b k by (funext a; apply Fin.ext; fin_cases a <;> rfl), val_main_call12_v6_apply, shifted3_eq]
  rfl

/-- The log-softmax of cluster 3's row of logits. -/
theorem logSoftmax3_eq (x0 : (⟨S64x8x1024, .f32⟩ : BufTy).Contents (Elt Ideal)) (x13 : (⟨S67735x16, .f32⟩ : BufTy).Contents (Elt Ideal)) (x14 : (⟨S67735, .f32⟩ : BufTy).Contents (Elt Ideal)) (x15 : (⟨S16x1024, .f32⟩ : BufTy).Contents (Elt Ideal)) (s : Fin 64) (b : Fin 8) (j : Fin 67735) :
    val_main_v71 (F := Ideal) x0 x13 x14 x15 (ix3 s b j)
      = logSoftmax (fun k : Fin 67735 => val_main_v70 (F := Ideal) x0 x13 x14 x15 (ix3 s b k)) j := by
  rw [val_main_v71_apply, val_main_call12_v10_apply, val_main_call12_v9_apply, val_main_call12_v8_apply,
    show idx_main_call12_v8 (idx_main_call12_v10 (ix3 s b j)) = ix2 s b by (funext a; apply Fin.ext; fin_cases a <;> rfl), rowSumExp3_eq, shifted3_eq]
  unfold logSoftmax
  simp only [Ideal.subf_def, Ideal.hostUnary_log_def]

/-- The joint row of cluster 3: the head's routing column 20002 plus the within-cluster log-probability. -/
theorem joint3_eq (x0 : (⟨S64x8x1024, .f32⟩ : BufTy).Contents (Elt Ideal)) (x2 : (⟨S3x1024, .f32⟩ : BufTy).Contents (Elt Ideal)) (x3 : (⟨S3, .f32⟩ : BufTy).Contents (Elt Ideal)) (x4 : (⟨S20000x1024, .f32⟩ : BufTy).Contents (Elt Ideal)) (x5 : (⟨S20000, .f32⟩ : BufTy).Contents (Elt Ideal)) (x6 : (⟨S1024x1024, .f32⟩ : BufTy).Contents (Elt Ideal)) (x13 : (⟨S67735x16, .f32⟩ : BufTy).Contents (Elt Ideal)) (x14 : (⟨S67735, .f32⟩ : BufTy).Contents (Elt Ideal)) (x15 : (⟨S16x1024, .f32⟩ : BufTy).Contents (Elt Ideal)) (s : Fin 64) (b : Fin 8) (j : Fin 67735) :
    val_main_v76 (F := Ideal) x0 x2 x3 x4 x5 x6 x13 x14 x15 (ix3 s b j)
      = val_main_v7 (F := Ideal) x0 x2 x3 x4 x5 x6 (ix3 s b ⟨20002, by decide⟩) + val_main_v71 (F := Ideal) x0 x13 x14 x15 (ix3 s b j) := by
  rw [val_main_v76_apply, val_main_v75_apply, val_main_v74_apply, val_main_v73_apply, val_main_v72_apply]
  refine congrArg₂ (· + ·) (congrArg _ ?_) rfl
  funext a; apply Fin.ext; have hs := s.isLt; have hb := b.isLt; match a with | ⟨0, _⟩ => (show (s.val * 8 + b.val) / 8 = s.val; omega) | ⟨1, _⟩ => (show (s.val * 8 + b.val) / 1 % 8 = b.val; omega) | ⟨2, _⟩ => rfl

/-- The word at which cluster 3's row is read for token (s, b): the target moved to the cluster's origin, clipped into the cluster, a
    negative word counted from the end. -/
theorem readWord3_eq (x1 : (⟨S64x8, .i32⟩ : BufTy).Contents (Elt Ideal)) (s : Fin 64) (b : Fin 8) :
    val_main_call14_v5 (F := Ideal) x1 (ix4 s b (0 : Fin 1) (0 : Fin 1)) = wrap 67735#32 (clip 67734#32 (IntOp.subi (x1 (ix2 s b)) 200000#32)) := by
  rw [val_main_call14_v5_apply, show idx_main_call14_v5 (ix4 s b (0 : Fin 1) (0 : Fin 1)) = ix3 s b (0 : Fin 1) by (funext a; apply Fin.ext; have hs := s.isLt; have hb := b.isLt; match a with | ⟨0, _⟩ => (show ((((s.val * 8 + b.val) * 1 + 0) * 1 + 0) / 8 = s.val); omega) | ⟨1, _⟩ => (show ((((s.val * 8 + b.val) * 1 + 0) * 1 + 0) / 1 % 8 = b.val); omega) | ⟨2, _⟩ => rfl),
    val_main_call14_v4_apply, val_main_call14_v1_apply, val_main_call14_v3_apply, val_main_v85_apply,
    show idx_main_v85 (ix3 s b (0 : Fin 1)) = ix2 s b by (funext a; apply Fin.ext; fin_cases a <;> rfl), val_main_v84_apply,
    val_main_call13_v4_apply, val_main_call13_v3_apply, val_main_c_17_apply, val_main_call13_v2_apply,
    val_main_call13_v1_apply, val_main_call13_v0_apply, val_main_c_16_apply, val_main_call14_v0_apply,
    val_main_call14_c_apply, val_main_call14_v2_apply, val_main_call14_c_0_apply, val_main_v83_apply, val_main_v82_apply, val_main_c_15_apply]
  rfl

/-- The bit that the read word is inside cluster 3's row. -/
theorem readOk3_eq (x1 : (⟨S64x8, .i32⟩ : BufTy).Contents (Elt Ideal)) (s : Fin 64) (b : Fin 8) :
    val_main_call14_v12 (F := Ideal) x1 (ix3 s b (0 : Fin 1)) = inBounds 67734#32 (wrap 67735#32 (clip 67734#32 (IntOp.subi (x1 (ix2 s b)) 200000#32))) := by
  unfold val_main_call14_v12
  rw [reduceAnd_apply _ _ reducesTo_S64x8x1x1_S64x8x1_d3 (by decide) h_S_ s b, val_main_call14_v11_apply,
    val_main_call14_v7_apply, val_main_call14_v10_apply, val_main_call14_v6_apply, val_main_call14_c_2_apply,
    val_main_call14_v9_apply, val_main_call14_v8_apply, val_main_call14_c_1_apply, readWord3_eq]
  exact andi_one _

/-- The gathered entry of cluster 3's row for token (s, b). -/
theorem gathered3_eq (x0 : (⟨S64x8x1024, .f32⟩ : BufTy).Contents (Elt Ideal)) (x1 : (⟨S64x8, .i32⟩ : BufTy).Contents (Elt Ideal)) (x2 : (⟨S3x1024, .f32⟩ : BufTy).Contents (Elt Ideal)) (x3 : (⟨S3, .f32⟩ : BufTy).Contents (Elt Ideal)) (x4 : (⟨S20000x1024, .f32⟩ : BufTy).Contents (Elt Ideal)) (x5 : (⟨S20000, .f32⟩ : BufTy).Contents (Elt Ideal)) (x6 : (⟨S1024x1024, .f32⟩ : BufTy).Contents (Elt Ideal)) (x13 : (⟨S67735x16, .f32⟩ : BufTy).Contents (Elt Ideal)) (x14 : (⟨S67735, .f32⟩ : BufTy).Contents (Elt Ideal)) (x15 : (⟨S16x1024, .f32⟩ : BufTy).Contents (Elt Ideal)) (s : Fin 64) (b : Fin 8) :
    val_main_call14_v13 (F := Ideal) x0 x1 x2 x3 x4 x5 x6 x13 x14 x15 (ix3 s b (0 : Fin 1))
      = val_main_v76 (F := Ideal) x0 x2 x3 x4 x5 x6 x13 x14 x15 (ix3 s b ⟨min (wrap 67735#32 (clip 67734#32 (IntOp.subi (x1 (ix2 s b)) 200000#32))).toInt.toNat (67735 - 1), by omega⟩) := by
  unfold val_main_call14_v13
  refine (gather_takeAlong_apply (n := 67735) (by decide) gather_S64x8x67735_S64x8x1x1_S64x8x1_n_2_01_01_2_3_111_wf _ _ s b).trans ?_
  refine congrArg _ (congrArg (ix3 s b) (Fin.ext ?_))
  show min (val_main_call14_v5 (F := Ideal) x1 (ix4 s b (0 : Fin 1) (0 : Fin 1))).toInt.toNat (67735 - 1) = _
  rw [readWord3_eq]

/-- A token's selected log-probability through cluster 3. -/
theorem sel3_eq (x0 : (⟨S64x8x1024, .f32⟩ : BufTy).Contents (Elt Ideal)) (x1 : (⟨S64x8, .i32⟩ : BufTy).Contents (Elt Ideal)) (x2 : (⟨S3x1024, .f32⟩ : BufTy).Contents (Elt Ideal)) (x3 : (⟨S3, .f32⟩ : BufTy).Contents (Elt Ideal)) (x4 : (⟨S20000x1024, .f32⟩ : BufTy).Contents (Elt Ideal)) (x5 : (⟨S20000, .f32⟩ : BufTy).Contents (Elt Ideal)) (x6 : (⟨S1024x1024, .f32⟩ : BufTy).Contents (Elt Ideal)) (x7 : (⟨S20000x256, .f32⟩ : BufTy).Contents (Elt Ideal)) (x8 : (⟨S20000, .f32⟩ : BufTy).Contents (Elt Ideal)) (x9 : (⟨S256x1024, .f32⟩ : BufTy).Contents (Elt Ideal)) (x10 : (⟨S160000x64, .f32⟩ : BufTy).Contents (Elt Ideal)) (x11 : (⟨S160000, .f32⟩ : BufTy).Contents (Elt Ideal)) (x12 : (⟨S64x1024, .f32⟩ : BufTy).Contents (Elt Ideal)) (x13 : (⟨S67735x16, .f32⟩ : BufTy).Contents (Elt Ideal)) (x14 : (⟨S67735, .f32⟩ : BufTy).Contents (Elt Ideal)) (x15 : (⟨S16x1024, .f32⟩ : BufTy).Contents (Elt Ideal)) (s : Fin 64) (b : Fin 8) :
    val_main_v88 (F := Ideal) x0 x1 x2 x3 x4 x5 x6 x7 x8 x9 x10 x11 x12 x13 x14 x15 (ix2 s b)
      = Scalar.select (inCluster 200000#32 267735#32 (x1 (ix2 s b)))
          (take (by decide) (fun j : Fin 67735 => val_main_v76 (F := Ideal) x0 x2 x3 x4 x5 x6 x13 x14 x15 (ix3 s b j)) 67734#32
            (wrap 67735#32 (clip 67734#32 (IntOp.subi (x1 (ix2 s b)) 200000#32))))
          (val_main_v65 (F := Ideal) x0 x1 x2 x3 x4 x5 x6 x7 x8 x9 x10 x11 x12 (ix2 s b)) := by
  rw [val_main_v88_apply, val_main_v87_apply, show idx_main_v87 (ix2 s b) = ix3 s b (0 : Fin 1) by (funext a; apply Fin.ext; have hs := s.isLt; have hb := b.isLt; match a with | ⟨0, _⟩ => (show (s.val * 8 + b.val) / 8 = s.val; omega) | ⟨1, _⟩ => (show (s.val * 8 + b.val) / 1 % 8 = b.val; omega) | ⟨2, _⟩ => rfl),
    val_main_v86_apply, readOk3_eq, gathered3_eq, val_main_call14_v14_apply, val_main_call14_cst_apply,
    val_main_v81_apply, val_main_v78_apply, val_main_v80_apply, val_main_v77_apply, val_main_c_13_apply,
    val_main_v79_apply, val_main_c_14_apply]
  rfl

end Cert.ReferenceIdeal.RefValue

end
-- ==== Proof.RefValue.lean ====
import proofs.«138250_j73134703116926_1_alg».proof.Proof.RefHead
import proofs.«138250_j73134703116926_1_alg».proof.Proof.RefTail1
import proofs.«138250_j73134703116926_1_alg».proof.Proof.RefTail2
import proofs.«138250_j73134703116926_1_alg».proof.Proof.RefTail3

noncomputable section

open scoped BigOperators

namespace Cert.ReferenceIdeal.RefValue

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx
open AdaptiveSpec AdaptiveSpec.Reads

abbrev args (x0 : (⟨S64x8x1024, .f32⟩ : BufTy).Contents (Elt Ideal)) (x1 : (⟨S64x8, .i32⟩ : BufTy).Contents (Elt Ideal)) (x2 : (⟨S3x1024, .f32⟩ : BufTy).Contents (Elt Ideal)) (x3 : (⟨S3, .f32⟩ : BufTy).Contents (Elt Ideal)) (x4 : (⟨S20000x1024, .f32⟩ : BufTy).Contents (Elt Ideal)) (x5 : (⟨S20000, .f32⟩ : BufTy).Contents (Elt Ideal)) (x6 : (⟨S1024x1024, .f32⟩ : BufTy).Contents (Elt Ideal)) (x7 : (⟨S20000x256, .f32⟩ : BufTy).Contents (Elt Ideal)) (x8 : (⟨S20000, .f32⟩ : BufTy).Contents (Elt Ideal)) (x9 : (⟨S256x1024, .f32⟩ : BufTy).Contents (Elt Ideal)) (x10 : (⟨S160000x64, .f32⟩ : BufTy).Contents (Elt Ideal)) (x11 : (⟨S160000, .f32⟩ : BufTy).Contents (Elt Ideal)) (x12 : (⟨S64x1024, .f32⟩ : BufTy).Contents (Elt Ideal)) (x13 : (⟨S67735x16, .f32⟩ : BufTy).Contents (Elt Ideal)) (x14 : (⟨S67735, .f32⟩ : BufTy).Contents (Elt Ideal)) (x15 : (⟨S16x1024, .f32⟩ : BufTy).Contents (Elt Ideal)) : AdaptiveSpec.Args :=
  { hidden := x0, target := x1, clusterW := x2, clusterB := x3, W0 := x4, b0 := x5, P0 := x6, W1 := x7, b1 := x8, P1 := x9,
    W2 := x10, b2 := x11, P2 := x12, W3 := x13, b3 := x14, P3 := x15 }

section Assembly

variable (x0 : (⟨S64x8x1024, .f32⟩ : BufTy).Contents (Elt Ideal)) (x1 : (⟨S64x8, .i32⟩ : BufTy).Contents (Elt Ideal)) (x2 : (⟨S3x1024, .f32⟩ : BufTy).Contents (Elt Ideal)) (x3 : (⟨S3, .f32⟩ : BufTy).Contents (Elt Ideal)) (x4 : (⟨S20000x1024, .f32⟩ : BufTy).Contents (Elt Ideal)) (x5 : (⟨S20000, .f32⟩ : BufTy).Contents (Elt Ideal)) (x6 : (⟨S1024x1024, .f32⟩ : BufTy).Contents (Elt Ideal)) (x7 : (⟨S20000x256, .f32⟩ : BufTy).Contents (Elt Ideal)) (x8 : (⟨S20000, .f32⟩ : BufTy).Contents (Elt Ideal)) (x9 : (⟨S256x1024, .f32⟩ : BufTy).Contents (Elt Ideal)) (x10 : (⟨S160000x64, .f32⟩ : BufTy).Contents (Elt Ideal)) (x11 : (⟨S160000, .f32⟩ : BufTy).Contents (Elt Ideal)) (x12 : (⟨S64x1024, .f32⟩ : BufTy).Contents (Elt Ideal)) (x13 : (⟨S67735x16, .f32⟩ : BufTy).Contents (Elt Ideal)) (x14 : (⟨S67735, .f32⟩ : BufTy).Contents (Elt Ideal)) (x15 : (⟨S16x1024, .f32⟩ : BufTy).Contents (Elt Ideal))

theorem lp0_spec (s : Fin 64) (b : Fin 8) (j : Fin 20003) :
    val_main_v7 (F := Ideal) x0 x2 x3 x4 x5 x6 (ix3 s b j) = (args x0 x1 x2 x3 x4 x5 x6 x7 x8 x9 x10 x11 x12 x13 x14 x15).lp0 s b j :=
  (logSoftmax0_eq x0 x2 x3 x4 x5 x6 s b j).trans
    (congrArg (fun r => logSoftmax r j) (funext fun k => logit0_eq x0 x2 x3 x4 x5 x6 s b k))

theorem lp1_spec (s : Fin 64) (b : Fin 8) (j : Fin 20000) :
    val_main_v25 (F := Ideal) x0 x7 x8 x9 (ix3 s b j) = (args x0 x1 x2 x3 x4 x5 x6 x7 x8 x9 x10 x11 x12 x13 x14 x15).lp1 s b j :=
  (logSoftmax1_eq x0 x7 x8 x9 s b j).trans
    (congrArg (fun r => logSoftmax r j) (funext fun k => logit1_eq x0 x7 x8 x9 s b k))

theorem lp2_spec (s : Fin 64) (b : Fin 8) (j : Fin 160000) :
    val_main_v48 (F := Ideal) x0 x10 x11 x12 (ix3 s b j) = (args x0 x1 x2 x3 x4 x5 x6 x7 x8 x9 x10 x11 x12 x13 x14 x15).lp2 s b j :=
  (logSoftmax2_eq x0 x10 x11 x12 s b j).trans
    (congrArg (fun r => logSoftmax r j) (funext fun k => logit2_eq x0 x10 x11 x12 s b k))

theorem lp3_spec (s : Fin 64) (b : Fin 8) (j : Fin 67735) :
    val_main_v71 (F := Ideal) x0 x13 x14 x15 (ix3 s b j) = (args x0 x1 x2 x3 x4 x5 x6 x7 x8 x9 x10 x11 x12 x13 x14 x15).lp3 s b j :=
  (logSoftmax3_eq x0 x13 x14 x15 s b j).trans
    (congrArg (fun r => logSoftmax r j) (funext fun k => logit3_eq x0 x13 x14 x15 s b k))

theorem joint1_spec (s : Fin 64) (b : Fin 8) (j : Fin 20000) :
    val_main_v30 (F := Ideal) x0 x2 x3 x4 x5 x6 x7 x8 x9 (ix3 s b j) = (args x0 x1 x2 x3 x4 x5 x6 x7 x8 x9 x10 x11 x12 x13 x14 x15).joint1 s b j :=
  (joint1_eq x0 x2 x3 x4 x5 x6 x7 x8 x9 s b j).trans
    (congrArg₂ (· + ·) (lp0_spec x0 x1 x2 x3 x4 x5 x6 x7 x8 x9 x10 x11 x12 x13 x14 x15 s b _) (lp1_spec x0 x1 x2 x3 x4 x5 x6 x7 x8 x9 x10 x11 x12 x13 x14 x15 s b j))

theorem joint2_spec (s : Fin 64) (b : Fin 8) (j : Fin 160000) :
    val_main_v53 (F := Ideal) x0 x2 x3 x4 x5 x6 x10 x11 x12 (ix3 s b j) = (args x0 x1 x2 x3 x4 x5 x6 x7 x8 x9 x10 x11 x12 x13 x14 x15).joint2 s b j :=
  (joint2_eq x0 x2 x3 x4 x5 x6 x10 x11 x12 s b j).trans
    (congrArg₂ (· + ·) (lp0_spec x0 x1 x2 x3 x4 x5 x6 x7 x8 x9 x10 x11 x12 x13 x14 x15 s b _) (lp2_spec x0 x1 x2 x3 x4 x5 x6 x7 x8 x9 x10 x11 x12 x13 x14 x15 s b j))

theorem joint3_spec (s : Fin 64) (b : Fin 8) (j : Fin 67735) :
    val_main_v76 (F := Ideal) x0 x2 x3 x4 x5 x6 x13 x14 x15 (ix3 s b j) = (args x0 x1 x2 x3 x4 x5 x6 x7 x8 x9 x10 x11 x12 x13 x14 x15).joint3 s b j :=
  (joint3_eq x0 x2 x3 x4 x5 x6 x13 x14 x15 s b j).trans
    (congrArg₂ (· + ·) (lp0_spec x0 x1 x2 x3 x4 x5 x6 x7 x8 x9 x10 x11 x12 x13 x14 x15 s b _) (lp3_spec x0 x1 x2 x3 x4 x5 x6 x7 x8 x9 x10 x11 x12 x13 x14 x15 s b j))

theorem out_spec (i : S64x8x267735.Idx) :
    val_main_v89 (F := Ideal) x0 x2 x3 x4 x5 x6 x7 x8 x9 x10 x11 x12 x13 x14 x15 i = (args x0 x1 x2 x3 x4 x5 x6 x7 x8 x9 x10 x11 x12 x13 x14 x15).out i := by
  unfold val_main_v89
  rw [out_concat]
  unfold Args.out
  by_cases h0 : (i 2).val < 20000
  · rw [dif_pos h0, dif_pos h0, val_main_v8_apply]
    refine Eq.trans (congrArg _ ?_) (lp0_spec x0 x1 x2 x3 x4 x5 x6 x7 x8 x9 x10 x11 x12 x13 x14 x15 (i 0) (i 1) ⟨(i 2).val, by omega⟩)
    funext a; apply Fin.ext; fin_cases a <;> rfl
  · rw [dif_neg h0, dif_neg h0]
    by_cases h1 : (i 2).val < 40000
    · rw [dif_pos h1, dif_pos h1]
      exact joint1_spec x0 x1 x2 x3 x4 x5 x6 x7 x8 x9 x10 x11 x12 x13 x14 x15 (i 0) (i 1) _
    · rw [dif_neg h1, dif_neg h1]
      by_cases h2 : (i 2).val < 200000
      · rw [dif_pos h2, dif_pos h2]
        exact joint2_spec x0 x1 x2 x3 x4 x5 x6 x7 x8 x9 x10 x11 x12 x13 x14 x15 (i 0) (i 1) _
      · rw [dif_neg h2, dif_neg h2]
        exact joint3_spec x0 x1 x2 x3 x4 x5 x6 x7 x8 x9 x10 x11 x12 x13 x14 x15 (i 0) (i 1) _

theorem sel0_spec (s : Fin 64) (b : Fin 8) :
    val_main_v19 (F := Ideal) x0 x1 x2 x3 x4 x5 x6 (ix2 s b) = (args x0 x1 x2 x3 x4 x5 x6 x7 x8 x9 x10 x11 x12 x13 x14 x15).sel0 s b := by
  rw [sel0_eq]
  unfold Args.sel0
  rw [show (fun j : Fin 20003 => val_main_v7 (F := Ideal) x0 x2 x3 x4 x5 x6 (ix3 s b j)) = (args x0 x1 x2 x3 x4 x5 x6 x7 x8 x9 x10 x11 x12 x13 x14 x15).lp0 s b from
    funext fun j => lp0_spec x0 x1 x2 x3 x4 x5 x6 x7 x8 x9 x10 x11 x12 x13 x14 x15 s b j]
  rfl

theorem sel1_spec (s : Fin 64) (b : Fin 8) :
    val_main_v42 (F := Ideal) x0 x1 x2 x3 x4 x5 x6 x7 x8 x9 (ix2 s b) = (args x0 x1 x2 x3 x4 x5 x6 x7 x8 x9 x10 x11 x12 x13 x14 x15).sel1 s b := by
  rw [sel1_eq, sel0_spec]
  unfold Args.sel1
  rw [show (fun j : Fin 20000 => val_main_v30 (F := Ideal) x0 x2 x3 x4 x5 x6 x7 x8 x9 (ix3 s b j)) = (args x0 x1 x2 x3 x4 x5 x6 x7 x8 x9 x10 x11 x12 x13 x14 x15).joint1 s b from
    funext fun j => joint1_spec x0 x1 x2 x3 x4 x5 x6 x7 x8 x9 x10 x11 x12 x13 x14 x15 s b j]
  rfl

theorem sel2_spec (s : Fin 64) (b : Fin 8) :
    val_main_v65 (F := Ideal) x0 x1 x2 x3 x4 x5 x6 x7 x8 x9 x10 x11 x12 (ix2 s b) = (args x0 x1 x2 x3 x4 x5 x6 x7 x8 x9 x10 x11 x12 x13 x14 x15).sel2 s b := by
  rw [sel2_eq, sel1_spec]
  unfold Args.sel2
  rw [show (fun j : Fin 160000 => val_main_v53 (F := Ideal) x0 x2 x3 x4 x5 x6 x10 x11 x12 (ix3 s b j)) = (args x0 x1 x2 x3 x4 x5 x6 x7 x8 x9 x10 x11 x12 x13 x14 x15).joint2 s b from
    funext fun j => joint2_spec x0 x1 x2 x3 x4 x5 x6 x7 x8 x9 x10 x11 x12 x13 x14 x15 s b j]
  rfl

theorem sel3_spec (s : Fin 64) (b : Fin 8) :
    val_main_v88 (F := Ideal) x0 x1 x2 x3 x4 x5 x6 x7 x8 x9 x10 x11 x12 x13 x14 x15 (ix2 s b) = (args x0 x1 x2 x3 x4 x5 x6 x7 x8 x9 x10 x11 x12 x13 x14 x15).sel3 s b := by
  rw [sel3_eq, sel2_spec]
  unfold Args.sel3
  rw [show (fun j : Fin 67735 => val_main_v76 (F := Ideal) x0 x2 x3 x4 x5 x6 x13 x14 x15 (ix3 s b j)) = (args x0 x1 x2 x3 x4 x5 x6 x7 x8 x9 x10 x11 x12 x13 x14 x15).joint3 s b from
    funext fun j => joint3_spec x0 x1 x2 x3 x4 x5 x6 x7 x8 x9 x10 x11 x12 x13 x14 x15 s b j]
  rfl

theorem loss_spec (i : S_.Idx) :
    val_main_v92 (F := Ideal) x0 x1 x2 x3 x4 x5 x6 x7 x8 x9 x10 x11 x12 x13 x14 x15 i = (args x0 x1 x2 x3 x4 x5 x6 x7 x8 x9 x10 x11 x12 x13 x14 x15).loss i := by
  rw [val_main_v92_apply, val_main_v91_apply, val_main_cst_19_apply]
  unfold Args.loss Args.lossVal
  refine congrArg₂ Ideal.div (congrArg₂ (· + ·) rfl (Finset.sum_congr rfl fun j _ => ?_)) rfl
  rw [val_main_v90_apply]
  refine congrArg (fun v : EReal => -v) ?_
  exact (congrArg (val_main_v88 (F := Ideal) x0 x1 x2 x3 x4 x5 x6 x7 x8 x9 x10 x11 x12 x13 x14 x15) (eq_ix2 j)).trans (sel3_spec x0 x1 x2 x3 x4 x5 x6 x7 x8 x9 x10 x11 x12 x13 x14 x15 (j 0) (j 1))

end Assembly

end Cert.ReferenceIdeal.RefValue

end
-- ==== Proof.RefChunk1.lean ====
import proofs.«138250_j73134703116926_1_alg».proof.Proof.RefReadP
import Idealize.ShloMosaic.Lib.StableHlo.Run

noncomputable section

namespace Cert.ReferenceIdeal.RunHand

open Cert.ReferenceIdeal Cert.ReferenceIdeal.Gen Cert.ReferenceIdeal.ReadP Idealize.ShloMosaic Idealize.ShloMosaic.TcCoe Idealize.SL.Sem
  Idealize.ShloMosaic.StableHlo

variable {F : FTy → Type} [FloatOps F]

attribute [local irreducible] Host.reduce Host.reduceAdd Host.gather concatenate broadcastInDim shapeCast extractStridedSlice addf subf maximumf Host.exp Host.log select cmpi andi addi subi maxsi minsi constant constantI Host.negf Host.divf

abbrev ops1 : List (HloOp τ sig (Elt F)) :=
  [ binary main_arg4 main_arg2 main_v0 ((fun a b => concatenate S20003x1024 0 [⟨S20000x1024, a⟩, ⟨S3x1024, b⟩] concatenates_S20000x1024_S3x1024_S20003x1024_d0) : (⟨S20000x1024, .f32⟩ : BufTy).Contents (Elt F) → (⟨S3x1024, .f32⟩ : BufTy).Contents (Elt F) → (⟨S20003x1024, .f32⟩ : BufTy).Contents (Elt F)) ]

set_option maxRecDepth 8192 in
theorem ops1_sub : (ops1 : List (HloOp τ sig (Elt F))).Forall fun op => op.bufs ⊆ tcRefs τ sig :=
  binary_bufs_sub ..

set_option maxRecDepth 8192 in
theorem ops1_fresh : ∀ op ∈ (ops1 : List (HloOp τ sig (Elt F))), op.fresh = ∅ := by
  intro _ h; (repeat (cases h with | head => rfl | tail _ h => ?_)); exact nomatch h

abbrev ops1_W : List (Ref sig .tc) := [main_v0]

set_option maxRecDepth 8192 in
theorem ops1_writes : (ops1 : List (HloOp τ sig (Elt F))).Forall fun op =>
    op.writes ⊆ (ops1_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))

theorem ops1_keep (W : Valuation τ sig (Elt F)) (r : Ref sig .tc) (h : r ∉ ops1_W) :
    after ops1 W (Proc.devRef .tc r) = W (Proc.devRef .tc r) :=
  after_of_writes_sub ops1 W ops1_writes h

set_option maxRecDepth 8192 in
set_option maxHeartbeats 300000 in

theorem after1_main_v0 (W : Valuation τ sig (Elt F)) (x2 : (⟨S3x1024, .f32⟩ : BufTy).Contents (Elt F)) (x4 : (⟨S20000x1024, .f32⟩ : BufTy).Contents (Elt F))
    (h_main_arg2 : W (Proc.devRef .tc main_arg2) = x2)
    (h_main_arg4 : W (Proc.devRef .tc main_arg4) = x4) :
    after ops1 W (Proc.devRef .tc main_v0) = val_main_v0 (F := F) x2 x4 := by
  simp only [ops1]
  after_results_simp
  try dsimp only [Matrix.cons_val]
  try simp only [TRef.ofBuf, TRef.toBuf, cast_eq]
  rw [h_main_arg2, h_main_arg4]
  rfl

abbrev ops2 : List (HloOp τ sig (Elt F)) :=
  [ binary main_arg5 main_arg3 main_v1 ((fun a b => concatenate S20003 0 [⟨S20000, a⟩, ⟨S3, b⟩] concatenates_S20000_S3_S20003_d0) : (⟨S20000, .f32⟩ : BufTy).Contents (Elt F) → (⟨S3, .f32⟩ : BufTy).Contents (Elt F) → (⟨S20003, .f32⟩ : BufTy).Contents (Elt F)),
    binary main_arg0 main_arg6 main_v2 ((fun l r => Host.dotGeneral dot_S64x8x1024_S1024x1024_S64x8x1024_2_1_01_0_n_n none l r) : (⟨S64x8x1024, .f32⟩ : BufTy).Contents (Elt F) → (⟨S1024x1024, .f32⟩ : BufTy).Contents (Elt F) → (⟨S64x8x1024, .f32⟩ : BufTy).Contents (Elt F)),
    binary main_v2 main_v0 main_v3 ((fun l r => Host.dotGeneral dot_S64x8x1024_S20003x1024_S64x8x20003_2_1_01_0_n_n none l r) : (⟨S64x8x1024, .f32⟩ : BufTy).Contents (Elt F) → (⟨S20003x1024, .f32⟩ : BufTy).Contents (Elt F) → (⟨S64x8x20003, .f32⟩ : BufTy).Contents (Elt F)),
    unary main_v1 main_v4 (broadcastInDim S1x1x20003 ![2] bcast_S20003_S1x1x20003_2 : (⟨S20003, .f32⟩ : BufTy).Contents (Elt F) → (⟨S1x1x20003, .f32⟩ : BufTy).Contents (Elt F)),
    unary main_v4 main_v5 (broadcastInDim S64x8x20003 ![0, 1, 2] bcast_S1x1x20003_S64x8x20003_0_1_2 : (⟨S1x1x20003, .f32⟩ : BufTy).Contents (Elt F) → (⟨S64x8x20003, .f32⟩ : BufTy).Contents (Elt F)),
    binary main_v3 main_v5 main_v6 (addf : (⟨S64x8x20003, .f32⟩ : BufTy).Contents (Elt F) → (⟨S64x8x20003, .f32⟩ : BufTy).Contents (Elt F) → (⟨S64x8x20003, .f32⟩ : BufTy).Contents (Elt F)),
    TRef.nullary (TRef.of (T := ⟨S_, .f32⟩) main_call0_cst) (constant S_ .f32 0xFF800000#32),
    TRef.binary (TRef.of (T := ⟨S64x8x20003, .f32⟩) main_v6) (TRef.of (T := ⟨S_, .f32⟩) main_call0_cst) (TRef.of (T := ⟨S64x8, .f32⟩) main_call0_v0) (fun x v => Host.reduce FloatOps.maximumf x v reducesTo_S64x8x20003_S64x8_d2 h_S_) ]

set_option maxRecDepth 8192 in
theorem ops2_sub : (ops2 : List (HloOp τ sig (Elt F))).Forall fun op => op.bufs ⊆ tcRefs τ sig :=
  ⟨binary_bufs_sub .., binary_bufs_sub .., binary_bufs_sub .., unary_bufs_sub .., unary_bufs_sub .., binary_bufs_sub .., nullary_bufs_sub .., binary_bufs_sub ..⟩

set_option maxRecDepth 8192 in
theorem ops2_fresh : ∀ op ∈ (ops2 : List (HloOp τ sig (Elt F))), op.fresh = ∅ := by
  intro _ h; (repeat (cases h with | head => rfl | tail _ h => ?_)); exact nomatch h

abbrev ops2_W : List (Ref sig .tc) := [main_v1, main_v2, main_v3, main_v4, main_v5, main_v6, main_call0_cst, main_call0_v0]

set_option maxRecDepth 8192 in
theorem ops2_writes : (ops2 : List (HloOp τ sig (Elt F))).Forall fun op =>
    op.writes ⊆ (ops2_W.map (Proc.devRef (τ := τ) .tc)).toFinset := by
  simp only [List.Forall]
  refine ⟨?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem ops2_keep (W : Valuation τ sig (Elt F)) (r : Ref sig .tc) (h : r ∉ ops2_W) :
    after ops2 W (Proc.devRef .tc r) = W (Proc.devRef .tc r) :=
  after_of_writes_sub ops2 W ops2_writes h

set_option maxRecDepth 8192 in
set_option maxHeartbeats 1000000 in

theorem after2_main_v6 (W : Valuation τ sig (Elt F)) (x0 : (⟨S64x8x1024, .f32⟩ : BufTy).Contents (Elt F)) (x2 : (⟨S3x1024, .f32⟩ : BufTy).Contents (Elt F)) (x3 : (⟨S3, .f32⟩ : BufTy).Contents (Elt F)) (x4 : (⟨S20000x1024, .f32⟩ : BufTy).Contents (Elt F)) (x5 : (⟨S20000, .f32⟩ : BufTy).Contents (Elt F)) (x6 : (⟨S1024x1024, .f32⟩ : BufTy).Contents (Elt F))
    (h_main_arg0 : W (Proc.devRef .tc main_arg0) = x0)
    (h_main_arg3 : W (Proc.devRef .tc main_arg3) = x3)
    (h_main_arg5 : W (Proc.devRef .tc main_arg5) = x5)
    (h_main_arg6 : W (Proc.devRef .tc main_arg6) = x6)
    (h_main_v0 : W (Proc.devRef .tc main_v0) = val_main_v0 (F := F) x2 x4) :
    after ops2 W (Proc.devRef .tc main_v6) = val_main_v6 (F := F) x0 x2 x3 x4 x5 x6 := by
  simp only [ops2]
  after_results_simp
  try dsimp only [Matrix.cons_val]
  try simp only [TRef.ofBuf, TRef.toBuf, cast_eq]
  rw [h_main_arg0, h_main_arg3, h_main_arg5, h_main_arg6, h_main_v0]
  rfl

set_option maxRecDepth 8192 in
set_option maxHeartbeats 1000000 in

theorem after2_main_call0_v0 (W : Valuation τ sig (Elt F)) (x0 : (⟨S64x8x1024, .f32⟩ : BufTy).Contents (Elt F)) (x2 : (⟨S3x1024, .f32⟩ : BufTy).Contents (Elt F)) (x3 : (⟨S3, .f32⟩ : BufTy).Contents (Elt F)) (x4 : (⟨S20000x1024, .f32⟩ : BufTy).Contents (Elt F)) (x5 : (⟨S20000, .f32⟩ : BufTy).Contents (Elt F)) (x6 : (⟨S1024x1024, .f32⟩ : BufTy).Contents (Elt F))
    (h_main_arg0 : W (Proc.devRef .tc main_arg0) = x0)
    (h_main_arg3 : W (Proc.devRef .tc main_arg3) = x3)
    (h_main_arg5 : W (Proc.devRef .tc main_arg5) = x5)
    (h_main_arg6 : W (Proc.devRef .tc main_arg6) = x6)
    (h_main_v0 : W (Proc.devRef .tc main_v0) = val_main_v0 (F := F) x2 x4) :
    after ops2 W (Proc.devRef .tc main_call0_v0) = val_main_call0_v0 (F := F) x0 x2 x3 x4 x5 x6 := by
  simp only [ops2]
  after_results_simp
  try dsimp only [Matrix.cons_val]
  try simp only [TRef.ofBuf, TRef.toBuf, cast_eq]
  rw [h_main_arg0, h_main_arg3, h_main_arg5, h_main_arg6, h_main_v0]
  rfl

abbrev ops3 : List (HloOp τ sig (Elt F)) :=
  [ TRef.nullary (TRef.of (T := ⟨S_, .f32⟩) main_call0_cst_0) (constant S_ .f32 0xFF800000#32),
    TRef.unary (TRef.of (T := ⟨S_, .f32⟩) main_call0_cst_0) (TRef.of (T := ⟨S64x8, .f32⟩) main_call0_v1) (broadcastInDim S64x8 ![] bcast_S_S64x8),
    TRef.binary (TRef.of (T := ⟨S64x8, .f32⟩) main_call0_v1) (TRef.of (T := ⟨S64x8, .f32⟩) main_call0_v0) (TRef.of (T := ⟨S64x8, .f32⟩) main_call0_v2) maximumf,
    TRef.unary (TRef.of (T := ⟨S64x8, .f32⟩) main_call0_v2) (TRef.of (T := ⟨S64x8x1, .f32⟩) main_call0_v3) (broadcastInDim S64x8x1 ![0, 1] bcast_S64x8_S64x8x1_0_1),
    TRef.unary (TRef.of (T := ⟨S64x8x1, .f32⟩) main_call0_v3) (TRef.of (T := ⟨S64x8x20003, .f32⟩) main_call0_v4) (broadcastInDim S64x8x20003 ![0, 1, 2] bcast_S64x8x1_S64x8x20003_0_1_2),
    TRef.binary (TRef.of (T := ⟨S64x8x20003, .f32⟩) main_v6) (TRef.of (T := ⟨S64x8x20003, .f32⟩) main_call0_v4) (TRef.of (T := ⟨S64x8x20003, .f32⟩) main_call0_v5) subf,
    TRef.unary (TRef.of (T := ⟨S64x8x20003, .f32⟩) main_call0_v5) (TRef.of (T := ⟨S64x8x20003, .f32⟩) main_call0_v6) Host.exp,
    TRef.nullary (TRef.of (T := ⟨S_, .f32⟩) main_call0_cst_1) (constant S_ .f32 0x00000000#32) ]

set_option maxRecDepth 8192 in
theorem ops3_sub : (ops3 : List (HloOp τ sig (Elt F))).Forall fun op => op.bufs ⊆ tcRefs τ sig :=
  ⟨nullary_bufs_sub .., unary_bufs_sub .., binary_bufs_sub .., unary_bufs_sub .., unary_bufs_sub .., binary_bufs_sub .., unary_bufs_sub .., nullary_bufs_sub ..⟩

set_option maxRecDepth 8192 in
theorem ops3_fresh : ∀ op ∈ (ops3 : List (HloOp τ sig (Elt F))), op.fresh = ∅ := by
  intro _ h; (repeat (cases h with | head => rfl | tail _ h => ?_)); exact nomatch h

abbrev ops3_W : List (Ref sig .tc) := [main_call0_cst_0, main_call0_v1, main_call0_v2, main_call0_v3, main_call0_v4, main_call0_v5, main_call0_v6, main_call0_cst_1]

set_option maxRecDepth 8192 in
theorem ops3_writes : (ops3 : List (HloOp τ sig (Elt F))).Forall fun op =>
    op.writes ⊆ (ops3_W.map (Proc.devRef (τ := τ) .tc)).toFinset := by
  simp only [List.Forall]
  refine ⟨?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem ops3_keep (W : Valuation τ sig (Elt F)) (r : Ref sig .tc) (h : r ∉ ops3_W) :
    after ops3 W (Proc.devRef .tc r) = W (Proc.devRef .tc r) :=
  after_of_writes_sub ops3 W ops3_writes h

set_option maxRecDepth 8192 in
set_option maxHeartbeats 1000000 in

theorem after3_main_call0_v5 (W : Valuation τ sig (Elt F)) (x0 : (⟨S64x8x1024, .f32⟩ : BufTy).Contents (Elt F)) (x2 : (⟨S3x1024, .f32⟩ : BufTy).Contents (Elt F)) (x3 : (⟨S3, .f32⟩ : BufTy).Contents (Elt F)) (x4 : (⟨S20000x1024, .f32⟩ : BufTy).Contents (Elt F)) (x5 : (⟨S20000, .f32⟩ : BufTy).Contents (Elt F)) (x6 : (⟨S1024x1024, .f32⟩ : BufTy).Contents (Elt F))
    (h_main_v6 : W (Proc.devRef .tc main_v6) = val_main_v6 (F := F) x0 x2 x3 x4 x5 x6)
    (h_main_call0_v0 : W (Proc.devRef .tc main_call0_v0) = val_main_call0_v0 (F := F) x0 x2 x3 x4 x5 x6) :
    after ops3 W (Proc.devRef .tc main_call0_v5) = val_main_call0_v5 (F := F) x0 x2 x3 x4 x5 x6 := by
  simp only [ops3]
  after_results_simp
  try dsimp only [Matrix.cons_val]
  try simp only [TRef.ofBuf, TRef.toBuf, cast_eq]
  rw [h_main_v6, h_main_call0_v0]
  rfl

set_option maxRecDepth 8192 in
set_option maxHeartbeats 1000000 in

theorem after3_main_call0_v6 (W : Valuation τ sig (Elt F)) (x0 : (⟨S64x8x1024, .f32⟩ : BufTy).Contents (Elt F)) (x2 : (⟨S3x1024, .f32⟩ : BufTy).Contents (Elt F)) (x3 : (⟨S3, .f32⟩ : BufTy).Contents (Elt F)) (x4 : (⟨S20000x1024, .f32⟩ : BufTy).Contents (Elt F)) (x5 : (⟨S20000, .f32⟩ : BufTy).Contents (Elt F)) (x6 : (⟨S1024x1024, .f32⟩ : BufTy).Contents (Elt F))
    (h_main_v6 : W (Proc.devRef .tc main_v6) = val_main_v6 (F := F) x0 x2 x3 x4 x5 x6)
    (h_main_call0_v0 : W (Proc.devRef .tc main_call0_v0) = val_main_call0_v0 (F := F) x0 x2 x3 x4 x5 x6) :
    after ops3 W (Proc.devRef .tc main_call0_v6) = val_main_call0_v6 (F := F) x0 x2 x3 x4 x5 x6 := by
  simp only [ops3]
  after_results_simp
  try dsimp only [Matrix.cons_val]
  try simp only [TRef.ofBuf, TRef.toBuf, cast_eq]
  rw [h_main_v6, h_main_call0_v0]
  rfl

set_option maxRecDepth 8192 in
set_option maxHeartbeats 1000000 in

theorem after3_main_call0_cst_1 (W : Valuation τ sig (Elt F))
     :
    after ops3 W (Proc.devRef .tc main_call0_cst_1) = val_main_call0_cst_1 (F := F) := by
  simp only [ops3]
  after_results_simp
  try dsimp only [Matrix.cons_val]
  try simp only [TRef.ofBuf, TRef.toBuf, cast_eq]
  rw []
  rfl

abbrev ops4 : List (HloOp τ sig (Elt F)) :=
  [ TRef.binary (TRef.of (T := ⟨S64x8x20003, .f32⟩) main_call0_v6) (TRef.of (T := ⟨S_, .f32⟩) main_call0_cst_1) (TRef.of (T := ⟨S64x8, .f32⟩) main_call0_v7) (fun x v => Host.reduceAdd x v reducesTo_S64x8x20003_S64x8_d2 h_S_),
    TRef.unary (TRef.of (T := ⟨S64x8, .f32⟩) main_call0_v7) (TRef.of (T := ⟨S64x8x1, .f32⟩) main_call0_v8) (broadcastInDim S64x8x1 ![0, 1] bcast_S64x8_S64x8x1_0_1),
    TRef.unary (TRef.of (T := ⟨S64x8x1, .f32⟩) main_call0_v8) (TRef.of (T := ⟨S64x8x1, .f32⟩) main_call0_v9) Host.log,
    TRef.unary (TRef.of (T := ⟨S64x8x1, .f32⟩) main_call0_v9) (TRef.of (T := ⟨S64x8x20003, .f32⟩) main_call0_v10) (broadcastInDim S64x8x20003 ![0, 1, 2] bcast_S64x8x1_S64x8x20003_0_1_2),
    TRef.binary (TRef.of (T := ⟨S64x8x20003, .f32⟩) main_call0_v5) (TRef.of (T := ⟨S64x8x20003, .f32⟩) main_call0_v10) (TRef.of (T := ⟨S64x8x20003, .f32⟩) main_v7) subf ]

set_option maxRecDepth 8192 in
theorem ops4_sub : (ops4 : List (HloOp τ sig (Elt F))).Forall fun op => op.bufs ⊆ tcRefs τ sig :=
  ⟨binary_bufs_sub .., unary_bufs_sub .., unary_bufs_sub .., unary_bufs_sub .., binary_bufs_sub ..⟩

set_option maxRecDepth 8192 in
theorem ops4_fresh : ∀ op ∈ (ops4 : List (HloOp τ sig (Elt F))), op.fresh = ∅ := by
  intro _ h; (repeat (cases h with | head => rfl | tail _ h => ?_)); exact nomatch h

abbrev ops4_W : List (Ref sig .tc) := [main_call0_v7, main_call0_v8, main_call0_v9, main_call0_v10, main_v7]

set_option maxRecDepth 8192 in
theorem ops4_writes : (ops4 : List (HloOp τ sig (Elt F))).Forall fun op =>
    op.writes ⊆ (ops4_W.map (Proc.devRef (τ := τ) .tc)).toFinset := by
  simp only [List.Forall]
  refine ⟨?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem ops4_keep (W : Valuation τ sig (Elt F)) (r : Ref sig .tc) (h : r ∉ ops4_W) :
    after ops4 W (Proc.devRef .tc r) = W (Proc.devRef .tc r) :=
  after_of_writes_sub ops4 W ops4_writes h

set_option maxRecDepth 8192 in
set_option maxHeartbeats 700000 in

theorem after4_main_v7 (W : Valuation τ sig (Elt F)) (x0 : (⟨S64x8x1024, .f32⟩ : BufTy).Contents (Elt F)) (x2 : (⟨S3x1024, .f32⟩ : BufTy).Contents (Elt F)) (x3 : (⟨S3, .f32⟩ : BufTy).Contents (Elt F)) (x4 : (⟨S20000x1024, .f32⟩ : BufTy).Contents (Elt F)) (x5 : (⟨S20000, .f32⟩ : BufTy).Contents (Elt F)) (x6 : (⟨S1024x1024, .f32⟩ : BufTy).Contents (Elt F))
    (h_main_call0_v5 : W (Proc.devRef .tc main_call0_v5) = val_main_call0_v5 (F := F) x0 x2 x3 x4 x5 x6)
    (h_main_call0_v6 : W (Proc.devRef .tc main_call0_v6) = val_main_call0_v6 (F := F) x0 x2 x3 x4 x5 x6)
    (h_main_call0_cst_1 : W (Proc.devRef .tc main_call0_cst_1) = val_main_call0_cst_1 (F := F)) :
    after ops4 W (Proc.devRef .tc main_v7) = val_main_v7 (F := F) x0 x2 x3 x4 x5 x6 := by
  simp only [ops4]
  after_results_simp
  try dsimp only [Matrix.cons_val]
  try simp only [TRef.ofBuf, TRef.toBuf, cast_eq]
  rw [h_main_call0_v5, h_main_call0_v6, h_main_call0_cst_1]
  rfl

end Cert.ReferenceIdeal.RunHand

end
-- ==== Proof.RefChunk2.lean ====
import proofs.«138250_j73134703116926_1_alg».proof.Proof.RefReadP
import Idealize.ShloMosaic.Lib.StableHlo.Run

noncomputable section

namespace Cert.ReferenceIdeal.RunHand

open Cert.ReferenceIdeal Cert.ReferenceIdeal.Gen Cert.ReferenceIdeal.ReadP Idealize.ShloMosaic Idealize.ShloMosaic.TcCoe Idealize.SL.Sem
  Idealize.ShloMosaic.StableHlo

variable {F : FTy → Type} [FloatOps F]

attribute [local irreducible] Host.reduce Host.reduceAdd Host.gather concatenate broadcastInDim shapeCast extractStridedSlice addf subf maximumf Host.exp Host.log select cmpi andi addi subi maxsi minsi constant constantI Host.negf Host.divf

abbrev ops5 : List (HloOp τ sig (Elt F)) :=
  [ unary main_v7 main_v8 ((extractStridedSlice S64x8x20000 ![0, 0, 0] · slices_S64x8x20003_S64x8x20000_0_0_0) : (⟨S64x8x20003, .f32⟩ : BufTy).Contents (Elt F) → (⟨S64x8x20000, .f32⟩ : BufTy).Contents (Elt F)),
    nullary main_cst (constant S_ .f32 0x00000000#32),
    unary main_cst main_v9 (broadcastInDim S64x8 ![] bcast_S_S64x8 : (⟨S_, .f32⟩ : BufTy).Contents (Elt F) → (⟨S64x8, .f32⟩ : BufTy).Contents (Elt F)),
    nullary main_c (constantI S_ 32 0#32),
    unary main_c main_v10 (broadcastInDim S64x8 ![] bcast_S_S64x8 : (⟨S_, .i32⟩ : BufTy).Contents (Elt F) → (⟨S64x8, .i32⟩ : BufTy).Contents (Elt F)),
    binary main_arg1 main_v10 main_v11 (cmpi .sge : (⟨S64x8, .i32⟩ : BufTy).Contents (Elt F) → (⟨S64x8, .i32⟩ : BufTy).Contents (Elt F) → (⟨S64x8, .i1⟩ : BufTy).Contents (Elt F)),
    nullary main_c_0 (constantI S_ 32 20000#32),
    unary main_c_0 main_v12 (broadcastInDim S64x8 ![] bcast_S_S64x8 : (⟨S_, .i32⟩ : BufTy).Contents (Elt F) → (⟨S64x8, .i32⟩ : BufTy).Contents (Elt F)) ]

set_option maxRecDepth 8192 in
theorem ops5_sub : (ops5 : List (HloOp τ sig (Elt F))).Forall fun op => op.bufs ⊆ tcRefs τ sig :=
  ⟨unary_bufs_sub .., nullary_bufs_sub .., unary_bufs_sub .., nullary_bufs_sub .., unary_bufs_sub .., binary_bufs_sub .., nullary_bufs_sub .., unary_bufs_sub ..⟩

set_option maxRecDepth 8192 in
theorem ops5_fresh : ∀ op ∈ (ops5 : List (HloOp τ sig (Elt F))), op.fresh = ∅ := by
  intro _ h; (repeat (cases h with | head => rfl | tail _ h => ?_)); exact nomatch h

abbrev ops5_W : List (Ref sig .tc) := [main_v8, main_cst, main_v9, main_c, main_v10, main_v11, main_c_0, main_v12]

set_option maxRecDepth 8192 in
theorem ops5_writes : (ops5 : List (HloOp τ sig (Elt F))).Forall fun op =>
    op.writes ⊆ (ops5_W.map (Proc.devRef (τ := τ) .tc)).toFinset := by
  simp only [List.Forall]
  refine ⟨?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem ops5_keep (W : Valuation τ sig (Elt F)) (r : Ref sig .tc) (h : r ∉ ops5_W) :
    after ops5 W (Proc.devRef .tc r) = W (Proc.devRef .tc r) :=
  after_of_writes_sub ops5 W ops5_writes h

set_option maxRecDepth 8192 in
set_option maxHeartbeats 1000000 in

theorem after5_main_v8 (W : Valuation τ sig (Elt F)) (x0 : (⟨S64x8x1024, .f32⟩ : BufTy).Contents (Elt F)) (x2 : (⟨S3x1024, .f32⟩ : BufTy).Contents (Elt F)) (x3 : (⟨S3, .f32⟩ : BufTy).Contents (Elt F)) (x4 : (⟨S20000x1024, .f32⟩ : BufTy).Contents (Elt F)) (x5 : (⟨S20000, .f32⟩ : BufTy).Contents (Elt F)) (x6 : (⟨S1024x1024, .f32⟩ : BufTy).Contents (Elt F))
    (h_main_v7 : W (Proc.devRef .tc main_v7) = val_main_v7 (F := F) x0 x2 x3 x4 x5 x6) :
    after ops5 W (Proc.devRef .tc main_v8) = val_main_v8 (F := F) x0 x2 x3 x4 x5 x6 := by
  simp only [ops5]
  after_results_simp
  try dsimp only [Matrix.cons_val]
  try simp only [TRef.ofBuf, TRef.toBuf, cast_eq]
  rw [h_main_v7]
  rfl

set_option maxRecDepth 8192 in
set_option maxHeartbeats 1000000 in

theorem after5_main_v9 (W : Valuation τ sig (Elt F))
     :
    after ops5 W (Proc.devRef .tc main_v9) = val_main_v9 (F := F) := by
  simp only [ops5]
  after_results_simp
  try dsimp only [Matrix.cons_val]
  try simp only [TRef.ofBuf, TRef.toBuf, cast_eq]
  rw []
  rfl

set_option maxRecDepth 8192 in
set_option maxHeartbeats 1000000 in

theorem after5_main_v11 (W : Valuation τ sig (Elt F)) (x1 : (⟨S64x8, .i32⟩ : BufTy).Contents (Elt F))
    (h_main_arg1 : W (Proc.devRef .tc main_arg1) = x1) :
    after ops5 W (Proc.devRef .tc main_v11) = val_main_v11 (F := F) x1 := by
  simp only [ops5]
  after_results_simp
  try dsimp only [Matrix.cons_val]
  try simp only [TRef.ofBuf, TRef.toBuf, cast_eq]
  rw [h_main_arg1]
  rfl

set_option maxRecDepth 8192 in
set_option maxHeartbeats 1000000 in

theorem after5_main_v12 (W : Valuation τ sig (Elt F))
     :
    after ops5 W (Proc.devRef .tc main_v12) = val_main_v12 (F := F) := by
  simp only [ops5]
  after_results_simp
  try dsimp only [Matrix.cons_val]
  try simp only [TRef.ofBuf, TRef.toBuf, cast_eq]
  rw []
  rfl

abbrev ops6 : List (HloOp τ sig (Elt F)) :=
  [ binary main_arg1 main_v12 main_v13 (cmpi .slt : (⟨S64x8, .i32⟩ : BufTy).Contents (Elt F) → (⟨S64x8, .i32⟩ : BufTy).Contents (Elt F) → (⟨S64x8, .i1⟩ : BufTy).Contents (Elt F)),
    binary main_v11 main_v13 main_v14 (andi : (⟨S64x8, .i1⟩ : BufTy).Contents (Elt F) → (⟨S64x8, .i1⟩ : BufTy).Contents (Elt F) → (⟨S64x8, .i1⟩ : BufTy).Contents (Elt F)),
    nullary main_c_1 (constantI S_ 32 0#32),
    nullary main_c_2 (constantI S_ 32 19999#32),
    TRef.unary (TRef.of (T := ⟨S_, .i32⟩) main_c_1) (TRef.of (T := ⟨S_, .i32⟩) main_call1_v0) id,
    TRef.unary (TRef.of (T := ⟨S_, .i32⟩) main_call1_v0) (TRef.of (T := ⟨S64x8, .i32⟩) main_call1_v1) (broadcastInDim S64x8 ![] bcast_S_S64x8),
    TRef.binary (TRef.of (T := ⟨S64x8, .i32⟩) main_call1_v1) (TRef.of (T := ⟨S64x8, .i32⟩) main_arg1) (TRef.of (T := ⟨S64x8, .i32⟩) main_call1_v2) maxsi,
    TRef.unary (TRef.of (T := ⟨S_, .i32⟩) main_c_2) (TRef.of (T := ⟨S_, .i32⟩) main_call1_v3) id ]

set_option maxRecDepth 8192 in
theorem ops6_sub : (ops6 : List (HloOp τ sig (Elt F))).Forall fun op => op.bufs ⊆ tcRefs τ sig :=
  ⟨binary_bufs_sub .., binary_bufs_sub .., nullary_bufs_sub .., nullary_bufs_sub .., unary_bufs_sub .., unary_bufs_sub .., binary_bufs_sub .., unary_bufs_sub ..⟩

set_option maxRecDepth 8192 in
theorem ops6_fresh : ∀ op ∈ (ops6 : List (HloOp τ sig (Elt F))), op.fresh = ∅ := by
  intro _ h; (repeat (cases h with | head => rfl | tail _ h => ?_)); exact nomatch h

abbrev ops6_W : List (Ref sig .tc) := [main_v13, main_v14, main_c_1, main_c_2, main_call1_v0, main_call1_v1, main_call1_v2, main_call1_v3]

set_option maxRecDepth 8192 in
theorem ops6_writes : (ops6 : List (HloOp τ sig (Elt F))).Forall fun op =>
    op.writes ⊆ (ops6_W.map (Proc.devRef (τ := τ) .tc)).toFinset := by
  simp only [List.Forall]
  refine ⟨?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem ops6_keep (W : Valuation τ sig (Elt F)) (r : Ref sig .tc) (h : r ∉ ops6_W) :
    after ops6 W (Proc.devRef .tc r) = W (Proc.devRef .tc r) :=
  after_of_writes_sub ops6 W ops6_writes h

set_option maxRecDepth 8192 in
set_option maxHeartbeats 1000000 in

theorem after6_main_v14 (W : Valuation τ sig (Elt F)) (x1 : (⟨S64x8, .i32⟩ : BufTy).Contents (Elt F))
    (h_main_arg1 : W (Proc.devRef .tc main_arg1) = x1)
    (h_main_v11 : W (Proc.devRef .tc main_v11) = val_main_v11 (F := F) x1)
    (h_main_v12 : W (Proc.devRef .tc main_v12) = val_main_v12 (F := F)) :
    after ops6 W (Proc.devRef .tc main_v14) = val_main_v14 (F := F) x1 := by
  simp only [ops6]
  after_results_simp
  try dsimp only [Matrix.cons_val]
  try simp only [TRef.ofBuf, TRef.toBuf, cast_eq]
  rw [h_main_arg1, h_main_v11, h_main_v12]
  rfl

set_option maxRecDepth 8192 in
set_option maxHeartbeats 1000000 in

theorem after6_main_call1_v2 (W : Valuation τ sig (Elt F)) (x1 : (⟨S64x8, .i32⟩ : BufTy).Contents (Elt F))
    (h_main_arg1 : W (Proc.devRef .tc main_arg1) = x1) :
    after ops6 W (Proc.devRef .tc main_call1_v2) = val_main_call1_v2 (F := F) x1 := by
  simp only [ops6]
  after_results_simp
  try dsimp only [Matrix.cons_val]
  try simp only [TRef.ofBuf, TRef.toBuf, cast_eq]
  rw [h_main_arg1]
  rfl

set_option maxRecDepth 8192 in
set_option maxHeartbeats 1000000 in

theorem after6_main_call1_v3 (W : Valuation τ sig (Elt F))
     :
    after ops6 W (Proc.devRef .tc main_call1_v3) = val_main_call1_v3 (F := F) := by
  simp only [ops6]
  after_results_simp
  try dsimp only [Matrix.cons_val]
  try simp only [TRef.ofBuf, TRef.toBuf, cast_eq]
  rw []
  rfl

abbrev ops7 : List (HloOp τ sig (Elt F)) :=
  [ TRef.unary (TRef.of (T := ⟨S_, .i32⟩) main_call1_v3) (TRef.of (T := ⟨S64x8, .i32⟩) main_call1_v4) (broadcastInDim S64x8 ![] bcast_S_S64x8),
    TRef.binary (TRef.of (T := ⟨S64x8, .i32⟩) main_call1_v4) (TRef.of (T := ⟨S64x8, .i32⟩) main_call1_v2) (TRef.of (T := ⟨S64x8, .i32⟩) main_v15) minsi,
    unary main_v15 main_v16 (broadcastInDim S64x8x1 ![0, 1] bcast_S64x8_S64x8x1_0_1 : (⟨S64x8, .i32⟩ : BufTy).Contents (Elt F) → (⟨S64x8x1, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S64x8x1, .i32⟩) main_call2_v0) (broadcastInDim S64x8x1 ![] bcast_S_S64x8x1),
    TRef.binary (TRef.of (T := ⟨S64x8x1, .i32⟩) main_v16) (TRef.of (T := ⟨S64x8x1, .i32⟩) main_call2_v0) (TRef.of (T := ⟨S64x8x1, .i1⟩) main_call2_v1) (cmpi .slt),
    TRef.nullary (TRef.of (T := ⟨S_, .i32⟩) main_call2_c_0) (constantI S_ 32 20003#32),
    TRef.unary (TRef.of (T := ⟨S_, .i32⟩) main_call2_c_0) (TRef.of (T := ⟨S64x8x1, .i32⟩) main_call2_v2) (broadcastInDim S64x8x1 ![] bcast_S_S64x8x1) ]

set_option maxRecDepth 8192 in
theorem ops7_sub : (ops7 : List (HloOp τ sig (Elt F))).Forall fun op => op.bufs ⊆ tcRefs τ sig :=
  ⟨unary_bufs_sub .., binary_bufs_sub .., unary_bufs_sub .., nullary_bufs_sub .., unary_bufs_sub .., binary_bufs_sub .., nullary_bufs_sub .., unary_bufs_sub ..⟩

set_option maxRecDepth 8192 in
theorem ops7_fresh : ∀ op ∈ (ops7 : List (HloOp τ sig (Elt F))), op.fresh = ∅ := by
  intro _ h; (repeat (cases h with | head => rfl | tail _ h => ?_)); exact nomatch h

abbrev ops7_W : List (Ref sig .tc) := [main_call1_v4, main_v15, main_v16, main_call2_c, main_call2_v0, main_call2_v1, main_call2_c_0, main_call2_v2]

set_option maxRecDepth 8192 in
theorem ops7_writes : (ops7 : List (HloOp τ sig (Elt F))).Forall fun op =>
    op.writes ⊆ (ops7_W.map (Proc.devRef (τ := τ) .tc)).toFinset := by
  simp only [List.Forall]
  refine ⟨?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem ops7_keep (W : Valuation τ sig (Elt F)) (r : Ref sig .tc) (h : r ∉ ops7_W) :
    after ops7 W (Proc.devRef .tc r) = W (Proc.devRef .tc r) :=
  after_of_writes_sub ops7 W ops7_writes h

set_option maxRecDepth 8192 in
set_option maxHeartbeats 1000000 in

theorem after7_main_v16 (W : Valuation τ sig (Elt F)) (x1 : (⟨S64x8, .i32⟩ : BufTy).Contents (Elt F))
    (h_main_call1_v2 : W (Proc.devRef .tc main_call1_v2) = val_main_call1_v2 (F := F) x1)
    (h_main_call1_v3 : W (Proc.devRef .tc main_call1_v3) = val_main_call1_v3 (F := F)) :
    after ops7 W (Proc.devRef .tc main_v16) = val_main_v16 (F := F) x1 := by
  simp only [ops7]
  after_results_simp
  try dsimp only [Matrix.cons_val]
  try simp only [TRef.ofBuf, TRef.toBuf, cast_eq]
  rw [h_main_call1_v2, h_main_call1_v3]
  rfl

set_option maxRecDepth 8192 in
set_option maxHeartbeats 1000000 in

theorem after7_main_call2_v1 (W : Valuation τ sig (Elt F)) (x1 : (⟨S64x8, .i32⟩ : BufTy).Contents (Elt F))
    (h_main_call1_v2 : W (Proc.devRef .tc main_call1_v2) = val_main_call1_v2 (F := F) x1)
    (h_main_call1_v3 : W (Proc.devRef .tc main_call1_v3) = val_main_call1_v3 (F := F)) :
    after ops7 W (Proc.devRef .tc main_call2_v1) = val_main_call2_v1 (F := F) x1 := by
  simp only [ops7]
  after_results_simp
  try dsimp only [Matrix.cons_val]
  try simp only [TRef.ofBuf, TRef.toBuf, cast_eq]
  rw [h_main_call1_v2, h_main_call1_v3]
  rfl

set_option maxRecDepth 8192 in
set_option maxHeartbeats 1000000 in

theorem after7_main_call2_v2 (W : Valuation τ sig (Elt F))
     :
    after ops7 W (Proc.devRef .tc main_call2_v2) = val_main_call2_v2 (F := F) := by
  simp only [ops7]
  after_results_simp
  try dsimp only [Matrix.cons_val]
  try simp only [TRef.ofBuf, TRef.toBuf, cast_eq]
  rw []
  rfl

abbrev ops8 : List (HloOp τ sig (Elt F)) :=
  [ TRef.binary (TRef.of (T := ⟨S64x8x1, .i32⟩) main_v16) (TRef.of (T := ⟨S64x8x1, .i32⟩) main_call2_v2) (TRef.of (T := ⟨S64x8x1, .i32⟩) main_call2_v3) addi,
    TRef.ternary (TRef.of (T := ⟨S64x8x1, .i1⟩) main_call2_v1) (TRef.of (T := ⟨S64x8x1, .i32⟩) main_call2_v3) (TRef.of (T := ⟨S64x8x1, .i32⟩) main_v16) (TRef.of (T := ⟨S64x8x1, .i32⟩) main_call2_v4) select,
    TRef.reshape (TRef.of (T := ⟨S64x8x1, .i32⟩) main_call2_v4) (TRef.of (T := ⟨S64x8x1x1, .i32⟩) main_call2_v5) rfl shapeCasts_S64x8x1_S64x8x1x1,
    TRef.nullary (TRef.of (T := ⟨S1, .i32⟩) main_call2_c_1) (constantI S1 32 20002#32),
    TRef.nullary (TRef.of (T := ⟨S_, .i32⟩) main_call2_c_2) (constantI S_ 32 0#32),
    TRef.unary (TRef.of (T := ⟨S_, .i32⟩) main_call2_c_2) (TRef.of (T := ⟨S64x8x1x1, .i32⟩) main_call2_v6) (broadcastInDim S64x8x1x1 ![] bcast_S_S64x8x1x1),
    TRef.binary (TRef.of (T := ⟨S64x8x1x1, .i32⟩) main_call2_v5) (TRef.of (T := ⟨S64x8x1x1, .i32⟩) main_call2_v6) (TRef.of (T := ⟨S64x8x1x1, .i1⟩) main_call2_v7) (cmpi .sge),
    TRef.unary (TRef.of (T := ⟨S1, .i32⟩) main_call2_c_1) (TRef.of (T := ⟨S1x1x1x1, .i32⟩) main_call2_v8) (broadcastInDim S1x1x1x1 ![3] bcast_S1_S1x1x1x1_3) ]

set_option maxRecDepth 8192 in
theorem ops8_sub : (ops8 : List (HloOp τ sig (Elt F))).Forall fun op => op.bufs ⊆ tcRefs τ sig :=
  ⟨binary_bufs_sub .., ternary_bufs_sub .., reshape_bufs_sub .., nullary_bufs_sub .., nullary_bufs_sub .., unary_bufs_sub .., binary_bufs_sub .., unary_bufs_sub ..⟩

set_option maxRecDepth 8192 in
theorem ops8_fresh : ∀ op ∈ (ops8 : List (HloOp τ sig (Elt F))), op.fresh = ∅ := by
  intro _ h; (repeat (cases h with | head => rfl | tail _ h => ?_)); exact nomatch h

abbrev ops8_W : List (Ref sig .tc) := [main_call2_v3, main_call2_v4, main_call2_v5, main_call2_c_1, main_call2_c_2, main_call2_v6, main_call2_v7, main_call2_v8]

set_option maxRecDepth 8192 in
theorem ops8_writes : (ops8 : List (HloOp τ sig (Elt F))).Forall fun op =>
    op.writes ⊆ (ops8_W.map (Proc.devRef (τ := τ) .tc)).toFinset := by
  simp only [List.Forall]
  refine ⟨?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem ops8_keep (W : Valuation τ sig (Elt F)) (r : Ref sig .tc) (h : r ∉ ops8_W) :
    after ops8 W (Proc.devRef .tc r) = W (Proc.devRef .tc r) :=
  after_of_writes_sub ops8 W ops8_writes h

set_option maxRecDepth 8192 in
set_option maxHeartbeats 1000000 in

theorem after8_main_call2_v5 (W : Valuation τ sig (Elt F)) (x1 : (⟨S64x8, .i32⟩ : BufTy).Contents (Elt F))
    (h_main_v16 : W (Proc.devRef .tc main_v16) = val_main_v16 (F := F) x1)
    (h_main_call2_v1 : W (Proc.devRef .tc main_call2_v1) = val_main_call2_v1 (F := F) x1)
    (h_main_call2_v2 : W (Proc.devRef .tc main_call2_v2) = val_main_call2_v2 (F := F)) :
    after ops8 W (Proc.devRef .tc main_call2_v5) = val_main_call2_v5 (F := F) x1 := by
  simp only [ops8]
  after_results_simp
  try dsimp only [Matrix.cons_val]
  try simp only [TRef.ofBuf, TRef.toBuf, cast_eq]
  rw [h_main_v16, h_main_call2_v1, h_main_call2_v2]
  rfl

set_option maxRecDepth 8192 in
set_option maxHeartbeats 1000000 in

theorem after8_main_call2_v7 (W : Valuation τ sig (Elt F)) (x1 : (⟨S64x8, .i32⟩ : BufTy).Contents (Elt F))
    (h_main_v16 : W (Proc.devRef .tc main_v16) = val_main_v16 (F := F) x1)
    (h_main_call2_v1 : W (Proc.devRef .tc main_call2_v1) = val_main_call2_v1 (F := F) x1)
    (h_main_call2_v2 : W (Proc.devRef .tc main_call2_v2) = val_main_call2_v2 (F := F)) :
    after ops8 W (Proc.devRef .tc main_call2_v7) = val_main_call2_v7 (F := F) x1 := by
  simp only [ops8]
  after_results_simp
  try dsimp only [Matrix.cons_val]
  try simp only [TRef.ofBuf, TRef.toBuf, cast_eq]
  rw [h_main_v16, h_main_call2_v1, h_main_call2_v2]
  rfl

set_option maxRecDepth 8192 in
set_option maxHeartbeats 1000000 in

theorem after8_main_call2_v8 (W : Valuation τ sig (Elt F))
     :
    after ops8 W (Proc.devRef .tc main_call2_v8) = val_main_call2_v8 (F := F) := by
  simp only [ops8]
  after_results_simp
  try dsimp only [Matrix.cons_val]
  try simp only [TRef.ofBuf, TRef.toBuf, cast_eq]
  rw []
  rfl

abbrev ops9 : List (HloOp τ sig (Elt F)) :=
  [ TRef.unary (TRef.of (T := ⟨S1x1x1x1, .i32⟩) main_call2_v8) (TRef.of (T := ⟨S64x8x1x1, .i32⟩) main_call2_v9) (broadcastInDim S64x8x1x1 ![0, 1, 2, 3] bcast_S1x1x1x1_S64x8x1x1_0_1_2_3),
    TRef.binary (TRef.of (T := ⟨S64x8x1x1, .i32⟩) main_call2_v5) (TRef.of (T := ⟨S64x8x1x1, .i32⟩) main_call2_v9) (TRef.of (T := ⟨S64x8x1x1, .i1⟩) main_call2_v10) (cmpi .sle),
    TRef.binary (TRef.of (T := ⟨S64x8x1x1, .i1⟩) main_call2_v7) (TRef.of (T := ⟨S64x8x1x1, .i1⟩) main_call2_v10) (TRef.of (T := ⟨S64x8x1x1, .i1⟩) main_call2_v11) andi,
    TRef.nullary (TRef.of (T := ⟨S_, .i1⟩) main_call2_c_3) (constantI S_ 1 1#1),
    TRef.binary (TRef.of (T := ⟨S64x8x1x1, .i1⟩) main_call2_v11) (TRef.of (T := ⟨S_, .i1⟩) main_call2_c_3) (TRef.of (T := ⟨S64x8x1, .i1⟩) main_call2_v12) (fun x v => Host.reduce IntOp.andi x v reducesTo_S64x8x1x1_S64x8x1_d3 h_S_),
    TRef.binary (TRef.of (T := ⟨S64x8x20003, .f32⟩) main_v7) (TRef.of (T := ⟨S64x8x1x1, .i32⟩) main_call2_v5) (TRef.of (T := ⟨S64x8x1, .f32⟩) main_call2_v13) (fun x i => Host.gather gather_S64x8x20003_S64x8x1x1_S64x8x1_n_2_01_01_2_3_111 x i),
    TRef.nullary (TRef.of (T := ⟨S_, .f32⟩) main_call2_cst) (constant S_ .f32 0x7FC00000#32),
    TRef.unary (TRef.of (T := ⟨S_, .f32⟩) main_call2_cst) (TRef.of (T := ⟨S64x8x1, .f32⟩) main_call2_v14) (broadcastInDim S64x8x1 ![] bcast_S_S64x8x1) ]

set_option maxRecDepth 8192 in
theorem ops9_sub : (ops9 : List (HloOp τ sig (Elt F))).Forall fun op => op.bufs ⊆ tcRefs τ sig :=
  ⟨unary_bufs_sub .., binary_bufs_sub .., binary_bufs_sub .., nullary_bufs_sub .., binary_bufs_sub .., binary_bufs_sub .., nullary_bufs_sub .., unary_bufs_sub ..⟩

set_option maxRecDepth 8192 in
theorem ops9_fresh : ∀ op ∈ (ops9 : List (HloOp τ sig (Elt F))), op.fresh = ∅ := by
  intro _ h; (repeat (cases h with | head => rfl | tail _ h => ?_)); exact nomatch h

abbrev ops9_W : List (Ref sig .tc) := [main_call2_v9, main_call2_v10, main_call2_v11, main_call2_c_3, main_call2_v12, main_call2_v13, main_call2_cst, main_call2_v14]

set_option maxRecDepth 8192 in
theorem ops9_writes : (ops9 : List (HloOp τ sig (Elt F))).Forall fun op =>
    op.writes ⊆ (ops9_W.map (Proc.devRef (τ := τ) .tc)).toFinset := by
  simp only [List.Forall]
  refine ⟨?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem ops9_keep (W : Valuation τ sig (Elt F)) (r : Ref sig .tc) (h : r ∉ ops9_W) :
    after ops9 W (Proc.devRef .tc r) = W (Proc.devRef .tc r) :=
  after_of_writes_sub ops9 W ops9_writes h

set_option maxRecDepth 8192 in
set_option maxHeartbeats 1000000 in

theorem after9_main_call2_v12 (W : Valuation τ sig (Elt F)) (x1 : (⟨S64x8, .i32⟩ : BufTy).Contents (Elt F))
    (h_main_call2_v5 : W (Proc.devRef .tc main_call2_v5) = val_main_call2_v5 (F := F) x1)
    (h_main_call2_v7 : W (Proc.devRef .tc main_call2_v7) = val_main_call2_v7 (F := F) x1)
    (h_main_call2_v8 : W (Proc.devRef .tc main_call2_v8) = val_main_call2_v8 (F := F)) :
    after ops9 W (Proc.devRef .tc main_call2_v12) = val_main_call2_v12 (F := F) x1 := by
  simp only [ops9]
  after_results_simp
  try dsimp only [Matrix.cons_val]
  try simp only [TRef.ofBuf, TRef.toBuf, cast_eq]
  rw [h_main_call2_v5, h_main_call2_v7, h_main_call2_v8]
  rfl

set_option maxRecDepth 8192 in
set_option maxHeartbeats 1000000 in

theorem after9_main_call2_v13 (W : Valuation τ sig (Elt F)) (x0 : (⟨S64x8x1024, .f32⟩ : BufTy).Contents (Elt F)) (x1 : (⟨S64x8, .i32⟩ : BufTy).Contents (Elt F)) (x2 : (⟨S3x1024, .f32⟩ : BufTy).Contents (Elt F)) (x3 : (⟨S3, .f32⟩ : BufTy).Contents (Elt F)) (x4 : (⟨S20000x1024, .f32⟩ : BufTy).Contents (Elt F)) (x5 : (⟨S20000, .f32⟩ : BufTy).Contents (Elt F)) (x6 : (⟨S1024x1024, .f32⟩ : BufTy).Contents (Elt F))
    (h_main_v7 : W (Proc.devRef .tc main_v7) = val_main_v7 (F := F) x0 x2 x3 x4 x5 x6)
    (h_main_call2_v5 : W (Proc.devRef .tc main_call2_v5) = val_main_call2_v5 (F := F) x1) :
    after ops9 W (Proc.devRef .tc main_call2_v13) = val_main_call2_v13 (F := F) x0 x1 x2 x3 x4 x5 x6 := by
  simp only [ops9]
  after_results_simp
  try dsimp only [Matrix.cons_val]
  try simp only [TRef.ofBuf, TRef.toBuf, cast_eq]
  rw [h_main_v7, h_main_call2_v5]
  rfl

set_option maxRecDepth 8192 in
set_option maxHeartbeats 1000000 in

theorem after9_main_call2_v14 (W : Valuation τ sig (Elt F))
     :
    after ops9 W (Proc.devRef .tc main_call2_v14) = val_main_call2_v14 (F := F) := by
  simp only [ops9]
  after_results_simp
  try dsimp only [Matrix.cons_val]
  try simp only [TRef.ofBuf, TRef.toBuf, cast_eq]
  rw []
  rfl

abbrev ops10 : List (HloOp τ sig (Elt F)) :=
  [ TRef.ternary (TRef.of (T := ⟨S64x8x1, .i1⟩) main_call2_v12) (TRef.of (T := ⟨S64x8x1, .f32⟩) main_call2_v13) (TRef.of (T := ⟨S64x8x1, .f32⟩) main_call2_v14) (TRef.of (T := ⟨S64x8x1, .f32⟩) main_v17) select,
    reshape main_v17 main_v18 rfl shapeCasts_S64x8x1_S64x8,
    TRef.ternary (TRef.of (T := ⟨S64x8, .i1⟩) main_v14) (TRef.of (T := ⟨S64x8, .f32⟩) main_v18) (TRef.of (T := ⟨S64x8, .f32⟩) main_v9) (TRef.of (T := ⟨S64x8, .f32⟩) main_v19) select ]

set_option maxRecDepth 8192 in
theorem ops10_sub : (ops10 : List (HloOp τ sig (Elt F))).Forall fun op => op.bufs ⊆ tcRefs τ sig :=
  ⟨ternary_bufs_sub .., reshape_bufs_sub .., ternary_bufs_sub ..⟩

set_option maxRecDepth 8192 in
theorem ops10_fresh : ∀ op ∈ (ops10 : List (HloOp τ sig (Elt F))), op.fresh = ∅ := by
  intro _ h; (repeat (cases h with | head => rfl | tail _ h => ?_)); exact nomatch h

abbrev ops10_W : List (Ref sig .tc) := [main_v17, main_v18, main_v19]

set_option maxRecDepth 8192 in
theorem ops10_writes : (ops10 : List (HloOp τ sig (Elt F))).Forall fun op =>
    op.writes ⊆ (ops10_W.map (Proc.devRef (τ := τ) .tc)).toFinset := by
  simp only [List.Forall]
  refine ⟨?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem ops10_keep (W : Valuation τ sig (Elt F)) (r : Ref sig .tc) (h : r ∉ ops10_W) :
    after ops10 W (Proc.devRef .tc r) = W (Proc.devRef .tc r) :=
  after_of_writes_sub ops10 W ops10_writes h

set_option maxRecDepth 8192 in
set_option maxHeartbeats 500000 in

theorem after10_main_v19 (W : Valuation τ sig (Elt F)) (x0 : (⟨S64x8x1024, .f32⟩ : BufTy).Contents (Elt F)) (x1 : (⟨S64x8, .i32⟩ : BufTy).Contents (Elt F)) (x2 : (⟨S3x1024, .f32⟩ : BufTy).Contents (Elt F)) (x3 : (⟨S3, .f32⟩ : BufTy).Contents (Elt F)) (x4 : (⟨S20000x1024, .f32⟩ : BufTy).Contents (Elt F)) (x5 : (⟨S20000, .f32⟩ : BufTy).Contents (Elt F)) (x6 : (⟨S1024x1024, .f32⟩ : BufTy).Contents (Elt F))
    (h_main_v9 : W (Proc.devRef .tc main_v9) = val_main_v9 (F := F))
    (h_main_v14 : W (Proc.devRef .tc main_v14) = val_main_v14 (F := F) x1)
    (h_main_call2_v12 : W (Proc.devRef .tc main_call2_v12) = val_main_call2_v12 (F := F) x1)
    (h_main_call2_v13 : W (Proc.devRef .tc main_call2_v13) = val_main_call2_v13 (F := F) x0 x1 x2 x3 x4 x5 x6)
    (h_main_call2_v14 : W (Proc.devRef .tc main_call2_v14) = val_main_call2_v14 (F := F)) :
    after ops10 W (Proc.devRef .tc main_v19) = val_main_v19 (F := F) x0 x1 x2 x3 x4 x5 x6 := by
  simp only [ops10]
  after_results_simp
  try dsimp only [Matrix.cons_val]
  try simp only [TRef.ofBuf, TRef.toBuf, cast_eq]
  rw [h_main_v9, h_main_v14, h_main_call2_v12, h_main_call2_v13, h_main_call2_v14]
  rfl

end Cert.ReferenceIdeal.RunHand

end
-- ==== Proof.RefChunk3.lean ====
import proofs.«138250_j73134703116926_1_alg».proof.Proof.RefReadP
import Idealize.ShloMosaic.Lib.StableHlo.Run

noncomputable section

namespace Cert.ReferenceIdeal.RunHand

open Cert.ReferenceIdeal Cert.ReferenceIdeal.Gen Cert.ReferenceIdeal.ReadP Idealize.ShloMosaic Idealize.ShloMosaic.TcCoe Idealize.SL.Sem
  Idealize.ShloMosaic.StableHlo

variable {F : FTy → Type} [FloatOps F]

attribute [local irreducible] Host.reduce Host.reduceAdd Host.gather concatenate broadcastInDim shapeCast extractStridedSlice addf subf maximumf Host.exp Host.log select cmpi andi addi subi maxsi minsi constant constantI Host.negf Host.divf

abbrev ops11 : List (HloOp τ sig (Elt F)) :=
  [ binary main_arg0 main_arg9 main_v20 ((fun l r => Host.dotGeneral dot_S64x8x1024_S256x1024_S64x8x256_2_1_01_0_n_n none l r) : (⟨S64x8x1024, .f32⟩ : BufTy).Contents (Elt F) → (⟨S256x1024, .f32⟩ : BufTy).Contents (Elt F) → (⟨S64x8x256, .f32⟩ : BufTy).Contents (Elt F)),
    binary main_v20 main_arg7 main_v21 ((fun l r => Host.dotGeneral dot_S64x8x256_S20000x256_S64x8x20000_2_1_01_0_n_n none l r) : (⟨S64x8x256, .f32⟩ : BufTy).Contents (Elt F) → (⟨S20000x256, .f32⟩ : BufTy).Contents (Elt F) → (⟨S64x8x20000, .f32⟩ : BufTy).Contents (Elt F)),
    unary main_arg8 main_v22 (broadcastInDim S1x1x20000 ![2] bcast_S20000_S1x1x20000_2 : (⟨S20000, .f32⟩ : BufTy).Contents (Elt F) → (⟨S1x1x20000, .f32⟩ : BufTy).Contents (Elt F)),
    unary main_v22 main_v23 (broadcastInDim S64x8x20000 ![0, 1, 2] bcast_S1x1x20000_S64x8x20000_0_1_2 : (⟨S1x1x20000, .f32⟩ : BufTy).Contents (Elt F) → (⟨S64x8x20000, .f32⟩ : BufTy).Contents (Elt F)),
    binary main_v21 main_v23 main_v24 (addf : (⟨S64x8x20000, .f32⟩ : BufTy).Contents (Elt F) → (⟨S64x8x20000, .f32⟩ : BufTy).Contents (Elt F) → (⟨S64x8x20000, .f32⟩ : BufTy).Contents (Elt F)),
    TRef.nullary (TRef.of (T := ⟨S_, .f32⟩) main_call4_cst) (constant S_ .f32 0xFF800000#32),
    TRef.binary (TRef.of (T := ⟨S64x8x20000, .f32⟩) main_v24) (TRef.of (T := ⟨S_, .f32⟩) main_call4_cst) (TRef.of (T := ⟨S64x8, .f32⟩) main_call4_v0) (fun x v => Host.reduce FloatOps.maximumf x v reducesTo_S64x8x20000_S64x8_d2 h_S_),
    TRef.nullary (TRef.of (T := ⟨S_, .f32⟩) main_call4_cst_0) (constant S_ .f32 0xFF800000#32) ]

set_option maxRecDepth 8192 in
theorem ops11_sub : (ops11 : List (HloOp τ sig (Elt F))).Forall fun op => op.bufs ⊆ tcRefs τ sig :=
  ⟨binary_bufs_sub .., binary_bufs_sub .., unary_bufs_sub .., unary_bufs_sub .., binary_bufs_sub .., nullary_bufs_sub .., binary_bufs_sub .., nullary_bufs_sub ..⟩

set_option maxRecDepth 8192 in
theorem ops11_fresh : ∀ op ∈ (ops11 : List (HloOp τ sig (Elt F))), op.fresh = ∅ := by
  intro _ h; (repeat (cases h with | head => rfl | tail _ h => ?_)); exact nomatch h

abbrev ops11_W : List (Ref sig .tc) := [main_v20, main_v21, main_v22, main_v23, main_v24, main_call4_cst, main_call4_v0, main_call4_cst_0]

set_option maxRecDepth 8192 in
theorem ops11_writes : (ops11 : List (HloOp τ sig (Elt F))).Forall fun op =>
    op.writes ⊆ (ops11_W.map (Proc.devRef (τ := τ) .tc)).toFinset := by
  simp only [List.Forall]
  refine ⟨?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem ops11_keep (W : Valuation τ sig (Elt F)) (r : Ref sig .tc) (h : r ∉ ops11_W) :
    after ops11 W (Proc.devRef .tc r) = W (Proc.devRef .tc r) :=
  after_of_writes_sub ops11 W ops11_writes h

set_option maxRecDepth 8192 in
set_option maxHeartbeats 1000000 in

theorem after11_main_v24 (W : Valuation τ sig (Elt F)) (x0 : (⟨S64x8x1024, .f32⟩ : BufTy).Contents (Elt F)) (x7 : (⟨S20000x256, .f32⟩ : BufTy).Contents (Elt F)) (x8 : (⟨S20000, .f32⟩ : BufTy).Contents (Elt F)) (x9 : (⟨S256x1024, .f32⟩ : BufTy).Contents (Elt F))
    (h_main_arg0 : W (Proc.devRef .tc main_arg0) = x0)
    (h_main_arg7 : W (Proc.devRef .tc main_arg7) = x7)
    (h_main_arg8 : W (Proc.devRef .tc main_arg8) = x8)
    (h_main_arg9 : W (Proc.devRef .tc main_arg9) = x9) :
    after ops11 W (Proc.devRef .tc main_v24) = val_main_v24 (F := F) x0 x7 x8 x9 := by
  simp only [ops11]
  after_results_simp
  try dsimp only [Matrix.cons_val]
  try simp only [TRef.ofBuf, TRef.toBuf, cast_eq]
  rw [h_main_arg0, h_main_arg7, h_main_arg8, h_main_arg9]
  rfl

set_option maxRecDepth 8192 in
set_option maxHeartbeats 1000000 in

theorem after11_main_call4_v0 (W : Valuation τ sig (Elt F)) (x0 : (⟨S64x8x1024, .f32⟩ : BufTy).Contents (Elt F)) (x7 : (⟨S20000x256, .f32⟩ : BufTy).Contents (Elt F)) (x8 : (⟨S20000, .f32⟩ : BufTy).Contents (Elt F)) (x9 : (⟨S256x1024, .f32⟩ : BufTy).Contents (Elt F))
    (h_main_arg0 : W (Proc.devRef .tc main_arg0) = x0)
    (h_main_arg7 : W (Proc.devRef .tc main_arg7) = x7)
    (h_main_arg8 : W (Proc.devRef .tc main_arg8) = x8)
    (h_main_arg9 : W (Proc.devRef .tc main_arg9) = x9) :
    after ops11 W (Proc.devRef .tc main_call4_v0) = val_main_call4_v0 (F := F) x0 x7 x8 x9 := by
  simp only [ops11]
  after_results_simp
  try dsimp only [Matrix.cons_val]
  try simp only [TRef.ofBuf, TRef.toBuf, cast_eq]
  rw [h_main_arg0, h_main_arg7, h_main_arg8, h_main_arg9]
  rfl

set_option maxRecDepth 8192 in
set_option maxHeartbeats 1000000 in

theorem after11_main_call4_cst_0 (W : Valuation τ sig (Elt F))
     :
    after ops11 W (Proc.devRef .tc main_call4_cst_0) = val_main_call4_cst_0 (F := F) := by
  simp only [ops11]
  after_results_simp
  try dsimp only [Matrix.cons_val]
  try simp only [TRef.ofBuf, TRef.toBuf, cast_eq]
  rw []
  rfl

abbrev ops12 : List (HloOp τ sig (Elt F)) :=
  [ TRef.unary (TRef.of (T := ⟨S_, .f32⟩) main_call4_cst_0) (TRef.of (T := ⟨S64x8, .f32⟩) main_call4_v1) (broadcastInDim S64x8 ![] bcast_S_S64x8),
    TRef.binary (TRef.of (T := ⟨S64x8, .f32⟩) main_call4_v1) (TRef.of (T := ⟨S64x8, .f32⟩) main_call4_v0) (TRef.of (T := ⟨S64x8, .f32⟩) main_call4_v2) maximumf,
    TRef.unary (TRef.of (T := ⟨S64x8, .f32⟩) main_call4_v2) (TRef.of (T := ⟨S64x8x1, .f32⟩) main_call4_v3) (broadcastInDim S64x8x1 ![0, 1] bcast_S64x8_S64x8x1_0_1),
    TRef.unary (TRef.of (T := ⟨S64x8x1, .f32⟩) main_call4_v3) (TRef.of (T := ⟨S64x8x20000, .f32⟩) main_call4_v4) (broadcastInDim S64x8x20000 ![0, 1, 2] bcast_S64x8x1_S64x8x20000_0_1_2),
    TRef.binary (TRef.of (T := ⟨S64x8x20000, .f32⟩) main_v24) (TRef.of (T := ⟨S64x8x20000, .f32⟩) main_call4_v4) (TRef.of (T := ⟨S64x8x20000, .f32⟩) main_call4_v5) subf,
    TRef.unary (TRef.of (T := ⟨S64x8x20000, .f32⟩) main_call4_v5) (TRef.of (T := ⟨S64x8x20000, .f32⟩) main_call4_v6) Host.exp,
    TRef.nullary (TRef.of (T := ⟨S_, .f32⟩) main_call4_cst_1) (constant S_ .f32 0x00000000#32),
    TRef.binary (TRef.of (T := ⟨S64x8x20000, .f32⟩) main_call4_v6) (TRef.of (T := ⟨S_, .f32⟩) main_call4_cst_1) (TRef.of (T := ⟨S64x8, .f32⟩) main_call4_v7) (fun x v => Host.reduceAdd x v reducesTo_S64x8x20000_S64x8_d2 h_S_) ]

set_option maxRecDepth 8192 in
theorem ops12_sub : (ops12 : List (HloOp τ sig (Elt F))).Forall fun op => op.bufs ⊆ tcRefs τ sig :=
  ⟨unary_bufs_sub .., binary_bufs_sub .., unary_bufs_sub .., unary_bufs_sub .., binary_bufs_sub .., unary_bufs_sub .., nullary_bufs_sub .., binary_bufs_sub ..⟩

set_option maxRecDepth 8192 in
theorem ops12_fresh : ∀ op ∈ (ops12 : List (HloOp τ sig (Elt F))), op.fresh = ∅ := by
  intro _ h; (repeat (cases h with | head => rfl | tail _ h => ?_)); exact nomatch h

abbrev ops12_W : List (Ref sig .tc) := [main_call4_v1, main_call4_v2, main_call4_v3, main_call4_v4, main_call4_v5, main_call4_v6, main_call4_cst_1, main_call4_v7]

set_option maxRecDepth 8192 in
theorem ops12_writes : (ops12 : List (HloOp τ sig (Elt F))).Forall fun op =>
    op.writes ⊆ (ops12_W.map (Proc.devRef (τ := τ) .tc)).toFinset := by
  simp only [List.Forall]
  refine ⟨?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem ops12_keep (W : Valuation τ sig (Elt F)) (r : Ref sig .tc) (h : r ∉ ops12_W) :
    after ops12 W (Proc.devRef .tc r) = W (Proc.devRef .tc r) :=
  after_of_writes_sub ops12 W ops12_writes h

set_option maxRecDepth 8192 in
set_option maxHeartbeats 1000000 in

theorem after12_main_call4_v5 (W : Valuation τ sig (Elt F)) (x0 : (⟨S64x8x1024, .f32⟩ : BufTy).Contents (Elt F)) (x7 : (⟨S20000x256, .f32⟩ : BufTy).Contents (Elt F)) (x8 : (⟨S20000, .f32⟩ : BufTy).Contents (Elt F)) (x9 : (⟨S256x1024, .f32⟩ : BufTy).Contents (Elt F))
    (h_main_v24 : W (Proc.devRef .tc main_v24) = val_main_v24 (F := F) x0 x7 x8 x9)
    (h_main_call4_v0 : W (Proc.devRef .tc main_call4_v0) = val_main_call4_v0 (F := F) x0 x7 x8 x9)
    (h_main_call4_cst_0 : W (Proc.devRef .tc main_call4_cst_0) = val_main_call4_cst_0 (F := F)) :
    after ops12 W (Proc.devRef .tc main_call4_v5) = val_main_call4_v5 (F := F) x0 x7 x8 x9 := by
  simp only [ops12]
  after_results_simp
  try dsimp only [Matrix.cons_val]
  try simp only [TRef.ofBuf, TRef.toBuf, cast_eq]
  rw [h_main_v24, h_main_call4_v0, h_main_call4_cst_0]
  rfl

set_option maxRecDepth 8192 in
set_option maxHeartbeats 1000000 in

theorem after12_main_call4_v7 (W : Valuation τ sig (Elt F)) (x0 : (⟨S64x8x1024, .f32⟩ : BufTy).Contents (Elt F)) (x7 : (⟨S20000x256, .f32⟩ : BufTy).Contents (Elt F)) (x8 : (⟨S20000, .f32⟩ : BufTy).Contents (Elt F)) (x9 : (⟨S256x1024, .f32⟩ : BufTy).Contents (Elt F))
    (h_main_v24 : W (Proc.devRef .tc main_v24) = val_main_v24 (F := F) x0 x7 x8 x9)
    (h_main_call4_v0 : W (Proc.devRef .tc main_call4_v0) = val_main_call4_v0 (F := F) x0 x7 x8 x9)
    (h_main_call4_cst_0 : W (Proc.devRef .tc main_call4_cst_0) = val_main_call4_cst_0 (F := F)) :
    after ops12 W (Proc.devRef .tc main_call4_v7) = val_main_call4_v7 (F := F) x0 x7 x8 x9 := by
  simp only [ops12]
  after_results_simp
  try dsimp only [Matrix.cons_val]
  try simp only [TRef.ofBuf, TRef.toBuf, cast_eq]
  rw [h_main_v24, h_main_call4_v0, h_main_call4_cst_0]
  rfl

abbrev ops13 : List (HloOp τ sig (Elt F)) :=
  [ TRef.unary (TRef.of (T := ⟨S64x8, .f32⟩) main_call4_v7) (TRef.of (T := ⟨S64x8x1, .f32⟩) main_call4_v8) (broadcastInDim S64x8x1 ![0, 1] bcast_S64x8_S64x8x1_0_1),
    TRef.unary (TRef.of (T := ⟨S64x8x1, .f32⟩) main_call4_v8) (TRef.of (T := ⟨S64x8x1, .f32⟩) main_call4_v9) Host.log,
    TRef.unary (TRef.of (T := ⟨S64x8x1, .f32⟩) main_call4_v9) (TRef.of (T := ⟨S64x8x20000, .f32⟩) main_call4_v10) (broadcastInDim S64x8x20000 ![0, 1, 2] bcast_S64x8x1_S64x8x20000_0_1_2),
    TRef.binary (TRef.of (T := ⟨S64x8x20000, .f32⟩) main_call4_v5) (TRef.of (T := ⟨S64x8x20000, .f32⟩) main_call4_v10) (TRef.of (T := ⟨S64x8x20000, .f32⟩) main_v25) subf,
    unary main_v7 main_v26 ((extractStridedSlice S64x8x1 ![0, 0, 20000] · slices_S64x8x20003_S64x8x1_0_0_20000) : (⟨S64x8x20003, .f32⟩ : BufTy).Contents (Elt F) → (⟨S64x8x1, .f32⟩ : BufTy).Contents (Elt F)),
    reshape main_v26 main_v27 rfl shapeCasts_S64x8x1_S64x8,
    unary main_v27 main_v28 (broadcastInDim S64x8x1 ![0, 1] bcast_S64x8_S64x8x1_0_1 : (⟨S64x8, .f32⟩ : BufTy).Contents (Elt F) → (⟨S64x8x1, .f32⟩ : BufTy).Contents (Elt F)),
    unary main_v28 main_v29 (broadcastInDim S64x8x20000 ![0, 1, 2] bcast_S64x8x1_S64x8x20000_0_1_2 : (⟨S64x8x1, .f32⟩ : BufTy).Contents (Elt F) → (⟨S64x8x20000, .f32⟩ : BufTy).Contents (Elt F)) ]

set_option maxRecDepth 8192 in
theorem ops13_sub : (ops13 : List (HloOp τ sig (Elt F))).Forall fun op => op.bufs ⊆ tcRefs τ sig :=
  ⟨unary_bufs_sub .., unary_bufs_sub .., unary_bufs_sub .., binary_bufs_sub .., unary_bufs_sub .., reshape_bufs_sub .., unary_bufs_sub .., unary_bufs_sub ..⟩

set_option maxRecDepth 8192 in
theorem ops13_fresh : ∀ op ∈ (ops13 : List (HloOp τ sig (Elt F))), op.fresh = ∅ := by
  intro _ h; (repeat (cases h with | head => rfl | tail _ h => ?_)); exact nomatch h

abbrev ops13_W : List (Ref sig .tc) := [main_call4_v8, main_call4_v9, main_call4_v10, main_v25, main_v26, main_v27, main_v28, main_v29]

set_option maxRecDepth 8192 in
theorem ops13_writes : (ops13 : List (HloOp τ sig (Elt F))).Forall fun op =>
    op.writes ⊆ (ops13_W.map (Proc.devRef (τ := τ) .tc)).toFinset := by
  simp only [List.Forall]
  refine ⟨?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem ops13_keep (W : Valuation τ sig (Elt F)) (r : Ref sig .tc) (h : r ∉ ops13_W) :
    after ops13 W (Proc.devRef .tc r) = W (Proc.devRef .tc r) :=
  after_of_writes_sub ops13 W ops13_writes h

set_option maxRecDepth 8192 in
set_option maxHeartbeats 1000000 in

theorem after13_main_v25 (W : Valuation τ sig (Elt F)) (x0 : (⟨S64x8x1024, .f32⟩ : BufTy).Contents (Elt F)) (x7 : (⟨S20000x256, .f32⟩ : BufTy).Contents (Elt F)) (x8 : (⟨S20000, .f32⟩ : BufTy).Contents (Elt F)) (x9 : (⟨S256x1024, .f32⟩ : BufTy).Contents (Elt F))
    (h_main_call4_v5 : W (Proc.devRef .tc main_call4_v5) = val_main_call4_v5 (F := F) x0 x7 x8 x9)
    (h_main_call4_v7 : W (Proc.devRef .tc main_call4_v7) = val_main_call4_v7 (F := F) x0 x7 x8 x9) :
    after ops13 W (Proc.devRef .tc main_v25) = val_main_v25 (F := F) x0 x7 x8 x9 := by
  simp only [ops13]
  after_results_simp
  try dsimp only [Matrix.cons_val]
  try simp only [TRef.ofBuf, TRef.toBuf, cast_eq]
  rw [h_main_call4_v5, h_main_call4_v7]
  rfl

set_option maxRecDepth 8192 in
set_option maxHeartbeats 1000000 in

theorem after13_main_v29 (W : Valuation τ sig (Elt F)) (x0 : (⟨S64x8x1024, .f32⟩ : BufTy).Contents (Elt F)) (x2 : (⟨S3x1024, .f32⟩ : BufTy).Contents (Elt F)) (x3 : (⟨S3, .f32⟩ : BufTy).Contents (Elt F)) (x4 : (⟨S20000x1024, .f32⟩ : BufTy).Contents (Elt F)) (x5 : (⟨S20000, .f32⟩ : BufTy).Contents (Elt F)) (x6 : (⟨S1024x1024, .f32⟩ : BufTy).Contents (Elt F))
    (h_main_v7 : W (Proc.devRef .tc main_v7) = val_main_v7 (F := F) x0 x2 x3 x4 x5 x6) :
    after ops13 W (Proc.devRef .tc main_v29) = val_main_v29 (F := F) x0 x2 x3 x4 x5 x6 := by
  simp only [ops13]
  after_results_simp
  try dsimp only [Matrix.cons_val]
  try simp only [TRef.ofBuf, TRef.toBuf, cast_eq]
  rw [h_main_v7]
  rfl

abbrev ops14 : List (HloOp τ sig (Elt F)) :=
  [ binary main_v29 main_v25 main_v30 (addf : (⟨S64x8x20000, .f32⟩ : BufTy).Contents (Elt F) → (⟨S64x8x20000, .f32⟩ : BufTy).Contents (Elt F) → (⟨S64x8x20000, .f32⟩ : BufTy).Contents (Elt F)) ]

set_option maxRecDepth 8192 in
theorem ops14_sub : (ops14 : List (HloOp τ sig (Elt F))).Forall fun op => op.bufs ⊆ tcRefs τ sig :=
  binary_bufs_sub ..

set_option maxRecDepth 8192 in
theorem ops14_fresh : ∀ op ∈ (ops14 : List (HloOp τ sig (Elt F))), op.fresh = ∅ := by
  intro _ h; (repeat (cases h with | head => rfl | tail _ h => ?_)); exact nomatch h

abbrev ops14_W : List (Ref sig .tc) := [main_v30]

set_option maxRecDepth 8192 in
theorem ops14_writes : (ops14 : List (HloOp τ sig (Elt F))).Forall fun op =>
    op.writes ⊆ (ops14_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))

theorem ops14_keep (W : Valuation τ sig (Elt F)) (r : Ref sig .tc) (h : r ∉ ops14_W) :
    after ops14 W (Proc.devRef .tc r) = W (Proc.devRef .tc r) :=
  after_of_writes_sub ops14 W ops14_writes h

set_option maxRecDepth 8192 in
set_option maxHeartbeats 300000 in

theorem after14_main_v30 (W : Valuation τ sig (Elt F)) (x0 : (⟨S64x8x1024, .f32⟩ : BufTy).Contents (Elt F)) (x2 : (⟨S3x1024, .f32⟩ : BufTy).Contents (Elt F)) (x3 : (⟨S3, .f32⟩ : BufTy).Contents (Elt F)) (x4 : (⟨S20000x1024, .f32⟩ : BufTy).Contents (Elt F)) (x5 : (⟨S20000, .f32⟩ : BufTy).Contents (Elt F)) (x6 : (⟨S1024x1024, .f32⟩ : BufTy).Contents (Elt F)) (x7 : (⟨S20000x256, .f32⟩ : BufTy).Contents (Elt F)) (x8 : (⟨S20000, .f32⟩ : BufTy).Contents (Elt F)) (x9 : (⟨S256x1024, .f32⟩ : BufTy).Contents (Elt F))
    (h_main_v25 : W (Proc.devRef .tc main_v25) = val_main_v25 (F := F) x0 x7 x8 x9)
    (h_main_v29 : W (Proc.devRef .tc main_v29) = val_main_v29 (F := F) x0 x2 x3 x4 x5 x6) :
    after ops14 W (Proc.devRef .tc main_v30) = val_main_v30 (F := F) x0 x2 x3 x4 x5 x6 x7 x8 x9 := by
  simp only [ops14]
  after_results_simp
  try dsimp only [Matrix.cons_val]
  try simp only [TRef.ofBuf, TRef.toBuf, cast_eq]
  rw [h_main_v25, h_main_v29]
  rfl

end Cert.ReferenceIdeal.RunHand

end
-- ==== Proof.RefChunk4.lean ====
import proofs.«138250_j73134703116926_1_alg».proof.Proof.RefReadP
import Idealize.ShloMosaic.Lib.StableHlo.Run

noncomputable section

namespace Cert.ReferenceIdeal.RunHand

open Cert.ReferenceIdeal Cert.ReferenceIdeal.Gen Cert.ReferenceIdeal.ReadP Idealize.ShloMosaic Idealize.ShloMosaic.TcCoe Idealize.SL.Sem
  Idealize.ShloMosaic.StableHlo

variable {F : FTy → Type} [FloatOps F]

attribute [local irreducible] Host.reduce Host.reduceAdd Host.gather concatenate broadcastInDim shapeCast extractStridedSlice addf subf maximumf Host.exp Host.log select cmpi andi addi subi maxsi minsi constant constantI Host.negf Host.divf

abbrev ops15 : List (HloOp τ sig (Elt F)) :=
  [ nullary main_c_3 (constantI S_ 32 20000#32),
    unary main_c_3 main_v31 (broadcastInDim S64x8 ![] bcast_S_S64x8 : (⟨S_, .i32⟩ : BufTy).Contents (Elt F) → (⟨S64x8, .i32⟩ : BufTy).Contents (Elt F)),
    binary main_arg1 main_v31 main_v32 (cmpi .sge : (⟨S64x8, .i32⟩ : BufTy).Contents (Elt F) → (⟨S64x8, .i32⟩ : BufTy).Contents (Elt F) → (⟨S64x8, .i1⟩ : BufTy).Contents (Elt F)),
    nullary main_c_4 (constantI S_ 32 40000#32),
    unary main_c_4 main_v33 (broadcastInDim S64x8 ![] bcast_S_S64x8 : (⟨S_, .i32⟩ : BufTy).Contents (Elt F) → (⟨S64x8, .i32⟩ : BufTy).Contents (Elt F)),
    binary main_arg1 main_v33 main_v34 (cmpi .slt : (⟨S64x8, .i32⟩ : BufTy).Contents (Elt F) → (⟨S64x8, .i32⟩ : BufTy).Contents (Elt F) → (⟨S64x8, .i1⟩ : BufTy).Contents (Elt F)),
    binary main_v32 main_v34 main_v35 (andi : (⟨S64x8, .i1⟩ : BufTy).Contents (Elt F) → (⟨S64x8, .i1⟩ : BufTy).Contents (Elt F) → (⟨S64x8, .i1⟩ : BufTy).Contents (Elt F)),
    nullary main_c_5 (constantI S_ 32 20000#32) ]

set_option maxRecDepth 8192 in
theorem ops15_sub : (ops15 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., nullary_bufs_sub ..⟩

set_option maxRecDepth 8192 in
theorem ops15_fresh : ∀ op ∈ (ops15 : List (HloOp τ sig (Elt F))), op.fresh = ∅ := by
  intro _ h; (repeat (cases h with | head => rfl | tail _ h => ?_)); exact nomatch h

abbrev ops15_W : List (Ref sig .tc) := [main_c_3, main_v31, main_v32, main_c_4, main_v33, main_v34, main_v35, main_c_5]

set_option maxRecDepth 8192 in
theorem ops15_writes : (ops15 : List (HloOp τ sig (Elt F))).Forall fun op =>
    op.writes ⊆ (ops15_W.map (Proc.devRef (τ := τ) .tc)).toFinset := by
  simp only [List.Forall]
  refine ⟨?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem ops15_keep (W : Valuation τ sig (Elt F)) (r : Ref sig .tc) (h : r ∉ ops15_W) :
    after ops15 W (Proc.devRef .tc r) = W (Proc.devRef .tc r) :=
  after_of_writes_sub ops15 W ops15_writes h

set_option maxRecDepth 8192 in
set_option maxHeartbeats 1000000 in

theorem after15_main_v35 (W : Valuation τ sig (Elt F)) (x1 : (⟨S64x8, .i32⟩ : BufTy).Contents (Elt F))
    (h_main_arg1 : W (Proc.devRef .tc main_arg1) = x1) :
    after ops15 W (Proc.devRef .tc main_v35) = val_main_v35 (F := F) x1 := by
  simp only [ops15]
  after_results_simp
  try dsimp only [Matrix.cons_val]
  try simp only [TRef.ofBuf, TRef.toBuf, cast_eq]
  rw [h_main_arg1]
  rfl

set_option maxRecDepth 8192 in
set_option maxHeartbeats 1000000 in

theorem after15_main_c_5 (W : Valuation τ sig (Elt F))
     :
    after ops15 W (Proc.devRef .tc main_c_5) = val_main_c_5 (F := F) := by
  simp only [ops15]
  after_results_simp
  try dsimp only [Matrix.cons_val]
  try simp only [TRef.ofBuf, TRef.toBuf, cast_eq]
  rw []
  rfl

abbrev ops16 : List (HloOp τ sig (Elt F)) :=
  [ unary main_c_5 main_v36 (broadcastInDim S64x8 ![] bcast_S_S64x8 : (⟨S_, .i32⟩ : BufTy).Contents (Elt F) → (⟨S64x8, .i32⟩ : BufTy).Contents (Elt F)),
    binary main_arg1 main_v36 main_v37 (subi : (⟨S64x8, .i32⟩ : BufTy).Contents (Elt F) → (⟨S64x8, .i32⟩ : BufTy).Contents (Elt F) → (⟨S64x8, .i32⟩ : BufTy).Contents (Elt F)),
    nullary main_c_6 (constantI S_ 32 0#32),
    nullary main_c_7 (constantI S_ 32 19999#32),
    TRef.unary (TRef.of (T := ⟨S_, .i32⟩) main_c_6) (TRef.of (T := ⟨S_, .i32⟩) main_call5_v0) id,
    TRef.unary (TRef.of (T := ⟨S_, .i32⟩) main_call5_v0) (TRef.of (T := ⟨S64x8, .i32⟩) main_call5_v1) (broadcastInDim S64x8 ![] bcast_S_S64x8),
    TRef.binary (TRef.of (T := ⟨S64x8, .i32⟩) main_call5_v1) (TRef.of (T := ⟨S64x8, .i32⟩) main_v37) (TRef.of (T := ⟨S64x8, .i32⟩) main_call5_v2) maxsi,
    TRef.unary (TRef.of (T := ⟨S_, .i32⟩) main_c_7) (TRef.of (T := ⟨S_, .i32⟩) main_call5_v3) id ]

set_option maxRecDepth 8192 in
theorem ops16_sub : (ops16 : List (HloOp τ sig (Elt F))).Forall fun op => op.bufs ⊆ tcRefs τ sig :=
  ⟨unary_bufs_sub .., binary_bufs_sub .., nullary_bufs_sub .., nullary_bufs_sub .., unary_bufs_sub .., unary_bufs_sub .., binary_bufs_sub .., unary_bufs_sub ..⟩

set_option maxRecDepth 8192 in
theorem ops16_fresh : ∀ op ∈ (ops16 : List (HloOp τ sig (Elt F))), op.fresh = ∅ := by
  intro _ h; (repeat (cases h with | head => rfl | tail _ h => ?_)); exact nomatch h

abbrev ops16_W : List (Ref sig .tc) := [main_v36, main_v37, main_c_6, main_c_7, main_call5_v0, main_call5_v1, main_call5_v2, main_call5_v3]

set_option maxRecDepth 8192 in
theorem ops16_writes : (ops16 : List (HloOp τ sig (Elt F))).Forall fun op =>
    op.writes ⊆ (ops16_W.map (Proc.devRef (τ := τ) .tc)).toFinset := by
  simp only [List.Forall]
  refine ⟨?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem ops16_keep (W : Valuation τ sig (Elt F)) (r : Ref sig .tc) (h : r ∉ ops16_W) :
    after ops16 W (Proc.devRef .tc r) = W (Proc.devRef .tc r) :=
  after_of_writes_sub ops16 W ops16_writes h

set_option maxRecDepth 8192 in
set_option maxHeartbeats 1000000 in

theorem after16_main_call5_v2 (W : Valuation τ sig (Elt F)) (x1 : (⟨S64x8, .i32⟩ : BufTy).Contents (Elt F))
    (h_main_arg1 : W (Proc.devRef .tc main_arg1) = x1)
    (h_main_c_5 : W (Proc.devRef .tc main_c_5) = val_main_c_5 (F := F)) :
    after ops16 W (Proc.devRef .tc main_call5_v2) = val_main_call5_v2 (F := F) x1 := by
  simp only [ops16]
  after_results_simp
  try dsimp only [Matrix.cons_val]
  try simp only [TRef.ofBuf, TRef.toBuf, cast_eq]
  rw [h_main_arg1, h_main_c_5]
  rfl

set_option maxRecDepth 8192 in
set_option maxHeartbeats 1000000 in

theorem after16_main_call5_v3 (W : Valuation τ sig (Elt F))
     :
    after ops16 W (Proc.devRef .tc main_call5_v3) = val_main_call5_v3 (F := F) := by
  simp only [ops16]
  after_results_simp
  try dsimp only [Matrix.cons_val]
  try simp only [TRef.ofBuf, TRef.toBuf, cast_eq]
  rw []
  rfl

abbrev ops17 : List (HloOp τ sig (Elt F)) :=
  [ TRef.unary (TRef.of (T := ⟨S_, .i32⟩) main_call5_v3) (TRef.of (T := ⟨S64x8, .i32⟩) main_call5_v4) (broadcastInDim S64x8 ![] bcast_S_S64x8),
    TRef.binary (TRef.of (T := ⟨S64x8, .i32⟩) main_call5_v4) (TRef.of (T := ⟨S64x8, .i32⟩) main_call5_v2) (TRef.of (T := ⟨S64x8, .i32⟩) main_v38) minsi,
    unary main_v38 main_v39 (broadcastInDim S64x8x1 ![0, 1] bcast_S64x8_S64x8x1_0_1 : (⟨S64x8, .i32⟩ : BufTy).Contents (Elt F) → (⟨S64x8x1, .i32⟩ : BufTy).Contents (Elt F)),
    TRef.nullary (TRef.of (T := ⟨S_, .i32⟩) main_call6_c) (constantI S_ 32 0#32),
    TRef.unary (TRef.of (T := ⟨S_, .i32⟩) main_call6_c) (TRef.of (T := ⟨S64x8x1, .i32⟩) main_call6_v0) (broadcastInDim S64x8x1 ![] bcast_S_S64x8x1),
    TRef.binary (TRef.of (T := ⟨S64x8x1, .i32⟩) main_v39) (TRef.of (T := ⟨S64x8x1, .i32⟩) main_call6_v0) (TRef.of (T := ⟨S64x8x1, .i1⟩) main_call6_v1) (cmpi .slt),
    TRef.nullary (TRef.of (T := ⟨S_, .i32⟩) main_call6_c_0) (constantI S_ 32 20000#32),
    TRef.unary (TRef.of (T := ⟨S_, .i32⟩) main_call6_c_0) (TRef.of (T := ⟨S64x8x1, .i32⟩) main_call6_v2) (broadcastInDim S64x8x1 ![] bcast_S_S64x8x1) ]

set_option maxRecDepth 8192 in
theorem ops17_sub : (ops17 : List (HloOp τ sig (Elt F))).Forall fun op => op.bufs ⊆ tcRefs τ sig :=
  ⟨unary_bufs_sub .., binary_bufs_sub .., unary_bufs_sub .., nullary_bufs_sub .., unary_bufs_sub .., binary_bufs_sub .., nullary_bufs_sub .., unary_bufs_sub ..⟩

set_option maxRecDepth 8192 in
theorem ops17_fresh : ∀ op ∈ (ops17 : List (HloOp τ sig (Elt F))), op.fresh = ∅ := by
  intro _ h; (repeat (cases h with | head => rfl | tail _ h => ?_)); exact nomatch h

abbrev ops17_W : List (Ref sig .tc) := [main_call5_v4, main_v38, main_v39, main_call6_c, main_call6_v0, main_call6_v1, main_call6_c_0, main_call6_v2]

set_option maxRecDepth 8192 in
theorem ops17_writes : (ops17 : List (HloOp τ sig (Elt F))).Forall fun op =>
    op.writes ⊆ (ops17_W.map (Proc.devRef (τ := τ) .tc)).toFinset := by
  simp only [List.Forall]
  refine ⟨?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem ops17_keep (W : Valuation τ sig (Elt F)) (r : Ref sig .tc) (h : r ∉ ops17_W) :
    after ops17 W (Proc.devRef .tc r) = W (Proc.devRef .tc r) :=
  after_of_writes_sub ops17 W ops17_writes h

set_option maxRecDepth 8192 in
set_option maxHeartbeats 1000000 in

theorem after17_main_v39 (W : Valuation τ sig (Elt F)) (x1 : (⟨S64x8, .i32⟩ : BufTy).Contents (Elt F))
    (h_main_call5_v2 : W (Proc.devRef .tc main_call5_v2) = val_main_call5_v2 (F := F) x1)
    (h_main_call5_v3 : W (Proc.devRef .tc main_call5_v3) = val_main_call5_v3 (F := F)) :
    after ops17 W (Proc.devRef .tc main_v39) = val_main_v39 (F := F) x1 := by
  simp only [ops17]
  after_results_simp
  try dsimp only [Matrix.cons_val]
  try simp only [TRef.ofBuf, TRef.toBuf, cast_eq]
  rw [h_main_call5_v2, h_main_call5_v3]
  rfl

set_option maxRecDepth 8192 in
set_option maxHeartbeats 1000000 in

theorem after17_main_call6_v1 (W : Valuation τ sig (Elt F)) (x1 : (⟨S64x8, .i32⟩ : BufTy).Contents (Elt F))
    (h_main_call5_v2 : W (Proc.devRef .tc main_call5_v2) = val_main_call5_v2 (F := F) x1)
    (h_main_call5_v3 : W (Proc.devRef .tc main_call5_v3) = val_main_call5_v3 (F := F)) :
    after ops17 W (Proc.devRef .tc main_call6_v1) = val_main_call6_v1 (F := F) x1 := by
  simp only [ops17]
  after_results_simp
  try dsimp only [Matrix.cons_val]
  try simp only [TRef.ofBuf, TRef.toBuf, cast_eq]
  rw [h_main_call5_v2, h_main_call5_v3]
  rfl

set_option maxRecDepth 8192 in
set_option maxHeartbeats 1000000 in

theorem after17_main_call6_v2 (W : Valuation τ sig (Elt F))
     :
    after ops17 W (Proc.devRef .tc main_call6_v2) = val_main_call6_v2 (F := F) := by
  simp only [ops17]
  after_results_simp
  try dsimp only [Matrix.cons_val]
  try simp only [TRef.ofBuf, TRef.toBuf, cast_eq]
  rw []
  rfl

abbrev ops18 : List (HloOp τ sig (Elt F)) :=
  [ TRef.binary (TRef.of (T := ⟨S64x8x1, .i32⟩) main_v39) (TRef.of (T := ⟨S64x8x1, .i32⟩) main_call6_v2) (TRef.of (T := ⟨S64x8x1, .i32⟩) main_call6_v3) addi,
    TRef.ternary (TRef.of (T := ⟨S64x8x1, .i1⟩) main_call6_v1) (TRef.of (T := ⟨S64x8x1, .i32⟩) main_call6_v3) (TRef.of (T := ⟨S64x8x1, .i32⟩) main_v39) (TRef.of (T := ⟨S64x8x1, .i32⟩) main_call6_v4) select,
    TRef.reshape (TRef.of (T := ⟨S64x8x1, .i32⟩) main_call6_v4) (TRef.of (T := ⟨S64x8x1x1, .i32⟩) main_call6_v5) rfl shapeCasts_S64x8x1_S64x8x1x1,
    TRef.nullary (TRef.of (T := ⟨S1, .i32⟩) main_call6_c_1) (constantI S1 32 19999#32),
    TRef.nullary (TRef.of (T := ⟨S_, .i32⟩) main_call6_c_2) (constantI S_ 32 0#32),
    TRef.unary (TRef.of (T := ⟨S_, .i32⟩) main_call6_c_2) (TRef.of (T := ⟨S64x8x1x1, .i32⟩) main_call6_v6) (broadcastInDim S64x8x1x1 ![] bcast_S_S64x8x1x1),
    TRef.binary (TRef.of (T := ⟨S64x8x1x1, .i32⟩) main_call6_v5) (TRef.of (T := ⟨S64x8x1x1, .i32⟩) main_call6_v6) (TRef.of (T := ⟨S64x8x1x1, .i1⟩) main_call6_v7) (cmpi .sge),
    TRef.unary (TRef.of (T := ⟨S1, .i32⟩) main_call6_c_1) (TRef.of (T := ⟨S1x1x1x1, .i32⟩) main_call6_v8) (broadcastInDim S1x1x1x1 ![3] bcast_S1_S1x1x1x1_3) ]

set_option maxRecDepth 8192 in
theorem ops18_sub : (ops18 : List (HloOp τ sig (Elt F))).Forall fun op => op.bufs ⊆ tcRefs τ sig :=
  ⟨binary_bufs_sub .., ternary_bufs_sub .., reshape_bufs_sub .., nullary_bufs_sub .., nullary_bufs_sub .., unary_bufs_sub .., binary_bufs_sub .., unary_bufs_sub ..⟩

set_option maxRecDepth 8192 in
theorem ops18_fresh : ∀ op ∈ (ops18 : List (HloOp τ sig (Elt F))), op.fresh = ∅ := by
  intro _ h; (repeat (cases h with | head => rfl | tail _ h => ?_)); exact nomatch h

abbrev ops18_W : List (Ref sig .tc) := [main_call6_v3, main_call6_v4, main_call6_v5, main_call6_c_1, main_call6_c_2, main_call6_v6, main_call6_v7, main_call6_v8]

set_option maxRecDepth 8192 in
theorem ops18_writes : (ops18 : List (HloOp τ sig (Elt F))).Forall fun op =>
    op.writes ⊆ (ops18_W.map (Proc.devRef (τ := τ) .tc)).toFinset := by
  simp only [List.Forall]
  refine ⟨?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem ops18_keep (W : Valuation τ sig (Elt F)) (r : Ref sig .tc) (h : r ∉ ops18_W) :
    after ops18 W (Proc.devRef .tc r) = W (Proc.devRef .tc r) :=
  after_of_writes_sub ops18 W ops18_writes h

set_option maxRecDepth 8192 in
set_option maxHeartbeats 1000000 in

theorem after18_main_call6_v5 (W : Valuation τ sig (Elt F)) (x1 : (⟨S64x8, .i32⟩ : BufTy).Contents (Elt F))
    (h_main_v39 : W (Proc.devRef .tc main_v39) = val_main_v39 (F := F) x1)
    (h_main_call6_v1 : W (Proc.devRef .tc main_call6_v1) = val_main_call6_v1 (F := F) x1)
    (h_main_call6_v2 : W (Proc.devRef .tc main_call6_v2) = val_main_call6_v2 (F := F)) :
    after ops18 W (Proc.devRef .tc main_call6_v5) = val_main_call6_v5 (F := F) x1 := by
  simp only [ops18]
  after_results_simp
  try dsimp only [Matrix.cons_val]
  try simp only [TRef.ofBuf, TRef.toBuf, cast_eq]
  rw [h_main_v39, h_main_call6_v1, h_main_call6_v2]
  rfl

set_option maxRecDepth 8192 in
set_option maxHeartbeats 1000000 in

theorem after18_main_call6_v7 (W : Valuation τ sig (Elt F)) (x1 : (⟨S64x8, .i32⟩ : BufTy).Contents (Elt F))
    (h_main_v39 : W (Proc.devRef .tc main_v39) = val_main_v39 (F := F) x1)
    (h_main_call6_v1 : W (Proc.devRef .tc main_call6_v1) = val_main_call6_v1 (F := F) x1)
    (h_main_call6_v2 : W (Proc.devRef .tc main_call6_v2) = val_main_call6_v2 (F := F)) :
    after ops18 W (Proc.devRef .tc main_call6_v7) = val_main_call6_v7 (F := F) x1 := by
  simp only [ops18]
  after_results_simp
  try dsimp only [Matrix.cons_val]
  try simp only [TRef.ofBuf, TRef.toBuf, cast_eq]
  rw [h_main_v39, h_main_call6_v1, h_main_call6_v2]
  rfl

set_option maxRecDepth 8192 in
set_option maxHeartbeats 1000000 in

theorem after18_main_call6_v8 (W : Valuation τ sig (Elt F))
     :
    after ops18 W (Proc.devRef .tc main_call6_v8) = val_main_call6_v8 (F := F) := by
  simp only [ops18]
  after_results_simp
  try dsimp only [Matrix.cons_val]
  try simp only [TRef.ofBuf, TRef.toBuf, cast_eq]
  rw []
  rfl

abbrev ops19 : List (HloOp τ sig (Elt F)) :=
  [ TRef.unary (TRef.of (T := ⟨S1x1x1x1, .i32⟩) main_call6_v8) (TRef.of (T := ⟨S64x8x1x1, .i32⟩) main_call6_v9) (broadcastInDim S64x8x1x1 ![0, 1, 2, 3] bcast_S1x1x1x1_S64x8x1x1_0_1_2_3),
    TRef.binary (TRef.of (T := ⟨S64x8x1x1, .i32⟩) main_call6_v5) (TRef.of (T := ⟨S64x8x1x1, .i32⟩) main_call6_v9) (TRef.of (T := ⟨S64x8x1x1, .i1⟩) main_call6_v10) (cmpi .sle),
    TRef.binary (TRef.of (T := ⟨S64x8x1x1, .i1⟩) main_call6_v7) (TRef.of (T := ⟨S64x8x1x1, .i1⟩) main_call6_v10) (TRef.of (T := ⟨S64x8x1x1, .i1⟩) main_call6_v11) andi,
    TRef.nullary (TRef.of (T := ⟨S_, .i1⟩) main_call6_c_3) (constantI S_ 1 1#1),
    TRef.binary (TRef.of (T := ⟨S64x8x1x1, .i1⟩) main_call6_v11) (TRef.of (T := ⟨S_, .i1⟩) main_call6_c_3) (TRef.of (T := ⟨S64x8x1, .i1⟩) main_call6_v12) (fun x v => Host.reduce IntOp.andi x v reducesTo_S64x8x1x1_S64x8x1_d3 h_S_),
    TRef.binary (TRef.of (T := ⟨S64x8x20000, .f32⟩) main_v30) (TRef.of (T := ⟨S64x8x1x1, .i32⟩) main_call6_v5) (TRef.of (T := ⟨S64x8x1, .f32⟩) main_call6_v13) (fun x i => Host.gather gather_S64x8x20000_S64x8x1x1_S64x8x1_n_2_01_01_2_3_111 x i),
    TRef.nullary (TRef.of (T := ⟨S_, .f32⟩) main_call6_cst) (constant S_ .f32 0x7FC00000#32),
    TRef.unary (TRef.of (T := ⟨S_, .f32⟩) main_call6_cst) (TRef.of (T := ⟨S64x8x1, .f32⟩) main_call6_v14) (broadcastInDim S64x8x1 ![] bcast_S_S64x8x1) ]

set_option maxRecDepth 8192 in
theorem ops19_sub : (ops19 : List (HloOp τ sig (Elt F))).Forall fun op => op.bufs ⊆ tcRefs τ sig :=
  ⟨unary_bufs_sub .., binary_bufs_sub .., binary_bufs_sub .., nullary_bufs_sub .., binary_bufs_sub .., binary_bufs_sub .., nullary_bufs_sub .., unary_bufs_sub ..⟩

set_option maxRecDepth 8192 in
theorem ops19_fresh : ∀ op ∈ (ops19 : List (HloOp τ sig (Elt F))), op.fresh = ∅ := by
  intro _ h; (repeat (cases h with | head => rfl | tail _ h => ?_)); exact nomatch h

abbrev ops19_W : List (Ref sig .tc) := [main_call6_v9, main_call6_v10, main_call6_v11, main_call6_c_3, main_call6_v12, main_call6_v13, main_call6_cst, main_call6_v14]

set_option maxRecDepth 8192 in
theorem ops19_writes : (ops19 : List (HloOp τ sig (Elt F))).Forall fun op =>
    op.writes ⊆ (ops19_W.map (Proc.devRef (τ := τ) .tc)).toFinset := by
  simp only [List.Forall]
  refine ⟨?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem ops19_keep (W : Valuation τ sig (Elt F)) (r : Ref sig .tc) (h : r ∉ ops19_W) :
    after ops19 W (Proc.devRef .tc r) = W (Proc.devRef .tc r) :=
  after_of_writes_sub ops19 W ops19_writes h

set_option maxRecDepth 8192 in
set_option maxHeartbeats 1000000 in

theorem after19_main_call6_v12 (W : Valuation τ sig (Elt F)) (x1 : (⟨S64x8, .i32⟩ : BufTy).Contents (Elt F))
    (h_main_call6_v5 : W (Proc.devRef .tc main_call6_v5) = val_main_call6_v5 (F := F) x1)
    (h_main_call6_v7 : W (Proc.devRef .tc main_call6_v7) = val_main_call6_v7 (F := F) x1)
    (h_main_call6_v8 : W (Proc.devRef .tc main_call6_v8) = val_main_call6_v8 (F := F)) :
    after ops19 W (Proc.devRef .tc main_call6_v12) = val_main_call6_v12 (F := F) x1 := by
  simp only [ops19]
  after_results_simp
  try dsimp only [Matrix.cons_val]
  try simp only [TRef.ofBuf, TRef.toBuf, cast_eq]
  rw [h_main_call6_v5, h_main_call6_v7, h_main_call6_v8]
  rfl

set_option maxRecDepth 8192 in
set_option maxHeartbeats 1000000 in

theorem after19_main_call6_v13 (W : Valuation τ sig (Elt F)) (x0 : (⟨S64x8x1024, .f32⟩ : BufTy).Contents (Elt F)) (x1 : (⟨S64x8, .i32⟩ : BufTy).Contents (Elt F)) (x2 : (⟨S3x1024, .f32⟩ : BufTy).Contents (Elt F)) (x3 : (⟨S3, .f32⟩ : BufTy).Contents (Elt F)) (x4 : (⟨S20000x1024, .f32⟩ : BufTy).Contents (Elt F)) (x5 : (⟨S20000, .f32⟩ : BufTy).Contents (Elt F)) (x6 : (⟨S1024x1024, .f32⟩ : BufTy).Contents (Elt F)) (x7 : (⟨S20000x256, .f32⟩ : BufTy).Contents (Elt F)) (x8 : (⟨S20000, .f32⟩ : BufTy).Contents (Elt F)) (x9 : (⟨S256x1024, .f32⟩ : BufTy).Contents (Elt F))
    (h_main_v30 : W (Proc.devRef .tc main_v30) = val_main_v30 (F := F) x0 x2 x3 x4 x5 x6 x7 x8 x9)
    (h_main_call6_v5 : W (Proc.devRef .tc main_call6_v5) = val_main_call6_v5 (F := F) x1) :
    after ops19 W (Proc.devRef .tc main_call6_v13) = val_main_call6_v13 (F := F) x0 x1 x2 x3 x4 x5 x6 x7 x8 x9 := by
  simp only [ops19]
  after_results_simp
  try dsimp only [Matrix.cons_val]
  try simp only [TRef.ofBuf, TRef.toBuf, cast_eq]
  rw [h_main_v30, h_main_call6_v5]
  rfl

set_option maxRecDepth 8192 in
set_option maxHeartbeats 1000000 in

theorem after19_main_call6_v14 (W : Valuation τ sig (Elt F))
     :
    after ops19 W (Proc.devRef .tc main_call6_v14) = val_main_call6_v14 (F := F) := by
  simp only [ops19]
  after_results_simp
  try dsimp only [Matrix.cons_val]
  try simp only [TRef.ofBuf, TRef.toBuf, cast_eq]
  rw []
  rfl

abbrev ops20 : List (HloOp τ sig (Elt F)) :=
  [ TRef.ternary (TRef.of (T := ⟨S64x8x1, .i1⟩) main_call6_v12) (TRef.of (T := ⟨S64x8x1, .f32⟩) main_call6_v13) (TRef.of (T := ⟨S64x8x1, .f32⟩) main_call6_v14) (TRef.of (T := ⟨S64x8x1, .f32⟩) main_v40) select,
    reshape main_v40 main_v41 rfl shapeCasts_S64x8x1_S64x8,
    TRef.ternary (TRef.of (T := ⟨S64x8, .i1⟩) main_v35) (TRef.of (T := ⟨S64x8, .f32⟩) main_v41) (TRef.of (T := ⟨S64x8, .f32⟩) main_v19) (TRef.of (T := ⟨S64x8, .f32⟩) main_v42) select ]

set_option maxRecDepth 8192 in
theorem ops20_sub : (ops20 : List (HloOp τ sig (Elt F))).Forall fun op => op.bufs ⊆ tcRefs τ sig :=
  ⟨ternary_bufs_sub .., reshape_bufs_sub .., ternary_bufs_sub ..⟩

set_option maxRecDepth 8192 in
theorem ops20_fresh : ∀ op ∈ (ops20 : List (HloOp τ sig (Elt F))), op.fresh = ∅ := by
  intro _ h; (repeat (cases h with | head => rfl | tail _ h => ?_)); exact nomatch h

abbrev ops20_W : List (Ref sig .tc) := [main_v40, main_v41, main_v42]

set_option maxRecDepth 8192 in
theorem ops20_writes : (ops20 : List (HloOp τ sig (Elt F))).Forall fun op =>
    op.writes ⊆ (ops20_W.map (Proc.devRef (τ := τ) .tc)).toFinset := by
  simp only [List.Forall]
  refine ⟨?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem ops20_keep (W : Valuation τ sig (Elt F)) (r : Ref sig .tc) (h : r ∉ ops20_W) :
    after ops20 W (Proc.devRef .tc r) = W (Proc.devRef .tc r) :=
  after_of_writes_sub ops20 W ops20_writes h

set_option maxRecDepth 8192 in
set_option maxHeartbeats 500000 in

theorem after20_main_v42 (W : Valuation τ sig (Elt F)) (x0 : (⟨S64x8x1024, .f32⟩ : BufTy).Contents (Elt F)) (x1 : (⟨S64x8, .i32⟩ : BufTy).Contents (Elt F)) (x2 : (⟨S3x1024, .f32⟩ : BufTy).Contents (Elt F)) (x3 : (⟨S3, .f32⟩ : BufTy).Contents (Elt F)) (x4 : (⟨S20000x1024, .f32⟩ : BufTy).Contents (Elt F)) (x5 : (⟨S20000, .f32⟩ : BufTy).Contents (Elt F)) (x6 : (⟨S1024x1024, .f32⟩ : BufTy).Contents (Elt F)) (x7 : (⟨S20000x256, .f32⟩ : BufTy).Contents (Elt F)) (x8 : (⟨S20000, .f32⟩ : BufTy).Contents (Elt F)) (x9 : (⟨S256x1024, .f32⟩ : BufTy).Contents (Elt F))
    (h_main_v19 : W (Proc.devRef .tc main_v19) = val_main_v19 (F := F) x0 x1 x2 x3 x4 x5 x6)
    (h_main_v35 : W (Proc.devRef .tc main_v35) = val_main_v35 (F := F) x1)
    (h_main_call6_v12 : W (Proc.devRef .tc main_call6_v12) = val_main_call6_v12 (F := F) x1)
    (h_main_call6_v13 : W (Proc.devRef .tc main_call6_v13) = val_main_call6_v13 (F := F) x0 x1 x2 x3 x4 x5 x6 x7 x8 x9)
    (h_main_call6_v14 : W (Proc.devRef .tc main_call6_v14) = val_main_call6_v14 (F := F)) :
    after ops20 W (Proc.devRef .tc main_v42) = val_main_v42 (F := F) x0 x1 x2 x3 x4 x5 x6 x7 x8 x9 := by
  simp only [ops20]
  after_results_simp
  try dsimp only [Matrix.cons_val]
  try simp only [TRef.ofBuf, TRef.toBuf, cast_eq]
  rw [h_main_v19, h_main_v35, h_main_call6_v12, h_main_call6_v13, h_main_call6_v14]
  rfl

end Cert.ReferenceIdeal.RunHand

end
-- ==== Proof.RefChunk5.lean ====
import proofs.«138250_j73134703116926_1_alg».proof.Proof.RefReadP
import Idealize.ShloMosaic.Lib.StableHlo.Run

noncomputable section

namespace Cert.ReferenceIdeal.RunHand

open Cert.ReferenceIdeal Cert.ReferenceIdeal.Gen Cert.ReferenceIdeal.ReadP Idealize.ShloMosaic Idealize.ShloMosaic.TcCoe Idealize.SL.Sem
  Idealize.ShloMosaic.StableHlo

variable {F : FTy → Type} [FloatOps F]

attribute [local irreducible] Host.reduce Host.reduceAdd Host.gather concatenate broadcastInDim shapeCast extractStridedSlice addf subf maximumf Host.exp Host.log select cmpi andi addi subi maxsi minsi constant constantI Host.negf Host.divf

abbrev ops21 : List (HloOp τ sig (Elt F)) :=
  [ binary main_arg0 main_arg12 main_v43 ((fun l r => Host.dotGeneral dot_S64x8x1024_S64x1024_S64x8x64_2_1_01_0_n_n none l r) : (⟨S64x8x1024, .f32⟩ : BufTy).Contents (Elt F) → (⟨S64x1024, .f32⟩ : BufTy).Contents (Elt F) → (⟨S64x8x64, .f32⟩ : BufTy).Contents (Elt F)),
    binary main_v43 main_arg10 main_v44 ((fun l r => Host.dotGeneral dot_S64x8x64_S160000x64_S64x8x160000_2_1_01_0_n_n none l r) : (⟨S64x8x64, .f32⟩ : BufTy).Contents (Elt F) → (⟨S160000x64, .f32⟩ : BufTy).Contents (Elt F) → (⟨S64x8x160000, .f32⟩ : BufTy).Contents (Elt F)),
    unary main_arg11 main_v45 (broadcastInDim S1x1x160000 ![2] bcast_S160000_S1x1x160000_2 : (⟨S160000, .f32⟩ : BufTy).Contents (Elt F) → (⟨S1x1x160000, .f32⟩ : BufTy).Contents (Elt F)),
    unary main_v45 main_v46 (broadcastInDim S64x8x160000 ![0, 1, 2] bcast_S1x1x160000_S64x8x160000_0_1_2 : (⟨S1x1x160000, .f32⟩ : BufTy).Contents (Elt F) → (⟨S64x8x160000, .f32⟩ : BufTy).Contents (Elt F)),
    binary main_v44 main_v46 main_v47 (addf : (⟨S64x8x160000, .f32⟩ : BufTy).Contents (Elt F) → (⟨S64x8x160000, .f32⟩ : BufTy).Contents (Elt F) → (⟨S64x8x160000, .f32⟩ : BufTy).Contents (Elt F)),
    TRef.nullary (TRef.of (T := ⟨S_, .f32⟩) main_call8_cst) (constant S_ .f32 0xFF800000#32),
    TRef.binary (TRef.of (T := ⟨S64x8x160000, .f32⟩) main_v47) (TRef.of (T := ⟨S_, .f32⟩) main_call8_cst) (TRef.of (T := ⟨S64x8, .f32⟩) main_call8_v0) (fun x v => Host.reduce FloatOps.maximumf x v reducesTo_S64x8x160000_S64x8_d2 h_S_),
    TRef.nullary (TRef.of (T := ⟨S_, .f32⟩) main_call8_cst_0) (constant S_ .f32 0xFF800000#32) ]

set_option maxRecDepth 8192 in
theorem ops21_sub : (ops21 : List (HloOp τ sig (Elt F))).Forall fun op => op.bufs ⊆ tcRefs τ sig :=
  ⟨binary_bufs_sub .., binary_bufs_sub .., unary_bufs_sub .., unary_bufs_sub .., binary_bufs_sub .., nullary_bufs_sub .., binary_bufs_sub .., nullary_bufs_sub ..⟩

set_option maxRecDepth 8192 in
theorem ops21_fresh : ∀ op ∈ (ops21 : List (HloOp τ sig (Elt F))), op.fresh = ∅ := by
  intro _ h; (repeat (cases h with | head => rfl | tail _ h => ?_)); exact nomatch h

abbrev ops21_W : List (Ref sig .tc) := [main_v43, main_v44, main_v45, main_v46, main_v47, main_call8_cst, main_call8_v0, main_call8_cst_0]

set_option maxRecDepth 8192 in
theorem ops21_writes : (ops21 : List (HloOp τ sig (Elt F))).Forall fun op =>
    op.writes ⊆ (ops21_W.map (Proc.devRef (τ := τ) .tc)).toFinset := by
  simp only [List.Forall]
  refine ⟨?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem ops21_keep (W : Valuation τ sig (Elt F)) (r : Ref sig .tc) (h : r ∉ ops21_W) :
    after ops21 W (Proc.devRef .tc r) = W (Proc.devRef .tc r) :=
  after_of_writes_sub ops21 W ops21_writes h

set_option maxRecDepth 8192 in
set_option maxHeartbeats 1000000 in

theorem after21_main_v47 (W : Valuation τ sig (Elt F)) (x0 : (⟨S64x8x1024, .f32⟩ : BufTy).Contents (Elt F)) (x10 : (⟨S160000x64, .f32⟩ : BufTy).Contents (Elt F)) (x11 : (⟨S160000, .f32⟩ : BufTy).Contents (Elt F)) (x12 : (⟨S64x1024, .f32⟩ : BufTy).Contents (Elt F))
    (h_main_arg0 : W (Proc.devRef .tc main_arg0) = x0)
    (h_main_arg10 : W (Proc.devRef .tc main_arg10) = x10)
    (h_main_arg11 : W (Proc.devRef .tc main_arg11) = x11)
    (h_main_arg12 : W (Proc.devRef .tc main_arg12) = x12) :
    after ops21 W (Proc.devRef .tc main_v47) = val_main_v47 (F := F) x0 x10 x11 x12 := by
  simp only [ops21]
  after_results_simp
  try dsimp only [Matrix.cons_val]
  try simp only [TRef.ofBuf, TRef.toBuf, cast_eq]
  rw [h_main_arg0, h_main_arg10, h_main_arg11, h_main_arg12]
  rfl

set_option maxRecDepth 8192 in
set_option maxHeartbeats 1000000 in

theorem after21_main_call8_v0 (W : Valuation τ sig (Elt F)) (x0 : (⟨S64x8x1024, .f32⟩ : BufTy).Contents (Elt F)) (x10 : (⟨S160000x64, .f32⟩ : BufTy).Contents (Elt F)) (x11 : (⟨S160000, .f32⟩ : BufTy).Contents (Elt F)) (x12 : (⟨S64x1024, .f32⟩ : BufTy).Contents (Elt F))
    (h_main_arg0 : W (Proc.devRef .tc main_arg0) = x0)
    (h_main_arg10 : W (Proc.devRef .tc main_arg10) = x10)
    (h_main_arg11 : W (Proc.devRef .tc main_arg11) = x11)
    (h_main_arg12 : W (Proc.devRef .tc main_arg12) = x12) :
    after ops21 W (Proc.devRef .tc main_call8_v0) = val_main_call8_v0 (F := F) x0 x10 x11 x12 := by
  simp only [ops21]
  after_results_simp
  try dsimp only [Matrix.cons_val]
  try simp only [TRef.ofBuf, TRef.toBuf, cast_eq]
  rw [h_main_arg0, h_main_arg10, h_main_arg11, h_main_arg12]
  rfl

set_option maxRecDepth 8192 in
set_option maxHeartbeats 1000000 in

theorem after21_main_call8_cst_0 (W : Valuation τ sig (Elt F))
     :
    after ops21 W (Proc.devRef .tc main_call8_cst_0) = val_main_call8_cst_0 (F := F) := by
  simp only [ops21]
  after_results_simp
  try dsimp only [Matrix.cons_val]
  try simp only [TRef.ofBuf, TRef.toBuf, cast_eq]
  rw []
  rfl

abbrev ops22 : List (HloOp τ sig (Elt F)) :=
  [ TRef.unary (TRef.of (T := ⟨S_, .f32⟩) main_call8_cst_0) (TRef.of (T := ⟨S64x8, .f32⟩) main_call8_v1) (broadcastInDim S64x8 ![] bcast_S_S64x8),
    TRef.binary (TRef.of (T := ⟨S64x8, .f32⟩) main_call8_v1) (TRef.of (T := ⟨S64x8, .f32⟩) main_call8_v0) (TRef.of (T := ⟨S64x8, .f32⟩) main_call8_v2) maximumf,
    TRef.unary (TRef.of (T := ⟨S64x8, .f32⟩) main_call8_v2) (TRef.of (T := ⟨S64x8x1, .f32⟩) main_call8_v3) (broadcastInDim S64x8x1 ![0, 1] bcast_S64x8_S64x8x1_0_1),
    TRef.unary (TRef.of (T := ⟨S64x8x1, .f32⟩) main_call8_v3) (TRef.of (T := ⟨S64x8x160000, .f32⟩) main_call8_v4) (broadcastInDim S64x8x160000 ![0, 1, 2] bcast_S64x8x1_S64x8x160000_0_1_2),
    TRef.binary (TRef.of (T := ⟨S64x8x160000, .f32⟩) main_v47) (TRef.of (T := ⟨S64x8x160000, .f32⟩) main_call8_v4) (TRef.of (T := ⟨S64x8x160000, .f32⟩) main_call8_v5) subf,
    TRef.unary (TRef.of (T := ⟨S64x8x160000, .f32⟩) main_call8_v5) (TRef.of (T := ⟨S64x8x160000, .f32⟩) main_call8_v6) Host.exp,
    TRef.nullary (TRef.of (T := ⟨S_, .f32⟩) main_call8_cst_1) (constant S_ .f32 0x00000000#32),
    TRef.binary (TRef.of (T := ⟨S64x8x160000, .f32⟩) main_call8_v6) (TRef.of (T := ⟨S_, .f32⟩) main_call8_cst_1) (TRef.of (T := ⟨S64x8, .f32⟩) main_call8_v7) (fun x v => Host.reduceAdd x v reducesTo_S64x8x160000_S64x8_d2 h_S_) ]

set_option maxRecDepth 8192 in
theorem ops22_sub : (ops22 : List (HloOp τ sig (Elt F))).Forall fun op => op.bufs ⊆ tcRefs τ sig :=
  ⟨unary_bufs_sub .., binary_bufs_sub .., unary_bufs_sub .., unary_bufs_sub .., binary_bufs_sub .., unary_bufs_sub .., nullary_bufs_sub .., binary_bufs_sub ..⟩

set_option maxRecDepth 8192 in
theorem ops22_fresh : ∀ op ∈ (ops22 : List (HloOp τ sig (Elt F))), op.fresh = ∅ := by
  intro _ h; (repeat (cases h with | head => rfl | tail _ h => ?_)); exact nomatch h

abbrev ops22_W : List (Ref sig .tc) := [main_call8_v1, main_call8_v2, main_call8_v3, main_call8_v4, main_call8_v5, main_call8_v6, main_call8_cst_1, main_call8_v7]

set_option maxRecDepth 8192 in
theorem ops22_writes : (ops22 : List (HloOp τ sig (Elt F))).Forall fun op =>
    op.writes ⊆ (ops22_W.map (Proc.devRef (τ := τ) .tc)).toFinset := by
  simp only [List.Forall]
  refine ⟨?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem ops22_keep (W : Valuation τ sig (Elt F)) (r : Ref sig .tc) (h : r ∉ ops22_W) :
    after ops22 W (Proc.devRef .tc r) = W (Proc.devRef .tc r) :=
  after_of_writes_sub ops22 W ops22_writes h

set_option maxRecDepth 8192 in
set_option maxHeartbeats 1000000 in

theorem after22_main_call8_v5 (W : Valuation τ sig (Elt F)) (x0 : (⟨S64x8x1024, .f32⟩ : BufTy).Contents (Elt F)) (x10 : (⟨S160000x64, .f32⟩ : BufTy).Contents (Elt F)) (x11 : (⟨S160000, .f32⟩ : BufTy).Contents (Elt F)) (x12 : (⟨S64x1024, .f32⟩ : BufTy).Contents (Elt F))
    (h_main_v47 : W (Proc.devRef .tc main_v47) = val_main_v47 (F := F) x0 x10 x11 x12)
    (h_main_call8_v0 : W (Proc.devRef .tc main_call8_v0) = val_main_call8_v0 (F := F) x0 x10 x11 x12)
    (h_main_call8_cst_0 : W (Proc.devRef .tc main_call8_cst_0) = val_main_call8_cst_0 (F := F)) :
    after ops22 W (Proc.devRef .tc main_call8_v5) = val_main_call8_v5 (F := F) x0 x10 x11 x12 := by
  simp only [ops22]
  after_results_simp
  try dsimp only [Matrix.cons_val]
  try simp only [TRef.ofBuf, TRef.toBuf, cast_eq]
  rw [h_main_v47, h_main_call8_v0, h_main_call8_cst_0]
  rfl

set_option maxRecDepth 8192 in
set_option maxHeartbeats 1000000 in

theorem after22_main_call8_v7 (W : Valuation τ sig (Elt F)) (x0 : (⟨S64x8x1024, .f32⟩ : BufTy).Contents (Elt F)) (x10 : (⟨S160000x64, .f32⟩ : BufTy).Contents (Elt F)) (x11 : (⟨S160000, .f32⟩ : BufTy).Contents (Elt F)) (x12 : (⟨S64x1024, .f32⟩ : BufTy).Contents (Elt F))
    (h_main_v47 : W (Proc.devRef .tc main_v47) = val_main_v47 (F := F) x0 x10 x11 x12)
    (h_main_call8_v0 : W (Proc.devRef .tc main_call8_v0) = val_main_call8_v0 (F := F) x0 x10 x11 x12)
    (h_main_call8_cst_0 : W (Proc.devRef .tc main_call8_cst_0) = val_main_call8_cst_0 (F := F)) :
    after ops22 W (Proc.devRef .tc main_call8_v7) = val_main_call8_v7 (F := F) x0 x10 x11 x12 := by
  simp only [ops22]
  after_results_simp
  try dsimp only [Matrix.cons_val]
  try simp only [TRef.ofBuf, TRef.toBuf, cast_eq]
  rw [h_main_v47, h_main_call8_v0, h_main_call8_cst_0]
  rfl

abbrev ops23 : List (HloOp τ sig (Elt F)) :=
  [ TRef.unary (TRef.of (T := ⟨S64x8, .f32⟩) main_call8_v7) (TRef.of (T := ⟨S64x8x1, .f32⟩) main_call8_v8) (broadcastInDim S64x8x1 ![0, 1] bcast_S64x8_S64x8x1_0_1),
    TRef.unary (TRef.of (T := ⟨S64x8x1, .f32⟩) main_call8_v8) (TRef.of (T := ⟨S64x8x1, .f32⟩) main_call8_v9) Host.log,
    TRef.unary (TRef.of (T := ⟨S64x8x1, .f32⟩) main_call8_v9) (TRef.of (T := ⟨S64x8x160000, .f32⟩) main_call8_v10) (broadcastInDim S64x8x160000 ![0, 1, 2] bcast_S64x8x1_S64x8x160000_0_1_2),
    TRef.binary (TRef.of (T := ⟨S64x8x160000, .f32⟩) main_call8_v5) (TRef.of (T := ⟨S64x8x160000, .f32⟩) main_call8_v10) (TRef.of (T := ⟨S64x8x160000, .f32⟩) main_v48) subf,
    unary main_v7 main_v49 ((extractStridedSlice S64x8x1 ![0, 0, 20001] · slices_S64x8x20003_S64x8x1_0_0_20001) : (⟨S64x8x20003, .f32⟩ : BufTy).Contents (Elt F) → (⟨S64x8x1, .f32⟩ : BufTy).Contents (Elt F)) ]

set_option maxRecDepth 8192 in
theorem ops23_sub : (ops23 : List (HloOp τ sig (Elt F))).Forall fun op => op.bufs ⊆ tcRefs τ sig :=
  ⟨unary_bufs_sub .., unary_bufs_sub .., unary_bufs_sub .., binary_bufs_sub .., unary_bufs_sub ..⟩

set_option maxRecDepth 8192 in
theorem ops23_fresh : ∀ op ∈ (ops23 : List (HloOp τ sig (Elt F))), op.fresh = ∅ := by
  intro _ h; (repeat (cases h with | head => rfl | tail _ h => ?_)); exact nomatch h

abbrev ops23_W : List (Ref sig .tc) := [main_call8_v8, main_call8_v9, main_call8_v10, main_v48, main_v49]

set_option maxRecDepth 8192 in
theorem ops23_writes : (ops23 : List (HloOp τ sig (Elt F))).Forall fun op =>
    op.writes ⊆ (ops23_W.map (Proc.devRef (τ := τ) .tc)).toFinset := by
  simp only [List.Forall]
  refine ⟨?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem ops23_keep (W : Valuation τ sig (Elt F)) (r : Ref sig .tc) (h : r ∉ ops23_W) :
    after ops23 W (Proc.devRef .tc r) = W (Proc.devRef .tc r) :=
  after_of_writes_sub ops23 W ops23_writes h

set_option maxRecDepth 8192 in
set_option maxHeartbeats 700000 in

theorem after23_main_v48 (W : Valuation τ sig (Elt F)) (x0 : (⟨S64x8x1024, .f32⟩ : BufTy).Contents (Elt F)) (x10 : (⟨S160000x64, .f32⟩ : BufTy).Contents (Elt F)) (x11 : (⟨S160000, .f32⟩ : BufTy).Contents (Elt F)) (x12 : (⟨S64x1024, .f32⟩ : BufTy).Contents (Elt F))
    (h_main_call8_v5 : W (Proc.devRef .tc main_call8_v5) = val_main_call8_v5 (F := F) x0 x10 x11 x12)
    (h_main_call8_v7 : W (Proc.devRef .tc main_call8_v7) = val_main_call8_v7 (F := F) x0 x10 x11 x12) :
    after ops23 W (Proc.devRef .tc main_v48) = val_main_v48 (F := F) x0 x10 x11 x12 := by
  simp only [ops23]
  after_results_simp
  try dsimp only [Matrix.cons_val]
  try simp only [TRef.ofBuf, TRef.toBuf, cast_eq]
  rw [h_main_call8_v5, h_main_call8_v7]
  rfl

set_option maxRecDepth 8192 in
set_option maxHeartbeats 700000 in

theorem after23_main_v49 (W : Valuation τ sig (Elt F)) (x0 : (⟨S64x8x1024, .f32⟩ : BufTy).Contents (Elt F)) (x2 : (⟨S3x1024, .f32⟩ : BufTy).Contents (Elt F)) (x3 : (⟨S3, .f32⟩ : BufTy).Contents (Elt F)) (x4 : (⟨S20000x1024, .f32⟩ : BufTy).Contents (Elt F)) (x5 : (⟨S20000, .f32⟩ : BufTy).Contents (Elt F)) (x6 : (⟨S1024x1024, .f32⟩ : BufTy).Contents (Elt F))
    (h_main_v7 : W (Proc.devRef .tc main_v7) = val_main_v7 (F := F) x0 x2 x3 x4 x5 x6) :
    after ops23 W (Proc.devRef .tc main_v49) = val_main_v49 (F := F) x0 x2 x3 x4 x5 x6 := by
  simp only [ops23]
  after_results_simp
  try dsimp only [Matrix.cons_val]
  try simp only [TRef.ofBuf, TRef.toBuf, cast_eq]
  rw [h_main_v7]
  rfl

end Cert.ReferenceIdeal.RunHand

end
-- ==== Proof.RefChunk6.lean ====
import proofs.«138250_j73134703116926_1_alg».proof.Proof.RefReadP
import Idealize.ShloMosaic.Lib.StableHlo.Run

noncomputable section

namespace Cert.ReferenceIdeal.RunHand

open Cert.ReferenceIdeal Cert.ReferenceIdeal.Gen Cert.ReferenceIdeal.ReadP Idealize.ShloMosaic Idealize.ShloMosaic.TcCoe Idealize.SL.Sem
  Idealize.ShloMosaic.StableHlo

variable {F : FTy → Type} [FloatOps F]

attribute [local irreducible] Host.reduce Host.reduceAdd Host.gather concatenate broadcastInDim shapeCast extractStridedSlice addf subf maximumf Host.exp Host.log select cmpi andi addi subi maxsi minsi constant constantI Host.negf Host.divf

abbrev ops24 : List (HloOp τ sig (Elt F)) :=
  [ reshape main_v49 main_v50 rfl shapeCasts_S64x8x1_S64x8,
    unary main_v50 main_v51 (broadcastInDim S64x8x1 ![0, 1] bcast_S64x8_S64x8x1_0_1 : (⟨S64x8, .f32⟩ : BufTy).Contents (Elt F) → (⟨S64x8x1, .f32⟩ : BufTy).Contents (Elt F)),
    unary main_v51 main_v52 (broadcastInDim S64x8x160000 ![0, 1, 2] bcast_S64x8x1_S64x8x160000_0_1_2 : (⟨S64x8x1, .f32⟩ : BufTy).Contents (Elt F) → (⟨S64x8x160000, .f32⟩ : BufTy).Contents (Elt F)),
    binary main_v52 main_v48 main_v53 (addf : (⟨S64x8x160000, .f32⟩ : BufTy).Contents (Elt F) → (⟨S64x8x160000, .f32⟩ : BufTy).Contents (Elt F) → (⟨S64x8x160000, .f32⟩ : BufTy).Contents (Elt F)) ]

set_option maxRecDepth 8192 in
theorem ops24_sub : (ops24 : List (HloOp τ sig (Elt F))).Forall fun op => op.bufs ⊆ tcRefs τ sig :=
  ⟨reshape_bufs_sub .., unary_bufs_sub .., unary_bufs_sub .., binary_bufs_sub ..⟩

set_option maxRecDepth 8192 in
theorem ops24_fresh : ∀ op ∈ (ops24 : List (HloOp τ sig (Elt F))), op.fresh = ∅ := by
  intro _ h; (repeat (cases h with | head => rfl | tail _ h => ?_)); exact nomatch h

abbrev ops24_W : List (Ref sig .tc) := [main_v50, main_v51, main_v52, main_v53]

set_option maxRecDepth 8192 in
theorem ops24_writes : (ops24 : List (HloOp τ sig (Elt F))).Forall fun op =>
    op.writes ⊆ (ops24_W.map (Proc.devRef (τ := τ) .tc)).toFinset := by
  simp only [List.Forall]
  refine ⟨?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem ops24_keep (W : Valuation τ sig (Elt F)) (r : Ref sig .tc) (h : r ∉ ops24_W) :
    after ops24 W (Proc.devRef .tc r) = W (Proc.devRef .tc r) :=
  after_of_writes_sub ops24 W ops24_writes h

set_option maxRecDepth 8192 in
set_option maxHeartbeats 600000 in

theorem after24_main_v53 (W : Valuation τ sig (Elt F)) (x0 : (⟨S64x8x1024, .f32⟩ : BufTy).Contents (Elt F)) (x2 : (⟨S3x1024, .f32⟩ : BufTy).Contents (Elt F)) (x3 : (⟨S3, .f32⟩ : BufTy).Contents (Elt F)) (x4 : (⟨S20000x1024, .f32⟩ : BufTy).Contents (Elt F)) (x5 : (⟨S20000, .f32⟩ : BufTy).Contents (Elt F)) (x6 : (⟨S1024x1024, .f32⟩ : BufTy).Contents (Elt F)) (x10 : (⟨S160000x64, .f32⟩ : BufTy).Contents (Elt F)) (x11 : (⟨S160000, .f32⟩ : BufTy).Contents (Elt F)) (x12 : (⟨S64x1024, .f32⟩ : BufTy).Contents (Elt F))
    (h_main_v48 : W (Proc.devRef .tc main_v48) = val_main_v48 (F := F) x0 x10 x11 x12)
    (h_main_v49 : W (Proc.devRef .tc main_v49) = val_main_v49 (F := F) x0 x2 x3 x4 x5 x6) :
    after ops24 W (Proc.devRef .tc main_v53) = val_main_v53 (F := F) x0 x2 x3 x4 x5 x6 x10 x11 x12 := by
  simp only [ops24]
  after_results_simp
  try dsimp only [Matrix.cons_val]
  try simp only [TRef.ofBuf, TRef.toBuf, cast_eq]
  rw [h_main_v48, h_main_v49]
  rfl

end Cert.ReferenceIdeal.RunHand

end
-- ==== Proof.RefChunk7.lean ====
import proofs.«138250_j73134703116926_1_alg».proof.Proof.RefReadP
import Idealize.ShloMosaic.Lib.StableHlo.Run

noncomputable section

namespace Cert.ReferenceIdeal.RunHand

open Cert.ReferenceIdeal Cert.ReferenceIdeal.Gen Cert.ReferenceIdeal.ReadP Idealize.ShloMosaic Idealize.ShloMosaic.TcCoe Idealize.SL.Sem
  Idealize.ShloMosaic.StableHlo

variable {F : FTy → Type} [FloatOps F]

attribute [local irreducible] Host.reduce Host.reduceAdd Host.gather concatenate broadcastInDim shapeCast extractStridedSlice addf subf maximumf Host.exp Host.log select cmpi andi addi subi maxsi minsi constant constantI Host.negf Host.divf

abbrev ops25 : List (HloOp τ sig (Elt F)) :=
  [ nullary main_c_8 (constantI S_ 32 40000#32),
    unary main_c_8 main_v54 (broadcastInDim S64x8 ![] bcast_S_S64x8 : (⟨S_, .i32⟩ : BufTy).Contents (Elt F) → (⟨S64x8, .i32⟩ : BufTy).Contents (Elt F)),
    binary main_arg1 main_v54 main_v55 (cmpi .sge : (⟨S64x8, .i32⟩ : BufTy).Contents (Elt F) → (⟨S64x8, .i32⟩ : BufTy).Contents (Elt F) → (⟨S64x8, .i1⟩ : BufTy).Contents (Elt F)),
    nullary main_c_9 (constantI S_ 32 200000#32),
    unary main_c_9 main_v56 (broadcastInDim S64x8 ![] bcast_S_S64x8 : (⟨S_, .i32⟩ : BufTy).Contents (Elt F) → (⟨S64x8, .i32⟩ : BufTy).Contents (Elt F)),
    binary main_arg1 main_v56 main_v57 (cmpi .slt : (⟨S64x8, .i32⟩ : BufTy).Contents (Elt F) → (⟨S64x8, .i32⟩ : BufTy).Contents (Elt F) → (⟨S64x8, .i1⟩ : BufTy).Contents (Elt F)),
    binary main_v55 main_v57 main_v58 (andi : (⟨S64x8, .i1⟩ : BufTy).Contents (Elt F) → (⟨S64x8, .i1⟩ : BufTy).Contents (Elt F) → (⟨S64x8, .i1⟩ : BufTy).Contents (Elt F)),
    nullary main_c_10 (constantI S_ 32 40000#32) ]

set_option maxRecDepth 8192 in
theorem ops25_sub : (ops25 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., nullary_bufs_sub ..⟩

set_option maxRecDepth 8192 in
theorem ops25_fresh : ∀ op ∈ (ops25 : List (HloOp τ sig (Elt F))), op.fresh = ∅ := by
  intro _ h; (repeat (cases h with | head => rfl | tail _ h => ?_)); exact nomatch h

abbrev ops25_W : List (Ref sig .tc) := [main_c_8, main_v54, main_v55, main_c_9, main_v56, main_v57, main_v58, main_c_10]

set_option maxRecDepth 8192 in
theorem ops25_writes : (ops25 : List (HloOp τ sig (Elt F))).Forall fun op =>
    op.writes ⊆ (ops25_W.map (Proc.devRef (τ := τ) .tc)).toFinset := by
  simp only [List.Forall]
  refine ⟨?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem ops25_keep (W : Valuation τ sig (Elt F)) (r : Ref sig .tc) (h : r ∉ ops25_W) :
    after ops25 W (Proc.devRef .tc r) = W (Proc.devRef .tc r) :=
  after_of_writes_sub ops25 W ops25_writes h

set_option maxRecDepth 8192 in
set_option maxHeartbeats 1000000 in

theorem after25_main_v58 (W : Valuation τ sig (Elt F)) (x1 : (⟨S64x8, .i32⟩ : BufTy).Contents (Elt F))
    (h_main_arg1 : W (Proc.devRef .tc main_arg1) = x1) :
    after ops25 W (Proc.devRef .tc main_v58) = val_main_v58 (F := F) x1 := by
  simp only [ops25]
  after_results_simp
  try dsimp only [Matrix.cons_val]
  try simp only [TRef.ofBuf, TRef.toBuf, cast_eq]
  rw [h_main_arg1]
  rfl

set_option maxRecDepth 8192 in
set_option maxHeartbeats 1000000 in

theorem after25_main_c_10 (W : Valuation τ sig (Elt F))
     :
    after ops25 W (Proc.devRef .tc main_c_10) = val_main_c_10 (F := F) := by
  simp only [ops25]
  after_results_simp
  try dsimp only [Matrix.cons_val]
  try simp only [TRef.ofBuf, TRef.toBuf, cast_eq]
  rw []
  rfl

abbrev ops26 : List (HloOp τ sig (Elt F)) :=
  [ unary main_c_10 main_v59 (broadcastInDim S64x8 ![] bcast_S_S64x8 : (⟨S_, .i32⟩ : BufTy).Contents (Elt F) → (⟨S64x8, .i32⟩ : BufTy).Contents (Elt F)),
    binary main_arg1 main_v59 main_v60 (subi : (⟨S64x8, .i32⟩ : BufTy).Contents (Elt F) → (⟨S64x8, .i32⟩ : BufTy).Contents (Elt F) → (⟨S64x8, .i32⟩ : BufTy).Contents (Elt F)),
    nullary main_c_11 (constantI S_ 32 0#32),
    nullary main_c_12 (constantI S_ 32 159999#32),
    TRef.unary (TRef.of (T := ⟨S_, .i32⟩) main_c_11) (TRef.of (T := ⟨S_, .i32⟩) main_call9_v0) id,
    TRef.unary (TRef.of (T := ⟨S_, .i32⟩) main_call9_v0) (TRef.of (T := ⟨S64x8, .i32⟩) main_call9_v1) (broadcastInDim S64x8 ![] bcast_S_S64x8),
    TRef.binary (TRef.of (T := ⟨S64x8, .i32⟩) main_call9_v1) (TRef.of (T := ⟨S64x8, .i32⟩) main_v60) (TRef.of (T := ⟨S64x8, .i32⟩) main_call9_v2) maxsi,
    TRef.unary (TRef.of (T := ⟨S_, .i32⟩) main_c_12) (TRef.of (T := ⟨S_, .i32⟩) main_call9_v3) id ]

set_option maxRecDepth 8192 in
theorem ops26_sub : (ops26 : List (HloOp τ sig (Elt F))).Forall fun op => op.bufs ⊆ tcRefs τ sig :=
  ⟨unary_bufs_sub .., binary_bufs_sub .., nullary_bufs_sub .., nullary_bufs_sub .., unary_bufs_sub .., unary_bufs_sub .., binary_bufs_sub .., unary_bufs_sub ..⟩

set_option maxRecDepth 8192 in
theorem ops26_fresh : ∀ op ∈ (ops26 : List (HloOp τ sig (Elt F))), op.fresh = ∅ := by
  intro _ h; (repeat (cases h with | head => rfl | tail _ h => ?_)); exact nomatch h

abbrev ops26_W : List (Ref sig .tc) := [main_v59, main_v60, main_c_11, main_c_12, main_call9_v0, main_call9_v1, main_call9_v2, main_call9_v3]

set_option maxRecDepth 8192 in
theorem ops26_writes : (ops26 : List (HloOp τ sig (Elt F))).Forall fun op =>
    op.writes ⊆ (ops26_W.map (Proc.devRef (τ := τ) .tc)).toFinset := by
  simp only [List.Forall]
  refine ⟨?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem ops26_keep (W : Valuation τ sig (Elt F)) (r : Ref sig .tc) (h : r ∉ ops26_W) :
    after ops26 W (Proc.devRef .tc r) = W (Proc.devRef .tc r) :=
  after_of_writes_sub ops26 W ops26_writes h

set_option maxRecDepth 8192 in
set_option maxHeartbeats 1000000 in

theorem after26_main_call9_v2 (W : Valuation τ sig (Elt F)) (x1 : (⟨S64x8, .i32⟩ : BufTy).Contents (Elt F))
    (h_main_arg1 : W (Proc.devRef .tc main_arg1) = x1)
    (h_main_c_10 : W (Proc.devRef .tc main_c_10) = val_main_c_10 (F := F)) :
    after ops26 W (Proc.devRef .tc main_call9_v2) = val_main_call9_v2 (F := F) x1 := by
  simp only [ops26]
  after_results_simp
  try dsimp only [Matrix.cons_val]
  try simp only [TRef.ofBuf, TRef.toBuf, cast_eq]
  rw [h_main_arg1, h_main_c_10]
  rfl

set_option maxRecDepth 8192 in
set_option maxHeartbeats 1000000 in

theorem after26_main_call9_v3 (W : Valuation τ sig (Elt F))
     :
    after ops26 W (Proc.devRef .tc main_call9_v3) = val_main_call9_v3 (F := F) := by
  simp only [ops26]
  after_results_simp
  try dsimp only [Matrix.cons_val]
  try simp only [TRef.ofBuf, TRef.toBuf, cast_eq]
  rw []
  rfl

abbrev ops27 : List (HloOp τ sig (Elt F)) :=
  [ TRef.unary (TRef.of (T := ⟨S_, .i32⟩) main_call9_v3) (TRef.of (T := ⟨S64x8, .i32⟩) main_call9_v4) (broadcastInDim S64x8 ![] bcast_S_S64x8),
    TRef.binary (TRef.of (T := ⟨S64x8, .i32⟩) main_call9_v4) (TRef.of (T := ⟨S64x8, .i32⟩) main_call9_v2) (TRef.of (T := ⟨S64x8, .i32⟩) main_v61) minsi,
    unary main_v61 main_v62 (broadcastInDim S64x8x1 ![0, 1] bcast_S64x8_S64x8x1_0_1 : (⟨S64x8, .i32⟩ : BufTy).Contents (Elt F) → (⟨S64x8x1, .i32⟩ : BufTy).Contents (Elt F)),
    TRef.nullary (TRef.of (T := ⟨S_, .i32⟩) main_call10_c) (constantI S_ 32 0#32),
    TRef.unary (TRef.of (T := ⟨S_, .i32⟩) main_call10_c) (TRef.of (T := ⟨S64x8x1, .i32⟩) main_call10_v0) (broadcastInDim S64x8x1 ![] bcast_S_S64x8x1),
    TRef.binary (TRef.of (T := ⟨S64x8x1, .i32⟩) main_v62) (TRef.of (T := ⟨S64x8x1, .i32⟩) main_call10_v0) (TRef.of (T := ⟨S64x8x1, .i1⟩) main_call10_v1) (cmpi .slt),
    TRef.nullary (TRef.of (T := ⟨S_, .i32⟩) main_call10_c_0) (constantI S_ 32 160000#32),
    TRef.unary (TRef.of (T := ⟨S_, .i32⟩) main_call10_c_0) (TRef.of (T := ⟨S64x8x1, .i32⟩) main_call10_v2) (broadcastInDim S64x8x1 ![] bcast_S_S64x8x1) ]

set_option maxRecDepth 8192 in
theorem ops27_sub : (ops27 : List (HloOp τ sig (Elt F))).Forall fun op => op.bufs ⊆ tcRefs τ sig :=
  ⟨unary_bufs_sub .., binary_bufs_sub .., unary_bufs_sub .., nullary_bufs_sub .., unary_bufs_sub .., binary_bufs_sub .., nullary_bufs_sub .., unary_bufs_sub ..⟩

set_option maxRecDepth 8192 in
theorem ops27_fresh : ∀ op ∈ (ops27 : List (HloOp τ sig (Elt F))), op.fresh = ∅ := by
  intro _ h; (repeat (cases h with | head => rfl | tail _ h => ?_)); exact nomatch h

abbrev ops27_W : List (Ref sig .tc) := [main_call9_v4, main_v61, main_v62, main_call10_c, main_call10_v0, main_call10_v1, main_call10_c_0, main_call10_v2]

set_option maxRecDepth 8192 in
theorem ops27_writes : (ops27 : List (HloOp τ sig (Elt F))).Forall fun op =>
    op.writes ⊆ (ops27_W.map (Proc.devRef (τ := τ) .tc)).toFinset := by
  simp only [List.Forall]
  refine ⟨?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem ops27_keep (W : Valuation τ sig (Elt F)) (r : Ref sig .tc) (h : r ∉ ops27_W) :
    after ops27 W (Proc.devRef .tc r) = W (Proc.devRef .tc r) :=
  after_of_writes_sub ops27 W ops27_writes h

set_option maxRecDepth 8192 in
set_option maxHeartbeats 1000000 in

theorem after27_main_v62 (W : Valuation τ sig (Elt F)) (x1 : (⟨S64x8, .i32⟩ : BufTy).Contents (Elt F))
    (h_main_call9_v2 : W (Proc.devRef .tc main_call9_v2) = val_main_call9_v2 (F := F) x1)
    (h_main_call9_v3 : W (Proc.devRef .tc main_call9_v3) = val_main_call9_v3 (F := F)) :
    after ops27 W (Proc.devRef .tc main_v62) = val_main_v62 (F := F) x1 := by
  simp only [ops27]
  after_results_simp
  try dsimp only [Matrix.cons_val]
  try simp only [TRef.ofBuf, TRef.toBuf, cast_eq]
  rw [h_main_call9_v2, h_main_call9_v3]
  rfl

set_option maxRecDepth 8192 in
set_option maxHeartbeats 1000000 in

theorem after27_main_call10_v1 (W : Valuation τ sig (Elt F)) (x1 : (⟨S64x8, .i32⟩ : BufTy).Contents (Elt F))
    (h_main_call9_v2 : W (Proc.devRef .tc main_call9_v2) = val_main_call9_v2 (F := F) x1)
    (h_main_call9_v3 : W (Proc.devRef .tc main_call9_v3) = val_main_call9_v3 (F := F)) :
    after ops27 W (Proc.devRef .tc main_call10_v1) = val_main_call10_v1 (F := F) x1 := by
  simp only [ops27]
  after_results_simp
  try dsimp only [Matrix.cons_val]
  try simp only [TRef.ofBuf, TRef.toBuf, cast_eq]
  rw [h_main_call9_v2, h_main_call9_v3]
  rfl

set_option maxRecDepth 8192 in
set_option maxHeartbeats 1000000 in

theorem after27_main_call10_v2 (W : Valuation τ sig (Elt F))
     :
    after ops27 W (Proc.devRef .tc main_call10_v2) = val_main_call10_v2 (F := F) := by
  simp only [ops27]
  after_results_simp
  try dsimp only [Matrix.cons_val]
  try simp only [TRef.ofBuf, TRef.toBuf, cast_eq]
  rw []
  rfl

abbrev ops28 : List (HloOp τ sig (Elt F)) :=
  [ TRef.binary (TRef.of (T := ⟨S64x8x1, .i32⟩) main_v62) (TRef.of (T := ⟨S64x8x1, .i32⟩) main_call10_v2) (TRef.of (T := ⟨S64x8x1, .i32⟩) main_call10_v3) addi,
    TRef.ternary (TRef.of (T := ⟨S64x8x1, .i1⟩) main_call10_v1) (TRef.of (T := ⟨S64x8x1, .i32⟩) main_call10_v3) (TRef.of (T := ⟨S64x8x1, .i32⟩) main_v62) (TRef.of (T := ⟨S64x8x1, .i32⟩) main_call10_v4) select,
    TRef.reshape (TRef.of (T := ⟨S64x8x1, .i32⟩) main_call10_v4) (TRef.of (T := ⟨S64x8x1x1, .i32⟩) main_call10_v5) rfl shapeCasts_S64x8x1_S64x8x1x1,
    TRef.nullary (TRef.of (T := ⟨S1, .i32⟩) main_call10_c_1) (constantI S1 32 159999#32),
    TRef.nullary (TRef.of (T := ⟨S_, .i32⟩) main_call10_c_2) (constantI S_ 32 0#32),
    TRef.unary (TRef.of (T := ⟨S_, .i32⟩) main_call10_c_2) (TRef.of (T := ⟨S64x8x1x1, .i32⟩) main_call10_v6) (broadcastInDim S64x8x1x1 ![] bcast_S_S64x8x1x1),
    TRef.binary (TRef.of (T := ⟨S64x8x1x1, .i32⟩) main_call10_v5) (TRef.of (T := ⟨S64x8x1x1, .i32⟩) main_call10_v6) (TRef.of (T := ⟨S64x8x1x1, .i1⟩) main_call10_v7) (cmpi .sge),
    TRef.unary (TRef.of (T := ⟨S1, .i32⟩) main_call10_c_1) (TRef.of (T := ⟨S1x1x1x1, .i32⟩) main_call10_v8) (broadcastInDim S1x1x1x1 ![3] bcast_S1_S1x1x1x1_3) ]

set_option maxRecDepth 8192 in
theorem ops28_sub : (ops28 : List (HloOp τ sig (Elt F))).Forall fun op => op.bufs ⊆ tcRefs τ sig :=
  ⟨binary_bufs_sub .., ternary_bufs_sub .., reshape_bufs_sub .., nullary_bufs_sub .., nullary_bufs_sub .., unary_bufs_sub .., binary_bufs_sub .., unary_bufs_sub ..⟩

set_option maxRecDepth 8192 in
theorem ops28_fresh : ∀ op ∈ (ops28 : List (HloOp τ sig (Elt F))), op.fresh = ∅ := by
  intro _ h; (repeat (cases h with | head => rfl | tail _ h => ?_)); exact nomatch h

abbrev ops28_W : List (Ref sig .tc) := [main_call10_v3, main_call10_v4, main_call10_v5, main_call10_c_1, main_call10_c_2, main_call10_v6, main_call10_v7, main_call10_v8]

set_option maxRecDepth 8192 in
theorem ops28_writes : (ops28 : List (HloOp τ sig (Elt F))).Forall fun op =>
    op.writes ⊆ (ops28_W.map (Proc.devRef (τ := τ) .tc)).toFinset := by
  simp only [List.Forall]
  refine ⟨?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem ops28_keep (W : Valuation τ sig (Elt F)) (r : Ref sig .tc) (h : r ∉ ops28_W) :
    after ops28 W (Proc.devRef .tc r) = W (Proc.devRef .tc r) :=
  after_of_writes_sub ops28 W ops28_writes h

set_option maxRecDepth 8192 in
set_option maxHeartbeats 1000000 in

theorem after28_main_call10_v5 (W : Valuation τ sig (Elt F)) (x1 : (⟨S64x8, .i32⟩ : BufTy).Contents (Elt F))
    (h_main_v62 : W (Proc.devRef .tc main_v62) = val_main_v62 (F := F) x1)
    (h_main_call10_v1 : W (Proc.devRef .tc main_call10_v1) = val_main_call10_v1 (F := F) x1)
    (h_main_call10_v2 : W (Proc.devRef .tc main_call10_v2) = val_main_call10_v2 (F := F)) :
    after ops28 W (Proc.devRef .tc main_call10_v5) = val_main_call10_v5 (F := F) x1 := by
  simp only [ops28]
  after_results_simp
  try dsimp only [Matrix.cons_val]
  try simp only [TRef.ofBuf, TRef.toBuf, cast_eq]
  rw [h_main_v62, h_main_call10_v1, h_main_call10_v2]
  rfl

set_option maxRecDepth 8192 in
set_option maxHeartbeats 1000000 in

theorem after28_main_call10_v7 (W : Valuation τ sig (Elt F)) (x1 : (⟨S64x8, .i32⟩ : BufTy).Contents (Elt F))
    (h_main_v62 : W (Proc.devRef .tc main_v62) = val_main_v62 (F := F) x1)
    (h_main_call10_v1 : W (Proc.devRef .tc main_call10_v1) = val_main_call10_v1 (F := F) x1)
    (h_main_call10_v2 : W (Proc.devRef .tc main_call10_v2) = val_main_call10_v2 (F := F)) :
    after ops28 W (Proc.devRef .tc main_call10_v7) = val_main_call10_v7 (F := F) x1 := by
  simp only [ops28]
  after_results_simp
  try dsimp only [Matrix.cons_val]
  try simp only [TRef.ofBuf, TRef.toBuf, cast_eq]
  rw [h_main_v62, h_main_call10_v1, h_main_call10_v2]
  rfl

set_option maxRecDepth 8192 in
set_option maxHeartbeats 1000000 in

theorem after28_main_call10_v8 (W : Valuation τ sig (Elt F))
     :
    after ops28 W (Proc.devRef .tc main_call10_v8) = val_main_call10_v8 (F := F) := by
  simp only [ops28]
  after_results_simp
  try dsimp only [Matrix.cons_val]
  try simp only [TRef.ofBuf, TRef.toBuf, cast_eq]
  rw []
  rfl

abbrev ops29 : List (HloOp τ sig (Elt F)) :=
  [ TRef.unary (TRef.of (T := ⟨S1x1x1x1, .i32⟩) main_call10_v8) (TRef.of (T := ⟨S64x8x1x1, .i32⟩) main_call10_v9) (broadcastInDim S64x8x1x1 ![0, 1, 2, 3] bcast_S1x1x1x1_S64x8x1x1_0_1_2_3),
    TRef.binary (TRef.of (T := ⟨S64x8x1x1, .i32⟩) main_call10_v5) (TRef.of (T := ⟨S64x8x1x1, .i32⟩) main_call10_v9) (TRef.of (T := ⟨S64x8x1x1, .i1⟩) main_call10_v10) (cmpi .sle),
    TRef.binary (TRef.of (T := ⟨S64x8x1x1, .i1⟩) main_call10_v7) (TRef.of (T := ⟨S64x8x1x1, .i1⟩) main_call10_v10) (TRef.of (T := ⟨S64x8x1x1, .i1⟩) main_call10_v11) andi,
    TRef.nullary (TRef.of (T := ⟨S_, .i1⟩) main_call10_c_3) (constantI S_ 1 1#1),
    TRef.binary (TRef.of (T := ⟨S64x8x1x1, .i1⟩) main_call10_v11) (TRef.of (T := ⟨S_, .i1⟩) main_call10_c_3) (TRef.of (T := ⟨S64x8x1, .i1⟩) main_call10_v12) (fun x v => Host.reduce IntOp.andi x v reducesTo_S64x8x1x1_S64x8x1_d3 h_S_),
    TRef.binary (TRef.of (T := ⟨S64x8x160000, .f32⟩) main_v53) (TRef.of (T := ⟨S64x8x1x1, .i32⟩) main_call10_v5) (TRef.of (T := ⟨S64x8x1, .f32⟩) main_call10_v13) (fun x i => Host.gather gather_S64x8x160000_S64x8x1x1_S64x8x1_n_2_01_01_2_3_111 x i),
    TRef.nullary (TRef.of (T := ⟨S_, .f32⟩) main_call10_cst) (constant S_ .f32 0x7FC00000#32),
    TRef.unary (TRef.of (T := ⟨S_, .f32⟩) main_call10_cst) (TRef.of (T := ⟨S64x8x1, .f32⟩) main_call10_v14) (broadcastInDim S64x8x1 ![] bcast_S_S64x8x1) ]

set_option maxRecDepth 8192 in
theorem ops29_sub : (ops29 : List (HloOp τ sig (Elt F))).Forall fun op => op.bufs ⊆ tcRefs τ sig :=
  ⟨unary_bufs_sub .., binary_bufs_sub .., binary_bufs_sub .., nullary_bufs_sub .., binary_bufs_sub .., binary_bufs_sub .., nullary_bufs_sub .., unary_bufs_sub ..⟩

set_option maxRecDepth 8192 in
theorem ops29_fresh : ∀ op ∈ (ops29 : List (HloOp τ sig (Elt F))), op.fresh = ∅ := by
  intro _ h; (repeat (cases h with | head => rfl | tail _ h => ?_)); exact nomatch h

abbrev ops29_W : List (Ref sig .tc) := [main_call10_v9, main_call10_v10, main_call10_v11, main_call10_c_3, main_call10_v12, main_call10_v13, main_call10_cst, main_call10_v14]

set_option maxRecDepth 8192 in
theorem ops29_writes : (ops29 : List (HloOp τ sig (Elt F))).Forall fun op =>
    op.writes ⊆ (ops29_W.map (Proc.devRef (τ := τ) .tc)).toFinset := by
  simp only [List.Forall]
  refine ⟨?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem ops29_keep (W : Valuation τ sig (Elt F)) (r : Ref sig .tc) (h : r ∉ ops29_W) :
    after ops29 W (Proc.devRef .tc r) = W (Proc.devRef .tc r) :=
  after_of_writes_sub ops29 W ops29_writes h

set_option maxRecDepth 8192 in
set_option maxHeartbeats 1000000 in

theorem after29_main_call10_v12 (W : Valuation τ sig (Elt F)) (x1 : (⟨S64x8, .i32⟩ : BufTy).Contents (Elt F))
    (h_main_call10_v5 : W (Proc.devRef .tc main_call10_v5) = val_main_call10_v5 (F := F) x1)
    (h_main_call10_v7 : W (Proc.devRef .tc main_call10_v7) = val_main_call10_v7 (F := F) x1)
    (h_main_call10_v8 : W (Proc.devRef .tc main_call10_v8) = val_main_call10_v8 (F := F)) :
    after ops29 W (Proc.devRef .tc main_call10_v12) = val_main_call10_v12 (F := F) x1 := by
  simp only [ops29]
  after_results_simp
  try dsimp only [Matrix.cons_val]
  try simp only [TRef.ofBuf, TRef.toBuf, cast_eq]
  rw [h_main_call10_v5, h_main_call10_v7, h_main_call10_v8]
  rfl

set_option maxRecDepth 8192 in
set_option maxHeartbeats 1000000 in

theorem after29_main_call10_v13 (W : Valuation τ sig (Elt F)) (x0 : (⟨S64x8x1024, .f32⟩ : BufTy).Contents (Elt F)) (x1 : (⟨S64x8, .i32⟩ : BufTy).Contents (Elt F)) (x2 : (⟨S3x1024, .f32⟩ : BufTy).Contents (Elt F)) (x3 : (⟨S3, .f32⟩ : BufTy).Contents (Elt F)) (x4 : (⟨S20000x1024, .f32⟩ : BufTy).Contents (Elt F)) (x5 : (⟨S20000, .f32⟩ : BufTy).Contents (Elt F)) (x6 : (⟨S1024x1024, .f32⟩ : BufTy).Contents (Elt F)) (x10 : (⟨S160000x64, .f32⟩ : BufTy).Contents (Elt F)) (x11 : (⟨S160000, .f32⟩ : BufTy).Contents (Elt F)) (x12 : (⟨S64x1024, .f32⟩ : BufTy).Contents (Elt F))
    (h_main_v53 : W (Proc.devRef .tc main_v53) = val_main_v53 (F := F) x0 x2 x3 x4 x5 x6 x10 x11 x12)
    (h_main_call10_v5 : W (Proc.devRef .tc main_call10_v5) = val_main_call10_v5 (F := F) x1) :
    after ops29 W (Proc.devRef .tc main_call10_v13) = val_main_call10_v13 (F := F) x0 x1 x2 x3 x4 x5 x6 x10 x11 x12 := by
  simp only [ops29]
  after_results_simp
  try dsimp only [Matrix.cons_val]
  try simp only [TRef.ofBuf, TRef.toBuf, cast_eq]
  rw [h_main_v53, h_main_call10_v5]
  rfl

set_option maxRecDepth 8192 in
set_option maxHeartbeats 1000000 in

theorem after29_main_call10_v14 (W : Valuation τ sig (Elt F))
     :
    after ops29 W (Proc.devRef .tc main_call10_v14) = val_main_call10_v14 (F := F) := by
  simp only [ops29]
  after_results_simp
  try dsimp only [Matrix.cons_val]
  try simp only [TRef.ofBuf, TRef.toBuf, cast_eq]
  rw []
  rfl

abbrev ops30 : List (HloOp τ sig (Elt F)) :=
  [ TRef.ternary (TRef.of (T := ⟨S64x8x1, .i1⟩) main_call10_v12) (TRef.of (T := ⟨S64x8x1, .f32⟩) main_call10_v13) (TRef.of (T := ⟨S64x8x1, .f32⟩) main_call10_v14) (TRef.of (T := ⟨S64x8x1, .f32⟩) main_v63) select,
    reshape main_v63 main_v64 rfl shapeCasts_S64x8x1_S64x8,
    TRef.ternary (TRef.of (T := ⟨S64x8, .i1⟩) main_v58) (TRef.of (T := ⟨S64x8, .f32⟩) main_v64) (TRef.of (T := ⟨S64x8, .f32⟩) main_v42) (TRef.of (T := ⟨S64x8, .f32⟩) main_v65) select ]

set_option maxRecDepth 8192 in
theorem ops30_sub : (ops30 : List (HloOp τ sig (Elt F))).Forall fun op => op.bufs ⊆ tcRefs τ sig :=
  ⟨ternary_bufs_sub .., reshape_bufs_sub .., ternary_bufs_sub ..⟩

set_option maxRecDepth 8192 in
theorem ops30_fresh : ∀ op ∈ (ops30 : List (HloOp τ sig (Elt F))), op.fresh = ∅ := by
  intro _ h; (repeat (cases h with | head => rfl | tail _ h => ?_)); exact nomatch h

abbrev ops30_W : List (Ref sig .tc) := [main_v63, main_v64, main_v65]

set_option maxRecDepth 8192 in
theorem ops30_writes : (ops30 : List (HloOp τ sig (Elt F))).Forall fun op =>
    op.writes ⊆ (ops30_W.map (Proc.devRef (τ := τ) .tc)).toFinset := by
  simp only [List.Forall]
  refine ⟨?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem ops30_keep (W : Valuation τ sig (Elt F)) (r : Ref sig .tc) (h : r ∉ ops30_W) :
    after ops30 W (Proc.devRef .tc r) = W (Proc.devRef .tc r) :=
  after_of_writes_sub ops30 W ops30_writes h

set_option maxRecDepth 8192 in
set_option maxHeartbeats 500000 in

theorem after30_main_v65 (W : Valuation τ sig (Elt F)) (x0 : (⟨S64x8x1024, .f32⟩ : BufTy).Contents (Elt F)) (x1 : (⟨S64x8, .i32⟩ : BufTy).Contents (Elt F)) (x2 : (⟨S3x1024, .f32⟩ : BufTy).Contents (Elt F)) (x3 : (⟨S3, .f32⟩ : BufTy).Contents (Elt F)) (x4 : (⟨S20000x1024, .f32⟩ : BufTy).Contents (Elt F)) (x5 : (⟨S20000, .f32⟩ : BufTy).Contents (Elt F)) (x6 : (⟨S1024x1024, .f32⟩ : BufTy).Contents (Elt F)) (x7 : (⟨S20000x256, .f32⟩ : BufTy).Contents (Elt F)) (x8 : (⟨S20000, .f32⟩ : BufTy).Contents (Elt F)) (x9 : (⟨S256x1024, .f32⟩ : BufTy).Contents (Elt F)) (x10 : (⟨S160000x64, .f32⟩ : BufTy).Contents (Elt F)) (x11 : (⟨S160000, .f32⟩ : BufTy).Contents (Elt F)) (x12 : (⟨S64x1024, .f32⟩ : BufTy).Contents (Elt F))
    (h_main_v42 : W (Proc.devRef .tc main_v42) = val_main_v42 (F := F) x0 x1 x2 x3 x4 x5 x6 x7 x8 x9)
    (h_main_v58 : W (Proc.devRef .tc main_v58) = val_main_v58 (F := F) x1)
    (h_main_call10_v12 : W (Proc.devRef .tc main_call10_v12) = val_main_call10_v12 (F := F) x1)
    (h_main_call10_v13 : W (Proc.devRef .tc main_call10_v13) = val_main_call10_v13 (F := F) x0 x1 x2 x3 x4 x5 x6 x10 x11 x12)
    (h_main_call10_v14 : W (Proc.devRef .tc main_call10_v14) = val_main_call10_v14 (F := F)) :
    after ops30 W (Proc.devRef .tc main_v65) = val_main_v65 (F := F) x0 x1 x2 x3 x4 x5 x6 x7 x8 x9 x10 x11 x12 := by
  simp only [ops30]
  after_results_simp
  try dsimp only [Matrix.cons_val]
  try simp only [TRef.ofBuf, TRef.toBuf, cast_eq]
  rw [h_main_v42, h_main_v58, h_main_call10_v12, h_main_call10_v13, h_main_call10_v14]
  rfl

end Cert.ReferenceIdeal.RunHand

end
-- ==== Proof.RefChunk8.lean ====
import proofs.«138250_j73134703116926_1_alg».proof.Proof.RefReadP
import Idealize.ShloMosaic.Lib.StableHlo.Run

noncomputable section

namespace Cert.ReferenceIdeal.RunHand

open Cert.ReferenceIdeal Cert.ReferenceIdeal.Gen Cert.ReferenceIdeal.ReadP Idealize.ShloMosaic Idealize.ShloMosaic.TcCoe Idealize.SL.Sem
  Idealize.ShloMosaic.StableHlo

variable {F : FTy → Type} [FloatOps F]

attribute [local irreducible] Host.reduce Host.reduceAdd Host.gather concatenate broadcastInDim shapeCast extractStridedSlice addf subf maximumf Host.exp Host.log select cmpi andi addi subi maxsi minsi constant constantI Host.negf Host.divf

abbrev ops31 : List (HloOp τ sig (Elt F)) :=
  [ binary main_arg0 main_arg15 main_v66 ((fun l r => Host.dotGeneral dot_S64x8x1024_S16x1024_S64x8x16_2_1_01_0_n_n none l r) : (⟨S64x8x1024, .f32⟩ : BufTy).Contents (Elt F) → (⟨S16x1024, .f32⟩ : BufTy).Contents (Elt F) → (⟨S64x8x16, .f32⟩ : BufTy).Contents (Elt F)),
    binary main_v66 main_arg13 main_v67 ((fun l r => Host.dotGeneral dot_S64x8x16_S67735x16_S64x8x67735_2_1_01_0_n_n none l r) : (⟨S64x8x16, .f32⟩ : BufTy).Contents (Elt F) → (⟨S67735x16, .f32⟩ : BufTy).Contents (Elt F) → (⟨S64x8x67735, .f32⟩ : BufTy).Contents (Elt F)),
    unary main_arg14 main_v68 (broadcastInDim S1x1x67735 ![2] bcast_S67735_S1x1x67735_2 : (⟨S67735, .f32⟩ : BufTy).Contents (Elt F) → (⟨S1x1x67735, .f32⟩ : BufTy).Contents (Elt F)),
    unary main_v68 main_v69 (broadcastInDim S64x8x67735 ![0, 1, 2] bcast_S1x1x67735_S64x8x67735_0_1_2 : (⟨S1x1x67735, .f32⟩ : BufTy).Contents (Elt F) → (⟨S64x8x67735, .f32⟩ : BufTy).Contents (Elt F)),
    binary main_v67 main_v69 main_v70 (addf : (⟨S64x8x67735, .f32⟩ : BufTy).Contents (Elt F) → (⟨S64x8x67735, .f32⟩ : BufTy).Contents (Elt F) → (⟨S64x8x67735, .f32⟩ : BufTy).Contents (Elt F)),
    TRef.nullary (TRef.of (T := ⟨S_, .f32⟩) main_call12_cst) (constant S_ .f32 0xFF800000#32),
    TRef.binary (TRef.of (T := ⟨S64x8x67735, .f32⟩) main_v70) (TRef.of (T := ⟨S_, .f32⟩) main_call12_cst) (TRef.of (T := ⟨S64x8, .f32⟩) main_call12_v0) (fun x v => Host.reduce FloatOps.maximumf x v reducesTo_S64x8x67735_S64x8_d2 h_S_),
    TRef.nullary (TRef.of (T := ⟨S_, .f32⟩) main_call12_cst_0) (constant S_ .f32 0xFF800000#32) ]

set_option maxRecDepth 8192 in
theorem ops31_sub : (ops31 : List (HloOp τ sig (Elt F))).Forall fun op => op.bufs ⊆ tcRefs τ sig :=
  ⟨binary_bufs_sub .., binary_bufs_sub .., unary_bufs_sub .., unary_bufs_sub .., binary_bufs_sub .., nullary_bufs_sub .., binary_bufs_sub .., nullary_bufs_sub ..⟩

set_option maxRecDepth 8192 in
theorem ops31_fresh : ∀ op ∈ (ops31 : List (HloOp τ sig (Elt F))), op.fresh = ∅ := by
  intro _ h; (repeat (cases h with | head => rfl | tail _ h => ?_)); exact nomatch h

abbrev ops31_W : List (Ref sig .tc) := [main_v66, main_v67, main_v68, main_v69, main_v70, main_call12_cst, main_call12_v0, main_call12_cst_0]

set_option maxRecDepth 8192 in
theorem ops31_writes : (ops31 : List (HloOp τ sig (Elt F))).Forall fun op =>
    op.writes ⊆ (ops31_W.map (Proc.devRef (τ := τ) .tc)).toFinset := by
  simp only [List.Forall]
  refine ⟨?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem ops31_keep (W : Valuation τ sig (Elt F)) (r : Ref sig .tc) (h : r ∉ ops31_W) :
    after ops31 W (Proc.devRef .tc r) = W (Proc.devRef .tc r) :=
  after_of_writes_sub ops31 W ops31_writes h

set_option maxRecDepth 8192 in
set_option maxHeartbeats 1000000 in

theorem after31_main_v70 (W : Valuation τ sig (Elt F)) (x0 : (⟨S64x8x1024, .f32⟩ : BufTy).Contents (Elt F)) (x13 : (⟨S67735x16, .f32⟩ : BufTy).Contents (Elt F)) (x14 : (⟨S67735, .f32⟩ : BufTy).Contents (Elt F)) (x15 : (⟨S16x1024, .f32⟩ : BufTy).Contents (Elt F))
    (h_main_arg0 : W (Proc.devRef .tc main_arg0) = x0)
    (h_main_arg13 : W (Proc.devRef .tc main_arg13) = x13)
    (h_main_arg14 : W (Proc.devRef .tc main_arg14) = x14)
    (h_main_arg15 : W (Proc.devRef .tc main_arg15) = x15) :
    after ops31 W (Proc.devRef .tc main_v70) = val_main_v70 (F := F) x0 x13 x14 x15 := by
  simp only [ops31]
  after_results_simp
  try dsimp only [Matrix.cons_val]
  try simp only [TRef.ofBuf, TRef.toBuf, cast_eq]
  rw [h_main_arg0, h_main_arg13, h_main_arg14, h_main_arg15]
  rfl

set_option maxRecDepth 8192 in
set_option maxHeartbeats 1000000 in

theorem after31_main_call12_v0 (W : Valuation τ sig (Elt F)) (x0 : (⟨S64x8x1024, .f32⟩ : BufTy).Contents (Elt F)) (x13 : (⟨S67735x16, .f32⟩ : BufTy).Contents (Elt F)) (x14 : (⟨S67735, .f32⟩ : BufTy).Contents (Elt F)) (x15 : (⟨S16x1024, .f32⟩ : BufTy).Contents (Elt F))
    (h_main_arg0 : W (Proc.devRef .tc main_arg0) = x0)
    (h_main_arg13 : W (Proc.devRef .tc main_arg13) = x13)
    (h_main_arg14 : W (Proc.devRef .tc main_arg14) = x14)
    (h_main_arg15 : W (Proc.devRef .tc main_arg15) = x15) :
    after ops31 W (Proc.devRef .tc main_call12_v0) = val_main_call12_v0 (F := F) x0 x13 x14 x15 := by
  simp only [ops31]
  after_results_simp
  try dsimp only [Matrix.cons_val]
  try simp only [TRef.ofBuf, TRef.toBuf, cast_eq]
  rw [h_main_arg0, h_main_arg13, h_main_arg14, h_main_arg15]
  rfl

set_option maxRecDepth 8192 in
set_option maxHeartbeats 1000000 in

theorem after31_main_call12_cst_0 (W : Valuation τ sig (Elt F))
     :
    after ops31 W (Proc.devRef .tc main_call12_cst_0) = val_main_call12_cst_0 (F := F) := by
  simp only [ops31]
  after_results_simp
  try dsimp only [Matrix.cons_val]
  try simp only [TRef.ofBuf, TRef.toBuf, cast_eq]
  rw []
  rfl

abbrev ops32 : List (HloOp τ sig (Elt F)) :=
  [ TRef.unary (TRef.of (T := ⟨S_, .f32⟩) main_call12_cst_0) (TRef.of (T := ⟨S64x8, .f32⟩) main_call12_v1) (broadcastInDim S64x8 ![] bcast_S_S64x8),
    TRef.binary (TRef.of (T := ⟨S64x8, .f32⟩) main_call12_v1) (TRef.of (T := ⟨S64x8, .f32⟩) main_call12_v0) (TRef.of (T := ⟨S64x8, .f32⟩) main_call12_v2) maximumf,
    TRef.unary (TRef.of (T := ⟨S64x8, .f32⟩) main_call12_v2) (TRef.of (T := ⟨S64x8x1, .f32⟩) main_call12_v3) (broadcastInDim S64x8x1 ![0, 1] bcast_S64x8_S64x8x1_0_1),
    TRef.unary (TRef.of (T := ⟨S64x8x1, .f32⟩) main_call12_v3) (TRef.of (T := ⟨S64x8x67735, .f32⟩) main_call12_v4) (broadcastInDim S64x8x67735 ![0, 1, 2] bcast_S64x8x1_S64x8x67735_0_1_2),
    TRef.binary (TRef.of (T := ⟨S64x8x67735, .f32⟩) main_v70) (TRef.of (T := ⟨S64x8x67735, .f32⟩) main_call12_v4) (TRef.of (T := ⟨S64x8x67735, .f32⟩) main_call12_v5) subf,
    TRef.unary (TRef.of (T := ⟨S64x8x67735, .f32⟩) main_call12_v5) (TRef.of (T := ⟨S64x8x67735, .f32⟩) main_call12_v6) Host.exp,
    TRef.nullary (TRef.of (T := ⟨S_, .f32⟩) main_call12_cst_1) (constant S_ .f32 0x00000000#32),
    TRef.binary (TRef.of (T := ⟨S64x8x67735, .f32⟩) main_call12_v6) (TRef.of (T := ⟨S_, .f32⟩) main_call12_cst_1) (TRef.of (T := ⟨S64x8, .f32⟩) main_call12_v7) (fun x v => Host.reduceAdd x v reducesTo_S64x8x67735_S64x8_d2 h_S_) ]

set_option maxRecDepth 8192 in
theorem ops32_sub : (ops32 : List (HloOp τ sig (Elt F))).Forall fun op => op.bufs ⊆ tcRefs τ sig :=
  ⟨unary_bufs_sub .., binary_bufs_sub .., unary_bufs_sub .., unary_bufs_sub .., binary_bufs_sub .., unary_bufs_sub .., nullary_bufs_sub .., binary_bufs_sub ..⟩

set_option maxRecDepth 8192 in
theorem ops32_fresh : ∀ op ∈ (ops32 : List (HloOp τ sig (Elt F))), op.fresh = ∅ := by
  intro _ h; (repeat (cases h with | head => rfl | tail _ h => ?_)); exact nomatch h

abbrev ops32_W : List (Ref sig .tc) := [main_call12_v1, main_call12_v2, main_call12_v3, main_call12_v4, main_call12_v5, main_call12_v6, main_call12_cst_1, main_call12_v7]

set_option maxRecDepth 8192 in
theorem ops32_writes : (ops32 : List (HloOp τ sig (Elt F))).Forall fun op =>
    op.writes ⊆ (ops32_W.map (Proc.devRef (τ := τ) .tc)).toFinset := by
  simp only [List.Forall]
  refine ⟨?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem ops32_keep (W : Valuation τ sig (Elt F)) (r : Ref sig .tc) (h : r ∉ ops32_W) :
    after ops32 W (Proc.devRef .tc r) = W (Proc.devRef .tc r) :=
  after_of_writes_sub ops32 W ops32_writes h

set_option maxRecDepth 8192 in
set_option maxHeartbeats 1000000 in

theorem after32_main_call12_v5 (W : Valuation τ sig (Elt F)) (x0 : (⟨S64x8x1024, .f32⟩ : BufTy).Contents (Elt F)) (x13 : (⟨S67735x16, .f32⟩ : BufTy).Contents (Elt F)) (x14 : (⟨S67735, .f32⟩ : BufTy).Contents (Elt F)) (x15 : (⟨S16x1024, .f32⟩ : BufTy).Contents (Elt F))
    (h_main_v70 : W (Proc.devRef .tc main_v70) = val_main_v70 (F := F) x0 x13 x14 x15)
    (h_main_call12_v0 : W (Proc.devRef .tc main_call12_v0) = val_main_call12_v0 (F := F) x0 x13 x14 x15)
    (h_main_call12_cst_0 : W (Proc.devRef .tc main_call12_cst_0) = val_main_call12_cst_0 (F := F)) :
    after ops32 W (Proc.devRef .tc main_call12_v5) = val_main_call12_v5 (F := F) x0 x13 x14 x15 := by
  simp only [ops32]
  after_results_simp
  try dsimp only [Matrix.cons_val]
  try simp only [TRef.ofBuf, TRef.toBuf, cast_eq]
  rw [h_main_v70, h_main_call12_v0, h_main_call12_cst_0]
  rfl

set_option maxRecDepth 8192 in
set_option maxHeartbeats 1000000 in

theorem after32_main_call12_v7 (W : Valuation τ sig (Elt F)) (x0 : (⟨S64x8x1024, .f32⟩ : BufTy).Contents (Elt F)) (x13 : (⟨S67735x16, .f32⟩ : BufTy).Contents (Elt F)) (x14 : (⟨S67735, .f32⟩ : BufTy).Contents (Elt F)) (x15 : (⟨S16x1024, .f32⟩ : BufTy).Contents (Elt F))
    (h_main_v70 : W (Proc.devRef .tc main_v70) = val_main_v70 (F := F) x0 x13 x14 x15)
    (h_main_call12_v0 : W (Proc.devRef .tc main_call12_v0) = val_main_call12_v0 (F := F) x0 x13 x14 x15)
    (h_main_call12_cst_0 : W (Proc.devRef .tc main_call12_cst_0) = val_main_call12_cst_0 (F := F)) :
    after ops32 W (Proc.devRef .tc main_call12_v7) = val_main_call12_v7 (F := F) x0 x13 x14 x15 := by
  simp only [ops32]
  after_results_simp
  try dsimp only [Matrix.cons_val]
  try simp only [TRef.ofBuf, TRef.toBuf, cast_eq]
  rw [h_main_v70, h_main_call12_v0, h_main_call12_cst_0]
  rfl

abbrev ops33 : List (HloOp τ sig (Elt F)) :=
  [ TRef.unary (TRef.of (T := ⟨S64x8, .f32⟩) main_call12_v7) (TRef.of (T := ⟨S64x8x1, .f32⟩) main_call12_v8) (broadcastInDim S64x8x1 ![0, 1] bcast_S64x8_S64x8x1_0_1),
    TRef.unary (TRef.of (T := ⟨S64x8x1, .f32⟩) main_call12_v8) (TRef.of (T := ⟨S64x8x1, .f32⟩) main_call12_v9) Host.log,
    TRef.unary (TRef.of (T := ⟨S64x8x1, .f32⟩) main_call12_v9) (TRef.of (T := ⟨S64x8x67735, .f32⟩) main_call12_v10) (broadcastInDim S64x8x67735 ![0, 1, 2] bcast_S64x8x1_S64x8x67735_0_1_2),
    TRef.binary (TRef.of (T := ⟨S64x8x67735, .f32⟩) main_call12_v5) (TRef.of (T := ⟨S64x8x67735, .f32⟩) main_call12_v10) (TRef.of (T := ⟨S64x8x67735, .f32⟩) main_v71) subf,
    unary main_v7 main_v72 ((extractStridedSlice S64x8x1 ![0, 0, 20002] · slices_S64x8x20003_S64x8x1_0_0_20002) : (⟨S64x8x20003, .f32⟩ : BufTy).Contents (Elt F) → (⟨S64x8x1, .f32⟩ : BufTy).Contents (Elt F)),
    reshape main_v72 main_v73 rfl shapeCasts_S64x8x1_S64x8,
    unary main_v73 main_v74 (broadcastInDim S64x8x1 ![0, 1] bcast_S64x8_S64x8x1_0_1 : (⟨S64x8, .f32⟩ : BufTy).Contents (Elt F) → (⟨S64x8x1, .f32⟩ : BufTy).Contents (Elt F)),
    unary main_v74 main_v75 (broadcastInDim S64x8x67735 ![0, 1, 2] bcast_S64x8x1_S64x8x67735_0_1_2 : (⟨S64x8x1, .f32⟩ : BufTy).Contents (Elt F) → (⟨S64x8x67735, .f32⟩ : BufTy).Contents (Elt F)) ]

set_option maxRecDepth 8192 in
theorem ops33_sub : (ops33 : List (HloOp τ sig (Elt F))).Forall fun op => op.bufs ⊆ tcRefs τ sig :=
  ⟨unary_bufs_sub .., unary_bufs_sub .., unary_bufs_sub .., binary_bufs_sub .., unary_bufs_sub .., reshape_bufs_sub .., unary_bufs_sub .., unary_bufs_sub ..⟩

set_option maxRecDepth 8192 in
theorem ops33_fresh : ∀ op ∈ (ops33 : List (HloOp τ sig (Elt F))), op.fresh = ∅ := by
  intro _ h; (repeat (cases h with | head => rfl | tail _ h => ?_)); exact nomatch h

abbrev ops33_W : List (Ref sig .tc) := [main_call12_v8, main_call12_v9, main_call12_v10, main_v71, main_v72, main_v73, main_v74, main_v75]

set_option maxRecDepth 8192 in
theorem ops33_writes : (ops33 : List (HloOp τ sig (Elt F))).Forall fun op =>
    op.writes ⊆ (ops33_W.map (Proc.devRef (τ := τ) .tc)).toFinset := by
  simp only [List.Forall]
  refine ⟨?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem ops33_keep (W : Valuation τ sig (Elt F)) (r : Ref sig .tc) (h : r ∉ ops33_W) :
    after ops33 W (Proc.devRef .tc r) = W (Proc.devRef .tc r) :=
  after_of_writes_sub ops33 W ops33_writes h

set_option maxRecDepth 8192 in
set_option maxHeartbeats 1000000 in

theorem after33_main_v71 (W : Valuation τ sig (Elt F)) (x0 : (⟨S64x8x1024, .f32⟩ : BufTy).Contents (Elt F)) (x13 : (⟨S67735x16, .f32⟩ : BufTy).Contents (Elt F)) (x14 : (⟨S67735, .f32⟩ : BufTy).Contents (Elt F)) (x15 : (⟨S16x1024, .f32⟩ : BufTy).Contents (Elt F))
    (h_main_call12_v5 : W (Proc.devRef .tc main_call12_v5) = val_main_call12_v5 (F := F) x0 x13 x14 x15)
    (h_main_call12_v7 : W (Proc.devRef .tc main_call12_v7) = val_main_call12_v7 (F := F) x0 x13 x14 x15) :
    after ops33 W (Proc.devRef .tc main_v71) = val_main_v71 (F := F) x0 x13 x14 x15 := by
  simp only [ops33]
  after_results_simp
  try dsimp only [Matrix.cons_val]
  try simp only [TRef.ofBuf, TRef.toBuf, cast_eq]
  rw [h_main_call12_v5, h_main_call12_v7]
  rfl

set_option maxRecDepth 8192 in
set_option maxHeartbeats 1000000 in

theorem after33_main_v75 (W : Valuation τ sig (Elt F)) (x0 : (⟨S64x8x1024, .f32⟩ : BufTy).Contents (Elt F)) (x2 : (⟨S3x1024, .f32⟩ : BufTy).Contents (Elt F)) (x3 : (⟨S3, .f32⟩ : BufTy).Contents (Elt F)) (x4 : (⟨S20000x1024, .f32⟩ : BufTy).Contents (Elt F)) (x5 : (⟨S20000, .f32⟩ : BufTy).Contents (Elt F)) (x6 : (⟨S1024x1024, .f32⟩ : BufTy).Contents (Elt F))
    (h_main_v7 : W (Proc.devRef .tc main_v7) = val_main_v7 (F := F) x0 x2 x3 x4 x5 x6) :
    after ops33 W (Proc.devRef .tc main_v75) = val_main_v75 (F := F) x0 x2 x3 x4 x5 x6 := by
  simp only [ops33]
  after_results_simp
  try dsimp only [Matrix.cons_val]
  try simp only [TRef.ofBuf, TRef.toBuf, cast_eq]
  rw [h_main_v7]
  rfl

abbrev ops34 : List (HloOp τ sig (Elt F)) :=
  [ binary main_v75 main_v71 main_v76 (addf : (⟨S64x8x67735, .f32⟩ : BufTy).Contents (Elt F) → (⟨S64x8x67735, .f32⟩ : BufTy).Contents (Elt F) → (⟨S64x8x67735, .f32⟩ : BufTy).Contents (Elt F)) ]

set_option maxRecDepth 8192 in
theorem ops34_sub : (ops34 : List (HloOp τ sig (Elt F))).Forall fun op => op.bufs ⊆ tcRefs τ sig :=
  binary_bufs_sub ..

set_option maxRecDepth 8192 in
theorem ops34_fresh : ∀ op ∈ (ops34 : List (HloOp τ sig (Elt F))), op.fresh = ∅ := by
  intro _ h; (repeat (cases h with | head => rfl | tail _ h => ?_)); exact nomatch h

abbrev ops34_W : List (Ref sig .tc) := [main_v76]

set_option maxRecDepth 8192 in
theorem ops34_writes : (ops34 : List (HloOp τ sig (Elt F))).Forall fun op =>
    op.writes ⊆ (ops34_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))

theorem ops34_keep (W : Valuation τ sig (Elt F)) (r : Ref sig .tc) (h : r ∉ ops34_W) :
    after ops34 W (Proc.devRef .tc r) = W (Proc.devRef .tc r) :=
  after_of_writes_sub ops34 W ops34_writes h

set_option maxRecDepth 8192 in
set_option maxHeartbeats 300000 in

theorem after34_main_v76 (W : Valuation τ sig (Elt F)) (x0 : (⟨S64x8x1024, .f32⟩ : BufTy).Contents (Elt F)) (x2 : (⟨S3x1024, .f32⟩ : BufTy).Contents (Elt F)) (x3 : (⟨S3, .f32⟩ : BufTy).Contents (Elt F)) (x4 : (⟨S20000x1024, .f32⟩ : BufTy).Contents (Elt F)) (x5 : (⟨S20000, .f32⟩ : BufTy).Contents (Elt F)) (x6 : (⟨S1024x1024, .f32⟩ : BufTy).Contents (Elt F)) (x13 : (⟨S67735x16, .f32⟩ : BufTy).Contents (Elt F)) (x14 : (⟨S67735, .f32⟩ : BufTy).Contents (Elt F)) (x15 : (⟨S16x1024, .f32⟩ : BufTy).Contents (Elt F))
    (h_main_v71 : W (Proc.devRef .tc main_v71) = val_main_v71 (F := F) x0 x13 x14 x15)
    (h_main_v75 : W (Proc.devRef .tc main_v75) = val_main_v75 (F := F) x0 x2 x3 x4 x5 x6) :
    after ops34 W (Proc.devRef .tc main_v76) = val_main_v76 (F := F) x0 x2 x3 x4 x5 x6 x13 x14 x15 := by
  simp only [ops34]
  after_results_simp
  try dsimp only [Matrix.cons_val]
  try simp only [TRef.ofBuf, TRef.toBuf, cast_eq]
  rw [h_main_v71, h_main_v75]
  rfl

end Cert.ReferenceIdeal.RunHand

end
-- ==== Proof.RefChunk9.lean ====
import proofs.«138250_j73134703116926_1_alg».proof.Proof.RefReadP
import Idealize.ShloMosaic.Lib.StableHlo.Run

noncomputable section

namespace Cert.ReferenceIdeal.RunHand

open Cert.ReferenceIdeal Cert.ReferenceIdeal.Gen Cert.ReferenceIdeal.ReadP Idealize.ShloMosaic Idealize.ShloMosaic.TcCoe Idealize.SL.Sem
  Idealize.ShloMosaic.StableHlo

variable {F : FTy → Type} [FloatOps F]

attribute [local irreducible] Host.reduce Host.reduceAdd Host.gather concatenate broadcastInDim shapeCast extractStridedSlice addf subf maximumf Host.exp Host.log select cmpi andi addi subi maxsi minsi constant constantI Host.negf Host.divf

abbrev ops35 : List (HloOp τ sig (Elt F)) :=
  [ nullary main_c_13 (constantI S_ 32 200000#32),
    unary main_c_13 main_v77 (broadcastInDim S64x8 ![] bcast_S_S64x8 : (⟨S_, .i32⟩ : BufTy).Contents (Elt F) → (⟨S64x8, .i32⟩ : BufTy).Contents (Elt F)),
    binary main_arg1 main_v77 main_v78 (cmpi .sge : (⟨S64x8, .i32⟩ : BufTy).Contents (Elt F) → (⟨S64x8, .i32⟩ : BufTy).Contents (Elt F) → (⟨S64x8, .i1⟩ : BufTy).Contents (Elt F)),
    nullary main_c_14 (constantI S_ 32 267735#32),
    unary main_c_14 main_v79 (broadcastInDim S64x8 ![] bcast_S_S64x8 : (⟨S_, .i32⟩ : BufTy).Contents (Elt F) → (⟨S64x8, .i32⟩ : BufTy).Contents (Elt F)),
    binary main_arg1 main_v79 main_v80 (cmpi .slt : (⟨S64x8, .i32⟩ : BufTy).Contents (Elt F) → (⟨S64x8, .i32⟩ : BufTy).Contents (Elt F) → (⟨S64x8, .i1⟩ : BufTy).Contents (Elt F)),
    binary main_v78 main_v80 main_v81 (andi : (⟨S64x8, .i1⟩ : BufTy).Contents (Elt F) → (⟨S64x8, .i1⟩ : BufTy).Contents (Elt F) → (⟨S64x8, .i1⟩ : BufTy).Contents (Elt F)),
    nullary main_c_15 (constantI S_ 32 200000#32) ]

set_option maxRecDepth 8192 in
theorem ops35_sub : (ops35 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., nullary_bufs_sub ..⟩

set_option maxRecDepth 8192 in
theorem ops35_fresh : ∀ op ∈ (ops35 : List (HloOp τ sig (Elt F))), op.fresh = ∅ := by
  intro _ h; (repeat (cases h with | head => rfl | tail _ h => ?_)); exact nomatch h

abbrev ops35_W : List (Ref sig .tc) := [main_c_13, main_v77, main_v78, main_c_14, main_v79, main_v80, main_v81, main_c_15]

set_option maxRecDepth 8192 in
theorem ops35_writes : (ops35 : List (HloOp τ sig (Elt F))).Forall fun op =>
    op.writes ⊆ (ops35_W.map (Proc.devRef (τ := τ) .tc)).toFinset := by
  simp only [List.Forall]
  refine ⟨?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem ops35_keep (W : Valuation τ sig (Elt F)) (r : Ref sig .tc) (h : r ∉ ops35_W) :
    after ops35 W (Proc.devRef .tc r) = W (Proc.devRef .tc r) :=
  after_of_writes_sub ops35 W ops35_writes h

set_option maxRecDepth 8192 in
set_option maxHeartbeats 1000000 in

theorem after35_main_v81 (W : Valuation τ sig (Elt F)) (x1 : (⟨S64x8, .i32⟩ : BufTy).Contents (Elt F))
    (h_main_arg1 : W (Proc.devRef .tc main_arg1) = x1) :
    after ops35 W (Proc.devRef .tc main_v81) = val_main_v81 (F := F) x1 := by
  simp only [ops35]
  after_results_simp
  try dsimp only [Matrix.cons_val]
  try simp only [TRef.ofBuf, TRef.toBuf, cast_eq]
  rw [h_main_arg1]
  rfl

set_option maxRecDepth 8192 in
set_option maxHeartbeats 1000000 in

theorem after35_main_c_15 (W : Valuation τ sig (Elt F))
     :
    after ops35 W (Proc.devRef .tc main_c_15) = val_main_c_15 (F := F) := by
  simp only [ops35]
  after_results_simp
  try dsimp only [Matrix.cons_val]
  try simp only [TRef.ofBuf, TRef.toBuf, cast_eq]
  rw []
  rfl

abbrev ops36 : List (HloOp τ sig (Elt F)) :=
  [ unary main_c_15 main_v82 (broadcastInDim S64x8 ![] bcast_S_S64x8 : (⟨S_, .i32⟩ : BufTy).Contents (Elt F) → (⟨S64x8, .i32⟩ : BufTy).Contents (Elt F)),
    binary main_arg1 main_v82 main_v83 (subi : (⟨S64x8, .i32⟩ : BufTy).Contents (Elt F) → (⟨S64x8, .i32⟩ : BufTy).Contents (Elt F) → (⟨S64x8, .i32⟩ : BufTy).Contents (Elt F)),
    nullary main_c_16 (constantI S_ 32 0#32),
    nullary main_c_17 (constantI S_ 32 67734#32),
    TRef.unary (TRef.of (T := ⟨S_, .i32⟩) main_c_16) (TRef.of (T := ⟨S_, .i32⟩) main_call13_v0) id,
    TRef.unary (TRef.of (T := ⟨S_, .i32⟩) main_call13_v0) (TRef.of (T := ⟨S64x8, .i32⟩) main_call13_v1) (broadcastInDim S64x8 ![] bcast_S_S64x8),
    TRef.binary (TRef.of (T := ⟨S64x8, .i32⟩) main_call13_v1) (TRef.of (T := ⟨S64x8, .i32⟩) main_v83) (TRef.of (T := ⟨S64x8, .i32⟩) main_call13_v2) maxsi,
    TRef.unary (TRef.of (T := ⟨S_, .i32⟩) main_c_17) (TRef.of (T := ⟨S_, .i32⟩) main_call13_v3) id ]

set_option maxRecDepth 8192 in
theorem ops36_sub : (ops36 : List (HloOp τ sig (Elt F))).Forall fun op => op.bufs ⊆ tcRefs τ sig :=
  ⟨unary_bufs_sub .., binary_bufs_sub .., nullary_bufs_sub .., nullary_bufs_sub .., unary_bufs_sub .., unary_bufs_sub .., binary_bufs_sub .., unary_bufs_sub ..⟩

set_option maxRecDepth 8192 in
theorem ops36_fresh : ∀ op ∈ (ops36 : List (HloOp τ sig (Elt F))), op.fresh = ∅ := by
  intro _ h; (repeat (cases h with | head => rfl | tail _ h => ?_)); exact nomatch h

abbrev ops36_W : List (Ref sig .tc) := [main_v82, main_v83, main_c_16, main_c_17, main_call13_v0, main_call13_v1, main_call13_v2, main_call13_v3]

set_option maxRecDepth 8192 in
theorem ops36_writes : (ops36 : List (HloOp τ sig (Elt F))).Forall fun op =>
    op.writes ⊆ (ops36_W.map (Proc.devRef (τ := τ) .tc)).toFinset := by
  simp only [List.Forall]
  refine ⟨?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem ops36_keep (W : Valuation τ sig (Elt F)) (r : Ref sig .tc) (h : r ∉ ops36_W) :
    after ops36 W (Proc.devRef .tc r) = W (Proc.devRef .tc r) :=
  after_of_writes_sub ops36 W ops36_writes h

set_option maxRecDepth 8192 in
set_option maxHeartbeats 1000000 in

theorem after36_main_call13_v2 (W : Valuation τ sig (Elt F)) (x1 : (⟨S64x8, .i32⟩ : BufTy).Contents (Elt F))
    (h_main_arg1 : W (Proc.devRef .tc main_arg1) = x1)
    (h_main_c_15 : W (Proc.devRef .tc main_c_15) = val_main_c_15 (F := F)) :
    after ops36 W (Proc.devRef .tc main_call13_v2) = val_main_call13_v2 (F := F) x1 := by
  simp only [ops36]
  after_results_simp
  try dsimp only [Matrix.cons_val]
  try simp only [TRef.ofBuf, TRef.toBuf, cast_eq]
  rw [h_main_arg1, h_main_c_15]
  rfl

set_option maxRecDepth 8192 in
set_option maxHeartbeats 1000000 in

theorem after36_main_call13_v3 (W : Valuation τ sig (Elt F))
     :
    after ops36 W (Proc.devRef .tc main_call13_v3) = val_main_call13_v3 (F := F) := by
  simp only [ops36]
  after_results_simp
  try dsimp only [Matrix.cons_val]
  try simp only [TRef.ofBuf, TRef.toBuf, cast_eq]
  rw []
  rfl

abbrev ops37 : List (HloOp τ sig (Elt F)) :=
  [ TRef.unary (TRef.of (T := ⟨S_, .i32⟩) main_call13_v3) (TRef.of (T := ⟨S64x8, .i32⟩) main_call13_v4) (broadcastInDim S64x8 ![] bcast_S_S64x8),
    TRef.binary (TRef.of (T := ⟨S64x8, .i32⟩) main_call13_v4) (TRef.of (T := ⟨S64x8, .i32⟩) main_call13_v2) (TRef.of (T := ⟨S64x8, .i32⟩) main_v84) minsi,
    unary main_v84 main_v85 (broadcastInDim S64x8x1 ![0, 1] bcast_S64x8_S64x8x1_0_1 : (⟨S64x8, .i32⟩ : BufTy).Contents (Elt F) → (⟨S64x8x1, .i32⟩ : BufTy).Contents (Elt F)),
    TRef.nullary (TRef.of (T := ⟨S_, .i32⟩) main_call14_c) (constantI S_ 32 0#32),
    TRef.unary (TRef.of (T := ⟨S_, .i32⟩) main_call14_c) (TRef.of (T := ⟨S64x8x1, .i32⟩) main_call14_v0) (broadcastInDim S64x8x1 ![] bcast_S_S64x8x1),
    TRef.binary (TRef.of (T := ⟨S64x8x1, .i32⟩) main_v85) (TRef.of (T := ⟨S64x8x1, .i32⟩) main_call14_v0) (TRef.of (T := ⟨S64x8x1, .i1⟩) main_call14_v1) (cmpi .slt),
    TRef.nullary (TRef.of (T := ⟨S_, .i32⟩) main_call14_c_0) (constantI S_ 32 67735#32),
    TRef.unary (TRef.of (T := ⟨S_, .i32⟩) main_call14_c_0) (TRef.of (T := ⟨S64x8x1, .i32⟩) main_call14_v2) (broadcastInDim S64x8x1 ![] bcast_S_S64x8x1) ]

set_option maxRecDepth 8192 in
theorem ops37_sub : (ops37 : List (HloOp τ sig (Elt F))).Forall fun op => op.bufs ⊆ tcRefs τ sig :=
  ⟨unary_bufs_sub .., binary_bufs_sub .., unary_bufs_sub .., nullary_bufs_sub .., unary_bufs_sub .., binary_bufs_sub .., nullary_bufs_sub .., unary_bufs_sub ..⟩

set_option maxRecDepth 8192 in
theorem ops37_fresh : ∀ op ∈ (ops37 : List (HloOp τ sig (Elt F))), op.fresh = ∅ := by
  intro _ h; (repeat (cases h with | head => rfl | tail _ h => ?_)); exact nomatch h

abbrev ops37_W : List (Ref sig .tc) := [main_call13_v4, main_v84, main_v85, main_call14_c, main_call14_v0, main_call14_v1, main_call14_c_0, main_call14_v2]

set_option maxRecDepth 8192 in
theorem ops37_writes : (ops37 : List (HloOp τ sig (Elt F))).Forall fun op =>
    op.writes ⊆ (ops37_W.map (Proc.devRef (τ := τ) .tc)).toFinset := by
  simp only [List.Forall]
  refine ⟨?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem ops37_keep (W : Valuation τ sig (Elt F)) (r : Ref sig .tc) (h : r ∉ ops37_W) :
    after ops37 W (Proc.devRef .tc r) = W (Proc.devRef .tc r) :=
  after_of_writes_sub ops37 W ops37_writes h

set_option maxRecDepth 8192 in
set_option maxHeartbeats 1000000 in

theorem after37_main_v85 (W : Valuation τ sig (Elt F)) (x1 : (⟨S64x8, .i32⟩ : BufTy).Contents (Elt F))
    (h_main_call13_v2 : W (Proc.devRef .tc main_call13_v2) = val_main_call13_v2 (F := F) x1)
    (h_main_call13_v3 : W (Proc.devRef .tc main_call13_v3) = val_main_call13_v3 (F := F)) :
    after ops37 W (Proc.devRef .tc main_v85) = val_main_v85 (F := F) x1 := by
  simp only [ops37]
  after_results_simp
  try dsimp only [Matrix.cons_val]
  try simp only [TRef.ofBuf, TRef.toBuf, cast_eq]
  rw [h_main_call13_v2, h_main_call13_v3]
  rfl

set_option maxRecDepth 8192 in
set_option maxHeartbeats 1000000 in

theorem after37_main_call14_v1 (W : Valuation τ sig (Elt F)) (x1 : (⟨S64x8, .i32⟩ : BufTy).Contents (Elt F))
    (h_main_call13_v2 : W (Proc.devRef .tc main_call13_v2) = val_main_call13_v2 (F := F) x1)
    (h_main_call13_v3 : W (Proc.devRef .tc main_call13_v3) = val_main_call13_v3 (F := F)) :
    after ops37 W (Proc.devRef .tc main_call14_v1) = val_main_call14_v1 (F := F) x1 := by
  simp only [ops37]
  after_results_simp
  try dsimp only [Matrix.cons_val]
  try simp only [TRef.ofBuf, TRef.toBuf, cast_eq]
  rw [h_main_call13_v2, h_main_call13_v3]
  rfl

set_option maxRecDepth 8192 in
set_option maxHeartbeats 1000000 in

theorem after37_main_call14_v2 (W : Valuation τ sig (Elt F))
     :
    after ops37 W (Proc.devRef .tc main_call14_v2) = val_main_call14_v2 (F := F) := by
  simp only [ops37]
  after_results_simp
  try dsimp only [Matrix.cons_val]
  try simp only [TRef.ofBuf, TRef.toBuf, cast_eq]
  rw []
  rfl

abbrev ops38 : List (HloOp τ sig (Elt F)) :=
  [ TRef.binary (TRef.of (T := ⟨S64x8x1, .i32⟩) main_v85) (TRef.of (T := ⟨S64x8x1, .i32⟩) main_call14_v2) (TRef.of (T := ⟨S64x8x1, .i32⟩) main_call14_v3) addi,
    TRef.ternary (TRef.of (T := ⟨S64x8x1, .i1⟩) main_call14_v1) (TRef.of (T := ⟨S64x8x1, .i32⟩) main_call14_v3) (TRef.of (T := ⟨S64x8x1, .i32⟩) main_v85) (TRef.of (T := ⟨S64x8x1, .i32⟩) main_call14_v4) select,
    TRef.reshape (TRef.of (T := ⟨S64x8x1, .i32⟩) main_call14_v4) (TRef.of (T := ⟨S64x8x1x1, .i32⟩) main_call14_v5) rfl shapeCasts_S64x8x1_S64x8x1x1,
    TRef.nullary (TRef.of (T := ⟨S1, .i32⟩) main_call14_c_1) (constantI S1 32 67734#32),
    TRef.nullary (TRef.of (T := ⟨S_, .i32⟩) main_call14_c_2) (constantI S_ 32 0#32),
    TRef.unary (TRef.of (T := ⟨S_, .i32⟩) main_call14_c_2) (TRef.of (T := ⟨S64x8x1x1, .i32⟩) main_call14_v6) (broadcastInDim S64x8x1x1 ![] bcast_S_S64x8x1x1),
    TRef.binary (TRef.of (T := ⟨S64x8x1x1, .i32⟩) main_call14_v5) (TRef.of (T := ⟨S64x8x1x1, .i32⟩) main_call14_v6) (TRef.of (T := ⟨S64x8x1x1, .i1⟩) main_call14_v7) (cmpi .sge),
    TRef.unary (TRef.of (T := ⟨S1, .i32⟩) main_call14_c_1) (TRef.of (T := ⟨S1x1x1x1, .i32⟩) main_call14_v8) (broadcastInDim S1x1x1x1 ![3] bcast_S1_S1x1x1x1_3) ]

set_option maxRecDepth 8192 in
theorem ops38_sub : (ops38 : List (HloOp τ sig (Elt F))).Forall fun op => op.bufs ⊆ tcRefs τ sig :=
  ⟨binary_bufs_sub .., ternary_bufs_sub .., reshape_bufs_sub .., nullary_bufs_sub .., nullary_bufs_sub .., unary_bufs_sub .., binary_bufs_sub .., unary_bufs_sub ..⟩

set_option maxRecDepth 8192 in
theorem ops38_fresh : ∀ op ∈ (ops38 : List (HloOp τ sig (Elt F))), op.fresh = ∅ := by
  intro _ h; (repeat (cases h with | head => rfl | tail _ h => ?_)); exact nomatch h

abbrev ops38_W : List (Ref sig .tc) := [main_call14_v3, main_call14_v4, main_call14_v5, main_call14_c_1, main_call14_c_2, main_call14_v6, main_call14_v7, main_call14_v8]

set_option maxRecDepth 8192 in
theorem ops38_writes : (ops38 : List (HloOp τ sig (Elt F))).Forall fun op =>
    op.writes ⊆ (ops38_W.map (Proc.devRef (τ := τ) .tc)).toFinset := by
  simp only [List.Forall]
  refine ⟨?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem ops38_keep (W : Valuation τ sig (Elt F)) (r : Ref sig .tc) (h : r ∉ ops38_W) :
    after ops38 W (Proc.devRef .tc r) = W (Proc.devRef .tc r) :=
  after_of_writes_sub ops38 W ops38_writes h

set_option maxRecDepth 8192 in
set_option maxHeartbeats 1000000 in

theorem after38_main_call14_v5 (W : Valuation τ sig (Elt F)) (x1 : (⟨S64x8, .i32⟩ : BufTy).Contents (Elt F))
    (h_main_v85 : W (Proc.devRef .tc main_v85) = val_main_v85 (F := F) x1)
    (h_main_call14_v1 : W (Proc.devRef .tc main_call14_v1) = val_main_call14_v1 (F := F) x1)
    (h_main_call14_v2 : W (Proc.devRef .tc main_call14_v2) = val_main_call14_v2 (F := F)) :
    after ops38 W (Proc.devRef .tc main_call14_v5) = val_main_call14_v5 (F := F) x1 := by
  simp only [ops38]
  after_results_simp
  try dsimp only [Matrix.cons_val]
  try simp only [TRef.ofBuf, TRef.toBuf, cast_eq]
  rw [h_main_v85, h_main_call14_v1, h_main_call14_v2]
  rfl

set_option maxRecDepth 8192 in
set_option maxHeartbeats 1000000 in

theorem after38_main_call14_v7 (W : Valuation τ sig (Elt F)) (x1 : (⟨S64x8, .i32⟩ : BufTy).Contents (Elt F))
    (h_main_v85 : W (Proc.devRef .tc main_v85) = val_main_v85 (F := F) x1)
    (h_main_call14_v1 : W (Proc.devRef .tc main_call14_v1) = val_main_call14_v1 (F := F) x1)
    (h_main_call14_v2 : W (Proc.devRef .tc main_call14_v2) = val_main_call14_v2 (F := F)) :
    after ops38 W (Proc.devRef .tc main_call14_v7) = val_main_call14_v7 (F := F) x1 := by
  simp only [ops38]
  after_results_simp
  try dsimp only [Matrix.cons_val]
  try simp only [TRef.ofBuf, TRef.toBuf, cast_eq]
  rw [h_main_v85, h_main_call14_v1, h_main_call14_v2]
  rfl

set_option maxRecDepth 8192 in
set_option maxHeartbeats 1000000 in

theorem after38_main_call14_v8 (W : Valuation τ sig (Elt F))
     :
    after ops38 W (Proc.devRef .tc main_call14_v8) = val_main_call14_v8 (F := F) := by
  simp only [ops38]
  after_results_simp
  try dsimp only [Matrix.cons_val]
  try simp only [TRef.ofBuf, TRef.toBuf, cast_eq]
  rw []
  rfl

abbrev ops39 : List (HloOp τ sig (Elt F)) :=
  [ TRef.unary (TRef.of (T := ⟨S1x1x1x1, .i32⟩) main_call14_v8) (TRef.of (T := ⟨S64x8x1x1, .i32⟩) main_call14_v9) (broadcastInDim S64x8x1x1 ![0, 1, 2, 3] bcast_S1x1x1x1_S64x8x1x1_0_1_2_3),
    TRef.binary (TRef.of (T := ⟨S64x8x1x1, .i32⟩) main_call14_v5) (TRef.of (T := ⟨S64x8x1x1, .i32⟩) main_call14_v9) (TRef.of (T := ⟨S64x8x1x1, .i1⟩) main_call14_v10) (cmpi .sle),
    TRef.binary (TRef.of (T := ⟨S64x8x1x1, .i1⟩) main_call14_v7) (TRef.of (T := ⟨S64x8x1x1, .i1⟩) main_call14_v10) (TRef.of (T := ⟨S64x8x1x1, .i1⟩) main_call14_v11) andi,
    TRef.nullary (TRef.of (T := ⟨S_, .i1⟩) main_call14_c_3) (constantI S_ 1 1#1),
    TRef.binary (TRef.of (T := ⟨S64x8x1x1, .i1⟩) main_call14_v11) (TRef.of (T := ⟨S_, .i1⟩) main_call14_c_3) (TRef.of (T := ⟨S64x8x1, .i1⟩) main_call14_v12) (fun x v => Host.reduce IntOp.andi x v reducesTo_S64x8x1x1_S64x8x1_d3 h_S_),
    TRef.binary (TRef.of (T := ⟨S64x8x67735, .f32⟩) main_v76) (TRef.of (T := ⟨S64x8x1x1, .i32⟩) main_call14_v5) (TRef.of (T := ⟨S64x8x1, .f32⟩) main_call14_v13) (fun x i => Host.gather gather_S64x8x67735_S64x8x1x1_S64x8x1_n_2_01_01_2_3_111 x i),
    TRef.nullary (TRef.of (T := ⟨S_, .f32⟩) main_call14_cst) (constant S_ .f32 0x7FC00000#32),
    TRef.unary (TRef.of (T := ⟨S_, .f32⟩) main_call14_cst) (TRef.of (T := ⟨S64x8x1, .f32⟩) main_call14_v14) (broadcastInDim S64x8x1 ![] bcast_S_S64x8x1) ]

set_option maxRecDepth 8192 in
theorem ops39_sub : (ops39 : List (HloOp τ sig (Elt F))).Forall fun op => op.bufs ⊆ tcRefs τ sig :=
  ⟨unary_bufs_sub .., binary_bufs_sub .., binary_bufs_sub .., nullary_bufs_sub .., binary_bufs_sub .., binary_bufs_sub .., nullary_bufs_sub .., unary_bufs_sub ..⟩

set_option maxRecDepth 8192 in
theorem ops39_fresh : ∀ op ∈ (ops39 : List (HloOp τ sig (Elt F))), op.fresh = ∅ := by
  intro _ h; (repeat (cases h with | head => rfl | tail _ h => ?_)); exact nomatch h

abbrev ops39_W : List (Ref sig .tc) := [main_call14_v9, main_call14_v10, main_call14_v11, main_call14_c_3, main_call14_v12, main_call14_v13, main_call14_cst, main_call14_v14]

set_option maxRecDepth 8192 in
theorem ops39_writes : (ops39 : List (HloOp τ sig (Elt F))).Forall fun op =>
    op.writes ⊆ (ops39_W.map (Proc.devRef (τ := τ) .tc)).toFinset := by
  simp only [List.Forall]
  refine ⟨?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem ops39_keep (W : Valuation τ sig (Elt F)) (r : Ref sig .tc) (h : r ∉ ops39_W) :
    after ops39 W (Proc.devRef .tc r) = W (Proc.devRef .tc r) :=
  after_of_writes_sub ops39 W ops39_writes h

set_option maxRecDepth 8192 in
set_option maxHeartbeats 1000000 in

theorem after39_main_call14_v12 (W : Valuation τ sig (Elt F)) (x1 : (⟨S64x8, .i32⟩ : BufTy).Contents (Elt F))
    (h_main_call14_v5 : W (Proc.devRef .tc main_call14_v5) = val_main_call14_v5 (F := F) x1)
    (h_main_call14_v7 : W (Proc.devRef .tc main_call14_v7) = val_main_call14_v7 (F := F) x1)
    (h_main_call14_v8 : W (Proc.devRef .tc main_call14_v8) = val_main_call14_v8 (F := F)) :
    after ops39 W (Proc.devRef .tc main_call14_v12) = val_main_call14_v12 (F := F) x1 := by
  simp only [ops39]
  after_results_simp
  try dsimp only [Matrix.cons_val]
  try simp only [TRef.ofBuf, TRef.toBuf, cast_eq]
  rw [h_main_call14_v5, h_main_call14_v7, h_main_call14_v8]
  rfl

set_option maxRecDepth 8192 in
set_option maxHeartbeats 1000000 in

theorem after39_main_call14_v13 (W : Valuation τ sig (Elt F)) (x0 : (⟨S64x8x1024, .f32⟩ : BufTy).Contents (Elt F)) (x1 : (⟨S64x8, .i32⟩ : BufTy).Contents (Elt F)) (x2 : (⟨S3x1024, .f32⟩ : BufTy).Contents (Elt F)) (x3 : (⟨S3, .f32⟩ : BufTy).Contents (Elt F)) (x4 : (⟨S20000x1024, .f32⟩ : BufTy).Contents (Elt F)) (x5 : (⟨S20000, .f32⟩ : BufTy).Contents (Elt F)) (x6 : (⟨S1024x1024, .f32⟩ : BufTy).Contents (Elt F)) (x13 : (⟨S67735x16, .f32⟩ : BufTy).Contents (Elt F)) (x14 : (⟨S67735, .f32⟩ : BufTy).Contents (Elt F)) (x15 : (⟨S16x1024, .f32⟩ : BufTy).Contents (Elt F))
    (h_main_v76 : W (Proc.devRef .tc main_v76) = val_main_v76 (F := F) x0 x2 x3 x4 x5 x6 x13 x14 x15)
    (h_main_call14_v5 : W (Proc.devRef .tc main_call14_v5) = val_main_call14_v5 (F := F) x1) :
    after ops39 W (Proc.devRef .tc main_call14_v13) = val_main_call14_v13 (F := F) x0 x1 x2 x3 x4 x5 x6 x13 x14 x15 := by
  simp only [ops39]
  after_results_simp
  try dsimp only [Matrix.cons_val]
  try simp only [TRef.ofBuf, TRef.toBuf, cast_eq]
  rw [h_main_v76, h_main_call14_v5]
  rfl

set_option maxRecDepth 8192 in
set_option maxHeartbeats 1000000 in

theorem after39_main_call14_v14 (W : Valuation τ sig (Elt F))
     :
    after ops39 W (Proc.devRef .tc main_call14_v14) = val_main_call14_v14 (F := F) := by
  simp only [ops39]
  after_results_simp
  try dsimp only [Matrix.cons_val]
  try simp only [TRef.ofBuf, TRef.toBuf, cast_eq]
  rw []
  rfl

abbrev ops40 : List (HloOp τ sig (Elt F)) :=
  [ TRef.ternary (TRef.of (T := ⟨S64x8x1, .i1⟩) main_call14_v12) (TRef.of (T := ⟨S64x8x1, .f32⟩) main_call14_v13) (TRef.of (T := ⟨S64x8x1, .f32⟩) main_call14_v14) (TRef.of (T := ⟨S64x8x1, .f32⟩) main_v86) select,
    reshape main_v86 main_v87 rfl shapeCasts_S64x8x1_S64x8,
    TRef.ternary (TRef.of (T := ⟨S64x8, .i1⟩) main_v81) (TRef.of (T := ⟨S64x8, .f32⟩) main_v87) (TRef.of (T := ⟨S64x8, .f32⟩) main_v65) (TRef.of (T := ⟨S64x8, .f32⟩) main_v88) select ]

set_option maxRecDepth 8192 in
theorem ops40_sub : (ops40 : List (HloOp τ sig (Elt F))).Forall fun op => op.bufs ⊆ tcRefs τ sig :=
  ⟨ternary_bufs_sub .., reshape_bufs_sub .., ternary_bufs_sub ..⟩

set_option maxRecDepth 8192 in
theorem ops40_fresh : ∀ op ∈ (ops40 : List (HloOp τ sig (Elt F))), op.fresh = ∅ := by
  intro _ h; (repeat (cases h with | head => rfl | tail _ h => ?_)); exact nomatch h

abbrev ops40_W : List (Ref sig .tc) := [main_v86, main_v87, main_v88]

set_option maxRecDepth 8192 in
theorem ops40_writes : (ops40 : List (HloOp τ sig (Elt F))).Forall fun op =>
    op.writes ⊆ (ops40_W.map (Proc.devRef (τ := τ) .tc)).toFinset := by
  simp only [List.Forall]
  refine ⟨?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem ops40_keep (W : Valuation τ sig (Elt F)) (r : Ref sig .tc) (h : r ∉ ops40_W) :
    after ops40 W (Proc.devRef .tc r) = W (Proc.devRef .tc r) :=
  after_of_writes_sub ops40 W ops40_writes h

set_option maxRecDepth 8192 in
set_option maxHeartbeats 500000 in

theorem after40_main_v88 (W : Valuation τ sig (Elt F)) (x0 : (⟨S64x8x1024, .f32⟩ : BufTy).Contents (Elt F)) (x1 : (⟨S64x8, .i32⟩ : BufTy).Contents (Elt F)) (x2 : (⟨S3x1024, .f32⟩ : BufTy).Contents (Elt F)) (x3 : (⟨S3, .f32⟩ : BufTy).Contents (Elt F)) (x4 : (⟨S20000x1024, .f32⟩ : BufTy).Contents (Elt F)) (x5 : (⟨S20000, .f32⟩ : BufTy).Contents (Elt F)) (x6 : (⟨S1024x1024, .f32⟩ : BufTy).Contents (Elt F)) (x7 : (⟨S20000x256, .f32⟩ : BufTy).Contents (Elt F)) (x8 : (⟨S20000, .f32⟩ : BufTy).Contents (Elt F)) (x9 : (⟨S256x1024, .f32⟩ : BufTy).Contents (Elt F)) (x10 : (⟨S160000x64, .f32⟩ : BufTy).Contents (Elt F)) (x11 : (⟨S160000, .f32⟩ : BufTy).Contents (Elt F)) (x12 : (⟨S64x1024, .f32⟩ : BufTy).Contents (Elt F)) (x13 : (⟨S67735x16, .f32⟩ : BufTy).Contents (Elt F)) (x14 : (⟨S67735, .f32⟩ : BufTy).Contents (Elt F)) (x15 : (⟨S16x1024, .f32⟩ : BufTy).Contents (Elt F))
    (h_main_v65 : W (Proc.devRef .tc main_v65) = val_main_v65 (F := F) x0 x1 x2 x3 x4 x5 x6 x7 x8 x9 x10 x11 x12)
    (h_main_v81 : W (Proc.devRef .tc main_v81) = val_main_v81 (F := F) x1)
    (h_main_call14_v12 : W (Proc.devRef .tc main_call14_v12) = val_main_call14_v12 (F := F) x1)
    (h_main_call14_v13 : W (Proc.devRef .tc main_call14_v13) = val_main_call14_v13 (F := F) x0 x1 x2 x3 x4 x5 x6 x13 x14 x15)
    (h_main_call14_v14 : W (Proc.devRef .tc main_call14_v14) = val_main_call14_v14 (F := F)) :
    after ops40 W (Proc.devRef .tc main_v88) = val_main_v88 (F := F) x0 x1 x2 x3 x4 x5 x6 x7 x8 x9 x10 x11 x12 x13 x14 x15 := by
  simp only [ops40]
  after_results_simp
  try dsimp only [Matrix.cons_val]
  try simp only [TRef.ofBuf, TRef.toBuf, cast_eq]
  rw [h_main_v65, h_main_v81, h_main_call14_v12, h_main_call14_v13, h_main_call14_v14]
  rfl

end Cert.ReferenceIdeal.RunHand

end
-- ==== Proof.RefChunk10.lean ====
import proofs.«138250_j73134703116926_1_alg».proof.Proof.RefReadP
import Idealize.ShloMosaic.Lib.StableHlo.Run

noncomputable section

namespace Cert.ReferenceIdeal.RunHand

open Cert.ReferenceIdeal Cert.ReferenceIdeal.Gen Cert.ReferenceIdeal.ReadP Idealize.ShloMosaic Idealize.ShloMosaic.TcCoe Idealize.SL.Sem
  Idealize.ShloMosaic.StableHlo

variable {F : FTy → Type} [FloatOps F]

attribute [local irreducible] Host.reduce Host.reduceAdd Host.gather concatenate broadcastInDim shapeCast extractStridedSlice addf subf maximumf Host.exp Host.log select cmpi andi addi subi maxsi minsi constant constantI Host.negf Host.divf

abbrev ops41 : List (HloOp τ sig (Elt F)) :=
  [ nary ![main_v8, main_v30, main_v53, main_v76] main_v89 (fun u => concatenate S64x8x267735 2 [⟨S64x8x20000, u 0⟩, ⟨S64x8x20000, u 1⟩, ⟨S64x8x160000, u 2⟩, ⟨S64x8x67735, u 3⟩] concatenates_S64x8x20000_S64x8x20000_S64x8x160000_S64x8x67735_S64x8x267735_d2),
    unary main_v88 main_v90 (Host.negf : (⟨S64x8, .f32⟩ : BufTy).Contents (Elt F) → (⟨S64x8, .f32⟩ : BufTy).Contents (Elt F)),
    nullary main_cst_18 (constant S_ .f32 0x00000000#32),
    binary main_v90 main_cst_18 main_v91 ((fun x v => Host.reduceAdd x v reducesTo_S64x8_S_d0_1 h_S_) : (⟨S64x8, .f32⟩ : BufTy).Contents (Elt F) → (⟨S_, .f32⟩ : BufTy).Contents (Elt F) → (⟨S_, .f32⟩ : BufTy).Contents (Elt F)),
    nullary main_cst_19 (constant S_ .f32 0x44000000#32),
    binary main_v91 main_cst_19 main_v92 (Host.divf : (⟨S_, .f32⟩ : BufTy).Contents (Elt F) → (⟨S_, .f32⟩ : BufTy).Contents (Elt F) → (⟨S_, .f32⟩ : BufTy).Contents (Elt F)) ]

set_option maxRecDepth 8192 in
theorem ops41_sub : (ops41 : List (HloOp τ sig (Elt F))).Forall fun op => op.bufs ⊆ tcRefs τ sig :=
  ⟨nary_bufs_sub .., unary_bufs_sub .., nullary_bufs_sub .., binary_bufs_sub .., nullary_bufs_sub .., binary_bufs_sub ..⟩

set_option maxRecDepth 8192 in
theorem ops41_fresh : ∀ op ∈ (ops41 : List (HloOp τ sig (Elt F))), op.fresh = ∅ := by
  intro _ h; (repeat (cases h with | head => rfl | tail _ h => ?_)); exact nomatch h

abbrev ops41_W : List (Ref sig .tc) := [main_v89, main_v90, main_cst_18, main_v91, main_cst_19, main_v92]

set_option maxRecDepth 8192 in
theorem ops41_writes : (ops41 : List (HloOp τ sig (Elt F))).Forall fun op =>
    op.writes ⊆ (ops41_W.map (Proc.devRef (τ := τ) .tc)).toFinset := by
  simp only [List.Forall]
  refine ⟨?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))

theorem ops41_keep (W : Valuation τ sig (Elt F)) (r : Ref sig .tc) (h : r ∉ ops41_W) :
    after ops41 W (Proc.devRef .tc r) = W (Proc.devRef .tc r) :=
  after_of_writes_sub ops41 W ops41_writes h

set_option maxRecDepth 8192 in
set_option maxHeartbeats 800000 in

theorem after41_main_v89 (W : Valuation τ sig (Elt F)) (x0 : (⟨S64x8x1024, .f32⟩ : BufTy).Contents (Elt F)) (x2 : (⟨S3x1024, .f32⟩ : BufTy).Contents (Elt F)) (x3 : (⟨S3, .f32⟩ : BufTy).Contents (Elt F)) (x4 : (⟨S20000x1024, .f32⟩ : BufTy).Contents (Elt F)) (x5 : (⟨S20000, .f32⟩ : BufTy).Contents (Elt F)) (x6 : (⟨S1024x1024, .f32⟩ : BufTy).Contents (Elt F)) (x7 : (⟨S20000x256, .f32⟩ : BufTy).Contents (Elt F)) (x8 : (⟨S20000, .f32⟩ : BufTy).Contents (Elt F)) (x9 : (⟨S256x1024, .f32⟩ : BufTy).Contents (Elt F)) (x10 : (⟨S160000x64, .f32⟩ : BufTy).Contents (Elt F)) (x11 : (⟨S160000, .f32⟩ : BufTy).Contents (Elt F)) (x12 : (⟨S64x1024, .f32⟩ : BufTy).Contents (Elt F)) (x13 : (⟨S67735x16, .f32⟩ : BufTy).Contents (Elt F)) (x14 : (⟨S67735, .f32⟩ : BufTy).Contents (Elt F)) (x15 : (⟨S16x1024, .f32⟩ : BufTy).Contents (Elt F))
    (h_main_v8 : W (Proc.devRef .tc main_v8) = val_main_v8 (F := F) x0 x2 x3 x4 x5 x6)
    (h_main_v30 : W (Proc.devRef .tc main_v30) = val_main_v30 (F := F) x0 x2 x3 x4 x5 x6 x7 x8 x9)
    (h_main_v53 : W (Proc.devRef .tc main_v53) = val_main_v53 (F := F) x0 x2 x3 x4 x5 x6 x10 x11 x12)
    (h_main_v76 : W (Proc.devRef .tc main_v76) = val_main_v76 (F := F) x0 x2 x3 x4 x5 x6 x13 x14 x15) :
    after ops41 W (Proc.devRef .tc main_v89) = val_main_v89 (F := F) x0 x2 x3 x4 x5 x6 x7 x8 x9 x10 x11 x12 x13 x14 x15 := by
  simp only [ops41]
  after_results_simp
  try dsimp only [Matrix.cons_val]
  try simp only [TRef.ofBuf, TRef.toBuf, cast_eq]
  rw [h_main_v8, h_main_v30, h_main_v53, h_main_v76]
  rfl

set_option maxRecDepth 8192 in
set_option maxHeartbeats 800000 in

theorem after41_main_v92 (W : Valuation τ sig (Elt F)) (x0 : (⟨S64x8x1024, .f32⟩ : BufTy).Contents (Elt F)) (x1 : (⟨S64x8, .i32⟩ : BufTy).Contents (Elt F)) (x2 : (⟨S3x1024, .f32⟩ : BufTy).Contents (Elt F)) (x3 : (⟨S3, .f32⟩ : BufTy).Contents (Elt F)) (x4 : (⟨S20000x1024, .f32⟩ : BufTy).Contents (Elt F)) (x5 : (⟨S20000, .f32⟩ : BufTy).Contents (Elt F)) (x6 : (⟨S1024x1024, .f32⟩ : BufTy).Contents (Elt F)) (x7 : (⟨S20000x256, .f32⟩ : BufTy).Contents (Elt F)) (x8 : (⟨S20000, .f32⟩ : BufTy).Contents (Elt F)) (x9 : (⟨S256x1024, .f32⟩ : BufTy).Contents (Elt F)) (x10 : (⟨S160000x64, .f32⟩ : BufTy).Contents (Elt F)) (x11 : (⟨S160000, .f32⟩ : BufTy).Contents (Elt F)) (x12 : (⟨S64x1024, .f32⟩ : BufTy).Contents (Elt F)) (x13 : (⟨S67735x16, .f32⟩ : BufTy).Contents (Elt F)) (x14 : (⟨S67735, .f32⟩ : BufTy).Contents (Elt F)) (x15 : (⟨S16x1024, .f32⟩ : BufTy).Contents (Elt F))
    (h_main_v88 : W (Proc.devRef .tc main_v88) = val_main_v88 (F := F) x0 x1 x2 x3 x4 x5 x6 x7 x8 x9 x10 x11 x12 x13 x14 x15) :
    after ops41 W (Proc.devRef .tc main_v92) = val_main_v92 (F := F) x0 x1 x2 x3 x4 x5 x6 x7 x8 x9 x10 x11 x12 x13 x14 x15 := by
  simp only [ops41]
  after_results_simp
  try dsimp only [Matrix.cons_val]
  try simp only [TRef.ofBuf, TRef.toBuf, cast_eq]
  rw [h_main_v88]
  rfl

end Cert.ReferenceIdeal.RunHand

end
-- ==== Proof.RefRunHand.lean ====
import proofs.«138250_j73134703116926_1_alg».proof.Proof.RefChunk1
import proofs.«138250_j73134703116926_1_alg».proof.Proof.RefChunk2
import proofs.«138250_j73134703116926_1_alg».proof.Proof.RefChunk3
import proofs.«138250_j73134703116926_1_alg».proof.Proof.RefChunk4
import proofs.«138250_j73134703116926_1_alg».proof.Proof.RefChunk5
import proofs.«138250_j73134703116926_1_alg».proof.Proof.RefChunk6
import proofs.«138250_j73134703116926_1_alg».proof.Proof.RefChunk7
import proofs.«138250_j73134703116926_1_alg».proof.Proof.RefChunk8
import proofs.«138250_j73134703116926_1_alg».proof.Proof.RefChunk9
import proofs.«138250_j73134703116926_1_alg».proof.Proof.RefChunk10

noncomputable section

namespace Cert.ReferenceIdeal.RunHand

open Cert.ReferenceIdeal Cert.ReferenceIdeal.Gen Cert.ReferenceIdeal.ReadP Idealize.ShloMosaic Idealize.ShloMosaic.TcCoe Idealize.SL.Sem
  Idealize.ShloMosaic.StableHlo

variable {F : FTy → Type} [FloatOps F]

theorem forall_append {α : Type} {p : α → Prop} {l₁ l₂ : List α} (h₁ : l₁.Forall p) (h₂ : l₂.Forall p) : (l₁ ++ l₂).Forall p :=
  List.forall_iff_forall_mem.mpr fun a h =>
    (List.mem_append.mp h).elim (List.forall_iff_forall_mem.mp h₁ a) (List.forall_iff_forall_mem.mp h₂ a)

theorem mem_append_all {α : Type} {p : α → Prop} {l₁ l₂ : List α} (h₁ : ∀ a ∈ l₁, p a) (h₂ : ∀ a ∈ l₂, p a) : ∀ a ∈ l₁ ++ l₂, p a :=
  fun a h => (List.mem_append.mp h).elim (h₁ a) (h₂ a)

abbrev opsA : List (HloOp τ sig (Elt F)) := ops1 ++ (ops2 ++ (ops3 ++ (ops4 ++ (ops5 ++ (ops6 ++ (ops7 ++ (ops8 ++ (ops9 ++ (ops10 ++ (ops11 ++ (ops12 ++ (ops13 ++ (ops14 ++ (ops15 ++ (ops16 ++ (ops17 ++ (ops18 ++ (ops19 ++ (ops20 ++ (ops21 ++ (ops22 ++ (ops23))))))))))))))))))))))

abbrev opsB : List (HloOp τ sig (Elt F)) := ops24 ++ (ops25 ++ (ops26 ++ (ops27 ++ (ops28 ++ (ops29 ++ (ops30 ++ (ops31 ++ (ops32 ++ (ops33 ++ (ops34 ++ (ops35 ++ (ops36 ++ (ops37 ++ (ops38 ++ (ops39 ++ (ops40 ++ (ops41)))))))))))))))))

abbrev ops : List (HloOp τ sig (Elt F)) := opsA ++ opsB

set_option maxRecDepth 8192 in
set_option maxHeartbeats 4000000 in
theorem main_part0_eq (c : Dev nD) : main_part0 (F := F) c = seq opsA := rfl
set_option maxRecDepth 8192 in
set_option maxHeartbeats 4000000 in
theorem main_part1_eq (c : Dev nD) : main_part1 (F := F) c = seq opsB := rfl
theorem main_eq (c : Dev nD) : main (F := F) c = seq ops := by
  show main (F := F) c = seq (opsA ++ opsB)
  rw [seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_append (forall_append ops1_sub (forall_append ops2_sub (forall_append ops3_sub (forall_append ops4_sub (forall_append ops5_sub (forall_append ops6_sub (forall_append ops7_sub (forall_append ops8_sub (forall_append ops9_sub (forall_append ops10_sub (forall_append ops11_sub (forall_append ops12_sub (forall_append ops13_sub (forall_append ops14_sub (forall_append ops15_sub (forall_append ops16_sub (forall_append ops17_sub (forall_append ops18_sub (forall_append ops19_sub (forall_append ops20_sub (forall_append ops21_sub (forall_append ops22_sub (ops23_sub))))))))))))))))))))))) (forall_append ops24_sub (forall_append ops25_sub (forall_append ops26_sub (forall_append ops27_sub (forall_append ops28_sub (forall_append ops29_sub (forall_append ops30_sub (forall_append ops31_sub (forall_append ops32_sub (forall_append ops33_sub (forall_append ops34_sub (forall_append ops35_sub (forall_append ops36_sub (forall_append ops37_sub (forall_append ops38_sub (forall_append ops39_sub (forall_append ops40_sub (ops41_sub))))))))))))))))))

theorem ops_fresh : ∀ op ∈ (ops : List (HloOp τ sig (Elt F))), op.fresh = ∅ :=
  mem_append_all (mem_append_all ops1_fresh (mem_append_all ops2_fresh (mem_append_all ops3_fresh (mem_append_all ops4_fresh (mem_append_all ops5_fresh (mem_append_all ops6_fresh (mem_append_all ops7_fresh (mem_append_all ops8_fresh (mem_append_all ops9_fresh (mem_append_all ops10_fresh (mem_append_all ops11_fresh (mem_append_all ops12_fresh (mem_append_all ops13_fresh (mem_append_all ops14_fresh (mem_append_all ops15_fresh (mem_append_all ops16_fresh (mem_append_all ops17_fresh (mem_append_all ops18_fresh (mem_append_all ops19_fresh (mem_append_all ops20_fresh (mem_append_all ops21_fresh (mem_append_all ops22_fresh (ops23_fresh))))))))))))))))))))))) (mem_append_all ops24_fresh (mem_append_all ops25_fresh (mem_append_all ops26_fresh (mem_append_all ops27_fresh (mem_append_all ops28_fresh (mem_append_all ops29_fresh (mem_append_all ops30_fresh (mem_append_all ops31_fresh (mem_append_all ops32_fresh (mem_append_all ops33_fresh (mem_append_all ops34_fresh (mem_append_all ops35_fresh (mem_append_all ops36_fresh (mem_append_all ops37_fresh (mem_append_all ops38_fresh (mem_append_all ops39_fresh (mem_append_all ops40_fresh (ops41_fresh))))))))))))))))))

def W0 (V0 : Valuation τ sig (Elt F)) : Valuation τ sig (Elt F) := V0

def W1 (V0 : Valuation τ sig (Elt F)) : Valuation τ sig (Elt F) := after ops1 (W0 V0)

def W2 (V0 : Valuation τ sig (Elt F)) : Valuation τ sig (Elt F) := after ops2 (W1 V0)

def W3 (V0 : Valuation τ sig (Elt F)) : Valuation τ sig (Elt F) := after ops3 (W2 V0)

def W4 (V0 : Valuation τ sig (Elt F)) : Valuation τ sig (Elt F) := after ops4 (W3 V0)

def W5 (V0 : Valuation τ sig (Elt F)) : Valuation τ sig (Elt F) := after ops5 (W4 V0)

def W6 (V0 : Valuation τ sig (Elt F)) : Valuation τ sig (Elt F) := after ops6 (W5 V0)

def W7 (V0 : Valuation τ sig (Elt F)) : Valuation τ sig (Elt F) := after ops7 (W6 V0)

def W8 (V0 : Valuation τ sig (Elt F)) : Valuation τ sig (Elt F) := after ops8 (W7 V0)

def W9 (V0 : Valuation τ sig (Elt F)) : Valuation τ sig (Elt F) := after ops9 (W8 V0)

def W10 (V0 : Valuation τ sig (Elt F)) : Valuation τ sig (Elt F) := after ops10 (W9 V0)

def W11 (V0 : Valuation τ sig (Elt F)) : Valuation τ sig (Elt F) := after ops11 (W10 V0)

def W12 (V0 : Valuation τ sig (Elt F)) : Valuation τ sig (Elt F) := after ops12 (W11 V0)

def W13 (V0 : Valuation τ sig (Elt F)) : Valuation τ sig (Elt F) := after ops13 (W12 V0)

def W14 (V0 : Valuation τ sig (Elt F)) : Valuation τ sig (Elt F) := after ops14 (W13 V0)

def W15 (V0 : Valuation τ sig (Elt F)) : Valuation τ sig (Elt F) := after ops15 (W14 V0)

def W16 (V0 : Valuation τ sig (Elt F)) : Valuation τ sig (Elt F) := after ops16 (W15 V0)

def W17 (V0 : Valuation τ sig (Elt F)) : Valuation τ sig (Elt F) := after ops17 (W16 V0)

def W18 (V0 : Valuation τ sig (Elt F)) : Valuation τ sig (Elt F) := after ops18 (W17 V0)

def W19 (V0 : Valuation τ sig (Elt F)) : Valuation τ sig (Elt F) := after ops19 (W18 V0)

def W20 (V0 : Valuation τ sig (Elt F)) : Valuation τ sig (Elt F) := after ops20 (W19 V0)

def W21 (V0 : Valuation τ sig (Elt F)) : Valuation τ sig (Elt F) := after ops21 (W20 V0)

def W22 (V0 : Valuation τ sig (Elt F)) : Valuation τ sig (Elt F) := after ops22 (W21 V0)

def W23 (V0 : Valuation τ sig (Elt F)) : Valuation τ sig (Elt F) := after ops23 (W22 V0)

def W24 (V0 : Valuation τ sig (Elt F)) : Valuation τ sig (Elt F) := after ops24 (W23 V0)

def W25 (V0 : Valuation τ sig (Elt F)) : Valuation τ sig (Elt F) := after ops25 (W24 V0)

def W26 (V0 : Valuation τ sig (Elt F)) : Valuation τ sig (Elt F) := after ops26 (W25 V0)

def W27 (V0 : Valuation τ sig (Elt F)) : Valuation τ sig (Elt F) := after ops27 (W26 V0)

def W28 (V0 : Valuation τ sig (Elt F)) : Valuation τ sig (Elt F) := after ops28 (W27 V0)

def W29 (V0 : Valuation τ sig (Elt F)) : Valuation τ sig (Elt F) := after ops29 (W28 V0)

def W30 (V0 : Valuation τ sig (Elt F)) : Valuation τ sig (Elt F) := after ops30 (W29 V0)

def W31 (V0 : Valuation τ sig (Elt F)) : Valuation τ sig (Elt F) := after ops31 (W30 V0)

def W32 (V0 : Valuation τ sig (Elt F)) : Valuation τ sig (Elt F) := after ops32 (W31 V0)

def W33 (V0 : Valuation τ sig (Elt F)) : Valuation τ sig (Elt F) := after ops33 (W32 V0)

def W34 (V0 : Valuation τ sig (Elt F)) : Valuation τ sig (Elt F) := after ops34 (W33 V0)

def W35 (V0 : Valuation τ sig (Elt F)) : Valuation τ sig (Elt F) := after ops35 (W34 V0)

def W36 (V0 : Valuation τ sig (Elt F)) : Valuation τ sig (Elt F) := after ops36 (W35 V0)

def W37 (V0 : Valuation τ sig (Elt F)) : Valuation τ sig (Elt F) := after ops37 (W36 V0)

def W38 (V0 : Valuation τ sig (Elt F)) : Valuation τ sig (Elt F) := after ops38 (W37 V0)

def W39 (V0 : Valuation τ sig (Elt F)) : Valuation τ sig (Elt F) := after ops39 (W38 V0)

def W40 (V0 : Valuation τ sig (Elt F)) : Valuation τ sig (Elt F) := after ops40 (W39 V0)

def W41 (V0 : Valuation τ sig (Elt F)) : Valuation τ sig (Elt F) := after ops41 (W40 V0)

theorem after_ops (V0 : Valuation τ sig (Elt F)) : after ops V0 = W41 V0 := by
  simp only [ops, opsA, opsB, StableHlo.after_append]
  rfl

abbrev argRefs : List (Ref sig .tc) := [main_arg0, main_arg1, main_arg2, main_arg3, main_arg4, main_arg5, main_arg6, main_arg7, main_arg8, main_arg9, main_arg10, main_arg11, main_arg12, main_arg13, main_arg14, main_arg15]

/-- Operations that write no argument leave every argument where the contents before them had it. -/
theorem keep_args {l : List (HloOp τ sig (Elt F))} {Wl : List (Ref sig .tc)}
    (hw : l.Forall fun op => op.writes ⊆ (Wl.map (Proc.devRef (τ := τ) .tc)).toFinset) (hd : ∀ r ∈ argRefs, r ∉ Wl)
    {W V0 : Valuation τ sig (Elt F)} (hW : ∀ r ∈ argRefs, W (Proc.devRef .tc r) = V0 (Proc.devRef .tc r)) :
    ∀ r ∈ argRefs, after l W (Proc.devRef .tc r) = V0 (Proc.devRef .tc r) :=
  fun r h => (after_of_writes_sub l W hw (hd r h)).trans (hW r h)

theorem W0_arg (V0 : Valuation τ sig (Elt F)) : ∀ r ∈ argRefs, W0 V0 (Proc.devRef .tc r) = V0 (Proc.devRef .tc r) := fun _ _ => rfl

theorem W1_arg (V0 : Valuation τ sig (Elt F)) : ∀ r ∈ argRefs, W1 V0 (Proc.devRef .tc r) = V0 (Proc.devRef .tc r) :=
  keep_args ops1_writes (by decide) (W0_arg V0)
abbrev at_main_v0 (V0 : Valuation τ sig (Elt F)) := val_main_v0 (F := F) (V0 (Proc.devRef .tc main_arg2)) (V0 (Proc.devRef .tc main_arg4))
theorem W1_main_v0 (V0 : Valuation τ sig (Elt F)) : W1 V0 (Proc.devRef .tc main_v0) = at_main_v0 V0 :=
  after1_main_v0 (W0 V0) _ _ (W0_arg V0 main_arg2 (by decide)) (W0_arg V0 main_arg4 (by decide))

theorem W2_arg (V0 : Valuation τ sig (Elt F)) : ∀ r ∈ argRefs, W2 V0 (Proc.devRef .tc r) = V0 (Proc.devRef .tc r) :=
  keep_args ops2_writes (by decide) (W1_arg V0)
abbrev at_main_v6 (V0 : Valuation τ sig (Elt F)) := val_main_v6 (F := F) (V0 (Proc.devRef .tc main_arg0)) (V0 (Proc.devRef .tc main_arg2)) (V0 (Proc.devRef .tc main_arg3)) (V0 (Proc.devRef .tc main_arg4)) (V0 (Proc.devRef .tc main_arg5)) (V0 (Proc.devRef .tc main_arg6))
theorem W2_main_v6 (V0 : Valuation τ sig (Elt F)) : W2 V0 (Proc.devRef .tc main_v6) = at_main_v6 V0 :=
  after2_main_v6 (W1 V0) _ _ _ _ _ _ (W1_arg V0 main_arg0 (by decide)) (W1_arg V0 main_arg3 (by decide)) (W1_arg V0 main_arg5 (by decide)) (W1_arg V0 main_arg6 (by decide)) (W1_main_v0 V0)
abbrev at_main_call0_v0 (V0 : Valuation τ sig (Elt F)) := val_main_call0_v0 (F := F) (V0 (Proc.devRef .tc main_arg0)) (V0 (Proc.devRef .tc main_arg2)) (V0 (Proc.devRef .tc main_arg3)) (V0 (Proc.devRef .tc main_arg4)) (V0 (Proc.devRef .tc main_arg5)) (V0 (Proc.devRef .tc main_arg6))
theorem W2_main_call0_v0 (V0 : Valuation τ sig (Elt F)) : W2 V0 (Proc.devRef .tc main_call0_v0) = at_main_call0_v0 V0 :=
  after2_main_call0_v0 (W1 V0) _ _ _ _ _ _ (W1_arg V0 main_arg0 (by decide)) (W1_arg V0 main_arg3 (by decide)) (W1_arg V0 main_arg5 (by decide)) (W1_arg V0 main_arg6 (by decide)) (W1_main_v0 V0)

theorem W3_arg (V0 : Valuation τ sig (Elt F)) : ∀ r ∈ argRefs, W3 V0 (Proc.devRef .tc r) = V0 (Proc.devRef .tc r) :=
  keep_args ops3_writes (by decide) (W2_arg V0)
abbrev at_main_call0_v5 (V0 : Valuation τ sig (Elt F)) := val_main_call0_v5 (F := F) (V0 (Proc.devRef .tc main_arg0)) (V0 (Proc.devRef .tc main_arg2)) (V0 (Proc.devRef .tc main_arg3)) (V0 (Proc.devRef .tc main_arg4)) (V0 (Proc.devRef .tc main_arg5)) (V0 (Proc.devRef .tc main_arg6))
theorem W3_main_call0_v5 (V0 : Valuation τ sig (Elt F)) : W3 V0 (Proc.devRef .tc main_call0_v5) = at_main_call0_v5 V0 :=
  after3_main_call0_v5 (W2 V0) _ _ _ _ _ _ (W2_main_v6 V0) (W2_main_call0_v0 V0)
abbrev at_main_call0_v6 (V0 : Valuation τ sig (Elt F)) := val_main_call0_v6 (F := F) (V0 (Proc.devRef .tc main_arg0)) (V0 (Proc.devRef .tc main_arg2)) (V0 (Proc.devRef .tc main_arg3)) (V0 (Proc.devRef .tc main_arg4)) (V0 (Proc.devRef .tc main_arg5)) (V0 (Proc.devRef .tc main_arg6))
theorem W3_main_call0_v6 (V0 : Valuation τ sig (Elt F)) : W3 V0 (Proc.devRef .tc main_call0_v6) = at_main_call0_v6 V0 :=
  after3_main_call0_v6 (W2 V0) _ _ _ _ _ _ (W2_main_v6 V0) (W2_main_call0_v0 V0)
abbrev at_main_call0_cst_1 (V0 : Valuation τ sig (Elt F)) := val_main_call0_cst_1 (F := F)
theorem W3_main_call0_cst_1 (V0 : Valuation τ sig (Elt F)) : W3 V0 (Proc.devRef .tc main_call0_cst_1) = at_main_call0_cst_1 V0 :=
  after3_main_call0_cst_1 (W2 V0)

theorem W4_arg (V0 : Valuation τ sig (Elt F)) : ∀ r ∈ argRefs, W4 V0 (Proc.devRef .tc r) = V0 (Proc.devRef .tc r) :=
  keep_args ops4_writes (by decide) (W3_arg V0)
abbrev at_main_v7 (V0 : Valuation τ sig (Elt F)) := val_main_v7 (F := F) (V0 (Proc.devRef .tc main_arg0)) (V0 (Proc.devRef .tc main_arg2)) (V0 (Proc.devRef .tc main_arg3)) (V0 (Proc.devRef .tc main_arg4)) (V0 (Proc.devRef .tc main_arg5)) (V0 (Proc.devRef .tc main_arg6))
theorem W4_main_v7 (V0 : Valuation τ sig (Elt F)) : W4 V0 (Proc.devRef .tc main_v7) = at_main_v7 V0 :=
  after4_main_v7 (W3 V0) _ _ _ _ _ _ (W3_main_call0_v5 V0) (W3_main_call0_v6 V0) (W3_main_call0_cst_1 V0)

theorem W5_arg (V0 : Valuation τ sig (Elt F)) : ∀ r ∈ argRefs, W5 V0 (Proc.devRef .tc r) = V0 (Proc.devRef .tc r) :=
  keep_args ops5_writes (by decide) (W4_arg V0)
abbrev at_main_v8 (V0 : Valuation τ sig (Elt F)) := val_main_v8 (F := F) (V0 (Proc.devRef .tc main_arg0)) (V0 (Proc.devRef .tc main_arg2)) (V0 (Proc.devRef .tc main_arg3)) (V0 (Proc.devRef .tc main_arg4)) (V0 (Proc.devRef .tc main_arg5)) (V0 (Proc.devRef .tc main_arg6))
theorem W5_main_v8 (V0 : Valuation τ sig (Elt F)) : W5 V0 (Proc.devRef .tc main_v8) = at_main_v8 V0 :=
  after5_main_v8 (W4 V0) _ _ _ _ _ _ (W4_main_v7 V0)
theorem W5_main_v7 (V0 : Valuation τ sig (Elt F)) : W5 V0 (Proc.devRef .tc main_v7) = at_main_v7 V0 :=
  (ops5_keep (W4 V0) main_v7 (by decide)).trans (W4_main_v7 V0)
abbrev at_main_v9 (V0 : Valuation τ sig (Elt F)) := val_main_v9 (F := F)
theorem W5_main_v9 (V0 : Valuation τ sig (Elt F)) : W5 V0 (Proc.devRef .tc main_v9) = at_main_v9 V0 :=
  after5_main_v9 (W4 V0)
abbrev at_main_v11 (V0 : Valuation τ sig (Elt F)) := val_main_v11 (F := F) (V0 (Proc.devRef .tc main_arg1))
theorem W5_main_v11 (V0 : Valuation τ sig (Elt F)) : W5 V0 (Proc.devRef .tc main_v11) = at_main_v11 V0 :=
  after5_main_v11 (W4 V0) _ (W4_arg V0 main_arg1 (by decide))
abbrev at_main_v12 (V0 : Valuation τ sig (Elt F)) := val_main_v12 (F := F)
theorem W5_main_v12 (V0 : Valuation τ sig (Elt F)) : W5 V0 (Proc.devRef .tc main_v12) = at_main_v12 V0 :=
  after5_main_v12 (W4 V0)

theorem W6_arg (V0 : Valuation τ sig (Elt F)) : ∀ r ∈ argRefs, W6 V0 (Proc.devRef .tc r) = V0 (Proc.devRef .tc r) :=
  keep_args ops6_writes (by decide) (W5_arg V0)
theorem W6_main_v8 (V0 : Valuation τ sig (Elt F)) : W6 V0 (Proc.devRef .tc main_v8) = at_main_v8 V0 :=
  (ops6_keep (W5 V0) main_v8 (by decide)).trans (W5_main_v8 V0)
theorem W6_main_v7 (V0 : Valuation τ sig (Elt F)) : W6 V0 (Proc.devRef .tc main_v7) = at_main_v7 V0 :=
  (ops6_keep (W5 V0) main_v7 (by decide)).trans (W5_main_v7 V0)
theorem W6_main_v9 (V0 : Valuation τ sig (Elt F)) : W6 V0 (Proc.devRef .tc main_v9) = at_main_v9 V0 :=
  (ops6_keep (W5 V0) main_v9 (by decide)).trans (W5_main_v9 V0)
abbrev at_main_v14 (V0 : Valuation τ sig (Elt F)) := val_main_v14 (F := F) (V0 (Proc.devRef .tc main_arg1))
theorem W6_main_v14 (V0 : Valuation τ sig (Elt F)) : W6 V0 (Proc.devRef .tc main_v14) = at_main_v14 V0 :=
  after6_main_v14 (W5 V0) _ (W5_arg V0 main_arg1 (by decide)) (W5_main_v11 V0) (W5_main_v12 V0)
abbrev at_main_call1_v2 (V0 : Valuation τ sig (Elt F)) := val_main_call1_v2 (F := F) (V0 (Proc.devRef .tc main_arg1))
theorem W6_main_call1_v2 (V0 : Valuation τ sig (Elt F)) : W6 V0 (Proc.devRef .tc main_call1_v2) = at_main_call1_v2 V0 :=
  after6_main_call1_v2 (W5 V0) _ (W5_arg V0 main_arg1 (by decide))
abbrev at_main_call1_v3 (V0 : Valuation τ sig (Elt F)) := val_main_call1_v3 (F := F)
theorem W6_main_call1_v3 (V0 : Valuation τ sig (Elt F)) : W6 V0 (Proc.devRef .tc main_call1_v3) = at_main_call1_v3 V0 :=
  after6_main_call1_v3 (W5 V0)

theorem W7_arg (V0 : Valuation τ sig (Elt F)) : ∀ r ∈ argRefs, W7 V0 (Proc.devRef .tc r) = V0 (Proc.devRef .tc r) :=
  keep_args ops7_writes (by decide) (W6_arg V0)
theorem W7_main_v8 (V0 : Valuation τ sig (Elt F)) : W7 V0 (Proc.devRef .tc main_v8) = at_main_v8 V0 :=
  (ops7_keep (W6 V0) main_v8 (by decide)).trans (W6_main_v8 V0)
theorem W7_main_v7 (V0 : Valuation τ sig (Elt F)) : W7 V0 (Proc.devRef .tc main_v7) = at_main_v7 V0 :=
  (ops7_keep (W6 V0) main_v7 (by decide)).trans (W6_main_v7 V0)
theorem W7_main_v9 (V0 : Valuation τ sig (Elt F)) : W7 V0 (Proc.devRef .tc main_v9) = at_main_v9 V0 :=
  (ops7_keep (W6 V0) main_v9 (by decide)).trans (W6_main_v9 V0)
theorem W7_main_v14 (V0 : Valuation τ sig (Elt F)) : W7 V0 (Proc.devRef .tc main_v14) = at_main_v14 V0 :=
  (ops7_keep (W6 V0) main_v14 (by decide)).trans (W6_main_v14 V0)
abbrev at_main_v16 (V0 : Valuation τ sig (Elt F)) := val_main_v16 (F := F) (V0 (Proc.devRef .tc main_arg1))
theorem W7_main_v16 (V0 : Valuation τ sig (Elt F)) : W7 V0 (Proc.devRef .tc main_v16) = at_main_v16 V0 :=
  after7_main_v16 (W6 V0) _ (W6_main_call1_v2 V0) (W6_main_call1_v3 V0)
abbrev at_main_call2_v1 (V0 : Valuation τ sig (Elt F)) := val_main_call2_v1 (F := F) (V0 (Proc.devRef .tc main_arg1))
theorem W7_main_call2_v1 (V0 : Valuation τ sig (Elt F)) : W7 V0 (Proc.devRef .tc main_call2_v1) = at_main_call2_v1 V0 :=
  after7_main_call2_v1 (W6 V0) _ (W6_main_call1_v2 V0) (W6_main_call1_v3 V0)
abbrev at_main_call2_v2 (V0 : Valuation τ sig (Elt F)) := val_main_call2_v2 (F := F)
theorem W7_main_call2_v2 (V0 : Valuation τ sig (Elt F)) : W7 V0 (Proc.devRef .tc main_call2_v2) = at_main_call2_v2 V0 :=
  after7_main_call2_v2 (W6 V0)

theorem W8_arg (V0 : Valuation τ sig (Elt F)) : ∀ r ∈ argRefs, W8 V0 (Proc.devRef .tc r) = V0 (Proc.devRef .tc r) :=
  keep_args ops8_writes (by decide) (W7_arg V0)
theorem W8_main_v8 (V0 : Valuation τ sig (Elt F)) : W8 V0 (Proc.devRef .tc main_v8) = at_main_v8 V0 :=
  (ops8_keep (W7 V0) main_v8 (by decide)).trans (W7_main_v8 V0)
theorem W8_main_v7 (V0 : Valuation τ sig (Elt F)) : W8 V0 (Proc.devRef .tc main_v7) = at_main_v7 V0 :=
  (ops8_keep (W7 V0) main_v7 (by decide)).trans (W7_main_v7 V0)
theorem W8_main_v9 (V0 : Valuation τ sig (Elt F)) : W8 V0 (Proc.devRef .tc main_v9) = at_main_v9 V0 :=
  (ops8_keep (W7 V0) main_v9 (by decide)).trans (W7_main_v9 V0)
theorem W8_main_v14 (V0 : Valuation τ sig (Elt F)) : W8 V0 (Proc.devRef .tc main_v14) = at_main_v14 V0 :=
  (ops8_keep (W7 V0) main_v14 (by decide)).trans (W7_main_v14 V0)
abbrev at_main_call2_v5 (V0 : Valuation τ sig (Elt F)) := val_main_call2_v5 (F := F) (V0 (Proc.devRef .tc main_arg1))
theorem W8_main_call2_v5 (V0 : Valuation τ sig (Elt F)) : W8 V0 (Proc.devRef .tc main_call2_v5) = at_main_call2_v5 V0 :=
  after8_main_call2_v5 (W7 V0) _ (W7_main_v16 V0) (W7_main_call2_v1 V0) (W7_main_call2_v2 V0)
abbrev at_main_call2_v7 (V0 : Valuation τ sig (Elt F)) := val_main_call2_v7 (F := F) (V0 (Proc.devRef .tc main_arg1))
theorem W8_main_call2_v7 (V0 : Valuation τ sig (Elt F)) : W8 V0 (Proc.devRef .tc main_call2_v7) = at_main_call2_v7 V0 :=
  after8_main_call2_v7 (W7 V0) _ (W7_main_v16 V0) (W7_main_call2_v1 V0) (W7_main_call2_v2 V0)
abbrev at_main_call2_v8 (V0 : Valuation τ sig (Elt F)) := val_main_call2_v8 (F := F)
theorem W8_main_call2_v8 (V0 : Valuation τ sig (Elt F)) : W8 V0 (Proc.devRef .tc main_call2_v8) = at_main_call2_v8 V0 :=
  after8_main_call2_v8 (W7 V0)

theorem W9_arg (V0 : Valuation τ sig (Elt F)) : ∀ r ∈ argRefs, W9 V0 (Proc.devRef .tc r) = V0 (Proc.devRef .tc r) :=
  keep_args ops9_writes (by decide) (W8_arg V0)
theorem W9_main_v8 (V0 : Valuation τ sig (Elt F)) : W9 V0 (Proc.devRef .tc main_v8) = at_main_v8 V0 :=
  (ops9_keep (W8 V0) main_v8 (by decide)).trans (W8_main_v8 V0)
theorem W9_main_v7 (V0 : Valuation τ sig (Elt F)) : W9 V0 (Proc.devRef .tc main_v7) = at_main_v7 V0 :=
  (ops9_keep (W8 V0) main_v7 (by decide)).trans (W8_main_v7 V0)
theorem W9_main_v9 (V0 : Valuation τ sig (Elt F)) : W9 V0 (Proc.devRef .tc main_v9) = at_main_v9 V0 :=
  (ops9_keep (W8 V0) main_v9 (by decide)).trans (W8_main_v9 V0)
theorem W9_main_v14 (V0 : Valuation τ sig (Elt F)) : W9 V0 (Proc.devRef .tc main_v14) = at_main_v14 V0 :=
  (ops9_keep (W8 V0) main_v14 (by decide)).trans (W8_main_v14 V0)
abbrev at_main_call2_v12 (V0 : Valuation τ sig (Elt F)) := val_main_call2_v12 (F := F) (V0 (Proc.devRef .tc main_arg1))
theorem W9_main_call2_v12 (V0 : Valuation τ sig (Elt F)) : W9 V0 (Proc.devRef .tc main_call2_v12) = at_main_call2_v12 V0 :=
  after9_main_call2_v12 (W8 V0) _ (W8_main_call2_v5 V0) (W8_main_call2_v7 V0) (W8_main_call2_v8 V0)
abbrev at_main_call2_v13 (V0 : Valuation τ sig (Elt F)) := val_main_call2_v13 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6))
theorem W9_main_call2_v13 (V0 : Valuation τ sig (Elt F)) : W9 V0 (Proc.devRef .tc main_call2_v13) = at_main_call2_v13 V0 :=
  after9_main_call2_v13 (W8 V0) _ _ _ _ _ _ _ (W8_main_v7 V0) (W8_main_call2_v5 V0)
abbrev at_main_call2_v14 (V0 : Valuation τ sig (Elt F)) := val_main_call2_v14 (F := F)
theorem W9_main_call2_v14 (V0 : Valuation τ sig (Elt F)) : W9 V0 (Proc.devRef .tc main_call2_v14) = at_main_call2_v14 V0 :=
  after9_main_call2_v14 (W8 V0)

theorem W10_arg (V0 : Valuation τ sig (Elt F)) : ∀ r ∈ argRefs, W10 V0 (Proc.devRef .tc r) = V0 (Proc.devRef .tc r) :=
  keep_args ops10_writes (by decide) (W9_arg V0)
theorem W10_main_v8 (V0 : Valuation τ sig (Elt F)) : W10 V0 (Proc.devRef .tc main_v8) = at_main_v8 V0 :=
  (ops10_keep (W9 V0) main_v8 (by decide)).trans (W9_main_v8 V0)
theorem W10_main_v7 (V0 : Valuation τ sig (Elt F)) : W10 V0 (Proc.devRef .tc main_v7) = at_main_v7 V0 :=
  (ops10_keep (W9 V0) main_v7 (by decide)).trans (W9_main_v7 V0)
abbrev at_main_v19 (V0 : Valuation τ sig (Elt F)) := val_main_v19 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6))
theorem W10_main_v19 (V0 : Valuation τ sig (Elt F)) : W10 V0 (Proc.devRef .tc main_v19) = at_main_v19 V0 :=
  after10_main_v19 (W9 V0) _ _ _ _ _ _ _ (W9_main_v9 V0) (W9_main_v14 V0) (W9_main_call2_v12 V0) (W9_main_call2_v13 V0) (W9_main_call2_v14 V0)

theorem W11_arg (V0 : Valuation τ sig (Elt F)) : ∀ r ∈ argRefs, W11 V0 (Proc.devRef .tc r) = V0 (Proc.devRef .tc r) :=
  keep_args ops11_writes (by decide) (W10_arg V0)
theorem W11_main_v8 (V0 : Valuation τ sig (Elt F)) : W11 V0 (Proc.devRef .tc main_v8) = at_main_v8 V0 :=
  (ops11_keep (W10 V0) main_v8 (by decide)).trans (W10_main_v8 V0)
abbrev at_main_v24 (V0 : Valuation τ sig (Elt F)) := val_main_v24 (F := F) (V0 (Proc.devRef .tc main_arg0)) (V0 (Proc.devRef .tc main_arg7)) (V0 (Proc.devRef .tc main_arg8)) (V0 (Proc.devRef .tc main_arg9))
theorem W11_main_v24 (V0 : Valuation τ sig (Elt F)) : W11 V0 (Proc.devRef .tc main_v24) = at_main_v24 V0 :=
  after11_main_v24 (W10 V0) _ _ _ _ (W10_arg V0 main_arg0 (by decide)) (W10_arg V0 main_arg7 (by decide)) (W10_arg V0 main_arg8 (by decide)) (W10_arg V0 main_arg9 (by decide))
abbrev at_main_call4_v0 (V0 : Valuation τ sig (Elt F)) := val_main_call4_v0 (F := F) (V0 (Proc.devRef .tc main_arg0)) (V0 (Proc.devRef .tc main_arg7)) (V0 (Proc.devRef .tc main_arg8)) (V0 (Proc.devRef .tc main_arg9))
theorem W11_main_call4_v0 (V0 : Valuation τ sig (Elt F)) : W11 V0 (Proc.devRef .tc main_call4_v0) = at_main_call4_v0 V0 :=
  after11_main_call4_v0 (W10 V0) _ _ _ _ (W10_arg V0 main_arg0 (by decide)) (W10_arg V0 main_arg7 (by decide)) (W10_arg V0 main_arg8 (by decide)) (W10_arg V0 main_arg9 (by decide))
abbrev at_main_call4_cst_0 (V0 : Valuation τ sig (Elt F)) := val_main_call4_cst_0 (F := F)
theorem W11_main_call4_cst_0 (V0 : Valuation τ sig (Elt F)) : W11 V0 (Proc.devRef .tc main_call4_cst_0) = at_main_call4_cst_0 V0 :=
  after11_main_call4_cst_0 (W10 V0)
theorem W11_main_v7 (V0 : Valuation τ sig (Elt F)) : W11 V0 (Proc.devRef .tc main_v7) = at_main_v7 V0 :=
  (ops11_keep (W10 V0) main_v7 (by decide)).trans (W10_main_v7 V0)
theorem W11_main_v19 (V0 : Valuation τ sig (Elt F)) : W11 V0 (Proc.devRef .tc main_v19) = at_main_v19 V0 :=
  (ops11_keep (W10 V0) main_v19 (by decide)).trans (W10_main_v19 V0)

theorem W12_arg (V0 : Valuation τ sig (Elt F)) : ∀ r ∈ argRefs, W12 V0 (Proc.devRef .tc r) = V0 (Proc.devRef .tc r) :=
  keep_args ops12_writes (by decide) (W11_arg V0)
theorem W12_main_v8 (V0 : Valuation τ sig (Elt F)) : W12 V0 (Proc.devRef .tc main_v8) = at_main_v8 V0 :=
  (ops12_keep (W11 V0) main_v8 (by decide)).trans (W11_main_v8 V0)
abbrev at_main_call4_v5 (V0 : Valuation τ sig (Elt F)) := val_main_call4_v5 (F := F) (V0 (Proc.devRef .tc main_arg0)) (V0 (Proc.devRef .tc main_arg7)) (V0 (Proc.devRef .tc main_arg8)) (V0 (Proc.devRef .tc main_arg9))
theorem W12_main_call4_v5 (V0 : Valuation τ sig (Elt F)) : W12 V0 (Proc.devRef .tc main_call4_v5) = at_main_call4_v5 V0 :=
  after12_main_call4_v5 (W11 V0) _ _ _ _ (W11_main_v24 V0) (W11_main_call4_v0 V0) (W11_main_call4_cst_0 V0)
abbrev at_main_call4_v7 (V0 : Valuation τ sig (Elt F)) := val_main_call4_v7 (F := F) (V0 (Proc.devRef .tc main_arg0)) (V0 (Proc.devRef .tc main_arg7)) (V0 (Proc.devRef .tc main_arg8)) (V0 (Proc.devRef .tc main_arg9))
theorem W12_main_call4_v7 (V0 : Valuation τ sig (Elt F)) : W12 V0 (Proc.devRef .tc main_call4_v7) = at_main_call4_v7 V0 :=
  after12_main_call4_v7 (W11 V0) _ _ _ _ (W11_main_v24 V0) (W11_main_call4_v0 V0) (W11_main_call4_cst_0 V0)
theorem W12_main_v7 (V0 : Valuation τ sig (Elt F)) : W12 V0 (Proc.devRef .tc main_v7) = at_main_v7 V0 :=
  (ops12_keep (W11 V0) main_v7 (by decide)).trans (W11_main_v7 V0)
theorem W12_main_v19 (V0 : Valuation τ sig (Elt F)) : W12 V0 (Proc.devRef .tc main_v19) = at_main_v19 V0 :=
  (ops12_keep (W11 V0) main_v19 (by decide)).trans (W11_main_v19 V0)

theorem W13_arg (V0 : Valuation τ sig (Elt F)) : ∀ r ∈ argRefs, W13 V0 (Proc.devRef .tc r) = V0 (Proc.devRef .tc r) :=
  keep_args ops13_writes (by decide) (W12_arg V0)
theorem W13_main_v8 (V0 : Valuation τ sig (Elt F)) : W13 V0 (Proc.devRef .tc main_v8) = at_main_v8 V0 :=
  (ops13_keep (W12 V0) main_v8 (by decide)).trans (W12_main_v8 V0)
abbrev at_main_v25 (V0 : Valuation τ sig (Elt F)) := val_main_v25 (F := F) (V0 (Proc.devRef .tc main_arg0)) (V0 (Proc.devRef .tc main_arg7)) (V0 (Proc.devRef .tc main_arg8)) (V0 (Proc.devRef .tc main_arg9))
theorem W13_main_v25 (V0 : Valuation τ sig (Elt F)) : W13 V0 (Proc.devRef .tc main_v25) = at_main_v25 V0 :=
  after13_main_v25 (W12 V0) _ _ _ _ (W12_main_call4_v5 V0) (W12_main_call4_v7 V0)
abbrev at_main_v29 (V0 : Valuation τ sig (Elt F)) := val_main_v29 (F := F) (V0 (Proc.devRef .tc main_arg0)) (V0 (Proc.devRef .tc main_arg2)) (V0 (Proc.devRef .tc main_arg3)) (V0 (Proc.devRef .tc main_arg4)) (V0 (Proc.devRef .tc main_arg5)) (V0 (Proc.devRef .tc main_arg6))
theorem W13_main_v29 (V0 : Valuation τ sig (Elt F)) : W13 V0 (Proc.devRef .tc main_v29) = at_main_v29 V0 :=
  after13_main_v29 (W12 V0) _ _ _ _ _ _ (W12_main_v7 V0)
theorem W13_main_v7 (V0 : Valuation τ sig (Elt F)) : W13 V0 (Proc.devRef .tc main_v7) = at_main_v7 V0 :=
  (ops13_keep (W12 V0) main_v7 (by decide)).trans (W12_main_v7 V0)
theorem W13_main_v19 (V0 : Valuation τ sig (Elt F)) : W13 V0 (Proc.devRef .tc main_v19) = at_main_v19 V0 :=
  (ops13_keep (W12 V0) main_v19 (by decide)).trans (W12_main_v19 V0)

theorem W14_arg (V0 : Valuation τ sig (Elt F)) : ∀ r ∈ argRefs, W14 V0 (Proc.devRef .tc r) = V0 (Proc.devRef .tc r) :=
  keep_args ops14_writes (by decide) (W13_arg V0)
theorem W14_main_v8 (V0 : Valuation τ sig (Elt F)) : W14 V0 (Proc.devRef .tc main_v8) = at_main_v8 V0 :=
  (ops14_keep (W13 V0) main_v8 (by decide)).trans (W13_main_v8 V0)
abbrev at_main_v30 (V0 : Valuation τ sig (Elt F)) := val_main_v30 (F := F) (V0 (Proc.devRef .tc main_arg0)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9))
theorem W14_main_v30 (V0 : Valuation τ sig (Elt F)) : W14 V0 (Proc.devRef .tc main_v30) = at_main_v30 V0 :=
  after14_main_v30 (W13 V0) _ _ _ _ _ _ _ _ _ (W13_main_v25 V0) (W13_main_v29 V0)
theorem W14_main_v7 (V0 : Valuation τ sig (Elt F)) : W14 V0 (Proc.devRef .tc main_v7) = at_main_v7 V0 :=
  (ops14_keep (W13 V0) main_v7 (by decide)).trans (W13_main_v7 V0)
theorem W14_main_v19 (V0 : Valuation τ sig (Elt F)) : W14 V0 (Proc.devRef .tc main_v19) = at_main_v19 V0 :=
  (ops14_keep (W13 V0) main_v19 (by decide)).trans (W13_main_v19 V0)

theorem W15_arg (V0 : Valuation τ sig (Elt F)) : ∀ r ∈ argRefs, W15 V0 (Proc.devRef .tc r) = V0 (Proc.devRef .tc r) :=
  keep_args ops15_writes (by decide) (W14_arg V0)
theorem W15_main_v8 (V0 : Valuation τ sig (Elt F)) : W15 V0 (Proc.devRef .tc main_v8) = at_main_v8 V0 :=
  (ops15_keep (W14 V0) main_v8 (by decide)).trans (W14_main_v8 V0)
theorem W15_main_v30 (V0 : Valuation τ sig (Elt F)) : W15 V0 (Proc.devRef .tc main_v30) = at_main_v30 V0 :=
  (ops15_keep (W14 V0) main_v30 (by decide)).trans (W14_main_v30 V0)
theorem W15_main_v7 (V0 : Valuation τ sig (Elt F)) : W15 V0 (Proc.devRef .tc main_v7) = at_main_v7 V0 :=
  (ops15_keep (W14 V0) main_v7 (by decide)).trans (W14_main_v7 V0)
theorem W15_main_v19 (V0 : Valuation τ sig (Elt F)) : W15 V0 (Proc.devRef .tc main_v19) = at_main_v19 V0 :=
  (ops15_keep (W14 V0) main_v19 (by decide)).trans (W14_main_v19 V0)
abbrev at_main_v35 (V0 : Valuation τ sig (Elt F)) := val_main_v35 (F := F) (V0 (Proc.devRef .tc main_arg1))
theorem W15_main_v35 (V0 : Valuation τ sig (Elt F)) : W15 V0 (Proc.devRef .tc main_v35) = at_main_v35 V0 :=
  after15_main_v35 (W14 V0) _ (W14_arg V0 main_arg1 (by decide))
abbrev at_main_c_5 (V0 : Valuation τ sig (Elt F)) := val_main_c_5 (F := F)
theorem W15_main_c_5 (V0 : Valuation τ sig (Elt F)) : W15 V0 (Proc.devRef .tc main_c_5) = at_main_c_5 V0 :=
  after15_main_c_5 (W14 V0)

theorem W16_arg (V0 : Valuation τ sig (Elt F)) : ∀ r ∈ argRefs, W16 V0 (Proc.devRef .tc r) = V0 (Proc.devRef .tc r) :=
  keep_args ops16_writes (by decide) (W15_arg V0)
theorem W16_main_v8 (V0 : Valuation τ sig (Elt F)) : W16 V0 (Proc.devRef .tc main_v8) = at_main_v8 V0 :=
  (ops16_keep (W15 V0) main_v8 (by decide)).trans (W15_main_v8 V0)
theorem W16_main_v30 (V0 : Valuation τ sig (Elt F)) : W16 V0 (Proc.devRef .tc main_v30) = at_main_v30 V0 :=
  (ops16_keep (W15 V0) main_v30 (by decide)).trans (W15_main_v30 V0)
theorem W16_main_v7 (V0 : Valuation τ sig (Elt F)) : W16 V0 (Proc.devRef .tc main_v7) = at_main_v7 V0 :=
  (ops16_keep (W15 V0) main_v7 (by decide)).trans (W15_main_v7 V0)
theorem W16_main_v19 (V0 : Valuation τ sig (Elt F)) : W16 V0 (Proc.devRef .tc main_v19) = at_main_v19 V0 :=
  (ops16_keep (W15 V0) main_v19 (by decide)).trans (W15_main_v19 V0)
theorem W16_main_v35 (V0 : Valuation τ sig (Elt F)) : W16 V0 (Proc.devRef .tc main_v35) = at_main_v35 V0 :=
  (ops16_keep (W15 V0) main_v35 (by decide)).trans (W15_main_v35 V0)
abbrev at_main_call5_v2 (V0 : Valuation τ sig (Elt F)) := val_main_call5_v2 (F := F) (V0 (Proc.devRef .tc main_arg1))
theorem W16_main_call5_v2 (V0 : Valuation τ sig (Elt F)) : W16 V0 (Proc.devRef .tc main_call5_v2) = at_main_call5_v2 V0 :=
  after16_main_call5_v2 (W15 V0) _ (W15_arg V0 main_arg1 (by decide)) (W15_main_c_5 V0)
abbrev at_main_call5_v3 (V0 : Valuation τ sig (Elt F)) := val_main_call5_v3 (F := F)
theorem W16_main_call5_v3 (V0 : Valuation τ sig (Elt F)) : W16 V0 (Proc.devRef .tc main_call5_v3) = at_main_call5_v3 V0 :=
  after16_main_call5_v3 (W15 V0)

theorem W17_arg (V0 : Valuation τ sig (Elt F)) : ∀ r ∈ argRefs, W17 V0 (Proc.devRef .tc r) = V0 (Proc.devRef .tc r) :=
  keep_args ops17_writes (by decide) (W16_arg V0)
theorem W17_main_v8 (V0 : Valuation τ sig (Elt F)) : W17 V0 (Proc.devRef .tc main_v8) = at_main_v8 V0 :=
  (ops17_keep (W16 V0) main_v8 (by decide)).trans (W16_main_v8 V0)
theorem W17_main_v30 (V0 : Valuation τ sig (Elt F)) : W17 V0 (Proc.devRef .tc main_v30) = at_main_v30 V0 :=
  (ops17_keep (W16 V0) main_v30 (by decide)).trans (W16_main_v30 V0)
theorem W17_main_v7 (V0 : Valuation τ sig (Elt F)) : W17 V0 (Proc.devRef .tc main_v7) = at_main_v7 V0 :=
  (ops17_keep (W16 V0) main_v7 (by decide)).trans (W16_main_v7 V0)
theorem W17_main_v19 (V0 : Valuation τ sig (Elt F)) : W17 V0 (Proc.devRef .tc main_v19) = at_main_v19 V0 :=
  (ops17_keep (W16 V0) main_v19 (by decide)).trans (W16_main_v19 V0)
theorem W17_main_v35 (V0 : Valuation τ sig (Elt F)) : W17 V0 (Proc.devRef .tc main_v35) = at_main_v35 V0 :=
  (ops17_keep (W16 V0) main_v35 (by decide)).trans (W16_main_v35 V0)
abbrev at_main_v39 (V0 : Valuation τ sig (Elt F)) := val_main_v39 (F := F) (V0 (Proc.devRef .tc main_arg1))
theorem W17_main_v39 (V0 : Valuation τ sig (Elt F)) : W17 V0 (Proc.devRef .tc main_v39) = at_main_v39 V0 :=
  after17_main_v39 (W16 V0) _ (W16_main_call5_v2 V0) (W16_main_call5_v3 V0)
abbrev at_main_call6_v1 (V0 : Valuation τ sig (Elt F)) := val_main_call6_v1 (F := F) (V0 (Proc.devRef .tc main_arg1))
theorem W17_main_call6_v1 (V0 : Valuation τ sig (Elt F)) : W17 V0 (Proc.devRef .tc main_call6_v1) = at_main_call6_v1 V0 :=
  after17_main_call6_v1 (W16 V0) _ (W16_main_call5_v2 V0) (W16_main_call5_v3 V0)
abbrev at_main_call6_v2 (V0 : Valuation τ sig (Elt F)) := val_main_call6_v2 (F := F)
theorem W17_main_call6_v2 (V0 : Valuation τ sig (Elt F)) : W17 V0 (Proc.devRef .tc main_call6_v2) = at_main_call6_v2 V0 :=
  after17_main_call6_v2 (W16 V0)

theorem W18_arg (V0 : Valuation τ sig (Elt F)) : ∀ r ∈ argRefs, W18 V0 (Proc.devRef .tc r) = V0 (Proc.devRef .tc r) :=
  keep_args ops18_writes (by decide) (W17_arg V0)
theorem W18_main_v8 (V0 : Valuation τ sig (Elt F)) : W18 V0 (Proc.devRef .tc main_v8) = at_main_v8 V0 :=
  (ops18_keep (W17 V0) main_v8 (by decide)).trans (W17_main_v8 V0)
theorem W18_main_v30 (V0 : Valuation τ sig (Elt F)) : W18 V0 (Proc.devRef .tc main_v30) = at_main_v30 V0 :=
  (ops18_keep (W17 V0) main_v30 (by decide)).trans (W17_main_v30 V0)
theorem W18_main_v7 (V0 : Valuation τ sig (Elt F)) : W18 V0 (Proc.devRef .tc main_v7) = at_main_v7 V0 :=
  (ops18_keep (W17 V0) main_v7 (by decide)).trans (W17_main_v7 V0)
theorem W18_main_v19 (V0 : Valuation τ sig (Elt F)) : W18 V0 (Proc.devRef .tc main_v19) = at_main_v19 V0 :=
  (ops18_keep (W17 V0) main_v19 (by decide)).trans (W17_main_v19 V0)
theorem W18_main_v35 (V0 : Valuation τ sig (Elt F)) : W18 V0 (Proc.devRef .tc main_v35) = at_main_v35 V0 :=
  (ops18_keep (W17 V0) main_v35 (by decide)).trans (W17_main_v35 V0)
abbrev at_main_call6_v5 (V0 : Valuation τ sig (Elt F)) := val_main_call6_v5 (F := F) (V0 (Proc.devRef .tc main_arg1))
theorem W18_main_call6_v5 (V0 : Valuation τ sig (Elt F)) : W18 V0 (Proc.devRef .tc main_call6_v5) = at_main_call6_v5 V0 :=
  after18_main_call6_v5 (W17 V0) _ (W17_main_v39 V0) (W17_main_call6_v1 V0) (W17_main_call6_v2 V0)
abbrev at_main_call6_v7 (V0 : Valuation τ sig (Elt F)) := val_main_call6_v7 (F := F) (V0 (Proc.devRef .tc main_arg1))
theorem W18_main_call6_v7 (V0 : Valuation τ sig (Elt F)) : W18 V0 (Proc.devRef .tc main_call6_v7) = at_main_call6_v7 V0 :=
  after18_main_call6_v7 (W17 V0) _ (W17_main_v39 V0) (W17_main_call6_v1 V0) (W17_main_call6_v2 V0)
abbrev at_main_call6_v8 (V0 : Valuation τ sig (Elt F)) := val_main_call6_v8 (F := F)
theorem W18_main_call6_v8 (V0 : Valuation τ sig (Elt F)) : W18 V0 (Proc.devRef .tc main_call6_v8) = at_main_call6_v8 V0 :=
  after18_main_call6_v8 (W17 V0)

theorem W19_arg (V0 : Valuation τ sig (Elt F)) : ∀ r ∈ argRefs, W19 V0 (Proc.devRef .tc r) = V0 (Proc.devRef .tc r) :=
  keep_args ops19_writes (by decide) (W18_arg V0)
theorem W19_main_v8 (V0 : Valuation τ sig (Elt F)) : W19 V0 (Proc.devRef .tc main_v8) = at_main_v8 V0 :=
  (ops19_keep (W18 V0) main_v8 (by decide)).trans (W18_main_v8 V0)
theorem W19_main_v30 (V0 : Valuation τ sig (Elt F)) : W19 V0 (Proc.devRef .tc main_v30) = at_main_v30 V0 :=
  (ops19_keep (W18 V0) main_v30 (by decide)).trans (W18_main_v30 V0)
theorem W19_main_v7 (V0 : Valuation τ sig (Elt F)) : W19 V0 (Proc.devRef .tc main_v7) = at_main_v7 V0 :=
  (ops19_keep (W18 V0) main_v7 (by decide)).trans (W18_main_v7 V0)
theorem W19_main_v19 (V0 : Valuation τ sig (Elt F)) : W19 V0 (Proc.devRef .tc main_v19) = at_main_v19 V0 :=
  (ops19_keep (W18 V0) main_v19 (by decide)).trans (W18_main_v19 V0)
theorem W19_main_v35 (V0 : Valuation τ sig (Elt F)) : W19 V0 (Proc.devRef .tc main_v35) = at_main_v35 V0 :=
  (ops19_keep (W18 V0) main_v35 (by decide)).trans (W18_main_v35 V0)
abbrev at_main_call6_v12 (V0 : Valuation τ sig (Elt F)) := val_main_call6_v12 (F := F) (V0 (Proc.devRef .tc main_arg1))
theorem W19_main_call6_v12 (V0 : Valuation τ sig (Elt F)) : W19 V0 (Proc.devRef .tc main_call6_v12) = at_main_call6_v12 V0 :=
  after19_main_call6_v12 (W18 V0) _ (W18_main_call6_v5 V0) (W18_main_call6_v7 V0) (W18_main_call6_v8 V0)
abbrev at_main_call6_v13 (V0 : Valuation τ sig (Elt F)) := val_main_call6_v13 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9))
theorem W19_main_call6_v13 (V0 : Valuation τ sig (Elt F)) : W19 V0 (Proc.devRef .tc main_call6_v13) = at_main_call6_v13 V0 :=
  after19_main_call6_v13 (W18 V0) _ _ _ _ _ _ _ _ _ _ (W18_main_v30 V0) (W18_main_call6_v5 V0)
abbrev at_main_call6_v14 (V0 : Valuation τ sig (Elt F)) := val_main_call6_v14 (F := F)
theorem W19_main_call6_v14 (V0 : Valuation τ sig (Elt F)) : W19 V0 (Proc.devRef .tc main_call6_v14) = at_main_call6_v14 V0 :=
  after19_main_call6_v14 (W18 V0)

theorem W20_arg (V0 : Valuation τ sig (Elt F)) : ∀ r ∈ argRefs, W20 V0 (Proc.devRef .tc r) = V0 (Proc.devRef .tc r) :=
  keep_args ops20_writes (by decide) (W19_arg V0)
theorem W20_main_v8 (V0 : Valuation τ sig (Elt F)) : W20 V0 (Proc.devRef .tc main_v8) = at_main_v8 V0 :=
  (ops20_keep (W19 V0) main_v8 (by decide)).trans (W19_main_v8 V0)
theorem W20_main_v30 (V0 : Valuation τ sig (Elt F)) : W20 V0 (Proc.devRef .tc main_v30) = at_main_v30 V0 :=
  (ops20_keep (W19 V0) main_v30 (by decide)).trans (W19_main_v30 V0)
theorem W20_main_v7 (V0 : Valuation τ sig (Elt F)) : W20 V0 (Proc.devRef .tc main_v7) = at_main_v7 V0 :=
  (ops20_keep (W19 V0) main_v7 (by decide)).trans (W19_main_v7 V0)
abbrev at_main_v42 (V0 : Valuation τ sig (Elt F)) := val_main_v42 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9))
theorem W20_main_v42 (V0 : Valuation τ sig (Elt F)) : W20 V0 (Proc.devRef .tc main_v42) = at_main_v42 V0 :=
  after20_main_v42 (W19 V0) _ _ _ _ _ _ _ _ _ _ (W19_main_v19 V0) (W19_main_v35 V0) (W19_main_call6_v12 V0) (W19_main_call6_v13 V0) (W19_main_call6_v14 V0)

theorem W21_arg (V0 : Valuation τ sig (Elt F)) : ∀ r ∈ argRefs, W21 V0 (Proc.devRef .tc r) = V0 (Proc.devRef .tc r) :=
  keep_args ops21_writes (by decide) (W20_arg V0)
theorem W21_main_v8 (V0 : Valuation τ sig (Elt F)) : W21 V0 (Proc.devRef .tc main_v8) = at_main_v8 V0 :=
  (ops21_keep (W20 V0) main_v8 (by decide)).trans (W20_main_v8 V0)
theorem W21_main_v30 (V0 : Valuation τ sig (Elt F)) : W21 V0 (Proc.devRef .tc main_v30) = at_main_v30 V0 :=
  (ops21_keep (W20 V0) main_v30 (by decide)).trans (W20_main_v30 V0)
abbrev at_main_v47 (V0 : Valuation τ sig (Elt F)) := val_main_v47 (F := F) (V0 (Proc.devRef .tc main_arg0)) (V0 (Proc.devRef .tc main_arg10)) (V0 (Proc.devRef .tc main_arg11)) (V0 (Proc.devRef .tc main_arg12))
theorem W21_main_v47 (V0 : Valuation τ sig (Elt F)) : W21 V0 (Proc.devRef .tc main_v47) = at_main_v47 V0 :=
  after21_main_v47 (W20 V0) _ _ _ _ (W20_arg V0 main_arg0 (by decide)) (W20_arg V0 main_arg10 (by decide)) (W20_arg V0 main_arg11 (by decide)) (W20_arg V0 main_arg12 (by decide))
abbrev at_main_call8_v0 (V0 : Valuation τ sig (Elt F)) := val_main_call8_v0 (F := F) (V0 (Proc.devRef .tc main_arg0)) (V0 (Proc.devRef .tc main_arg10)) (V0 (Proc.devRef .tc main_arg11)) (V0 (Proc.devRef .tc main_arg12))
theorem W21_main_call8_v0 (V0 : Valuation τ sig (Elt F)) : W21 V0 (Proc.devRef .tc main_call8_v0) = at_main_call8_v0 V0 :=
  after21_main_call8_v0 (W20 V0) _ _ _ _ (W20_arg V0 main_arg0 (by decide)) (W20_arg V0 main_arg10 (by decide)) (W20_arg V0 main_arg11 (by decide)) (W20_arg V0 main_arg12 (by decide))
abbrev at_main_call8_cst_0 (V0 : Valuation τ sig (Elt F)) := val_main_call8_cst_0 (F := F)
theorem W21_main_call8_cst_0 (V0 : Valuation τ sig (Elt F)) : W21 V0 (Proc.devRef .tc main_call8_cst_0) = at_main_call8_cst_0 V0 :=
  after21_main_call8_cst_0 (W20 V0)
theorem W21_main_v7 (V0 : Valuation τ sig (Elt F)) : W21 V0 (Proc.devRef .tc main_v7) = at_main_v7 V0 :=
  (ops21_keep (W20 V0) main_v7 (by decide)).trans (W20_main_v7 V0)
theorem W21_main_v42 (V0 : Valuation τ sig (Elt F)) : W21 V0 (Proc.devRef .tc main_v42) = at_main_v42 V0 :=
  (ops21_keep (W20 V0) main_v42 (by decide)).trans (W20_main_v42 V0)

theorem W22_arg (V0 : Valuation τ sig (Elt F)) : ∀ r ∈ argRefs, W22 V0 (Proc.devRef .tc r) = V0 (Proc.devRef .tc r) :=
  keep_args ops22_writes (by decide) (W21_arg V0)
theorem W22_main_v8 (V0 : Valuation τ sig (Elt F)) : W22 V0 (Proc.devRef .tc main_v8) = at_main_v8 V0 :=
  (ops22_keep (W21 V0) main_v8 (by decide)).trans (W21_main_v8 V0)
theorem W22_main_v30 (V0 : Valuation τ sig (Elt F)) : W22 V0 (Proc.devRef .tc main_v30) = at_main_v30 V0 :=
  (ops22_keep (W21 V0) main_v30 (by decide)).trans (W21_main_v30 V0)
abbrev at_main_call8_v5 (V0 : Valuation τ sig (Elt F)) := val_main_call8_v5 (F := F) (V0 (Proc.devRef .tc main_arg0)) (V0 (Proc.devRef .tc main_arg10)) (V0 (Proc.devRef .tc main_arg11)) (V0 (Proc.devRef .tc main_arg12))
theorem W22_main_call8_v5 (V0 : Valuation τ sig (Elt F)) : W22 V0 (Proc.devRef .tc main_call8_v5) = at_main_call8_v5 V0 :=
  after22_main_call8_v5 (W21 V0) _ _ _ _ (W21_main_v47 V0) (W21_main_call8_v0 V0) (W21_main_call8_cst_0 V0)
abbrev at_main_call8_v7 (V0 : Valuation τ sig (Elt F)) := val_main_call8_v7 (F := F) (V0 (Proc.devRef .tc main_arg0)) (V0 (Proc.devRef .tc main_arg10)) (V0 (Proc.devRef .tc main_arg11)) (V0 (Proc.devRef .tc main_arg12))
theorem W22_main_call8_v7 (V0 : Valuation τ sig (Elt F)) : W22 V0 (Proc.devRef .tc main_call8_v7) = at_main_call8_v7 V0 :=
  after22_main_call8_v7 (W21 V0) _ _ _ _ (W21_main_v47 V0) (W21_main_call8_v0 V0) (W21_main_call8_cst_0 V0)
theorem W22_main_v7 (V0 : Valuation τ sig (Elt F)) : W22 V0 (Proc.devRef .tc main_v7) = at_main_v7 V0 :=
  (ops22_keep (W21 V0) main_v7 (by decide)).trans (W21_main_v7 V0)
theorem W22_main_v42 (V0 : Valuation τ sig (Elt F)) : W22 V0 (Proc.devRef .tc main_v42) = at_main_v42 V0 :=
  (ops22_keep (W21 V0) main_v42 (by decide)).trans (W21_main_v42 V0)

theorem W23_arg (V0 : Valuation τ sig (Elt F)) : ∀ r ∈ argRefs, W23 V0 (Proc.devRef .tc r) = V0 (Proc.devRef .tc r) :=
  keep_args ops23_writes (by decide) (W22_arg V0)
theorem W23_main_v8 (V0 : Valuation τ sig (Elt F)) : W23 V0 (Proc.devRef .tc main_v8) = at_main_v8 V0 :=
  (ops23_keep (W22 V0) main_v8 (by decide)).trans (W22_main_v8 V0)
theorem W23_main_v30 (V0 : Valuation τ sig (Elt F)) : W23 V0 (Proc.devRef .tc main_v30) = at_main_v30 V0 :=
  (ops23_keep (W22 V0) main_v30 (by decide)).trans (W22_main_v30 V0)
abbrev at_main_v48 (V0 : Valuation τ sig (Elt F)) := val_main_v48 (F := F) (V0 (Proc.devRef .tc main_arg0)) (V0 (Proc.devRef .tc main_arg10)) (V0 (Proc.devRef .tc main_arg11)) (V0 (Proc.devRef .tc main_arg12))
theorem W23_main_v48 (V0 : Valuation τ sig (Elt F)) : W23 V0 (Proc.devRef .tc main_v48) = at_main_v48 V0 :=
  after23_main_v48 (W22 V0) _ _ _ _ (W22_main_call8_v5 V0) (W22_main_call8_v7 V0)
abbrev at_main_v49 (V0 : Valuation τ sig (Elt F)) := val_main_v49 (F := F) (V0 (Proc.devRef .tc main_arg0)) (V0 (Proc.devRef .tc main_arg2)) (V0 (Proc.devRef .tc main_arg3)) (V0 (Proc.devRef .tc main_arg4)) (V0 (Proc.devRef .tc main_arg5)) (V0 (Proc.devRef .tc main_arg6))
theorem W23_main_v49 (V0 : Valuation τ sig (Elt F)) : W23 V0 (Proc.devRef .tc main_v49) = at_main_v49 V0 :=
  after23_main_v49 (W22 V0) _ _ _ _ _ _ (W22_main_v7 V0)
theorem W23_main_v7 (V0 : Valuation τ sig (Elt F)) : W23 V0 (Proc.devRef .tc main_v7) = at_main_v7 V0 :=
  (ops23_keep (W22 V0) main_v7 (by decide)).trans (W22_main_v7 V0)
theorem W23_main_v42 (V0 : Valuation τ sig (Elt F)) : W23 V0 (Proc.devRef .tc main_v42) = at_main_v42 V0 :=
  (ops23_keep (W22 V0) main_v42 (by decide)).trans (W22_main_v42 V0)

theorem W24_arg (V0 : Valuation τ sig (Elt F)) : ∀ r ∈ argRefs, W24 V0 (Proc.devRef .tc r) = V0 (Proc.devRef .tc r) :=
  keep_args ops24_writes (by decide) (W23_arg V0)
theorem W24_main_v8 (V0 : Valuation τ sig (Elt F)) : W24 V0 (Proc.devRef .tc main_v8) = at_main_v8 V0 :=
  (ops24_keep (W23 V0) main_v8 (by decide)).trans (W23_main_v8 V0)
theorem W24_main_v30 (V0 : Valuation τ sig (Elt F)) : W24 V0 (Proc.devRef .tc main_v30) = at_main_v30 V0 :=
  (ops24_keep (W23 V0) main_v30 (by decide)).trans (W23_main_v30 V0)
abbrev at_main_v53 (V0 : Valuation τ sig (Elt F)) := val_main_v53 (F := F) (V0 (Proc.devRef .tc main_arg0)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg10)) (V0 (Proc.devRef .tc main_arg11)) (V0 (Proc.devRef .tc main_arg12))
theorem W24_main_v53 (V0 : Valuation τ sig (Elt F)) : W24 V0 (Proc.devRef .tc main_v53) = at_main_v53 V0 :=
  after24_main_v53 (W23 V0) _ _ _ _ _ _ _ _ _ (W23_main_v48 V0) (W23_main_v49 V0)
theorem W24_main_v7 (V0 : Valuation τ sig (Elt F)) : W24 V0 (Proc.devRef .tc main_v7) = at_main_v7 V0 :=
  (ops24_keep (W23 V0) main_v7 (by decide)).trans (W23_main_v7 V0)
theorem W24_main_v42 (V0 : Valuation τ sig (Elt F)) : W24 V0 (Proc.devRef .tc main_v42) = at_main_v42 V0 :=
  (ops24_keep (W23 V0) main_v42 (by decide)).trans (W23_main_v42 V0)

theorem W25_arg (V0 : Valuation τ sig (Elt F)) : ∀ r ∈ argRefs, W25 V0 (Proc.devRef .tc r) = V0 (Proc.devRef .tc r) :=
  keep_args ops25_writes (by decide) (W24_arg V0)
theorem W25_main_v8 (V0 : Valuation τ sig (Elt F)) : W25 V0 (Proc.devRef .tc main_v8) = at_main_v8 V0 :=
  (ops25_keep (W24 V0) main_v8 (by decide)).trans (W24_main_v8 V0)
theorem W25_main_v30 (V0 : Valuation τ sig (Elt F)) : W25 V0 (Proc.devRef .tc main_v30) = at_main_v30 V0 :=
  (ops25_keep (W24 V0) main_v30 (by decide)).trans (W24_main_v30 V0)
theorem W25_main_v53 (V0 : Valuation τ sig (Elt F)) : W25 V0 (Proc.devRef .tc main_v53) = at_main_v53 V0 :=
  (ops25_keep (W24 V0) main_v53 (by decide)).trans (W24_main_v53 V0)
theorem W25_main_v7 (V0 : Valuation τ sig (Elt F)) : W25 V0 (Proc.devRef .tc main_v7) = at_main_v7 V0 :=
  (ops25_keep (W24 V0) main_v7 (by decide)).trans (W24_main_v7 V0)
theorem W25_main_v42 (V0 : Valuation τ sig (Elt F)) : W25 V0 (Proc.devRef .tc main_v42) = at_main_v42 V0 :=
  (ops25_keep (W24 V0) main_v42 (by decide)).trans (W24_main_v42 V0)
abbrev at_main_v58 (V0 : Valuation τ sig (Elt F)) := val_main_v58 (F := F) (V0 (Proc.devRef .tc main_arg1))
theorem W25_main_v58 (V0 : Valuation τ sig (Elt F)) : W25 V0 (Proc.devRef .tc main_v58) = at_main_v58 V0 :=
  after25_main_v58 (W24 V0) _ (W24_arg V0 main_arg1 (by decide))
abbrev at_main_c_10 (V0 : Valuation τ sig (Elt F)) := val_main_c_10 (F := F)
theorem W25_main_c_10 (V0 : Valuation τ sig (Elt F)) : W25 V0 (Proc.devRef .tc main_c_10) = at_main_c_10 V0 :=
  after25_main_c_10 (W24 V0)

theorem W26_arg (V0 : Valuation τ sig (Elt F)) : ∀ r ∈ argRefs, W26 V0 (Proc.devRef .tc r) = V0 (Proc.devRef .tc r) :=
  keep_args ops26_writes (by decide) (W25_arg V0)
theorem W26_main_v8 (V0 : Valuation τ sig (Elt F)) : W26 V0 (Proc.devRef .tc main_v8) = at_main_v8 V0 :=
  (ops26_keep (W25 V0) main_v8 (by decide)).trans (W25_main_v8 V0)
theorem W26_main_v30 (V0 : Valuation τ sig (Elt F)) : W26 V0 (Proc.devRef .tc main_v30) = at_main_v30 V0 :=
  (ops26_keep (W25 V0) main_v30 (by decide)).trans (W25_main_v30 V0)
theorem W26_main_v53 (V0 : Valuation τ sig (Elt F)) : W26 V0 (Proc.devRef .tc main_v53) = at_main_v53 V0 :=
  (ops26_keep (W25 V0) main_v53 (by decide)).trans (W25_main_v53 V0)
theorem W26_main_v7 (V0 : Valuation τ sig (Elt F)) : W26 V0 (Proc.devRef .tc main_v7) = at_main_v7 V0 :=
  (ops26_keep (W25 V0) main_v7 (by decide)).trans (W25_main_v7 V0)
theorem W26_main_v42 (V0 : Valuation τ sig (Elt F)) : W26 V0 (Proc.devRef .tc main_v42) = at_main_v42 V0 :=
  (ops26_keep (W25 V0) main_v42 (by decide)).trans (W25_main_v42 V0)
theorem W26_main_v58 (V0 : Valuation τ sig (Elt F)) : W26 V0 (Proc.devRef .tc main_v58) = at_main_v58 V0 :=
  (ops26_keep (W25 V0) main_v58 (by decide)).trans (W25_main_v58 V0)
abbrev at_main_call9_v2 (V0 : Valuation τ sig (Elt F)) := val_main_call9_v2 (F := F) (V0 (Proc.devRef .tc main_arg1))
theorem W26_main_call9_v2 (V0 : Valuation τ sig (Elt F)) : W26 V0 (Proc.devRef .tc main_call9_v2) = at_main_call9_v2 V0 :=
  after26_main_call9_v2 (W25 V0) _ (W25_arg V0 main_arg1 (by decide)) (W25_main_c_10 V0)
abbrev at_main_call9_v3 (V0 : Valuation τ sig (Elt F)) := val_main_call9_v3 (F := F)
theorem W26_main_call9_v3 (V0 : Valuation τ sig (Elt F)) : W26 V0 (Proc.devRef .tc main_call9_v3) = at_main_call9_v3 V0 :=
  after26_main_call9_v3 (W25 V0)

theorem W27_arg (V0 : Valuation τ sig (Elt F)) : ∀ r ∈ argRefs, W27 V0 (Proc.devRef .tc r) = V0 (Proc.devRef .tc r) :=
  keep_args ops27_writes (by decide) (W26_arg V0)
theorem W27_main_v8 (V0 : Valuation τ sig (Elt F)) : W27 V0 (Proc.devRef .tc main_v8) = at_main_v8 V0 :=
  (ops27_keep (W26 V0) main_v8 (by decide)).trans (W26_main_v8 V0)
theorem W27_main_v30 (V0 : Valuation τ sig (Elt F)) : W27 V0 (Proc.devRef .tc main_v30) = at_main_v30 V0 :=
  (ops27_keep (W26 V0) main_v30 (by decide)).trans (W26_main_v30 V0)
theorem W27_main_v53 (V0 : Valuation τ sig (Elt F)) : W27 V0 (Proc.devRef .tc main_v53) = at_main_v53 V0 :=
  (ops27_keep (W26 V0) main_v53 (by decide)).trans (W26_main_v53 V0)
theorem W27_main_v7 (V0 : Valuation τ sig (Elt F)) : W27 V0 (Proc.devRef .tc main_v7) = at_main_v7 V0 :=
  (ops27_keep (W26 V0) main_v7 (by decide)).trans (W26_main_v7 V0)
theorem W27_main_v42 (V0 : Valuation τ sig (Elt F)) : W27 V0 (Proc.devRef .tc main_v42) = at_main_v42 V0 :=
  (ops27_keep (W26 V0) main_v42 (by decide)).trans (W26_main_v42 V0)
theorem W27_main_v58 (V0 : Valuation τ sig (Elt F)) : W27 V0 (Proc.devRef .tc main_v58) = at_main_v58 V0 :=
  (ops27_keep (W26 V0) main_v58 (by decide)).trans (W26_main_v58 V0)
abbrev at_main_v62 (V0 : Valuation τ sig (Elt F)) := val_main_v62 (F := F) (V0 (Proc.devRef .tc main_arg1))
theorem W27_main_v62 (V0 : Valuation τ sig (Elt F)) : W27 V0 (Proc.devRef .tc main_v62) = at_main_v62 V0 :=
  after27_main_v62 (W26 V0) _ (W26_main_call9_v2 V0) (W26_main_call9_v3 V0)
abbrev at_main_call10_v1 (V0 : Valuation τ sig (Elt F)) := val_main_call10_v1 (F := F) (V0 (Proc.devRef .tc main_arg1))
theorem W27_main_call10_v1 (V0 : Valuation τ sig (Elt F)) : W27 V0 (Proc.devRef .tc main_call10_v1) = at_main_call10_v1 V0 :=
  after27_main_call10_v1 (W26 V0) _ (W26_main_call9_v2 V0) (W26_main_call9_v3 V0)
abbrev at_main_call10_v2 (V0 : Valuation τ sig (Elt F)) := val_main_call10_v2 (F := F)
theorem W27_main_call10_v2 (V0 : Valuation τ sig (Elt F)) : W27 V0 (Proc.devRef .tc main_call10_v2) = at_main_call10_v2 V0 :=
  after27_main_call10_v2 (W26 V0)

theorem W28_arg (V0 : Valuation τ sig (Elt F)) : ∀ r ∈ argRefs, W28 V0 (Proc.devRef .tc r) = V0 (Proc.devRef .tc r) :=
  keep_args ops28_writes (by decide) (W27_arg V0)
theorem W28_main_v8 (V0 : Valuation τ sig (Elt F)) : W28 V0 (Proc.devRef .tc main_v8) = at_main_v8 V0 :=
  (ops28_keep (W27 V0) main_v8 (by decide)).trans (W27_main_v8 V0)
theorem W28_main_v30 (V0 : Valuation τ sig (Elt F)) : W28 V0 (Proc.devRef .tc main_v30) = at_main_v30 V0 :=
  (ops28_keep (W27 V0) main_v30 (by decide)).trans (W27_main_v30 V0)
theorem W28_main_v53 (V0 : Valuation τ sig (Elt F)) : W28 V0 (Proc.devRef .tc main_v53) = at_main_v53 V0 :=
  (ops28_keep (W27 V0) main_v53 (by decide)).trans (W27_main_v53 V0)
theorem W28_main_v7 (V0 : Valuation τ sig (Elt F)) : W28 V0 (Proc.devRef .tc main_v7) = at_main_v7 V0 :=
  (ops28_keep (W27 V0) main_v7 (by decide)).trans (W27_main_v7 V0)
theorem W28_main_v42 (V0 : Valuation τ sig (Elt F)) : W28 V0 (Proc.devRef .tc main_v42) = at_main_v42 V0 :=
  (ops28_keep (W27 V0) main_v42 (by decide)).trans (W27_main_v42 V0)
theorem W28_main_v58 (V0 : Valuation τ sig (Elt F)) : W28 V0 (Proc.devRef .tc main_v58) = at_main_v58 V0 :=
  (ops28_keep (W27 V0) main_v58 (by decide)).trans (W27_main_v58 V0)
abbrev at_main_call10_v5 (V0 : Valuation τ sig (Elt F)) := val_main_call10_v5 (F := F) (V0 (Proc.devRef .tc main_arg1))
theorem W28_main_call10_v5 (V0 : Valuation τ sig (Elt F)) : W28 V0 (Proc.devRef .tc main_call10_v5) = at_main_call10_v5 V0 :=
  after28_main_call10_v5 (W27 V0) _ (W27_main_v62 V0) (W27_main_call10_v1 V0) (W27_main_call10_v2 V0)
abbrev at_main_call10_v7 (V0 : Valuation τ sig (Elt F)) := val_main_call10_v7 (F := F) (V0 (Proc.devRef .tc main_arg1))
theorem W28_main_call10_v7 (V0 : Valuation τ sig (Elt F)) : W28 V0 (Proc.devRef .tc main_call10_v7) = at_main_call10_v7 V0 :=
  after28_main_call10_v7 (W27 V0) _ (W27_main_v62 V0) (W27_main_call10_v1 V0) (W27_main_call10_v2 V0)
abbrev at_main_call10_v8 (V0 : Valuation τ sig (Elt F)) := val_main_call10_v8 (F := F)
theorem W28_main_call10_v8 (V0 : Valuation τ sig (Elt F)) : W28 V0 (Proc.devRef .tc main_call10_v8) = at_main_call10_v8 V0 :=
  after28_main_call10_v8 (W27 V0)

theorem W29_arg (V0 : Valuation τ sig (Elt F)) : ∀ r ∈ argRefs, W29 V0 (Proc.devRef .tc r) = V0 (Proc.devRef .tc r) :=
  keep_args ops29_writes (by decide) (W28_arg V0)
theorem W29_main_v8 (V0 : Valuation τ sig (Elt F)) : W29 V0 (Proc.devRef .tc main_v8) = at_main_v8 V0 :=
  (ops29_keep (W28 V0) main_v8 (by decide)).trans (W28_main_v8 V0)
theorem W29_main_v30 (V0 : Valuation τ sig (Elt F)) : W29 V0 (Proc.devRef .tc main_v30) = at_main_v30 V0 :=
  (ops29_keep (W28 V0) main_v30 (by decide)).trans (W28_main_v30 V0)
theorem W29_main_v53 (V0 : Valuation τ sig (Elt F)) : W29 V0 (Proc.devRef .tc main_v53) = at_main_v53 V0 :=
  (ops29_keep (W28 V0) main_v53 (by decide)).trans (W28_main_v53 V0)
theorem W29_main_v7 (V0 : Valuation τ sig (Elt F)) : W29 V0 (Proc.devRef .tc main_v7) = at_main_v7 V0 :=
  (ops29_keep (W28 V0) main_v7 (by decide)).trans (W28_main_v7 V0)
theorem W29_main_v42 (V0 : Valuation τ sig (Elt F)) : W29 V0 (Proc.devRef .tc main_v42) = at_main_v42 V0 :=
  (ops29_keep (W28 V0) main_v42 (by decide)).trans (W28_main_v42 V0)
theorem W29_main_v58 (V0 : Valuation τ sig (Elt F)) : W29 V0 (Proc.devRef .tc main_v58) = at_main_v58 V0 :=
  (ops29_keep (W28 V0) main_v58 (by decide)).trans (W28_main_v58 V0)
abbrev at_main_call10_v12 (V0 : Valuation τ sig (Elt F)) := val_main_call10_v12 (F := F) (V0 (Proc.devRef .tc main_arg1))
theorem W29_main_call10_v12 (V0 : Valuation τ sig (Elt F)) : W29 V0 (Proc.devRef .tc main_call10_v12) = at_main_call10_v12 V0 :=
  after29_main_call10_v12 (W28 V0) _ (W28_main_call10_v5 V0) (W28_main_call10_v7 V0) (W28_main_call10_v8 V0)
abbrev at_main_call10_v13 (V0 : Valuation τ sig (Elt F)) := val_main_call10_v13 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg10)) (V0 (Proc.devRef .tc main_arg11)) (V0 (Proc.devRef .tc main_arg12))
theorem W29_main_call10_v13 (V0 : Valuation τ sig (Elt F)) : W29 V0 (Proc.devRef .tc main_call10_v13) = at_main_call10_v13 V0 :=
  after29_main_call10_v13 (W28 V0) _ _ _ _ _ _ _ _ _ _ (W28_main_v53 V0) (W28_main_call10_v5 V0)
abbrev at_main_call10_v14 (V0 : Valuation τ sig (Elt F)) := val_main_call10_v14 (F := F)
theorem W29_main_call10_v14 (V0 : Valuation τ sig (Elt F)) : W29 V0 (Proc.devRef .tc main_call10_v14) = at_main_call10_v14 V0 :=
  after29_main_call10_v14 (W28 V0)

theorem W30_arg (V0 : Valuation τ sig (Elt F)) : ∀ r ∈ argRefs, W30 V0 (Proc.devRef .tc r) = V0 (Proc.devRef .tc r) :=
  keep_args ops30_writes (by decide) (W29_arg V0)
theorem W30_main_v8 (V0 : Valuation τ sig (Elt F)) : W30 V0 (Proc.devRef .tc main_v8) = at_main_v8 V0 :=
  (ops30_keep (W29 V0) main_v8 (by decide)).trans (W29_main_v8 V0)
theorem W30_main_v30 (V0 : Valuation τ sig (Elt F)) : W30 V0 (Proc.devRef .tc main_v30) = at_main_v30 V0 :=
  (ops30_keep (W29 V0) main_v30 (by decide)).trans (W29_main_v30 V0)
theorem W30_main_v53 (V0 : Valuation τ sig (Elt F)) : W30 V0 (Proc.devRef .tc main_v53) = at_main_v53 V0 :=
  (ops30_keep (W29 V0) main_v53 (by decide)).trans (W29_main_v53 V0)
theorem W30_main_v7 (V0 : Valuation τ sig (Elt F)) : W30 V0 (Proc.devRef .tc main_v7) = at_main_v7 V0 :=
  (ops30_keep (W29 V0) main_v7 (by decide)).trans (W29_main_v7 V0)
abbrev at_main_v65 (V0 : Valuation τ sig (Elt F)) := val_main_v65 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12))
theorem W30_main_v65 (V0 : Valuation τ sig (Elt F)) : W30 V0 (Proc.devRef .tc main_v65) = at_main_v65 V0 :=
  after30_main_v65 (W29 V0) _ _ _ _ _ _ _ _ _ _ _ _ _ (W29_main_v42 V0) (W29_main_v58 V0) (W29_main_call10_v12 V0) (W29_main_call10_v13 V0) (W29_main_call10_v14 V0)

theorem W31_arg (V0 : Valuation τ sig (Elt F)) : ∀ r ∈ argRefs, W31 V0 (Proc.devRef .tc r) = V0 (Proc.devRef .tc r) :=
  keep_args ops31_writes (by decide) (W30_arg V0)
theorem W31_main_v8 (V0 : Valuation τ sig (Elt F)) : W31 V0 (Proc.devRef .tc main_v8) = at_main_v8 V0 :=
  (ops31_keep (W30 V0) main_v8 (by decide)).trans (W30_main_v8 V0)
theorem W31_main_v30 (V0 : Valuation τ sig (Elt F)) : W31 V0 (Proc.devRef .tc main_v30) = at_main_v30 V0 :=
  (ops31_keep (W30 V0) main_v30 (by decide)).trans (W30_main_v30 V0)
theorem W31_main_v53 (V0 : Valuation τ sig (Elt F)) : W31 V0 (Proc.devRef .tc main_v53) = at_main_v53 V0 :=
  (ops31_keep (W30 V0) main_v53 (by decide)).trans (W30_main_v53 V0)
abbrev at_main_v70 (V0 : Valuation τ sig (Elt F)) := val_main_v70 (F := F) (V0 (Proc.devRef .tc main_arg0)) (V0 (Proc.devRef .tc main_arg13)) (V0 (Proc.devRef .tc main_arg14)) (V0 (Proc.devRef .tc main_arg15))
theorem W31_main_v70 (V0 : Valuation τ sig (Elt F)) : W31 V0 (Proc.devRef .tc main_v70) = at_main_v70 V0 :=
  after31_main_v70 (W30 V0) _ _ _ _ (W30_arg V0 main_arg0 (by decide)) (W30_arg V0 main_arg13 (by decide)) (W30_arg V0 main_arg14 (by decide)) (W30_arg V0 main_arg15 (by decide))
abbrev at_main_call12_v0 (V0 : Valuation τ sig (Elt F)) := val_main_call12_v0 (F := F) (V0 (Proc.devRef .tc main_arg0)) (V0 (Proc.devRef .tc main_arg13)) (V0 (Proc.devRef .tc main_arg14)) (V0 (Proc.devRef .tc main_arg15))
theorem W31_main_call12_v0 (V0 : Valuation τ sig (Elt F)) : W31 V0 (Proc.devRef .tc main_call12_v0) = at_main_call12_v0 V0 :=
  after31_main_call12_v0 (W30 V0) _ _ _ _ (W30_arg V0 main_arg0 (by decide)) (W30_arg V0 main_arg13 (by decide)) (W30_arg V0 main_arg14 (by decide)) (W30_arg V0 main_arg15 (by decide))
abbrev at_main_call12_cst_0 (V0 : Valuation τ sig (Elt F)) := val_main_call12_cst_0 (F := F)
theorem W31_main_call12_cst_0 (V0 : Valuation τ sig (Elt F)) : W31 V0 (Proc.devRef .tc main_call12_cst_0) = at_main_call12_cst_0 V0 :=
  after31_main_call12_cst_0 (W30 V0)
theorem W31_main_v7 (V0 : Valuation τ sig (Elt F)) : W31 V0 (Proc.devRef .tc main_v7) = at_main_v7 V0 :=
  (ops31_keep (W30 V0) main_v7 (by decide)).trans (W30_main_v7 V0)
theorem W31_main_v65 (V0 : Valuation τ sig (Elt F)) : W31 V0 (Proc.devRef .tc main_v65) = at_main_v65 V0 :=
  (ops31_keep (W30 V0) main_v65 (by decide)).trans (W30_main_v65 V0)

theorem W32_arg (V0 : Valuation τ sig (Elt F)) : ∀ r ∈ argRefs, W32 V0 (Proc.devRef .tc r) = V0 (Proc.devRef .tc r) :=
  keep_args ops32_writes (by decide) (W31_arg V0)
theorem W32_main_v8 (V0 : Valuation τ sig (Elt F)) : W32 V0 (Proc.devRef .tc main_v8) = at_main_v8 V0 :=
  (ops32_keep (W31 V0) main_v8 (by decide)).trans (W31_main_v8 V0)
theorem W32_main_v30 (V0 : Valuation τ sig (Elt F)) : W32 V0 (Proc.devRef .tc main_v30) = at_main_v30 V0 :=
  (ops32_keep (W31 V0) main_v30 (by decide)).trans (W31_main_v30 V0)
theorem W32_main_v53 (V0 : Valuation τ sig (Elt F)) : W32 V0 (Proc.devRef .tc main_v53) = at_main_v53 V0 :=
  (ops32_keep (W31 V0) main_v53 (by decide)).trans (W31_main_v53 V0)
abbrev at_main_call12_v5 (V0 : Valuation τ sig (Elt F)) := val_main_call12_v5 (F := F) (V0 (Proc.devRef .tc main_arg0)) (V0 (Proc.devRef .tc main_arg13)) (V0 (Proc.devRef .tc main_arg14)) (V0 (Proc.devRef .tc main_arg15))
theorem W32_main_call12_v5 (V0 : Valuation τ sig (Elt F)) : W32 V0 (Proc.devRef .tc main_call12_v5) = at_main_call12_v5 V0 :=
  after32_main_call12_v5 (W31 V0) _ _ _ _ (W31_main_v70 V0) (W31_main_call12_v0 V0) (W31_main_call12_cst_0 V0)
abbrev at_main_call12_v7 (V0 : Valuation τ sig (Elt F)) := val_main_call12_v7 (F := F) (V0 (Proc.devRef .tc main_arg0)) (V0 (Proc.devRef .tc main_arg13)) (V0 (Proc.devRef .tc main_arg14)) (V0 (Proc.devRef .tc main_arg15))
theorem W32_main_call12_v7 (V0 : Valuation τ sig (Elt F)) : W32 V0 (Proc.devRef .tc main_call12_v7) = at_main_call12_v7 V0 :=
  after32_main_call12_v7 (W31 V0) _ _ _ _ (W31_main_v70 V0) (W31_main_call12_v0 V0) (W31_main_call12_cst_0 V0)
theorem W32_main_v7 (V0 : Valuation τ sig (Elt F)) : W32 V0 (Proc.devRef .tc main_v7) = at_main_v7 V0 :=
  (ops32_keep (W31 V0) main_v7 (by decide)).trans (W31_main_v7 V0)
theorem W32_main_v65 (V0 : Valuation τ sig (Elt F)) : W32 V0 (Proc.devRef .tc main_v65) = at_main_v65 V0 :=
  (ops32_keep (W31 V0) main_v65 (by decide)).trans (W31_main_v65 V0)

theorem W33_arg (V0 : Valuation τ sig (Elt F)) : ∀ r ∈ argRefs, W33 V0 (Proc.devRef .tc r) = V0 (Proc.devRef .tc r) :=
  keep_args ops33_writes (by decide) (W32_arg V0)
theorem W33_main_v8 (V0 : Valuation τ sig (Elt F)) : W33 V0 (Proc.devRef .tc main_v8) = at_main_v8 V0 :=
  (ops33_keep (W32 V0) main_v8 (by decide)).trans (W32_main_v8 V0)
theorem W33_main_v30 (V0 : Valuation τ sig (Elt F)) : W33 V0 (Proc.devRef .tc main_v30) = at_main_v30 V0 :=
  (ops33_keep (W32 V0) main_v30 (by decide)).trans (W32_main_v30 V0)
theorem W33_main_v53 (V0 : Valuation τ sig (Elt F)) : W33 V0 (Proc.devRef .tc main_v53) = at_main_v53 V0 :=
  (ops33_keep (W32 V0) main_v53 (by decide)).trans (W32_main_v53 V0)
abbrev at_main_v71 (V0 : Valuation τ sig (Elt F)) := val_main_v71 (F := F) (V0 (Proc.devRef .tc main_arg0)) (V0 (Proc.devRef .tc main_arg13)) (V0 (Proc.devRef .tc main_arg14)) (V0 (Proc.devRef .tc main_arg15))
theorem W33_main_v71 (V0 : Valuation τ sig (Elt F)) : W33 V0 (Proc.devRef .tc main_v71) = at_main_v71 V0 :=
  after33_main_v71 (W32 V0) _ _ _ _ (W32_main_call12_v5 V0) (W32_main_call12_v7 V0)
abbrev at_main_v75 (V0 : Valuation τ sig (Elt F)) := val_main_v75 (F := F) (V0 (Proc.devRef .tc main_arg0)) (V0 (Proc.devRef .tc main_arg2)) (V0 (Proc.devRef .tc main_arg3)) (V0 (Proc.devRef .tc main_arg4)) (V0 (Proc.devRef .tc main_arg5)) (V0 (Proc.devRef .tc main_arg6))
theorem W33_main_v75 (V0 : Valuation τ sig (Elt F)) : W33 V0 (Proc.devRef .tc main_v75) = at_main_v75 V0 :=
  after33_main_v75 (W32 V0) _ _ _ _ _ _ (W32_main_v7 V0)
theorem W33_main_v65 (V0 : Valuation τ sig (Elt F)) : W33 V0 (Proc.devRef .tc main_v65) = at_main_v65 V0 :=
  (ops33_keep (W32 V0) main_v65 (by decide)).trans (W32_main_v65 V0)

theorem W34_arg (V0 : Valuation τ sig (Elt F)) : ∀ r ∈ argRefs, W34 V0 (Proc.devRef .tc r) = V0 (Proc.devRef .tc r) :=
  keep_args ops34_writes (by decide) (W33_arg V0)
theorem W34_main_v8 (V0 : Valuation τ sig (Elt F)) : W34 V0 (Proc.devRef .tc main_v8) = at_main_v8 V0 :=
  (ops34_keep (W33 V0) main_v8 (by decide)).trans (W33_main_v8 V0)
theorem W34_main_v30 (V0 : Valuation τ sig (Elt F)) : W34 V0 (Proc.devRef .tc main_v30) = at_main_v30 V0 :=
  (ops34_keep (W33 V0) main_v30 (by decide)).trans (W33_main_v30 V0)
theorem W34_main_v53 (V0 : Valuation τ sig (Elt F)) : W34 V0 (Proc.devRef .tc main_v53) = at_main_v53 V0 :=
  (ops34_keep (W33 V0) main_v53 (by decide)).trans (W33_main_v53 V0)
abbrev at_main_v76 (V0 : Valuation τ sig (Elt F)) := val_main_v76 (F := F) (V0 (Proc.devRef .tc main_arg0)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg13)) (V0 (Proc.devRef .tc main_arg14)) (V0 (Proc.devRef .tc main_arg15))
theorem W34_main_v76 (V0 : Valuation τ sig (Elt F)) : W34 V0 (Proc.devRef .tc main_v76) = at_main_v76 V0 :=
  after34_main_v76 (W33 V0) _ _ _ _ _ _ _ _ _ (W33_main_v71 V0) (W33_main_v75 V0)
theorem W34_main_v65 (V0 : Valuation τ sig (Elt F)) : W34 V0 (Proc.devRef .tc main_v65) = at_main_v65 V0 :=
  (ops34_keep (W33 V0) main_v65 (by decide)).trans (W33_main_v65 V0)

theorem W35_arg (V0 : Valuation τ sig (Elt F)) : ∀ r ∈ argRefs, W35 V0 (Proc.devRef .tc r) = V0 (Proc.devRef .tc r) :=
  keep_args ops35_writes (by decide) (W34_arg V0)
theorem W35_main_v8 (V0 : Valuation τ sig (Elt F)) : W35 V0 (Proc.devRef .tc main_v8) = at_main_v8 V0 :=
  (ops35_keep (W34 V0) main_v8 (by decide)).trans (W34_main_v8 V0)
theorem W35_main_v30 (V0 : Valuation τ sig (Elt F)) : W35 V0 (Proc.devRef .tc main_v30) = at_main_v30 V0 :=
  (ops35_keep (W34 V0) main_v30 (by decide)).trans (W34_main_v30 V0)
theorem W35_main_v53 (V0 : Valuation τ sig (Elt F)) : W35 V0 (Proc.devRef .tc main_v53) = at_main_v53 V0 :=
  (ops35_keep (W34 V0) main_v53 (by decide)).trans (W34_main_v53 V0)
theorem W35_main_v76 (V0 : Valuation τ sig (Elt F)) : W35 V0 (Proc.devRef .tc main_v76) = at_main_v76 V0 :=
  (ops35_keep (W34 V0) main_v76 (by decide)).trans (W34_main_v76 V0)
theorem W35_main_v65 (V0 : Valuation τ sig (Elt F)) : W35 V0 (Proc.devRef .tc main_v65) = at_main_v65 V0 :=
  (ops35_keep (W34 V0) main_v65 (by decide)).trans (W34_main_v65 V0)
abbrev at_main_v81 (V0 : Valuation τ sig (Elt F)) := val_main_v81 (F := F) (V0 (Proc.devRef .tc main_arg1))
theorem W35_main_v81 (V0 : Valuation τ sig (Elt F)) : W35 V0 (Proc.devRef .tc main_v81) = at_main_v81 V0 :=
  after35_main_v81 (W34 V0) _ (W34_arg V0 main_arg1 (by decide))
abbrev at_main_c_15 (V0 : Valuation τ sig (Elt F)) := val_main_c_15 (F := F)
theorem W35_main_c_15 (V0 : Valuation τ sig (Elt F)) : W35 V0 (Proc.devRef .tc main_c_15) = at_main_c_15 V0 :=
  after35_main_c_15 (W34 V0)

theorem W36_arg (V0 : Valuation τ sig (Elt F)) : ∀ r ∈ argRefs, W36 V0 (Proc.devRef .tc r) = V0 (Proc.devRef .tc r) :=
  keep_args ops36_writes (by decide) (W35_arg V0)
theorem W36_main_v8 (V0 : Valuation τ sig (Elt F)) : W36 V0 (Proc.devRef .tc main_v8) = at_main_v8 V0 :=
  (ops36_keep (W35 V0) main_v8 (by decide)).trans (W35_main_v8 V0)
theorem W36_main_v30 (V0 : Valuation τ sig (Elt F)) : W36 V0 (Proc.devRef .tc main_v30) = at_main_v30 V0 :=
  (ops36_keep (W35 V0) main_v30 (by decide)).trans (W35_main_v30 V0)
theorem W36_main_v53 (V0 : Valuation τ sig (Elt F)) : W36 V0 (Proc.devRef .tc main_v53) = at_main_v53 V0 :=
  (ops36_keep (W35 V0) main_v53 (by decide)).trans (W35_main_v53 V0)
theorem W36_main_v76 (V0 : Valuation τ sig (Elt F)) : W36 V0 (Proc.devRef .tc main_v76) = at_main_v76 V0 :=
  (ops36_keep (W35 V0) main_v76 (by decide)).trans (W35_main_v76 V0)
theorem W36_main_v65 (V0 : Valuation τ sig (Elt F)) : W36 V0 (Proc.devRef .tc main_v65) = at_main_v65 V0 :=
  (ops36_keep (W35 V0) main_v65 (by decide)).trans (W35_main_v65 V0)
theorem W36_main_v81 (V0 : Valuation τ sig (Elt F)) : W36 V0 (Proc.devRef .tc main_v81) = at_main_v81 V0 :=
  (ops36_keep (W35 V0) main_v81 (by decide)).trans (W35_main_v81 V0)
abbrev at_main_call13_v2 (V0 : Valuation τ sig (Elt F)) := val_main_call13_v2 (F := F) (V0 (Proc.devRef .tc main_arg1))
theorem W36_main_call13_v2 (V0 : Valuation τ sig (Elt F)) : W36 V0 (Proc.devRef .tc main_call13_v2) = at_main_call13_v2 V0 :=
  after36_main_call13_v2 (W35 V0) _ (W35_arg V0 main_arg1 (by decide)) (W35_main_c_15 V0)
abbrev at_main_call13_v3 (V0 : Valuation τ sig (Elt F)) := val_main_call13_v3 (F := F)
theorem W36_main_call13_v3 (V0 : Valuation τ sig (Elt F)) : W36 V0 (Proc.devRef .tc main_call13_v3) = at_main_call13_v3 V0 :=
  after36_main_call13_v3 (W35 V0)

theorem W37_arg (V0 : Valuation τ sig (Elt F)) : ∀ r ∈ argRefs, W37 V0 (Proc.devRef .tc r) = V0 (Proc.devRef .tc r) :=
  keep_args ops37_writes (by decide) (W36_arg V0)
theorem W37_main_v8 (V0 : Valuation τ sig (Elt F)) : W37 V0 (Proc.devRef .tc main_v8) = at_main_v8 V0 :=
  (ops37_keep (W36 V0) main_v8 (by decide)).trans (W36_main_v8 V0)
theorem W37_main_v30 (V0 : Valuation τ sig (Elt F)) : W37 V0 (Proc.devRef .tc main_v30) = at_main_v30 V0 :=
  (ops37_keep (W36 V0) main_v30 (by decide)).trans (W36_main_v30 V0)
theorem W37_main_v53 (V0 : Valuation τ sig (Elt F)) : W37 V0 (Proc.devRef .tc main_v53) = at_main_v53 V0 :=
  (ops37_keep (W36 V0) main_v53 (by decide)).trans (W36_main_v53 V0)
theorem W37_main_v76 (V0 : Valuation τ sig (Elt F)) : W37 V0 (Proc.devRef .tc main_v76) = at_main_v76 V0 :=
  (ops37_keep (W36 V0) main_v76 (by decide)).trans (W36_main_v76 V0)
theorem W37_main_v65 (V0 : Valuation τ sig (Elt F)) : W37 V0 (Proc.devRef .tc main_v65) = at_main_v65 V0 :=
  (ops37_keep (W36 V0) main_v65 (by decide)).trans (W36_main_v65 V0)
theorem W37_main_v81 (V0 : Valuation τ sig (Elt F)) : W37 V0 (Proc.devRef .tc main_v81) = at_main_v81 V0 :=
  (ops37_keep (W36 V0) main_v81 (by decide)).trans (W36_main_v81 V0)
abbrev at_main_v85 (V0 : Valuation τ sig (Elt F)) := val_main_v85 (F := F) (V0 (Proc.devRef .tc main_arg1))
theorem W37_main_v85 (V0 : Valuation τ sig (Elt F)) : W37 V0 (Proc.devRef .tc main_v85) = at_main_v85 V0 :=
  after37_main_v85 (W36 V0) _ (W36_main_call13_v2 V0) (W36_main_call13_v3 V0)
abbrev at_main_call14_v1 (V0 : Valuation τ sig (Elt F)) := val_main_call14_v1 (F := F) (V0 (Proc.devRef .tc main_arg1))
theorem W37_main_call14_v1 (V0 : Valuation τ sig (Elt F)) : W37 V0 (Proc.devRef .tc main_call14_v1) = at_main_call14_v1 V0 :=
  after37_main_call14_v1 (W36 V0) _ (W36_main_call13_v2 V0) (W36_main_call13_v3 V0)
abbrev at_main_call14_v2 (V0 : Valuation τ sig (Elt F)) := val_main_call14_v2 (F := F)
theorem W37_main_call14_v2 (V0 : Valuation τ sig (Elt F)) : W37 V0 (Proc.devRef .tc main_call14_v2) = at_main_call14_v2 V0 :=
  after37_main_call14_v2 (W36 V0)

theorem W38_arg (V0 : Valuation τ sig (Elt F)) : ∀ r ∈ argRefs, W38 V0 (Proc.devRef .tc r) = V0 (Proc.devRef .tc r) :=
  keep_args ops38_writes (by decide) (W37_arg V0)
theorem W38_main_v8 (V0 : Valuation τ sig (Elt F)) : W38 V0 (Proc.devRef .tc main_v8) = at_main_v8 V0 :=
  (ops38_keep (W37 V0) main_v8 (by decide)).trans (W37_main_v8 V0)
theorem W38_main_v30 (V0 : Valuation τ sig (Elt F)) : W38 V0 (Proc.devRef .tc main_v30) = at_main_v30 V0 :=
  (ops38_keep (W37 V0) main_v30 (by decide)).trans (W37_main_v30 V0)
theorem W38_main_v53 (V0 : Valuation τ sig (Elt F)) : W38 V0 (Proc.devRef .tc main_v53) = at_main_v53 V0 :=
  (ops38_keep (W37 V0) main_v53 (by decide)).trans (W37_main_v53 V0)
theorem W38_main_v76 (V0 : Valuation τ sig (Elt F)) : W38 V0 (Proc.devRef .tc main_v76) = at_main_v76 V0 :=
  (ops38_keep (W37 V0) main_v76 (by decide)).trans (W37_main_v76 V0)
theorem W38_main_v65 (V0 : Valuation τ sig (Elt F)) : W38 V0 (Proc.devRef .tc main_v65) = at_main_v65 V0 :=
  (ops38_keep (W37 V0) main_v65 (by decide)).trans (W37_main_v65 V0)
theorem W38_main_v81 (V0 : Valuation τ sig (Elt F)) : W38 V0 (Proc.devRef .tc main_v81) = at_main_v81 V0 :=
  (ops38_keep (W37 V0) main_v81 (by decide)).trans (W37_main_v81 V0)
abbrev at_main_call14_v5 (V0 : Valuation τ sig (Elt F)) := val_main_call14_v5 (F := F) (V0 (Proc.devRef .tc main_arg1))
theorem W38_main_call14_v5 (V0 : Valuation τ sig (Elt F)) : W38 V0 (Proc.devRef .tc main_call14_v5) = at_main_call14_v5 V0 :=
  after38_main_call14_v5 (W37 V0) _ (W37_main_v85 V0) (W37_main_call14_v1 V0) (W37_main_call14_v2 V0)
abbrev at_main_call14_v7 (V0 : Valuation τ sig (Elt F)) := val_main_call14_v7 (F := F) (V0 (Proc.devRef .tc main_arg1))
theorem W38_main_call14_v7 (V0 : Valuation τ sig (Elt F)) : W38 V0 (Proc.devRef .tc main_call14_v7) = at_main_call14_v7 V0 :=
  after38_main_call14_v7 (W37 V0) _ (W37_main_v85 V0) (W37_main_call14_v1 V0) (W37_main_call14_v2 V0)
abbrev at_main_call14_v8 (V0 : Valuation τ sig (Elt F)) := val_main_call14_v8 (F := F)
theorem W38_main_call14_v8 (V0 : Valuation τ sig (Elt F)) : W38 V0 (Proc.devRef .tc main_call14_v8) = at_main_call14_v8 V0 :=
  after38_main_call14_v8 (W37 V0)

theorem W39_arg (V0 : Valuation τ sig (Elt F)) : ∀ r ∈ argRefs, W39 V0 (Proc.devRef .tc r) = V0 (Proc.devRef .tc r) :=
  keep_args ops39_writes (by decide) (W38_arg V0)
theorem W39_main_v8 (V0 : Valuation τ sig (Elt F)) : W39 V0 (Proc.devRef .tc main_v8) = at_main_v8 V0 :=
  (ops39_keep (W38 V0) main_v8 (by decide)).trans (W38_main_v8 V0)
theorem W39_main_v30 (V0 : Valuation τ sig (Elt F)) : W39 V0 (Proc.devRef .tc main_v30) = at_main_v30 V0 :=
  (ops39_keep (W38 V0) main_v30 (by decide)).trans (W38_main_v30 V0)
theorem W39_main_v53 (V0 : Valuation τ sig (Elt F)) : W39 V0 (Proc.devRef .tc main_v53) = at_main_v53 V0 :=
  (ops39_keep (W38 V0) main_v53 (by decide)).trans (W38_main_v53 V0)
theorem W39_main_v76 (V0 : Valuation τ sig (Elt F)) : W39 V0 (Proc.devRef .tc main_v76) = at_main_v76 V0 :=
  (ops39_keep (W38 V0) main_v76 (by decide)).trans (W38_main_v76 V0)
theorem W39_main_v65 (V0 : Valuation τ sig (Elt F)) : W39 V0 (Proc.devRef .tc main_v65) = at_main_v65 V0 :=
  (ops39_keep (W38 V0) main_v65 (by decide)).trans (W38_main_v65 V0)
theorem W39_main_v81 (V0 : Valuation τ sig (Elt F)) : W39 V0 (Proc.devRef .tc main_v81) = at_main_v81 V0 :=
  (ops39_keep (W38 V0) main_v81 (by decide)).trans (W38_main_v81 V0)
abbrev at_main_call14_v12 (V0 : Valuation τ sig (Elt F)) := val_main_call14_v12 (F := F) (V0 (Proc.devRef .tc main_arg1))
theorem W39_main_call14_v12 (V0 : Valuation τ sig (Elt F)) : W39 V0 (Proc.devRef .tc main_call14_v12) = at_main_call14_v12 V0 :=
  after39_main_call14_v12 (W38 V0) _ (W38_main_call14_v5 V0) (W38_main_call14_v7 V0) (W38_main_call14_v8 V0)
abbrev at_main_call14_v13 (V0 : Valuation τ sig (Elt F)) := val_main_call14_v13 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg13)) (V0 (Proc.devRef .tc main_arg14)) (V0 (Proc.devRef .tc main_arg15))
theorem W39_main_call14_v13 (V0 : Valuation τ sig (Elt F)) : W39 V0 (Proc.devRef .tc main_call14_v13) = at_main_call14_v13 V0 :=
  after39_main_call14_v13 (W38 V0) _ _ _ _ _ _ _ _ _ _ (W38_main_v76 V0) (W38_main_call14_v5 V0)
abbrev at_main_call14_v14 (V0 : Valuation τ sig (Elt F)) := val_main_call14_v14 (F := F)
theorem W39_main_call14_v14 (V0 : Valuation τ sig (Elt F)) : W39 V0 (Proc.devRef .tc main_call14_v14) = at_main_call14_v14 V0 :=
  after39_main_call14_v14 (W38 V0)

theorem W40_arg (V0 : Valuation τ sig (Elt F)) : ∀ r ∈ argRefs, W40 V0 (Proc.devRef .tc r) = V0 (Proc.devRef .tc r) :=
  keep_args ops40_writes (by decide) (W39_arg V0)
theorem W40_main_v8 (V0 : Valuation τ sig (Elt F)) : W40 V0 (Proc.devRef .tc main_v8) = at_main_v8 V0 :=
  (ops40_keep (W39 V0) main_v8 (by decide)).trans (W39_main_v8 V0)
theorem W40_main_v30 (V0 : Valuation τ sig (Elt F)) : W40 V0 (Proc.devRef .tc main_v30) = at_main_v30 V0 :=
  (ops40_keep (W39 V0) main_v30 (by decide)).trans (W39_main_v30 V0)
theorem W40_main_v53 (V0 : Valuation τ sig (Elt F)) : W40 V0 (Proc.devRef .tc main_v53) = at_main_v53 V0 :=
  (ops40_keep (W39 V0) main_v53 (by decide)).trans (W39_main_v53 V0)
theorem W40_main_v76 (V0 : Valuation τ sig (Elt F)) : W40 V0 (Proc.devRef .tc main_v76) = at_main_v76 V0 :=
  (ops40_keep (W39 V0) main_v76 (by decide)).trans (W39_main_v76 V0)
abbrev at_main_v88 (V0 : Valuation τ sig (Elt F)) := val_main_v88 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15))
theorem W40_main_v88 (V0 : Valuation τ sig (Elt F)) : W40 V0 (Proc.devRef .tc main_v88) = at_main_v88 V0 :=
  after40_main_v88 (W39 V0) _ _ _ _ _ _ _ _ _ _ _ _ _ _ _ _ (W39_main_v65 V0) (W39_main_v81 V0) (W39_main_call14_v12 V0) (W39_main_call14_v13 V0) (W39_main_call14_v14 V0)

theorem W41_arg (V0 : Valuation τ sig (Elt F)) : ∀ r ∈ argRefs, W41 V0 (Proc.devRef .tc r) = V0 (Proc.devRef .tc r) :=
  keep_args ops41_writes (by decide) (W40_arg V0)
abbrev at_main_v89 (V0 : Valuation τ sig (Elt F)) := val_main_v89 (F := F) (V0 (Proc.devRef .tc main_arg0)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15))
theorem W41_main_v89 (V0 : Valuation τ sig (Elt F)) : W41 V0 (Proc.devRef .tc main_v89) = at_main_v89 V0 :=
  after41_main_v89 (W40 V0) _ _ _ _ _ _ _ _ _ _ _ _ _ _ _ (W40_main_v8 V0) (W40_main_v30 V0) (W40_main_v53 V0) (W40_main_v76 V0)
abbrev at_main_v92 (V0 : Valuation τ sig (Elt F)) := val_main_v92 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15))
theorem W41_main_v92 (V0 : Valuation τ sig (Elt F)) : W41 V0 (Proc.devRef .tc main_v92) = at_main_v92 V0 :=
  after41_main_v92 (W40 V0) _ _ _ _ _ _ _ _ _ _ _ _ _ _ _ _ (W40_main_v88 V0)

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v89) = val_main_v89 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_v92) = val_main_v92 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c main_v89).trans ((congrFun (after_ops _) _).trans (W41_main_v89 _)),
      (h c main_v92).trans ((congrFun (after_ops _) _).trans (W41_main_v92 _)),
      (h c main_arg0).trans ((congrFun (after_ops _) _).trans (W41_arg _ main_arg0 (by decide))),
      (h c main_arg1).trans ((congrFun (after_ops _) _).trans (W41_arg _ main_arg1 (by decide))),
      (h c main_arg2).trans ((congrFun (after_ops _) _).trans (W41_arg _ main_arg2 (by decide))),
      (h c main_arg3).trans ((congrFun (after_ops _) _).trans (W41_arg _ main_arg3 (by decide))),
      (h c main_arg4).trans ((congrFun (after_ops _) _).trans (W41_arg _ main_arg4 (by decide))),
      (h c main_arg5).trans ((congrFun (after_ops _) _).trans (W41_arg _ main_arg5 (by decide))),
      (h c main_arg6).trans ((congrFun (after_ops _) _).trans (W41_arg _ main_arg6 (by decide))),
      (h c main_arg7).trans ((congrFun (after_ops _) _).trans (W41_arg _ main_arg7 (by decide))),
      (h c main_arg8).trans ((congrFun (after_ops _) _).trans (W41_arg _ main_arg8 (by decide))),
      (h c main_arg9).trans ((congrFun (after_ops _) _).trans (W41_arg _ main_arg9 (by decide))),
      (h c main_arg10).trans ((congrFun (after_ops _) _).trans (W41_arg _ main_arg10 (by decide))),
      (h c main_arg11).trans ((congrFun (after_ops _) _).trans (W41_arg _ main_arg11 (by decide))),
      (h c main_arg12).trans ((congrFun (after_ops _) _).trans (W41_arg _ main_arg12 (by decide))),
      (h c main_arg13).trans ((congrFun (after_ops _) _).trans (W41_arg _ main_arg13 (by decide))),
      (h c main_arg14).trans ((congrFun (after_ops _) _).trans (W41_arg _ main_arg14 (by decide))),
      (h c main_arg15).trans ((congrFun (after_ops _) _).trans (W41_arg _ main_arg15 (by decide)))⟩)
    (run_seq scopedRefs_eq scopedSems_eq defs main (fun _ => ops) main_eq (fun _ => ops_sub) m ρ (fun _ => ops_fresh))

end Cert.ReferenceIdeal.RunHand

end
-- ==== Proof.RefRunSpec.lean ====
import proofs.«138250_j73134703116926_1_alg».proof.Proof.RefValue
import proofs.«138250_j73134703116926_1_alg».proof.Proof.RefRunHand

noncomputable section

open scoped BigOperators

namespace Cert.ReferenceIdeal.RefValue

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx
open AdaptiveSpec AdaptiveSpec.Reads

abbrev argsOf (m : (ℓ : Loc nD τ sig) → Buf (Elt Ideal) ℓ) (c : Dev nD) : AdaptiveSpec.Args :=
  args (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))

theorem ref_out (m : (ℓ : Loc nD τ sig) → Buf (Elt Ideal) ℓ) (c : Dev nD) :
    val_main_v89 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) = (argsOf m c).out :=
  funext fun i => out_spec _ _ _ _ _ _ _ _ _ _ _ _ _ _ _ _ i

theorem ref_loss (m : (ℓ : Loc nD τ sig) → Buf (Elt Ideal) ℓ) (c : Dev nD) :
    val_main_v92 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) = (argsOf m c).loss :=
  funext fun i => loss_spec _ _ _ _ _ _ _ _ _ _ _ _ _ _ _ _ i

theorem run_spec (m' : (ℓ : Loc nD τ sig) → Buf (Elt Ideal) ℓ) (ρ' : Dev nD → PrngReg) :
    θ_run (defs (F := Ideal)) (onTc (τ := τ) (main (F := Ideal))) ⟨m', fun _ => 0, ρ'⟩ fun r => ∀ c : Dev nD,
      r.2.mem ((c.tc : Thread nD τ).loc main_v89) = (argsOf m' c).out
      ∧ r.2.mem ((c.tc : Thread nD τ).loc main_v92) = (argsOf m' c).loss
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12)
      ∧ r.2.mem ((c.tc : Thread nD τ).loc main_arg13) = m' ((c.tc : Thread nD τ).loc main_arg13)
      ∧ r.2.mem ((c.tc : Thread nD τ).loc main_arg14) = m' ((c.tc : Thread nD τ).loc main_arg14)
      ∧ r.2.mem ((c.tc : Thread nD τ).loc main_arg15) = m' ((c.tc : Thread nD τ).loc main_arg15) :=
  (θ_run defs _ _).mono
    (fun _ h c => ⟨(h c).1.trans (ref_out m' c), (h c).2.1.trans (ref_loss m' c), (h c).2.2⟩)
    (Cert.ReferenceIdeal.RunHand.run (F := Ideal) m' ρ')

end Cert.ReferenceIdeal.RefValue

end
-- ==== Proof.Final.lean ====
import proofs.«138250_j73134703116926_1_alg».proof.Defs
import proofs.«138250_j73134703116926_1_alg».proof.Proof.Gen.KernelIdeal
import proofs.«138250_j73134703116926_1_alg».proof.Proof.Gen.ReferenceIdeal
import proofs.«138250_j73134703116926_1_alg».proof.Proof.Gen.Pre_finite_inputs
import proofs.«138250_j73134703116926_1_alg».proof.Proof.FiniteInputs
import proofs.«138250_j73134703116926_1_alg».proof.Proof.IdealRun
import proofs.«138250_j73134703116926_1_alg».proof.Proof.KernelOutValue
import proofs.«138250_j73134703116926_1_alg».proof.Proof.KernelLossFinal
import proofs.«138250_j73134703116926_1_alg».proof.Proof.RefRunSpec

noncomputable section

namespace Cert.Proof

open Idealize.ShloMosaic Idealize.SL.Sem

theorem frame_KernelIdeal' : @Cert.frame_KernelIdeal Cert.KernelIdeal.Gen.facts Cert.Pre_finite_inputs.Gen.facts :=
  fun m ρ _ => (θ_run Cert.KernelIdeal.defs _ _).mono (fun _ h c => (h c).2.2) (Cert.KernelIdeal.IdealRun.run m ρ)

theorem frame_ReferenceIdeal' : @Cert.frame_ReferenceIdeal Cert.ReferenceIdeal.Gen.facts Cert.Pre_finite_inputs.Gen.facts :=
  fun m ρ _ => (θ_run Cert.ReferenceIdeal.defs _ _).mono (fun _ h c => (h c).2.2) (Cert.ReferenceIdeal.RefValue.run_spec m ρ)

theorem args_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) :
    Cert.ReferenceIdeal.RefValue.argsOf m' c = Cert.KernelIdeal.OutValue.argsOf m c := by
  obtain ⟨h0, h1, h2, h3, h4, h5, h6, h7, h8, h9, h10, h11, h12, h13, h14, h15⟩ := h
  show AdaptiveSpec.Args.mk _ _ _ _ _ _ _ _ _ _ _ _ _ _ _ _ = AdaptiveSpec.Args.mk _ _ _ _ _ _ _ _ _ _ _ _ _ _ _ _
  congr 1

theorem algebraic' : @Cert.algebraic_KernelIdeal_ReferenceIdeal Cert.KernelIdeal.Gen.facts Cert.ReferenceIdeal.Gen.facts
    Cert.Pre_finite_inputs.Gen.facts := by
  intro m ρ m' ρ' hpre hagree
  have hR := Cert.FiniteInputs.reals_of_pre m hpre
  refine ⟨fun c => (Cert.KernelIdeal.OutValue.argsOf m c).out, fun c => (Cert.KernelIdeal.OutValue.argsOf m c).loss, ?_, ?_⟩
  · exact (θ_run Cert.KernelIdeal.defs _ _).mono
      (fun _ h c => ⟨(h c).1.trans (Cert.KernelIdeal.OutValue.out_eq_spec m hR c),
        (h c).2.1.trans (Cert.KernelIdeal.LossValue.loss_final m hR c), (h c).2.2⟩)
      (Cert.KernelIdeal.IdealRun.run m ρ)
  · refine (θ_run Cert.ReferenceIdeal.defs _ _).mono (fun _ h c => ⟨(h c).1.trans ?_, (h c).2.1.trans ?_, (h c).2.2⟩)
      (Cert.ReferenceIdeal.RefValue.run_spec m' ρ')
    · rw [args_agree m m' c (hagree c)]
    · rw [args_agree m m' c (hagree c)]

end Cert.Proof

end
-- ==== Proof.lean ====
import proofs.«138250_j73134703116926_1_alg».proof.Defs
import proofs.«138250_j73134703116926_1_alg».proof.Proof.Gen.Kernel
import proofs.«138250_j73134703116926_1_alg».proof.Proof.Gen.KernelIdeal
import proofs.«138250_j73134703116926_1_alg».proof.Proof.Gen.ReferenceIdeal
import proofs.«138250_j73134703116926_1_alg».proof.Proof.Gen.Pre_finite_inputs
import proofs.«138250_j73134703116926_1_alg».proof.Proof.Preserves
import proofs.«138250_j73134703116926_1_alg».proof.Proof.KernelFrame
import proofs.«138250_j73134703116926_1_alg».proof.Proof.Final

noncomputable section

namespace Cert.Proof

theorem claim : Cert.Claim :=
  ⟨Cert.Kernel.Gen.facts, Cert.KernelIdeal.Gen.facts, Cert.ReferenceIdeal.Gen.facts, Cert.Pre_finite_inputs.Gen.facts,
    frame_Kernel', frame_KernelIdeal', frame_ReferenceIdeal', preserves, algebraic'⟩

end Cert.Proof

end
